-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v297)) (v1 : (c : Dev Cert.KernelIdeal.nD) → Buf (Elt Ideal) ((c.tc : Thread Cert.KernelIdeal.nD Cert.KernelIdeal.τ).loc Cert.KernelIdeal.main_v277_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v297) = v0 c
          ∧ r.2.mem ((c.tc : Thread Cert.KernelIdeal.nD Cert.KernelIdeal.τ).loc Cert.KernelIdeal.main_v277_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v453) = v0 c
          ∧ r.2.mem ((c.tc : Thread Cert.ReferenceIdeal.nD Cert.ReferenceIdeal.τ).loc Cert.ReferenceIdeal.main_v430) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S8x128x128 : Shape := ⟨3, ![8, 128, 128]⟩
abbrev S8x128 : Shape := ⟨2, ![8, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S128x10 .f32) (main_v50 : FVec F S128x10 .f32) : IVec S_ 1 :=
  let main_v51 : IVec S128x10 1 := cmpf .olt main_v49 main_v50
  let main_c_19 : IVec S_ 1 := constantI S_ 1 1#1
  let main_v52 : IVec S_ 1 := (fun x v => Host.reduce IntOp.andi x v reducesTo_S128x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S8x128 .f32) (main_arg10 : FVec F S128x128 .f32) (main_arg11 : FVec F S128 .f32) (main_arg12 : FVec F S128x10 .f32) (main_arg13 : FVec F S10 .f32) (main_v33 : IVec S_ 1) : IVec S_ 1 :=
  let main_v34 : FVec F S8x128 .f32 := Host.absf main_arg9
  let main_cst_12 : FVec F S_ .f32 := constant S_ .f32 0x7F800000#32
  let main_v35 : FVec F S8x128 .f32 := broadcastInDim S8x128 ![] bcast_S_S8x128 main_cst_12
  let main_v36 : IVec S8x128 1 := cmpf .olt main_v34 main_v35
  let main_c_13 : IVec S_ 1 := constantI S_ 1 1#1
  let main_v37 : IVec S_ 1 := (fun x v => Host.reduce IntOp.andi x v reducesTo_S8x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x10 .f32 := Host.absf main_arg12
  let main_cst_18 : FVec F S_ .f32 := constant S_ .f32 0x7F800000#32
  let main_v50 : FVec F S128x10 .f32 := broadcastInDim S128x10 ![] bcast_S_S128x10 main_cst_18
  fn_part3 (F := F) main_arg13 main_v48 main_v49 main_v50

def fn_part1 {F : FTy → Type} [FloatOps F] (main_arg6 : FVec F S8x128x128 .f32) (main_arg7 : FVec F S8x128 .f32) (main_arg8 : FVec F S8x128 .f32) (main_arg9 : FVec F S8x128 .f32) (main_arg10 : FVec F S128x128 .f32) (main_arg11 : FVec F S128 .f32) (main_arg12 : FVec F S128x10 .f32) (main_arg13 : FVec F S10 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S8x128x128 .f32 := Host.absf main_arg6
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S8x128 .f32 := Host.absf main_arg7
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  let main_v29 : FVec F S8x128 .f32 := Host.absf main_arg8
  let main_cst_10 : FVec F S_ .f32 := constant S_ .f32 0x7F800000#32
  let main_v30 : FVec F S8x128 .f32 := broadcastInDim S8x128 ![] bcast_S_S8x128 main_cst_10
  let main_v31 : IVec S8x128 1 := cmpf .olt main_v29 main_v30
  let main_c_11 : IVec S_ 1 := constantI S_ 1 1#1
  let main_v32 : IVec S_ 1 := (fun x v => Host.reduce IntOp.andi x v reducesTo_S8x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x600000 32) (main_arg2 : IVec S50000 32) (main_arg3 : FVec F S50000x128 .f32) (main_arg4 : FVec F S8x128x128 .f32) (main_arg5 : FVec F S8x128 .f32) (main_arg6 : FVec F S8x128x128 .f32) (main_arg7 : FVec F S8x128 .f32) (main_arg8 : FVec F S8x128 .f32) (main_arg9 : FVec F S8x128 .f32) (main_arg10 : FVec F S128x128 .f32) (main_arg11 : FVec F S128 .f32) (main_arg12 : FVec F S128x10 .f32) (main_arg13 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S8x128x128 .f32 := Host.absf main_arg4
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S8x128 .f32 := Host.absf main_arg5
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S8x128x128 : Shape := ⟨3, ![8, 128, 128]⟩
abbrev S8x128 : Shape := ⟨2, ![8, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S50000x1 : Shape := ⟨2, ![50000, 1]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S1x128 : Shape := ⟨2, ![1, 128]⟩
abbrev S10000x128 : Shape := ⟨2, ![10000, 128]⟩
abbrev S64x128 : Shape := ⟨2, ![64, 128]⟩
abbrev S10000x1 : Shape := ⟨2, ![10000, 1]⟩
abbrev S10000 : Shape := ⟨1, ![10000]⟩
abbrev S10000x64 : Shape := ⟨2, ![10000, 64]⟩
abbrev S64x10 : Shape := ⟨2, ![64, 10]⟩
abbrev S1x10 : Shape := ⟨2, ![1, 10]⟩
abbrev S64 : Shape := ⟨1, ![64]⟩
abbrev S64x1 : Shape := ⟨2, ![64, 1]⟩

abbrev nBuf : Space → Nat
  | .hbm => 379
  | .vmem => 169
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S50000x128, .f32⟩
  | 4 => ⟨S8x128x128, .f32⟩
  | 5 => ⟨S8x128, .f32⟩
  | 6 => ⟨S8x128x128, .f32⟩
  | 7 => ⟨S8x128, .f32⟩
  | 8 => ⟨S8x128, .f32⟩
  | 9 => ⟨S8x128, .f32⟩
  | 10 => ⟨S128x128, .f32⟩
  | 11 => ⟨S128, .f32⟩
  | 12 => ⟨S128x10, .f32⟩
  | 13 => ⟨S10, .f32⟩
  | 14 => ⟨S1x600000, .i32⟩
  | 15 => ⟨S600000, .i32⟩
  | 16 => ⟨S1x600000, .i32⟩
  | 17 => ⟨S600000, .i32⟩
  | 18 => ⟨S50000x1, .i32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x128, .f32⟩
  | 28 => ⟨S_, .f32⟩
  | 29 => ⟨S50000x128, .f32⟩
  | 30 => ⟨S600000x1, .i32⟩
  | 31 => ⟨S50000x128, .f32⟩
  | 32 => ⟨S1x128x128, .f32⟩
  | 33 => ⟨S128x128, .f32⟩
  | 34 => ⟨S1x128, .f32⟩
  | 35 => ⟨S128, .f32⟩
  | 36 => ⟨S1x128x128, .f32⟩
  | 37 => ⟨S128x128, .f32⟩
  | 38 => ⟨S1x128, .f32⟩
  | 39 => ⟨S128, .f32⟩
  | 40 => ⟨S1x128, .f32⟩
  | 41 => ⟨S1x128, .f32⟩
  | 42 => ⟨S50000x128, .f32⟩
  | 43 => ⟨S1x128, .f32⟩
  | 44 => ⟨S1x128, .f32⟩
  | 45 => ⟨S_, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S1x128, .f32⟩
  | 52 => ⟨S1x128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S1x128, .f32⟩
  | 59 => ⟨S50000x128, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x128, .f32⟩
  | 69 => ⟨S_, .f32⟩
  | 70 => ⟨S50000x128, .f32⟩
  | 71 => ⟨S600000x1, .i32⟩
  | 72 => ⟨S50000x128, .f32⟩
  | 73 => ⟨S1x128x128, .f32⟩
  | 74 => ⟨S128x128, .f32⟩
  | 75 => ⟨S1x128, .f32⟩
  | 76 => ⟨S128, .f32⟩
  | 77 => ⟨S1x128x128, .f32⟩
  | 78 => ⟨S128x128, .f32⟩
  | 79 => ⟨S1x128, .f32⟩
  | 80 => ⟨S128, .f32⟩
  | 81 => ⟨S1x128, .f32⟩
  | 82 => ⟨S1x128, .f32⟩
  | 83 => ⟨S50000x128, .f32⟩
  | 84 => ⟨S1x128, .f32⟩
  | 85 => ⟨S1x128, .f32⟩
  | 86 => ⟨S_, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S1x128, .f32⟩
  | 93 => ⟨S1x128, .f32⟩
  | 94 => ⟨S1x128, .f32⟩
  | 95 => ⟨S128, .f32⟩
  | 96 => ⟨S1x128, .f32⟩
  | 97 => ⟨S128, .f32⟩
  | 98 => ⟨S1x128, .f32⟩
  | 99 => ⟨S1x128, .f32⟩
  | 100 => ⟨S50000x128, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x128, .f32⟩
  | 110 => ⟨S_, .f32⟩
  | 111 => ⟨S50000x128, .f32⟩
  | 112 => ⟨S600000x1, .i32⟩
  | 113 => ⟨S50000x128, .f32⟩
  | 114 => ⟨S1x128x128, .f32⟩
  | 115 => ⟨S128x128, .f32⟩
  | 116 => ⟨S1x128, .f32⟩
  | 117 => ⟨S128, .f32⟩
  | 118 => ⟨S1x128x128, .f32⟩
  | 119 => ⟨S128x128, .f32⟩
  | 120 => ⟨S1x128, .f32⟩
  | 121 => ⟨S128, .f32⟩
  | 122 => ⟨S1x128, .f32⟩
  | 123 => ⟨S1x128, .f32⟩
  | 124 => ⟨S50000x128, .f32⟩
  | 125 => ⟨S1x128, .f32⟩
  | 126 => ⟨S1x128, .f32⟩
  | 127 => ⟨S_, .f32⟩
  | _ => ⟨S50000x128, .f32⟩

abbrev hbmTy0_1 (i : Nat) : BufTy := match i % 128 with
  | 0 => ⟨S1x128, .f32⟩
  | 1 => ⟨S1x128, .f32⟩
  | 2 => ⟨S_, .f32⟩
  | 3 => ⟨S1x128, .f32⟩
  | 4 => ⟨S1x128, .f32⟩
  | 5 => ⟨S1x128, .f32⟩
  | 6 => ⟨S1x128, .f32⟩
  | 7 => ⟨S1x128, .f32⟩
  | 8 => ⟨S128, .f32⟩
  | 9 => ⟨S1x128, .f32⟩
  | 10 => ⟨S128, .f32⟩
  | 11 => ⟨S1x128, .f32⟩
  | 12 => ⟨S1x128, .f32⟩
  | 13 => ⟨S50000x128, .f32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x128, .f32⟩
  | 23 => ⟨S_, .f32⟩
  | 24 => ⟨S50000x128, .f32⟩
  | 25 => ⟨S600000x1, .i32⟩
  | 26 => ⟨S50000x128, .f32⟩
  | 27 => ⟨S1x128x128, .f32⟩
  | 28 => ⟨S128x128, .f32⟩
  | 29 => ⟨S1x128, .f32⟩
  | 30 => ⟨S128, .f32⟩
  | 31 => ⟨S1x128x128, .f32⟩
  | 32 => ⟨S128x128, .f32⟩
  | 33 => ⟨S1x128, .f32⟩
  | 34 => ⟨S128, .f32⟩
  | 35 => ⟨S1x128, .f32⟩
  | 36 => ⟨S1x128, .f32⟩
  | 37 => ⟨S50000x128, .f32⟩
  | 38 => ⟨S1x128, .f32⟩
  | 39 => ⟨S1x128, .f32⟩
  | 40 => ⟨S_, .f32⟩
  | 41 => ⟨S1x128, .f32⟩
  | 42 => ⟨S1x128, .f32⟩
  | 43 => ⟨S_, .f32⟩
  | 44 => ⟨S1x128, .f32⟩
  | 45 => ⟨S1x128, .f32⟩
  | 46 => ⟨S1x128, .f32⟩
  | 47 => ⟨S1x128, .f32⟩
  | 48 => ⟨S1x128, .f32⟩
  | 49 => ⟨S128, .f32⟩
  | 50 => ⟨S1x128, .f32⟩
  | 51 => ⟨S128, .f32⟩
  | 52 => ⟨S1x128, .f32⟩
  | 53 => ⟨S1x128, .f32⟩
  | 54 => ⟨S50000x128, .f32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S600000x128, .f32⟩
  | 64 => ⟨S_, .f32⟩
  | 65 => ⟨S50000x128, .f32⟩
  | 66 => ⟨S600000x1, .i32⟩
  | 67 => ⟨S50000x128, .f32⟩
  | 68 => ⟨S1x128x128, .f32⟩
  | 69 => ⟨S128x128, .f32⟩
  | 70 => ⟨S1x128, .f32⟩
  | 71 => ⟨S128, .f32⟩
  | 72 => ⟨S1x128x128, .f32⟩
  | 73 => ⟨S128x128, .f32⟩
  | 74 => ⟨S1x128, .f32⟩
  | 75 => ⟨S128, .f32⟩
  | 76 => ⟨S1x128, .f32⟩
  | 77 => ⟨S1x128, .f32⟩
  | 78 => ⟨S50000x128, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S1x128, .f32⟩
  | 95 => ⟨S50000x128, .f32⟩
  | 96 => ⟨S_, .i32⟩
  | 97 => ⟨S600000, .i32⟩
  | 98 => ⟨S600000, .i1⟩
  | 99 => ⟨S_, .i32⟩
  | 100 => ⟨S600000, .i32⟩
  | 101 => ⟨S600000, .i32⟩
  | 102 => ⟨S600000, .i32⟩
  | 103 => ⟨S600000x1, .i32⟩
  | 104 => ⟨S600000x128, .f32⟩
  | 105 => ⟨S_, .f32⟩
  | 106 => ⟨S50000x128, .f32⟩
  | 107 => ⟨S600000x1, .i32⟩
  | 108 => ⟨S50000x128, .f32⟩
  | 109 => ⟨S1x128x128, .f32⟩
  | 110 => ⟨S128x128, .f32⟩
  | 111 => ⟨S1x128, .f32⟩
  | 112 => ⟨S128, .f32⟩
  | 113 => ⟨S1x128x128, .f32⟩
  | 114 => ⟨S128x128, .f32⟩
  | 115 => ⟨S1x128, .f32⟩
  | 116 => ⟨S128, .f32⟩
  | 117 => ⟨S1x128, .f32⟩
  | 118 => ⟨S1x128, .f32⟩
  | 119 => ⟨S50000x128, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S50000x128, .f32⟩

abbrev hbmTy0_2 (i : Nat) : BufTy := match i % 128 with
  | 0 => ⟨S1x128, .f32⟩
  | 1 => ⟨S1x128, .f32⟩
  | 2 => ⟨S1x128, .f32⟩
  | 3 => ⟨S128, .f32⟩
  | 4 => ⟨S1x128, .f32⟩
  | 5 => ⟨S128, .f32⟩
  | 6 => ⟨S1x128, .f32⟩
  | 7 => ⟨S1x128, .f32⟩
  | 8 => ⟨S50000x128, .f32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x128, .f32⟩
  | 18 => ⟨S_, .f32⟩
  | 19 => ⟨S50000x128, .f32⟩
  | 20 => ⟨S600000x1, .i32⟩
  | 21 => ⟨S50000x128, .f32⟩
  | 22 => ⟨S1x128x128, .f32⟩
  | 23 => ⟨S128x128, .f32⟩
  | 24 => ⟨S1x128, .f32⟩
  | 25 => ⟨S128, .f32⟩
  | 26 => ⟨S1x128x128, .f32⟩
  | 27 => ⟨S128x128, .f32⟩
  | 28 => ⟨S1x128, .f32⟩
  | 29 => ⟨S128, .f32⟩
  | 30 => ⟨S1x128, .f32⟩
  | 31 => ⟨S1x128, .f32⟩
  | 32 => ⟨S50000x128, .f32⟩
  | 33 => ⟨S1x128, .f32⟩
  | 34 => ⟨S1x128, .f32⟩
  | 35 => ⟨S_, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S1x128, .f32⟩
  | 42 => ⟨S1x128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S1x128, .f32⟩
  | 49 => ⟨S50000x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S_, .f32⟩
  | 60 => ⟨S50000x128, .f32⟩
  | 61 => ⟨S600000x1, .i32⟩
  | 62 => ⟨S50000x128, .f32⟩
  | 63 => ⟨S1x128x128, .f32⟩
  | 64 => ⟨S128x128, .f32⟩
  | 65 => ⟨S1x128, .f32⟩
  | 66 => ⟨S128, .f32⟩
  | 67 => ⟨S1x128x128, .f32⟩
  | 68 => ⟨S128x128, .f32⟩
  | 69 => ⟨S1x128, .f32⟩
  | 70 => ⟨S128, .f32⟩
  | 71 => ⟨S1x128, .f32⟩
  | 72 => ⟨S1x128, .f32⟩
  | 73 => ⟨S50000x128, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S_, .f32⟩
  | 80 => ⟨S1x128, .f32⟩
  | 81 => ⟨S1x128, .f32⟩
  | 82 => ⟨S1x128, .f32⟩
  | 83 => ⟨S1x128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S1x128, .f32⟩
  | 90 => ⟨S50000x128, .f32⟩
  | 91 => ⟨S50000x128, .f32⟩
  | 92 => ⟨S64x128, .f32⟩
  | 93 => ⟨S64x128, .f32⟩
  | 94 => ⟨S1x128, .f32⟩
  | 95 => ⟨S64x128, .f32⟩
  | 96 => ⟨S64x128, .f32⟩
  | 97 => ⟨S_, .f32⟩
  | 98 => ⟨S_, .f32⟩
  | 99 => ⟨S64x128, .f32⟩
  | 100 => ⟨S64x128, .i1⟩
  | 101 => ⟨S_, .f32⟩
  | 102 => ⟨S64x128, .f32⟩
  | 103 => ⟨S64x128, .f32⟩
  | 104 => ⟨S64x128, .f32⟩
  | 105 => ⟨S64x10, .f32⟩
  | 106 => ⟨S1x10, .f32⟩
  | 107 => ⟨S64x10, .f32⟩
  | 108 => ⟨S64x10, .f32⟩
  | 109 => ⟨S_, .f32⟩
  | 110 => ⟨S64, .f32⟩
  | 111 => ⟨S_, .f32⟩
  | 112 => ⟨S64, .f32⟩
  | 113 => ⟨S64, .f32⟩
  | 114 => ⟨S64x1, .f32⟩
  | 115 => ⟨S64x10, .f32⟩
  | 116 => ⟨S64x10, .f32⟩
  | 117 => ⟨S64x10, .f32⟩
  | 118 => ⟨S_, .f32⟩
  | 119 => ⟨S64, .f32⟩
  | 120 => ⟨S64x1, .f32⟩
  | 121 => ⟨S64x10, .f32⟩
  | 122 => ⟨S64x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev vmemTy0_0 (i : Nat) : BufTy := match i % 128 with
  | 0 => ⟨S10000x128, .f32⟩
  | 1 => ⟨S10000x128, .f32⟩
  | 2 => ⟨S10000x128, .f32⟩
  | 3 => ⟨S10000x128, .f32⟩
  | 4 => ⟨S128x128, .f32⟩
  | 5 => ⟨S1x128, .f32⟩
  | 6 => ⟨S128x128, .f32⟩
  | 7 => ⟨S1x128, .f32⟩
  | 8 => ⟨S10000x128, .f32⟩
  | 9 => ⟨S10000x128, .f32⟩
  | 10 => ⟨S1x128, .f32⟩
  | 11 => ⟨S1x128, .f32⟩
  | 12 => ⟨S10000x128, .f32⟩
  | 13 => ⟨S10000x128, .f32⟩
  | 14 => ⟨S1x128, .f32⟩
  | 15 => ⟨S1x128, .f32⟩
  | 16 => ⟨S1x128, .f32⟩
  | 17 => ⟨S1x128, .f32⟩
  | 18 => ⟨S10000x128, .f32⟩
  | 19 => ⟨S10000x128, .f32⟩
  | 20 => ⟨S10000x128, .f32⟩
  | 21 => ⟨S10000x128, .f32⟩
  | 22 => ⟨S10000x128, .f32⟩
  | 23 => ⟨S10000x128, .f32⟩
  | 24 => ⟨S128x128, .f32⟩
  | 25 => ⟨S1x128, .f32⟩
  | 26 => ⟨S128x128, .f32⟩
  | 27 => ⟨S1x128, .f32⟩
  | 28 => ⟨S10000x128, .f32⟩
  | 29 => ⟨S10000x128, .f32⟩
  | 30 => ⟨S1x128, .f32⟩
  | 31 => ⟨S1x128, .f32⟩
  | 32 => ⟨S10000x128, .f32⟩
  | 33 => ⟨S10000x128, .f32⟩
  | 34 => ⟨S1x128, .f32⟩
  | 35 => ⟨S1x128, .f32⟩
  | 36 => ⟨S1x128, .f32⟩
  | 37 => ⟨S1x128, .f32⟩
  | 38 => ⟨S10000x128, .f32⟩
  | 39 => ⟨S10000x128, .f32⟩
  | 40 => ⟨S10000x128, .f32⟩
  | 41 => ⟨S10000x128, .f32⟩
  | 42 => ⟨S10000x128, .f32⟩
  | 43 => ⟨S10000x128, .f32⟩
  | 44 => ⟨S128x128, .f32⟩
  | 45 => ⟨S1x128, .f32⟩
  | 46 => ⟨S128x128, .f32⟩
  | 47 => ⟨S1x128, .f32⟩
  | 48 => ⟨S10000x128, .f32⟩
  | 49 => ⟨S10000x128, .f32⟩
  | 50 => ⟨S1x128, .f32⟩
  | 51 => ⟨S1x128, .f32⟩
  | 52 => ⟨S10000x128, .f32⟩
  | 53 => ⟨S10000x128, .f32⟩
  | 54 => ⟨S1x128, .f32⟩
  | 55 => ⟨S1x128, .f32⟩
  | 56 => ⟨S1x128, .f32⟩
  | 57 => ⟨S1x128, .f32⟩
  | 58 => ⟨S10000x128, .f32⟩
  | 59 => ⟨S10000x128, .f32⟩
  | 60 => ⟨S10000x128, .f32⟩
  | 61 => ⟨S10000x128, .f32⟩
  | 62 => ⟨S10000x128, .f32⟩
  | 63 => ⟨S10000x128, .f32⟩
  | 64 => ⟨S128x128, .f32⟩
  | 65 => ⟨S1x128, .f32⟩
  | 66 => ⟨S128x128, .f32⟩
  | 67 => ⟨S1x128, .f32⟩
  | 68 => ⟨S10000x128, .f32⟩
  | 69 => ⟨S10000x128, .f32⟩
  | 70 => ⟨S1x128, .f32⟩
  | 71 => ⟨S1x128, .f32⟩
  | 72 => ⟨S10000x128, .f32⟩
  | 73 => ⟨S10000x128, .f32⟩
  | 74 => ⟨S1x128, .f32⟩
  | 75 => ⟨S1x128, .f32⟩
  | 76 => ⟨S1x128, .f32⟩
  | 77 => ⟨S1x128, .f32⟩
  | 78 => ⟨S10000x128, .f32⟩
  | 79 => ⟨S10000x128, .f32⟩
  | 80 => ⟨S10000x128, .f32⟩
  | 81 => ⟨S10000x128, .f32⟩
  | 82 => ⟨S10000x128, .f32⟩
  | 83 => ⟨S10000x128, .f32⟩
  | 84 => ⟨S128x128, .f32⟩
  | 85 => ⟨S1x128, .f32⟩
  | 86 => ⟨S128x128, .f32⟩
  | 87 => ⟨S1x128, .f32⟩
  | 88 => ⟨S10000x128, .f32⟩
  | 89 => ⟨S10000x128, .f32⟩
  | 90 => ⟨S1x128, .f32⟩
  | 91 => ⟨S1x128, .f32⟩
  | 92 => ⟨S10000x128, .f32⟩
  | 93 => ⟨S10000x128, .f32⟩
  | 94 => ⟨S1x128, .f32⟩
  | 95 => ⟨S1x128, .f32⟩
  | 96 => ⟨S1x128, .f32⟩
  | 97 => ⟨S1x128, .f32⟩
  | 98 => ⟨S10000x128, .f32⟩
  | 99 => ⟨S10000x128, .f32⟩
  | 100 => ⟨S10000x128, .f32⟩
  | 101 => ⟨S10000x128, .f32⟩
  | 102 => ⟨S10000x128, .f32⟩
  | 103 => ⟨S10000x128, .f32⟩
  | 104 => ⟨S128x128, .f32⟩
  | 105 => ⟨S1x128, .f32⟩
  | 106 => ⟨S128x128, .f32⟩
  | 107 => ⟨S1x128, .f32⟩
  | 108 => ⟨S10000x128, .f32⟩
  | 109 => ⟨S10000x128, .f32⟩
  | 110 => ⟨S1x128, .f32⟩
  | 111 => ⟨S1x128, .f32⟩
  | 112 => ⟨S10000x128, .f32⟩
  | 113 => ⟨S10000x128, .f32⟩
  | 114 => ⟨S1x128, .f32⟩
  | 115 => ⟨S1x128, .f32⟩
  | 116 => ⟨S1x128, .f32⟩
  | 117 => ⟨S1x128, .f32⟩
  | 118 => ⟨S10000x128, .f32⟩
  | 119 => ⟨S10000x128, .f32⟩
  | 120 => ⟨S10000x128, .f32⟩
  | 121 => ⟨S10000x128, .f32⟩
  | 122 => ⟨S10000x128, .f32⟩
  | 123 => ⟨S10000x128, .f32⟩
  | 124 => ⟨S128x128, .f32⟩
  | 125 => ⟨S1x128, .f32⟩
  | 126 => ⟨S128x128, .f32⟩
  | 127 => ⟨S1x128, .f32⟩
  | _ => ⟨S50000x128, .f32⟩

abbrev vmemTy0_1 (i : Nat) : BufTy := match i % 128 with
  | 0 => ⟨S10000x128, .f32⟩
  | 1 => ⟨S10000x128, .f32⟩
  | 2 => ⟨S1x128, .f32⟩
  | 3 => ⟨S1x128, .f32⟩
  | 4 => ⟨S10000x128, .f32⟩
  | 5 => ⟨S10000x128, .f32⟩
  | 6 => ⟨S1x128, .f32⟩
  | 7 => ⟨S1x128, .f32⟩
  | 8 => ⟨S1x128, .f32⟩
  | 9 => ⟨S1x128, .f32⟩
  | 10 => ⟨S10000x128, .f32⟩
  | 11 => ⟨S10000x128, .f32⟩
  | 12 => ⟨S10000x128, .f32⟩
  | 13 => ⟨S10000x128, .f32⟩
  | 14 => ⟨S10000x128, .f32⟩
  | 15 => ⟨S10000x128, .f32⟩
  | 16 => ⟨S128x128, .f32⟩
  | 17 => ⟨S1x128, .f32⟩
  | 18 => ⟨S128x128, .f32⟩
  | 19 => ⟨S1x128, .f32⟩
  | 20 => ⟨S10000x128, .f32⟩
  | 21 => ⟨S10000x128, .f32⟩
  | 22 => ⟨S1x128, .f32⟩
  | 23 => ⟨S1x128, .f32⟩
  | 24 => ⟨S10000x128, .f32⟩
  | 25 => ⟨S10000x128, .f32⟩
  | 26 => ⟨S1x128, .f32⟩
  | 27 => ⟨S1x128, .f32⟩
  | 28 => ⟨S1x128, .f32⟩
  | 29 => ⟨S1x128, .f32⟩
  | 30 => ⟨S10000x128, .f32⟩
  | 31 => ⟨S10000x128, .f32⟩
  | 32 => ⟨S10000x128, .f32⟩
  | 33 => ⟨S10000x128, .f32⟩
  | 34 => ⟨S10000x128, .f32⟩
  | 35 => ⟨S10000x128, .f32⟩
  | 36 => ⟨S10000x1, .i32⟩
  | 37 => ⟨S10000x1, .i32⟩
  | 38 => ⟨S10000x128, .f32⟩
  | 39 => ⟨S10000x128, .f32⟩
  | 40 => ⟨S64x128, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 169 → Bool
  | ⟨i, _⟩ => dmaSemScopedAt i

abbrev sig : RefSig :=
  ofTc nBuf bufTy 0 169 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_v25_2 : Ref sig .tc := ⟨.hbm, 44, rfl⟩
abbrev main_cst_1 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_3 : Ref sig .tc := ⟨.hbm, 60, rfl⟩
abbrev main_v39 : Ref sig .tc := ⟨.hbm, 61, rfl⟩
abbrev main_v40 : Ref sig .tc := ⟨.hbm, 62, rfl⟩
abbrev main_c_4 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59_0 : Ref sig .tc := ⟨.hbm, 83, rfl⟩
abbrev main_v59_1 : Ref sig .tc := ⟨.hbm, 84, rfl⟩
abbrev main_v59_2 : Ref sig .tc := ⟨.hbm, 85, rfl⟩
abbrev main_cst_6 : Ref sig .tc := ⟨.hbm, 86, rfl⟩
abbrev main_v60 : Ref sig .tc := ⟨.hbm, 87, rfl⟩
abbrev main_v61 : Ref sig .tc := ⟨.hbm, 88, rfl⟩
abbrev main_cst_7 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_8 : Ref sig .tc := ⟨.hbm, 101, rfl⟩
abbrev main_v73 : Ref sig .tc := ⟨.hbm, 102, rfl⟩
abbrev main_v74 : Ref sig .tc := ⟨.hbm, 103, rfl⟩
abbrev main_c_9 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_10 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93_0 : Ref sig .tc := ⟨.hbm, 124, rfl⟩
abbrev main_v93_1 : Ref sig .tc := ⟨.hbm, 125, rfl⟩
abbrev main_v93_2 : Ref sig .tc := ⟨.hbm, 126, rfl⟩
abbrev main_cst_11 : Ref sig .tc := ⟨.hbm, 127, rfl⟩
abbrev main_v94 : Ref sig .tc := ⟨.hbm, 128, rfl⟩
abbrev main_v95 : Ref sig .tc := ⟨.hbm, 129, rfl⟩
abbrev main_cst_12 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_13 : Ref sig .tc := ⟨.hbm, 142, rfl⟩
abbrev main_v107 : Ref sig .tc := ⟨.hbm, 143, rfl⟩
abbrev main_v108 : Ref sig .tc := ⟨.hbm, 144, rfl⟩
abbrev main_c_14 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_15 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127_0 : Ref sig .tc := ⟨.hbm, 165, rfl⟩
abbrev main_v127_1 : Ref sig .tc := ⟨.hbm, 166, rfl⟩
abbrev main_v127_2 : Ref sig .tc := ⟨.hbm, 167, rfl⟩
abbrev main_cst_16 : Ref sig .tc := ⟨.hbm, 168, rfl⟩
abbrev main_v128 : Ref sig .tc := ⟨.hbm, 169, rfl⟩
abbrev main_v129 : Ref sig .tc := ⟨.hbm, 170, rfl⟩
abbrev main_cst_17 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_c_18 : Ref sig .tc := ⟨.hbm, 183, rfl⟩
abbrev main_v141 : Ref sig .tc := ⟨.hbm, 184, rfl⟩
abbrev main_v142 : Ref sig .tc := ⟨.hbm, 185, rfl⟩
abbrev main_c_19 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_20 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161_0 : Ref sig .tc := ⟨.hbm, 206, rfl⟩
abbrev main_v161_1 : Ref sig .tc := ⟨.hbm, 207, rfl⟩
abbrev main_v161_2 : Ref sig .tc := ⟨.hbm, 208, rfl⟩
abbrev main_cst_21 : Ref sig .tc := ⟨.hbm, 209, rfl⟩
abbrev main_v162 : Ref sig .tc := ⟨.hbm, 210, rfl⟩
abbrev main_v163 : Ref sig .tc := ⟨.hbm, 211, rfl⟩
abbrev main_cst_22 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_c_23 : Ref sig .tc := ⟨.hbm, 224, rfl⟩
abbrev main_v175 : Ref sig .tc := ⟨.hbm, 225, rfl⟩
abbrev main_v176 : Ref sig .tc := ⟨.hbm, 226, rfl⟩
abbrev main_c_24 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_cst_25 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195_0 : Ref sig .tc := ⟨.hbm, 247, rfl⟩
abbrev main_v195_1 : Ref sig .tc := ⟨.hbm, 248, rfl⟩
abbrev main_v195_2 : Ref sig .tc := ⟨.hbm, 249, rfl⟩
abbrev main_cst_26 : Ref sig .tc := ⟨.hbm, 250, rfl⟩
abbrev main_v196 : Ref sig .tc := ⟨.hbm, 251, rfl⟩
abbrev main_v197 : Ref sig .tc := ⟨.hbm, 252, rfl⟩
abbrev main_cst_27 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_c_28 : Ref sig .tc := ⟨.hbm, 265, rfl⟩
abbrev main_v209 : Ref sig .tc := ⟨.hbm, 266, rfl⟩
abbrev main_v210 : Ref sig .tc := ⟨.hbm, 267, rfl⟩
abbrev main_c_29 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_cst_30 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229_0 : Ref sig .tc := ⟨.hbm, 288, rfl⟩
abbrev main_v229_1 : Ref sig .tc := ⟨.hbm, 289, rfl⟩
abbrev main_v229_2 : Ref sig .tc := ⟨.hbm, 290, rfl⟩
abbrev main_cst_31 : Ref sig .tc := ⟨.hbm, 291, rfl⟩
abbrev main_v230 : Ref sig .tc := ⟨.hbm, 292, rfl⟩
abbrev main_v231 : Ref sig .tc := ⟨.hbm, 293, rfl⟩
abbrev main_cst_32 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_c_33 : Ref sig .tc := ⟨.hbm, 306, rfl⟩
abbrev main_v243 : Ref sig .tc := ⟨.hbm, 307, rfl⟩
abbrev main_v244 : Ref sig .tc := ⟨.hbm, 308, rfl⟩
abbrev main_c_34 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_cst_35 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev main_v259 : Ref sig .tc := ⟨.hbm, 325, rfl⟩
abbrev main_v260 : Ref sig .tc := ⟨.hbm, 326, rfl⟩
abbrev main_v261 : Ref sig .tc := ⟨.hbm, 327, rfl⟩
abbrev main_v262 : Ref sig .tc := ⟨.hbm, 328, rfl⟩
abbrev main_v263_0 : Ref sig .tc := ⟨.hbm, 329, rfl⟩
abbrev main_v263_1 : Ref sig .tc := ⟨.hbm, 330, rfl⟩
abbrev main_v263_2 : Ref sig .tc := ⟨.hbm, 331, rfl⟩
abbrev main_cst_36 : Ref sig .tc := ⟨.hbm, 332, rfl⟩
abbrev main_v264 : Ref sig .tc := ⟨.hbm, 333, rfl⟩
abbrev main_v265 : Ref sig .tc := ⟨.hbm, 334, rfl⟩
abbrev main_cst_37 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_v277_0 : Ref sig .tc := ⟨.hbm, 347, rfl⟩
abbrev main_v277_1 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_cst_38 : Ref sig .tc := ⟨.hbm, 353, rfl⟩
abbrev main_call0_cst : Ref sig .tc := ⟨.hbm, 354, rfl⟩
abbrev main_call0_v0 : Ref sig .tc := ⟨.hbm, 355, rfl⟩
abbrev main_call0_v1 : Ref sig .tc := ⟨.hbm, 356, rfl⟩
abbrev main_call0_v2 : Ref sig .tc := ⟨.hbm, 357, rfl⟩
abbrev main_call0_v3 : Ref sig .tc := ⟨.hbm, 358, rfl⟩
abbrev main_call0_v4 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_v285 : Ref sig .tc := ⟨.hbm, 363, rfl⟩
abbrev main_v286 : Ref sig .tc := ⟨.hbm, 364, rfl⟩
abbrev main_cst_39 : Ref sig .tc := ⟨.hbm, 365, rfl⟩
abbrev main_v287 : Ref sig .tc := ⟨.hbm, 366, rfl⟩
abbrev main_cst_40 : Ref sig .tc := ⟨.hbm, 367, rfl⟩
abbrev main_v288 : Ref sig .tc := ⟨.hbm, 368, rfl⟩
abbrev main_v289 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_v293 : Ref sig .tc := ⟨.hbm, 373, rfl⟩
abbrev main_cst_41 : Ref sig .tc := ⟨.hbm, 374, rfl⟩
abbrev main_v294 : Ref sig .tc := ⟨.hbm, 375, rfl⟩
abbrev main_v295 : Ref sig .tc := ⟨.hbm, 376, rfl⟩
abbrev main_v296 : Ref sig .tc := ⟨.hbm, 377, rfl⟩
abbrev main_v297 : Ref sig .tc := ⟨.hbm, 378, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg5_0 : Ref sig .tc := ⟨.vmem, 67, rfl⟩
abbrev cc6_stg6_0 : Ref sig .tc := ⟨.vmem, 68, rfl⟩
abbrev cc6_stg6_1 : Ref sig .tc := ⟨.vmem, 69, rfl⟩
abbrev cc6_stg7_0 : Ref sig .tc := ⟨.vmem, 70, rfl⟩
abbrev cc6_stg8_0 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg4_0 : Ref sig .tc := ⟨.vmem, 77, rfl⟩
abbrev cc7_stg5_0 : Ref sig .tc := ⟨.vmem, 78, rfl⟩
abbrev cc7_stg5_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg1_1 : Ref sig .tc := ⟨.vmem, 83, rfl⟩
abbrev cc8_stg2_0 : Ref sig .tc := ⟨.vmem, 84, rfl⟩
abbrev cc8_stg3_0 : Ref sig .tc := ⟨.vmem, 85, rfl⟩
abbrev cc8_stg4_0 : Ref sig .tc := ⟨.vmem, 86, rfl⟩
abbrev cc8_stg5_0 : Ref sig .tc := ⟨.vmem, 87, rfl⟩
abbrev cc8_stg6_0 : Ref sig .tc := ⟨.vmem, 88, rfl⟩
abbrev cc8_stg6_1 : Ref sig .tc := ⟨.vmem, 89, rfl⟩
abbrev cc8_stg7_0 : Ref sig .tc := ⟨.vmem, 90, rfl⟩
abbrev cc8_stg8_0 : Ref sig .tc := ⟨.vmem, 91, rfl⟩
abbrev cc9_stg0_0 : Ref sig .tc := ⟨.vmem, 92, rfl⟩
abbrev cc9_stg0_1 : Ref sig .tc := ⟨.vmem, 93, rfl⟩
abbrev cc9_stg1_0 : Ref sig .tc := ⟨.vmem, 94, rfl⟩
abbrev cc9_stg2_0 : Ref sig .tc := ⟨.vmem, 95, rfl⟩
abbrev cc9_stg3_0 : Ref sig .tc := ⟨.vmem, 96, rfl⟩
abbrev cc9_stg4_0 : Ref sig .tc := ⟨.vmem, 97, rfl⟩
abbrev cc9_stg5_0 : Ref sig .tc := ⟨.vmem, 98, rfl⟩
abbrev cc9_stg5_1 : Ref sig .tc := ⟨.vmem, 99, rfl⟩
abbrev cc10_stg0_0 : Ref sig .tc := ⟨.vmem, 100, rfl⟩
abbrev cc10_stg0_1 : Ref sig .tc := ⟨.vmem, 101, rfl⟩
abbrev cc10_stg1_0 : Ref sig .tc := ⟨.vmem, 102, rfl⟩
abbrev cc10_stg1_1 : Ref sig .tc := ⟨.vmem, 103, rfl⟩
abbrev cc10_stg2_0 : Ref sig .tc := ⟨.vmem, 104, rfl⟩
abbrev cc10_stg3_0 : Ref sig .tc := ⟨.vmem, 105, rfl⟩
abbrev cc10_stg4_0 : Ref sig .tc := ⟨.vmem, 106, rfl⟩
abbrev cc10_stg5_0 : Ref sig .tc := ⟨.vmem, 107, rfl⟩
abbrev cc10_stg6_0 : Ref sig .tc := ⟨.vmem, 108, rfl⟩
abbrev cc10_stg6_1 : Ref sig .tc := ⟨.vmem, 109, rfl⟩
abbrev cc10_stg7_0 : Ref sig .tc := ⟨.vmem, 110, rfl⟩
abbrev cc10_stg8_0 : Ref sig .tc := ⟨.vmem, 111, rfl⟩
abbrev cc11_stg0_0 : Ref sig .tc := ⟨.vmem, 112, rfl⟩
abbrev cc11_stg0_1 : Ref sig .tc := ⟨.vmem, 113, rfl⟩
abbrev cc11_stg1_0 : Ref sig .tc := ⟨.vmem, 114, rfl⟩
abbrev cc11_stg2_0 : Ref sig .tc := ⟨.vmem, 115, rfl⟩
abbrev cc11_stg3_0 : Ref sig .tc := ⟨.vmem, 116, rfl⟩
abbrev cc11_stg4_0 : Ref sig .tc := ⟨.vmem, 117, rfl⟩
abbrev cc11_stg5_0 : Ref sig .tc := ⟨.vmem, 118, rfl⟩
abbrev cc11_stg5_1 : Ref sig .tc := ⟨.vmem, 119, rfl⟩
abbrev cc12_stg0_0 : Ref sig .tc := ⟨.vmem, 120, rfl⟩
abbrev cc12_stg0_1 : Ref sig .tc := ⟨.vmem, 121, rfl⟩
abbrev cc12_stg1_0 : Ref sig .tc := ⟨.vmem, 122, rfl⟩
abbrev cc12_stg1_1 : Ref sig .tc := ⟨.vmem, 123, rfl⟩
abbrev cc12_stg2_0 : Ref sig .tc := ⟨.vmem, 124, rfl⟩
abbrev cc12_stg3_0 : Ref sig .tc := ⟨.vmem, 125, rfl⟩
abbrev cc12_stg4_0 : Ref sig .tc := ⟨.vmem, 126, rfl⟩
abbrev cc12_stg5_0 : Ref sig .tc := ⟨.vmem, 127, rfl⟩
abbrev cc12_stg6_0 : Ref sig .tc := ⟨.vmem, 128, rfl⟩
abbrev cc12_stg6_1 : Ref sig .tc := ⟨.vmem, 129, rfl⟩
abbrev cc12_stg7_0 : Ref sig .tc := ⟨.vmem, 130, rfl⟩
abbrev cc12_stg8_0 : Ref sig .tc := ⟨.vmem, 131, rfl⟩
abbrev cc13_stg0_0 : Ref sig .tc := ⟨.vmem, 132, rfl⟩
abbrev cc13_stg0_1 : Ref sig .tc := ⟨.vmem, 133, rfl⟩
abbrev cc13_stg1_0 : Ref sig .tc := ⟨.vmem, 134, rfl⟩
abbrev cc13_stg2_0 : Ref sig .tc := ⟨.vmem, 135, rfl⟩
abbrev cc13_stg3_0 : Ref sig .tc := ⟨.vmem, 136, rfl⟩
abbrev cc13_stg4_0 : Ref sig .tc := ⟨.vmem, 137, rfl⟩
abbrev cc13_stg5_0 : Ref sig .tc := ⟨.vmem, 138, rfl⟩
abbrev cc13_stg5_1 : Ref sig .tc := ⟨.vmem, 139, rfl⟩
abbrev cc14_stg0_0 : Ref sig .tc := ⟨.vmem, 140, rfl⟩
abbrev cc14_stg0_1 : Ref sig .tc := ⟨.vmem, 141, rfl⟩
abbrev cc14_stg1_0 : Ref sig .tc := ⟨.vmem, 142, rfl⟩
abbrev cc14_stg1_1 : Ref sig .tc := ⟨.vmem, 143, rfl⟩
abbrev cc14_stg2_0 : Ref sig .tc := ⟨.vmem, 144, rfl⟩
abbrev cc14_stg3_0 : Ref sig .tc := ⟨.vmem, 145, rfl⟩
abbrev cc14_stg4_0 : Ref sig .tc := ⟨.vmem, 146, rfl⟩
abbrev cc14_stg5_0 : Ref sig .tc := ⟨.vmem, 147, rfl⟩
abbrev cc14_stg6_0 : Ref sig .tc := ⟨.vmem, 148, rfl⟩
abbrev cc14_stg6_1 : Ref sig .tc := ⟨.vmem, 149, rfl⟩
abbrev cc14_stg7_0 : Ref sig .tc := ⟨.vmem, 150, rfl⟩
abbrev cc14_stg8_0 : Ref sig .tc := ⟨.vmem, 151, rfl⟩
abbrev cc15_stg0_0 : Ref sig .tc := ⟨.vmem, 152, rfl⟩
abbrev cc15_stg0_1 : Ref sig .tc := ⟨.vmem, 153, rfl⟩
abbrev cc15_stg1_0 : Ref sig .tc := ⟨.vmem, 154, rfl⟩
abbrev cc15_stg2_0 : Ref sig .tc := ⟨.vmem, 155, rfl⟩
abbrev cc15_stg3_0 : Ref sig .tc := ⟨.vmem, 156, rfl⟩
abbrev cc15_stg4_0 : Ref sig .tc := ⟨.vmem, 157, rfl⟩
abbrev cc15_stg5_0 : Ref sig .tc := ⟨.vmem, 158, rfl⟩
abbrev cc15_stg5_1 : Ref sig .tc := ⟨.vmem, 159, rfl⟩
abbrev cc16_stg0_0 : Ref sig .tc := ⟨.vmem, 160, rfl⟩
abbrev cc16_stg0_1 : Ref sig .tc := ⟨.vmem, 161, rfl⟩
abbrev cc16_stg1_0 : Ref sig .tc := ⟨.vmem, 162, rfl⟩
abbrev cc16_stg1_1 : Ref sig .tc := ⟨.vmem, 163, rfl⟩
abbrev cc16_stg2_0 : Ref sig .tc := ⟨.vmem, 164, rfl⟩
abbrev cc16_stg2_1 : Ref sig .tc := ⟨.vmem, 165, rfl⟩
abbrev cc16_stg3_0 : Ref sig .tc := ⟨.vmem, 166, rfl⟩
abbrev cc16_stg3_1 : Ref sig .tc := ⟨.vmem, 167, rfl⟩
abbrev cc16_stg4_0 : Ref sig .tc := ⟨.vmem, 168, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem6_0 : DmaSem sig := 68
abbrev cc6_sem6_1 : DmaSem sig := 69
abbrev cc6_sem7_0 : DmaSem sig := 70
abbrev cc6_sem8_0 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76
abbrev cc7_sem4_0 : DmaSem sig := 77
abbrev cc7_sem5_0 : DmaSem sig := 78
abbrev cc7_sem5_1 : DmaSem sig := 79
abbrev cc8_sem0_0 : DmaSem sig := 80
abbrev cc8_sem0_1 : DmaSem sig := 81
abbrev cc8_sem1_0 : DmaSem sig := 82
abbrev cc8_sem1_1 : DmaSem sig := 83
abbrev cc8_sem2_0 : DmaSem sig := 84
abbrev cc8_sem3_0 : DmaSem sig := 85
abbrev cc8_sem4_0 : DmaSem sig := 86
abbrev cc8_sem5_0 : DmaSem sig := 87
abbrev cc8_sem6_0 : DmaSem sig := 88
abbrev cc8_sem6_1 : DmaSem sig := 89
abbrev cc8_sem7_0 : DmaSem sig := 90
abbrev cc8_sem8_0 : DmaSem sig := 91
abbrev cc9_sem0_0 : DmaSem sig := 92
abbrev cc9_sem0_1 : DmaSem sig := 93
abbrev cc9_sem1_0 : DmaSem sig := 94
abbrev cc9_sem2_0 : DmaSem sig := 95
abbrev cc9_sem3_0 : DmaSem sig := 96
abbrev cc9_sem4_0 : DmaSem sig := 97
abbrev cc9_sem5_0 : DmaSem sig := 98
abbrev cc9_sem5_1 : DmaSem sig := 99
abbrev cc10_sem0_0 : DmaSem sig := 100
abbrev cc10_sem0_1 : DmaSem sig := 101
abbrev cc10_sem1_0 : DmaSem sig := 102
abbrev cc10_sem1_1 : DmaSem sig := 103
abbrev cc10_sem2_0 : DmaSem sig := 104
abbrev cc10_sem3_0 : DmaSem sig := 105
abbrev cc10_sem4_0 : DmaSem sig := 106
abbrev cc10_sem5_0 : DmaSem sig := 107
abbrev cc10_sem6_0 : DmaSem sig := 108
abbrev cc10_sem6_1 : DmaSem sig := 109
abbrev cc10_sem7_0 : DmaSem sig := 110
abbrev cc10_sem8_0 : DmaSem sig := 111
abbrev cc11_sem0_0 : DmaSem sig := 112
abbrev cc11_sem0_1 : DmaSem sig := 113
abbrev cc11_sem1_0 : DmaSem sig := 114
abbrev cc11_sem2_0 : DmaSem sig := 115
abbrev cc11_sem3_0 : DmaSem sig := 116
abbrev cc11_sem4_0 : DmaSem sig := 117
abbrev cc11_sem5_0 : DmaSem sig := 118
abbrev cc11_sem5_1 : DmaSem sig := 119
abbrev cc12_sem0_0 : DmaSem sig := 120
abbrev cc12_sem0_1 : DmaSem sig := 121
abbrev cc12_sem1_0 : DmaSem sig := 122
abbrev cc12_sem1_1 : DmaSem sig := 123
abbrev cc12_sem2_0 : DmaSem sig := 124
abbrev cc12_sem3_0 : DmaSem sig := 125
abbrev cc12_sem4_0 : DmaSem sig := 126
abbrev cc12_sem5_0 : DmaSem sig := 127
abbrev cc12_sem6_0 : DmaSem sig := 128
abbrev cc12_sem6_1 : DmaSem sig := 129
abbrev cc12_sem7_0 : DmaSem sig := 130
abbrev cc12_sem8_0 : DmaSem sig := 131
abbrev cc13_sem0_0 : DmaSem sig := 132
abbrev cc13_sem0_1 : DmaSem sig := 133
abbrev cc13_sem1_0 : DmaSem sig := 134
abbrev cc13_sem2_0 : DmaSem sig := 135
abbrev cc13_sem3_0 : DmaSem sig := 136
abbrev cc13_sem4_0 : DmaSem sig := 137
abbrev cc13_sem5_0 : DmaSem sig := 138
abbrev cc13_sem5_1 : DmaSem sig := 139
abbrev cc14_sem0_0 : DmaSem sig := 140
abbrev cc14_sem0_1 : DmaSem sig := 141
abbrev cc14_sem1_0 : DmaSem sig := 142
abbrev cc14_sem1_1 : DmaSem sig := 143
abbrev cc14_sem2_0 : DmaSem sig := 144
abbrev cc14_sem3_0 : DmaSem sig := 145
abbrev cc14_sem4_0 : DmaSem sig := 146
abbrev cc14_sem5_0 : DmaSem sig := 147
abbrev cc14_sem6_0 : DmaSem sig := 148
abbrev cc14_sem6_1 : DmaSem sig := 149
abbrev cc14_sem7_0 : DmaSem sig := 150
abbrev cc14_sem8_0 : DmaSem sig := 151
abbrev cc15_sem0_0 : DmaSem sig := 152
abbrev cc15_sem0_1 : DmaSem sig := 153
abbrev cc15_sem1_0 : DmaSem sig := 154
abbrev cc15_sem2_0 : DmaSem sig := 155
abbrev cc15_sem3_0 : DmaSem sig := 156
abbrev cc15_sem4_0 : DmaSem sig := 157
abbrev cc15_sem5_0 : DmaSem sig := 158
abbrev cc15_sem5_1 : DmaSem sig := 159
abbrev cc16_sem0_0 : DmaSem sig := 160
abbrev cc16_sem0_1 : DmaSem sig := 161
abbrev cc16_sem1_0 : DmaSem sig := 162
abbrev cc16_sem1_1 : DmaSem sig := 163
abbrev cc16_sem2_0 : DmaSem sig := 164
abbrev cc16_sem2_1 : DmaSem sig := 165
abbrev cc16_sem3_0 : DmaSem sig := 166
abbrev cc16_sem3_1 : DmaSem sig := 167
abbrev cc16_sem4_0 : DmaSem sig := 168

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S10000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S10000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S10000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S10000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S10000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S128x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S10000x128 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev stage10_7 : Fin 1 → Memref sig .tc .vmem S1x128 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S1x128 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S10000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![5], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S10000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S10000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S128x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S10000x128 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev stage12_7 : Fin 1 → Memref sig .tc .vmem S1x128 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S1x128 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev grid13 : Pipeline.Grid := ⟨1, ![5], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S10000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S10000x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![5], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_7 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_8 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S10000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S10000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S128x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S128x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S1x128 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 2 → Memref sig .tc .vmem S10000x128 .f32 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true]

abbrev stage14_7 : Fin 1 → Memref sig .tc .vmem S1x128 .f32 := fun | 0 => Memref.whole cc14_stg7_0 | ⟨_ + 1, h⟩ => absurd h (Nat.not_lt.2 (Nat.le_add_left _ _))
abbrev sem14_7 : Fin 1 → DmaSem sig := fun | 0 => cc14_sem7_0 | ⟨_ + 1, h⟩ => absurd h (Nat.not_lt.2 (Nat.le_add_left _ _))
abbrev reads14_7 : Fin grid14.rank → Bool := ![false]

abbrev stage14_8 : Fin 1 → Memref sig .tc .vmem S1x128 .f32 := fun | 0 => Memref.whole cc14_stg8_0 | ⟨_ + 1, h⟩ => absurd h (Nat.not_lt.2 (Nat.le_add_left _ _))
abbrev sem14_8 : Fin 1 → DmaSem sig := fun | 0 => cc14_sem8_0 | ⟨_ + 1, h⟩ => absurd h (Nat.not_lt.2 (Nat.le_add_left _ _))
abbrev reads14_8 : Fin grid14.rank → Bool := ![false]

abbrev grid15 : Pipeline.Grid := ⟨1, ![5], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S10000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S10000x128 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev grid16 : Pipeline.Grid := ⟨1, ![5], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 2 → Memref sig .tc .vmem S10000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S10000x128 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S10000x1 .i32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 2 → Memref sig .tc .vmem S10000x128 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev stage16_4 : Fin 1 → Memref sig .tc .vmem S64x128 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S50000_S50000x1 : S50000.ShapeCasts S50000x1
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S8x128x128_S1x128x128_0_0_0 : S8x128x128.Slices ![0, 0, 0] S1x128x128
  shapeCasts_S1x128x128_S128x128 : S1x128x128.ShapeCasts S128x128
  slices_S8x128_S1x128_0_0 : S8x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S10000x128 : S1x128.Broadcasts S10000x128
  reduces_S10000x128_S128 : S10000x128.Reduces [0] S128
  bcast_S_S1x128 : S_.BroadcastsInDim S1x128 (![] : Fin 0 → Fin S1x128.rank)
  slices_S8x128x128_S1x128x128_1_0_0 : S8x128x128.Slices ![1, 0, 0] S1x128x128
  slices_S8x128_S1x128_1_0 : S8x128.Slices ![1, 0] S1x128
  slices_S8x128x128_S1x128x128_2_0_0 : S8x128x128.Slices ![2, 0, 0] S1x128x128
  slices_S8x128_S1x128_2_0 : S8x128.Slices ![2, 0] S1x128
  slices_S8x128x128_S1x128x128_3_0_0 : S8x128x128.Slices ![3, 0, 0] S1x128x128
  slices_S8x128_S1x128_3_0 : S8x128.Slices ![3, 0] S1x128
  slices_S8x128x128_S1x128x128_4_0_0 : S8x128x128.Slices ![4, 0, 0] S1x128x128
  slices_S8x128_S1x128_4_0 : S8x128.Slices ![4, 0] S1x128
  slices_S8x128x128_S1x128x128_5_0_0 : S8x128x128.Slices ![5, 0, 0] S1x128x128
  slices_S8x128_S1x128_5_0 : S8x128.Slices ![5, 0] S1x128
  slices_S8x128x128_S1x128x128_6_0_0 : S8x128x128.Slices ![6, 0, 0] S1x128x128
  slices_S8x128_S1x128_6_0 : S8x128.Slices ![6, 0] S1x128
  slices_S8x128x128_S1x128x128_7_0_0 : S8x128x128.Slices ![7, 0, 0] S1x128x128
  slices_S8x128_S1x128_7_0 : S8x128.Slices ![7, 0] S1x128
  inb_S64x128_S64x128_0_0 : ∀ a, (![0, 0] : Fin 2 → Nat) a + S64x128.size a ≤ S64x128.size a
  h_S64x128 : 0 < S64x128.numel
  reduces_S10000x128_S10000 : S10000x128.Reduces [1] S10000
  shapeCasts_S10000_S10000x1 : S10000.ShapeCasts S10000x1
  broadcasts_S10000x1_S10000x128 : S10000x1.Broadcasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  broadcasts_S10000x1_S10000x64 : S10000x1.Broadcasts S10000x64
  natLt_1_32 : 1 < 32
  shapeCasts_S64x128_S64x128 : S64x128.ShapeCasts S64x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S10000x128_S128x128_S10000x128_1_0_0_1_n_n_wf : DotDims.WF S10000x128 S128x128 S10000x128 [1] [0] [0] [1] [] []
  dot_S10000x64_S10000x128_S64x128_0_0_1_1_n_n_wf : DotDims.WF S10000x64 S10000x128 S64x128 [0] [0] [1] [1] [] []
  dot_S64x128_S128x128_S64x128_1_0_0_1_n_n_wf : DotDims.WF S64x128 S128x128 S64x128 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S50000x128.size a
  hwx0_6 : ∀ i : grid0.Coords, EltTy.bits .f32 = 32 ∨ (Rect.block (s := S50000x128) S10000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S50000x128.size a
  hwx1_5 : ∀ i : grid1.Coords, EltTy.bits .f32 = 32 ∨ (Rect.block (s := S50000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .f32 = 32 ∨ (Rect.block (s := S50000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S50000x128.size a
  hwx2_6 : ∀ i : grid2.Coords, EltTy.bits .f32 = 32 ∨ (Rect.block (s := S50000x128) S10000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S50000x128.size a
  hwx3_5 : ∀ i : grid3.Coords, EltTy.bits .f32 = 32 ∨ (Rect.block (s := S50000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S50000x128.size a
  hwx4_1 : ∀ i : grid4.Coords, EltTy.bits .f32 = 32 ∨ (Rect.block (s := S50000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S10000x128.size a ≤ S50000x128.size a
  hwx4_6 : ∀ i : grid4.Coords, EltTy.bits .f32 = 32 ∨ (Rect.block (s := S50000x128) S10000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S50000x128.size a
  hwx5_5 : ∀ i : grid5.Coords, EltTy.bits .f32 = 32 ∨ (Rect.block (s := S50000x128) S10000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S50000x128.size a
  hwx6_1 : ∀ i : grid6.Coords, EltTy.bits .f32 = 32 ∨ (Rect.block (s := S50000x128) S10000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S10000x128.size a ≤ S50000x128.size a
  hwx6_6 : ∀ i : grid6.Coords, EltTy.bits .f32 = 32 ∨ (Rect.block (s := S50000x128) S10000x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S50000x128.size a
  hwx7_0 : ∀ i : grid7.Coords, EltTy.bits .f32 = 32 ∨ (Rect.block (s := S50000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x128.size a ≤ S50000x128.size a
  hwx7_5 : ∀ i : grid7.Coords, EltTy.bits .f32 = 32 ∨ (Rect.block (s := S50000x128) S10000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S50000x128.size a
  hwx8_0 : ∀ i : grid8.Coords, EltTy.bits .f32 = 32 ∨ (Rect.block (s := S50000x128) S10000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x128.size a ≤ S50000x128.size a
  hwx8_1 : ∀ i : grid8.Coords, EltTy.bits .f32 = 32 ∨ (Rect.block (s := S50000x128) S10000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S10000x128.size a ≤ S50000x128.size a
  hwx8_6 : ∀ i : grid8.Coords, EltTy.bits .f32 = 32 ∨ (Rect.block (s := S50000x128) S10000x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x128.size a ≤ S50000x128.size a
  hwx9_0 : ∀ i : grid9.Coords, EltTy.bits .f32 = 32 ∨ (Rect.block (s := S50000x128) S10000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S10000x128.size a ≤ S50000x128.size a
  hwx9_5 : ∀ i : grid9.Coords, EltTy.bits .f32 = 32 ∨ (Rect.block (s := S50000x128) S10000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x128.size a ≤ S50000x128.size a
  hwx10_0 : ∀ i : grid10.Coords, EltTy.bits .f32 = 32 ∨ (Rect.block (s := S50000x128) S10000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x128.size a ≤ S50000x128.size a
  hwx10_1 : ∀ i : grid10.Coords, EltTy.bits .f32 = 32 ∨ (Rect.block (s := S50000x128) S10000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S128x128.size a ≤ S128x128.size a
  hwx10_4 : ∀ i : grid10.Coords, EltTy.bits .f32 = 32 ∨ (Rect.block (s := S128x128) S128x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x128.size a ≤ S1x128.size a
  hwx10_5 : ∀ i : grid10.Coords, EltTy.bits .f32 = 32 ∨ (Rect.block (s := S1x128) S1x128.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S10000x128.size a ≤ S50000x128.size a
  hwx10_6 : ∀ i : grid10.Coords, EltTy.bits .f32 = 32 ∨ (Rect.block (s := S50000x128) S10000x128.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x128.size a ≤ S1x128.size a
  hwx10_7 : ∀ i : grid10.Coords, EltTy.bits .f32 = 32 ∨ (Rect.block (s := S1x128) S1x128.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x128.size a ≤ S1x128.size a
  hwx10_8 : ∀ i : grid10.Coords, EltTy.bits .f32 = 32 ∨ (Rect.block (s := S1x128) S1x128.size (cc10_transform_8 i) (hinb10_8 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x128.size a ≤ S50000x128.size a
  hwx11_0 : ∀ i : grid11.Coords, EltTy.bits .f32 = 32 ∨ (Rect.block (s := S50000x128) S10000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S10000x128.size a ≤ S50000x128.size a
  hwx11_5 : ∀ i : grid11.Coords, EltTy.bits .f32 = 32 ∨ (Rect.block (s := S50000x128) S10000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x128.size a ≤ S50000x128.size a
  hwx12_0 : ∀ i : grid12.Coords, EltTy.bits .f32 = 32 ∨ (Rect.block (s := S50000x128) S10000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S10000x128.size a ≤ S50000x128.size a
  hwx12_1 : ∀ i : grid12.Coords, EltTy.bits .f32 = 32 ∨ (Rect.block (s := S50000x128) S10000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S128x128.size a ≤ S128x128.size a
  hwx12_4 : ∀ i : grid12.Coords, EltTy.bits .f32 = 32 ∨ (Rect.block (s := S128x128) S128x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x128.size a ≤ S1x128.size a
  hwx12_5 : ∀ i : grid12.Coords, EltTy.bits .f32 = 32 ∨ (Rect.block (s := S1x128) S1x128.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S10000x128.size a ≤ S50000x128.size a
  hwx12_6 : ∀ i : grid12.Coords, EltTy.bits .f32 = 32 ∨ (Rect.block (s := S50000x128) S10000x128.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S1x128.size a ≤ S1x128.size a
  hwx12_7 : ∀ i : grid12.Coords, EltTy.bits .f32 = 32 ∨ (Rect.block (s := S1x128) S1x128.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S1x128.size a ≤ S1x128.size a
  hwx12_8 : ∀ i : grid12.Coords, EltTy.bits .f32 = 32 ∨ (Rect.block (s := S1x128) S1x128.size (cc12_transform_8 i) (hinb12_8 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x128.size a ≤ S50000x128.size a
  hwx13_0 : ∀ i : grid13.Coords, EltTy.bits .f32 = 32 ∨ (Rect.block (s := S50000x128) S10000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S10000x128.size a ≤ S50000x128.size a
  hwx13_5 : ∀ i : grid13.Coords, EltTy.bits .f32 = 32 ∨ (Rect.block (s := S50000x128) S10000x128.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x128.size a ≤ S50000x128.size a
  hwx14_0 : ∀ i : grid14.Coords, EltTy.bits .f32 = 32 ∨ (Rect.block (s := S50000x128) S10000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S10000x128.size a ≤ S50000x128.size a
  hwx14_1 : ∀ i : grid14.Coords, EltTy.bits .f32 = 32 ∨ (Rect.block (s := S50000x128) S10000x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S128x128.size a ≤ S128x128.size a
  hwx14_2 : ∀ i : grid14.Coords, EltTy.bits .f32 = 32 ∨ (Rect.block (s := S128x128) S128x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S128x128.size a ≤ S128x128.size a
  hwx14_4 : ∀ i : grid14.Coords, EltTy.bits .f32 = 32 ∨ (Rect.block (s := S128x128) S128x128.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S1x128.size a ≤ S1x128.size a
  hwx14_5 : ∀ i : grid14.Coords, EltTy.bits .f32 = 32 ∨ (Rect.block (s := S1x128) S1x128.size (cc14_transform_5 i) (hinb14_5 i)).WholeWords (EltTy.packing .f32)
  hstage14_6 : ∀ j, (stage14_6 j).IsWhole
  nbuf14_6 : grid14.bufCount reads14_6 false = 2
  hreads14_6 : ∀ i i' : grid14.Coords, (∀ a, reads14_6 a = true → i a = i' a) → cc14_transform_6 i = cc14_transform_6 i'
  hinb14_6 : ∀ (i : grid14.Coords) a, (cc14_transform_6 i a + 1) * S10000x128.size a ≤ S50000x128.size a
  hwx14_6 : ∀ i : grid14.Coords, EltTy.bits .f32 = 32 ∨ (Rect.block (s := S50000x128) S10000x128.size (cc14_transform_6 i) (hinb14_6 i)).WholeWords (EltTy.packing .f32)
  hstage14_7 : ∀ j, (stage14_7 j).IsWhole
  nbuf14_7 : grid14.bufCount reads14_7 true = 1
  hreads14_7 : ∀ i i' : grid14.Coords, (∀ a, reads14_7 a = true → i a = i' a) → cc14_transform_7 i = cc14_transform_7 i'
  hinb14_7 : ∀ (i : grid14.Coords) a, (cc14_transform_7 i a + 1) * S1x128.size a ≤ S1x128.size a
  hwx14_7 : ∀ i : grid14.Coords, EltTy.bits .f32 = 32 ∨ (Rect.block (s := S1x128) S1x128.size (cc14_transform_7 i) (hinb14_7 i)).WholeWords (EltTy.packing .f32)
  hstage14_8 : ∀ j, (stage14_8 j).IsWhole
  nbuf14_8 : grid14.bufCount reads14_8 true = 1
  hreads14_8 : ∀ i i' : grid14.Coords, (∀ a, reads14_8 a = true → i a = i' a) → cc14_transform_8 i = cc14_transform_8 i'
  hinb14_8 : ∀ (i : grid14.Coords) a, (cc14_transform_8 i a + 1) * S1x128.size a ≤ S1x128.size a
  hwx14_8 : ∀ i : grid14.Coords, EltTy.bits .f32 = 32 ∨ (Rect.block (s := S1x128) S1x128.size (cc14_transform_8 i) (hinb14_8 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S10000x128.size a ≤ S50000x128.size a
  hwx15_0 : ∀ i : grid15.Coords, EltTy.bits .f32 = 32 ∨ (Rect.block (s := S50000x128) S10000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x128.size a ≤ S1x128.size a
  hwx15_1 : ∀ i : grid15.Coords, EltTy.bits .f32 = 32 ∨ (Rect.block (s := S1x128) S1x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x128.size a ≤ S1x128.size a
  hwx15_3 : ∀ i : grid15.Coords, EltTy.bits .f32 = 32 ∨ (Rect.block (s := S1x128) S1x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x128.size a ≤ S1x128.size a
  hwx15_4 : ∀ i : grid15.Coords, EltTy.bits .f32 = 32 ∨ (Rect.block (s := S1x128) S1x128.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S10000x128.size a ≤ S50000x128.size a
  hwx15_5 : ∀ i : grid15.Coords, EltTy.bits .f32 = 32 ∨ (Rect.block (s := S50000x128) S10000x128.size (cc15_transform_5 i) (hinb15_5 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S10000x128.size a ≤ S50000x128.size a
  hwx16_0 : ∀ i : grid16.Coords, EltTy.bits .f32 = 32 ∨ (Rect.block (s := S50000x128) S10000x128.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S10000x128.size a ≤ S50000x128.size a
  hwx16_1 : ∀ i : grid16.Coords, EltTy.bits .f32 = 32 ∨ (Rect.block (s := S50000x128) S10000x128.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S10000x1.size a ≤ S50000x1.size a
  hwx16_2 : ∀ i : grid16.Coords, EltTy.bits .i32 = 32 ∨ (Rect.block (s := S50000x1) S10000x1.size (cc16_transform_2 i) (hinb16_2 i)).WholeWords (EltTy.packing .i32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S10000x128.size a ≤ S50000x128.size a
  hwx16_3 : ∀ i : grid16.Coords, EltTy.bits .f32 = 32 ∨ (Rect.block (s := S50000x128) S10000x128.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S64x128.size a ≤ S64x128.size a
  hwx16_4 : ∀ i : grid16.Coords, EltTy.bits .f32 = 32 ∨ (Rect.block (s := S64x128) S64x128.size (cc16_transform_4 i) (hinb16_4 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x64_S10000x128_S64x128_0_0_1_1_n_n : DotDims S10000x64 S10000x128 S64x128 where
  lhsContracting := [0]
  rhsContracting := [0]
  lhsNonContracting := [1]
  rhsNonContracting := [1]
  lhsBatch := []
  rhsBatch := []
  wf := dot_S10000x64_S10000x128_S64x128_0_0_1_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25_0) S10000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v25_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v25_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59_0) S10000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v59_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v59_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v59_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v72) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v84) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v91) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v88) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v92) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v93_0) S10000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v93_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v93_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v93_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v95) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v99) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v104) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v105) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v106) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v106) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v116) S10000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v118) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v125) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v122) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v126) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v127_0) S10000x128.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v127_1) S1x128.size cc6_transform_7 reads6_7 true true 1 stage6_7 sem6_7
    hrank6 hreads6_7 hinb6_7 nbuf6_7 (Memref.isWhole_whole _) hwx6_7 hstage6_7

abbrev win6_8 : Pipeline.Window sig grid6 :=
  Pipeline.Window.ofSpec (Memref.whole main_v127_2) S1x128.size cc6_transform_8 reads6_8 true true 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v127_0) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v129) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v133) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v138) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v139) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v140) S10000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v140) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v150) S10000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v152) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v159) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v156) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v160) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v161_0) S10000x128.size cc8_transform_6 reads8_6 true false 2 stage8_6 sem8_6
    hrank8 hreads8_6 hinb8_6 nbuf8_6 (Memref.isWhole_whole _) hwx8_6 hstage8_6

abbrev win8_7 : Pipeline.Window sig grid8 :=
  Pipeline.Window.ofSpec (Memref.whole main_v161_1) S1x128.size cc8_transform_7 reads8_7 true true 1 stage8_7 sem8_7
    hrank8 hreads8_7 hinb8_7 nbuf8_7 (Memref.isWhole_whole _) hwx8_7 hstage8_7

abbrev win8_8 : Pipeline.Window sig grid8 :=
  Pipeline.Window.ofSpec (Memref.whole main_v161_2) S1x128.size cc8_transform_8 reads8_8 true true 1 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

abbrev win9_0 : Pipeline.Window sig grid9 :=
  Pipeline.Window.ofSpec (Memref.whole main_v161_0) S10000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v163) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v167) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v172) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v173) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v174) S10000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v174) S10000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v184) S10000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v186) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v193) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v190) S128x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v194) S1x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v195_0) S10000x128.size cc10_transform_6 reads10_6 true false 2 stage10_6 sem10_6
    hrank10 hreads10_6 hinb10_6 nbuf10_6 (Memref.isWhole_whole _) hwx10_6 hstage10_6

abbrev win10_7 : Pipeline.Window sig grid10 :=
  Pipeline.Window.ofSpec (Memref.whole main_v195_1) S1x128.size cc10_transform_7 reads10_7 true true 1 stage10_7 sem10_7
    hrank10 hreads10_7 hinb10_7 nbuf10_7 (Memref.isWhole_whole _) hwx10_7 hstage10_7

abbrev win10_8 : Pipeline.Window sig grid10 :=
  Pipeline.Window.ofSpec (Memref.whole main_v195_2) S1x128.size cc10_transform_8 reads10_8 true true 1 stage10_8 sem10_8
    hrank10 hreads10_8 hinb10_8 nbuf10_8 (Memref.isWhole_whole _) hwx10_8 hstage10_8

abbrev win10 : Fin 9 → Pipeline.Window sig grid10 := fun | 0 => win10_0 | 1 => win10_1 | 2 => win10_2 | 3 => win10_3 | 4 => win10_4 | 5 => win10_5 | 6 => win10_6 | 7 => win10_7 | 8 => win10_8 | ⟨_ + 9, h⟩ => absurd h (Nat.not_lt.2 (Nat.le_add_left _ _))
abbrev spec10 : Fin 9 → Pipeline.WinSpec sig grid10.rank := fun w => (win10 w).toWinSpec

abbrev win11_0 : Pipeline.Window sig grid11 :=
  Pipeline.Window.ofSpec (Memref.whole main_v195_0) S10000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v197) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v201) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v206) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v207) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v208) S10000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v208) S10000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v218) S10000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v220) S128x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v227) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v224) S128x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v228) S1x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v229_0) S10000x128.size cc12_transform_6 reads12_6 true false 2 stage12_6 sem12_6
    hrank12 hreads12_6 hinb12_6 nbuf12_6 (Memref.isWhole_whole _) hwx12_6 hstage12_6

abbrev win12_7 : Pipeline.Window sig grid12 :=
  Pipeline.Window.ofSpec (Memref.whole main_v229_1) S1x128.size cc12_transform_7 reads12_7 true true 1 stage12_7 sem12_7
    hrank12 hreads12_7 hinb12_7 nbuf12_7 (Memref.isWhole_whole _) hwx12_7 hstage12_7

abbrev win12_8 : Pipeline.Window sig grid12 :=
  Pipeline.Window.ofSpec (Memref.whole main_v229_2) S1x128.size cc12_transform_8 reads12_8 true true 1 stage12_8 sem12_8
    hrank12 hreads12_8 hinb12_8 nbuf12_8 (Memref.isWhole_whole _) hwx12_8 hstage12_8

abbrev win12 : Fin 9 → Pipeline.Window sig grid12 := fun | 0 => win12_0 | 1 => win12_1 | 2 => win12_2 | 3 => win12_3 | 4 => win12_4 | 5 => win12_5 | 6 => win12_6 | 7 => win12_7 | 8 => win12_8 | ⟨_ + 9, h⟩ => absurd h (Nat.not_lt.2 (Nat.le_add_left _ _))
abbrev spec12 : Fin 9 → Pipeline.WinSpec sig grid12.rank := fun w => (win12 w).toWinSpec

abbrev win13_0 : Pipeline.Window sig grid13 :=
  Pipeline.Window.ofSpec (Memref.whole main_v229_0) S10000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v231) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v235) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v240) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v241) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v242) S10000x128.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v242) S10000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v252) S10000x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v254) S128x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v261) S1x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v258) S128x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v262) S1x128.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v263_0) S10000x128.size cc14_transform_6 reads14_6 true false 2 stage14_6 sem14_6
    hrank14 hreads14_6 hinb14_6 nbuf14_6 (Memref.isWhole_whole _) hwx14_6 hstage14_6

abbrev win14_7 : Pipeline.Window sig grid14 :=
  Pipeline.Window.ofSpec (Memref.whole main_v263_1) S1x128.size cc14_transform_7 reads14_7 true true 1 stage14_7 sem14_7
    hrank14 hreads14_7 hinb14_7 nbuf14_7 (Memref.isWhole_whole _) hwx14_7 hstage14_7

abbrev win14_8 : Pipeline.Window sig grid14 :=
  Pipeline.Window.ofSpec (Memref.whole main_v263_2) S1x128.size cc14_transform_8 reads14_8 true true 1 stage14_8 sem14_8
    hrank14 hreads14_8 hinb14_8 nbuf14_8 (Memref.isWhole_whole _) hwx14_8 hstage14_8

abbrev win14 : Fin 9 → Pipeline.Window sig grid14 := fun | 0 => win14_0 | 1 => win14_1 | 2 => win14_2 | 3 => win14_3 | 4 => win14_4 | 5 => win14_5 | 6 => win14_6 | 7 => win14_7 | 8 => win14_8 | ⟨_ + 9, h⟩ => absurd h (Nat.not_lt.2 (Nat.le_add_left _ _))
abbrev spec14 : Fin 9 → Pipeline.WinSpec sig grid14.rank := fun w => (win14 w).toWinSpec

abbrev win15_0 : Pipeline.Window sig grid15 :=
  Pipeline.Window.ofSpec (Memref.whole main_v263_0) S10000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v265) S1x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v269) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v274) S1x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v275) S1x128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v276) S10000x128.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_v276) S10000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_arg3) S10000x128.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v4) S10000x1.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v277_0) S10000x128.size cc16_transform_3 reads16_3 true false 2 stage16_3 sem16_3
    hrank16 hreads16_3 hinb16_3 nbuf16_3 (Memref.isWhole_whole _) hwx16_3 hstage16_3

abbrev win16_4 : Pipeline.Window sig grid16 :=
  Pipeline.Window.ofSpec (Memref.whole main_v277_1) S64x128.size cc16_transform_4 reads16_4 true true 1 stage16_4 sem16_4
    hrank16 hreads16_4 hinb16_4 nbuf16_4 (Memref.isWhole_whole _) hwx16_4 hstage16_4

abbrev win16 : Fin 5 → Pipeline.Window sig grid16 := fun | 0 => win16_0 | 1 => win16_1 | 2 => win16_2 | 3 => win16_3 | 4 => win16_4 | ⟨_ + 5, h⟩ => absurd h (Nat.not_lt.2 (Nat.le_add_left _ _))
abbrev spec16 : Fin 5 → Pipeline.WinSpec sig grid16.rank := fun w => (win16 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S8x128x128 : Shape := ⟨3, ![8, 128, 128]⟩
abbrev S8x128 : Shape := ⟨2, ![8, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S1x128 : Shape := ⟨2, ![1, 128]⟩
abbrev S50000x1 : Shape := ⟨2, ![50000, 1]⟩
abbrev S64x128 : Shape := ⟨2, ![64, 128]⟩
abbrev S64x10 : Shape := ⟨2, ![64, 10]⟩
abbrev S1x10 : Shape := ⟨2, ![1, 10]⟩
abbrev S64 : Shape := ⟨1, ![64]⟩
abbrev S64x1 : Shape := ⟨2, ![64, 1]⟩

abbrev nBuf : Space → Nat
  | .hbm => 811
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S50000x128, .f32⟩
  | 4 => ⟨S8x128x128, .f32⟩
  | 5 => ⟨S8x128, .f32⟩
  | 6 => ⟨S8x128x128, .f32⟩
  | 7 => ⟨S8x128, .f32⟩
  | 8 => ⟨S8x128, .f32⟩
  | 9 => ⟨S8x128, .f32⟩
  | 10 => ⟨S128x128, .f32⟩
  | 11 => ⟨S128, .f32⟩
  | 12 => ⟨S128x10, .f32⟩
  | 13 => ⟨S10, .f32⟩
  | 14 => ⟨S1x600000, .i32⟩
  | 15 => ⟨S600000, .i32⟩
  | 16 => ⟨S1x600000, .i32⟩
  | 17 => ⟨S600000, .i32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x128, .f32⟩
  | 27 => ⟨S_, .f32⟩
  | 28 => ⟨S50000x128, .f32⟩
  | 29 => ⟨S600000x1, .i32⟩
  | 30 => ⟨S50000x128, .f32⟩
  | 31 => ⟨S50000x128, .f32⟩
  | 32 => ⟨S1x128x128, .f32⟩
  | 33 => ⟨S128x128, .f32⟩
  | 34 => ⟨S50000x128, .f32⟩
  | 35 => ⟨S1x128, .f32⟩
  | 36 => ⟨S128, .f32⟩
  | 37 => ⟨S1x128, .f32⟩
  | 38 => ⟨S50000x128, .f32⟩
  | 39 => ⟨S50000x128, .f32⟩
  | 40 => ⟨S_, .f32⟩
  | 41 => ⟨S_, .f32⟩
  | 42 => ⟨S50000x128, .f32⟩
  | 43 => ⟨S50000x128, .i1⟩
  | 44 => ⟨S_, .f32⟩
  | 45 => ⟨S50000x128, .f32⟩
  | 46 => ⟨S50000x128, .f32⟩
  | 47 => ⟨S50000x128, .f32⟩
  | 48 => ⟨S1x128x128, .f32⟩
  | 49 => ⟨S128x128, .f32⟩
  | 50 => ⟨S50000x128, .f32⟩
  | 51 => ⟨S1x128, .f32⟩
  | 52 => ⟨S128, .f32⟩
  | 53 => ⟨S1x128, .f32⟩
  | 54 => ⟨S50000x128, .f32⟩
  | 55 => ⟨S50000x128, .f32⟩
  | 56 => ⟨S_, .f32⟩
  | 57 => ⟨S128, .f32⟩
  | 58 => ⟨S_, .f32⟩
  | 59 => ⟨S128, .f32⟩
  | 60 => ⟨S128, .f32⟩
  | 61 => ⟨S_, .i32⟩
  | 62 => ⟨S_, .f32⟩
  | 63 => ⟨S128, .f32⟩
  | 64 => ⟨S1x128, .f32⟩
  | 65 => ⟨S_, .f32⟩
  | 66 => ⟨S1x128, .f32⟩
  | 67 => ⟨S1x128, .f32⟩
  | 68 => ⟨S50000x128, .f32⟩
  | 69 => ⟨S50000x128, .f32⟩
  | 70 => ⟨S50000x128, .f32⟩
  | 71 => ⟨S_, .f32⟩
  | 72 => ⟨S_, .f32⟩
  | 73 => ⟨S_, .f32⟩
  | 74 => ⟨S_, .f32⟩
  | 75 => ⟨S128, .f32⟩
  | 76 => ⟨S128, .f32⟩
  | 77 => ⟨S128, .f32⟩
  | 78 => ⟨S_, .f32⟩
  | 79 => ⟨S_, .i1⟩
  | 80 => ⟨S_, .f32⟩
  | 81 => ⟨S_, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S_, .f32⟩
  | 88 => ⟨S128, .f32⟩
  | 89 => ⟨S128, .f32⟩
  | 90 => ⟨S128, .f32⟩
  | 91 => ⟨S1x128, .f32⟩
  | 92 => ⟨S50000x128, .f32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S1x128, .f32⟩
  | 100 => ⟨S128, .f32⟩
  | 101 => ⟨S1x128, .f32⟩
  | 102 => ⟨S50000x128, .f32⟩
  | 103 => ⟨S50000x128, .f32⟩
  | 104 => ⟨S_, .f32⟩
  | 105 => ⟨S_, .f32⟩
  | 106 => ⟨S50000x128, .f32⟩
  | 107 => ⟨S50000x128, .i1⟩
  | 108 => ⟨S_, .f32⟩
  | 109 => ⟨S50000x128, .f32⟩
  | 110 => ⟨S50000x128, .f32⟩
  | 111 => ⟨S50000x128, .f32⟩
  | 112 => ⟨S_, .i32⟩
  | 113 => ⟨S600000, .i32⟩
  | 114 => ⟨S600000, .i1⟩
  | 115 => ⟨S_, .i32⟩
  | 116 => ⟨S600000, .i32⟩
  | 117 => ⟨S600000, .i32⟩
  | 118 => ⟨S600000, .i32⟩
  | 119 => ⟨S600000x1, .i32⟩
  | 120 => ⟨S600000x128, .f32⟩
  | 121 => ⟨S_, .f32⟩
  | 122 => ⟨S50000x128, .f32⟩
  | 123 => ⟨S600000x1, .i32⟩
  | 124 => ⟨S50000x128, .f32⟩
  | 125 => ⟨S50000x128, .f32⟩
  | 126 => ⟨S1x128x128, .f32⟩
  | 127 => ⟨S128x128, .f32⟩
  | _ => ⟨S50000x128, .f32⟩

abbrev hbmTy0_1 (i : Nat) : BufTy := match i % 128 with
  | 0 => ⟨S50000x128, .f32⟩
  | 1 => ⟨S1x128, .f32⟩
  | 2 => ⟨S128, .f32⟩
  | 3 => ⟨S1x128, .f32⟩
  | 4 => ⟨S50000x128, .f32⟩
  | 5 => ⟨S50000x128, .f32⟩
  | 6 => ⟨S_, .f32⟩
  | 7 => ⟨S_, .f32⟩
  | 8 => ⟨S50000x128, .f32⟩
  | 9 => ⟨S50000x128, .i1⟩
  | 10 => ⟨S_, .f32⟩
  | 11 => ⟨S50000x128, .f32⟩
  | 12 => ⟨S50000x128, .f32⟩
  | 13 => ⟨S50000x128, .f32⟩
  | 14 => ⟨S1x128x128, .f32⟩
  | 15 => ⟨S128x128, .f32⟩
  | 16 => ⟨S50000x128, .f32⟩
  | 17 => ⟨S1x128, .f32⟩
  | 18 => ⟨S128, .f32⟩
  | 19 => ⟨S1x128, .f32⟩
  | 20 => ⟨S50000x128, .f32⟩
  | 21 => ⟨S50000x128, .f32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S50000x128, .f32⟩
  | 35 => ⟨S50000x128, .f32⟩
  | 36 => ⟨S50000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S_, .f32⟩
  | 54 => ⟨S128, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S1x128, .f32⟩
  | 66 => ⟨S128, .f32⟩
  | 67 => ⟨S1x128, .f32⟩
  | 68 => ⟨S50000x128, .f32⟩
  | 69 => ⟨S50000x128, .f32⟩
  | 70 => ⟨S_, .f32⟩
  | 71 => ⟨S_, .f32⟩
  | 72 => ⟨S50000x128, .f32⟩
  | 73 => ⟨S50000x128, .i1⟩
  | 74 => ⟨S_, .f32⟩
  | 75 => ⟨S50000x128, .f32⟩
  | 76 => ⟨S50000x128, .f32⟩
  | 77 => ⟨S50000x128, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x128, .f32⟩
  | 87 => ⟨S_, .f32⟩
  | 88 => ⟨S50000x128, .f32⟩
  | 89 => ⟨S600000x1, .i32⟩
  | 90 => ⟨S50000x128, .f32⟩
  | 91 => ⟨S50000x128, .f32⟩
  | 92 => ⟨S1x128x128, .f32⟩
  | 93 => ⟨S128x128, .f32⟩
  | 94 => ⟨S50000x128, .f32⟩
  | 95 => ⟨S1x128, .f32⟩
  | 96 => ⟨S128, .f32⟩
  | 97 => ⟨S1x128, .f32⟩
  | 98 => ⟨S50000x128, .f32⟩
  | 99 => ⟨S50000x128, .f32⟩
  | 100 => ⟨S_, .f32⟩
  | 101 => ⟨S_, .f32⟩
  | 102 => ⟨S50000x128, .f32⟩
  | 103 => ⟨S50000x128, .i1⟩
  | 104 => ⟨S_, .f32⟩
  | 105 => ⟨S50000x128, .f32⟩
  | 106 => ⟨S50000x128, .f32⟩
  | 107 => ⟨S50000x128, .f32⟩
  | 108 => ⟨S1x128x128, .f32⟩
  | 109 => ⟨S128x128, .f32⟩
  | 110 => ⟨S50000x128, .f32⟩
  | 111 => ⟨S1x128, .f32⟩
  | 112 => ⟨S128, .f32⟩
  | 113 => ⟨S1x128, .f32⟩
  | 114 => ⟨S50000x128, .f32⟩
  | 115 => ⟨S50000x128, .f32⟩
  | 116 => ⟨S_, .f32⟩
  | 117 => ⟨S128, .f32⟩
  | 118 => ⟨S_, .f32⟩
  | 119 => ⟨S128, .f32⟩
  | 120 => ⟨S128, .f32⟩
  | 121 => ⟨S_, .i32⟩
  | 122 => ⟨S_, .f32⟩
  | 123 => ⟨S128, .f32⟩
  | 124 => ⟨S1x128, .f32⟩
  | 125 => ⟨S_, .f32⟩
  | 126 => ⟨S1x128, .f32⟩
  | 127 => ⟨S1x128, .f32⟩
  | _ => ⟨S50000x128, .f32⟩

abbrev hbmTy0_2 (i : Nat) : BufTy := match i % 128 with
  | 0 => ⟨S50000x128, .f32⟩
  | 1 => ⟨S50000x128, .f32⟩
  | 2 => ⟨S50000x128, .f32⟩
  | 3 => ⟨S_, .f32⟩
  | 4 => ⟨S_, .f32⟩
  | 5 => ⟨S_, .f32⟩
  | 6 => ⟨S_, .f32⟩
  | 7 => ⟨S128, .f32⟩
  | 8 => ⟨S128, .f32⟩
  | 9 => ⟨S128, .f32⟩
  | 10 => ⟨S_, .f32⟩
  | 11 => ⟨S_, .i1⟩
  | 12 => ⟨S_, .f32⟩
  | 13 => ⟨S_, .f32⟩
  | 14 => ⟨S128, .f32⟩
  | 15 => ⟨S128, .f32⟩
  | 16 => ⟨S1x128, .f32⟩
  | 17 => ⟨S50000x128, .f32⟩
  | 18 => ⟨S50000x128, .f32⟩
  | 19 => ⟨S_, .f32⟩
  | 20 => ⟨S128, .f32⟩
  | 21 => ⟨S128, .f32⟩
  | 22 => ⟨S128, .f32⟩
  | 23 => ⟨S1x128, .f32⟩
  | 24 => ⟨S50000x128, .f32⟩
  | 25 => ⟨S50000x128, .f32⟩
  | 26 => ⟨S1x128, .f32⟩
  | 27 => ⟨S128, .f32⟩
  | 28 => ⟨S1x128, .f32⟩
  | 29 => ⟨S50000x128, .f32⟩
  | 30 => ⟨S50000x128, .f32⟩
  | 31 => ⟨S1x128, .f32⟩
  | 32 => ⟨S128, .f32⟩
  | 33 => ⟨S1x128, .f32⟩
  | 34 => ⟨S50000x128, .f32⟩
  | 35 => ⟨S50000x128, .f32⟩
  | 36 => ⟨S_, .f32⟩
  | 37 => ⟨S_, .f32⟩
  | 38 => ⟨S50000x128, .f32⟩
  | 39 => ⟨S50000x128, .i1⟩
  | 40 => ⟨S_, .f32⟩
  | 41 => ⟨S50000x128, .f32⟩
  | 42 => ⟨S50000x128, .f32⟩
  | 43 => ⟨S50000x128, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000x128, .f32⟩
  | 53 => ⟨S_, .f32⟩
  | 54 => ⟨S50000x128, .f32⟩
  | 55 => ⟨S600000x1, .i32⟩
  | 56 => ⟨S50000x128, .f32⟩
  | 57 => ⟨S50000x128, .f32⟩
  | 58 => ⟨S1x128x128, .f32⟩
  | 59 => ⟨S128x128, .f32⟩
  | 60 => ⟨S50000x128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S_, .f32⟩
  | 67 => ⟨S_, .f32⟩
  | 68 => ⟨S50000x128, .f32⟩
  | 69 => ⟨S50000x128, .i1⟩
  | 70 => ⟨S_, .f32⟩
  | 71 => ⟨S50000x128, .f32⟩
  | 72 => ⟨S50000x128, .f32⟩
  | 73 => ⟨S50000x128, .f32⟩
  | 74 => ⟨S1x128x128, .f32⟩
  | 75 => ⟨S128x128, .f32⟩
  | 76 => ⟨S50000x128, .f32⟩
  | 77 => ⟨S1x128, .f32⟩
  | 78 => ⟨S128, .f32⟩
  | 79 => ⟨S1x128, .f32⟩
  | 80 => ⟨S50000x128, .f32⟩
  | 81 => ⟨S50000x128, .f32⟩
  | 82 => ⟨S_, .f32⟩
  | 83 => ⟨S128, .f32⟩
  | 84 => ⟨S_, .f32⟩
  | 85 => ⟨S128, .f32⟩
  | 86 => ⟨S128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S_, .f32⟩
  | 99 => ⟨S_, .f32⟩
  | 100 => ⟨S_, .f32⟩
  | 101 => ⟨S128, .f32⟩
  | 102 => ⟨S128, .f32⟩
  | 103 => ⟨S128, .f32⟩
  | 104 => ⟨S_, .f32⟩
  | 105 => ⟨S_, .i1⟩
  | 106 => ⟨S_, .f32⟩
  | 107 => ⟨S_, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S_, .f32⟩
  | 114 => ⟨S128, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S1x128, .f32⟩
  | 121 => ⟨S128, .f32⟩
  | 122 => ⟨S1x128, .f32⟩
  | 123 => ⟨S50000x128, .f32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_3 (i : Nat) : BufTy := match i % 128 with
  | 0 => ⟨S50000x128, .f32⟩
  | 1 => ⟨S50000x128, .f32⟩
  | 2 => ⟨S_, .f32⟩
  | 3 => ⟨S_, .f32⟩
  | 4 => ⟨S50000x128, .f32⟩
  | 5 => ⟨S50000x128, .i1⟩
  | 6 => ⟨S_, .f32⟩
  | 7 => ⟨S50000x128, .f32⟩
  | 8 => ⟨S50000x128, .f32⟩
  | 9 => ⟨S50000x128, .f32⟩
  | 10 => ⟨S_, .i32⟩
  | 11 => ⟨S600000, .i32⟩
  | 12 => ⟨S600000, .i1⟩
  | 13 => ⟨S_, .i32⟩
  | 14 => ⟨S600000, .i32⟩
  | 15 => ⟨S600000, .i32⟩
  | 16 => ⟨S600000, .i32⟩
  | 17 => ⟨S600000x1, .i32⟩
  | 18 => ⟨S600000x128, .f32⟩
  | 19 => ⟨S_, .f32⟩
  | 20 => ⟨S50000x128, .f32⟩
  | 21 => ⟨S600000x1, .i32⟩
  | 22 => ⟨S50000x128, .f32⟩
  | 23 => ⟨S50000x128, .f32⟩
  | 24 => ⟨S1x128x128, .f32⟩
  | 25 => ⟨S128x128, .f32⟩
  | 26 => ⟨S50000x128, .f32⟩
  | 27 => ⟨S1x128, .f32⟩
  | 28 => ⟨S128, .f32⟩
  | 29 => ⟨S1x128, .f32⟩
  | 30 => ⟨S50000x128, .f32⟩
  | 31 => ⟨S50000x128, .f32⟩
  | 32 => ⟨S_, .f32⟩
  | 33 => ⟨S_, .f32⟩
  | 34 => ⟨S50000x128, .f32⟩
  | 35 => ⟨S50000x128, .i1⟩
  | 36 => ⟨S_, .f32⟩
  | 37 => ⟨S50000x128, .f32⟩
  | 38 => ⟨S50000x128, .f32⟩
  | 39 => ⟨S50000x128, .f32⟩
  | 40 => ⟨S1x128x128, .f32⟩
  | 41 => ⟨S128x128, .f32⟩
  | 42 => ⟨S50000x128, .f32⟩
  | 43 => ⟨S1x128, .f32⟩
  | 44 => ⟨S128, .f32⟩
  | 45 => ⟨S1x128, .f32⟩
  | 46 => ⟨S50000x128, .f32⟩
  | 47 => ⟨S50000x128, .f32⟩
  | 48 => ⟨S_, .f32⟩
  | 49 => ⟨S128, .f32⟩
  | 50 => ⟨S_, .f32⟩
  | 51 => ⟨S128, .f32⟩
  | 52 => ⟨S128, .f32⟩
  | 53 => ⟨S_, .i32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S50000x128, .f32⟩
  | 61 => ⟨S50000x128, .f32⟩
  | 62 => ⟨S50000x128, .f32⟩
  | 63 => ⟨S_, .f32⟩
  | 64 => ⟨S_, .f32⟩
  | 65 => ⟨S_, .f32⟩
  | 66 => ⟨S_, .f32⟩
  | 67 => ⟨S128, .f32⟩
  | 68 => ⟨S128, .f32⟩
  | 69 => ⟨S128, .f32⟩
  | 70 => ⟨S_, .f32⟩
  | 71 => ⟨S_, .i1⟩
  | 72 => ⟨S_, .f32⟩
  | 73 => ⟨S_, .f32⟩
  | 74 => ⟨S128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S1x128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S128, .f32⟩
  | 93 => ⟨S1x128, .f32⟩
  | 94 => ⟨S50000x128, .f32⟩
  | 95 => ⟨S50000x128, .f32⟩
  | 96 => ⟨S_, .f32⟩
  | 97 => ⟨S_, .f32⟩
  | 98 => ⟨S50000x128, .f32⟩
  | 99 => ⟨S50000x128, .i1⟩
  | 100 => ⟨S_, .f32⟩
  | 101 => ⟨S50000x128, .f32⟩
  | 102 => ⟨S50000x128, .f32⟩
  | 103 => ⟨S50000x128, .f32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S600000x128, .f32⟩
  | 113 => ⟨S_, .f32⟩
  | 114 => ⟨S50000x128, .f32⟩
  | 115 => ⟨S600000x1, .i32⟩
  | 116 => ⟨S50000x128, .f32⟩
  | 117 => ⟨S50000x128, .f32⟩
  | 118 => ⟨S1x128x128, .f32⟩
  | 119 => ⟨S128x128, .f32⟩
  | 120 => ⟨S50000x128, .f32⟩
  | 121 => ⟨S1x128, .f32⟩
  | 122 => ⟨S128, .f32⟩
  | 123 => ⟨S1x128, .f32⟩
  | 124 => ⟨S50000x128, .f32⟩
  | 125 => ⟨S50000x128, .f32⟩
  | 126 => ⟨S_, .f32⟩
  | 127 => ⟨S_, .f32⟩
  | _ => ⟨S50000x128, .f32⟩

abbrev hbmTy0_4 (i : Nat) : BufTy := match i % 128 with
  | 0 => ⟨S50000x128, .f32⟩
  | 1 => ⟨S50000x128, .i1⟩
  | 2 => ⟨S_, .f32⟩
  | 3 => ⟨S50000x128, .f32⟩
  | 4 => ⟨S50000x128, .f32⟩
  | 5 => ⟨S50000x128, .f32⟩
  | 6 => ⟨S1x128x128, .f32⟩
  | 7 => ⟨S128x128, .f32⟩
  | 8 => ⟨S50000x128, .f32⟩
  | 9 => ⟨S1x128, .f32⟩
  | 10 => ⟨S128, .f32⟩
  | 11 => ⟨S1x128, .f32⟩
  | 12 => ⟨S50000x128, .f32⟩
  | 13 => ⟨S50000x128, .f32⟩
  | 14 => ⟨S_, .f32⟩
  | 15 => ⟨S128, .f32⟩
  | 16 => ⟨S_, .f32⟩
  | 17 => ⟨S128, .f32⟩
  | 18 => ⟨S128, .f32⟩
  | 19 => ⟨S_, .i32⟩
  | 20 => ⟨S_, .f32⟩
  | 21 => ⟨S128, .f32⟩
  | 22 => ⟨S1x128, .f32⟩
  | 23 => ⟨S_, .f32⟩
  | 24 => ⟨S1x128, .f32⟩
  | 25 => ⟨S1x128, .f32⟩
  | 26 => ⟨S50000x128, .f32⟩
  | 27 => ⟨S50000x128, .f32⟩
  | 28 => ⟨S50000x128, .f32⟩
  | 29 => ⟨S_, .f32⟩
  | 30 => ⟨S_, .f32⟩
  | 31 => ⟨S_, .f32⟩
  | 32 => ⟨S_, .f32⟩
  | 33 => ⟨S128, .f32⟩
  | 34 => ⟨S128, .f32⟩
  | 35 => ⟨S128, .f32⟩
  | 36 => ⟨S_, .f32⟩
  | 37 => ⟨S_, .i1⟩
  | 38 => ⟨S_, .f32⟩
  | 39 => ⟨S_, .f32⟩
  | 40 => ⟨S128, .f32⟩
  | 41 => ⟨S128, .f32⟩
  | 42 => ⟨S1x128, .f32⟩
  | 43 => ⟨S50000x128, .f32⟩
  | 44 => ⟨S50000x128, .f32⟩
  | 45 => ⟨S_, .f32⟩
  | 46 => ⟨S128, .f32⟩
  | 47 => ⟨S128, .f32⟩
  | 48 => ⟨S128, .f32⟩
  | 49 => ⟨S1x128, .f32⟩
  | 50 => ⟨S50000x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S_, .f32⟩
  | 63 => ⟨S_, .f32⟩
  | 64 => ⟨S50000x128, .f32⟩
  | 65 => ⟨S50000x128, .i1⟩
  | 66 => ⟨S_, .f32⟩
  | 67 => ⟨S50000x128, .f32⟩
  | 68 => ⟨S50000x128, .f32⟩
  | 69 => ⟨S50000x128, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x128, .f32⟩
  | 79 => ⟨S_, .f32⟩
  | 80 => ⟨S50000x128, .f32⟩
  | 81 => ⟨S600000x1, .i32⟩
  | 82 => ⟨S50000x128, .f32⟩
  | 83 => ⟨S50000x128, .f32⟩
  | 84 => ⟨S1x128x128, .f32⟩
  | 85 => ⟨S128x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S_, .f32⟩
  | 93 => ⟨S_, .f32⟩
  | 94 => ⟨S50000x128, .f32⟩
  | 95 => ⟨S50000x128, .i1⟩
  | 96 => ⟨S_, .f32⟩
  | 97 => ⟨S50000x128, .f32⟩
  | 98 => ⟨S50000x128, .f32⟩
  | 99 => ⟨S50000x128, .f32⟩
  | 100 => ⟨S1x128x128, .f32⟩
  | 101 => ⟨S128x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S_, .f32⟩
  | 109 => ⟨S128, .f32⟩
  | 110 => ⟨S_, .f32⟩
  | 111 => ⟨S128, .f32⟩
  | 112 => ⟨S128, .f32⟩
  | 113 => ⟨S_, .i32⟩
  | 114 => ⟨S_, .f32⟩
  | 115 => ⟨S128, .f32⟩
  | 116 => ⟨S1x128, .f32⟩
  | 117 => ⟨S_, .f32⟩
  | 118 => ⟨S1x128, .f32⟩
  | 119 => ⟨S1x128, .f32⟩
  | 120 => ⟨S50000x128, .f32⟩
  | 121 => ⟨S50000x128, .f32⟩
  | 122 => ⟨S50000x128, .f32⟩
  | 123 => ⟨S_, .f32⟩
  | 124 => ⟨S_, .f32⟩
  | 125 => ⟨S_, .f32⟩
  | 126 => ⟨S_, .f32⟩
  | 127 => ⟨S128, .f32⟩
  | _ => ⟨S50000x128, .f32⟩

abbrev hbmTy0_5 (i : Nat) : BufTy := match i % 128 with
  | 0 => ⟨S128, .f32⟩
  | 1 => ⟨S128, .f32⟩
  | 2 => ⟨S_, .f32⟩
  | 3 => ⟨S_, .i1⟩
  | 4 => ⟨S_, .f32⟩
  | 5 => ⟨S_, .f32⟩
  | 6 => ⟨S128, .f32⟩
  | 7 => ⟨S128, .f32⟩
  | 8 => ⟨S1x128, .f32⟩
  | 9 => ⟨S50000x128, .f32⟩
  | 10 => ⟨S50000x128, .f32⟩
  | 11 => ⟨S_, .f32⟩
  | 12 => ⟨S128, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S1x128, .f32⟩
  | 19 => ⟨S128, .f32⟩
  | 20 => ⟨S1x128, .f32⟩
  | 21 => ⟨S50000x128, .f32⟩
  | 22 => ⟨S50000x128, .f32⟩
  | 23 => ⟨S1x128, .f32⟩
  | 24 => ⟨S128, .f32⟩
  | 25 => ⟨S1x128, .f32⟩
  | 26 => ⟨S50000x128, .f32⟩
  | 27 => ⟨S50000x128, .f32⟩
  | 28 => ⟨S_, .f32⟩
  | 29 => ⟨S_, .f32⟩
  | 30 => ⟨S50000x128, .f32⟩
  | 31 => ⟨S50000x128, .i1⟩
  | 32 => ⟨S_, .f32⟩
  | 33 => ⟨S50000x128, .f32⟩
  | 34 => ⟨S50000x128, .f32⟩
  | 35 => ⟨S50000x128, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000x128, .f32⟩
  | 45 => ⟨S_, .f32⟩
  | 46 => ⟨S50000x128, .f32⟩
  | 47 => ⟨S600000x1, .i32⟩
  | 48 => ⟨S50000x128, .f32⟩
  | 49 => ⟨S50000x128, .f32⟩
  | 50 => ⟨S1x128x128, .f32⟩
  | 51 => ⟨S128x128, .f32⟩
  | 52 => ⟨S50000x128, .f32⟩
  | 53 => ⟨S1x128, .f32⟩
  | 54 => ⟨S128, .f32⟩
  | 55 => ⟨S1x128, .f32⟩
  | 56 => ⟨S50000x128, .f32⟩
  | 57 => ⟨S50000x128, .f32⟩
  | 58 => ⟨S_, .f32⟩
  | 59 => ⟨S_, .f32⟩
  | 60 => ⟨S50000x128, .f32⟩
  | 61 => ⟨S50000x128, .i1⟩
  | 62 => ⟨S_, .f32⟩
  | 63 => ⟨S50000x128, .f32⟩
  | 64 => ⟨S50000x128, .f32⟩
  | 65 => ⟨S50000x128, .f32⟩
  | 66 => ⟨S1x128x128, .f32⟩
  | 67 => ⟨S128x128, .f32⟩
  | 68 => ⟨S50000x128, .f32⟩
  | 69 => ⟨S1x128, .f32⟩
  | 70 => ⟨S128, .f32⟩
  | 71 => ⟨S1x128, .f32⟩
  | 72 => ⟨S50000x128, .f32⟩
  | 73 => ⟨S50000x128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S50000x128, .f32⟩
  | 87 => ⟨S50000x128, .f32⟩
  | 88 => ⟨S50000x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S50000x128, .f32⟩
  | 104 => ⟨S50000x128, .f32⟩
  | 105 => ⟨S_, .f32⟩
  | 106 => ⟨S128, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S1x128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S128, .f32⟩
  | 119 => ⟨S1x128, .f32⟩
  | 120 => ⟨S50000x128, .f32⟩
  | 121 => ⟨S50000x128, .f32⟩
  | 122 => ⟨S50000x128, .f32⟩
  | 123 => ⟨S_, .f32⟩
  | 124 => ⟨S50000, .f32⟩
  | 125 => ⟨S_, .f32⟩
  | 126 => ⟨S50000, .f32⟩
  | 127 => ⟨S50000, .f32⟩
  | _ => ⟨S50000x128, .f32⟩

abbrev hbmTy0_6 (i : Nat) : BufTy := match i % 128 with
  | 0 => ⟨S50000x1, .f32⟩
  | 1 => ⟨S50000x128, .f32⟩
  | 2 => ⟨S50000x128, .f32⟩
  | 3 => ⟨S50000x128, .f32⟩
  | 4 => ⟨S_, .f32⟩
  | 5 => ⟨S50000, .f32⟩
  | 6 => ⟨S50000x1, .f32⟩
  | 7 => ⟨S50000x128, .f32⟩
  | 8 => ⟨S50000x128, .f32⟩
  | 9 => ⟨S_, .f32⟩
  | 10 => ⟨S64x128, .f32⟩
  | 11 => ⟨S50000x1, .i32⟩
  | 12 => ⟨S64x128, .f32⟩
  | 13 => ⟨S64x128, .f32⟩
  | 14 => ⟨S1x128, .f32⟩
  | 15 => ⟨S64x128, .f32⟩
  | 16 => ⟨S64x128, .f32⟩
  | 17 => ⟨S_, .f32⟩
  | 18 => ⟨S_, .f32⟩
  | 19 => ⟨S64x128, .f32⟩
  | 20 => ⟨S64x128, .i1⟩
  | 21 => ⟨S_, .f32⟩
  | 22 => ⟨S64x128, .f32⟩
  | 23 => ⟨S64x128, .f32⟩
  | 24 => ⟨S64x128, .f32⟩
  | 25 => ⟨S64x10, .f32⟩
  | 26 => ⟨S1x10, .f32⟩
  | 27 => ⟨S64x10, .f32⟩
  | 28 => ⟨S64x10, .f32⟩
  | 29 => ⟨S_, .f32⟩
  | 30 => ⟨S64, .f32⟩
  | 31 => ⟨S_, .f32⟩
  | 32 => ⟨S64, .f32⟩
  | 33 => ⟨S64, .f32⟩
  | 34 => ⟨S64x1, .f32⟩
  | 35 => ⟨S64x10, .f32⟩
  | 36 => ⟨S64x10, .f32⟩
  | 37 => ⟨S64x10, .f32⟩
  | 38 => ⟨S_, .f32⟩
  | 39 => ⟨S64, .f32⟩
  | 40 => ⟨S64x1, .f32⟩
  | 41 => ⟨S64x10, .f32⟩
  | 42 => ⟨S64x10, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_2 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_c_4 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_cst_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_cst_1 : Ref sig .tc := ⟨.hbm, 72, rfl⟩
abbrev main_call1_v8 : Ref sig .tc := ⟨.hbm, 73, rfl⟩
abbrev main_call1_cst_2 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_cst_3 : Ref sig .tc := ⟨.hbm, 78, rfl⟩
abbrev main_call1_v12 : Ref sig .tc := ⟨.hbm, 79, rfl⟩
abbrev main_call1_cst_4 : Ref sig .tc := ⟨.hbm, 80, rfl⟩
abbrev main_call1_call0_v0 : Ref sig .tc := ⟨.hbm, 81, rfl⟩
abbrev main_call1_call0_v1 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_5 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_cst_6 : Ref sig .tc := ⟨.hbm, 104, rfl⟩
abbrev main_call2_cst : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_v55 : Ref sig .tc := ⟨.hbm, 111, rfl⟩
abbrev main_c_7 : Ref sig .tc := ⟨.hbm, 112, rfl⟩
abbrev main_v56 : Ref sig .tc := ⟨.hbm, 113, rfl⟩
abbrev main_v57 : Ref sig .tc := ⟨.hbm, 114, rfl⟩
abbrev main_c_8 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_cst_9 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_cst_10 : Ref sig .tc := ⟨.hbm, 134, rfl⟩
abbrev main_call3_cst : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_cst_11 : Ref sig .tc := ⟨.hbm, 150, rfl⟩
abbrev main_v84 : Ref sig .tc := ⟨.hbm, 151, rfl⟩
abbrev main_cst_12 : Ref sig .tc := ⟨.hbm, 152, rfl⟩
abbrev main_v85 : Ref sig .tc := ⟨.hbm, 153, rfl⟩
abbrev main_v86 : Ref sig .tc := ⟨.hbm, 154, rfl⟩
abbrev main_c_13 : Ref sig .tc := ⟨.hbm, 155, rfl⟩
abbrev main_call4_cst : Ref sig .tc := ⟨.hbm, 156, rfl⟩
abbrev main_call4_v0 : Ref sig .tc := ⟨.hbm, 157, rfl⟩
abbrev main_call4_v1 : Ref sig .tc := ⟨.hbm, 158, rfl⟩
abbrev main_call4_cst_0 : Ref sig .tc := ⟨.hbm, 159, rfl⟩
abbrev main_call4_v2 : Ref sig .tc := ⟨.hbm, 160, rfl⟩
abbrev main_call4_v3 : Ref sig .tc := ⟨.hbm, 161, rfl⟩
abbrev main_call4_v4 : Ref sig .tc := ⟨.hbm, 162, rfl⟩
abbrev main_call4_v5 : Ref sig .tc := ⟨.hbm, 163, rfl⟩
abbrev main_call4_v6 : Ref sig .tc := ⟨.hbm, 164, rfl⟩
abbrev main_call4_v7 : Ref sig .tc := ⟨.hbm, 165, rfl⟩
abbrev main_call4_cst_1 : Ref sig .tc := ⟨.hbm, 166, rfl⟩
abbrev main_call4_v8 : Ref sig .tc := ⟨.hbm, 167, rfl⟩
abbrev main_call4_cst_2 : Ref sig .tc := ⟨.hbm, 168, rfl⟩
abbrev main_call4_v9 : Ref sig .tc := ⟨.hbm, 169, rfl⟩
abbrev main_call4_v10 : Ref sig .tc := ⟨.hbm, 170, rfl⟩
abbrev main_call4_v11 : Ref sig .tc := ⟨.hbm, 171, rfl⟩
abbrev main_call4_cst_3 : Ref sig .tc := ⟨.hbm, 172, rfl⟩
abbrev main_call4_v12 : Ref sig .tc := ⟨.hbm, 173, rfl⟩
abbrev main_call4_cst_4 : Ref sig .tc := ⟨.hbm, 174, rfl⟩
abbrev main_call4_call0_v0 : Ref sig .tc := ⟨.hbm, 175, rfl⟩
abbrev main_call4_call0_v1 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_cst_14 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_cst_15 : Ref sig .tc := ⟨.hbm, 198, rfl⟩
abbrev main_call5_cst : Ref sig .tc := ⟨.hbm, 199, rfl⟩
abbrev main_call5_v0 : Ref sig .tc := ⟨.hbm, 200, rfl⟩
abbrev main_call5_v1 : Ref sig .tc := ⟨.hbm, 201, rfl⟩
abbrev main_call5_v2 : Ref sig .tc := ⟨.hbm, 202, rfl⟩
abbrev main_call5_v3 : Ref sig .tc := ⟨.hbm, 203, rfl⟩
abbrev main_call5_v4 : Ref sig .tc := ⟨.hbm, 204, rfl⟩
abbrev main_v107 : Ref sig .tc := ⟨.hbm, 205, rfl⟩
abbrev main_c_16 : Ref sig .tc := ⟨.hbm, 206, rfl⟩
abbrev main_v108 : Ref sig .tc := ⟨.hbm, 207, rfl⟩
abbrev main_v109 : Ref sig .tc := ⟨.hbm, 208, rfl⟩
abbrev main_c_17 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_cst_18 : Ref sig .tc := ⟨.hbm, 215, rfl⟩
abbrev main_v115 : Ref sig .tc := ⟨.hbm, 216, rfl⟩
abbrev main_v116 : Ref sig .tc := ⟨.hbm, 217, rfl⟩
abbrev main_v117 : Ref sig .tc := ⟨.hbm, 218, rfl⟩
abbrev main_v118 : Ref sig .tc := ⟨.hbm, 219, rfl⟩
abbrev main_v119 : Ref sig .tc := ⟨.hbm, 220, rfl⟩
abbrev main_v120 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_cst_19 : Ref sig .tc := ⟨.hbm, 228, rfl⟩
abbrev main_call6_cst : Ref sig .tc := ⟨.hbm, 229, rfl⟩
abbrev main_call6_v0 : Ref sig .tc := ⟨.hbm, 230, rfl⟩
abbrev main_call6_v1 : Ref sig .tc := ⟨.hbm, 231, rfl⟩
abbrev main_call6_v2 : Ref sig .tc := ⟨.hbm, 232, rfl⟩
abbrev main_call6_v3 : Ref sig .tc := ⟨.hbm, 233, rfl⟩
abbrev main_call6_v4 : Ref sig .tc := ⟨.hbm, 234, rfl⟩
abbrev main_v127 : Ref sig .tc := ⟨.hbm, 235, rfl⟩
abbrev main_v128 : Ref sig .tc := ⟨.hbm, 236, rfl⟩
abbrev main_v129 : Ref sig .tc := ⟨.hbm, 237, rfl⟩
abbrev main_v130 : Ref sig .tc := ⟨.hbm, 238, rfl⟩
abbrev main_v131 : Ref sig .tc := ⟨.hbm, 239, rfl⟩
abbrev main_v132 : Ref sig .tc := ⟨.hbm, 240, rfl⟩
abbrev main_v133 : Ref sig .tc := ⟨.hbm, 241, rfl⟩
abbrev main_v134 : Ref sig .tc := ⟨.hbm, 242, rfl⟩
abbrev main_v135 : Ref sig .tc := ⟨.hbm, 243, rfl⟩
abbrev main_cst_20 : Ref sig .tc := ⟨.hbm, 244, rfl⟩
abbrev main_v136 : Ref sig .tc := ⟨.hbm, 245, rfl⟩
abbrev main_cst_21 : Ref sig .tc := ⟨.hbm, 246, rfl⟩
abbrev main_v137 : Ref sig .tc := ⟨.hbm, 247, rfl⟩
abbrev main_v138 : Ref sig .tc := ⟨.hbm, 248, rfl⟩
abbrev main_c_22 : Ref sig .tc := ⟨.hbm, 249, rfl⟩
abbrev main_call7_cst : Ref sig .tc := ⟨.hbm, 250, rfl⟩
abbrev main_call7_v0 : Ref sig .tc := ⟨.hbm, 251, rfl⟩
abbrev main_call7_v1 : Ref sig .tc := ⟨.hbm, 252, rfl⟩
abbrev main_call7_cst_0 : Ref sig .tc := ⟨.hbm, 253, rfl⟩
abbrev main_call7_v2 : Ref sig .tc := ⟨.hbm, 254, rfl⟩
abbrev main_call7_v3 : Ref sig .tc := ⟨.hbm, 255, rfl⟩
abbrev main_call7_v4 : Ref sig .tc := ⟨.hbm, 256, rfl⟩
abbrev main_call7_v5 : Ref sig .tc := ⟨.hbm, 257, rfl⟩
abbrev main_call7_v6 : Ref sig .tc := ⟨.hbm, 258, rfl⟩
abbrev main_call7_v7 : Ref sig .tc := ⟨.hbm, 259, rfl⟩
abbrev main_call7_cst_1 : Ref sig .tc := ⟨.hbm, 260, rfl⟩
abbrev main_call7_v8 : Ref sig .tc := ⟨.hbm, 261, rfl⟩
abbrev main_call7_cst_2 : Ref sig .tc := ⟨.hbm, 262, rfl⟩
abbrev main_call7_v9 : Ref sig .tc := ⟨.hbm, 263, rfl⟩
abbrev main_call7_v10 : Ref sig .tc := ⟨.hbm, 264, rfl⟩
abbrev main_call7_v11 : Ref sig .tc := ⟨.hbm, 265, rfl⟩
abbrev main_call7_cst_3 : Ref sig .tc := ⟨.hbm, 266, rfl⟩
abbrev main_call7_v12 : Ref sig .tc := ⟨.hbm, 267, rfl⟩
abbrev main_call7_cst_4 : Ref sig .tc := ⟨.hbm, 268, rfl⟩
abbrev main_call7_call0_v0 : Ref sig .tc := ⟨.hbm, 269, rfl⟩
abbrev main_call7_call0_v1 : Ref sig .tc := ⟨.hbm, 270, rfl⟩
abbrev main_v139 : Ref sig .tc := ⟨.hbm, 271, rfl⟩
abbrev main_v140 : Ref sig .tc := ⟨.hbm, 272, rfl⟩
abbrev main_v141 : Ref sig .tc := ⟨.hbm, 273, rfl⟩
abbrev main_v142 : Ref sig .tc := ⟨.hbm, 274, rfl⟩
abbrev main_cst_23 : Ref sig .tc := ⟨.hbm, 275, rfl⟩
abbrev main_v143 : Ref sig .tc := ⟨.hbm, 276, rfl⟩
abbrev main_v144 : Ref sig .tc := ⟨.hbm, 277, rfl⟩
abbrev main_v145 : Ref sig .tc := ⟨.hbm, 278, rfl⟩
abbrev main_v146 : Ref sig .tc := ⟨.hbm, 279, rfl⟩
abbrev main_v147 : Ref sig .tc := ⟨.hbm, 280, rfl⟩
abbrev main_v148 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_v152 : Ref sig .tc := ⟨.hbm, 285, rfl⟩
abbrev main_v153 : Ref sig .tc := ⟨.hbm, 286, rfl⟩
abbrev main_v154 : Ref sig .tc := ⟨.hbm, 287, rfl⟩
abbrev main_v155 : Ref sig .tc := ⟨.hbm, 288, rfl⟩
abbrev main_v156 : Ref sig .tc := ⟨.hbm, 289, rfl⟩
abbrev main_v157 : Ref sig .tc := ⟨.hbm, 290, rfl⟩
abbrev main_v158 : Ref sig .tc := ⟨.hbm, 291, rfl⟩
abbrev main_cst_24 : Ref sig .tc := ⟨.hbm, 292, rfl⟩
abbrev main_call8_cst : Ref sig .tc := ⟨.hbm, 293, rfl⟩
abbrev main_call8_v0 : Ref sig .tc := ⟨.hbm, 294, rfl⟩
abbrev main_call8_v1 : Ref sig .tc := ⟨.hbm, 295, rfl⟩
abbrev main_call8_v2 : Ref sig .tc := ⟨.hbm, 296, rfl⟩
abbrev main_call8_v3 : Ref sig .tc := ⟨.hbm, 297, rfl⟩
abbrev main_call8_v4 : Ref sig .tc := ⟨.hbm, 298, rfl⟩
abbrev main_v159 : Ref sig .tc := ⟨.hbm, 299, rfl⟩
abbrev main_c_25 : Ref sig .tc := ⟨.hbm, 300, rfl⟩
abbrev main_v160 : Ref sig .tc := ⟨.hbm, 301, rfl⟩
abbrev main_v161 : Ref sig .tc := ⟨.hbm, 302, rfl⟩
abbrev main_c_26 : Ref sig .tc := ⟨.hbm, 303, rfl⟩
abbrev main_v162 : Ref sig .tc := ⟨.hbm, 304, rfl⟩
abbrev main_v163 : Ref sig .tc := ⟨.hbm, 305, rfl⟩
abbrev main_v164 : Ref sig .tc := ⟨.hbm, 306, rfl⟩
abbrev main_v165 : Ref sig .tc := ⟨.hbm, 307, rfl⟩
abbrev main_v166 : Ref sig .tc := ⟨.hbm, 308, rfl⟩
abbrev main_cst_27 : Ref sig .tc := ⟨.hbm, 309, rfl⟩
abbrev main_v167 : Ref sig .tc := ⟨.hbm, 310, rfl⟩
abbrev main_v168 : Ref sig .tc := ⟨.hbm, 311, rfl⟩
abbrev main_v169 : Ref sig .tc := ⟨.hbm, 312, rfl⟩
abbrev main_v170 : Ref sig .tc := ⟨.hbm, 313, rfl⟩
abbrev main_v171 : Ref sig .tc := ⟨.hbm, 314, rfl⟩
abbrev main_v172 : Ref sig .tc := ⟨.hbm, 315, rfl⟩
abbrev main_v173 : Ref sig .tc := ⟨.hbm, 316, rfl⟩
abbrev main_v174 : Ref sig .tc := ⟨.hbm, 317, rfl⟩
abbrev main_v175 : Ref sig .tc := ⟨.hbm, 318, rfl⟩
abbrev main_v176 : Ref sig .tc := ⟨.hbm, 319, rfl⟩
abbrev main_v177 : Ref sig .tc := ⟨.hbm, 320, rfl⟩
abbrev main_v178 : Ref sig .tc := ⟨.hbm, 321, rfl⟩
abbrev main_cst_28 : Ref sig .tc := ⟨.hbm, 322, rfl⟩
abbrev main_call9_cst : Ref sig .tc := ⟨.hbm, 323, rfl⟩
abbrev main_call9_v0 : Ref sig .tc := ⟨.hbm, 324, rfl⟩
abbrev main_call9_v1 : Ref sig .tc := ⟨.hbm, 325, rfl⟩
abbrev main_call9_v2 : Ref sig .tc := ⟨.hbm, 326, rfl⟩
abbrev main_call9_v3 : Ref sig .tc := ⟨.hbm, 327, rfl⟩
abbrev main_call9_v4 : Ref sig .tc := ⟨.hbm, 328, rfl⟩
abbrev main_v179 : Ref sig .tc := ⟨.hbm, 329, rfl⟩
abbrev main_v180 : Ref sig .tc := ⟨.hbm, 330, rfl⟩
abbrev main_v181 : Ref sig .tc := ⟨.hbm, 331, rfl⟩
abbrev main_v182 : Ref sig .tc := ⟨.hbm, 332, rfl⟩
abbrev main_v183 : Ref sig .tc := ⟨.hbm, 333, rfl⟩
abbrev main_v184 : Ref sig .tc := ⟨.hbm, 334, rfl⟩
abbrev main_v185 : Ref sig .tc := ⟨.hbm, 335, rfl⟩
abbrev main_v186 : Ref sig .tc := ⟨.hbm, 336, rfl⟩
abbrev main_v187 : Ref sig .tc := ⟨.hbm, 337, rfl⟩
abbrev main_cst_29 : Ref sig .tc := ⟨.hbm, 338, rfl⟩
abbrev main_v188 : Ref sig .tc := ⟨.hbm, 339, rfl⟩
abbrev main_cst_30 : Ref sig .tc := ⟨.hbm, 340, rfl⟩
abbrev main_v189 : Ref sig .tc := ⟨.hbm, 341, rfl⟩
abbrev main_v190 : Ref sig .tc := ⟨.hbm, 342, rfl⟩
abbrev main_c_31 : Ref sig .tc := ⟨.hbm, 343, rfl⟩
abbrev main_call10_cst : Ref sig .tc := ⟨.hbm, 344, rfl⟩
abbrev main_call10_v0 : Ref sig .tc := ⟨.hbm, 345, rfl⟩
abbrev main_call10_v1 : Ref sig .tc := ⟨.hbm, 346, rfl⟩
abbrev main_call10_cst_0 : Ref sig .tc := ⟨.hbm, 347, rfl⟩
abbrev main_call10_v2 : Ref sig .tc := ⟨.hbm, 348, rfl⟩
abbrev main_call10_v3 : Ref sig .tc := ⟨.hbm, 349, rfl⟩
abbrev main_call10_v4 : Ref sig .tc := ⟨.hbm, 350, rfl⟩
abbrev main_call10_v5 : Ref sig .tc := ⟨.hbm, 351, rfl⟩
abbrev main_call10_v6 : Ref sig .tc := ⟨.hbm, 352, rfl⟩
abbrev main_call10_v7 : Ref sig .tc := ⟨.hbm, 353, rfl⟩
abbrev main_call10_cst_1 : Ref sig .tc := ⟨.hbm, 354, rfl⟩
abbrev main_call10_v8 : Ref sig .tc := ⟨.hbm, 355, rfl⟩
abbrev main_call10_cst_2 : Ref sig .tc := ⟨.hbm, 356, rfl⟩
abbrev main_call10_v9 : Ref sig .tc := ⟨.hbm, 357, rfl⟩
abbrev main_call10_v10 : Ref sig .tc := ⟨.hbm, 358, rfl⟩
abbrev main_call10_v11 : Ref sig .tc := ⟨.hbm, 359, rfl⟩
abbrev main_call10_cst_3 : Ref sig .tc := ⟨.hbm, 360, rfl⟩
abbrev main_call10_v12 : Ref sig .tc := ⟨.hbm, 361, rfl⟩
abbrev main_call10_cst_4 : Ref sig .tc := ⟨.hbm, 362, rfl⟩
abbrev main_call10_call0_v0 : Ref sig .tc := ⟨.hbm, 363, rfl⟩
abbrev main_call10_call0_v1 : Ref sig .tc := ⟨.hbm, 364, rfl⟩
abbrev main_v191 : Ref sig .tc := ⟨.hbm, 365, rfl⟩
abbrev main_v192 : Ref sig .tc := ⟨.hbm, 366, rfl⟩
abbrev main_v193 : Ref sig .tc := ⟨.hbm, 367, rfl⟩
abbrev main_v194 : Ref sig .tc := ⟨.hbm, 368, rfl⟩
abbrev main_cst_32 : Ref sig .tc := ⟨.hbm, 369, rfl⟩
abbrev main_v195 : Ref sig .tc := ⟨.hbm, 370, rfl⟩
abbrev main_v196 : Ref sig .tc := ⟨.hbm, 371, rfl⟩
abbrev main_v197 : Ref sig .tc := ⟨.hbm, 372, rfl⟩
abbrev main_v198 : Ref sig .tc := ⟨.hbm, 373, rfl⟩
abbrev main_v199 : Ref sig .tc := ⟨.hbm, 374, rfl⟩
abbrev main_v200 : Ref sig .tc := ⟨.hbm, 375, rfl⟩
abbrev main_v201 : Ref sig .tc := ⟨.hbm, 376, rfl⟩
abbrev main_v202 : Ref sig .tc := ⟨.hbm, 377, rfl⟩
abbrev main_v203 : Ref sig .tc := ⟨.hbm, 378, rfl⟩
abbrev main_v204 : Ref sig .tc := ⟨.hbm, 379, rfl⟩
abbrev main_v205 : Ref sig .tc := ⟨.hbm, 380, rfl⟩
abbrev main_v206 : Ref sig .tc := ⟨.hbm, 381, rfl⟩
abbrev main_v207 : Ref sig .tc := ⟨.hbm, 382, rfl⟩
abbrev main_v208 : Ref sig .tc := ⟨.hbm, 383, rfl⟩
abbrev main_v209 : Ref sig .tc := ⟨.hbm, 384, rfl⟩
abbrev main_v210 : Ref sig .tc := ⟨.hbm, 385, rfl⟩
abbrev main_cst_33 : Ref sig .tc := ⟨.hbm, 386, rfl⟩
abbrev main_call11_cst : Ref sig .tc := ⟨.hbm, 387, rfl⟩
abbrev main_call11_v0 : Ref sig .tc := ⟨.hbm, 388, rfl⟩
abbrev main_call11_v1 : Ref sig .tc := ⟨.hbm, 389, rfl⟩
abbrev main_call11_v2 : Ref sig .tc := ⟨.hbm, 390, rfl⟩
abbrev main_call11_v3 : Ref sig .tc := ⟨.hbm, 391, rfl⟩
abbrev main_call11_v4 : Ref sig .tc := ⟨.hbm, 392, rfl⟩
abbrev main_v211 : Ref sig .tc := ⟨.hbm, 393, rfl⟩
abbrev main_c_34 : Ref sig .tc := ⟨.hbm, 394, rfl⟩
abbrev main_v212 : Ref sig .tc := ⟨.hbm, 395, rfl⟩
abbrev main_v213 : Ref sig .tc := ⟨.hbm, 396, rfl⟩
abbrev main_c_35 : Ref sig .tc := ⟨.hbm, 397, rfl⟩
abbrev main_v214 : Ref sig .tc := ⟨.hbm, 398, rfl⟩
abbrev main_v215 : Ref sig .tc := ⟨.hbm, 399, rfl⟩
abbrev main_v216 : Ref sig .tc := ⟨.hbm, 400, rfl⟩
abbrev main_v217 : Ref sig .tc := ⟨.hbm, 401, rfl⟩
abbrev main_v218 : Ref sig .tc := ⟨.hbm, 402, rfl⟩
abbrev main_cst_36 : Ref sig .tc := ⟨.hbm, 403, rfl⟩
abbrev main_v219 : Ref sig .tc := ⟨.hbm, 404, rfl⟩
abbrev main_v220 : Ref sig .tc := ⟨.hbm, 405, rfl⟩
abbrev main_v221 : Ref sig .tc := ⟨.hbm, 406, rfl⟩
abbrev main_v222 : Ref sig .tc := ⟨.hbm, 407, rfl⟩
abbrev main_v223 : Ref sig .tc := ⟨.hbm, 408, rfl⟩
abbrev main_v224 : Ref sig .tc := ⟨.hbm, 409, rfl⟩
abbrev main_v225 : Ref sig .tc := ⟨.hbm, 410, rfl⟩
abbrev main_v226 : Ref sig .tc := ⟨.hbm, 411, rfl⟩
abbrev main_v227 : Ref sig .tc := ⟨.hbm, 412, rfl⟩
abbrev main_v228 : Ref sig .tc := ⟨.hbm, 413, rfl⟩
abbrev main_v229 : Ref sig .tc := ⟨.hbm, 414, rfl⟩
abbrev main_v230 : Ref sig .tc := ⟨.hbm, 415, rfl⟩
abbrev main_cst_37 : Ref sig .tc := ⟨.hbm, 416, rfl⟩
abbrev main_call12_cst : Ref sig .tc := ⟨.hbm, 417, rfl⟩
abbrev main_call12_v0 : Ref sig .tc := ⟨.hbm, 418, rfl⟩
abbrev main_call12_v1 : Ref sig .tc := ⟨.hbm, 419, rfl⟩
abbrev main_call12_v2 : Ref sig .tc := ⟨.hbm, 420, rfl⟩
abbrev main_call12_v3 : Ref sig .tc := ⟨.hbm, 421, rfl⟩
abbrev main_call12_v4 : Ref sig .tc := ⟨.hbm, 422, rfl⟩
abbrev main_v231 : Ref sig .tc := ⟨.hbm, 423, rfl⟩
abbrev main_v232 : Ref sig .tc := ⟨.hbm, 424, rfl⟩
abbrev main_v233 : Ref sig .tc := ⟨.hbm, 425, rfl⟩
abbrev main_v234 : Ref sig .tc := ⟨.hbm, 426, rfl⟩
abbrev main_v235 : Ref sig .tc := ⟨.hbm, 427, rfl⟩
abbrev main_v236 : Ref sig .tc := ⟨.hbm, 428, rfl⟩
abbrev main_v237 : Ref sig .tc := ⟨.hbm, 429, rfl⟩
abbrev main_v238 : Ref sig .tc := ⟨.hbm, 430, rfl⟩
abbrev main_v239 : Ref sig .tc := ⟨.hbm, 431, rfl⟩
abbrev main_cst_38 : Ref sig .tc := ⟨.hbm, 432, rfl⟩
abbrev main_v240 : Ref sig .tc := ⟨.hbm, 433, rfl⟩
abbrev main_cst_39 : Ref sig .tc := ⟨.hbm, 434, rfl⟩
abbrev main_v241 : Ref sig .tc := ⟨.hbm, 435, rfl⟩
abbrev main_v242 : Ref sig .tc := ⟨.hbm, 436, rfl⟩
abbrev main_c_40 : Ref sig .tc := ⟨.hbm, 437, rfl⟩
abbrev main_call13_cst : Ref sig .tc := ⟨.hbm, 438, rfl⟩
abbrev main_call13_v0 : Ref sig .tc := ⟨.hbm, 439, rfl⟩
abbrev main_call13_v1 : Ref sig .tc := ⟨.hbm, 440, rfl⟩
abbrev main_call13_cst_0 : Ref sig .tc := ⟨.hbm, 441, rfl⟩
abbrev main_call13_v2 : Ref sig .tc := ⟨.hbm, 442, rfl⟩
abbrev main_call13_v3 : Ref sig .tc := ⟨.hbm, 443, rfl⟩
abbrev main_call13_v4 : Ref sig .tc := ⟨.hbm, 444, rfl⟩
abbrev main_call13_v5 : Ref sig .tc := ⟨.hbm, 445, rfl⟩
abbrev main_call13_v6 : Ref sig .tc := ⟨.hbm, 446, rfl⟩
abbrev main_call13_v7 : Ref sig .tc := ⟨.hbm, 447, rfl⟩
abbrev main_call13_cst_1 : Ref sig .tc := ⟨.hbm, 448, rfl⟩
abbrev main_call13_v8 : Ref sig .tc := ⟨.hbm, 449, rfl⟩
abbrev main_call13_cst_2 : Ref sig .tc := ⟨.hbm, 450, rfl⟩
abbrev main_call13_v9 : Ref sig .tc := ⟨.hbm, 451, rfl⟩
abbrev main_call13_v10 : Ref sig .tc := ⟨.hbm, 452, rfl⟩
abbrev main_call13_v11 : Ref sig .tc := ⟨.hbm, 453, rfl⟩
abbrev main_call13_cst_3 : Ref sig .tc := ⟨.hbm, 454, rfl⟩
abbrev main_call13_v12 : Ref sig .tc := ⟨.hbm, 455, rfl⟩
abbrev main_call13_cst_4 : Ref sig .tc := ⟨.hbm, 456, rfl⟩
abbrev main_call13_call0_v0 : Ref sig .tc := ⟨.hbm, 457, rfl⟩
abbrev main_call13_call0_v1 : Ref sig .tc := ⟨.hbm, 458, rfl⟩
abbrev main_v243 : Ref sig .tc := ⟨.hbm, 459, rfl⟩
abbrev main_v244 : Ref sig .tc := ⟨.hbm, 460, rfl⟩
abbrev main_v245 : Ref sig .tc := ⟨.hbm, 461, rfl⟩
abbrev main_v246 : Ref sig .tc := ⟨.hbm, 462, rfl⟩
abbrev main_cst_41 : Ref sig .tc := ⟨.hbm, 463, rfl⟩
abbrev main_v247 : Ref sig .tc := ⟨.hbm, 464, rfl⟩
abbrev main_v248 : Ref sig .tc := ⟨.hbm, 465, rfl⟩
abbrev main_v249 : Ref sig .tc := ⟨.hbm, 466, rfl⟩
abbrev main_v250 : Ref sig .tc := ⟨.hbm, 467, rfl⟩
abbrev main_v251 : Ref sig .tc := ⟨.hbm, 468, rfl⟩
abbrev main_v252 : Ref sig .tc := ⟨.hbm, 469, rfl⟩
abbrev main_v253 : Ref sig .tc := ⟨.hbm, 470, rfl⟩
abbrev main_v254 : Ref sig .tc := ⟨.hbm, 471, rfl⟩
abbrev main_v255 : Ref sig .tc := ⟨.hbm, 472, rfl⟩
abbrev main_v256 : Ref sig .tc := ⟨.hbm, 473, rfl⟩
abbrev main_v257 : Ref sig .tc := ⟨.hbm, 474, rfl⟩
abbrev main_v258 : Ref sig .tc := ⟨.hbm, 475, rfl⟩
abbrev main_v259 : Ref sig .tc := ⟨.hbm, 476, rfl⟩
abbrev main_v260 : Ref sig .tc := ⟨.hbm, 477, rfl⟩
abbrev main_v261 : Ref sig .tc := ⟨.hbm, 478, rfl⟩
abbrev main_v262 : Ref sig .tc := ⟨.hbm, 479, rfl⟩
abbrev main_cst_42 : Ref sig .tc := ⟨.hbm, 480, rfl⟩
abbrev main_call14_cst : Ref sig .tc := ⟨.hbm, 481, rfl⟩
abbrev main_call14_v0 : Ref sig .tc := ⟨.hbm, 482, rfl⟩
abbrev main_call14_v1 : Ref sig .tc := ⟨.hbm, 483, rfl⟩
abbrev main_call14_v2 : Ref sig .tc := ⟨.hbm, 484, rfl⟩
abbrev main_call14_v3 : Ref sig .tc := ⟨.hbm, 485, rfl⟩
abbrev main_call14_v4 : Ref sig .tc := ⟨.hbm, 486, rfl⟩
abbrev main_v263 : Ref sig .tc := ⟨.hbm, 487, rfl⟩
abbrev main_c_43 : Ref sig .tc := ⟨.hbm, 488, rfl⟩
abbrev main_v264 : Ref sig .tc := ⟨.hbm, 489, rfl⟩
abbrev main_v265 : Ref sig .tc := ⟨.hbm, 490, rfl⟩
abbrev main_c_44 : Ref sig .tc := ⟨.hbm, 491, rfl⟩
abbrev main_v266 : Ref sig .tc := ⟨.hbm, 492, rfl⟩
abbrev main_v267 : Ref sig .tc := ⟨.hbm, 493, rfl⟩
abbrev main_v268 : Ref sig .tc := ⟨.hbm, 494, rfl⟩
abbrev main_v269 : Ref sig .tc := ⟨.hbm, 495, rfl⟩
abbrev main_v270 : Ref sig .tc := ⟨.hbm, 496, rfl⟩
abbrev main_cst_45 : Ref sig .tc := ⟨.hbm, 497, rfl⟩
abbrev main_v271 : Ref sig .tc := ⟨.hbm, 498, rfl⟩
abbrev main_v272 : Ref sig .tc := ⟨.hbm, 499, rfl⟩
abbrev main_v273 : Ref sig .tc := ⟨.hbm, 500, rfl⟩
abbrev main_v274 : Ref sig .tc := ⟨.hbm, 501, rfl⟩
abbrev main_v275 : Ref sig .tc := ⟨.hbm, 502, rfl⟩
abbrev main_v276 : Ref sig .tc := ⟨.hbm, 503, rfl⟩
abbrev main_v277 : Ref sig .tc := ⟨.hbm, 504, rfl⟩
abbrev main_v278 : Ref sig .tc := ⟨.hbm, 505, rfl⟩
abbrev main_v279 : Ref sig .tc := ⟨.hbm, 506, rfl⟩
abbrev main_v280 : Ref sig .tc := ⟨.hbm, 507, rfl⟩
abbrev main_v281 : Ref sig .tc := ⟨.hbm, 508, rfl⟩
abbrev main_v282 : Ref sig .tc := ⟨.hbm, 509, rfl⟩
abbrev main_cst_46 : Ref sig .tc := ⟨.hbm, 510, rfl⟩
abbrev main_call15_cst : Ref sig .tc := ⟨.hbm, 511, rfl⟩
abbrev main_call15_v0 : Ref sig .tc := ⟨.hbm, 512, rfl⟩
abbrev main_call15_v1 : Ref sig .tc := ⟨.hbm, 513, rfl⟩
abbrev main_call15_v2 : Ref sig .tc := ⟨.hbm, 514, rfl⟩
abbrev main_call15_v3 : Ref sig .tc := ⟨.hbm, 515, rfl⟩
abbrev main_call15_v4 : Ref sig .tc := ⟨.hbm, 516, rfl⟩
abbrev main_v283 : Ref sig .tc := ⟨.hbm, 517, rfl⟩
abbrev main_v284 : Ref sig .tc := ⟨.hbm, 518, rfl⟩
abbrev main_v285 : Ref sig .tc := ⟨.hbm, 519, rfl⟩
abbrev main_v286 : Ref sig .tc := ⟨.hbm, 520, rfl⟩
abbrev main_v287 : Ref sig .tc := ⟨.hbm, 521, rfl⟩
abbrev main_v288 : Ref sig .tc := ⟨.hbm, 522, rfl⟩
abbrev main_v289 : Ref sig .tc := ⟨.hbm, 523, rfl⟩
abbrev main_v290 : Ref sig .tc := ⟨.hbm, 524, rfl⟩
abbrev main_v291 : Ref sig .tc := ⟨.hbm, 525, rfl⟩
abbrev main_cst_47 : Ref sig .tc := ⟨.hbm, 526, rfl⟩
abbrev main_v292 : Ref sig .tc := ⟨.hbm, 527, rfl⟩
abbrev main_cst_48 : Ref sig .tc := ⟨.hbm, 528, rfl⟩
abbrev main_v293 : Ref sig .tc := ⟨.hbm, 529, rfl⟩
abbrev main_v294 : Ref sig .tc := ⟨.hbm, 530, rfl⟩
abbrev main_c_49 : Ref sig .tc := ⟨.hbm, 531, rfl⟩
abbrev main_call16_cst : Ref sig .tc := ⟨.hbm, 532, rfl⟩
abbrev main_call16_v0 : Ref sig .tc := ⟨.hbm, 533, rfl⟩
abbrev main_call16_v1 : Ref sig .tc := ⟨.hbm, 534, rfl⟩
abbrev main_call16_cst_0 : Ref sig .tc := ⟨.hbm, 535, rfl⟩
abbrev main_call16_v2 : Ref sig .tc := ⟨.hbm, 536, rfl⟩
abbrev main_call16_v3 : Ref sig .tc := ⟨.hbm, 537, rfl⟩
abbrev main_call16_v4 : Ref sig .tc := ⟨.hbm, 538, rfl⟩
abbrev main_call16_v5 : Ref sig .tc := ⟨.hbm, 539, rfl⟩
abbrev main_call16_v6 : Ref sig .tc := ⟨.hbm, 540, rfl⟩
abbrev main_call16_v7 : Ref sig .tc := ⟨.hbm, 541, rfl⟩
abbrev main_call16_cst_1 : Ref sig .tc := ⟨.hbm, 542, rfl⟩
abbrev main_call16_v8 : Ref sig .tc := ⟨.hbm, 543, rfl⟩
abbrev main_call16_cst_2 : Ref sig .tc := ⟨.hbm, 544, rfl⟩
abbrev main_call16_v9 : Ref sig .tc := ⟨.hbm, 545, rfl⟩
abbrev main_call16_v10 : Ref sig .tc := ⟨.hbm, 546, rfl⟩
abbrev main_call16_v11 : Ref sig .tc := ⟨.hbm, 547, rfl⟩
abbrev main_call16_cst_3 : Ref sig .tc := ⟨.hbm, 548, rfl⟩
abbrev main_call16_v12 : Ref sig .tc := ⟨.hbm, 549, rfl⟩
abbrev main_call16_cst_4 : Ref sig .tc := ⟨.hbm, 550, rfl⟩
abbrev main_call16_call0_v0 : Ref sig .tc := ⟨.hbm, 551, rfl⟩
abbrev main_call16_call0_v1 : Ref sig .tc := ⟨.hbm, 552, rfl⟩
abbrev main_v295 : Ref sig .tc := ⟨.hbm, 553, rfl⟩
abbrev main_v296 : Ref sig .tc := ⟨.hbm, 554, rfl⟩
abbrev main_v297 : Ref sig .tc := ⟨.hbm, 555, rfl⟩
abbrev main_v298 : Ref sig .tc := ⟨.hbm, 556, rfl⟩
abbrev main_cst_50 : Ref sig .tc := ⟨.hbm, 557, rfl⟩
abbrev main_v299 : Ref sig .tc := ⟨.hbm, 558, rfl⟩
abbrev main_v300 : Ref sig .tc := ⟨.hbm, 559, rfl⟩
abbrev main_v301 : Ref sig .tc := ⟨.hbm, 560, rfl⟩
abbrev main_v302 : Ref sig .tc := ⟨.hbm, 561, rfl⟩
abbrev main_v303 : Ref sig .tc := ⟨.hbm, 562, rfl⟩
abbrev main_v304 : Ref sig .tc := ⟨.hbm, 563, rfl⟩
abbrev main_v305 : Ref sig .tc := ⟨.hbm, 564, rfl⟩
abbrev main_v306 : Ref sig .tc := ⟨.hbm, 565, rfl⟩
abbrev main_v307 : Ref sig .tc := ⟨.hbm, 566, rfl⟩
abbrev main_v308 : Ref sig .tc := ⟨.hbm, 567, rfl⟩
abbrev main_v309 : Ref sig .tc := ⟨.hbm, 568, rfl⟩
abbrev main_v310 : Ref sig .tc := ⟨.hbm, 569, rfl⟩
abbrev main_v311 : Ref sig .tc := ⟨.hbm, 570, rfl⟩
abbrev main_v312 : Ref sig .tc := ⟨.hbm, 571, rfl⟩
abbrev main_v313 : Ref sig .tc := ⟨.hbm, 572, rfl⟩
abbrev main_v314 : Ref sig .tc := ⟨.hbm, 573, rfl⟩
abbrev main_cst_51 : Ref sig .tc := ⟨.hbm, 574, rfl⟩
abbrev main_call17_cst : Ref sig .tc := ⟨.hbm, 575, rfl⟩
abbrev main_call17_v0 : Ref sig .tc := ⟨.hbm, 576, rfl⟩
abbrev main_call17_v1 : Ref sig .tc := ⟨.hbm, 577, rfl⟩
abbrev main_call17_v2 : Ref sig .tc := ⟨.hbm, 578, rfl⟩
abbrev main_call17_v3 : Ref sig .tc := ⟨.hbm, 579, rfl⟩
abbrev main_call17_v4 : Ref sig .tc := ⟨.hbm, 580, rfl⟩
abbrev main_v315 : Ref sig .tc := ⟨.hbm, 581, rfl⟩
abbrev main_c_52 : Ref sig .tc := ⟨.hbm, 582, rfl⟩
abbrev main_v316 : Ref sig .tc := ⟨.hbm, 583, rfl⟩
abbrev main_v317 : Ref sig .tc := ⟨.hbm, 584, rfl⟩
abbrev main_c_53 : Ref sig .tc := ⟨.hbm, 585, rfl⟩
abbrev main_v318 : Ref sig .tc := ⟨.hbm, 586, rfl⟩
abbrev main_v319 : Ref sig .tc := ⟨.hbm, 587, rfl⟩
abbrev main_v320 : Ref sig .tc := ⟨.hbm, 588, rfl⟩
abbrev main_v321 : Ref sig .tc := ⟨.hbm, 589, rfl⟩
abbrev main_v322 : Ref sig .tc := ⟨.hbm, 590, rfl⟩
abbrev main_cst_54 : Ref sig .tc := ⟨.hbm, 591, rfl⟩
abbrev main_v323 : Ref sig .tc := ⟨.hbm, 592, rfl⟩
abbrev main_v324 : Ref sig .tc := ⟨.hbm, 593, rfl⟩
abbrev main_v325 : Ref sig .tc := ⟨.hbm, 594, rfl⟩
abbrev main_v326 : Ref sig .tc := ⟨.hbm, 595, rfl⟩
abbrev main_v327 : Ref sig .tc := ⟨.hbm, 596, rfl⟩
abbrev main_v328 : Ref sig .tc := ⟨.hbm, 597, rfl⟩
abbrev main_v329 : Ref sig .tc := ⟨.hbm, 598, rfl⟩
abbrev main_v330 : Ref sig .tc := ⟨.hbm, 599, rfl⟩
abbrev main_v331 : Ref sig .tc := ⟨.hbm, 600, rfl⟩
abbrev main_v332 : Ref sig .tc := ⟨.hbm, 601, rfl⟩
abbrev main_v333 : Ref sig .tc := ⟨.hbm, 602, rfl⟩
abbrev main_v334 : Ref sig .tc := ⟨.hbm, 603, rfl⟩
abbrev main_cst_55 : Ref sig .tc := ⟨.hbm, 604, rfl⟩
abbrev main_call18_cst : Ref sig .tc := ⟨.hbm, 605, rfl⟩
abbrev main_call18_v0 : Ref sig .tc := ⟨.hbm, 606, rfl⟩
abbrev main_call18_v1 : Ref sig .tc := ⟨.hbm, 607, rfl⟩
abbrev main_call18_v2 : Ref sig .tc := ⟨.hbm, 608, rfl⟩
abbrev main_call18_v3 : Ref sig .tc := ⟨.hbm, 609, rfl⟩
abbrev main_call18_v4 : Ref sig .tc := ⟨.hbm, 610, rfl⟩
abbrev main_v335 : Ref sig .tc := ⟨.hbm, 611, rfl⟩
abbrev main_v336 : Ref sig .tc := ⟨.hbm, 612, rfl⟩
abbrev main_v337 : Ref sig .tc := ⟨.hbm, 613, rfl⟩
abbrev main_v338 : Ref sig .tc := ⟨.hbm, 614, rfl⟩
abbrev main_v339 : Ref sig .tc := ⟨.hbm, 615, rfl⟩
abbrev main_v340 : Ref sig .tc := ⟨.hbm, 616, rfl⟩
abbrev main_v341 : Ref sig .tc := ⟨.hbm, 617, rfl⟩
abbrev main_v342 : Ref sig .tc := ⟨.hbm, 618, rfl⟩
abbrev main_v343 : Ref sig .tc := ⟨.hbm, 619, rfl⟩
abbrev main_cst_56 : Ref sig .tc := ⟨.hbm, 620, rfl⟩
abbrev main_v344 : Ref sig .tc := ⟨.hbm, 621, rfl⟩
abbrev main_cst_57 : Ref sig .tc := ⟨.hbm, 622, rfl⟩
abbrev main_v345 : Ref sig .tc := ⟨.hbm, 623, rfl⟩
abbrev main_v346 : Ref sig .tc := ⟨.hbm, 624, rfl⟩
abbrev main_c_58 : Ref sig .tc := ⟨.hbm, 625, rfl⟩
abbrev main_call19_cst : Ref sig .tc := ⟨.hbm, 626, rfl⟩
abbrev main_call19_v0 : Ref sig .tc := ⟨.hbm, 627, rfl⟩
abbrev main_call19_v1 : Ref sig .tc := ⟨.hbm, 628, rfl⟩
abbrev main_call19_cst_0 : Ref sig .tc := ⟨.hbm, 629, rfl⟩
abbrev main_call19_v2 : Ref sig .tc := ⟨.hbm, 630, rfl⟩
abbrev main_call19_v3 : Ref sig .tc := ⟨.hbm, 631, rfl⟩
abbrev main_call19_v4 : Ref sig .tc := ⟨.hbm, 632, rfl⟩
abbrev main_call19_v5 : Ref sig .tc := ⟨.hbm, 633, rfl⟩
abbrev main_call19_v6 : Ref sig .tc := ⟨.hbm, 634, rfl⟩
abbrev main_call19_v7 : Ref sig .tc := ⟨.hbm, 635, rfl⟩
abbrev main_call19_cst_1 : Ref sig .tc := ⟨.hbm, 636, rfl⟩
abbrev main_call19_v8 : Ref sig .tc := ⟨.hbm, 637, rfl⟩
abbrev main_call19_cst_2 : Ref sig .tc := ⟨.hbm, 638, rfl⟩
abbrev main_call19_v9 : Ref sig .tc := ⟨.hbm, 639, rfl⟩
abbrev main_call19_v10 : Ref sig .tc := ⟨.hbm, 640, rfl⟩
abbrev main_call19_v11 : Ref sig .tc := ⟨.hbm, 641, rfl⟩
abbrev main_call19_cst_3 : Ref sig .tc := ⟨.hbm, 642, rfl⟩
abbrev main_call19_v12 : Ref sig .tc := ⟨.hbm, 643, rfl⟩
abbrev main_call19_cst_4 : Ref sig .tc := ⟨.hbm, 644, rfl⟩
abbrev main_call19_call0_v0 : Ref sig .tc := ⟨.hbm, 645, rfl⟩
abbrev main_call19_call0_v1 : Ref sig .tc := ⟨.hbm, 646, rfl⟩
abbrev main_v347 : Ref sig .tc := ⟨.hbm, 647, rfl⟩
abbrev main_v348 : Ref sig .tc := ⟨.hbm, 648, rfl⟩
abbrev main_v349 : Ref sig .tc := ⟨.hbm, 649, rfl⟩
abbrev main_v350 : Ref sig .tc := ⟨.hbm, 650, rfl⟩
abbrev main_cst_59 : Ref sig .tc := ⟨.hbm, 651, rfl⟩
abbrev main_v351 : Ref sig .tc := ⟨.hbm, 652, rfl⟩
abbrev main_v352 : Ref sig .tc := ⟨.hbm, 653, rfl⟩
abbrev main_v353 : Ref sig .tc := ⟨.hbm, 654, rfl⟩
abbrev main_v354 : Ref sig .tc := ⟨.hbm, 655, rfl⟩
abbrev main_v355 : Ref sig .tc := ⟨.hbm, 656, rfl⟩
abbrev main_v356 : Ref sig .tc := ⟨.hbm, 657, rfl⟩
abbrev main_v357 : Ref sig .tc := ⟨.hbm, 658, rfl⟩
abbrev main_v358 : Ref sig .tc := ⟨.hbm, 659, rfl⟩
abbrev main_v359 : Ref sig .tc := ⟨.hbm, 660, rfl⟩
abbrev main_v360 : Ref sig .tc := ⟨.hbm, 661, rfl⟩
abbrev main_v361 : Ref sig .tc := ⟨.hbm, 662, rfl⟩
abbrev main_v362 : Ref sig .tc := ⟨.hbm, 663, rfl⟩
abbrev main_v363 : Ref sig .tc := ⟨.hbm, 664, rfl⟩
abbrev main_v364 : Ref sig .tc := ⟨.hbm, 665, rfl⟩
abbrev main_v365 : Ref sig .tc := ⟨.hbm, 666, rfl⟩
abbrev main_v366 : Ref sig .tc := ⟨.hbm, 667, rfl⟩
abbrev main_cst_60 : Ref sig .tc := ⟨.hbm, 668, rfl⟩
abbrev main_call20_cst : Ref sig .tc := ⟨.hbm, 669, rfl⟩
abbrev main_call20_v0 : Ref sig .tc := ⟨.hbm, 670, rfl⟩
abbrev main_call20_v1 : Ref sig .tc := ⟨.hbm, 671, rfl⟩
abbrev main_call20_v2 : Ref sig .tc := ⟨.hbm, 672, rfl⟩
abbrev main_call20_v3 : Ref sig .tc := ⟨.hbm, 673, rfl⟩
abbrev main_call20_v4 : Ref sig .tc := ⟨.hbm, 674, rfl⟩
abbrev main_v367 : Ref sig .tc := ⟨.hbm, 675, rfl⟩
abbrev main_c_61 : Ref sig .tc := ⟨.hbm, 676, rfl⟩
abbrev main_v368 : Ref sig .tc := ⟨.hbm, 677, rfl⟩
abbrev main_v369 : Ref sig .tc := ⟨.hbm, 678, rfl⟩
abbrev main_c_62 : Ref sig .tc := ⟨.hbm, 679, rfl⟩
abbrev main_v370 : Ref sig .tc := ⟨.hbm, 680, rfl⟩
abbrev main_v371 : Ref sig .tc := ⟨.hbm, 681, rfl⟩
abbrev main_v372 : Ref sig .tc := ⟨.hbm, 682, rfl⟩
abbrev main_v373 : Ref sig .tc := ⟨.hbm, 683, rfl⟩
abbrev main_v374 : Ref sig .tc := ⟨.hbm, 684, rfl⟩
abbrev main_cst_63 : Ref sig .tc := ⟨.hbm, 685, rfl⟩
abbrev main_v375 : Ref sig .tc := ⟨.hbm, 686, rfl⟩
abbrev main_v376 : Ref sig .tc := ⟨.hbm, 687, rfl⟩
abbrev main_v377 : Ref sig .tc := ⟨.hbm, 688, rfl⟩
abbrev main_v378 : Ref sig .tc := ⟨.hbm, 689, rfl⟩
abbrev main_v379 : Ref sig .tc := ⟨.hbm, 690, rfl⟩
abbrev main_v380 : Ref sig .tc := ⟨.hbm, 691, rfl⟩
abbrev main_v381 : Ref sig .tc := ⟨.hbm, 692, rfl⟩
abbrev main_v382 : Ref sig .tc := ⟨.hbm, 693, rfl⟩
abbrev main_v383 : Ref sig .tc := ⟨.hbm, 694, rfl⟩
abbrev main_v384 : Ref sig .tc := ⟨.hbm, 695, rfl⟩
abbrev main_v385 : Ref sig .tc := ⟨.hbm, 696, rfl⟩
abbrev main_v386 : Ref sig .tc := ⟨.hbm, 697, rfl⟩
abbrev main_cst_64 : Ref sig .tc := ⟨.hbm, 698, rfl⟩
abbrev main_call21_cst : Ref sig .tc := ⟨.hbm, 699, rfl⟩
abbrev main_call21_v0 : Ref sig .tc := ⟨.hbm, 700, rfl⟩
abbrev main_call21_v1 : Ref sig .tc := ⟨.hbm, 701, rfl⟩
abbrev main_call21_v2 : Ref sig .tc := ⟨.hbm, 702, rfl⟩
abbrev main_call21_v3 : Ref sig .tc := ⟨.hbm, 703, rfl⟩
abbrev main_call21_v4 : Ref sig .tc := ⟨.hbm, 704, rfl⟩
abbrev main_v387 : Ref sig .tc := ⟨.hbm, 705, rfl⟩
abbrev main_v388 : Ref sig .tc := ⟨.hbm, 706, rfl⟩
abbrev main_v389 : Ref sig .tc := ⟨.hbm, 707, rfl⟩
abbrev main_v390 : Ref sig .tc := ⟨.hbm, 708, rfl⟩
abbrev main_v391 : Ref sig .tc := ⟨.hbm, 709, rfl⟩
abbrev main_v392 : Ref sig .tc := ⟨.hbm, 710, rfl⟩
abbrev main_v393 : Ref sig .tc := ⟨.hbm, 711, rfl⟩
abbrev main_v394 : Ref sig .tc := ⟨.hbm, 712, rfl⟩
abbrev main_v395 : Ref sig .tc := ⟨.hbm, 713, rfl⟩
abbrev main_cst_65 : Ref sig .tc := ⟨.hbm, 714, rfl⟩
abbrev main_v396 : Ref sig .tc := ⟨.hbm, 715, rfl⟩
abbrev main_cst_66 : Ref sig .tc := ⟨.hbm, 716, rfl⟩
abbrev main_v397 : Ref sig .tc := ⟨.hbm, 717, rfl⟩
abbrev main_v398 : Ref sig .tc := ⟨.hbm, 718, rfl⟩
abbrev main_c_67 : Ref sig .tc := ⟨.hbm, 719, rfl⟩
abbrev main_call22_cst : Ref sig .tc := ⟨.hbm, 720, rfl⟩
abbrev main_call22_v0 : Ref sig .tc := ⟨.hbm, 721, rfl⟩
abbrev main_call22_v1 : Ref sig .tc := ⟨.hbm, 722, rfl⟩
abbrev main_call22_cst_0 : Ref sig .tc := ⟨.hbm, 723, rfl⟩
abbrev main_call22_v2 : Ref sig .tc := ⟨.hbm, 724, rfl⟩
abbrev main_call22_v3 : Ref sig .tc := ⟨.hbm, 725, rfl⟩
abbrev main_call22_v4 : Ref sig .tc := ⟨.hbm, 726, rfl⟩
abbrev main_call22_v5 : Ref sig .tc := ⟨.hbm, 727, rfl⟩
abbrev main_call22_v6 : Ref sig .tc := ⟨.hbm, 728, rfl⟩
abbrev main_call22_v7 : Ref sig .tc := ⟨.hbm, 729, rfl⟩
abbrev main_call22_cst_1 : Ref sig .tc := ⟨.hbm, 730, rfl⟩
abbrev main_call22_v8 : Ref sig .tc := ⟨.hbm, 731, rfl⟩
abbrev main_call22_cst_2 : Ref sig .tc := ⟨.hbm, 732, rfl⟩
abbrev main_call22_v9 : Ref sig .tc := ⟨.hbm, 733, rfl⟩
abbrev main_call22_v10 : Ref sig .tc := ⟨.hbm, 734, rfl⟩
abbrev main_call22_v11 : Ref sig .tc := ⟨.hbm, 735, rfl⟩
abbrev main_call22_cst_3 : Ref sig .tc := ⟨.hbm, 736, rfl⟩
abbrev main_call22_v12 : Ref sig .tc := ⟨.hbm, 737, rfl⟩
abbrev main_call22_cst_4 : Ref sig .tc := ⟨.hbm, 738, rfl⟩
abbrev main_call22_call0_v0 : Ref sig .tc := ⟨.hbm, 739, rfl⟩
abbrev main_call22_call0_v1 : Ref sig .tc := ⟨.hbm, 740, rfl⟩
abbrev main_v399 : Ref sig .tc := ⟨.hbm, 741, rfl⟩
abbrev main_v400 : Ref sig .tc := ⟨.hbm, 742, rfl⟩
abbrev main_v401 : Ref sig .tc := ⟨.hbm, 743, rfl⟩
abbrev main_v402 : Ref sig .tc := ⟨.hbm, 744, rfl⟩
abbrev main_cst_68 : Ref sig .tc := ⟨.hbm, 745, rfl⟩
abbrev main_v403 : Ref sig .tc := ⟨.hbm, 746, rfl⟩
abbrev main_v404 : Ref sig .tc := ⟨.hbm, 747, rfl⟩
abbrev main_v405 : Ref sig .tc := ⟨.hbm, 748, rfl⟩
abbrev main_v406 : Ref sig .tc := ⟨.hbm, 749, rfl⟩
abbrev main_v407 : Ref sig .tc := ⟨.hbm, 750, rfl⟩
abbrev main_v408 : Ref sig .tc := ⟨.hbm, 751, rfl⟩
abbrev main_v409 : Ref sig .tc := ⟨.hbm, 752, rfl⟩
abbrev main_v410 : Ref sig .tc := ⟨.hbm, 753, rfl⟩
abbrev main_v411 : Ref sig .tc := ⟨.hbm, 754, rfl⟩
abbrev main_v412 : Ref sig .tc := ⟨.hbm, 755, rfl⟩
abbrev main_v413 : Ref sig .tc := ⟨.hbm, 756, rfl⟩
abbrev main_v414 : Ref sig .tc := ⟨.hbm, 757, rfl⟩
abbrev main_v415 : Ref sig .tc := ⟨.hbm, 758, rfl⟩
abbrev main_v416 : Ref sig .tc := ⟨.hbm, 759, rfl⟩
abbrev main_v417 : Ref sig .tc := ⟨.hbm, 760, rfl⟩
abbrev main_v418 : Ref sig .tc := ⟨.hbm, 761, rfl⟩
abbrev main_v419 : Ref sig .tc := ⟨.hbm, 762, rfl⟩
abbrev main_cst_69 : Ref sig .tc := ⟨.hbm, 763, rfl⟩
abbrev main_v420 : Ref sig .tc := ⟨.hbm, 764, rfl⟩
abbrev main_cst_70 : Ref sig .tc := ⟨.hbm, 765, rfl⟩
abbrev main_v421 : Ref sig .tc := ⟨.hbm, 766, rfl⟩
abbrev main_v422 : Ref sig .tc := ⟨.hbm, 767, rfl⟩
abbrev main_v423 : Ref sig .tc := ⟨.hbm, 768, rfl⟩
abbrev main_v424 : Ref sig .tc := ⟨.hbm, 769, rfl⟩
abbrev main_v425 : Ref sig .tc := ⟨.hbm, 770, rfl⟩
abbrev main_v426 : Ref sig .tc := ⟨.hbm, 771, rfl⟩
abbrev main_cst_71 : Ref sig .tc := ⟨.hbm, 772, rfl⟩
abbrev main_v427 : Ref sig .tc := ⟨.hbm, 773, rfl⟩
abbrev main_v428 : Ref sig .tc := ⟨.hbm, 774, rfl⟩
abbrev main_v429 : Ref sig .tc := ⟨.hbm, 775, rfl⟩
abbrev main_v430 : Ref sig .tc := ⟨.hbm, 776, rfl⟩
abbrev main_cst_72 : Ref sig .tc := ⟨.hbm, 777, rfl⟩
abbrev main_v431 : Ref sig .tc := ⟨.hbm, 778, rfl⟩
abbrev main_v432 : Ref sig .tc := ⟨.hbm, 779, rfl⟩
abbrev main_v433 : Ref sig .tc := ⟨.hbm, 780, rfl⟩
abbrev main_v434 : Ref sig .tc := ⟨.hbm, 781, rfl⟩
abbrev main_v435 : Ref sig .tc := ⟨.hbm, 782, rfl⟩
abbrev main_v436 : Ref sig .tc := ⟨.hbm, 783, rfl⟩
abbrev main_v437 : Ref sig .tc := ⟨.hbm, 784, rfl⟩
abbrev main_cst_73 : Ref sig .tc := ⟨.hbm, 785, rfl⟩
abbrev main_call23_cst : Ref sig .tc := ⟨.hbm, 786, rfl⟩
abbrev main_call23_v0 : Ref sig .tc := ⟨.hbm, 787, rfl⟩
abbrev main_call23_v1 : Ref sig .tc := ⟨.hbm, 788, rfl⟩
abbrev main_call23_v2 : Ref sig .tc := ⟨.hbm, 789, rfl⟩
abbrev main_call23_v3 : Ref sig .tc := ⟨.hbm, 790, rfl⟩
abbrev main_call23_v4 : Ref sig .tc := ⟨.hbm, 791, rfl⟩
abbrev main_v438 : Ref sig .tc := ⟨.hbm, 792, rfl⟩
abbrev main_v439 : Ref sig .tc := ⟨.hbm, 793, rfl⟩
abbrev main_v440 : Ref sig .tc := ⟨.hbm, 794, rfl⟩
abbrev main_v441 : Ref sig .tc := ⟨.hbm, 795, rfl⟩
abbrev main_v442 : Ref sig .tc := ⟨.hbm, 796, rfl⟩
abbrev main_cst_74 : Ref sig .tc := ⟨.hbm, 797, rfl⟩
abbrev main_v443 : Ref sig .tc := ⟨.hbm, 798, rfl⟩
abbrev main_cst_75 : Ref sig .tc := ⟨.hbm, 799, rfl⟩
abbrev main_v444 : Ref sig .tc := ⟨.hbm, 800, rfl⟩
abbrev main_v445 : Ref sig .tc := ⟨.hbm, 801, rfl⟩
abbrev main_v446 : Ref sig .tc := ⟨.hbm, 802, rfl⟩
abbrev main_v447 : Ref sig .tc := ⟨.hbm, 803, rfl⟩
abbrev main_v448 : Ref sig .tc := ⟨.hbm, 804, rfl⟩
abbrev main_v449 : Ref sig .tc := ⟨.hbm, 805, rfl⟩
abbrev main_cst_76 : Ref sig .tc := ⟨.hbm, 806, rfl⟩
abbrev main_v450 : Ref sig .tc := ⟨.hbm, 807, rfl⟩
abbrev main_v451 : Ref sig .tc := ⟨.hbm, 808, rfl⟩
abbrev main_v452 : Ref sig .tc := ⟨.hbm, 809, rfl⟩
abbrev main_v453 : Ref sig .tc := ⟨.hbm, 810, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S8x128x128_S1x128x128_0_0_0 : S8x128x128.Slices ![0, 0, 0] S1x128x128
  shapeCasts_S1x128x128_S128x128 : S1x128x128.ShapeCasts S128x128
  slices_S8x128_S1x128_0_0 : S8x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S8x128x128_S1x128x128_1_0_0 : S8x128x128.Slices ![1, 0, 0] S1x128x128
  slices_S8x128_S1x128_1_0 : S8x128.Slices ![1, 0] S1x128
  slices_S8x128x128_S1x128x128_2_0_0 : S8x128x128.Slices ![2, 0, 0] S1x128x128
  slices_S8x128_S1x128_2_0 : S8x128.Slices ![2, 0] S1x128
  slices_S8x128x128_S1x128x128_3_0_0 : S8x128x128.Slices ![3, 0, 0] S1x128x128
  slices_S8x128_S1x128_3_0 : S8x128.Slices ![3, 0] S1x128
  slices_S8x128x128_S1x128x128_4_0_0 : S8x128x128.Slices ![4, 0, 0] S1x128x128
  slices_S8x128_S1x128_4_0 : S8x128.Slices ![4, 0] S1x128
  slices_S8x128x128_S1x128x128_5_0_0 : S8x128x128.Slices ![5, 0, 0] S1x128x128
  slices_S8x128_S1x128_5_0 : S8x128.Slices ![5, 0] S1x128
  slices_S8x128x128_S1x128x128_6_0_0 : S8x128x128.Slices ![6, 0, 0] S1x128x128
  slices_S8x128_S1x128_6_0 : S8x128.Slices ![6, 0] S1x128
  slices_S8x128x128_S1x128x128_7_0_0 : S8x128x128.Slices ![7, 0, 0] S1x128x128
  slices_S8x128_S1x128_7_0 : S8x128.Slices ![7, 0] S1x128
  reducesTo_S50000x128_S50000_d1 : S50000x128.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S64x128 : S_.BroadcastsInDim S64x128 (![] : Fin 0 → Fin S64x128.rank)
  bcast_S1x128_S64x128_0_1 : S1x128.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  dot_S64x128_S128x128_S64x128_1_0_0_1_n_n_wf : DotDims.WF S64x128 S128x128 S64x128 [1] [0] [0] [1] [] []
  dot_S64x128_S128x10_S64x10_1_0_0_1_n_n_wf : DotDims.WF S64x128 S128x10 S64x10 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.LibGatherScatter.lean ====
import Idealize.ShloMosaic.Lib.ValueIdx
import Idealize.ShloMosaic.PureOps.Ideal

noncomputable section

namespace LibGatherScatter

open Idealize.ShloMosaic Idealize.ShloMosaic.ValueIdx

def clampRow (N : Nat) (hN : 0 < N) {w : Nat} (v : BitVec w) : Fin N := ⟨min v.toInt.toNat (N - 1), by omega⟩

section Gather
variable {α : Type}

abbrev rowsDims (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N E D wf) x idx (ix2 e k) = x (ix2 (clampRow N hN (idx (ix2 e (0 : Fin 1)))) k) := by
  unfold Host.gather
  congr 1
  funext a
  refine Fin.ext ?_
  match a with
  | ⟨0, _⟩ =>
    show (rowsDims N E D wf).start (ix2 e k) idx 0 + (rowsDims N E D wf).batchCoord (ix2 e k) 0
      + (rowsDims N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E D wf).startIndexMap from List.mem_singleton.mpr rfl)]
    have hsi : (rowsDims N E D wf).siIdx (ix2 e k) ⟨List.idxOf (0 : Fin 2) (rowsDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E D wf).start (ix2 e k) idx 1 + (rowsDims N E D wf).batchCoord (ix2 e k) 1
      + (rowsDims N E D wf).offCoord (ix2 e k) 1 = k.val
    rw [GatherDims.batchCoord_eq_zero _ _ _ List.not_mem_nil]
    unfold GatherDims.start
    rw [dif_neg (show ¬ (1 : Fin 2) ∈ (rowsDims N E D wf).startIndexMap from (by decide : ¬ (1 : Fin 2) ∈ ([0] : List (Fin 2))))]
    simp only [Nat.add_zero, Nat.zero_add]
    unfold GatherDims.offCoord
    rw [dif_pos (show (1 : Fin 2) ∈ (rowsDims N E D wf).sKept from (GatherDims.mem_sKept _ _).mpr ⟨(by decide : ¬ (1 : Fin 2) ∈ ([0] : List (Fin 2))), List.not_mem_nil⟩)]
    rfl

abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (clampRow N hN (idx (ix2 e (0 : Fin 1))))) := by
  unfold Host.gather
  congr 1
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

section Scatter

abbrev scatRowsDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

theorem scat_start0 (idx : IVec ⟨2, ![E, 1]⟩ w) (e : Fin E) (k : Fin D) :
    (scatRowsDims N E D wf).start (ix2 e k) idx 0 = (idx (ix2 e (0 : Fin 1))).toInt := by
  unfold ScatterDims.start
  rw [dif_pos (show (0 : Fin 2) ∈ (scatRowsDims N E D wf).scatterDimsToOperandDims from List.mem_singleton.mpr rfl)]
  have hsi : (scatRowsDims N E D wf).siIdx (ix2 e k) ⟨List.idxOf (0 : Fin 2) (scatRowsDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat_start1 (idx : IVec ⟨2, ![E, 1]⟩ w) (e : Fin E) (k : Fin D) :
    (scatRowsDims N E D wf).start (ix2 e k) idx 1 = 0 := by
  unfold ScatterDims.start
  rw [dif_neg (show ¬ (1 : Fin 2) ∈ (scatRowsDims N E D wf).scatterDimsToOperandDims from
    (by decide : ¬ (1 : Fin 2) ∈ ([0] : List (Fin 2))))]

theorem scat_window0 (e : Fin E) (k : Fin D) : (scatRowsDims N E D wf).window (ix2 e k) 0 = 0 := by
  unfold ScatterDims.window
  rw [dif_neg]
  intro h
  have : (0 : Fin 2) ∈ (⟨2, ![N, D]⟩ : Shape).kept [0] := h
  simp [Shape.kept] at this

theorem scat_window1 (e : Fin E) (k : Fin D) : (scatRowsDims N E D wf).window (ix2 e k) 1 = k.val := by
  unfold ScatterDims.window
  rw [dif_pos (show (1 : Fin 2) ∈ (scatRowsDims N E D wf).sKept by
    show (1 : Fin 2) ∈ (⟨2, ![N, D]⟩ : Shape).kept [0]; simp [Shape.kept])]
  rfl

theorem scatter_rows_resultIdx (idx : IVec ⟨2, ![E, 1]⟩ w) (e : Fin E) (k : Fin D) (n : Fin N) (k' : Fin D) :
    (scatRowsDims N E D wf).resultIdx? (ix2 e k) idx = some (ix2 n k')
      ↔ (idx (ix2 e (0 : Fin 1))).toInt = (n.val : ℤ) ∧ k = k' := by
  unfold ScatterDims.resultIdx?
  constructor
  · intro h
    split at h
    · rename_i hall
      have h' := Option.some.inj h
      have h0 := congrArg (fun f => (f 0).val) h'
      have h1 := congrArg (fun f => (f 1).val) h'
      simp only [scat_start0, scat_start1, scat_window0, scat_window1] at h0 h1
      have hb := hall 0
      simp only [scat_start0, scat_window0] at hb
      refine ⟨?_, Fin.ext ?_⟩
      · have : ((idx (ix2 e (0 : Fin 1))).toInt + ((0 : Nat) : ℤ)).toNat = n.val := h0
        omega
      · have : ((0 : ℤ) + ((k.val : Nat) : ℤ)).toNat = k'.val := h1
        omega
    · exact absurd h (by simp)
  · rintro ⟨hn, rfl⟩
    have hall : ∀ a, 0 ≤ (scatRowsDims N E D wf).start (ix2 e k) idx a + (scatRowsDims N E D wf).window (ix2 e k) a ∧
        (scatRowsDims N E D wf).start (ix2 e k) idx a + (scatRowsDims N E D wf).window (ix2 e k) a < (⟨2, ![N, D]⟩ : Shape).size a := by
      intro a
      match a with
      | ⟨0, _⟩ =>
        show 0 ≤ (scatRowsDims N E D wf).start (ix2 e k) idx 0 + ((scatRowsDims N E D wf).window (ix2 e k) 0 : ℤ) ∧
          (scatRowsDims N E D wf).start (ix2 e k) idx 0 + ((scatRowsDims N E D wf).window (ix2 e k) 0 : ℤ) < (N : ℤ)
        rw [scat_start0, scat_window0, hn]; have := n.isLt; omega
      | ⟨1, _⟩ =>
        show 0 ≤ (scatRowsDims N E D wf).start (ix2 e k) idx 1 + ((scatRowsDims N E D wf).window (ix2 e k) 1 : ℤ) ∧
          (scatRowsDims N E D wf).start (ix2 e k) idx 1 + ((scatRowsDims N E D wf).window (ix2 e k) 1 : ℤ) < (D : ℤ)
        rw [scat_start1, scat_window1]; have := k.isLt; omega
    rw [dif_pos hall]
    congr 1
    funext a
    refine Fin.ext ?_
    match a with
    | ⟨0, _⟩ =>
      show ((scatRowsDims N E D wf).start (ix2 e k) idx 0 + ((scatRowsDims N E D wf).window (ix2 e k) 0 : ℤ)).toNat = n.val
      rw [scat_start0, scat_window0, hn]; omega
    | ⟨1, _⟩ =>
      show ((scatRowsDims N E D wf).start (ix2 e k) idx 1 + ((scatRowsDims N E D wf).window (ix2 e k) 1 : ℤ)).toNat = k.val
      rw [scat_start1, scat_window1]; omega

theorem scatterAdd_rows_apply (x : (⟨2, ![N, D]⟩ : Shape).Idx → EReal) (idx : IVec ⟨2, ![E, 1]⟩ w)
    (upd : (⟨2, ![E, D]⟩ : Shape).Idx → EReal) (n : Fin N) (d : Fin D) :
    Ideal.hostScatterAdd (scatRowsDims N E D wf) x idx upd (ix2 n d)
      = x (ix2 n d) + ∑ e ∈ Finset.univ.filter (fun e : Fin E => (idx (ix2 e (0 : Fin 1))).toInt = (n.val : ℤ)), upd (ix2 e d) := by
  unfold Ideal.hostScatterAdd
  congr 1
  have key : ∀ j : (⟨2, ![E, D]⟩ : Shape).Idx, (scatRowsDims N E D wf).resultIdx? j idx = some (ix2 n d) →
      (idx (ix2 (⟨(j 0).val, idx2_lt0 j⟩ : Fin E) (0 : Fin 1))).toInt = (n.val : ℤ) ∧ j = ix2 (⟨(j 0).val, idx2_lt0 j⟩ : Fin E) d := by
    intro j hj
    have hj2 := hj
    rw [eq_ix2 j] at hj2
    have h := (scatter_rows_resultIdx wf idx (⟨(j 0).val, idx2_lt0 j⟩ : Fin E) (⟨(j 1).val, idx2_lt1 j⟩ : Fin D) n d).mp hj2
    refine ⟨h.1, ?_⟩
    rw [← h.2]; exact eq_ix2 j
  refine Finset.sum_bij' (fun j _ => (⟨(j 0).val, idx2_lt0 j⟩ : Fin E)) (fun e _ => ix2 e d) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (scatter_rows_resultIdx wf idx e d n d).mpr ⟨(Finset.mem_filter.mp he).2, rfl⟩⟩
  · intro j hj
    exact ((key j (Finset.mem_filter.mp hj).2).2).symm
  · intro e _; rfl
  · intro j hj
    exact congrArg upd (key j (Finset.mem_filter.mp hj).2).2

end Scatter

end LibGatherScatter

end
-- ==== Proof.Spec.lean ====
import Idealize.ShloMosaic.Lib.ValueIdx
import Idealize.ShloMosaic.PureOps.Ideal
import Idealize.ShloMosaic.PureOps.Ideal.Laws
import proofs.«407097_j78262894068282_1_alg».proof.Proof.LibGatherScatter

noncomputable section

namespace Cert.Spec

open Idealize.ShloMosaic Idealize.ShloMosaic.ValueIdx

abbrev Mat (a b : Nat) := (⟨2, ![a, b]⟩ : Shape).Idx → EReal

abbrev Vc (a : Nat) := (⟨1, ![a]⟩ : Shape).Idx → EReal

def slope : EReal := Ideal.ofBits .f32 0x3C23D70A#32

def zero32 : EReal := Ideal.ofBits .f32 0x00000000#32

def bnEps : EReal := Ideal.ofBits .f32 0x3727C5AC#32

def nNodes : EReal := Ideal.ofBits .f32 0x47435000#32

def lrelu (x : EReal) : EReal :=
  Scalar.select (FloatOps.cmpf (F := Ideal) (φ := .f32) .oge x zero32) x (slope * x)

def hidden (h agg : Mat 50000 128) (W1 : Mat 128 128) (b1 : Fin 128 → EReal) : Mat 50000 128 := fun j =>
  lrelu ((∑ k : Fin 128, (h (ix2 (j 0) k) + agg (ix2 (j 0) k)) * W1 (ix2 k (j 1))) + b1 (j 1))

def affine (a : Mat 50000 128) (W2 : Mat 128 128) (b2 : Fin 128 → EReal) : Mat 50000 128 := fun j =>
  (∑ k : Fin 128, a (ix2 (j 0) k) * W2 (ix2 k (j 1))) + b2 (j 1)

def zOf (h agg : Mat 50000 128) (W1 : Mat 128 128) (b1 : Fin 128 → EReal) (W2 : Mat 128 128) (b2 : Fin 128 → EReal) : Mat 50000 128 :=
  affine (hidden h agg W1 b1) W2 b2

def colSum (z : Mat 50000 128) (d : Fin 128) : EReal := ∑ r : Fin 50000, z (ix2 r d)

def colSumSq (z : Mat 50000 128) (d : Fin 128) : EReal := ∑ r : Fin 50000, z (ix2 r d) * z (ix2 r d)

def mean (z : Mat 50000 128) (d : Fin 128) : EReal := Ideal.div (colSum z d) nNodes

-- A column's variance as the mean of squares minus the squared mean.
def varMS (z : Mat 50000 128) (d : Fin 128) : EReal := Ideal.div (colSumSq z d) nNodes - mean z d * mean z d

-- The same variance as the mean of squared deviations from the mean.
def varDev (z : Mat 50000 128) (d : Fin 128) : EReal :=
  Ideal.div (∑ r : Fin 50000, (z (ix2 r d) - mean z d) * (z (ix2 r d) - mean z d)) nNodes

def bn (z : Mat 50000 128) (mu var : Fin 128 → EReal) (gamma beta : Fin 128 → EReal) : Mat 50000 128 := fun j =>
  ((z j - mu (j 1)) * Ideal.rsqrt (var (j 1) + bnEps)) * gamma (j 1) + beta (j 1)

def act (x : Mat 50000 128) : Mat 50000 128 := fun j => lrelu (x j)

def rowMax (x : Mat 50000 128) (r : Fin 50000) : EReal := Finset.univ.sup (fun k : Fin 128 => x (ix2 r k))

def softmaxRows (x : Mat 50000 128) : Mat 50000 128 := fun j =>
  Ideal.div (Ideal.exp (x j - rowMax x (j 0))) (∑ k : Fin 128, Ideal.exp (x (ix2 (j 0) k) - rowMax x (j 0)))

-- Row n sums the source rows of the edges whose destination is n.
def aggOf (h : Mat 50000 128) (srcB dstB : IVec ⟨2, ![600000, 1]⟩ 32) : Mat 50000 128 := fun j =>
  zero32 + ∑ e ∈ Finset.univ.filter (fun e : Fin 600000 => (dstB (ix2 e (0 : Fin 1))).toInt = (((j 0).val : Nat) : ℤ)),
    h (ix2 (LibGatherScatter.clampRow 50000 (by decide) (srcB (ix2 e (0 : Fin 1)))) (j 1))

-- Row g sums the rows whose graph id is g.
def poolOf (c : Mat 50000 128) (batchB : IVec ⟨2, ![50000, 1]⟩ 32) : Mat 64 128 := fun j =>
  zero32 + ∑ r ∈ Finset.univ.filter (fun r : Fin 50000 => (batchB (ix2 r (0 : Fin 1))).toInt = (((j 0).val : Nat) : ℤ)),
    c (ix2 r (j 1))

def layerMS (withAct : Bool) (h agg : Mat 50000 128) (W1 : Mat 128 128) (b1 : Fin 128 → EReal) (W2 : Mat 128 128) (b2 : Fin 128 → EReal)
    (gamma beta : Fin 128 → EReal) : Mat 50000 128 :=
  let z := zOf h agg W1 b1 W2 b2
  let y := bn z (mean z) (varMS z) gamma beta
  if withAct then act y else y

def layerDev (withAct : Bool) (h agg : Mat 50000 128) (W1 : Mat 128 128) (b1 : Fin 128 → EReal) (W2 : Mat 128 128) (b2 : Fin 128 → EReal)
    (gamma beta : Fin 128 → EReal) : Mat 50000 128 :=
  let z := zOf h agg W1 b1 W2 b2
  let y := bn z (mean z) (varDev z) gamma beta
  if withAct then act y else y

def FinM {a b : Nat} (x : Mat a b) : Prop := ∀ j, x j ≠ ⊤ ∧ x j ≠ ⊥
def FinV {a : Nat} (x : Vc a) : Prop := ∀ j, x j ≠ ⊤ ∧ x j ≠ ⊥
def FinF {a : Nat} (x : Fin a → EReal) : Prop := ∀ j, x j ≠ ⊤ ∧ x j ≠ ⊥

def sliceM (W : (⟨3, ![8, 128, 128]⟩ : Shape).Idx → EReal) (i : Fin 8) : Mat 128 128 := fun j => W (ix3 i (j 0) (j 1))

def sliceV (b : Mat 8 128) (i : Fin 8) (d : Fin 128) : EReal := b (ix2 i d)

structure Inputs where
  x : Mat 50000 128
  srcB : IVec ⟨2, ![600000, 1]⟩ 32
  dstB : IVec ⟨2, ![600000, 1]⟩ 32
  W1s : (⟨3, ![8, 128, 128]⟩ : Shape).Idx → EReal
  b1s : Mat 8 128
  W2s : (⟨3, ![8, 128, 128]⟩ : Shape).Idx → EReal
  b2s : Mat 8 128
  gammas : Mat 8 128
  betas : Mat 8 128

def stepMS (I : Inputs) (i : Fin 8) (h : Mat 50000 128) : Mat 50000 128 :=
  layerMS (decide (i.val < 7)) h (aggOf h I.srcB I.dstB) (sliceM I.W1s i) (sliceV I.b1s i) (sliceM I.W2s i) (sliceV I.b2s i)
    (sliceV I.gammas i) (sliceV I.betas i)

def stepDev (I : Inputs) (i : Fin 8) (h : Mat 50000 128) : Mat 50000 128 :=
  layerDev (decide (i.val < 7)) h (aggOf h I.srcB I.dstB) (sliceM I.W1s i) (sliceV I.b1s i) (sliceM I.W2s i) (sliceV I.b2s i)
    (sliceV I.gammas i) (sliceV I.betas i)

def netMS (I : Inputs) : Mat 50000 128 :=
  stepMS I 7 (stepMS I 6 (stepMS I 5 (stepMS I 4 (stepMS I 3 (stepMS I 2 (stepMS I 1 (stepMS I 0 I.x)))))))
def netDev (I : Inputs) : Mat 50000 128 :=
  stepDev I 7 (stepDev I 6 (stepDev I 5 (stepDev I 4 (stepDev I 3 (stepDev I 2 (stepDev I 1 (stepDev I 0 I.x)))))))

def assign (h g : Mat 50000 128) : Mat 50000 128 := softmaxRows (fun j => h j + g j)

structure Inputs.Finite (I : Inputs) : Prop where
  x : FinM I.x
  W1s : ∀ j, I.W1s j ≠ ⊤ ∧ I.W1s j ≠ ⊥
  b1s : FinM I.b1s
  W2s : ∀ j, I.W2s j ≠ ⊤ ∧ I.W2s j ≠ ⊥
  b2s : FinM I.b2s
  gammas : FinM I.gammas
  betas : FinM I.betas

end Cert.Spec

end
-- ==== Proof.KHostDefs.lean ====
import Idealize.ShloMosaic.PureOps.ShapeOps
import Idealize.ShloMosaic.PureOps.Vector
import proofs.«407097_j78262894068282_1_alg».proof.Proof.Spec

noncomputable section

namespace Cert.KernelIdeal.Val

open Idealize.ShloMosaic Idealize.ShloMosaic.ValueIdx

def srcVec (ei : IVec ⟨2, ![2, 600000]⟩ 32) : IVec ⟨1, ![600000]⟩ 32 :=
  shapeCast ⟨1, ![600000]⟩ (extractStridedSlice ⟨2, ![1, 600000]⟩ ![0, 0] ei)

def dstVec (ei : IVec ⟨2, ![2, 600000]⟩ 32) : IVec ⟨1, ![600000]⟩ 32 :=
  shapeCast ⟨1, ![600000]⟩ (extractStridedSlice ⟨2, ![1, 600000]⟩ ![1, 0] ei)

def batchCol (b : IVec ⟨1, ![50000]⟩ 32) : IVec ⟨2, ![50000, 1]⟩ 32 :=
  shapeCast ⟨2, ![50000, 1]⟩ b

-- A negative source word has the node count added.
def srcBOf (v : IVec ⟨1, ![600000]⟩ 32) : IVec ⟨2, ![600000, 1]⟩ 32 :=
  broadcastInDim ⟨2, ![600000, 1]⟩ ![0] (by decide)
    (select (cmpi .slt v (broadcastInDim ⟨1, ![600000]⟩ ![] (by decide) (constantI ⟨0, ![]⟩ 32 0#32)))
      (addi v (broadcastInDim ⟨1, ![600000]⟩ ![] (by decide) (constantI ⟨0, ![]⟩ 32 50000#32))) v)

def dstBOf (v : IVec ⟨1, ![600000]⟩ 32) : IVec ⟨2, ![600000, 1]⟩ 32 :=
  broadcastInDim ⟨2, ![600000, 1]⟩ ![0] (by decide) v

end Cert.KernelIdeal.Val

end
-- ==== Proof.KChainMath.lean ====
import proofs.«407097_j78262894068282_1_alg».proof.Proof.Spec

noncomputable section

namespace Cert.KernelIdeal.Val

open Idealize.ShloMosaic Idealize.ShloMosaic.ValueIdx
open Cert

theorem zero32_eq : Spec.zero32 = 0 := Ideal.ofBits_zero_f32

theorem zero32_add (x : EReal) : Spec.zero32 + x = x := by rw [zero32_eq, zero_add]

-- The column sums, each on top of the binary32 zero, divided by the number of rows are the column means.
theorem mean_of_sums (z : Spec.Mat 50000 128) (s mu : Spec.Mat 1 128)
    (hs : s = fun j => Spec.zero32 + Spec.colSum z (j 1))
    (hmu : mu = fun j => Ideal.div (s j) Spec.nNodes) :
    (fun d => mu (ix2 0 d)) = Spec.mean z := by
  subst hs hmu
  funext d
  show Ideal.div (Spec.zero32 + Spec.colSum z d) Spec.nNodes = Spec.mean z d
  rw [zero32_add]; rfl

-- The same for the variance in its form "mean of squares minus squared mean".
theorem varMS_of_sums (z : Spec.Mat 50000 128) (s ss var : Spec.Mat 1 128)
    (hs : s = fun j => Spec.zero32 + Spec.colSum z (j 1))
    (hss : ss = fun j => Spec.zero32 + Spec.colSumSq z (j 1))
    (hvar : var = fun j => Ideal.div (ss j) Spec.nNodes - Ideal.div (s j) Spec.nNodes * Ideal.div (s j) Spec.nNodes) :
    (fun d => var (ix2 0 d)) = Spec.varMS z := by
  subst hs hss hvar
  funext d
  show Ideal.div (Spec.zero32 + Spec.colSumSq z d) Spec.nNodes
      - Ideal.div (Spec.zero32 + Spec.colSum z d) Spec.nNodes * Ideal.div (Spec.zero32 + Spec.colSum z d) Spec.nNodes
    = Spec.varMS z d
  rw [zero32_add, zero32_add]; rfl

-- A layer put together from its parts is layer `i` of the specification; `a` says whether the rectifier is applied.
theorem step_of_parts (I : Spec.Inputs) (i : Fin 8) (a : Bool) (ha : decide (i.val < 7) = a)
    (h agg z out : Spec.Mat 50000 128) (W1 W2 : Spec.Mat 128 128) (b1r b2r gr br s ss mu var : Spec.Mat 1 128)
    (hagg : agg = Spec.aggOf h I.srcB I.dstB)
    (hW1 : W1 = Spec.sliceM I.W1s i) (hW2 : W2 = Spec.sliceM I.W2s i)
    (hb1 : (fun d => b1r (ix2 0 d)) = Spec.sliceV I.b1s i) (hb2 : (fun d => b2r (ix2 0 d)) = Spec.sliceV I.b2s i)
    (hg : (fun d => gr (ix2 0 d)) = Spec.sliceV I.gammas i) (hb : (fun d => br (ix2 0 d)) = Spec.sliceV I.betas i)
    (hz : z = Spec.zOf h agg W1 (fun d => b1r (ix2 0 d)) W2 (fun d => b2r (ix2 0 d)))
    (hs : s = fun j => Spec.zero32 + Spec.colSum z (j 1))
    (hss : ss = fun j => Spec.zero32 + Spec.colSumSq z (j 1))
    (hmu : mu = fun j => Ideal.div (s j) Spec.nNodes)
    (hvar : var = fun j => Ideal.div (ss j) Spec.nNodes - Ideal.div (s j) Spec.nNodes * Ideal.div (s j) Spec.nNodes)
    (hout : out = (if a then Spec.act else id) (Spec.bn z (fun d => mu (ix2 0 d)) (fun d => var (ix2 0 d))
      (fun d => gr (ix2 0 d)) (fun d => br (ix2 0 d)))) :
    out = Spec.stepMS I i h := by
  rw [hout, mean_of_sums z s mu hs hmu, varMS_of_sums z s ss var hs hss hvar, hg, hb, hz, hb1, hb2, hW1, hW2, hagg,
    Spec.stepMS, ha]
  cases a <;> rfl

end Cert.KernelIdeal.Val

end
-- ==== Proof.KFrameBase.lean ====
import proofs.«407097_j78262894068282_1_alg».proof.Proof.Gen.KernelIdeal.Launch
import proofs.«407097_j78262894068282_1_alg».proof.Proof.KHostDefs
import proofs.«407097_j78262894068282_1_alg».proof.Proof.KChainMath

set_option maxRecDepth 16384

noncomputable section

namespace Cert.KernelIdeal.Val

open Cert.KernelIdeal Cert.KernelIdeal.Gen
open Idealize.ShloMosaic Idealize.ShloMosaic.TcCoe Idealize.ShloMosaic.ValueIdx
open Cert

variable (m : (ℓ : Loc nD τ sig) → Buf (Elt Ideal) ℓ) (ρ : Dev nD → PrngReg)

def inputs (c : Dev nD) : Spec.Inputs where
  x := m ((c : Thread nD τ).loc main_arg0)
  srcB := srcBOf (srcVec (m ((c : Thread nD τ).loc main_arg1)))
  dstB := dstBOf (dstVec (m ((c : Thread nD τ).loc main_arg1)))
  W1s := m ((c : Thread nD τ).loc main_arg4)
  b1s := m ((c : Thread nD τ).loc main_arg5)
  W2s := m ((c : Thread nD τ).loc main_arg6)
  b2s := m ((c : Thread nD τ).loc main_arg7)
  gammas := m ((c : Thread nD τ).loc main_arg8)
  betas := m ((c : Thread nD τ).loc main_arg9)

abbrev argRefs : List (Ref sig .tc) := [main_arg3, main_arg4, main_arg5, main_arg6, main_arg7, main_arg8, main_arg9, main_arg10, main_arg11, main_arg12, main_arg13]

abbrev carriedRefs : List (Ref sig .tc) := argRefs ++ [main_v1, main_v3, main_v4]

-- Contents W at a segment boundary: the arguments read later are as launched, and the three index arrays are built.
structure Carried (c : Dev nD) (W : Valuation τ sig (Elt Ideal)) : Prop where
  args : ∀ r ∈ argRefs, W (Proc.devRef .tc r) = m ((c : Thread nD τ).loc r)
  v1 : W (Proc.devRef .tc main_v1) = srcVec (m ((c : Thread nD τ).loc main_arg1))
  v3 : W (Proc.devRef .tc main_v3) = dstVec (m ((c : Thread nD τ).loc main_arg1))
  v4 : W (Proc.devRef .tc main_v4) = batchCol (m ((c : Thread nD τ).loc main_arg2))

-- A segment that keeps every buffer with property P, which the carried buffers have, keeps them carried.
theorem Carried.of_frame {c : Dev nD} {W W' : Valuation τ sig (Elt Ideal)} (h : Carried m c W) {P : Ref sig .tc → Prop}
    (hf : ∀ r, P r → W' (Proc.devRef .tc r) = W (Proc.devRef .tc r)) (hP : ∀ r ∈ carriedRefs, P r := by decide) :
    Carried m c W' :=
  ⟨fun r hr => (hf r (hP r (List.mem_append_left _ hr))).trans (h.args r hr),
   (hf _ (hP _ (by decide))).trans h.v1, (hf _ (hP _ (by decide))).trans h.v3, (hf _ (hP _ (by decide))).trans h.v4⟩

-- One layer from what its four segments compute: `Wa` are the contents at its entry, `Wc` those after its first launch.
theorem layer_of_segments (c : Dev nD) (i : Fin 8) (a : Bool) (ha : decide (i.val < 7) = a)
    {Wa Wc : Valuation τ sig (Elt Ideal)}
    (hA : ∀ r ∈ argRefs, Wa (Proc.devRef .tc r) = m ((c : Thread nD τ).loc r))
    (hAc : ∀ r ∈ argRefs, Wc (Proc.devRef .tc r) = m ((c : Thread nD τ).loc r))
    {sB dB : IVec ⟨2, ![600000, 1]⟩ 32} (hsB : sB = (inputs m c).srcB) (hdB : dB = (inputs m c).dstB)
    {h hb agg z zd out : Spec.Mat 50000 128} {W1 W2 : Spec.Mat 128 128} {b1 b2 ga be s ss mu var : Spec.Mat 1 128}
    (hhb : hb = h) (f_agg : agg = Spec.aggOf h sB dB)
    (f_W1 : W1 = Spec.sliceM (Wa (Proc.devRef .tc main_arg4)) i)
    (f_W2 : W2 = Spec.sliceM (Wa (Proc.devRef .tc main_arg6)) i)
    (f_b1 : b1 = fun j => Spec.sliceV (Wa (Proc.devRef .tc main_arg5)) i (j 1))
    (f_b2 : b2 = fun j => Spec.sliceV (Wa (Proc.devRef .tc main_arg7)) i (j 1))
    (a_z : z = Spec.zOf hb agg W1 (fun d => b1 (ix2 0 d)) W2 (fun d => b2 (ix2 0 d)))
    (a_s : s = fun j => Spec.zero32 + Spec.colSum (Spec.zOf hb agg W1 (fun d => b1 (ix2 0 d)) W2 (fun d => b2 (ix2 0 d))) (j 1))
    (a_ss : ss = fun j => Spec.zero32 + Spec.colSumSq (Spec.zOf hb agg W1 (fun d => b1 (ix2 0 d)) W2 (fun d => b2 (ix2 0 d))) (j 1))
    (f_mu : mu = fun j => Ideal.div (s j) Spec.nNodes)
    (f_var : var = fun j => Ideal.div (ss j) Spec.nNodes - Ideal.div (s j) Spec.nNodes * Ideal.div (s j) Spec.nNodes)
    (f_ga : ga = fun j => Spec.sliceV (Wc (Proc.devRef .tc main_arg8)) i (j 1))
    (f_be : be = fun j => Spec.sliceV (Wc (Proc.devRef .tc main_arg9)) i (j 1))
    (hzd : zd = z)
    (b_out : out = (if a then Spec.act else id) (Spec.bn zd (fun d => mu (ix2 0 d)) (fun d => var (ix2 0 d))
      (fun d => ga (ix2 0 d)) (fun d => be (ix2 0 d)))) :
    out = Spec.stepMS (inputs m c) i h := by
  rw [← a_z] at a_s a_ss
  rw [hhb] at a_z
  rw [hzd] at b_out
  refine step_of_parts (inputs m c) i a ha h agg z out W1 W2 b1 b2 ga be s ss mu var ?_ ?_ ?_ ?_ ?_ ?_ ?_ a_z a_s a_ss f_mu f_var b_out
  · rw [f_agg, hsB, hdB]
  · rw [f_W1, hA main_arg4 (by decide)]; rfl
  · rw [f_W2, hA main_arg6 (by decide)]; rfl
  · rw [f_b1, hA main_arg5 (by decide)]; rfl
  · rw [f_b2, hA main_arg7 (by decide)]; rfl
  · rw [f_ga, hAc main_arg8 (by decide)]; rfl
  · rw [f_be, hAc main_arg9 (by decide)]; rfl

end Cert.KernelIdeal.Val

end
-- ==== Proof.KFrame0.lean ====
import proofs.«407097_j78262894068282_1_alg».proof.Proof.Gen.KernelIdeal.Frame
import proofs.«407097_j78262894068282_1_alg».proof.Proof.KFrameBase

set_option maxRecDepth 16384

noncomputable section

namespace Cert.KernelIdeal.Val

open Cert.KernelIdeal Cert.KernelIdeal.Gen
open Idealize.ShloMosaic Idealize.ShloMosaic.TcCoe

variable (m : (ℓ : Loc nD τ sig) → Buf (Elt Ideal) ℓ) (ρ : Dev nD → PrngReg)

abbrev hostW0 : List (Ref sig .tc) := [main_v0, main_v1, main_v2, main_v3, main_v4, main_c, main_v5, main_v6, main_c_0, main_v7, main_v8, main_v9, main_v10, main_v11, main_cst, main_v12, main_v13, main_v14, main_v15, main_v16, main_v17, main_v18, main_v19, main_v20, main_v21, main_v22, main_v23, main_v24]
-- A buffer outside this list, which holds every buffer the host stretch writes, keeps its contents.
theorem W1_of (c : Dev nD) (r : Ref sig .tc) (h : r ∉ hostW0) :
    Gen.W1 m ρ c (Proc.devRef .tc r) = Gen.W0 m ρ c (Proc.devRef .tc r) :=
  StableHlo.after_of_writes_sub hostOps0 _ (by
    simp only [hostOps0, List.Forall]
    repeat' apply And.intro
    all_goals exact Finset.singleton_subset_iff.mpr (List.mem_toFinset.mpr (List.mem_map_of_mem (by decide)))) h

abbrev hostW1 : List (Ref sig .tc) := [main_cst_1, main_v26, main_v27, main_cst_2, main_v28, main_v29, main_v30, main_v31, main_v32, main_v33, main_v34, main_v35, main_v36, main_v37]
-- A buffer outside this list, which holds every buffer the host stretch writes, keeps its contents.
theorem W3_of (c : Dev nD) (r : Ref sig .tc) (h : r ∉ hostW1) :
    Gen.W3 m ρ c (Proc.devRef .tc r) = Gen.W2 m ρ c (Proc.devRef .tc r) :=
  StableHlo.after_of_writes_sub hostOps1 _ (by
    simp only [hostOps1, List.Forall]
    repeat' apply And.intro
    all_goals exact Finset.singleton_subset_iff.mpr (List.mem_toFinset.mpr (List.mem_map_of_mem (by decide)))) h

end Cert.KernelIdeal.Val

end
-- ==== Proof.KHostLib.lean ====
import Idealize.ShloMosaic.Lib.ValueLayout
import Idealize.ShloMosaic.PureOps.Contract
import proofs.«407097_j78262894068282_1_alg».proof.Proof.Spec

noncomputable section

namespace Cert.KernelIdeal.Val

open Idealize.ShloMosaic Idealize.ShloMosaic.ValueIdx

-- Two matrices with the same entry at every `(r, d)` are equal.
theorem mat_ext {a b : Nat} {f g : Spec.Mat a b} (h : ∀ r d, f (ix2 r d) = g (ix2 r d)) : f = g := by
  funext j
  rw [eq_ix2 j]
  exact h _ _

-- On the extended reals the accumulating scatter is the exact sum.
theorem scatterAdd_ideal {s si u : Shape} {w : Nat} (dm : ScatterDims s si u) (x : s.Idx → EReal) (idx : IVec si w)
    (upd : u.Idx → EReal) :
    Host.scatterAdd (F := Ideal) (φ := .f32) dm x idx upd = Ideal.hostScatterAdd dm x idx upd := rfl

-- Scattering the gathered rows into zeros sums, for each row, the source rows of the edges that point at it.
theorem agg_eq {x : Spec.Mat 50000 128} {srcB dstB : IVec ⟨2, ![600000, 1]⟩ 32} {wg ws hb} :
    Host.scatterAdd (F := Ideal) (φ := .f32) (LibGatherScatter.scatRowsDims 50000 600000 128 ws)
        (broadcastInDim ⟨2, ![50000, 128]⟩ ![] hb (constant (F := Ideal) ⟨0, ![]⟩ .f32 0x00000000#32)) dstB
        (Host.gather (LibGatherScatter.rowsDims 50000 600000 128 wg) x srcB)
      = Spec.aggOf x srcB dstB := by
  refine mat_ext fun r d => ?_
  rw [scatterAdd_ideal, LibGatherScatter.scatterAdd_rows_apply]
  exact congrArg₂ (· + ·) rfl (Finset.sum_congr rfl fun e _ => LibGatherScatter.gather_rows_apply (by decide) wg x srcB e d)

-- Slice `i` of the stack with its unit axis dropped reads the stack at `(i, r, d)`.
theorem sliceM_eq {W : (⟨3, ![8, 128, 128]⟩ : Shape).Idx → EReal} (i : Fin 8) {h1 h2} :
    shapeCast ⟨2, ![128, 128]⟩ (extractStridedSlice ⟨3, ![1, 128, 128]⟩ ![i.val, 0, 0] W h1) h2 = Spec.sliceM W i := by
  refine mat_ext fun r d => ?_
  rw [shapeCast_1ab_ab_apply]
  refine (extractStridedSlice_apply _ _ _ _ (ix3 i r d) fun a => ?_).trans rfl
  match a with
  | ⟨0, _⟩ => rfl
  | ⟨1, _⟩ | ⟨2, _⟩ => exact (Nat.zero_add _).symm

-- Row `i` of the stack, set as a one-row matrix, reads the stack at `(i, d)`.
theorem sliceRow_eq {b : Spec.Mat 8 128} (i : Fin 8) {h1 h2 h3} :
    shapeCast ⟨2, ![1, 128]⟩ (shapeCast ⟨1, ![128]⟩ (extractStridedSlice ⟨2, ![1, 128]⟩ ![i.val, 0] b h1) h2) h3
      = fun j => Spec.sliceV b i (j 1) := by
  refine mat_ext fun u d => ?_
  rw [shapeCast_a_1a_apply, shapeCast_1a_a_apply]
  exact slice2_axis0_apply i.val b h1 0 d i (by simp)

end Cert.KernelIdeal.Val

end
-- ==== Proof.KHost0.lean ====
import Idealize.ShloMosaic.Lib.StableHlo.Run
import proofs.«407097_j78262894068282_1_alg».proof.Proof.Gen.KernelIdeal.Launch
import proofs.«407097_j78262894068282_1_alg».proof.Proof.KHostDefs
import proofs.«407097_j78262894068282_1_alg».proof.Proof.KHostLib

set_option maxRecDepth 16384

noncomputable section

namespace Cert.KernelIdeal.Val

open Gen Idealize.ShloMosaic

variable (V : Valuation τ sig (Elt Ideal))

theorem host0_src :
    (StableHlo.after (hostOps0 (F := Ideal)) V (Proc.devRef .tc main_v1) : IVec ⟨1, ![600000]⟩ 32)
      = srcVec (V (Proc.devRef .tc main_arg1)) := by
  after_results
  rfl

theorem host0_dst :
    (StableHlo.after (hostOps0 (F := Ideal)) V (Proc.devRef .tc main_v3) : IVec ⟨1, ![600000]⟩ 32)
      = dstVec (V (Proc.devRef .tc main_arg1)) := by
  after_results
  rfl

theorem host0_batch :
    (StableHlo.after (hostOps0 (F := Ideal)) V (Proc.devRef .tc main_v4) : IVec ⟨2, ![50000, 1]⟩ 32)
      = batchCol (V (Proc.devRef .tc main_arg2)) := by
  after_results
  rfl

theorem host0_agg :
    (StableHlo.after (hostOps0 (F := Ideal)) V (Proc.devRef .tc main_v14) : Spec.Mat 50000 128)
      = Spec.aggOf (V (Proc.devRef .tc main_arg0)) (srcBOf (srcVec (V (Proc.devRef .tc main_arg1))))
          (dstBOf (dstVec (V (Proc.devRef .tc main_arg1)))) := by
  after_results
  exact agg_eq

theorem host0_W1 :
    (StableHlo.after (hostOps0 (F := Ideal)) V (Proc.devRef .tc main_v16) : Spec.Mat 128 128)
      = Spec.sliceM (V (Proc.devRef .tc main_arg4)) (0 : Fin 8) := by
  after_results
  exact sliceM_eq 0

theorem host0_b1 :
    (StableHlo.after (hostOps0 (F := Ideal)) V (Proc.devRef .tc main_v23) : Spec.Mat 1 128)
      = fun j => Spec.sliceV (V (Proc.devRef .tc main_arg5)) (0 : Fin 8) (j 1) := by
  after_results
  exact sliceRow_eq 0

theorem host0_W2 :
    (StableHlo.after (hostOps0 (F := Ideal)) V (Proc.devRef .tc main_v20) : Spec.Mat 128 128)
      = Spec.sliceM (V (Proc.devRef .tc main_arg6)) (0 : Fin 8) := by
  after_results
  exact sliceM_eq 0

theorem host0_b2 :
    (StableHlo.after (hostOps0 (F := Ideal)) V (Proc.devRef .tc main_v24) : Spec.Mat 1 128)
      = fun j => Spec.sliceV (V (Proc.devRef .tc main_arg7)) (0 : Fin 8) (j 1) := by
  after_results
  exact sliceRow_eq 0

end Cert.KernelIdeal.Val

end
-- ==== Proof.KHost1.lean ====
import Idealize.ShloMosaic.Lib.StableHlo.Run
import proofs.«407097_j78262894068282_1_alg».proof.Proof.Gen.KernelIdeal.Launch
import proofs.«407097_j78262894068282_1_alg».proof.Proof.KHostLib

set_option maxRecDepth 16384

noncomputable section

namespace Cert.KernelIdeal.Val

open Gen Idealize.ShloMosaic

variable (V : Valuation τ sig (Elt Ideal))

theorem host1_mu :
    (StableHlo.after (hostOps1 (F := Ideal)) V (Proc.devRef .tc main_v27) : Spec.Mat 1 128)
      = fun j => Ideal.div ((V (Proc.devRef .tc main_v25_1) : Spec.Mat 1 128) j) Spec.nNodes := by
  after_results
  rfl

theorem host1_var :
    (StableHlo.after (hostOps1 (F := Ideal)) V (Proc.devRef .tc main_v31) : Spec.Mat 1 128)
      = fun j => Ideal.div ((V (Proc.devRef .tc main_v25_2) : Spec.Mat 1 128) j) Spec.nNodes
          - Ideal.div ((V (Proc.devRef .tc main_v25_1) : Spec.Mat 1 128) j) Spec.nNodes
            * Ideal.div ((V (Proc.devRef .tc main_v25_1) : Spec.Mat 1 128) j) Spec.nNodes := by
  after_results
  rfl

theorem host1_gamma :
    (StableHlo.after (hostOps1 (F := Ideal)) V (Proc.devRef .tc main_v36) : Spec.Mat 1 128)
      = fun j => Spec.sliceV (V (Proc.devRef .tc main_arg8)) (0 : Fin 8) (j 1) := by
  after_results
  exact sliceRow_eq 0

theorem host1_beta :
    (StableHlo.after (hostOps1 (F := Ideal)) V (Proc.devRef .tc main_v37) : Spec.Mat 1 128)
      = fun j => Spec.sliceV (V (Proc.devRef .tc main_arg9)) (0 : Fin 8) (j 1) := by
  after_results
  exact sliceRow_eq 0

end Cert.KernelIdeal.Val

end
-- ==== Proof.KMlpSum.lean ====
import Mathlib.Algebra.BigOperators.Fin
import Idealize.ShloMosaic.Lib.ValueLayout
import proofs.«407097_j78262894068282_1_alg».proof.Proof.Spec

noncomputable section

namespace Cert.KernelIdeal.Val

open Idealize.ShloMosaic Idealize.ShloMosaic.ValueIdx

-- `partSum f k` sums `f` over the rows below `10000 k`: five tiles of 10000 rows make up the 50000.
def rowOr0 (f : Fin 50000 → EReal) (i : ℕ) : EReal := if h : i < 50000 then f ⟨i, h⟩ else 0

def partSum (f : Fin 50000 → EReal) (k : ℕ) : EReal := ∑ i ∈ Finset.range (10000 * k), rowOr0 f i

theorem partSum_zero (f : Fin 50000 → EReal) : partSum f 0 = 0 := by
  unfold partSum
  rw [Nat.mul_zero, Finset.range_zero, Finset.sum_empty]

theorem partSum_succ (f : Fin 50000 → EReal) (k : ℕ) (hk : k < 5) :
    partSum f (k + 1) = partSum f k + ∑ q : Fin 10000, f ⟨10000 * k + q.val, by have := q.isLt; omega⟩ := by
  unfold partSum
  have e : ∀ q : Fin 10000, rowOr0 f (10000 * k + q.val) = f ⟨10000 * k + q.val, by have := q.isLt; omega⟩ :=
    fun q => dif_pos _
  rw [show 10000 * (k + 1) = 10000 * k + 10000 from Nat.mul_succ _ _, Finset.sum_range_add,
    Finset.sum_range (fun x => rowOr0 f (10000 * k + x)), Fintype.sum_congr _ _ e]

theorem partSum_five (f : Fin 50000 → EReal) : partSum f 5 = ∑ r : Fin 50000, f r := by
  unfold partSum
  rw [show 10000 * 5 = 50000 from rfl, Finset.sum_range]
  refine Fintype.sum_congr _ _ fun r => ?_
  unfold rowOr0
  rw [dif_pos r.isLt]

-- The sum over the rows of a [10000,128] block at lane `q`, and that row of sums seen as a [1,128] block.
theorem rowSum_apply (X : FVec Ideal ⟨2, ![10000, 128]⟩ .f32) (h : Shape.Reduces ⟨2, ![10000, 128]⟩ [0] ⟨1, ![128]⟩)
    (hφ : FKind.Formats .f32) (hacc : (0x00000000#32 : BitVec 32) = FKind.add.neutral .f32 hφ) (q : Fin 128) :
    multiReduction .add [0] ⟨1, ![128]⟩ X 0x00000000#32 h hφ hacc (ix1 q) = ∑ r : Fin 10000, X (ix2 r q) := by
  refine (Ideal.multiReduction_add_single X 0x00000000#32 h hφ hacc (ix1 q)).trans ?_
  show ∑ r : Fin 10000, X (h.lift (ix1 q) r) = _
  refine Fintype.sum_congr _ _ fun r => congrArg X (funext fun a => Fin.ext ?_)
  match a with
  | ⟨0, _⟩ => rfl
  | ⟨1, _⟩ => rfl

theorem rowSum_block_apply (X : FVec Ideal ⟨2, ![10000, 128]⟩ .f32) (h : Shape.Reduces ⟨2, ![10000, 128]⟩ [0] ⟨1, ![128]⟩)
    (hφ : FKind.Formats .f32) (hacc : (0x00000000#32 : BitVec 32) = FKind.add.neutral .f32 hφ)
    (hc : (⟨1, ![128]⟩ : Shape).ShapeCasts ⟨2, ![1, 128]⟩) (q : Fin 128) :
    shapeCast ⟨2, ![1, 128]⟩ (multiReduction .add [0] ⟨1, ![128]⟩ X 0x00000000#32 h hφ hacc) hc (ix2 (0 : Fin 1) q)
      = ∑ r : Fin 10000, X (ix2 r q) :=
  (shapeCast_a_1a_apply _ hc 0 q).trans (rowSum_apply X h hφ hacc q)

end Cert.KernelIdeal.Val

end
-- ==== Proof.KMlpDot.lean ====
import Idealize.ShloMosaic.Lib.ValueLayout
import proofs.«407097_j78262894068282_1_alg».proof.Proof.Gen.KernelIdeal
import proofs.«407097_j78262894068282_1_alg».proof.Proof.Spec

noncomputable section

namespace Cert.KernelIdeal.Val

open Idealize.ShloMosaic Idealize.ShloMosaic.ValueIdx
open Cert.KernelIdeal Cert.KernelIdeal.Gen

theorem mlp_hz : (![0, 0] : Fin 2 → Nat) = fun _ => 0 := funext fun a => by fin_cases a <;> rfl

theorem mlp_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem mlp_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem mlp_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem mlp_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

-- Into a zero accumulator the block product at `(p, q)` is `∑ k, L (p, k) · R (k, q)`.
theorem mlp_matmul_apply (L : FVec Ideal S10000x128 .f32) (R : FVec Ideal S128x128 .f32) (p : Fin 10000) (q : Fin 128) :
    matmul dot_S10000x128_S128x128_S10000x128_1_0_0_1_n_n none L R (constant S10000x128 .f32 0x00000000#32) (ix2 p q)
      = ∑ k : Fin 128, L (ix2 p k) * R (ix2 k q) := by
  simp only [matmul]
  rw [Ideal.matmul_constant_zero_apply,
    ← Equiv.sum_comp (contrEquiv1 dot_S10000x128_S128x128_S10000x128_1_0_0_1_n_n 128 rfl rfl).symm]
  refine Fintype.sum_congr _ _ fun k => ?_
  have hk := contrEquiv1_symm_val dot_S10000x128_S128x128_S10000x128_1_0_0_1_n_n 128 rfl rfl k
  have el : dot_S10000x128_S128x128_S10000x128_1_0_0_1_n_n.lhsIdx (ix2 p q)
      ((contrEquiv1 dot_S10000x128_S128x128_S10000x128_1_0_0_1_n_n 128 rfl rfl).symm k) = ix2 p k :=
    funext fun a => Fin.ext (by
      match a with
      | ⟨0, _⟩ => exact mlp_lhs_0 _ _
      | ⟨1, _⟩ => exact (mlp_lhs_1 _ _).trans hk)
  have er : dot_S10000x128_S128x128_S10000x128_1_0_0_1_n_n.rhsIdx (ix2 p q)
      ((contrEquiv1 dot_S10000x128_S128x128_S10000x128_1_0_0_1_n_n 128 rfl rfl).symm k) = ix2 k q :=
    funext fun a => Fin.ext (by
      match a with
      | ⟨0, _⟩ => exact (mlp_rhs_0 _ _).trans hk
      | ⟨1, _⟩ => exact mlp_rhs_1 _ _)
  rw [el, er]

-- The body's select between an entry and the slope times it is the specification's `lrelu` at every entry.
theorem mlp_lrelu_apply (v : FVec Ideal S10000x128 .f32) (i : S10000x128.Idx) :
    select (cmpf .oge v (broadcast S10000x128 (Scalar.ofBits (F := Ideal) .f32 0x00000000#32))) v
        (mulf (broadcast S10000x128 (Scalar.ofBits (F := Ideal) .f32 0x3C23D70A#32)) v) i
      = Spec.lrelu (v i) := rfl

-- The perceptron of a tile in the body's block operations: `lrelu((h + a) · W1 + b1) · W2 + b2`.
def mlpPre (hb : S1x128.Broadcasts S10000x128) (h a : FVec Ideal S10000x128 .f32) (W1 : FVec Ideal S128x128 .f32)
    (b1 : FVec Ideal S1x128 .f32) : FVec Ideal S10000x128 .f32 :=
  addf (matmul dot_S10000x128_S128x128_S10000x128_1_0_0_1_n_n none (addf h a) W1 (constant S10000x128 .f32 0x00000000#32))
    (broadcastTo S10000x128 b1 hb)

def mlpTile (hb : S1x128.Broadcasts S10000x128) (h a : FVec Ideal S10000x128 .f32) (W1 : FVec Ideal S128x128 .f32)
    (b1 : FVec Ideal S1x128 .f32) (W2 : FVec Ideal S128x128 .f32) (b2 : FVec Ideal S1x128 .f32) : FVec Ideal S10000x128 .f32 :=
  addf (matmul dot_S10000x128_S128x128_S10000x128_1_0_0_1_n_n none
      (select (cmpf .oge (mlpPre hb h a W1 b1) (broadcast S10000x128 (Scalar.ofBits (F := Ideal) .f32 0x00000000#32))) (mlpPre hb h a W1 b1)
        (mulf (broadcast S10000x128 (Scalar.ofBits (F := Ideal) .f32 0x3C23D70A#32)) (mlpPre hb h a W1 b1)))
      W2 (constant S10000x128 .f32 0x00000000#32))
    (broadcastTo S10000x128 b2 hb)

theorem mlpPre_apply (hb : S1x128.Broadcasts S10000x128) (h a : FVec Ideal S10000x128 .f32) (W1 : FVec Ideal S128x128 .f32)
    (b1 : FVec Ideal S1x128 .f32) (p : Fin 10000) (k : Fin 128) :
    mlpPre hb h a W1 b1 (ix2 p k)
      = (∑ k' : Fin 128, (h (ix2 p k') + a (ix2 p k')) * W1 (ix2 k' k)) + b1 (ix2 (0 : Fin 1) k) := by
  unfold mlpPre
  exact congrArg₂ (· + ·) (mlp_matmul_apply (addf h a) W1 p k) (broadcastTo_1b_ab_apply b1 hb p k)

theorem mlpTile_apply (hb : S1x128.Broadcasts S10000x128) (h a : FVec Ideal S10000x128 .f32) (W1 : FVec Ideal S128x128 .f32)
    (b1 : FVec Ideal S1x128 .f32) (W2 : FVec Ideal S128x128 .f32) (b2 : FVec Ideal S1x128 .f32) (p : Fin 10000) (q : Fin 128) :
    mlpTile hb h a W1 b1 W2 b2 (ix2 p q)
      = (∑ k : Fin 128, Spec.lrelu ((∑ k' : Fin 128, (h (ix2 p k') + a (ix2 p k')) * W1 (ix2 k' k)) + b1 (ix2 (0 : Fin 1) k))
            * W2 (ix2 k q)) + b2 (ix2 (0 : Fin 1) q) := by
  unfold mlpTile
  refine congrArg₂ (· + ·) ((mlp_matmul_apply _ W2 p q).trans ?_) (broadcastTo_1b_ab_apply b2 hb p q)
  refine Fintype.sum_congr _ _ fun k => congrArg (· * W2 (ix2 k q)) ?_
  exact (mlp_lrelu_apply (mlpPre hb h a W1 b1) (ix2 p k)).trans (congrArg Spec.lrelu (mlpPre_apply hb h a W1 b1 p k))

-- When the tile's two row blocks are rows `row p` of whole arrays, its output at `(p, q)` is `zOf` at `(row p, q)`.
theorem mlpTile_eq_zOf (hb : S1x128.Broadcasts S10000x128) (h a : FVec Ideal S10000x128 .f32) (W1 : FVec Ideal S128x128 .f32)
    (b1 : FVec Ideal S1x128 .f32) (W2 : FVec Ideal S128x128 .f32) (b2 : FVec Ideal S1x128 .f32)
    (H A : Spec.Mat 50000 128) (W1' : Spec.Mat 128 128) (b1' : Spec.Mat 1 128) (W2' : Spec.Mat 128 128) (b2' : Spec.Mat 1 128)
    (row : Fin 10000 → Fin 50000)
    (eh : ∀ p k, h (ix2 p k) = H (ix2 (row p) k)) (ea : ∀ p k, a (ix2 p k) = A (ix2 (row p) k))
    (e1 : W1 = W1') (e2 : b1 = b1') (e3 : W2 = W2') (e4 : b2 = b2') (p : Fin 10000) (q : Fin 128) :
    mlpTile hb h a W1 b1 W2 b2 (ix2 p q)
      = Spec.zOf H A W1' (fun d => b1' (ix2 (0 : Fin 1) d)) W2' (fun d => b2' (ix2 (0 : Fin 1) d)) (ix2 (row p) q) := by
  subst e1 e2 e3 e4
  rw [mlpTile_apply]
  show _ = (∑ k : Fin 128, Spec.lrelu ((∑ k' : Fin 128, (H (ix2 (row p) k') + A (ix2 (row p) k')) * W1 (ix2 k' k)) + b1 (ix2 (0 : Fin 1) k))
            * W2 (ix2 k q)) + b2 (ix2 (0 : Fin 1) q)
  simp only [eh, ea]

end Cert.KernelIdeal.Val

end
-- ==== Proof.KMlpRun.lean ====
import proofs.«407097_j78262894068282_1_alg».proof.Proof.KMlpSum
import proofs.«407097_j78262894068282_1_alg».proof.Proof.KMlpDot

noncomputable section

namespace Cert.KernelIdeal.Val

open Idealize.ShloMosaic Idealize.ShloMosaic.ValueIdx
open Cert.KernelIdeal Cert.KernelIdeal.Gen

-- An accumulator's step: its block plus the column sums of a tile.
def mlpAdd (z : FVec Ideal S10000x128 .f32) (prev : Vec Ideal S1x128 .f32) : FVec Ideal S1x128 .f32 :=
  addf prev (shapeCast S1x128 (multiReduction .add [0] S128 z 0x00000000#32 reduces_S10000x128_S128 (.inl rfl) rfl) shapeCasts_S128_S1x128)

theorem mlpAdd_apply (z : FVec Ideal S10000x128 .f32) (prev : Vec Ideal S1x128 .f32) (q : Fin 128) :
    mlpAdd z prev (ix2 (0 : Fin 1) q) = prev (ix2 (0 : Fin 1) q) + ∑ r : Fin 10000, z (ix2 r q) := by
  unfold mlpAdd
  exact congrArg (prev (ix2 (0 : Fin 1) q) + ·) (rowSum_block_apply z _ _ _ _ q)

variable {N : ℕ} (hN : N = 5)

-- Row `p` of tile `t` among the 50000 rows.
abbrev mlpRow (t : Fin N) (p : Fin 10000) : Fin 50000 :=
  ⟨10000 * t.val + p.val, by have := t.isLt; have := p.isLt; omega⟩

-- A block set to zero plus tile 0's column sums, to which each later tile adds its own, holds after tile `n` zero plus the sums over the rows below `10000 (n + 1)`.
theorem mlp_partSum (f : Fin 50000 → Fin 128 → EReal) (X : Fin N → FVec Ideal S10000x128 .f32)
    (hX : ∀ t p q, X t (ix2 p q) = f (mlpRow hN t p) q) (Z : Vec Ideal S1x128 .f32) (hZ : ∀ j, Z j = Spec.zero32)
    (s : (n : ℕ) → n < N → Vec Ideal S1x128 .f32) (h0 : ∀ hn, s 0 hn = mlpAdd (X ⟨0, hn⟩) Z)
    (hs : ∀ n (hn : n + 1 < N), s (n + 1) hn = mlpAdd (X ⟨n + 1, hn⟩) (s n (Nat.lt_of_succ_lt hn))) :
    ∀ (n : ℕ) (hn : n < N) (q : Fin 128), s n hn (ix2 (0 : Fin 1) q) = Spec.zero32 + partSum (fun r => f r q) (n + 1)
  | 0, hn, q => by
    rw [h0, mlpAdd_apply, hZ, partSum_succ _ 0 (by omega), partSum_zero, zero_add]
    exact congrArg (Spec.zero32 + ·) (Fintype.sum_congr _ _ fun r => hX ⟨0, hn⟩ r q)
  | n + 1, hn, q => by
    rw [hs, mlpAdd_apply, mlp_partSum f X hX Z hZ s h0 hs n (Nat.lt_of_succ_lt hn) q, add_assoc, partSum_succ _ (n + 1) (by omega)]
    exact congrArg (Spec.zero32 + ·) (congrArg (partSum (fun r => f r q) (n + 1) + ·) (Fintype.sum_congr _ _ fun r => hX ⟨n + 1, hn⟩ r q))

-- What the five tiles leave: each its rows of `z`, and the last the column sums of `z` and of its squares over all rows.
structure MlpOuts (z : Spec.Mat 50000 128)
    (o : (n : ℕ) → n < N → Vec Ideal S10000x128 .f32 × Vec Ideal S1x128 .f32 × Vec Ideal S1x128 .f32) : Prop where
  tile : ∀ t : Fin N, (o t.val t.isLt).1 = fun j : S10000x128.Idx => z (ix2 (mlpRow hN t (j 0)) (j 1))
  sum : ∀ t : Fin N, t.val = 4 → (o t.val t.isLt).2.1 = fun j : S1x128.Idx => Spec.zero32 + Spec.colSum z (j 1)
  sq : ∀ t : Fin N, t.val = 4 → (o t.val t.isLt).2.2 = fun j : S1x128.Idx => Spec.zero32 + Spec.colSumSq z (j 1)

-- Tile `t` is the perceptron of rows `10000 t ..` of the arrays; tile 0 starts the two accumulators from zero and each later tile adds to what the one before left.
theorem mlp_run {H A : Spec.Mat 50000 128} {W1 W2 : Spec.Mat 128 128} {b1 b2 : Spec.Mat 1 128}
    {x0 x1 : Fin N → Vec Ideal S10000x128 .f32} {x2 x4 : Fin N → Vec Ideal S128x128 .f32} {x3 x5 : Fin N → Vec Ideal S1x128 .f32}
    {T : Fin N → FVec Ideal S10000x128 .f32} {Z7 Z8 : Vec Ideal S1x128 .f32}
    {o : (n : ℕ) → n < N → Vec Ideal S10000x128 .f32 × Vec Ideal S1x128 .f32 × Vec Ideal S1x128 .f32}
    (hT : ∀ t, T t = mlpTile Gen.broadcasts_S1x128_S10000x128 (x0 t) (x1 t) (x2 t) (x3 t) (x4 t) (x5 t))
    (e0 : ∀ t p k, x0 t (ix2 p k) = H (ix2 (mlpRow hN t p) k)) (e1 : ∀ t p k, x1 t (ix2 p k) = A (ix2 (mlpRow hN t p) k))
    (e2 : ∀ t, x2 t = W1) (e3 : ∀ t, x3 t = b1) (e4 : ∀ t, x4 t = W2) (e5 : ∀ t, x5 t = b2)
    (hZ7 : ∀ j, Z7 j = Spec.zero32) (hZ8 : ∀ j, Z8 j = Spec.zero32)
    (hA : ∀ t : Fin N, t.val % 5 = 0 → o t.val t.isLt = (T t, mlpAdd (T t) Z7, mlpAdd (mulf (T t) (T t)) Z8))
    (hB : ∀ t : Fin N, ¬t.val % 5 = 0 → o t.val t.isLt
      = (T t, mlpAdd (T t) (o (t.val - 1) (Nat.lt_of_le_of_lt (Nat.sub_le _ _) t.isLt)).2.1,
          mlpAdd (mulf (T t) (T t)) (o (t.val - 1) (Nat.lt_of_le_of_lt (Nat.sub_le _ _) t.isLt)).2.2)) :
    MlpOuts hN (Spec.zOf H A W1 (fun d => b1 (ix2 (0 : Fin 1) d)) W2 (fun d => b2 (ix2 (0 : Fin 1) d))) o := by
  let z := Spec.zOf H A W1 (fun d => b1 (ix2 (0 : Fin 1) d)) W2 (fun d => b2 (ix2 (0 : Fin 1) d))
  have hz : ∀ t p q, T t (ix2 p q) = z (ix2 (mlpRow hN t p) q) :=
    fun t p q => (congrFun (hT t) _).trans (mlpTile_eq_zOf _ _ _ _ _ _ _ H A W1 b1 W2 b2 (mlpRow hN t) (e0 t) (e1 t) (e2 t) (e3 t) (e4 t) (e5 t) p q)
  have hB' : ∀ n (hn : n + 1 < N), ¬(⟨n + 1, hn⟩ : Fin N).val % 5 = 0 := fun n hn => by dsimp only; omega
  have h7 := mlp_partSum hN (fun r q => z (ix2 r q)) T hz Z7 hZ7 (fun n hn => (o n hn).2.1)
    (fun hn => congrArg (·.2.1) (hA ⟨0, hn⟩ (Nat.zero_mod _))) (fun n hn => congrArg (·.2.1) (hB ⟨n + 1, hn⟩ (hB' n hn)))
  have h8 := mlp_partSum hN (fun r q => z (ix2 r q) * z (ix2 r q)) (fun t => mulf (T t) (T t)) (fun t p q => congrArg₂ (· * ·) (hz t p q) (hz t p q)) Z8 hZ8
    (fun n hn => (o n hn).2.2)
    (fun hn => congrArg (·.2.2) (hA ⟨0, hn⟩ (Nat.zero_mod _))) (fun n hn => congrArg (·.2.2) (hB ⟨n + 1, hn⟩ (hB' n hn)))
  refine ⟨fun t => ?_, fun t h4 => ?_, fun t h4 => ?_⟩
  · have e : (o t.val t.isLt).1 = T t := by
      by_cases h0 : t.val % 5 = 0
      · rw [hA t h0]
      · rw [hB t h0]
    rw [e]
    funext j
    obtain ⟨p, q, rfl⟩ : ∃ (p : Fin 10000) (q : Fin 128), j = ix2 p q := ⟨j 0, j 1, eq_ix2 j⟩
    exact hz t p q
  · funext j
    obtain ⟨u, q, rfl⟩ : ∃ (u : Fin 1) (q : Fin 128), j = ix2 u q := ⟨j 0, j 1, eq_ix2 j⟩
    obtain rfl : u = 0 := Subsingleton.elim _ _
    refine (h7 t.val t.isLt q).trans ?_
    rw [h4]
    exact congrArg (Spec.zero32 + ·) (partSum_five _)
  · funext j
    obtain ⟨u, q, rfl⟩ : ∃ (u : Fin 1) (q : Fin 128), j = ix2 u q := ⟨j 0, j 1, eq_ix2 j⟩
    obtain rfl : u = 0 := Subsingleton.elim _ _
    refine (h8 t.val t.isLt q).trans ?_
    rw [h4]
    exact congrArg (Spec.zero32 + ·) (partSum_five _)

end Cert.KernelIdeal.Val

end
-- ==== Proof.KMlp0Pieces.lean ====
import proofs.«407097_j78262894068282_1_alg».proof.Proof.Gen.KernelIdeal.Frame
import proofs.«407097_j78262894068282_1_alg».proof.Proof.KMlpDot
import Idealize.ShloMosaic.Lib.Pipeline.Value
import Idealize.ShloMosaic.Lib.Tactic

noncomputable section

namespace Cert.KernelIdeal.Val

open Idealize.ShloMosaic Idealize.ShloMosaic.TcCoe Idealize.SL.Sem
open Cert.KernelIdeal Cert.KernelIdeal.Gen

variable {F : FTy → Type} [FloatOps F]
variable (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole)
  (x0 x1 : Vec F S10000x128 .f32) (x2 : Vec F S128x128 .f32) (x3 : Vec F S1x128 .f32) (x4 : Vec F S128x128 .f32) (x5 xo7 xo8 : Vec F S1x128 .f32)

-- What one run of the body leaves in its three output blocks: the tile's output, and each accumulator's old block (zero at the first tile) plus the tile's column sums.
theorem mlp0_out_A (hc0 : cond0_0 i) :
    (out0_A_6 c i arg1 harg1 arg2 harg2 arg3 harg3 arg4 harg4 arg5 harg5 arg6 harg6 arg7 harg7 arg8 harg8 arg9 harg9 hc0 x0 x1 x2 x3 x4 x5, out0_A_7 c i arg1 harg1 arg2 harg2 arg3 harg3 arg4 harg4 arg5 harg5 arg6 harg6 arg7 harg7 arg8 harg8 arg9 harg9 hc0 x0 x1 x2 x3 x4 x5, out0_A_8 c i arg1 harg1 arg2 harg2 arg3 harg3 arg4 harg4 arg5 harg5 arg6 harg6 arg7 harg7 arg8 harg8 arg9 harg9 hc0 x0 x1 x2 x3 x4 x5)
      = (k0_pay4 x0 x1 x2 x3 x4 x5, k0_pay5 x0 x1 x2 x3 x4 x5 (k0_pay2 (F := F)), k0_pay1 (k0_pay4 x0 x1 x2 x3 x4 x5) (k0_pay3 (F := F))) := by
  unfold out0_A_6 out0_A_7 out0_A_8
  refine congrArg₂ Prod.mk ?_ (congrArg₂ Prod.mk ?_ ?_)
  on_goal 1 => rw [View.read_writes_eq_canon _ _ _ (cover0_A_6 _ _ _ _ _ _ _ _ _ _ _ _ _ _ _ _ _ _ _ _ _ _ _ _ _ _ _)]
  on_goal 2 => rw [View.read_writes_eq_canon _ _ _ (cover0_A_7 _ _ _ _ _ _ _ _ _ _ _ _ _ _ _ _ _ _ _ _ _ _ _ _ _ _ _)]
  on_goal 3 => rw [View.read_writes_eq_canon _ _ _ (cover0_A_8 _ _ _ _ _ _ _ _ _ _ _ _ _ _ _ _ _ _ _ _ _ _ _ _ _ _ _)]
  all_goals
    unfold kernelRun0_A
    dsimp only
    sl_unfold_words
    first | rw [View.canon_unit_zero mlp_hz] | rw [View.canon_cons_unit_zero (S := S1x128) mlp_hz]
    simp only [View.readAt_eq_ld, harg1.read_unread, harg2.read_unread, harg3.read_unread, harg4.read_unread, harg5.read_unread,
      harg6.read_unread, harg8.read_unread, harg9.read_unread, View.ld_unit_zero (S := S10000x128) mlp_hz,
      View.ld_unit_zero (S := S128x128) mlp_hz, View.ld_unit_zero (S := S1x128) mlp_hz,
      View.readCov_unit_zero (S := S1x128) _ mlp_hz]

theorem mlp0_out_B (hc0 : ¬cond0_0 i) :
    (out0_B_6 c i arg1 harg1 arg2 harg2 arg3 harg3 arg4 harg4 arg5 harg5 arg6 harg6 arg7 harg7 arg8 harg8 arg9 harg9 hc0 x0 x1 x2 x3 x4 x5 xo7 xo8, out0_B_7 c i arg1 harg1 arg2 harg2 arg3 harg3 arg4 harg4 arg5 harg5 arg6 harg6 arg7 harg7 arg8 harg8 arg9 harg9 hc0 x0 x1 x2 x3 x4 x5 xo7 xo8, out0_B_8 c i arg1 harg1 arg2 harg2 arg3 harg3 arg4 harg4 arg5 harg5 arg6 harg6 arg7 harg7 arg8 harg8 arg9 harg9 hc0 x0 x1 x2 x3 x4 x5 xo7 xo8)
      = (k0_pay4 x0 x1 x2 x3 x4 x5, k0_pay5 x0 x1 x2 x3 x4 x5 xo7, k0_pay1 (k0_pay4 x0 x1 x2 x3 x4 x5) xo8) := by
  unfold out0_B_6 out0_B_7 out0_B_8
  refine congrArg₂ Prod.mk ?_ (congrArg₂ Prod.mk ?_ ?_)
  on_goal 1 => rw [View.read_writes_eq_canon _ _ _ (cover0_B_6 _ _ _ _ _ _ _ _ _ _ _ _ _ _ _ _ _ _ _ _ _ _ _ _ _ _ _ _ _)]
  on_goal 2 => rw [View.read_writes_eq_canon _ _ _ (cover0_B_7 _ _ _ _ _ _ _ _ _ _ _ _ _ _ _ _ _ _ _ _ _ _ _ _ _ _ _ _ _)]
  on_goal 3 => rw [View.read_writes_eq_canon _ _ _ (cover0_B_8 _ _ _ _ _ _ _ _ _ _ _ _ _ _ _ _ _ _ _ _ _ _ _ _ _ _ _ _ _)]
  all_goals
    unfold kernelRun0_B
    dsimp only
    sl_unfold_words
    first | rw [View.canon_unit_zero mlp_hz] | rw [View.canon_cons_unit_zero (S := S1x128) mlp_hz]
    simp only [View.readAt_eq_ld, harg1.read_unread, harg2.read_unread, harg3.read_unread, harg4.read_unread, harg5.read_unread,
      harg6.read_unread, harg8.read_unread, harg9.read_unread, View.ld_unit_zero (S := S10000x128) mlp_hz,
      View.ld_unit_zero (S := S128x128) mlp_hz, View.ld_unit_zero (S := S1x128) mlp_hz,
      View.readCov_unit_zero (S := S1x128) _ mlp_hz]

end Cert.KernelIdeal.Val

end
-- ==== Proof.KMlp0.lean ====
import proofs.«407097_j78262894068282_1_alg».proof.Proof.KMlpRun
import proofs.«407097_j78262894068282_1_alg».proof.Proof.KMlp0Pieces

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

-- The perceptron's output of the whole arrays found on entry.
abbrev mlp0_z (c : Dev nD) : Spec.Mat 50000 128 :=
  Spec.zOf (V c (Pipeline.arrRef spec0 0)) (V c (Pipeline.arrRef spec0 1)) (V c (Pipeline.arrRef spec0 2))
    (fun d => (V c (Pipeline.arrRef spec0 3) : Spec.Mat 1 128) (ix2 (0 : Fin 1) d)) (V c (Pipeline.arrRef spec0 4))
    (fun d => (V c (Pipeline.arrRef spec0 5) : Spec.Mat 1 128) (ix2 (0 : Fin 1) d))

-- The payloads of the body's three stores are the tile perceptron and two accumulator steps, the casts of a block to its own shape dropped.
theorem mlp0_pay4_eq (h a : Vec Ideal S10000x128 .f32) (W1 : Vec Ideal S128x128 .f32) (b1 : Vec Ideal S1x128 .f32) (W2 : Vec Ideal S128x128 .f32) (b2 : Vec Ideal S1x128 .f32) :
    k0_pay4 (F := Ideal) h a W1 b1 W2 b2 = mlpTile Gen.broadcasts_S1x128_S10000x128 h a W1 b1 W2 b2 := by
  unfold k0_pay4 mlpTile mlpPre
  simp only [shapeCast_self]
theorem mlp0_pay5_eq (h a : Vec Ideal S10000x128 .f32) (W1 : Vec Ideal S128x128 .f32) (b1 : Vec Ideal S1x128 .f32) (W2 : Vec Ideal S128x128 .f32) (b2 prev : Vec Ideal S1x128 .f32) :
    k0_pay5 (F := Ideal) h a W1 b1 W2 b2 prev = mlpAdd (k0_pay4 h a W1 b1 W2 b2) prev := by
  unfold k0_pay5 mlpAdd
  simp only [shapeCast_self]
theorem mlp0_pay1_eq (z : Vec Ideal S10000x128 .f32) (prev : Vec Ideal S1x128 .f32) : k0_pay1 (F := Ideal) z prev = mlpAdd (mulf z z) prev := by
  unfold k0_pay1 mlpAdd
  simp only [shapeCast_self]

-- The windows' block indices: the row-tiled arrays sit at block `(t, 0)`, the others at `(0, 0)`.
theorem mlp0_idxR : ∀ t : Fin cfg0.N, (win0_0.index t (0 : Fin 2) = t.val ∧ win0_0.index t (1 : Fin 2) = 0)
    ∧ (win0_1.index t (0 : Fin 2) = t.val ∧ win0_1.index t (1 : Fin 2) = 0) ∧ win0_6.index t (0 : Fin 2) = t.val ∧ win0_6.index t (1 : Fin 2) = 0 :=
  (by decide +kernel : ∀ t : Fin grid0.N, _)
theorem mlp0_idxW : ∀ (t : Fin cfg0.N) (a : Fin 2), win0_2.index t a = 0 ∧ win0_3.index t a = 0 ∧ win0_4.index t a = 0 ∧ win0_5.index t a = 0
    ∧ win0_7.index t a = 0 ∧ win0_8.index t a = 0 :=
  (by decide +kernel : ∀ (t : Fin grid0.N) (a : Fin 2), _)

-- Reading an array through tile `t`'s block: rows `10000 t ..` of a row-tiled array, all of any other.
theorem mlp0_rd0 (t : Fin cfg0.N) (G : Spec.Mat 50000 128) :
    ((cfg0.win 0).blk t).view.read (Elt Ideal) G = fun j => G (ix2 (mlpRow N_0 t (j 0)) (j 1)) := by
  funext y
  rw [View.read_apply]
  show G _ = G _
  refine congrArg G (funext fun a => Fin.ext ?_)
  match a with
  | ⟨0, _⟩ => show win0_0.index t 0 * 10000 + 1 * (y 0).val = 10000 * t.val + (y 0).val; rw [(mlp0_idxR t).1.1]; omega
  | ⟨1, _⟩ => show win0_0.index t 1 * 128 + 1 * (y 1).val = (y 1).val; rw [(mlp0_idxR t).1.2]; omega
theorem mlp0_rd1 (t : Fin cfg0.N) (G : Spec.Mat 50000 128) :
    ((cfg0.win 1).blk t).view.read (Elt Ideal) G = fun j => G (ix2 (mlpRow N_0 t (j 0)) (j 1)) := by
  funext y
  rw [View.read_apply]
  show G _ = G _
  refine congrArg G (funext fun a => Fin.ext ?_)
  match a with
  | ⟨0, _⟩ => show win0_1.index t 0 * 10000 + 1 * (y 0).val = 10000 * t.val + (y 0).val; rw [(mlp0_idxR t).2.1.1]; omega
  | ⟨1, _⟩ => show win0_1.index t 1 * 128 + 1 * (y 1).val = (y 1).val; rw [(mlp0_idxR t).2.1.2]; omega
theorem mlp0_rd6 (t : Fin cfg0.N) (G : Spec.Mat 50000 128) :
    ((cfg0.win 6).blk t).view.read (Elt Ideal) G = fun j => G (ix2 (mlpRow N_0 t (j 0)) (j 1)) := by
  funext y
  rw [View.read_apply]
  show G _ = G _
  refine congrArg G (funext fun a => Fin.ext ?_)
  match a with
  | ⟨0, _⟩ => show win0_6.index t 0 * 10000 + 1 * (y 0).val = 10000 * t.val + (y 0).val; rw [(mlp0_idxR t).2.2.1]; omega
  | ⟨1, _⟩ => show win0_6.index t 1 * 128 + 1 * (y 1).val = (y 1).val; rw [(mlp0_idxR t).2.2.2]; omega
theorem mlp0_rd2 (t : Fin cfg0.N) (G : Spec.Mat 128 128) : ((cfg0.win 2).blk t).view.read (Elt Ideal) G = G := by
  funext y
  rw [View.read_apply]
  show G _ = G y
  exact congrArg G (funext fun a => Fin.ext (win0_2.rect_emb_val_of_index_zero t a (mlp0_idxW t a).1 y))
theorem mlp0_rd3 (t : Fin cfg0.N) (G : Spec.Mat 1 128) : ((cfg0.win 3).blk t).view.read (Elt Ideal) G = G := by
  funext y
  rw [View.read_apply]
  show G _ = G y
  exact congrArg G (funext fun a => Fin.ext (win0_3.rect_emb_val_of_index_zero t a (mlp0_idxW t a).2.1 y))
theorem mlp0_rd4 (t : Fin cfg0.N) (G : Spec.Mat 128 128) : ((cfg0.win 4).blk t).view.read (Elt Ideal) G = G := by
  funext y
  rw [View.read_apply]
  show G _ = G y
  exact congrArg G (funext fun a => Fin.ext (win0_4.rect_emb_val_of_index_zero t a (mlp0_idxW t a).2.2.1 y))
theorem mlp0_rd5 (t : Fin cfg0.N) (G : Spec.Mat 1 128) : ((cfg0.win 5).blk t).view.read (Elt Ideal) G = G := by
  funext y
  rw [View.read_apply]
  show G _ = G y
  exact congrArg G (funext fun a => Fin.ext (win0_5.rect_emb_val_of_index_zero t a (mlp0_idxW t a).2.2.2.1 y))
theorem mlp0_rd7 (t : Fin cfg0.N) (G : Spec.Mat 1 128) : ((cfg0.win 7).blk t).view.read (Elt Ideal) G = G := by
  funext y
  rw [View.read_apply]
  show G _ = G y
  exact congrArg G (funext fun a => Fin.ext (win0_7.rect_emb_val_of_index_zero t a (mlp0_idxW t a).2.2.2.2.1 y))
theorem mlp0_rd8 (t : Fin cfg0.N) (G : Spec.Mat 1 128) : ((cfg0.win 8).blk t).view.read (Elt Ideal) G = G := by
  funext y
  rw [View.read_apply]
  show G _ = G y
  exact congrArg G (funext fun a => Fin.ext (win0_8.rect_emb_val_of_index_zero t a (mlp0_idxW t a).2.2.2.2.2 y))

-- What the run's tiles leave: the general statement at this region's blocks and stores.
theorem mlp0_run (c : Dev nD) : MlpOuts N_0 (mlp0_z V c) (outsAt0 V c) :=
  mlp_run N_0 (x0 := iblk0 V c 0) (x1 := iblk0 V c 1) (x2 := iblk0 V c 2) (x3 := iblk0 V c 3) (x4 := iblk0 V c 4) (x5 := iblk0 V c 5)
    (T := fun t => k0_pay4 (iblk0 V c 0 t) (iblk0 V c 1 t) (iblk0 V c 2 t) (iblk0 V c 3 t) (iblk0 V c 4 t) (iblk0 V c 5 t))
    (Z7 := k0_pay2 (F := Ideal)) (Z8 := k0_pay3 (F := Ideal)) (fun t => mlp0_pay4_eq ..)
    (fun t p k => congrFun (mlp0_rd0 t _) (ix2 p k)) (fun t p k => congrFun (mlp0_rd1 t _) (ix2 p k))
    (fun t => mlp0_rd2 t _) (fun t => mlp0_rd3 t _) (fun t => mlp0_rd4 t _) (fun t => mlp0_rd5 t _) (fun _ => rfl) (fun _ => rfl)
    (fun t h0 => ((outsAt0_A V c t h0).trans (mlp0_out_A ..)).trans (by rw [mlp0_pay5_eq, mlp0_pay1_eq]))
    (fun t h0 => ((outsAt0_B V c t h0).trans (mlp0_out_B ..)).trans (by rw [mlp0_pay5_eq, mlp0_pay1_eq]))

-- Row `r` lies in the block of tile `r / 10000`; the last tile's block is the whole of an accumulator's array.
theorem mlp0_cover6 (i : S50000x128.Idx) : ∃ t : Fin cfg0.N, (cfg0.win 6).flush t = true ∧ i ∈ ((cfg0.win 6).blk t).view.set := by
  have hN : cfg0.N = 5 := N_0
  have hi0 : (i 0).val < 50000 := (i 0).isLt
  have hi1 : (i 1).val < 128 := (i 1).isLt
  have hm : ∀ t : Fin cfg0.N, t.val = (i 0).val / 10000 → i ∈ ((cfg0.win 6).blk t).view.set := fun t ht => by
    show i ∈ ((View.whole (Pipeline.arrRef spec0 6)).slice (win0_6.rect t)).set
    rw [View.set_slice_whole, Rect.mem_set_unit]
    intro a
    match a with
    | ⟨0, _⟩ =>
      show win0_6.index t 0 * 10000 ≤ (i 0).val ∧ (i 0).val < win0_6.index t 0 * 10000 + 10000
      rw [(mlp0_idxR t).2.2.1]; omega
    | ⟨1, _⟩ =>
      show win0_6.index t 1 * 128 ≤ (i 1).val ∧ (i 1).val < win0_6.index t 1 * 128 + 128
      rw [(mlp0_idxR t).2.2.2]; omega
  exact ⟨⟨(i 0).val / 10000, by omega⟩, flush0_6 _, hm _ rfl⟩
theorem mlp0_cover7 (i : S1x128.Idx) : ∃ t : Fin cfg0.N, (cfg0.win 7).flush t = true ∧ i ∈ ((cfg0.win 7).blk t).view.set := by
  have hN : cfg0.N = 5 := N_0
  have hm : ∀ t : Fin cfg0.N, i ∈ ((cfg0.win 7).blk t).view.set := fun t => by
    show i ∈ ((View.whole (Pipeline.arrRef spec0 7)).slice (win0_7.rect t)).set
    rw [View.set_slice_whole, Rect.mem_set_unit]
    intro a
    show win0_7.index t a * S1x128.size a ≤ (i a).val ∧ (i a).val < win0_7.index t a * S1x128.size a + S1x128.size a
    rw [(mlp0_idxW t a).2.2.2.2.1, Nat.zero_mul, Nat.zero_add]
    exact ⟨Nat.zero_le _, (i a).isLt⟩
  exact ⟨⟨4, by omega⟩, (flush0_7 _).mpr rfl, hm _⟩
theorem mlp0_cover8 (i : S1x128.Idx) : ∃ t : Fin cfg0.N, (cfg0.win 8).flush t = true ∧ i ∈ ((cfg0.win 8).blk t).view.set := by
  have hN : cfg0.N = 5 := N_0
  have hm : ∀ t : Fin cfg0.N, i ∈ ((cfg0.win 8).blk t).view.set := fun t => by
    show i ∈ ((View.whole (Pipeline.arrRef spec0 8)).slice (win0_8.rect t)).set
    rw [View.set_slice_whole, Rect.mem_set_unit]
    intro a
    show win0_8.index t a * S1x128.size a ≤ (i a).val ∧ (i a).val < win0_8.index t a * S1x128.size a + S1x128.size a
    rw [(mlp0_idxW t a).2.2.2.2.2, Nat.zero_mul, Nat.zero_add]
    exact ⟨Nat.zero_le _, (i a).isLt⟩
  exact ⟨⟨4, by omega⟩, (flush0_8 _).mpr rfl, hm _⟩
-- The three arrays the kernel leaves: each tile writes back its rows of `z`, the last tile the two accumulators.
theorem mlp0_arr6 (c : Dev nD) : (dat0 V c).arrAt 6 cfg0.N = mlp0_z V c :=
  (dat0 V c).arrAt_eq_of_cover 6 _ (fun t _ => by
    show (cfg0.win 6).cut (grid0.coords t) ((dat0 V c).after 6 t) = _
    rw [after0_6, (mlp0_run V c).tile t]
    exact (mlp0_rd6 t _).symm) mlp0_cover6
theorem mlp0_arr7 (c : Dev nD) :
    (dat0 V c).arrAt 7 cfg0.N = fun j : S1x128.Idx => Spec.zero32 + Spec.colSum (mlp0_z V c) (j 1) :=
  (dat0 V c).arrAt_eq_of_cover 7 _ (fun t hf => by
    have hN : cfg0.N = 5 := N_0
    have h4 : t.val = 4 := by have := (flush0_7 t).mp hf; have := t.isLt; omega
    show (cfg0.win 7).cut (grid0.coords t) ((dat0 V c).after 7 t) = _
    rw [after0_7, (mlp0_run V c).sum t h4]
    exact (mlp0_rd7 t _).symm) mlp0_cover7
theorem mlp0_arr8 (c : Dev nD) :
    (dat0 V c).arrAt 8 cfg0.N = fun j : S1x128.Idx => Spec.zero32 + Spec.colSumSq (mlp0_z V c) (j 1) :=
  (dat0 V c).arrAt_eq_of_cover 8 _ (fun t hf => by
    have hN : cfg0.N = 5 := N_0
    have h4 : t.val = 4 := by have := (flush0_8 t).mp hf; have := t.isLt; omega
    show (cfg0.win 8).cut (grid0.coords t) ((dat0 V c).after 8 t) = _
    rw [after0_8, (mlp0_run V c).sq t h4]
    exact (mlp0_rd8 t _).symm) mlp0_cover8

end Cert.KernelIdeal.Val

end
-- ==== Proof.KBnMath.lean ====
import proofs.«407097_j78262894068282_1_alg».proof.Proof.Gen.KernelIdeal.Skeleton
import proofs.«407097_j78262894068282_1_alg».proof.Proof.Spec
import Idealize.ShloMosaic.Lib.Pipeline.Value
import Idealize.ShloMosaic.Lib.ValueLayout

noncomputable section

namespace Cert.KernelIdeal.Val

open Cert.KernelIdeal Cert.KernelIdeal.Gen Idealize.ShloMosaic Idealize.ShloMosaic.TcCoe Idealize.SL.Sem
open Idealize.ShloMosaic.ValueIdx

theorem hz_bn : (![0, 0] : Fin 2 → Nat) = fun _ => 0 := funext fun a => by fin_cases a <;> rfl

theorem rsqrtAt_bn {s : Shape} {φ : FTy} (v : FVec Ideal s φ) (i : s.Idx) : rsqrt v i = Ideal.rsqrt (v i) := rfl

-- Row r of the array lies in the tile of 10000 rows numbered r / 10000, and every column in the tile's one column block.
theorem tile_bounds_bn (idx : Fin 2 → Nat) (i : S50000x128.Idx) (h0 : idx 0 = (i 0).val / 10000) (h1 : idx 1 = 0) (a : Fin 2) :
    idx a * S10000x128.size a ≤ (i a).val ∧ (i a).val < idx a * S10000x128.size a + S10000x128.size a := by
  match a with
  | ⟨0, _⟩ => show idx 0 * 10000 ≤ (i 0).val ∧ (i 0).val < idx 0 * 10000 + 10000; omega
  | ⟨1, _⟩ => show idx 1 * 128 ≤ (i 1).val ∧ (i 1).val < idx 1 * 128 + 128; have := idx2_lt1 i; omega

-- A block read through an embedding e of its indices is the array at k wherever e y and k have the same coordinates.
theorem read_blk_bn {s s' : Shape} {x : s.Idx → EReal} {A : s'.Idx → EReal} (e : s.Idx → s'.Idx) (hr : ∀ y, x y = A (e y))
    (y : s.Idx) (k : s'.Idx) (he : ∀ a, (e y a).val = (k a).val) : x y = A k :=
  (hr y).trans (congrArg A (funext fun a => Fin.ext (he a)))

-- What a region leaves: the batch normalisation of z by four row vectors, and the same through the rectifier.
abbrev bnOf (z : Spec.Mat 50000 128) (mu var gamma beta : Spec.Mat 1 128) : Spec.Mat 50000 128 :=
  Spec.bn z (fun d => mu (ix2 0 d)) (fun d => var (ix2 0 d)) (fun d => gamma (ix2 0 d)) (fun d => beta (ix2 0 d))

abbrev bnActOf (z : Spec.Mat 50000 128) (mu var gamma beta : Spec.Mat 1 128) : Spec.Mat 50000 128 :=
  Spec.act (bnOf z mu var gamma beta)

variable {z : Spec.Mat 50000 128} {mu var gamma beta : Spec.Mat 1 128} {x0 : Vec Ideal S10000x128 .f32}
  {x1 x2 x3 x4 : Vec Ideal S1x128 .f32} {y : S10000x128.Idx} {k : S50000x128.Idx}

-- Each row vector is broadcast down the rows, so entry y of the tile meets the row vectors at column y 1.
theorem bnPay_apply : Gen.k15_pay1 x0 x1 x2 x3 x4 y
    = ((x0 y - x1 (ix2 0 (y 1))) * Ideal.rsqrt (x2 (ix2 0 (y 1)) + Spec.bnEps)) * x3 (ix2 0 (y 1)) + x4 (ix2 0 (y 1)) := by
  obtain ⟨p, q, rfl⟩ : ∃ (p : Fin 10000) (q : Fin 128), y = ix2 p q := ⟨y 0, y 1, eq_ix2 y⟩
  unfold Gen.k15_pay1
  simp only [shapeCast_self, mulf_apply, addf_apply, subf_apply, broadcastTo_1b_ab_apply, rsqrtAt_bn, broadcast_apply]
  rfl

-- The rectified payload is the rectifier after the plain one, entry by entry.
theorem bnActPay_apply : Gen.k1_pay1 x0 x1 x2 x3 x4 y = Spec.lrelu (Gen.k15_pay1 x0 x1 x2 x3 x4 y) := by
  unfold Gen.k1_pay1 Gen.k15_pay1
  simp only [select_apply, cmpf_apply, mulf_apply, broadcast_apply]
  rfl

variable (hq : y 1 = k 1) (h0 : x0 y = z k) (h1 : ∀ r, x1 r = mu r) (h2 : ∀ r, x2 r = var r) (h3 : ∀ r, x3 r = gamma r)
  (h4 : ∀ r, x4 r = beta r)
include hq h0 h1 h2 h3 h4

-- Once the blocks are read off the arrays, an entry of the stored tile is the target at the array index k under it.
theorem bn_entry : Gen.k15_pay1 x0 x1 x2 x3 x4 y = bnOf z mu var gamma beta k := by
  rw [bnPay_apply, h0, h1, h2, h3, h4, hq]
  rfl

theorem bnAct_entry : Gen.k1_pay1 x0 x1 x2 x3 x4 y = bnActOf z mu var gamma beta k :=
  bnActPay_apply.trans (congrArg Spec.lrelu (bn_entry hq h0 h1 h2 h3 h4))

end Cert.KernelIdeal.Val

end
-- ==== Proof.KBn1.lean ====
import proofs.«407097_j78262894068282_1_alg».proof.Proof.Gen.KernelIdeal.Frame
import proofs.«407097_j78262894068282_1_alg».proof.Proof.KBnMath

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

theorem idx_bn1 : ∀ t : Fin cfg1.N,
    (∀ a : Fin 2, win1_0.index t a = win1_5.index t a) ∧ win1_5.index t (0 : Fin 2) = t.val ∧ win1_5.index t (1 : Fin 2) = 0
    ∧ ∀ a : Fin 2, win1_1.index t a = 0 ∧ win1_2.index t a = 0 ∧ win1_3.index t a = 0 ∧ win1_4.index t a = 0 :=
  (by decide +kernel : ∀ t : Fin grid1.N, _)

variable (V : (c : Dev nD) → (b : Ref sig .tc) → Buf (Elt Ideal) ((c : Thread nD τ).loc b))

-- The z tile and the output block cover the same rows of their arrays, and each row vector is read whole.
theorem entry_bn1 (c : Dev nD) (t : Fin cfg1.N) (y : S10000x128.Idx) :
    Gen.k1_pay1 (Gen.iblk1 V c 0 t) (Gen.iblk1 V c 1 t) (Gen.iblk1 V c 2 t) (Gen.iblk1 V c 3 t) (Gen.iblk1 V c 4 t) y
      = bnActOf (V c (Pipeline.arrRef spec1 0)) (V c (Pipeline.arrRef spec1 1)) (V c (Pipeline.arrRef spec1 2))
          (V c (Pipeline.arrRef spec1 3)) (V c (Pipeline.arrRef spec1 4)) (((cfg1.win 5).blk t).view.emb y) := by
  obtain ⟨h05, -, h51, h⟩ := idx_bn1 t
  refine bnAct_entry (Fin.ext (win1_5.rect_emb_val_of_index_zero t (1 : Fin 2) h51 y).symm)
    (read_blk_bn (win1_0.rect t).emb (fun _ => rfl) y _ fun a => ?_)
    (fun r => read_blk_bn (win1_1.rect t).emb (fun _ => rfl) r r fun a => win1_1.rect_emb_val_of_index_zero t a (h a).1 r)
    (fun r => read_blk_bn (win1_2.rect t).emb (fun _ => rfl) r r fun a => win1_2.rect_emb_val_of_index_zero t a (h a).2.1 r)
    (fun r => read_blk_bn (win1_3.rect t).emb (fun _ => rfl) r r fun a => win1_3.rect_emb_val_of_index_zero t a (h a).2.2.1 r)
    (fun r => read_blk_bn (win1_4.rect t).emb (fun _ => rfl) r r fun a => win1_4.rect_emb_val_of_index_zero t a (h a).2.2.2 r)
  have e := win1_0.rect_emb_val t y a
  rw [h05 a] at e
  exact e.trans (win1_5.rect_emb_val t y a).symm

-- Row r of the output array lies in the block of point r / 10000.
theorem cover_bn1 (i : S50000x128.Idx) : ∃ t : Fin cfg1.N, (cfg1.win 5).flush t = true ∧ i ∈ ((cfg1.win 5).blk t).view.set := by
  have ht : (i 0).val / 10000 < cfg1.N := by rw [show cfg1.N = 5 from Gen.N_1]; have := idx2_lt0 i; omega
  obtain ⟨-, h50, h51, -⟩ := idx_bn1 ⟨_, ht⟩
  refine ⟨⟨_, ht⟩, Gen.flush1_5 _, ?_⟩
  show i ∈ ((View.whole (Pipeline.arrRef spec1 5)).slice (win1_5.rect ⟨_, ht⟩)).set
  rw [View.set_slice_whole, Rect.mem_set_unit]
  exact tile_bounds_bn (win1_5.index _) i h50 h51

theorem out_bn1 (c : Dev nD) : (Gen.dat1 V c).arrAt 5 cfg1.N =
    Spec.act (Spec.bn (V c (Pipeline.arrRef spec1 0))
      (fun d => (V c (Pipeline.arrRef spec1 1) : Spec.Mat 1 128) (ix2 0 d))
      (fun d => (V c (Pipeline.arrRef spec1 2) : Spec.Mat 1 128) (ix2 0 d))
      (fun d => (V c (Pipeline.arrRef spec1 3) : Spec.Mat 1 128) (ix2 0 d))
      (fun d => (V c (Pipeline.arrRef spec1 4) : Spec.Mat 1 128) (ix2 0 d))) := by
  refine (Gen.dat1 V c).arrAt_eq_of_cover 5 _ (fun t _ => ?_) cover_bn1
  show (cfg1.win 5).cut (grid1.coords t) ((Gen.dat1 V c).after 5 t) = _
  rw [Gen.after1_5]
  unfold Gen.out1_5
  rw [View.canon_unit_zero hz_bn]
  simp only [View.ld_unit_zero (S := S10000x128) hz_bn, View.ld_unit_zero (S := S1x128) hz_bn]
  funext j
  rw [View.read_apply]
  exact entry_bn1 V c t j

end Cert.KernelIdeal.Val

end
-- ==== Proof.KLayer0.lean ====
import proofs.«407097_j78262894068282_1_alg».proof.Proof.KFrame0
import proofs.«407097_j78262894068282_1_alg».proof.Proof.KHost0
import proofs.«407097_j78262894068282_1_alg».proof.Proof.KHost1
import proofs.«407097_j78262894068282_1_alg».proof.Proof.KMlp0
import proofs.«407097_j78262894068282_1_alg».proof.Proof.KBn1

set_option maxRecDepth 16384

noncomputable section

namespace Cert.KernelIdeal.Val

open Cert.KernelIdeal Cert.KernelIdeal.Gen
open Idealize.ShloMosaic Idealize.ShloMosaic.TcCoe Idealize.ShloMosaic.ValueIdx
open Cert

variable (m : (ℓ : Loc nD τ sig) → Buf (Elt Ideal) ℓ) (ρ : Dev nD → PrngReg)

-- Layer 0: its first host stretch also builds the three index arrays.
theorem layer0 (c : Dev nD) :
    Carried m c (Gen.W4 m ρ c)
      ∧ Gen.W4 m ρ c (Proc.devRef .tc main_v38) = Spec.stepMS (inputs m c) 0 (Gen.W0 m ρ c (Proc.devRef .tc main_arg0)) :=
  have hA : ∀ r ∈ argRefs, Gen.W0 m ρ c (Proc.devRef .tc r) = m ((c : Thread nD τ).loc r) := by
    intro r hr; dsimp only [argRefs] at hr; fin_cases hr <;> rfl
  have hCb : Carried m c (Gen.W1 m ρ c) :=
    ⟨fun r hr => (W1_of m ρ c r ((by decide : ∀ r ∈ argRefs, r ∉ hostW0) r hr)).trans (hA r hr),
      host0_src _, host0_dst _, host0_batch _⟩
  have hCc : Carried m c (Gen.W2 m ρ c) := hCb.of_frame m (Gen.W2_of_ne m ρ c)
  ⟨(hCc.of_frame m (W3_of m ρ c)).of_frame m (Gen.W4_of_ne m ρ c),
   layer_of_segments m c 0 true rfl hA hCc.args rfl rfl
    (W1_of m ρ c main_arg0 (by decide)) (host0_agg _) (host0_W1 _) (host0_W2 _) (host0_b1 _) (host0_b2 _)
    ((Gen.W2_arr m ρ c 6).trans (mlp0_arr6 _ c)) ((Gen.W2_arr m ρ c 7).trans (mlp0_arr7 _ c))
    ((Gen.W2_arr m ρ c 8).trans (mlp0_arr8 _ c))
    (host1_mu _) (host1_var _) (host1_gamma _) (host1_beta _) (W3_of m ρ c main_v25_0 (by decide))
    ((Gen.W4_arr m ρ c 5).trans (out_bn1 _ c))⟩

end Cert.KernelIdeal.Val

end
-- ==== Proof.KFrame1.lean ====
import proofs.«407097_j78262894068282_1_alg».proof.Proof.Gen.KernelIdeal.Frame
import proofs.«407097_j78262894068282_1_alg».proof.Proof.KFrameBase

set_option maxRecDepth 16384

noncomputable section

namespace Cert.KernelIdeal.Val

open Cert.KernelIdeal Cert.KernelIdeal.Gen
open Idealize.ShloMosaic Idealize.ShloMosaic.TcCoe

variable (m : (ℓ : Loc nD τ sig) → Buf (Elt Ideal) ℓ) (ρ : Dev nD → PrngReg)

abbrev hostW2 : List (Ref sig .tc) := [main_c_3, main_v39, main_v40, main_c_4, main_v41, main_v42, main_v43, main_v44, main_v45, main_cst_5, main_v46, main_v47, main_v48, main_v49, main_v50, main_v51, main_v52, main_v53, main_v54, main_v55, main_v56, main_v57, main_v58]
-- A buffer outside this list, which holds every buffer the host stretch writes, keeps its contents.
theorem W5_of (c : Dev nD) (r : Ref sig .tc) (h : r ∉ hostW2) :
    Gen.W5 m ρ c (Proc.devRef .tc r) = Gen.W4 m ρ c (Proc.devRef .tc r) :=
  StableHlo.after_of_writes_sub hostOps2 _ (by
    simp only [hostOps2, List.Forall]
    repeat' apply And.intro
    all_goals exact Finset.singleton_subset_iff.mpr (List.mem_toFinset.mpr (List.mem_map_of_mem (by decide)))) h

abbrev hostW3 : List (Ref sig .tc) := [main_cst_6, main_v60, main_v61, main_cst_7, main_v62, main_v63, main_v64, main_v65, main_v66, main_v67, main_v68, main_v69, main_v70, main_v71]
-- A buffer outside this list, which holds every buffer the host stretch writes, keeps its contents.
theorem W7_of (c : Dev nD) (r : Ref sig .tc) (h : r ∉ hostW3) :
    Gen.W7 m ρ c (Proc.devRef .tc r) = Gen.W6 m ρ c (Proc.devRef .tc r) :=
  StableHlo.after_of_writes_sub hostOps3 _ (by
    simp only [hostOps3, List.Forall]
    repeat' apply And.intro
    all_goals exact Finset.singleton_subset_iff.mpr (List.mem_toFinset.mpr (List.mem_map_of_mem (by decide)))) h

end Cert.KernelIdeal.Val

end
-- ==== Proof.KHost2.lean ====
import Idealize.ShloMosaic.Lib.StableHlo.Run
import proofs.«407097_j78262894068282_1_alg».proof.Proof.Gen.KernelIdeal.Launch
import proofs.«407097_j78262894068282_1_alg».proof.Proof.KHostDefs
import proofs.«407097_j78262894068282_1_alg».proof.Proof.KHostLib

set_option maxRecDepth 16384

noncomputable section

namespace Cert.KernelIdeal.Val

open Gen Idealize.ShloMosaic

variable (V : Valuation τ sig (Elt Ideal))

theorem host2_agg :
    (StableHlo.after (hostOps2 (F := Ideal)) V (Proc.devRef .tc main_v48) : Spec.Mat 50000 128)
      = Spec.aggOf (V (Proc.devRef .tc main_v38)) (srcBOf (V (Proc.devRef .tc main_v1))) (dstBOf (V (Proc.devRef .tc main_v3))) := by
  after_results_simp
  exact agg_eq

theorem host2_W1 :
    (StableHlo.after (hostOps2 (F := Ideal)) V (Proc.devRef .tc main_v50) : Spec.Mat 128 128)
      = Spec.sliceM (V (Proc.devRef .tc main_arg4)) (1 : Fin 8) := by
  after_results
  exact sliceM_eq 1

theorem host2_b1 :
    (StableHlo.after (hostOps2 (F := Ideal)) V (Proc.devRef .tc main_v57) : Spec.Mat 1 128)
      = fun j => Spec.sliceV (V (Proc.devRef .tc main_arg5)) (1 : Fin 8) (j 1) := by
  after_results
  exact sliceRow_eq 1

theorem host2_W2 :
    (StableHlo.after (hostOps2 (F := Ideal)) V (Proc.devRef .tc main_v54) : Spec.Mat 128 128)
      = Spec.sliceM (V (Proc.devRef .tc main_arg6)) (1 : Fin 8) := by
  after_results
  exact sliceM_eq 1

theorem host2_b2 :
    (StableHlo.after (hostOps2 (F := Ideal)) V (Proc.devRef .tc main_v58) : Spec.Mat 1 128)
      = fun j => Spec.sliceV (V (Proc.devRef .tc main_arg7)) (1 : Fin 8) (j 1) := by
  after_results
  exact sliceRow_eq 1

end Cert.KernelIdeal.Val

end
-- ==== Proof.KHost3.lean ====
import Idealize.ShloMosaic.Lib.StableHlo.Run
import proofs.«407097_j78262894068282_1_alg».proof.Proof.Gen.KernelIdeal.Launch
import proofs.«407097_j78262894068282_1_alg».proof.Proof.KHostLib

set_option maxRecDepth 16384

noncomputable section

namespace Cert.KernelIdeal.Val

open Gen Idealize.ShloMosaic

variable (V : Valuation τ sig (Elt Ideal))

theorem host3_mu :
    (StableHlo.after (hostOps3 (F := Ideal)) V (Proc.devRef .tc main_v61) : Spec.Mat 1 128)
      = fun j => Ideal.div ((V (Proc.devRef .tc main_v59_1) : Spec.Mat 1 128) j) Spec.nNodes := by
  after_results
  rfl

theorem host3_var :
    (StableHlo.after (hostOps3 (F := Ideal)) V (Proc.devRef .tc main_v65) : Spec.Mat 1 128)
      = fun j => Ideal.div ((V (Proc.devRef .tc main_v59_2) : Spec.Mat 1 128) j) Spec.nNodes
          - Ideal.div ((V (Proc.devRef .tc main_v59_1) : Spec.Mat 1 128) j) Spec.nNodes
            * Ideal.div ((V (Proc.devRef .tc main_v59_1) : Spec.Mat 1 128) j) Spec.nNodes := by
  after_results
  rfl

theorem host3_gamma :
    (StableHlo.after (hostOps3 (F := Ideal)) V (Proc.devRef .tc main_v70) : Spec.Mat 1 128)
      = fun j => Spec.sliceV (V (Proc.devRef .tc main_arg8)) (1 : Fin 8) (j 1) := by
  after_results
  exact sliceRow_eq 1

theorem host3_beta :
    (StableHlo.after (hostOps3 (F := Ideal)) V (Proc.devRef .tc main_v71) : Spec.Mat 1 128)
      = fun j => Spec.sliceV (V (Proc.devRef .tc main_arg9)) (1 : Fin 8) (j 1) := by
  after_results
  exact sliceRow_eq 1

end Cert.KernelIdeal.Val

end
-- ==== Proof.KMlp2Pieces.lean ====
import proofs.«407097_j78262894068282_1_alg».proof.Proof.Gen.KernelIdeal.Frame
import proofs.«407097_j78262894068282_1_alg».proof.Proof.KMlpDot
import Idealize.ShloMosaic.Lib.Pipeline.Value
import Idealize.ShloMosaic.Lib.Tactic

noncomputable section

namespace Cert.KernelIdeal.Val

open Idealize.ShloMosaic Idealize.ShloMosaic.TcCoe Idealize.SL.Sem
open Cert.KernelIdeal Cert.KernelIdeal.Gen

variable {F : FTy → Type} [FloatOps F]
variable (c : Dev nD) (i : grid2.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole)
  (x0 x1 : Vec F S10000x128 .f32) (x2 : Vec F S128x128 .f32) (x3 : Vec F S1x128 .f32) (x4 : Vec F S128x128 .f32) (x5 xo7 xo8 : Vec F S1x128 .f32)

-- What one run of the body leaves in its three output blocks: the tile's output, and each accumulator's old block (zero at the first tile) plus the tile's column sums.
theorem mlp2_out_A (hc0 : cond2_0 i) :
    (out2_A_6 c i arg1 harg1 arg2 harg2 arg3 harg3 arg4 harg4 arg5 harg5 arg6 harg6 arg7 harg7 arg8 harg8 arg9 harg9 hc0 x0 x1 x2 x3 x4 x5, out2_A_7 c i arg1 harg1 arg2 harg2 arg3 harg3 arg4 harg4 arg5 harg5 arg6 harg6 arg7 harg7 arg8 harg8 arg9 harg9 hc0 x0 x1 x2 x3 x4 x5, out2_A_8 c i arg1 harg1 arg2 harg2 arg3 harg3 arg4 harg4 arg5 harg5 arg6 harg6 arg7 harg7 arg8 harg8 arg9 harg9 hc0 x0 x1 x2 x3 x4 x5)
      = (k2_pay4 x0 x1 x2 x3 x4 x5, k2_pay5 x0 x1 x2 x3 x4 x5 (k2_pay2 (F := F)), k2_pay1 (k2_pay4 x0 x1 x2 x3 x4 x5) (k2_pay3 (F := F))) := by
  unfold out2_A_6 out2_A_7 out2_A_8
  refine congrArg₂ Prod.mk ?_ (congrArg₂ Prod.mk ?_ ?_)
  on_goal 1 => rw [View.read_writes_eq_canon _ _ _ (cover2_A_6 _ _ _ _ _ _ _ _ _ _ _ _ _ _ _ _ _ _ _ _ _ _ _ _ _ _ _)]
  on_goal 2 => rw [View.read_writes_eq_canon _ _ _ (cover2_A_7 _ _ _ _ _ _ _ _ _ _ _ _ _ _ _ _ _ _ _ _ _ _ _ _ _ _ _)]
  on_goal 3 => rw [View.read_writes_eq_canon _ _ _ (cover2_A_8 _ _ _ _ _ _ _ _ _ _ _ _ _ _ _ _ _ _ _ _ _ _ _ _ _ _ _)]
  all_goals
    unfold kernelRun2_A
    dsimp only
    sl_unfold_words
    first | rw [View.canon_unit_zero mlp_hz] | rw [View.canon_cons_unit_zero (S := S1x128) mlp_hz]
    simp only [View.readAt_eq_ld, harg1.read_unread, harg2.read_unread, harg3.read_unread, harg4.read_unread, harg5.read_unread,
      harg6.read_unread, harg8.read_unread, harg9.read_unread, View.ld_unit_zero (S := S10000x128) mlp_hz,
      View.ld_unit_zero (S := S128x128) mlp_hz, View.ld_unit_zero (S := S1x128) mlp_hz,
      View.readCov_unit_zero (S := S1x128) _ mlp_hz]

theorem mlp2_out_B (hc0 : ¬cond2_0 i) :
    (out2_B_6 c i arg1 harg1 arg2 harg2 arg3 harg3 arg4 harg4 arg5 harg5 arg6 harg6 arg7 harg7 arg8 harg8 arg9 harg9 hc0 x0 x1 x2 x3 x4 x5 xo7 xo8, out2_B_7 c i arg1 harg1 arg2 harg2 arg3 harg3 arg4 harg4 arg5 harg5 arg6 harg6 arg7 harg7 arg8 harg8 arg9 harg9 hc0 x0 x1 x2 x3 x4 x5 xo7 xo8, out2_B_8 c i arg1 harg1 arg2 harg2 arg3 harg3 arg4 harg4 arg5 harg5 arg6 harg6 arg7 harg7 arg8 harg8 arg9 harg9 hc0 x0 x1 x2 x3 x4 x5 xo7 xo8)
      = (k2_pay4 x0 x1 x2 x3 x4 x5, k2_pay5 x0 x1 x2 x3 x4 x5 xo7, k2_pay1 (k2_pay4 x0 x1 x2 x3 x4 x5) xo8) := by
  unfold out2_B_6 out2_B_7 out2_B_8
  refine congrArg₂ Prod.mk ?_ (congrArg₂ Prod.mk ?_ ?_)
  on_goal 1 => rw [View.read_writes_eq_canon _ _ _ (cover2_B_6 _ _ _ _ _ _ _ _ _ _ _ _ _ _ _ _ _ _ _ _ _ _ _ _ _ _ _ _ _)]
  on_goal 2 => rw [View.read_writes_eq_canon _ _ _ (cover2_B_7 _ _ _ _ _ _ _ _ _ _ _ _ _ _ _ _ _ _ _ _ _ _ _ _ _ _ _ _ _)]
  on_goal 3 => rw [View.read_writes_eq_canon _ _ _ (cover2_B_8 _ _ _ _ _ _ _ _ _ _ _ _ _ _ _ _ _ _ _ _ _ _ _ _ _ _ _ _ _)]
  all_goals
    unfold kernelRun2_B
    dsimp only
    sl_unfold_words
    first | rw [View.canon_unit_zero mlp_hz] | rw [View.canon_cons_unit_zero (S := S1x128) mlp_hz]
    simp only [View.readAt_eq_ld, harg1.read_unread, harg2.read_unread, harg3.read_unread, harg4.read_unread, harg5.read_unread,
      harg6.read_unread, harg8.read_unread, harg9.read_unread, View.ld_unit_zero (S := S10000x128) mlp_hz,
      View.ld_unit_zero (S := S128x128) mlp_hz, View.ld_unit_zero (S := S1x128) mlp_hz,
      View.readCov_unit_zero (S := S1x128) _ mlp_hz]

end Cert.KernelIdeal.Val

end
-- ==== Proof.KMlp2.lean ====
import proofs.«407097_j78262894068282_1_alg».proof.Proof.KMlpRun
import proofs.«407097_j78262894068282_1_alg».proof.Proof.KMlp2Pieces

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

-- The perceptron's output of the whole arrays found on entry.
abbrev mlp2_z (c : Dev nD) : Spec.Mat 50000 128 :=
  Spec.zOf (V c (Pipeline.arrRef spec2 0)) (V c (Pipeline.arrRef spec2 1)) (V c (Pipeline.arrRef spec2 2))
    (fun d => (V c (Pipeline.arrRef spec2 3) : Spec.Mat 1 128) (ix2 (0 : Fin 1) d)) (V c (Pipeline.arrRef spec2 4))
    (fun d => (V c (Pipeline.arrRef spec2 5) : Spec.Mat 1 128) (ix2 (0 : Fin 1) d))

-- The payloads of the body's three stores are the tile perceptron and two accumulator steps, the casts of a block to its own shape dropped.
theorem mlp2_pay4_eq (h a : Vec Ideal S10000x128 .f32) (W1 : Vec Ideal S128x128 .f32) (b1 : Vec Ideal S1x128 .f32) (W2 : Vec Ideal S128x128 .f32) (b2 : Vec Ideal S1x128 .f32) :
    k2_pay4 (F := Ideal) h a W1 b1 W2 b2 = mlpTile Gen.broadcasts_S1x128_S10000x128 h a W1 b1 W2 b2 := by
  unfold k2_pay4 mlpTile mlpPre
  simp only [shapeCast_self]
theorem mlp2_pay5_eq (h a : Vec Ideal S10000x128 .f32) (W1 : Vec Ideal S128x128 .f32) (b1 : Vec Ideal S1x128 .f32) (W2 : Vec Ideal S128x128 .f32) (b2 prev : Vec Ideal S1x128 .f32) :
    k2_pay5 (F := Ideal) h a W1 b1 W2 b2 prev = mlpAdd (k2_pay4 h a W1 b1 W2 b2) prev := by
  unfold k2_pay5 mlpAdd
  simp only [shapeCast_self]
theorem mlp2_pay1_eq (z : Vec Ideal S10000x128 .f32) (prev : Vec Ideal S1x128 .f32) : k2_pay1 (F := Ideal) z prev = mlpAdd (mulf z z) prev := by
  unfold k2_pay1 mlpAdd
  simp only [shapeCast_self]

-- The windows' block indices: the row-tiled arrays sit at block `(t, 0)`, the others at `(0, 0)`.
theorem mlp2_idxR : ∀ t : Fin cfg2.N, (win2_0.index t (0 : Fin 2) = t.val ∧ win2_0.index t (1 : Fin 2) = 0)
    ∧ (win2_1.index t (0 : Fin 2) = t.val ∧ win2_1.index t (1 : Fin 2) = 0) ∧ win2_6.index t (0 : Fin 2) = t.val ∧ win2_6.index t (1 : Fin 2) = 0 :=
  (by decide +kernel : ∀ t : Fin grid2.N, _)
theorem mlp2_idxW : ∀ (t : Fin cfg2.N) (a : Fin 2), win2_2.index t a = 0 ∧ win2_3.index t a = 0 ∧ win2_4.index t a = 0 ∧ win2_5.index t a = 0
    ∧ win2_7.index t a = 0 ∧ win2_8.index t a = 0 :=
  (by decide +kernel : ∀ (t : Fin grid2.N) (a : Fin 2), _)

-- Reading an array through tile `t`'s block: rows `10000 t ..` of a row-tiled array, all of any other.
theorem mlp2_rd0 (t : Fin cfg2.N) (G : Spec.Mat 50000 128) :
    ((cfg2.win 0).blk t).view.read (Elt Ideal) G = fun j => G (ix2 (mlpRow N_2 t (j 0)) (j 1)) := by
  funext y
  rw [View.read_apply]
  show G _ = G _
  refine congrArg G (funext fun a => Fin.ext ?_)
  match a with
  | ⟨0, _⟩ => show win2_0.index t 0 * 10000 + 1 * (y 0).val = 10000 * t.val + (y 0).val; rw [(mlp2_idxR t).1.1]; omega
  | ⟨1, _⟩ => show win2_0.index t 1 * 128 + 1 * (y 1).val = (y 1).val; rw [(mlp2_idxR t).1.2]; omega
theorem mlp2_rd1 (t : Fin cfg2.N) (G : Spec.Mat 50000 128) :
    ((cfg2.win 1).blk t).view.read (Elt Ideal) G = fun j => G (ix2 (mlpRow N_2 t (j 0)) (j 1)) := by
  funext y
  rw [View.read_apply]
  show G _ = G _
  refine congrArg G (funext fun a => Fin.ext ?_)
  match a with
  | ⟨0, _⟩ => show win2_1.index t 0 * 10000 + 1 * (y 0).val = 10000 * t.val + (y 0).val; rw [(mlp2_idxR t).2.1.1]; omega
  | ⟨1, _⟩ => show win2_1.index t 1 * 128 + 1 * (y 1).val = (y 1).val; rw [(mlp2_idxR t).2.1.2]; omega
theorem mlp2_rd6 (t : Fin cfg2.N) (G : Spec.Mat 50000 128) :
    ((cfg2.win 6).blk t).view.read (Elt Ideal) G = fun j => G (ix2 (mlpRow N_2 t (j 0)) (j 1)) := by
  funext y
  rw [View.read_apply]
  show G _ = G _
  refine congrArg G (funext fun a => Fin.ext ?_)
  match a with
  | ⟨0, _⟩ => show win2_6.index t 0 * 10000 + 1 * (y 0).val = 10000 * t.val + (y 0).val; rw [(mlp2_idxR t).2.2.1]; omega
  | ⟨1, _⟩ => show win2_6.index t 1 * 128 + 1 * (y 1).val = (y 1).val; rw [(mlp2_idxR t).2.2.2]; omega
theorem mlp2_rd2 (t : Fin cfg2.N) (G : Spec.Mat 128 128) : ((cfg2.win 2).blk t).view.read (Elt Ideal) G = G := by
  funext y
  rw [View.read_apply]
  show G _ = G y
  exact congrArg G (funext fun a => Fin.ext (win2_2.rect_emb_val_of_index_zero t a (mlp2_idxW t a).1 y))
theorem mlp2_rd3 (t : Fin cfg2.N) (G : Spec.Mat 1 128) : ((cfg2.win 3).blk t).view.read (Elt Ideal) G = G := by
  funext y
  rw [View.read_apply]
  show G _ = G y
  exact congrArg G (funext fun a => Fin.ext (win2_3.rect_emb_val_of_index_zero t a (mlp2_idxW t a).2.1 y))
theorem mlp2_rd4 (t : Fin cfg2.N) (G : Spec.Mat 128 128) : ((cfg2.win 4).blk t).view.read (Elt Ideal) G = G := by
  funext y
  rw [View.read_apply]
  show G _ = G y
  exact congrArg G (funext fun a => Fin.ext (win2_4.rect_emb_val_of_index_zero t a (mlp2_idxW t a).2.2.1 y))
theorem mlp2_rd5 (t : Fin cfg2.N) (G : Spec.Mat 1 128) : ((cfg2.win 5).blk t).view.read (Elt Ideal) G = G := by
  funext y
  rw [View.read_apply]
  show G _ = G y
  exact congrArg G (funext fun a => Fin.ext (win2_5.rect_emb_val_of_index_zero t a (mlp2_idxW t a).2.2.2.1 y))
theorem mlp2_rd7 (t : Fin cfg2.N) (G : Spec.Mat 1 128) : ((cfg2.win 7).blk t).view.read (Elt Ideal) G = G := by
  funext y
  rw [View.read_apply]
  show G _ = G y
  exact congrArg G (funext fun a => Fin.ext (win2_7.rect_emb_val_of_index_zero t a (mlp2_idxW t a).2.2.2.2.1 y))
theorem mlp2_rd8 (t : Fin cfg2.N) (G : Spec.Mat 1 128) : ((cfg2.win 8).blk t).view.read (Elt Ideal) G = G := by
  funext y
  rw [View.read_apply]
  show G _ = G y
  exact congrArg G (funext fun a => Fin.ext (win2_8.rect_emb_val_of_index_zero t a (mlp2_idxW t a).2.2.2.2.2 y))

-- What the run's tiles leave: the general statement at this region's blocks and stores.
theorem mlp2_run (c : Dev nD) : MlpOuts N_2 (mlp2_z V c) (outsAt2 V c) :=
  mlp_run N_2 (x0 := iblk2 V c 0) (x1 := iblk2 V c 1) (x2 := iblk2 V c 2) (x3 := iblk2 V c 3) (x4 := iblk2 V c 4) (x5 := iblk2 V c 5)
    (T := fun t => k2_pay4 (iblk2 V c 0 t) (iblk2 V c 1 t) (iblk2 V c 2 t) (iblk2 V c 3 t) (iblk2 V c 4 t) (iblk2 V c 5 t))
    (Z7 := k2_pay2 (F := Ideal)) (Z8 := k2_pay3 (F := Ideal)) (fun t => mlp2_pay4_eq ..)
    (fun t p k => congrFun (mlp2_rd0 t _) (ix2 p k)) (fun t p k => congrFun (mlp2_rd1 t _) (ix2 p k))
    (fun t => mlp2_rd2 t _) (fun t => mlp2_rd3 t _) (fun t => mlp2_rd4 t _) (fun t => mlp2_rd5 t _) (fun _ => rfl) (fun _ => rfl)
    (fun t h0 => ((outsAt2_A V c t h0).trans (mlp2_out_A ..)).trans (by rw [mlp2_pay5_eq, mlp2_pay1_eq]))
    (fun t h0 => ((outsAt2_B V c t h0).trans (mlp2_out_B ..)).trans (by rw [mlp2_pay5_eq, mlp2_pay1_eq]))

-- Row `r` lies in the block of tile `r / 10000`; the last tile's block is the whole of an accumulator's array.
theorem mlp2_cover6 (i : S50000x128.Idx) : ∃ t : Fin cfg2.N, (cfg2.win 6).flush t = true ∧ i ∈ ((cfg2.win 6).blk t).view.set := by
  have hN : cfg2.N = 5 := N_2
  have hi0 : (i 0).val < 50000 := (i 0).isLt
  have hi1 : (i 1).val < 128 := (i 1).isLt
  have hm : ∀ t : Fin cfg2.N, t.val = (i 0).val / 10000 → i ∈ ((cfg2.win 6).blk t).view.set := fun t ht => by
    show i ∈ ((View.whole (Pipeline.arrRef spec2 6)).slice (win2_6.rect t)).set
    rw [View.set_slice_whole, Rect.mem_set_unit]
    intro a
    match a with
    | ⟨0, _⟩ =>
      show win2_6.index t 0 * 10000 ≤ (i 0).val ∧ (i 0).val < win2_6.index t 0 * 10000 + 10000
      rw [(mlp2_idxR t).2.2.1]; omega
    | ⟨1, _⟩ =>
      show win2_6.index t 1 * 128 ≤ (i 1).val ∧ (i 1).val < win2_6.index t 1 * 128 + 128
      rw [(mlp2_idxR t).2.2.2]; omega
  exact ⟨⟨(i 0).val / 10000, by omega⟩, flush2_6 _, hm _ rfl⟩
theorem mlp2_cover7 (i : S1x128.Idx) : ∃ t : Fin cfg2.N, (cfg2.win 7).flush t = true ∧ i ∈ ((cfg2.win 7).blk t).view.set := by
  have hN : cfg2.N = 5 := N_2
  have hm : ∀ t : Fin cfg2.N, i ∈ ((cfg2.win 7).blk t).view.set := fun t => by
    show i ∈ ((View.whole (Pipeline.arrRef spec2 7)).slice (win2_7.rect t)).set
    rw [View.set_slice_whole, Rect.mem_set_unit]
    intro a
    show win2_7.index t a * S1x128.size a ≤ (i a).val ∧ (i a).val < win2_7.index t a * S1x128.size a + S1x128.size a
    rw [(mlp2_idxW t a).2.2.2.2.1, Nat.zero_mul, Nat.zero_add]
    exact ⟨Nat.zero_le _, (i a).isLt⟩
  exact ⟨⟨4, by omega⟩, (flush2_7 _).mpr rfl, hm _⟩
theorem mlp2_cover8 (i : S1x128.Idx) : ∃ t : Fin cfg2.N, (cfg2.win 8).flush t = true ∧ i ∈ ((cfg2.win 8).blk t).view.set := by
  have hN : cfg2.N = 5 := N_2
  have hm : ∀ t : Fin cfg2.N, i ∈ ((cfg2.win 8).blk t).view.set := fun t => by
    show i ∈ ((View.whole (Pipeline.arrRef spec2 8)).slice (win2_8.rect t)).set
    rw [View.set_slice_whole, Rect.mem_set_unit]
    intro a
    show win2_8.index t a * S1x128.size a ≤ (i a).val ∧ (i a).val < win2_8.index t a * S1x128.size a + S1x128.size a
    rw [(mlp2_idxW t a).2.2.2.2.2, Nat.zero_mul, Nat.zero_add]
    exact ⟨Nat.zero_le _, (i a).isLt⟩
  exact ⟨⟨4, by omega⟩, (flush2_8 _).mpr rfl, hm _⟩
-- The three arrays the kernel leaves: each tile writes back its rows of `z`, the last tile the two accumulators.
theorem mlp2_arr6 (c : Dev nD) : (dat2 V c).arrAt 6 cfg2.N = mlp2_z V c :=
  (dat2 V c).arrAt_eq_of_cover 6 _ (fun t _ => by
    show (cfg2.win 6).cut (grid2.coords t) ((dat2 V c).after 6 t) = _
    rw [after2_6, (mlp2_run V c).tile t]
    exact (mlp2_rd6 t _).symm) mlp2_cover6
theorem mlp2_arr7 (c : Dev nD) :
    (dat2 V c).arrAt 7 cfg2.N = fun j : S1x128.Idx => Spec.zero32 + Spec.colSum (mlp2_z V c) (j 1) :=
  (dat2 V c).arrAt_eq_of_cover 7 _ (fun t hf => by
    have hN : cfg2.N = 5 := N_2
    have h4 : t.val = 4 := by have := (flush2_7 t).mp hf; have := t.isLt; omega
    show (cfg2.win 7).cut (grid2.coords t) ((dat2 V c).after 7 t) = _
    rw [after2_7, (mlp2_run V c).sum t h4]
    exact (mlp2_rd7 t _).symm) mlp2_cover7
theorem mlp2_arr8 (c : Dev nD) :
    (dat2 V c).arrAt 8 cfg2.N = fun j : S1x128.Idx => Spec.zero32 + Spec.colSumSq (mlp2_z V c) (j 1) :=
  (dat2 V c).arrAt_eq_of_cover 8 _ (fun t hf => by
    have hN : cfg2.N = 5 := N_2
    have h4 : t.val = 4 := by have := (flush2_8 t).mp hf; have := t.isLt; omega
    show (cfg2.win 8).cut (grid2.coords t) ((dat2 V c).after 8 t) = _
    rw [after2_8, (mlp2_run V c).sq t h4]
    exact (mlp2_rd8 t _).symm) mlp2_cover8

end Cert.KernelIdeal.Val

end
-- ==== Proof.KBn3.lean ====
import proofs.«407097_j78262894068282_1_alg».proof.Proof.Gen.KernelIdeal.Frame
import proofs.«407097_j78262894068282_1_alg».proof.Proof.KBnMath

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

theorem idx_bn3 : ∀ t : Fin cfg3.N,
    (∀ a : Fin 2, win3_0.index t a = win3_5.index t a) ∧ win3_5.index t (0 : Fin 2) = t.val ∧ win3_5.index t (1 : Fin 2) = 0
    ∧ ∀ a : Fin 2, win3_1.index t a = 0 ∧ win3_2.index t a = 0 ∧ win3_3.index t a = 0 ∧ win3_4.index t a = 0 :=
  (by decide +kernel : ∀ t : Fin grid3.N, _)

variable (V : (c : Dev nD) → (b : Ref sig .tc) → Buf (Elt Ideal) ((c : Thread nD τ).loc b))

-- The z tile and the output block cover the same rows of their arrays, and each row vector is read whole.
theorem entry_bn3 (c : Dev nD) (t : Fin cfg3.N) (y : S10000x128.Idx) :
    Gen.k3_pay1 (Gen.iblk3 V c 0 t) (Gen.iblk3 V c 1 t) (Gen.iblk3 V c 2 t) (Gen.iblk3 V c 3 t) (Gen.iblk3 V c 4 t) y
      = bnActOf (V c (Pipeline.arrRef spec3 0)) (V c (Pipeline.arrRef spec3 1)) (V c (Pipeline.arrRef spec3 2))
          (V c (Pipeline.arrRef spec3 3)) (V c (Pipeline.arrRef spec3 4)) (((cfg3.win 5).blk t).view.emb y) := by
  obtain ⟨h05, -, h51, h⟩ := idx_bn3 t
  refine bnAct_entry (Fin.ext (win3_5.rect_emb_val_of_index_zero t (1 : Fin 2) h51 y).symm)
    (read_blk_bn (win3_0.rect t).emb (fun _ => rfl) y _ fun a => ?_)
    (fun r => read_blk_bn (win3_1.rect t).emb (fun _ => rfl) r r fun a => win3_1.rect_emb_val_of_index_zero t a (h a).1 r)
    (fun r => read_blk_bn (win3_2.rect t).emb (fun _ => rfl) r r fun a => win3_2.rect_emb_val_of_index_zero t a (h a).2.1 r)
    (fun r => read_blk_bn (win3_3.rect t).emb (fun _ => rfl) r r fun a => win3_3.rect_emb_val_of_index_zero t a (h a).2.2.1 r)
    (fun r => read_blk_bn (win3_4.rect t).emb (fun _ => rfl) r r fun a => win3_4.rect_emb_val_of_index_zero t a (h a).2.2.2 r)
  have e := win3_0.rect_emb_val t y a
  rw [h05 a] at e
  exact e.trans (win3_5.rect_emb_val t y a).symm

-- Row r of the output array lies in the block of point r / 10000.
theorem cover_bn3 (i : S50000x128.Idx) : ∃ t : Fin cfg3.N, (cfg3.win 5).flush t = true ∧ i ∈ ((cfg3.win 5).blk t).view.set := by
  have ht : (i 0).val / 10000 < cfg3.N := by rw [show cfg3.N = 5 from Gen.N_3]; have := idx2_lt0 i; omega
  obtain ⟨-, h50, h51, -⟩ := idx_bn3 ⟨_, ht⟩
  refine ⟨⟨_, ht⟩, Gen.flush3_5 _, ?_⟩
  show i ∈ ((View.whole (Pipeline.arrRef spec3 5)).slice (win3_5.rect ⟨_, ht⟩)).set
  rw [View.set_slice_whole, Rect.mem_set_unit]
  exact tile_bounds_bn (win3_5.index _) i h50 h51

theorem out_bn3 (c : Dev nD) : (Gen.dat3 V c).arrAt 5 cfg3.N =
    Spec.act (Spec.bn (V c (Pipeline.arrRef spec3 0))
      (fun d => (V c (Pipeline.arrRef spec3 1) : Spec.Mat 1 128) (ix2 0 d))
      (fun d => (V c (Pipeline.arrRef spec3 2) : Spec.Mat 1 128) (ix2 0 d))
      (fun d => (V c (Pipeline.arrRef spec3 3) : Spec.Mat 1 128) (ix2 0 d))
      (fun d => (V c (Pipeline.arrRef spec3 4) : Spec.Mat 1 128) (ix2 0 d))) := by
  refine (Gen.dat3 V c).arrAt_eq_of_cover 5 _ (fun t _ => ?_) cover_bn3
  show (cfg3.win 5).cut (grid3.coords t) ((Gen.dat3 V c).after 5 t) = _
  rw [Gen.after3_5]
  unfold Gen.out3_5
  rw [View.canon_unit_zero hz_bn]
  simp only [View.ld_unit_zero (S := S10000x128) hz_bn, View.ld_unit_zero (S := S1x128) hz_bn]
  funext j
  rw [View.read_apply]
  exact entry_bn3 V c t j

end Cert.KernelIdeal.Val

end
-- ==== Proof.KLayer1.lean ====
import proofs.«407097_j78262894068282_1_alg».proof.Proof.KFrame1
import proofs.«407097_j78262894068282_1_alg».proof.Proof.KHost2
import proofs.«407097_j78262894068282_1_alg».proof.Proof.KHost3
import proofs.«407097_j78262894068282_1_alg».proof.Proof.KMlp2
import proofs.«407097_j78262894068282_1_alg».proof.Proof.KBn3

set_option maxRecDepth 16384

noncomputable section

namespace Cert.KernelIdeal.Val

open Cert.KernelIdeal Cert.KernelIdeal.Gen
open Idealize.ShloMosaic Idealize.ShloMosaic.TcCoe Idealize.ShloMosaic.ValueIdx
open Cert

variable (m : (ℓ : Loc nD τ sig) → Buf (Elt Ideal) ℓ) (ρ : Dev nD → PrngReg)

-- Layer 1: the carried buffers stay carried, and the output buffer holds the layer applied to the input buffer.
theorem layer1 (c : Dev nD) (hC : Carried m c (Gen.W4 m ρ c)) :
    Carried m c (Gen.W8 m ρ c)
      ∧ Gen.W8 m ρ c (Proc.devRef .tc main_v72) = Spec.stepMS (inputs m c) 1 (Gen.W4 m ρ c (Proc.devRef .tc main_v38)) :=
  have hCc : Carried m c (Gen.W6 m ρ c) := (hC.of_frame m (W5_of m ρ c)).of_frame m (Gen.W6_of_ne m ρ c)
  ⟨(hCc.of_frame m (W7_of m ρ c)).of_frame m (Gen.W8_of_ne m ρ c),
   layer_of_segments m c 1 true rfl hC.args hCc.args (congrArg srcBOf hC.v1) (congrArg dstBOf hC.v3)
    (W5_of m ρ c main_v38 (by decide)) (host2_agg _) (host2_W1 _) (host2_W2 _) (host2_b1 _) (host2_b2 _)
    ((Gen.W6_arr m ρ c 6).trans (mlp2_arr6 _ c)) ((Gen.W6_arr m ρ c 7).trans (mlp2_arr7 _ c))
    ((Gen.W6_arr m ρ c 8).trans (mlp2_arr8 _ c))
    (host3_mu _) (host3_var _) (host3_gamma _) (host3_beta _) (W7_of m ρ c main_v59_0 (by decide))
    ((Gen.W8_arr m ρ c 5).trans (out_bn3 _ c))⟩

end Cert.KernelIdeal.Val

end
-- ==== Proof.KFrame2.lean ====
import proofs.«407097_j78262894068282_1_alg».proof.Proof.Gen.KernelIdeal.Frame
import proofs.«407097_j78262894068282_1_alg».proof.Proof.KFrameBase

set_option maxRecDepth 16384

noncomputable section

namespace Cert.KernelIdeal.Val

open Cert.KernelIdeal Cert.KernelIdeal.Gen
open Idealize.ShloMosaic Idealize.ShloMosaic.TcCoe

variable (m : (ℓ : Loc nD τ sig) → Buf (Elt Ideal) ℓ) (ρ : Dev nD → PrngReg)

abbrev hostW4 : List (Ref sig .tc) := [main_c_8, main_v73, main_v74, main_c_9, main_v75, main_v76, main_v77, main_v78, main_v79, main_cst_10, main_v80, main_v81, main_v82, main_v83, main_v84, main_v85, main_v86, main_v87, main_v88, main_v89, main_v90, main_v91, main_v92]
-- A buffer outside this list, which holds every buffer the host stretch writes, keeps its contents.
theorem W9_of (c : Dev nD) (r : Ref sig .tc) (h : r ∉ hostW4) :
    Gen.W9 m ρ c (Proc.devRef .tc r) = Gen.W8 m ρ c (Proc.devRef .tc r) :=
  StableHlo.after_of_writes_sub hostOps4 _ (by
    simp only [hostOps4, List.Forall]
    repeat' apply And.intro
    all_goals exact Finset.singleton_subset_iff.mpr (List.mem_toFinset.mpr (List.mem_map_of_mem (by decide)))) h

abbrev hostW5 : List (Ref sig .tc) := [main_cst_11, main_v94, main_v95, main_cst_12, main_v96, main_v97, main_v98, main_v99, main_v100, main_v101, main_v102, main_v103, main_v104, main_v105]
-- A buffer outside this list, which holds every buffer the host stretch writes, keeps its contents.
theorem W11_of (c : Dev nD) (r : Ref sig .tc) (h : r ∉ hostW5) :
    Gen.W11 m ρ c (Proc.devRef .tc r) = Gen.W10 m ρ c (Proc.devRef .tc r) :=
  StableHlo.after_of_writes_sub hostOps5 _ (by
    simp only [hostOps5, List.Forall]
    repeat' apply And.intro
    all_goals exact Finset.singleton_subset_iff.mpr (List.mem_toFinset.mpr (List.mem_map_of_mem (by decide)))) h

end Cert.KernelIdeal.Val

end
-- ==== Proof.KHost4.lean ====
import Idealize.ShloMosaic.Lib.StableHlo.Run
import proofs.«407097_j78262894068282_1_alg».proof.Proof.Gen.KernelIdeal.Launch
import proofs.«407097_j78262894068282_1_alg».proof.Proof.KHostDefs
import proofs.«407097_j78262894068282_1_alg».proof.Proof.KHostLib

set_option maxRecDepth 16384

noncomputable section

namespace Cert.KernelIdeal.Val

open Gen Idealize.ShloMosaic

variable (V : Valuation τ sig (Elt Ideal))

theorem host4_agg :
    (StableHlo.after (hostOps4 (F := Ideal)) V (Proc.devRef .tc main_v82) : Spec.Mat 50000 128)
      = Spec.aggOf (V (Proc.devRef .tc main_v72)) (srcBOf (V (Proc.devRef .tc main_v1))) (dstBOf (V (Proc.devRef .tc main_v3))) := by
  after_results_simp
  exact agg_eq

theorem host4_W1 :
    (StableHlo.after (hostOps4 (F := Ideal)) V (Proc.devRef .tc main_v84) : Spec.Mat 128 128)
      = Spec.sliceM (V (Proc.devRef .tc main_arg4)) (2 : Fin 8) := by
  after_results
  exact sliceM_eq 2

theorem host4_b1 :
    (StableHlo.after (hostOps4 (F := Ideal)) V (Proc.devRef .tc main_v91) : Spec.Mat 1 128)
      = fun j => Spec.sliceV (V (Proc.devRef .tc main_arg5)) (2 : Fin 8) (j 1) := by
  after_results
  exact sliceRow_eq 2

theorem host4_W2 :
    (StableHlo.after (hostOps4 (F := Ideal)) V (Proc.devRef .tc main_v88) : Spec.Mat 128 128)
      = Spec.sliceM (V (Proc.devRef .tc main_arg6)) (2 : Fin 8) := by
  after_results
  exact sliceM_eq 2

theorem host4_b2 :
    (StableHlo.after (hostOps4 (F := Ideal)) V (Proc.devRef .tc main_v92) : Spec.Mat 1 128)
      = fun j => Spec.sliceV (V (Proc.devRef .tc main_arg7)) (2 : Fin 8) (j 1) := by
  after_results
  exact sliceRow_eq 2

end Cert.KernelIdeal.Val

end
-- ==== Proof.KHost5.lean ====
import Idealize.ShloMosaic.Lib.StableHlo.Run
import proofs.«407097_j78262894068282_1_alg».proof.Proof.Gen.KernelIdeal.Launch
import proofs.«407097_j78262894068282_1_alg».proof.Proof.KHostLib

set_option maxRecDepth 16384

noncomputable section

namespace Cert.KernelIdeal.Val

open Gen Idealize.ShloMosaic

variable (V : Valuation τ sig (Elt Ideal))

theorem host5_mu :
    (StableHlo.after (hostOps5 (F := Ideal)) V (Proc.devRef .tc main_v95) : Spec.Mat 1 128)
      = fun j => Ideal.div ((V (Proc.devRef .tc main_v93_1) : Spec.Mat 1 128) j) Spec.nNodes := by
  after_results
  rfl

theorem host5_var :
    (StableHlo.after (hostOps5 (F := Ideal)) V (Proc.devRef .tc main_v99) : Spec.Mat 1 128)
      = fun j => Ideal.div ((V (Proc.devRef .tc main_v93_2) : Spec.Mat 1 128) j) Spec.nNodes
          - Ideal.div ((V (Proc.devRef .tc main_v93_1) : Spec.Mat 1 128) j) Spec.nNodes
            * Ideal.div ((V (Proc.devRef .tc main_v93_1) : Spec.Mat 1 128) j) Spec.nNodes := by
  after_results
  rfl

theorem host5_gamma :
    (StableHlo.after (hostOps5 (F := Ideal)) V (Proc.devRef .tc main_v104) : Spec.Mat 1 128)
      = fun j => Spec.sliceV (V (Proc.devRef .tc main_arg8)) (2 : Fin 8) (j 1) := by
  after_results
  exact sliceRow_eq 2

theorem host5_beta :
    (StableHlo.after (hostOps5 (F := Ideal)) V (Proc.devRef .tc main_v105) : Spec.Mat 1 128)
      = fun j => Spec.sliceV (V (Proc.devRef .tc main_arg9)) (2 : Fin 8) (j 1) := by
  after_results
  exact sliceRow_eq 2

end Cert.KernelIdeal.Val

end
-- ==== Proof.KMlp4Pieces.lean ====
import proofs.«407097_j78262894068282_1_alg».proof.Proof.Gen.KernelIdeal.Frame
import proofs.«407097_j78262894068282_1_alg».proof.Proof.KMlpDot
import Idealize.ShloMosaic.Lib.Pipeline.Value
import Idealize.ShloMosaic.Lib.Tactic

noncomputable section

namespace Cert.KernelIdeal.Val

open Idealize.ShloMosaic Idealize.ShloMosaic.TcCoe Idealize.SL.Sem
open Cert.KernelIdeal Cert.KernelIdeal.Gen

variable {F : FTy → Type} [FloatOps F]
variable (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole)
  (x0 x1 : Vec F S10000x128 .f32) (x2 : Vec F S128x128 .f32) (x3 : Vec F S1x128 .f32) (x4 : Vec F S128x128 .f32) (x5 xo7 xo8 : Vec F S1x128 .f32)

-- What one run of the body leaves in its three output blocks: the tile's output, and each accumulator's old block (zero at the first tile) plus the tile's column sums.
theorem mlp4_out_A (hc0 : cond4_0 i) :
    (out4_A_6 c i arg1 harg1 arg2 harg2 arg3 harg3 arg4 harg4 arg5 harg5 arg6 harg6 arg7 harg7 arg8 harg8 arg9 harg9 hc0 x0 x1 x2 x3 x4 x5, out4_A_7 c i arg1 harg1 arg2 harg2 arg3 harg3 arg4 harg4 arg5 harg5 arg6 harg6 arg7 harg7 arg8 harg8 arg9 harg9 hc0 x0 x1 x2 x3 x4 x5, out4_A_8 c i arg1 harg1 arg2 harg2 arg3 harg3 arg4 harg4 arg5 harg5 arg6 harg6 arg7 harg7 arg8 harg8 arg9 harg9 hc0 x0 x1 x2 x3 x4 x5)
      = (k4_pay4 x0 x1 x2 x3 x4 x5, k4_pay5 x0 x1 x2 x3 x4 x5 (k4_pay2 (F := F)), k4_pay1 (k4_pay4 x0 x1 x2 x3 x4 x5) (k4_pay3 (F := F))) := by
  unfold out4_A_6 out4_A_7 out4_A_8
  refine congrArg₂ Prod.mk ?_ (congrArg₂ Prod.mk ?_ ?_)
  on_goal 1 => rw [View.read_writes_eq_canon _ _ _ (cover4_A_6 _ _ _ _ _ _ _ _ _ _ _ _ _ _ _ _ _ _ _ _ _ _ _ _ _ _ _)]
  on_goal 2 => rw [View.read_writes_eq_canon _ _ _ (cover4_A_7 _ _ _ _ _ _ _ _ _ _ _ _ _ _ _ _ _ _ _ _ _ _ _ _ _ _ _)]
  on_goal 3 => rw [View.read_writes_eq_canon _ _ _ (cover4_A_8 _ _ _ _ _ _ _ _ _ _ _ _ _ _ _ _ _ _ _ _ _ _ _ _ _ _ _)]
  all_goals
    unfold kernelRun4_A
    dsimp only
    sl_unfold_words
    first | rw [View.canon_unit_zero mlp_hz] | rw [View.canon_cons_unit_zero (S := S1x128) mlp_hz]
    simp only [View.readAt_eq_ld, harg1.read_unread, harg2.read_unread, harg3.read_unread, harg4.read_unread, harg5.read_unread,
      harg6.read_unread, harg8.read_unread, harg9.read_unread, View.ld_unit_zero (S := S10000x128) mlp_hz,
      View.ld_unit_zero (S := S128x128) mlp_hz, View.ld_unit_zero (S := S1x128) mlp_hz,
      View.readCov_unit_zero (S := S1x128) _ mlp_hz]

theorem mlp4_out_B (hc0 : ¬cond4_0 i) :
    (out4_B_6 c i arg1 harg1 arg2 harg2 arg3 harg3 arg4 harg4 arg5 harg5 arg6 harg6 arg7 harg7 arg8 harg8 arg9 harg9 hc0 x0 x1 x2 x3 x4 x5 xo7 xo8, out4_B_7 c i arg1 harg1 arg2 harg2 arg3 harg3 arg4 harg4 arg5 harg5 arg6 harg6 arg7 harg7 arg8 harg8 arg9 harg9 hc0 x0 x1 x2 x3 x4 x5 xo7 xo8, out4_B_8 c i arg1 harg1 arg2 harg2 arg3 harg3 arg4 harg4 arg5 harg5 arg6 harg6 arg7 harg7 arg8 harg8 arg9 harg9 hc0 x0 x1 x2 x3 x4 x5 xo7 xo8)
      = (k4_pay4 x0 x1 x2 x3 x4 x5, k4_pay5 x0 x1 x2 x3 x4 x5 xo7, k4_pay1 (k4_pay4 x0 x1 x2 x3 x4 x5) xo8) := by
  unfold out4_B_6 out4_B_7 out4_B_8
  refine congrArg₂ Prod.mk ?_ (congrArg₂ Prod.mk ?_ ?_)
  on_goal 1 => rw [View.read_writes_eq_canon _ _ _ (cover4_B_6 _ _ _ _ _ _ _ _ _ _ _ _ _ _ _ _ _ _ _ _ _ _ _ _ _ _ _ _ _)]
  on_goal 2 => rw [View.read_writes_eq_canon _ _ _ (cover4_B_7 _ _ _ _ _ _ _ _ _ _ _ _ _ _ _ _ _ _ _ _ _ _ _ _ _ _ _ _ _)]
  on_goal 3 => rw [View.read_writes_eq_canon _ _ _ (cover4_B_8 _ _ _ _ _ _ _ _ _ _ _ _ _ _ _ _ _ _ _ _ _ _ _ _ _ _ _ _ _)]
  all_goals
    unfold kernelRun4_B
    dsimp only
    sl_unfold_words
    first | rw [View.canon_unit_zero mlp_hz] | rw [View.canon_cons_unit_zero (S := S1x128) mlp_hz]
    simp only [View.readAt_eq_ld, harg1.read_unread, harg2.read_unread, harg3.read_unread, harg4.read_unread, harg5.read_unread,
      harg6.read_unread, harg8.read_unread, harg9.read_unread, View.ld_unit_zero (S := S10000x128) mlp_hz,
      View.ld_unit_zero (S := S128x128) mlp_hz, View.ld_unit_zero (S := S1x128) mlp_hz,
      View.readCov_unit_zero (S := S1x128) _ mlp_hz]

end Cert.KernelIdeal.Val

end
-- ==== Proof.KMlp4.lean ====
import proofs.«407097_j78262894068282_1_alg».proof.Proof.KMlpRun
import proofs.«407097_j78262894068282_1_alg».proof.Proof.KMlp4Pieces

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

-- The perceptron's output of the whole arrays found on entry.
abbrev mlp4_z (c : Dev nD) : Spec.Mat 50000 128 :=
  Spec.zOf (V c (Pipeline.arrRef spec4 0)) (V c (Pipeline.arrRef spec4 1)) (V c (Pipeline.arrRef spec4 2))
    (fun d => (V c (Pipeline.arrRef spec4 3) : Spec.Mat 1 128) (ix2 (0 : Fin 1) d)) (V c (Pipeline.arrRef spec4 4))
    (fun d => (V c (Pipeline.arrRef spec4 5) : Spec.Mat 1 128) (ix2 (0 : Fin 1) d))

-- The payloads of the body's three stores are the tile perceptron and two accumulator steps, the casts of a block to its own shape dropped.
theorem mlp4_pay4_eq (h a : Vec Ideal S10000x128 .f32) (W1 : Vec Ideal S128x128 .f32) (b1 : Vec Ideal S1x128 .f32) (W2 : Vec Ideal S128x128 .f32) (b2 : Vec Ideal S1x128 .f32) :
    k4_pay4 (F := Ideal) h a W1 b1 W2 b2 = mlpTile Gen.broadcasts_S1x128_S10000x128 h a W1 b1 W2 b2 := by
  unfold k4_pay4 mlpTile mlpPre
  simp only [shapeCast_self]
theorem mlp4_pay5_eq (h a : Vec Ideal S10000x128 .f32) (W1 : Vec Ideal S128x128 .f32) (b1 : Vec Ideal S1x128 .f32) (W2 : Vec Ideal S128x128 .f32) (b2 prev : Vec Ideal S1x128 .f32) :
    k4_pay5 (F := Ideal) h a W1 b1 W2 b2 prev = mlpAdd (k4_pay4 h a W1 b1 W2 b2) prev := by
  unfold k4_pay5 mlpAdd
  simp only [shapeCast_self]
theorem mlp4_pay1_eq (z : Vec Ideal S10000x128 .f32) (prev : Vec Ideal S1x128 .f32) : k4_pay1 (F := Ideal) z prev = mlpAdd (mulf z z) prev := by
  unfold k4_pay1 mlpAdd
  simp only [shapeCast_self]

-- The windows' block indices: the row-tiled arrays sit at block `(t, 0)`, the others at `(0, 0)`.
theorem mlp4_idxR : ∀ t : Fin cfg4.N, (win4_0.index t (0 : Fin 2) = t.val ∧ win4_0.index t (1 : Fin 2) = 0)
    ∧ (win4_1.index t (0 : Fin 2) = t.val ∧ win4_1.index t (1 : Fin 2) = 0) ∧ win4_6.index t (0 : Fin 2) = t.val ∧ win4_6.index t (1 : Fin 2) = 0 :=
  (by decide +kernel : ∀ t : Fin grid4.N, _)
theorem mlp4_idxW : ∀ (t : Fin cfg4.N) (a : Fin 2), win4_2.index t a = 0 ∧ win4_3.index t a = 0 ∧ win4_4.index t a = 0 ∧ win4_5.index t a = 0
    ∧ win4_7.index t a = 0 ∧ win4_8.index t a = 0 :=
  (by decide +kernel : ∀ (t : Fin grid4.N) (a : Fin 2), _)

-- Reading an array through tile `t`'s block: rows `10000 t ..` of a row-tiled array, all of any other.
theorem mlp4_rd0 (t : Fin cfg4.N) (G : Spec.Mat 50000 128) :
    ((cfg4.win 0).blk t).view.read (Elt Ideal) G = fun j => G (ix2 (mlpRow N_4 t (j 0)) (j 1)) := by
  funext y
  rw [View.read_apply]
  show G _ = G _
  refine congrArg G (funext fun a => Fin.ext ?_)
  match a with
  | ⟨0, _⟩ => show win4_0.index t 0 * 10000 + 1 * (y 0).val = 10000 * t.val + (y 0).val; rw [(mlp4_idxR t).1.1]; omega
  | ⟨1, _⟩ => show win4_0.index t 1 * 128 + 1 * (y 1).val = (y 1).val; rw [(mlp4_idxR t).1.2]; omega
theorem mlp4_rd1 (t : Fin cfg4.N) (G : Spec.Mat 50000 128) :
    ((cfg4.win 1).blk t).view.read (Elt Ideal) G = fun j => G (ix2 (mlpRow N_4 t (j 0)) (j 1)) := by
  funext y
  rw [View.read_apply]
  show G _ = G _
  refine congrArg G (funext fun a => Fin.ext ?_)
  match a with
  | ⟨0, _⟩ => show win4_1.index t 0 * 10000 + 1 * (y 0).val = 10000 * t.val + (y 0).val; rw [(mlp4_idxR t).2.1.1]; omega
  | ⟨1, _⟩ => show win4_1.index t 1 * 128 + 1 * (y 1).val = (y 1).val; rw [(mlp4_idxR t).2.1.2]; omega
theorem mlp4_rd6 (t : Fin cfg4.N) (G : Spec.Mat 50000 128) :
    ((cfg4.win 6).blk t).view.read (Elt Ideal) G = fun j => G (ix2 (mlpRow N_4 t (j 0)) (j 1)) := by
  funext y
  rw [View.read_apply]
  show G _ = G _
  refine congrArg G (funext fun a => Fin.ext ?_)
  match a with
  | ⟨0, _⟩ => show win4_6.index t 0 * 10000 + 1 * (y 0).val = 10000 * t.val + (y 0).val; rw [(mlp4_idxR t).2.2.1]; omega
  | ⟨1, _⟩ => show win4_6.index t 1 * 128 + 1 * (y 1).val = (y 1).val; rw [(mlp4_idxR t).2.2.2]; omega
theorem mlp4_rd2 (t : Fin cfg4.N) (G : Spec.Mat 128 128) : ((cfg4.win 2).blk t).view.read (Elt Ideal) G = G := by
  funext y
  rw [View.read_apply]
  show G _ = G y
  exact congrArg G (funext fun a => Fin.ext (win4_2.rect_emb_val_of_index_zero t a (mlp4_idxW t a).1 y))
theorem mlp4_rd3 (t : Fin cfg4.N) (G : Spec.Mat 1 128) : ((cfg4.win 3).blk t).view.read (Elt Ideal) G = G := by
  funext y
  rw [View.read_apply]
  show G _ = G y
  exact congrArg G (funext fun a => Fin.ext (win4_3.rect_emb_val_of_index_zero t a (mlp4_idxW t a).2.1 y))
theorem mlp4_rd4 (t : Fin cfg4.N) (G : Spec.Mat 128 128) : ((cfg4.win 4).blk t).view.read (Elt Ideal) G = G := by
  funext y
  rw [View.read_apply]
  show G _ = G y
  exact congrArg G (funext fun a => Fin.ext (win4_4.rect_emb_val_of_index_zero t a (mlp4_idxW t a).2.2.1 y))
theorem mlp4_rd5 (t : Fin cfg4.N) (G : Spec.Mat 1 128) : ((cfg4.win 5).blk t).view.read (Elt Ideal) G = G := by
  funext y
  rw [View.read_apply]
  show G _ = G y
  exact congrArg G (funext fun a => Fin.ext (win4_5.rect_emb_val_of_index_zero t a (mlp4_idxW t a).2.2.2.1 y))
theorem mlp4_rd7 (t : Fin cfg4.N) (G : Spec.Mat 1 128) : ((cfg4.win 7).blk t).view.read (Elt Ideal) G = G := by
  funext y
  rw [View.read_apply]
  show G _ = G y
  exact congrArg G (funext fun a => Fin.ext (win4_7.rect_emb_val_of_index_zero t a (mlp4_idxW t a).2.2.2.2.1 y))
theorem mlp4_rd8 (t : Fin cfg4.N) (G : Spec.Mat 1 128) : ((cfg4.win 8).blk t).view.read (Elt Ideal) G = G := by
  funext y
  rw [View.read_apply]
  show G _ = G y
  exact congrArg G (funext fun a => Fin.ext (win4_8.rect_emb_val_of_index_zero t a (mlp4_idxW t a).2.2.2.2.2 y))

-- What the run's tiles leave: the general statement at this region's blocks and stores.
theorem mlp4_run (c : Dev nD) : MlpOuts N_4 (mlp4_z V c) (outsAt4 V c) :=
  mlp_run N_4 (x0 := iblk4 V c 0) (x1 := iblk4 V c 1) (x2 := iblk4 V c 2) (x3 := iblk4 V c 3) (x4 := iblk4 V c 4) (x5 := iblk4 V c 5)
    (T := fun t => k4_pay4 (iblk4 V c 0 t) (iblk4 V c 1 t) (iblk4 V c 2 t) (iblk4 V c 3 t) (iblk4 V c 4 t) (iblk4 V c 5 t))
    (Z7 := k4_pay2 (F := Ideal)) (Z8 := k4_pay3 (F := Ideal)) (fun t => mlp4_pay4_eq ..)
    (fun t p k => congrFun (mlp4_rd0 t _) (ix2 p k)) (fun t p k => congrFun (mlp4_rd1 t _) (ix2 p k))
    (fun t => mlp4_rd2 t _) (fun t => mlp4_rd3 t _) (fun t => mlp4_rd4 t _) (fun t => mlp4_rd5 t _) (fun _ => rfl) (fun _ => rfl)
    (fun t h0 => ((outsAt4_A V c t h0).trans (mlp4_out_A ..)).trans (by rw [mlp4_pay5_eq, mlp4_pay1_eq]))
    (fun t h0 => ((outsAt4_B V c t h0).trans (mlp4_out_B ..)).trans (by rw [mlp4_pay5_eq, mlp4_pay1_eq]))

-- Row `r` lies in the block of tile `r / 10000`; the last tile's block is the whole of an accumulator's array.
theorem mlp4_cover6 (i : S50000x128.Idx) : ∃ t : Fin cfg4.N, (cfg4.win 6).flush t = true ∧ i ∈ ((cfg4.win 6).blk t).view.set := by
  have hN : cfg4.N = 5 := N_4
  have hi0 : (i 0).val < 50000 := (i 0).isLt
  have hi1 : (i 1).val < 128 := (i 1).isLt
  have hm : ∀ t : Fin cfg4.N, t.val = (i 0).val / 10000 → i ∈ ((cfg4.win 6).blk t).view.set := fun t ht => by
    show i ∈ ((View.whole (Pipeline.arrRef spec4 6)).slice (win4_6.rect t)).set
    rw [View.set_slice_whole, Rect.mem_set_unit]
    intro a
    match a with
    | ⟨0, _⟩ =>
      show win4_6.index t 0 * 10000 ≤ (i 0).val ∧ (i 0).val < win4_6.index t 0 * 10000 + 10000
      rw [(mlp4_idxR t).2.2.1]; omega
    | ⟨1, _⟩ =>
      show win4_6.index t 1 * 128 ≤ (i 1).val ∧ (i 1).val < win4_6.index t 1 * 128 + 128
      rw [(mlp4_idxR t).2.2.2]; omega
  exact ⟨⟨(i 0).val / 10000, by omega⟩, flush4_6 _, hm _ rfl⟩
theorem mlp4_cover7 (i : S1x128.Idx) : ∃ t : Fin cfg4.N, (cfg4.win 7).flush t = true ∧ i ∈ ((cfg4.win 7).blk t).view.set := by
  have hN : cfg4.N = 5 := N_4
  have hm : ∀ t : Fin cfg4.N, i ∈ ((cfg4.win 7).blk t).view.set := fun t => by
    show i ∈ ((View.whole (Pipeline.arrRef spec4 7)).slice (win4_7.rect t)).set
    rw [View.set_slice_whole, Rect.mem_set_unit]
    intro a
    show win4_7.index t a * S1x128.size a ≤ (i a).val ∧ (i a).val < win4_7.index t a * S1x128.size a + S1x128.size a
    rw [(mlp4_idxW t a).2.2.2.2.1, Nat.zero_mul, Nat.zero_add]
    exact ⟨Nat.zero_le _, (i a).isLt⟩
  exact ⟨⟨4, by omega⟩, (flush4_7 _).mpr rfl, hm _⟩
theorem mlp4_cover8 (i : S1x128.Idx) : ∃ t : Fin cfg4.N, (cfg4.win 8).flush t = true ∧ i ∈ ((cfg4.win 8).blk t).view.set := by
  have hN : cfg4.N = 5 := N_4
  have hm : ∀ t : Fin cfg4.N, i ∈ ((cfg4.win 8).blk t).view.set := fun t => by
    show i ∈ ((View.whole (Pipeline.arrRef spec4 8)).slice (win4_8.rect t)).set
    rw [View.set_slice_whole, Rect.mem_set_unit]
    intro a
    show win4_8.index t a * S1x128.size a ≤ (i a).val ∧ (i a).val < win4_8.index t a * S1x128.size a + S1x128.size a
    rw [(mlp4_idxW t a).2.2.2.2.2, Nat.zero_mul, Nat.zero_add]
    exact ⟨Nat.zero_le _, (i a).isLt⟩
  exact ⟨⟨4, by omega⟩, (flush4_8 _).mpr rfl, hm _⟩
-- The three arrays the kernel leaves: each tile writes back its rows of `z`, the last tile the two accumulators.
theorem mlp4_arr6 (c : Dev nD) : (dat4 V c).arrAt 6 cfg4.N = mlp4_z V c :=
  (dat4 V c).arrAt_eq_of_cover 6 _ (fun t _ => by
    show (cfg4.win 6).cut (grid4.coords t) ((dat4 V c).after 6 t) = _
    rw [after4_6, (mlp4_run V c).tile t]
    exact (mlp4_rd6 t _).symm) mlp4_cover6
theorem mlp4_arr7 (c : Dev nD) :
    (dat4 V c).arrAt 7 cfg4.N = fun j : S1x128.Idx => Spec.zero32 + Spec.colSum (mlp4_z V c) (j 1) :=
  (dat4 V c).arrAt_eq_of_cover 7 _ (fun t hf => by
    have hN : cfg4.N = 5 := N_4
    have h4 : t.val = 4 := by have := (flush4_7 t).mp hf; have := t.isLt; omega
    show (cfg4.win 7).cut (grid4.coords t) ((dat4 V c).after 7 t) = _
    rw [after4_7, (mlp4_run V c).sum t h4]
    exact (mlp4_rd7 t _).symm) mlp4_cover7
theorem mlp4_arr8 (c : Dev nD) :
    (dat4 V c).arrAt 8 cfg4.N = fun j : S1x128.Idx => Spec.zero32 + Spec.colSumSq (mlp4_z V c) (j 1) :=
  (dat4 V c).arrAt_eq_of_cover 8 _ (fun t hf => by
    have hN : cfg4.N = 5 := N_4
    have h4 : t.val = 4 := by have := (flush4_8 t).mp hf; have := t.isLt; omega
    show (cfg4.win 8).cut (grid4.coords t) ((dat4 V c).after 8 t) = _
    rw [after4_8, (mlp4_run V c).sq t h4]
    exact (mlp4_rd8 t _).symm) mlp4_cover8

end Cert.KernelIdeal.Val

end
-- ==== Proof.KBn5.lean ====
import proofs.«407097_j78262894068282_1_alg».proof.Proof.Gen.KernelIdeal.Frame
import proofs.«407097_j78262894068282_1_alg».proof.Proof.KBnMath

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

theorem idx_bn5 : ∀ t : Fin cfg5.N,
    (∀ a : Fin 2, win5_0.index t a = win5_5.index t a) ∧ win5_5.index t (0 : Fin 2) = t.val ∧ win5_5.index t (1 : Fin 2) = 0
    ∧ ∀ a : Fin 2, win5_1.index t a = 0 ∧ win5_2.index t a = 0 ∧ win5_3.index t a = 0 ∧ win5_4.index t a = 0 :=
  (by decide +kernel : ∀ t : Fin grid5.N, _)

variable (V : (c : Dev nD) → (b : Ref sig .tc) → Buf (Elt Ideal) ((c : Thread nD τ).loc b))

-- The z tile and the output block cover the same rows of their arrays, and each row vector is read whole.
theorem entry_bn5 (c : Dev nD) (t : Fin cfg5.N) (y : S10000x128.Idx) :
    Gen.k5_pay1 (Gen.iblk5 V c 0 t) (Gen.iblk5 V c 1 t) (Gen.iblk5 V c 2 t) (Gen.iblk5 V c 3 t) (Gen.iblk5 V c 4 t) y
      = bnActOf (V c (Pipeline.arrRef spec5 0)) (V c (Pipeline.arrRef spec5 1)) (V c (Pipeline.arrRef spec5 2))
          (V c (Pipeline.arrRef spec5 3)) (V c (Pipeline.arrRef spec5 4)) (((cfg5.win 5).blk t).view.emb y) := by
  obtain ⟨h05, -, h51, h⟩ := idx_bn5 t
  refine bnAct_entry (Fin.ext (win5_5.rect_emb_val_of_index_zero t (1 : Fin 2) h51 y).symm)
    (read_blk_bn (win5_0.rect t).emb (fun _ => rfl) y _ fun a => ?_)
    (fun r => read_blk_bn (win5_1.rect t).emb (fun _ => rfl) r r fun a => win5_1.rect_emb_val_of_index_zero t a (h a).1 r)
    (fun r => read_blk_bn (win5_2.rect t).emb (fun _ => rfl) r r fun a => win5_2.rect_emb_val_of_index_zero t a (h a).2.1 r)
    (fun r => read_blk_bn (win5_3.rect t).emb (fun _ => rfl) r r fun a => win5_3.rect_emb_val_of_index_zero t a (h a).2.2.1 r)
    (fun r => read_blk_bn (win5_4.rect t).emb (fun _ => rfl) r r fun a => win5_4.rect_emb_val_of_index_zero t a (h a).2.2.2 r)
  have e := win5_0.rect_emb_val t y a
  rw [h05 a] at e
  exact e.trans (win5_5.rect_emb_val t y a).symm

-- Row r of the output array lies in the block of point r / 10000.
theorem cover_bn5 (i : S50000x128.Idx) : ∃ t : Fin cfg5.N, (cfg5.win 5).flush t = true ∧ i ∈ ((cfg5.win 5).blk t).view.set := by
  have ht : (i 0).val / 10000 < cfg5.N := by rw [show cfg5.N = 5 from Gen.N_5]; have := idx2_lt0 i; omega
  obtain ⟨-, h50, h51, -⟩ := idx_bn5 ⟨_, ht⟩
  refine ⟨⟨_, ht⟩, Gen.flush5_5 _, ?_⟩
  show i ∈ ((View.whole (Pipeline.arrRef spec5 5)).slice (win5_5.rect ⟨_, ht⟩)).set
  rw [View.set_slice_whole, Rect.mem_set_unit]
  exact tile_bounds_bn (win5_5.index _) i h50 h51

theorem out_bn5 (c : Dev nD) : (Gen.dat5 V c).arrAt 5 cfg5.N =
    Spec.act (Spec.bn (V c (Pipeline.arrRef spec5 0))
      (fun d => (V c (Pipeline.arrRef spec5 1) : Spec.Mat 1 128) (ix2 0 d))
      (fun d => (V c (Pipeline.arrRef spec5 2) : Spec.Mat 1 128) (ix2 0 d))
      (fun d => (V c (Pipeline.arrRef spec5 3) : Spec.Mat 1 128) (ix2 0 d))
      (fun d => (V c (Pipeline.arrRef spec5 4) : Spec.Mat 1 128) (ix2 0 d))) := by
  refine (Gen.dat5 V c).arrAt_eq_of_cover 5 _ (fun t _ => ?_) cover_bn5
  show (cfg5.win 5).cut (grid5.coords t) ((Gen.dat5 V c).after 5 t) = _
  rw [Gen.after5_5]
  unfold Gen.out5_5
  rw [View.canon_unit_zero hz_bn]
  simp only [View.ld_unit_zero (S := S10000x128) hz_bn, View.ld_unit_zero (S := S1x128) hz_bn]
  funext j
  rw [View.read_apply]
  exact entry_bn5 V c t j

end Cert.KernelIdeal.Val

end
-- ==== Proof.KLayer2.lean ====
import proofs.«407097_j78262894068282_1_alg».proof.Proof.KFrame2
import proofs.«407097_j78262894068282_1_alg».proof.Proof.KHost4
import proofs.«407097_j78262894068282_1_alg».proof.Proof.KHost5
import proofs.«407097_j78262894068282_1_alg».proof.Proof.KMlp4
import proofs.«407097_j78262894068282_1_alg».proof.Proof.KBn5

set_option maxRecDepth 16384

noncomputable section

namespace Cert.KernelIdeal.Val

open Cert.KernelIdeal Cert.KernelIdeal.Gen
open Idealize.ShloMosaic Idealize.ShloMosaic.TcCoe Idealize.ShloMosaic.ValueIdx
open Cert

variable (m : (ℓ : Loc nD τ sig) → Buf (Elt Ideal) ℓ) (ρ : Dev nD → PrngReg)

-- Layer 2: the carried buffers stay carried, and the output buffer holds the layer applied to the input buffer.
theorem layer2 (c : Dev nD) (hC : Carried m c (Gen.W8 m ρ c)) :
    Carried m c (Gen.W12 m ρ c)
      ∧ Gen.W12 m ρ c (Proc.devRef .tc main_v106) = Spec.stepMS (inputs m c) 2 (Gen.W8 m ρ c (Proc.devRef .tc main_v72)) :=
  have hCc : Carried m c (Gen.W10 m ρ c) := (hC.of_frame m (W9_of m ρ c)).of_frame m (Gen.W10_of_ne m ρ c)
  ⟨(hCc.of_frame m (W11_of m ρ c)).of_frame m (Gen.W12_of_ne m ρ c),
   layer_of_segments m c 2 true rfl hC.args hCc.args (congrArg srcBOf hC.v1) (congrArg dstBOf hC.v3)
    (W9_of m ρ c main_v72 (by decide)) (host4_agg _) (host4_W1 _) (host4_W2 _) (host4_b1 _) (host4_b2 _)
    ((Gen.W10_arr m ρ c 6).trans (mlp4_arr6 _ c)) ((Gen.W10_arr m ρ c 7).trans (mlp4_arr7 _ c))
    ((Gen.W10_arr m ρ c 8).trans (mlp4_arr8 _ c))
    (host5_mu _) (host5_var _) (host5_gamma _) (host5_beta _) (W11_of m ρ c main_v93_0 (by decide))
    ((Gen.W12_arr m ρ c 5).trans (out_bn5 _ c))⟩

end Cert.KernelIdeal.Val

end
-- ==== Proof.KFrame3.lean ====
import proofs.«407097_j78262894068282_1_alg».proof.Proof.Gen.KernelIdeal.Frame
import proofs.«407097_j78262894068282_1_alg».proof.Proof.KFrameBase

set_option maxRecDepth 16384

noncomputable section

namespace Cert.KernelIdeal.Val

open Cert.KernelIdeal Cert.KernelIdeal.Gen
open Idealize.ShloMosaic Idealize.ShloMosaic.TcCoe

variable (m : (ℓ : Loc nD τ sig) → Buf (Elt Ideal) ℓ) (ρ : Dev nD → PrngReg)

abbrev hostW6 : List (Ref sig .tc) := [main_c_13, main_v107, main_v108, main_c_14, main_v109, main_v110, main_v111, main_v112, main_v113, main_cst_15, main_v114, main_v115, main_v116, main_v117, main_v118, main_v119, main_v120, main_v121, main_v122, main_v123, main_v124, main_v125, main_v126]
-- A buffer outside this list, which holds every buffer the host stretch writes, keeps its contents.
theorem W13_of (c : Dev nD) (r : Ref sig .tc) (h : r ∉ hostW6) :
    Gen.W13 m ρ c (Proc.devRef .tc r) = Gen.W12 m ρ c (Proc.devRef .tc r) :=
  StableHlo.after_of_writes_sub hostOps6 _ (by
    simp only [hostOps6, List.Forall]
    repeat' apply And.intro
    all_goals exact Finset.singleton_subset_iff.mpr (List.mem_toFinset.mpr (List.mem_map_of_mem (by decide)))) h

abbrev hostW7 : List (Ref sig .tc) := [main_cst_16, main_v128, main_v129, main_cst_17, main_v130, main_v131, main_v132, main_v133, main_v134, main_v135, main_v136, main_v137, main_v138, main_v139]
-- A buffer outside this list, which holds every buffer the host stretch writes, keeps its contents.
theorem W15_of (c : Dev nD) (r : Ref sig .tc) (h : r ∉ hostW7) :
    Gen.W15 m ρ c (Proc.devRef .tc r) = Gen.W14 m ρ c (Proc.devRef .tc r) :=
  StableHlo.after_of_writes_sub hostOps7 _ (by
    simp only [hostOps7, List.Forall]
    repeat' apply And.intro
    all_goals exact Finset.singleton_subset_iff.mpr (List.mem_toFinset.mpr (List.mem_map_of_mem (by decide)))) h

end Cert.KernelIdeal.Val

end
-- ==== Proof.KHost6.lean ====
import Idealize.ShloMosaic.Lib.StableHlo.Run
import proofs.«407097_j78262894068282_1_alg».proof.Proof.Gen.KernelIdeal.Launch
import proofs.«407097_j78262894068282_1_alg».proof.Proof.KHostDefs
import proofs.«407097_j78262894068282_1_alg».proof.Proof.KHostLib

set_option maxRecDepth 16384

noncomputable section

namespace Cert.KernelIdeal.Val

open Gen Idealize.ShloMosaic

variable (V : Valuation τ sig (Elt Ideal))

theorem host6_agg :
    (StableHlo.after (hostOps6 (F := Ideal)) V (Proc.devRef .tc main_v116) : Spec.Mat 50000 128)
      = Spec.aggOf (V (Proc.devRef .tc main_v106)) (srcBOf (V (Proc.devRef .tc main_v1))) (dstBOf (V (Proc.devRef .tc main_v3))) := by
  after_results_simp
  exact agg_eq

theorem host6_W1 :
    (StableHlo.after (hostOps6 (F := Ideal)) V (Proc.devRef .tc main_v118) : Spec.Mat 128 128)
      = Spec.sliceM (V (Proc.devRef .tc main_arg4)) (3 : Fin 8) := by
  after_results
  exact sliceM_eq 3

theorem host6_b1 :
    (StableHlo.after (hostOps6 (F := Ideal)) V (Proc.devRef .tc main_v125) : Spec.Mat 1 128)
      = fun j => Spec.sliceV (V (Proc.devRef .tc main_arg5)) (3 : Fin 8) (j 1) := by
  after_results
  exact sliceRow_eq 3

theorem host6_W2 :
    (StableHlo.after (hostOps6 (F := Ideal)) V (Proc.devRef .tc main_v122) : Spec.Mat 128 128)
      = Spec.sliceM (V (Proc.devRef .tc main_arg6)) (3 : Fin 8) := by
  after_results
  exact sliceM_eq 3

theorem host6_b2 :
    (StableHlo.after (hostOps6 (F := Ideal)) V (Proc.devRef .tc main_v126) : Spec.Mat 1 128)
      = fun j => Spec.sliceV (V (Proc.devRef .tc main_arg7)) (3 : Fin 8) (j 1) := by
  after_results
  exact sliceRow_eq 3

end Cert.KernelIdeal.Val

end
-- ==== Proof.KHost7.lean ====
import Idealize.ShloMosaic.Lib.StableHlo.Run
import proofs.«407097_j78262894068282_1_alg».proof.Proof.Gen.KernelIdeal.Launch
import proofs.«407097_j78262894068282_1_alg».proof.Proof.KHostLib

set_option maxRecDepth 16384

noncomputable section

namespace Cert.KernelIdeal.Val

open Gen Idealize.ShloMosaic

variable (V : Valuation τ sig (Elt Ideal))

theorem host7_mu :
    (StableHlo.after (hostOps7 (F := Ideal)) V (Proc.devRef .tc main_v129) : Spec.Mat 1 128)
      = fun j => Ideal.div ((V (Proc.devRef .tc main_v127_1) : Spec.Mat 1 128) j) Spec.nNodes := by
  after_results
  rfl

theorem host7_var :
    (StableHlo.after (hostOps7 (F := Ideal)) V (Proc.devRef .tc main_v133) : Spec.Mat 1 128)
      = fun j => Ideal.div ((V (Proc.devRef .tc main_v127_2) : Spec.Mat 1 128) j) Spec.nNodes
          - Ideal.div ((V (Proc.devRef .tc main_v127_1) : Spec.Mat 1 128) j) Spec.nNodes
            * Ideal.div ((V (Proc.devRef .tc main_v127_1) : Spec.Mat 1 128) j) Spec.nNodes := by
  after_results
  rfl

theorem host7_gamma :
    (StableHlo.after (hostOps7 (F := Ideal)) V (Proc.devRef .tc main_v138) : Spec.Mat 1 128)
      = fun j => Spec.sliceV (V (Proc.devRef .tc main_arg8)) (3 : Fin 8) (j 1) := by
  after_results
  exact sliceRow_eq 3

theorem host7_beta :
    (StableHlo.after (hostOps7 (F := Ideal)) V (Proc.devRef .tc main_v139) : Spec.Mat 1 128)
      = fun j => Spec.sliceV (V (Proc.devRef .tc main_arg9)) (3 : Fin 8) (j 1) := by
  after_results
  exact sliceRow_eq 3

end Cert.KernelIdeal.Val

end
-- ==== Proof.KMlp6Pieces.lean ====
import proofs.«407097_j78262894068282_1_alg».proof.Proof.Gen.KernelIdeal.Frame
import proofs.«407097_j78262894068282_1_alg».proof.Proof.KMlpDot
import Idealize.ShloMosaic.Lib.Pipeline.Value
import Idealize.ShloMosaic.Lib.Tactic

noncomputable section

namespace Cert.KernelIdeal.Val

open Idealize.ShloMosaic Idealize.ShloMosaic.TcCoe Idealize.SL.Sem
open Cert.KernelIdeal Cert.KernelIdeal.Gen

variable {F : FTy → Type} [FloatOps F]
variable (c : Dev nD) (i : grid6.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole)
  (x0 x1 : Vec F S10000x128 .f32) (x2 : Vec F S128x128 .f32) (x3 : Vec F S1x128 .f32) (x4 : Vec F S128x128 .f32) (x5 xo7 xo8 : Vec F S1x128 .f32)

-- What one run of the body leaves in its three output blocks: the tile's output, and each accumulator's old block (zero at the first tile) plus the tile's column sums.
theorem mlp6_out_A (hc0 : cond6_0 i) :
    (out6_A_6 c i arg1 harg1 arg2 harg2 arg3 harg3 arg4 harg4 arg5 harg5 arg6 harg6 arg7 harg7 arg8 harg8 arg9 harg9 hc0 x0 x1 x2 x3 x4 x5, out6_A_7 c i arg1 harg1 arg2 harg2 arg3 harg3 arg4 harg4 arg5 harg5 arg6 harg6 arg7 harg7 arg8 harg8 arg9 harg9 hc0 x0 x1 x2 x3 x4 x5, out6_A_8 c i arg1 harg1 arg2 harg2 arg3 harg3 arg4 harg4 arg5 harg5 arg6 harg6 arg7 harg7 arg8 harg8 arg9 harg9 hc0 x0 x1 x2 x3 x4 x5)
      = (k6_pay4 x0 x1 x2 x3 x4 x5, k6_pay5 x0 x1 x2 x3 x4 x5 (k6_pay2 (F := F)), k6_pay1 (k6_pay4 x0 x1 x2 x3 x4 x5) (k6_pay3 (F := F))) := by
  unfold out6_A_6 out6_A_7 out6_A_8
  refine congrArg₂ Prod.mk ?_ (congrArg₂ Prod.mk ?_ ?_)
  on_goal 1 => rw [View.read_writes_eq_canon _ _ _ (cover6_A_6 _ _ _ _ _ _ _ _ _ _ _ _ _ _ _ _ _ _ _ _ _ _ _ _ _ _ _)]
  on_goal 2 => rw [View.read_writes_eq_canon _ _ _ (cover6_A_7 _ _ _ _ _ _ _ _ _ _ _ _ _ _ _ _ _ _ _ _ _ _ _ _ _ _ _)]
  on_goal 3 => rw [View.read_writes_eq_canon _ _ _ (cover6_A_8 _ _ _ _ _ _ _ _ _ _ _ _ _ _ _ _ _ _ _ _ _ _ _ _ _ _ _)]
  all_goals
    unfold kernelRun6_A
    dsimp only
    sl_unfold_words
    first | rw [View.canon_unit_zero mlp_hz] | rw [View.canon_cons_unit_zero (S := S1x128) mlp_hz]
    simp only [View.readAt_eq_ld, harg1.read_unread, harg2.read_unread, harg3.read_unread, harg4.read_unread, harg5.read_unread,
      harg6.read_unread, harg8.read_unread, harg9.read_unread, View.ld_unit_zero (S := S10000x128) mlp_hz,
      View.ld_unit_zero (S := S128x128) mlp_hz, View.ld_unit_zero (S := S1x128) mlp_hz,
      View.readCov_unit_zero (S := S1x128) _ mlp_hz]

theorem mlp6_out_B (hc0 : ¬cond6_0 i) :
    (out6_B_6 c i arg1 harg1 arg2 harg2 arg3 harg3 arg4 harg4 arg5 harg5 arg6 harg6 arg7 harg7 arg8 harg8 arg9 harg9 hc0 x0 x1 x2 x3 x4 x5 xo7 xo8, out6_B_7 c i arg1 harg1 arg2 harg2 arg3 harg3 arg4 harg4 arg5 harg5 arg6 harg6 arg7 harg7 arg8 harg8 arg9 harg9 hc0 x0 x1 x2 x3 x4 x5 xo7 xo8, out6_B_8 c i arg1 harg1 arg2 harg2 arg3 harg3 arg4 harg4 arg5 harg5 arg6 harg6 arg7 harg7 arg8 harg8 arg9 harg9 hc0 x0 x1 x2 x3 x4 x5 xo7 xo8)
      = (k6_pay4 x0 x1 x2 x3 x4 x5, k6_pay5 x0 x1 x2 x3 x4 x5 xo7, k6_pay1 (k6_pay4 x0 x1 x2 x3 x4 x5) xo8) := by
  unfold out6_B_6 out6_B_7 out6_B_8
  refine congrArg₂ Prod.mk ?_ (congrArg₂ Prod.mk ?_ ?_)
  on_goal 1 => rw [View.read_writes_eq_canon _ _ _ (cover6_B_6 _ _ _ _ _ _ _ _ _ _ _ _ _ _ _ _ _ _ _ _ _ _ _ _ _ _ _ _ _)]
  on_goal 2 => rw [View.read_writes_eq_canon _ _ _ (cover6_B_7 _ _ _ _ _ _ _ _ _ _ _ _ _ _ _ _ _ _ _ _ _ _ _ _ _ _ _ _ _)]
  on_goal 3 => rw [View.read_writes_eq_canon _ _ _ (cover6_B_8 _ _ _ _ _ _ _ _ _ _ _ _ _ _ _ _ _ _ _ _ _ _ _ _ _ _ _ _ _)]
  all_goals
    unfold kernelRun6_B
    dsimp only
    sl_unfold_words
    first | rw [View.canon_unit_zero mlp_hz] | rw [View.canon_cons_unit_zero (S := S1x128) mlp_hz]
    simp only [View.readAt_eq_ld, harg1.read_unread, harg2.read_unread, harg3.read_unread, harg4.read_unread, harg5.read_unread,
      harg6.read_unread, harg8.read_unread, harg9.read_unread, View.ld_unit_zero (S := S10000x128) mlp_hz,
      View.ld_unit_zero (S := S128x128) mlp_hz, View.ld_unit_zero (S := S1x128) mlp_hz,
      View.readCov_unit_zero (S := S1x128) _ mlp_hz]

end Cert.KernelIdeal.Val

end
-- ==== Proof.KMlp6.lean ====
import proofs.«407097_j78262894068282_1_alg».proof.Proof.KMlpRun
import proofs.«407097_j78262894068282_1_alg».proof.Proof.KMlp6Pieces

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

-- The perceptron's output of the whole arrays found on entry.
abbrev mlp6_z (c : Dev nD) : Spec.Mat 50000 128 :=
  Spec.zOf (V c (Pipeline.arrRef spec6 0)) (V c (Pipeline.arrRef spec6 1)) (V c (Pipeline.arrRef spec6 2))
    (fun d => (V c (Pipeline.arrRef spec6 3) : Spec.Mat 1 128) (ix2 (0 : Fin 1) d)) (V c (Pipeline.arrRef spec6 4))
    (fun d => (V c (Pipeline.arrRef spec6 5) : Spec.Mat 1 128) (ix2 (0 : Fin 1) d))

-- The payloads of the body's three stores are the tile perceptron and two accumulator steps, the casts of a block to its own shape dropped.
theorem mlp6_pay4_eq (h a : Vec Ideal S10000x128 .f32) (W1 : Vec Ideal S128x128 .f32) (b1 : Vec Ideal S1x128 .f32) (W2 : Vec Ideal S128x128 .f32) (b2 : Vec Ideal S1x128 .f32) :
    k6_pay4 (F := Ideal) h a W1 b1 W2 b2 = mlpTile Gen.broadcasts_S1x128_S10000x128 h a W1 b1 W2 b2 := by
  unfold k6_pay4 mlpTile mlpPre
  simp only [shapeCast_self]
theorem mlp6_pay5_eq (h a : Vec Ideal S10000x128 .f32) (W1 : Vec Ideal S128x128 .f32) (b1 : Vec Ideal S1x128 .f32) (W2 : Vec Ideal S128x128 .f32) (b2 prev : Vec Ideal S1x128 .f32) :
    k6_pay5 (F := Ideal) h a W1 b1 W2 b2 prev = mlpAdd (k6_pay4 h a W1 b1 W2 b2) prev := by
  unfold k6_pay5 mlpAdd
  simp only [shapeCast_self]
theorem mlp6_pay1_eq (z : Vec Ideal S10000x128 .f32) (prev : Vec Ideal S1x128 .f32) : k6_pay1 (F := Ideal) z prev = mlpAdd (mulf z z) prev := by
  unfold k6_pay1 mlpAdd
  simp only [shapeCast_self]

-- The windows' block indices: the row-tiled arrays sit at block `(t, 0)`, the others at `(0, 0)`.
theorem mlp6_idxR : ∀ t : Fin cfg6.N, (win6_0.index t (0 : Fin 2) = t.val ∧ win6_0.index t (1 : Fin 2) = 0)
    ∧ (win6_1.index t (0 : Fin 2) = t.val ∧ win6_1.index t (1 : Fin 2) = 0) ∧ win6_6.index t (0 : Fin 2) = t.val ∧ win6_6.index t (1 : Fin 2) = 0 :=
  (by decide +kernel : ∀ t : Fin grid6.N, _)
theorem mlp6_idxW : ∀ (t : Fin cfg6.N) (a : Fin 2), win6_2.index t a = 0 ∧ win6_3.index t a = 0 ∧ win6_4.index t a = 0 ∧ win6_5.index t a = 0
    ∧ win6_7.index t a = 0 ∧ win6_8.index t a = 0 :=
  (by decide +kernel : ∀ (t : Fin grid6.N) (a : Fin 2), _)

-- Reading an array through tile `t`'s block: rows `10000 t ..` of a row-tiled array, all of any other.
theorem mlp6_rd0 (t : Fin cfg6.N) (G : Spec.Mat 50000 128) :
    ((cfg6.win 0).blk t).view.read (Elt Ideal) G = fun j => G (ix2 (mlpRow N_6 t (j 0)) (j 1)) := by
  funext y
  rw [View.read_apply]
  show G _ = G _
  refine congrArg G (funext fun a => Fin.ext ?_)
  match a with
  | ⟨0, _⟩ => show win6_0.index t 0 * 10000 + 1 * (y 0).val = 10000 * t.val + (y 0).val; rw [(mlp6_idxR t).1.1]; omega
  | ⟨1, _⟩ => show win6_0.index t 1 * 128 + 1 * (y 1).val = (y 1).val; rw [(mlp6_idxR t).1.2]; omega
theorem mlp6_rd1 (t : Fin cfg6.N) (G : Spec.Mat 50000 128) :
    ((cfg6.win 1).blk t).view.read (Elt Ideal) G = fun j => G (ix2 (mlpRow N_6 t (j 0)) (j 1)) := by
  funext y
  rw [View.read_apply]
  show G _ = G _
  refine congrArg G (funext fun a => Fin.ext ?_)
  match a with
  | ⟨0, _⟩ => show win6_1.index t 0 * 10000 + 1 * (y 0).val = 10000 * t.val + (y 0).val; rw [(mlp6_idxR t).2.1.1]; omega
  | ⟨1, _⟩ => show win6_1.index t 1 * 128 + 1 * (y 1).val = (y 1).val; rw [(mlp6_idxR t).2.1.2]; omega
theorem mlp6_rd6 (t : Fin cfg6.N) (G : Spec.Mat 50000 128) :
    ((cfg6.win 6).blk t).view.read (Elt Ideal) G = fun j => G (ix2 (mlpRow N_6 t (j 0)) (j 1)) := by
  funext y
  rw [View.read_apply]
  show G _ = G _
  refine congrArg G (funext fun a => Fin.ext ?_)
  match a with
  | ⟨0, _⟩ => show win6_6.index t 0 * 10000 + 1 * (y 0).val = 10000 * t.val + (y 0).val; rw [(mlp6_idxR t).2.2.1]; omega
  | ⟨1, _⟩ => show win6_6.index t 1 * 128 + 1 * (y 1).val = (y 1).val; rw [(mlp6_idxR t).2.2.2]; omega
theorem mlp6_rd2 (t : Fin cfg6.N) (G : Spec.Mat 128 128) : ((cfg6.win 2).blk t).view.read (Elt Ideal) G = G := by
  funext y
  rw [View.read_apply]
  show G _ = G y
  exact congrArg G (funext fun a => Fin.ext (win6_2.rect_emb_val_of_index_zero t a (mlp6_idxW t a).1 y))
theorem mlp6_rd3 (t : Fin cfg6.N) (G : Spec.Mat 1 128) : ((cfg6.win 3).blk t).view.read (Elt Ideal) G = G := by
  funext y
  rw [View.read_apply]
  show G _ = G y
  exact congrArg G (funext fun a => Fin.ext (win6_3.rect_emb_val_of_index_zero t a (mlp6_idxW t a).2.1 y))
theorem mlp6_rd4 (t : Fin cfg6.N) (G : Spec.Mat 128 128) : ((cfg6.win 4).blk t).view.read (Elt Ideal) G = G := by
  funext y
  rw [View.read_apply]
  show G _ = G y
  exact congrArg G (funext fun a => Fin.ext (win6_4.rect_emb_val_of_index_zero t a (mlp6_idxW t a).2.2.1 y))
theorem mlp6_rd5 (t : Fin cfg6.N) (G : Spec.Mat 1 128) : ((cfg6.win 5).blk t).view.read (Elt Ideal) G = G := by
  funext y
  rw [View.read_apply]
  show G _ = G y
  exact congrArg G (funext fun a => Fin.ext (win6_5.rect_emb_val_of_index_zero t a (mlp6_idxW t a).2.2.2.1 y))
theorem mlp6_rd7 (t : Fin cfg6.N) (G : Spec.Mat 1 128) : ((cfg6.win 7).blk t).view.read (Elt Ideal) G = G := by
  funext y
  rw [View.read_apply]
  show G _ = G y
  exact congrArg G (funext fun a => Fin.ext (win6_7.rect_emb_val_of_index_zero t a (mlp6_idxW t a).2.2.2.2.1 y))
theorem mlp6_rd8 (t : Fin cfg6.N) (G : Spec.Mat 1 128) : ((cfg6.win 8).blk t).view.read (Elt Ideal) G = G := by
  funext y
  rw [View.read_apply]
  show G _ = G y
  exact congrArg G (funext fun a => Fin.ext (win6_8.rect_emb_val_of_index_zero t a (mlp6_idxW t a).2.2.2.2.2 y))

-- What the run's tiles leave: the general statement at this region's blocks and stores.
theorem mlp6_run (c : Dev nD) : MlpOuts N_6 (mlp6_z V c) (outsAt6 V c) :=
  mlp_run N_6 (x0 := iblk6 V c 0) (x1 := iblk6 V c 1) (x2 := iblk6 V c 2) (x3 := iblk6 V c 3) (x4 := iblk6 V c 4) (x5 := iblk6 V c 5)
    (T := fun t => k6_pay4 (iblk6 V c 0 t) (iblk6 V c 1 t) (iblk6 V c 2 t) (iblk6 V c 3 t) (iblk6 V c 4 t) (iblk6 V c 5 t))
    (Z7 := k6_pay2 (F := Ideal)) (Z8 := k6_pay3 (F := Ideal)) (fun t => mlp6_pay4_eq ..)
    (fun t p k => congrFun (mlp6_rd0 t _) (ix2 p k)) (fun t p k => congrFun (mlp6_rd1 t _) (ix2 p k))
    (fun t => mlp6_rd2 t _) (fun t => mlp6_rd3 t _) (fun t => mlp6_rd4 t _) (fun t => mlp6_rd5 t _) (fun _ => rfl) (fun _ => rfl)
    (fun t h0 => ((outsAt6_A V c t h0).trans (mlp6_out_A ..)).trans (by rw [mlp6_pay5_eq, mlp6_pay1_eq]))
    (fun t h0 => ((outsAt6_B V c t h0).trans (mlp6_out_B ..)).trans (by rw [mlp6_pay5_eq, mlp6_pay1_eq]))

-- Row `r` lies in the block of tile `r / 10000`; the last tile's block is the whole of an accumulator's array.
theorem mlp6_cover6 (i : S50000x128.Idx) : ∃ t : Fin cfg6.N, (cfg6.win 6).flush t = true ∧ i ∈ ((cfg6.win 6).blk t).view.set := by
  have hN : cfg6.N = 5 := N_6
  have hi0 : (i 0).val < 50000 := (i 0).isLt
  have hi1 : (i 1).val < 128 := (i 1).isLt
  have hm : ∀ t : Fin cfg6.N, t.val = (i 0).val / 10000 → i ∈ ((cfg6.win 6).blk t).view.set := fun t ht => by
    show i ∈ ((View.whole (Pipeline.arrRef spec6 6)).slice (win6_6.rect t)).set
    rw [View.set_slice_whole, Rect.mem_set_unit]
    intro a
    match a with
    | ⟨0, _⟩ =>
      show win6_6.index t 0 * 10000 ≤ (i 0).val ∧ (i 0).val < win6_6.index t 0 * 10000 + 10000
      rw [(mlp6_idxR t).2.2.1]; omega
    | ⟨1, _⟩ =>
      show win6_6.index t 1 * 128 ≤ (i 1).val ∧ (i 1).val < win6_6.index t 1 * 128 + 128
      rw [(mlp6_idxR t).2.2.2]; omega
  exact ⟨⟨(i 0).val / 10000, by omega⟩, flush6_6 _, hm _ rfl⟩
theorem mlp6_cover7 (i : S1x128.Idx) : ∃ t : Fin cfg6.N, (cfg6.win 7).flush t = true ∧ i ∈ ((cfg6.win 7).blk t).view.set := by
  have hN : cfg6.N = 5 := N_6
  have hm : ∀ t : Fin cfg6.N, i ∈ ((cfg6.win 7).blk t).view.set := fun t => by
    show i ∈ ((View.whole (Pipeline.arrRef spec6 7)).slice (win6_7.rect t)).set
    rw [View.set_slice_whole, Rect.mem_set_unit]
    intro a
    show win6_7.index t a * S1x128.size a ≤ (i a).val ∧ (i a).val < win6_7.index t a * S1x128.size a + S1x128.size a
    rw [(mlp6_idxW t a).2.2.2.2.1, Nat.zero_mul, Nat.zero_add]
    exact ⟨Nat.zero_le _, (i a).isLt⟩
  exact ⟨⟨4, by omega⟩, (flush6_7 _).mpr rfl, hm _⟩
theorem mlp6_cover8 (i : S1x128.Idx) : ∃ t : Fin cfg6.N, (cfg6.win 8).flush t = true ∧ i ∈ ((cfg6.win 8).blk t).view.set := by
  have hN : cfg6.N = 5 := N_6
  have hm : ∀ t : Fin cfg6.N, i ∈ ((cfg6.win 8).blk t).view.set := fun t => by
    show i ∈ ((View.whole (Pipeline.arrRef spec6 8)).slice (win6_8.rect t)).set
    rw [View.set_slice_whole, Rect.mem_set_unit]
    intro a
    show win6_8.index t a * S1x128.size a ≤ (i a).val ∧ (i a).val < win6_8.index t a * S1x128.size a + S1x128.size a
    rw [(mlp6_idxW t a).2.2.2.2.2, Nat.zero_mul, Nat.zero_add]
    exact ⟨Nat.zero_le _, (i a).isLt⟩
  exact ⟨⟨4, by omega⟩, (flush6_8 _).mpr rfl, hm _⟩
-- The three arrays the kernel leaves: each tile writes back its rows of `z`, the last tile the two accumulators.
theorem mlp6_arr6 (c : Dev nD) : (dat6 V c).arrAt 6 cfg6.N = mlp6_z V c :=
  (dat6 V c).arrAt_eq_of_cover 6 _ (fun t _ => by
    show (cfg6.win 6).cut (grid6.coords t) ((dat6 V c).after 6 t) = _
    rw [after6_6, (mlp6_run V c).tile t]
    exact (mlp6_rd6 t _).symm) mlp6_cover6
theorem mlp6_arr7 (c : Dev nD) :
    (dat6 V c).arrAt 7 cfg6.N = fun j : S1x128.Idx => Spec.zero32 + Spec.colSum (mlp6_z V c) (j 1) :=
  (dat6 V c).arrAt_eq_of_cover 7 _ (fun t hf => by
    have hN : cfg6.N = 5 := N_6
    have h4 : t.val = 4 := by have := (flush6_7 t).mp hf; have := t.isLt; omega
    show (cfg6.win 7).cut (grid6.coords t) ((dat6 V c).after 7 t) = _
    rw [after6_7, (mlp6_run V c).sum t h4]
    exact (mlp6_rd7 t _).symm) mlp6_cover7
theorem mlp6_arr8 (c : Dev nD) :
    (dat6 V c).arrAt 8 cfg6.N = fun j : S1x128.Idx => Spec.zero32 + Spec.colSumSq (mlp6_z V c) (j 1) :=
  (dat6 V c).arrAt_eq_of_cover 8 _ (fun t hf => by
    have hN : cfg6.N = 5 := N_6
    have h4 : t.val = 4 := by have := (flush6_8 t).mp hf; have := t.isLt; omega
    show (cfg6.win 8).cut (grid6.coords t) ((dat6 V c).after 8 t) = _
    rw [after6_8, (mlp6_run V c).sq t h4]
    exact (mlp6_rd8 t _).symm) mlp6_cover8

end Cert.KernelIdeal.Val

end
-- ==== Proof.KBn7.lean ====
import proofs.«407097_j78262894068282_1_alg».proof.Proof.Gen.KernelIdeal.Frame
import proofs.«407097_j78262894068282_1_alg».proof.Proof.KBnMath

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

theorem idx_bn7 : ∀ t : Fin cfg7.N,
    (∀ a : Fin 2, win7_0.index t a = win7_5.index t a) ∧ win7_5.index t (0 : Fin 2) = t.val ∧ win7_5.index t (1 : Fin 2) = 0
    ∧ ∀ a : Fin 2, win7_1.index t a = 0 ∧ win7_2.index t a = 0 ∧ win7_3.index t a = 0 ∧ win7_4.index t a = 0 :=
  (by decide +kernel : ∀ t : Fin grid7.N, _)

variable (V : (c : Dev nD) → (b : Ref sig .tc) → Buf (Elt Ideal) ((c : Thread nD τ).loc b))

-- The z tile and the output block cover the same rows of their arrays, and each row vector is read whole.
theorem entry_bn7 (c : Dev nD) (t : Fin cfg7.N) (y : S10000x128.Idx) :
    Gen.k7_pay1 (Gen.iblk7 V c 0 t) (Gen.iblk7 V c 1 t) (Gen.iblk7 V c 2 t) (Gen.iblk7 V c 3 t) (Gen.iblk7 V c 4 t) y
      = bnActOf (V c (Pipeline.arrRef spec7 0)) (V c (Pipeline.arrRef spec7 1)) (V c (Pipeline.arrRef spec7 2))
          (V c (Pipeline.arrRef spec7 3)) (V c (Pipeline.arrRef spec7 4)) (((cfg7.win 5).blk t).view.emb y) := by
  obtain ⟨h05, -, h51, h⟩ := idx_bn7 t
  refine bnAct_entry (Fin.ext (win7_5.rect_emb_val_of_index_zero t (1 : Fin 2) h51 y).symm)
    (read_blk_bn (win7_0.rect t).emb (fun _ => rfl) y _ fun a => ?_)
    (fun r => read_blk_bn (win7_1.rect t).emb (fun _ => rfl) r r fun a => win7_1.rect_emb_val_of_index_zero t a (h a).1 r)
    (fun r => read_blk_bn (win7_2.rect t).emb (fun _ => rfl) r r fun a => win7_2.rect_emb_val_of_index_zero t a (h a).2.1 r)
    (fun r => read_blk_bn (win7_3.rect t).emb (fun _ => rfl) r r fun a => win7_3.rect_emb_val_of_index_zero t a (h a).2.2.1 r)
    (fun r => read_blk_bn (win7_4.rect t).emb (fun _ => rfl) r r fun a => win7_4.rect_emb_val_of_index_zero t a (h a).2.2.2 r)
  have e := win7_0.rect_emb_val t y a
  rw [h05 a] at e
  exact e.trans (win7_5.rect_emb_val t y a).symm

-- Row r of the output array lies in the block of point r / 10000.
theorem cover_bn7 (i : S50000x128.Idx) : ∃ t : Fin cfg7.N, (cfg7.win 5).flush t = true ∧ i ∈ ((cfg7.win 5).blk t).view.set := by
  have ht : (i 0).val / 10000 < cfg7.N := by rw [show cfg7.N = 5 from Gen.N_7]; have := idx2_lt0 i; omega
  obtain ⟨-, h50, h51, -⟩ := idx_bn7 ⟨_, ht⟩
  refine ⟨⟨_, ht⟩, Gen.flush7_5 _, ?_⟩
  show i ∈ ((View.whole (Pipeline.arrRef spec7 5)).slice (win7_5.rect ⟨_, ht⟩)).set
  rw [View.set_slice_whole, Rect.mem_set_unit]
  exact tile_bounds_bn (win7_5.index _) i h50 h51

theorem out_bn7 (c : Dev nD) : (Gen.dat7 V c).arrAt 5 cfg7.N =
    Spec.act (Spec.bn (V c (Pipeline.arrRef spec7 0))
      (fun d => (V c (Pipeline.arrRef spec7 1) : Spec.Mat 1 128) (ix2 0 d))
      (fun d => (V c (Pipeline.arrRef spec7 2) : Spec.Mat 1 128) (ix2 0 d))
      (fun d => (V c (Pipeline.arrRef spec7 3) : Spec.Mat 1 128) (ix2 0 d))
      (fun d => (V c (Pipeline.arrRef spec7 4) : Spec.Mat 1 128) (ix2 0 d))) := by
  refine (Gen.dat7 V c).arrAt_eq_of_cover 5 _ (fun t _ => ?_) cover_bn7
  show (cfg7.win 5).cut (grid7.coords t) ((Gen.dat7 V c).after 5 t) = _
  rw [Gen.after7_5]
  unfold Gen.out7_5
  rw [View.canon_unit_zero hz_bn]
  simp only [View.ld_unit_zero (S := S10000x128) hz_bn, View.ld_unit_zero (S := S1x128) hz_bn]
  funext j
  rw [View.read_apply]
  exact entry_bn7 V c t j

end Cert.KernelIdeal.Val

end
-- ==== Proof.KLayer3.lean ====
import proofs.«407097_j78262894068282_1_alg».proof.Proof.KFrame3
import proofs.«407097_j78262894068282_1_alg».proof.Proof.KHost6
import proofs.«407097_j78262894068282_1_alg».proof.Proof.KHost7
import proofs.«407097_j78262894068282_1_alg».proof.Proof.KMlp6
import proofs.«407097_j78262894068282_1_alg».proof.Proof.KBn7

set_option maxRecDepth 16384

noncomputable section

namespace Cert.KernelIdeal.Val

open Cert.KernelIdeal Cert.KernelIdeal.Gen
open Idealize.ShloMosaic Idealize.ShloMosaic.TcCoe Idealize.ShloMosaic.ValueIdx
open Cert

variable (m : (ℓ : Loc nD τ sig) → Buf (Elt Ideal) ℓ) (ρ : Dev nD → PrngReg)

-- Layer 3: the carried buffers stay carried, and the output buffer holds the layer applied to the input buffer.
theorem layer3 (c : Dev nD) (hC : Carried m c (Gen.W12 m ρ c)) :
    Carried m c (Gen.W16 m ρ c)
      ∧ Gen.W16 m ρ c (Proc.devRef .tc main_v140) = Spec.stepMS (inputs m c) 3 (Gen.W12 m ρ c (Proc.devRef .tc main_v106)) :=
  have hCc : Carried m c (Gen.W14 m ρ c) := (hC.of_frame m (W13_of m ρ c)).of_frame m (Gen.W14_of_ne m ρ c)
  ⟨(hCc.of_frame m (W15_of m ρ c)).of_frame m (Gen.W16_of_ne m ρ c),
   layer_of_segments m c 3 true rfl hC.args hCc.args (congrArg srcBOf hC.v1) (congrArg dstBOf hC.v3)
    (W13_of m ρ c main_v106 (by decide)) (host6_agg _) (host6_W1 _) (host6_W2 _) (host6_b1 _) (host6_b2 _)
    ((Gen.W14_arr m ρ c 6).trans (mlp6_arr6 _ c)) ((Gen.W14_arr m ρ c 7).trans (mlp6_arr7 _ c))
    ((Gen.W14_arr m ρ c 8).trans (mlp6_arr8 _ c))
    (host7_mu _) (host7_var _) (host7_gamma _) (host7_beta _) (W15_of m ρ c main_v127_0 (by decide))
    ((Gen.W16_arr m ρ c 5).trans (out_bn7 _ c))⟩

end Cert.KernelIdeal.Val

end
-- ==== Proof.KFrame4.lean ====
import proofs.«407097_j78262894068282_1_alg».proof.Proof.Gen.KernelIdeal.Frame
import proofs.«407097_j78262894068282_1_alg».proof.Proof.KFrameBase

set_option maxRecDepth 16384

noncomputable section

namespace Cert.KernelIdeal.Val

open Cert.KernelIdeal Cert.KernelIdeal.Gen
open Idealize.ShloMosaic Idealize.ShloMosaic.TcCoe

variable (m : (ℓ : Loc nD τ sig) → Buf (Elt Ideal) ℓ) (ρ : Dev nD → PrngReg)

abbrev hostW8 : List (Ref sig .tc) := [main_c_18, main_v141, main_v142, main_c_19, main_v143, main_v144, main_v145, main_v146, main_v147, main_cst_20, main_v148, main_v149, main_v150, main_v151, main_v152, main_v153, main_v154, main_v155, main_v156, main_v157, main_v158, main_v159, main_v160]
-- A buffer outside this list, which holds every buffer the host stretch writes, keeps its contents.
theorem W17_of (c : Dev nD) (r : Ref sig .tc) (h : r ∉ hostW8) :
    Gen.W17 m ρ c (Proc.devRef .tc r) = Gen.W16 m ρ c (Proc.devRef .tc r) :=
  StableHlo.after_of_writes_sub hostOps8 _ (by
    simp only [hostOps8, List.Forall]
    repeat' apply And.intro
    all_goals exact Finset.singleton_subset_iff.mpr (List.mem_toFinset.mpr (List.mem_map_of_mem (by decide)))) h

abbrev hostW9 : List (Ref sig .tc) := [main_cst_21, main_v162, main_v163, main_cst_22, main_v164, main_v165, main_v166, main_v167, main_v168, main_v169, main_v170, main_v171, main_v172, main_v173]
-- A buffer outside this list, which holds every buffer the host stretch writes, keeps its contents.
theorem W19_of (c : Dev nD) (r : Ref sig .tc) (h : r ∉ hostW9) :
    Gen.W19 m ρ c (Proc.devRef .tc r) = Gen.W18 m ρ c (Proc.devRef .tc r) :=
  StableHlo.after_of_writes_sub hostOps9 _ (by
    simp only [hostOps9, List.Forall]
    repeat' apply And.intro
    all_goals exact Finset.singleton_subset_iff.mpr (List.mem_toFinset.mpr (List.mem_map_of_mem (by decide)))) h

end Cert.KernelIdeal.Val

end
-- ==== Proof.KHost8.lean ====
import Idealize.ShloMosaic.Lib.StableHlo.Run
import proofs.«407097_j78262894068282_1_alg».proof.Proof.Gen.KernelIdeal.Launch
import proofs.«407097_j78262894068282_1_alg».proof.Proof.KHostDefs
import proofs.«407097_j78262894068282_1_alg».proof.Proof.KHostLib

set_option maxRecDepth 16384

noncomputable section

namespace Cert.KernelIdeal.Val

open Gen Idealize.ShloMosaic

variable (V : Valuation τ sig (Elt Ideal))

theorem host8_agg :
    (StableHlo.after (hostOps8 (F := Ideal)) V (Proc.devRef .tc main_v150) : Spec.Mat 50000 128)
      = Spec.aggOf (V (Proc.devRef .tc main_v140)) (srcBOf (V (Proc.devRef .tc main_v1))) (dstBOf (V (Proc.devRef .tc main_v3))) := by
  after_results_simp
  exact agg_eq

theorem host8_W1 :
    (StableHlo.after (hostOps8 (F := Ideal)) V (Proc.devRef .tc main_v152) : Spec.Mat 128 128)
      = Spec.sliceM (V (Proc.devRef .tc main_arg4)) (4 : Fin 8) := by
  after_results
  exact sliceM_eq 4

theorem host8_b1 :
    (StableHlo.after (hostOps8 (F := Ideal)) V (Proc.devRef .tc main_v159) : Spec.Mat 1 128)
      = fun j => Spec.sliceV (V (Proc.devRef .tc main_arg5)) (4 : Fin 8) (j 1) := by
  after_results
  exact sliceRow_eq 4

theorem host8_W2 :
    (StableHlo.after (hostOps8 (F := Ideal)) V (Proc.devRef .tc main_v156) : Spec.Mat 128 128)
      = Spec.sliceM (V (Proc.devRef .tc main_arg6)) (4 : Fin 8) := by
  after_results
  exact sliceM_eq 4

theorem host8_b2 :
    (StableHlo.after (hostOps8 (F := Ideal)) V (Proc.devRef .tc main_v160) : Spec.Mat 1 128)
      = fun j => Spec.sliceV (V (Proc.devRef .tc main_arg7)) (4 : Fin 8) (j 1) := by
  after_results
  exact sliceRow_eq 4

end Cert.KernelIdeal.Val

end
-- ==== Proof.KHost9.lean ====
import Idealize.ShloMosaic.Lib.StableHlo.Run
import proofs.«407097_j78262894068282_1_alg».proof.Proof.Gen.KernelIdeal.Launch
import proofs.«407097_j78262894068282_1_alg».proof.Proof.KHostLib

set_option maxRecDepth 16384

noncomputable section

namespace Cert.KernelIdeal.Val

open Gen Idealize.ShloMosaic

variable (V : Valuation τ sig (Elt Ideal))

theorem host9_mu :
    (StableHlo.after (hostOps9 (F := Ideal)) V (Proc.devRef .tc main_v163) : Spec.Mat 1 128)
      = fun j => Ideal.div ((V (Proc.devRef .tc main_v161_1) : Spec.Mat 1 128) j) Spec.nNodes := by
  after_results
  rfl

theorem host9_var :
    (StableHlo.after (hostOps9 (F := Ideal)) V (Proc.devRef .tc main_v167) : Spec.Mat 1 128)
      = fun j => Ideal.div ((V (Proc.devRef .tc main_v161_2) : Spec.Mat 1 128) j) Spec.nNodes
          - Ideal.div ((V (Proc.devRef .tc main_v161_1) : Spec.Mat 1 128) j) Spec.nNodes
            * Ideal.div ((V (Proc.devRef .tc main_v161_1) : Spec.Mat 1 128) j) Spec.nNodes := by
  after_results
  rfl

theorem host9_gamma :
    (StableHlo.after (hostOps9 (F := Ideal)) V (Proc.devRef .tc main_v172) : Spec.Mat 1 128)
      = fun j => Spec.sliceV (V (Proc.devRef .tc main_arg8)) (4 : Fin 8) (j 1) := by
  after_results
  exact sliceRow_eq 4

theorem host9_beta :
    (StableHlo.after (hostOps9 (F := Ideal)) V (Proc.devRef .tc main_v173) : Spec.Mat 1 128)
      = fun j => Spec.sliceV (V (Proc.devRef .tc main_arg9)) (4 : Fin 8) (j 1) := by
  after_results
  exact sliceRow_eq 4

end Cert.KernelIdeal.Val

end
-- ==== Proof.KMlp8Pieces.lean ====
import proofs.«407097_j78262894068282_1_alg».proof.Proof.Gen.KernelIdeal.Frame
import proofs.«407097_j78262894068282_1_alg».proof.Proof.KMlpDot
import Idealize.ShloMosaic.Lib.Pipeline.Value
import Idealize.ShloMosaic.Lib.Tactic

noncomputable section

namespace Cert.KernelIdeal.Val

open Idealize.ShloMosaic Idealize.ShloMosaic.TcCoe Idealize.SL.Sem
open Cert.KernelIdeal Cert.KernelIdeal.Gen

variable {F : FTy → Type} [FloatOps F]
variable (c : Dev nD) (i : grid8.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole)
  (x0 x1 : Vec F S10000x128 .f32) (x2 : Vec F S128x128 .f32) (x3 : Vec F S1x128 .f32) (x4 : Vec F S128x128 .f32) (x5 xo7 xo8 : Vec F S1x128 .f32)

-- What one run of the body leaves in its three output blocks: the tile's output, and each accumulator's old block (zero at the first tile) plus the tile's column sums.
theorem mlp8_out_A (hc0 : cond8_0 i) :
    (out8_A_6 c i arg1 harg1 arg2 harg2 arg3 harg3 arg4 harg4 arg5 harg5 arg6 harg6 arg7 harg7 arg8 harg8 arg9 harg9 hc0 x0 x1 x2 x3 x4 x5, out8_A_7 c i arg1 harg1 arg2 harg2 arg3 harg3 arg4 harg4 arg5 harg5 arg6 harg6 arg7 harg7 arg8 harg8 arg9 harg9 hc0 x0 x1 x2 x3 x4 x5, out8_A_8 c i arg1 harg1 arg2 harg2 arg3 harg3 arg4 harg4 arg5 harg5 arg6 harg6 arg7 harg7 arg8 harg8 arg9 harg9 hc0 x0 x1 x2 x3 x4 x5)
      = (k8_pay4 x0 x1 x2 x3 x4 x5, k8_pay5 x0 x1 x2 x3 x4 x5 (k8_pay2 (F := F)), k8_pay1 (k8_pay4 x0 x1 x2 x3 x4 x5) (k8_pay3 (F := F))) := by
  unfold out8_A_6 out8_A_7 out8_A_8
  refine congrArg₂ Prod.mk ?_ (congrArg₂ Prod.mk ?_ ?_)
  on_goal 1 => rw [View.read_writes_eq_canon _ _ _ (cover8_A_6 _ _ _ _ _ _ _ _ _ _ _ _ _ _ _ _ _ _ _ _ _ _ _ _ _ _ _)]
  on_goal 2 => rw [View.read_writes_eq_canon _ _ _ (cover8_A_7 _ _ _ _ _ _ _ _ _ _ _ _ _ _ _ _ _ _ _ _ _ _ _ _ _ _ _)]
  on_goal 3 => rw [View.read_writes_eq_canon _ _ _ (cover8_A_8 _ _ _ _ _ _ _ _ _ _ _ _ _ _ _ _ _ _ _ _ _ _ _ _ _ _ _)]
  all_goals
    unfold kernelRun8_A
    dsimp only
    sl_unfold_words
    first | rw [View.canon_unit_zero mlp_hz] | rw [View.canon_cons_unit_zero (S := S1x128) mlp_hz]
    simp only [View.readAt_eq_ld, harg1.read_unread, harg2.read_unread, harg3.read_unread, harg4.read_unread, harg5.read_unread,
      harg6.read_unread, harg8.read_unread, harg9.read_unread, View.ld_unit_zero (S := S10000x128) mlp_hz,
      View.ld_unit_zero (S := S128x128) mlp_hz, View.ld_unit_zero (S := S1x128) mlp_hz,
      View.readCov_unit_zero (S := S1x128) _ mlp_hz]

theorem mlp8_out_B (hc0 : ¬cond8_0 i) :
    (out8_B_6 c i arg1 harg1 arg2 harg2 arg3 harg3 arg4 harg4 arg5 harg5 arg6 harg6 arg7 harg7 arg8 harg8 arg9 harg9 hc0 x0 x1 x2 x3 x4 x5 xo7 xo8, out8_B_7 c i arg1 harg1 arg2 harg2 arg3 harg3 arg4 harg4 arg5 harg5 arg6 harg6 arg7 harg7 arg8 harg8 arg9 harg9 hc0 x0 x1 x2 x3 x4 x5 xo7 xo8, out8_B_8 c i arg1 harg1 arg2 harg2 arg3 harg3 arg4 harg4 arg5 harg5 arg6 harg6 arg7 harg7 arg8 harg8 arg9 harg9 hc0 x0 x1 x2 x3 x4 x5 xo7 xo8)
      = (k8_pay4 x0 x1 x2 x3 x4 x5, k8_pay5 x0 x1 x2 x3 x4 x5 xo7, k8_pay1 (k8_pay4 x0 x1 x2 x3 x4 x5) xo8) := by
  unfold out8_B_6 out8_B_7 out8_B_8
  refine congrArg₂ Prod.mk ?_ (congrArg₂ Prod.mk ?_ ?_)
  on_goal 1 => rw [View.read_writes_eq_canon _ _ _ (cover8_B_6 _ _ _ _ _ _ _ _ _ _ _ _ _ _ _ _ _ _ _ _ _ _ _ _ _ _ _ _ _)]
  on_goal 2 => rw [View.read_writes_eq_canon _ _ _ (cover8_B_7 _ _ _ _ _ _ _ _ _ _ _ _ _ _ _ _ _ _ _ _ _ _ _ _ _ _ _ _ _)]
  on_goal 3 => rw [View.read_writes_eq_canon _ _ _ (cover8_B_8 _ _ _ _ _ _ _ _ _ _ _ _ _ _ _ _ _ _ _ _ _ _ _ _ _ _ _ _ _)]
  all_goals
    unfold kernelRun8_B
    dsimp only
    sl_unfold_words
    first | rw [View.canon_unit_zero mlp_hz] | rw [View.canon_cons_unit_zero (S := S1x128) mlp_hz]
    simp only [View.readAt_eq_ld, harg1.read_unread, harg2.read_unread, harg3.read_unread, harg4.read_unread, harg5.read_unread,
      harg6.read_unread, harg8.read_unread, harg9.read_unread, View.ld_unit_zero (S := S10000x128) mlp_hz,
      View.ld_unit_zero (S := S128x128) mlp_hz, View.ld_unit_zero (S := S1x128) mlp_hz,
      View.readCov_unit_zero (S := S1x128) _ mlp_hz]

end Cert.KernelIdeal.Val

end
-- ==== Proof.KMlp8.lean ====
import proofs.«407097_j78262894068282_1_alg».proof.Proof.KMlpRun
import proofs.«407097_j78262894068282_1_alg».proof.Proof.KMlp8Pieces

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

-- The perceptron's output of the whole arrays found on entry.
abbrev mlp8_z (c : Dev nD) : Spec.Mat 50000 128 :=
  Spec.zOf (V c (Pipeline.arrRef spec8 0)) (V c (Pipeline.arrRef spec8 1)) (V c (Pipeline.arrRef spec8 2))
    (fun d => (V c (Pipeline.arrRef spec8 3) : Spec.Mat 1 128) (ix2 (0 : Fin 1) d)) (V c (Pipeline.arrRef spec8 4))
    (fun d => (V c (Pipeline.arrRef spec8 5) : Spec.Mat 1 128) (ix2 (0 : Fin 1) d))

-- The payloads of the body's three stores are the tile perceptron and two accumulator steps, the casts of a block to its own shape dropped.
theorem mlp8_pay4_eq (h a : Vec Ideal S10000x128 .f32) (W1 : Vec Ideal S128x128 .f32) (b1 : Vec Ideal S1x128 .f32) (W2 : Vec Ideal S128x128 .f32) (b2 : Vec Ideal S1x128 .f32) :
    k8_pay4 (F := Ideal) h a W1 b1 W2 b2 = mlpTile Gen.broadcasts_S1x128_S10000x128 h a W1 b1 W2 b2 := by
  unfold k8_pay4 mlpTile mlpPre
  simp only [shapeCast_self]
theorem mlp8_pay5_eq (h a : Vec Ideal S10000x128 .f32) (W1 : Vec Ideal S128x128 .f32) (b1 : Vec Ideal S1x128 .f32) (W2 : Vec Ideal S128x128 .f32) (b2 prev : Vec Ideal S1x128 .f32) :
    k8_pay5 (F := Ideal) h a W1 b1 W2 b2 prev = mlpAdd (k8_pay4 h a W1 b1 W2 b2) prev := by
  unfold k8_pay5 mlpAdd
  simp only [shapeCast_self]
theorem mlp8_pay1_eq (z : Vec Ideal S10000x128 .f32) (prev : Vec Ideal S1x128 .f32) : k8_pay1 (F := Ideal) z prev = mlpAdd (mulf z z) prev := by
  unfold k8_pay1 mlpAdd
  simp only [shapeCast_self]

-- The windows' block indices: the row-tiled arrays sit at block `(t, 0)`, the others at `(0, 0)`.
theorem mlp8_idxR : ∀ t : Fin cfg8.N, (win8_0.index t (0 : Fin 2) = t.val ∧ win8_0.index t (1 : Fin 2) = 0)
    ∧ (win8_1.index t (0 : Fin 2) = t.val ∧ win8_1.index t (1 : Fin 2) = 0) ∧ win8_6.index t (0 : Fin 2) = t.val ∧ win8_6.index t (1 : Fin 2) = 0 :=
  (by decide +kernel : ∀ t : Fin grid8.N, _)
theorem mlp8_idxW : ∀ (t : Fin cfg8.N) (a : Fin 2), win8_2.index t a = 0 ∧ win8_3.index t a = 0 ∧ win8_4.index t a = 0 ∧ win8_5.index t a = 0
    ∧ win8_7.index t a = 0 ∧ win8_8.index t a = 0 :=
  (by decide +kernel : ∀ (t : Fin grid8.N) (a : Fin 2), _)

-- Reading an array through tile `t`'s block: rows `10000 t ..` of a row-tiled array, all of any other.
theorem mlp8_rd0 (t : Fin cfg8.N) (G : Spec.Mat 50000 128) :
    ((cfg8.win 0).blk t).view.read (Elt Ideal) G = fun j => G (ix2 (mlpRow N_8 t (j 0)) (j 1)) := by
  funext y
  rw [View.read_apply]
  show G _ = G _
  refine congrArg G (funext fun a => Fin.ext ?_)
  match a with
  | ⟨0, _⟩ => show win8_0.index t 0 * 10000 + 1 * (y 0).val = 10000 * t.val + (y 0).val; rw [(mlp8_idxR t).1.1]; omega
  | ⟨1, _⟩ => show win8_0.index t 1 * 128 + 1 * (y 1).val = (y 1).val; rw [(mlp8_idxR t).1.2]; omega
theorem mlp8_rd1 (t : Fin cfg8.N) (G : Spec.Mat 50000 128) :
    ((cfg8.win 1).blk t).view.read (Elt Ideal) G = fun j => G (ix2 (mlpRow N_8 t (j 0)) (j 1)) := by
  funext y
  rw [View.read_apply]
  show G _ = G _
  refine congrArg G (funext fun a => Fin.ext ?_)
  match a with
  | ⟨0, _⟩ => show win8_1.index t 0 * 10000 + 1 * (y 0).val = 10000 * t.val + (y 0).val; rw [(mlp8_idxR t).2.1.1]; omega
  | ⟨1, _⟩ => show win8_1.index t 1 * 128 + 1 * (y 1).val = (y 1).val; rw [(mlp8_idxR t).2.1.2]; omega
theorem mlp8_rd6 (t : Fin cfg8.N) (G : Spec.Mat 50000 128) :
    ((cfg8.win 6).blk t).view.read (Elt Ideal) G = fun j => G (ix2 (mlpRow N_8 t (j 0)) (j 1)) := by
  funext y
  rw [View.read_apply]
  show G _ = G _
  refine congrArg G (funext fun a => Fin.ext ?_)
  match a with
  | ⟨0, _⟩ => show win8_6.index t 0 * 10000 + 1 * (y 0).val = 10000 * t.val + (y 0).val; rw [(mlp8_idxR t).2.2.1]; omega
  | ⟨1, _⟩ => show win8_6.index t 1 * 128 + 1 * (y 1).val = (y 1).val; rw [(mlp8_idxR t).2.2.2]; omega
theorem mlp8_rd2 (t : Fin cfg8.N) (G : Spec.Mat 128 128) : ((cfg8.win 2).blk t).view.read (Elt Ideal) G = G := by
  funext y
  rw [View.read_apply]
  show G _ = G y
  exact congrArg G (funext fun a => Fin.ext (win8_2.rect_emb_val_of_index_zero t a (mlp8_idxW t a).1 y))
theorem mlp8_rd3 (t : Fin cfg8.N) (G : Spec.Mat 1 128) : ((cfg8.win 3).blk t).view.read (Elt Ideal) G = G := by
  funext y
  rw [View.read_apply]
  show G _ = G y
  exact congrArg G (funext fun a => Fin.ext (win8_3.rect_emb_val_of_index_zero t a (mlp8_idxW t a).2.1 y))
theorem mlp8_rd4 (t : Fin cfg8.N) (G : Spec.Mat 128 128) : ((cfg8.win 4).blk t).view.read (Elt Ideal) G = G := by
  funext y
  rw [View.read_apply]
  show G _ = G y
  exact congrArg G (funext fun a => Fin.ext (win8_4.rect_emb_val_of_index_zero t a (mlp8_idxW t a).2.2.1 y))
theorem mlp8_rd5 (t : Fin cfg8.N) (G : Spec.Mat 1 128) : ((cfg8.win 5).blk t).view.read (Elt Ideal) G = G := by
  funext y
  rw [View.read_apply]
  show G _ = G y
  exact congrArg G (funext fun a => Fin.ext (win8_5.rect_emb_val_of_index_zero t a (mlp8_idxW t a).2.2.2.1 y))
theorem mlp8_rd7 (t : Fin cfg8.N) (G : Spec.Mat 1 128) : ((cfg8.win 7).blk t).view.read (Elt Ideal) G = G := by
  funext y
  rw [View.read_apply]
  show G _ = G y
  exact congrArg G (funext fun a => Fin.ext (win8_7.rect_emb_val_of_index_zero t a (mlp8_idxW t a).2.2.2.2.1 y))
theorem mlp8_rd8 (t : Fin cfg8.N) (G : Spec.Mat 1 128) : ((cfg8.win 8).blk t).view.read (Elt Ideal) G = G := by
  funext y
  rw [View.read_apply]
  show G _ = G y
  exact congrArg G (funext fun a => Fin.ext (win8_8.rect_emb_val_of_index_zero t a (mlp8_idxW t a).2.2.2.2.2 y))

-- What the run's tiles leave: the general statement at this region's blocks and stores.
theorem mlp8_run (c : Dev nD) : MlpOuts N_8 (mlp8_z V c) (outsAt8 V c) :=
  mlp_run N_8 (x0 := iblk8 V c 0) (x1 := iblk8 V c 1) (x2 := iblk8 V c 2) (x3 := iblk8 V c 3) (x4 := iblk8 V c 4) (x5 := iblk8 V c 5)
    (T := fun t => k8_pay4 (iblk8 V c 0 t) (iblk8 V c 1 t) (iblk8 V c 2 t) (iblk8 V c 3 t) (iblk8 V c 4 t) (iblk8 V c 5 t))
    (Z7 := k8_pay2 (F := Ideal)) (Z8 := k8_pay3 (F := Ideal)) (fun t => mlp8_pay4_eq ..)
    (fun t p k => congrFun (mlp8_rd0 t _) (ix2 p k)) (fun t p k => congrFun (mlp8_rd1 t _) (ix2 p k))
    (fun t => mlp8_rd2 t _) (fun t => mlp8_rd3 t _) (fun t => mlp8_rd4 t _) (fun t => mlp8_rd5 t _) (fun _ => rfl) (fun _ => rfl)
    (fun t h0 => ((outsAt8_A V c t h0).trans (mlp8_out_A ..)).trans (by rw [mlp8_pay5_eq, mlp8_pay1_eq]))
    (fun t h0 => ((outsAt8_B V c t h0).trans (mlp8_out_B ..)).trans (by rw [mlp8_pay5_eq, mlp8_pay1_eq]))

-- Row `r` lies in the block of tile `r / 10000`; the last tile's block is the whole of an accumulator's array.
theorem mlp8_cover6 (i : S50000x128.Idx) : ∃ t : Fin cfg8.N, (cfg8.win 6).flush t = true ∧ i ∈ ((cfg8.win 6).blk t).view.set := by
  have hN : cfg8.N = 5 := N_8
  have hi0 : (i 0).val < 50000 := (i 0).isLt
  have hi1 : (i 1).val < 128 := (i 1).isLt
  have hm : ∀ t : Fin cfg8.N, t.val = (i 0).val / 10000 → i ∈ ((cfg8.win 6).blk t).view.set := fun t ht => by
    show i ∈ ((View.whole (Pipeline.arrRef spec8 6)).slice (win8_6.rect t)).set
    rw [View.set_slice_whole, Rect.mem_set_unit]
    intro a
    match a with
    | ⟨0, _⟩ =>
      show win8_6.index t 0 * 10000 ≤ (i 0).val ∧ (i 0).val < win8_6.index t 0 * 10000 + 10000
      rw [(mlp8_idxR t).2.2.1]; omega
    | ⟨1, _⟩ =>
      show win8_6.index t 1 * 128 ≤ (i 1).val ∧ (i 1).val < win8_6.index t 1 * 128 + 128
      rw [(mlp8_idxR t).2.2.2]; omega
  exact ⟨⟨(i 0).val / 10000, by omega⟩, flush8_6 _, hm _ rfl⟩
theorem mlp8_cover7 (i : S1x128.Idx) : ∃ t : Fin cfg8.N, (cfg8.win 7).flush t = true ∧ i ∈ ((cfg8.win 7).blk t).view.set := by
  have hN : cfg8.N = 5 := N_8
  have hm : ∀ t : Fin cfg8.N, i ∈ ((cfg8.win 7).blk t).view.set := fun t => by
    show i ∈ ((View.whole (Pipeline.arrRef spec8 7)).slice (win8_7.rect t)).set
    rw [View.set_slice_whole, Rect.mem_set_unit]
    intro a
    show win8_7.index t a * S1x128.size a ≤ (i a).val ∧ (i a).val < win8_7.index t a * S1x128.size a + S1x128.size a
    rw [(mlp8_idxW t a).2.2.2.2.1, Nat.zero_mul, Nat.zero_add]
    exact ⟨Nat.zero_le _, (i a).isLt⟩
  exact ⟨⟨4, by omega⟩, (flush8_7 _).mpr rfl, hm _⟩
theorem mlp8_cover8 (i : S1x128.Idx) : ∃ t : Fin cfg8.N, (cfg8.win 8).flush t = true ∧ i ∈ ((cfg8.win 8).blk t).view.set := by
  have hN : cfg8.N = 5 := N_8
  have hm : ∀ t : Fin cfg8.N, i ∈ ((cfg8.win 8).blk t).view.set := fun t => by
    show i ∈ ((View.whole (Pipeline.arrRef spec8 8)).slice (win8_8.rect t)).set
    rw [View.set_slice_whole, Rect.mem_set_unit]
    intro a
    show win8_8.index t a * S1x128.size a ≤ (i a).val ∧ (i a).val < win8_8.index t a * S1x128.size a + S1x128.size a
    rw [(mlp8_idxW t a).2.2.2.2.2, Nat.zero_mul, Nat.zero_add]
    exact ⟨Nat.zero_le _, (i a).isLt⟩
  exact ⟨⟨4, by omega⟩, (flush8_8 _).mpr rfl, hm _⟩
-- The three arrays the kernel leaves: each tile writes back its rows of `z`, the last tile the two accumulators.
theorem mlp8_arr6 (c : Dev nD) : (dat8 V c).arrAt 6 cfg8.N = mlp8_z V c :=
  (dat8 V c).arrAt_eq_of_cover 6 _ (fun t _ => by
    show (cfg8.win 6).cut (grid8.coords t) ((dat8 V c).after 6 t) = _
    rw [after8_6, (mlp8_run V c).tile t]
    exact (mlp8_rd6 t _).symm) mlp8_cover6
theorem mlp8_arr7 (c : Dev nD) :
    (dat8 V c).arrAt 7 cfg8.N = fun j : S1x128.Idx => Spec.zero32 + Spec.colSum (mlp8_z V c) (j 1) :=
  (dat8 V c).arrAt_eq_of_cover 7 _ (fun t hf => by
    have hN : cfg8.N = 5 := N_8
    have h4 : t.val = 4 := by have := (flush8_7 t).mp hf; have := t.isLt; omega
    show (cfg8.win 7).cut (grid8.coords t) ((dat8 V c).after 7 t) = _
    rw [after8_7, (mlp8_run V c).sum t h4]
    exact (mlp8_rd7 t _).symm) mlp8_cover7
theorem mlp8_arr8 (c : Dev nD) :
    (dat8 V c).arrAt 8 cfg8.N = fun j : S1x128.Idx => Spec.zero32 + Spec.colSumSq (mlp8_z V c) (j 1) :=
  (dat8 V c).arrAt_eq_of_cover 8 _ (fun t hf => by
    have hN : cfg8.N = 5 := N_8
    have h4 : t.val = 4 := by have := (flush8_8 t).mp hf; have := t.isLt; omega
    show (cfg8.win 8).cut (grid8.coords t) ((dat8 V c).after 8 t) = _
    rw [after8_8, (mlp8_run V c).sq t h4]
    exact (mlp8_rd8 t _).symm) mlp8_cover8

end Cert.KernelIdeal.Val

end
-- ==== Proof.KBn9.lean ====
import proofs.«407097_j78262894068282_1_alg».proof.Proof.Gen.KernelIdeal.Frame
import proofs.«407097_j78262894068282_1_alg».proof.Proof.KBnMath

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

theorem idx_bn9 : ∀ t : Fin cfg9.N,
    (∀ a : Fin 2, win9_0.index t a = win9_5.index t a) ∧ win9_5.index t (0 : Fin 2) = t.val ∧ win9_5.index t (1 : Fin 2) = 0
    ∧ ∀ a : Fin 2, win9_1.index t a = 0 ∧ win9_2.index t a = 0 ∧ win9_3.index t a = 0 ∧ win9_4.index t a = 0 :=
  (by decide +kernel : ∀ t : Fin grid9.N, _)

variable (V : (c : Dev nD) → (b : Ref sig .tc) → Buf (Elt Ideal) ((c : Thread nD τ).loc b))

-- The z tile and the output block cover the same rows of their arrays, and each row vector is read whole.
theorem entry_bn9 (c : Dev nD) (t : Fin cfg9.N) (y : S10000x128.Idx) :
    Gen.k9_pay1 (Gen.iblk9 V c 0 t) (Gen.iblk9 V c 1 t) (Gen.iblk9 V c 2 t) (Gen.iblk9 V c 3 t) (Gen.iblk9 V c 4 t) y
      = bnActOf (V c (Pipeline.arrRef spec9 0)) (V c (Pipeline.arrRef spec9 1)) (V c (Pipeline.arrRef spec9 2))
          (V c (Pipeline.arrRef spec9 3)) (V c (Pipeline.arrRef spec9 4)) (((cfg9.win 5).blk t).view.emb y) := by
  obtain ⟨h05, -, h51, h⟩ := idx_bn9 t
  refine bnAct_entry (Fin.ext (win9_5.rect_emb_val_of_index_zero t (1 : Fin 2) h51 y).symm)
    (read_blk_bn (win9_0.rect t).emb (fun _ => rfl) y _ fun a => ?_)
    (fun r => read_blk_bn (win9_1.rect t).emb (fun _ => rfl) r r fun a => win9_1.rect_emb_val_of_index_zero t a (h a).1 r)
    (fun r => read_blk_bn (win9_2.rect t).emb (fun _ => rfl) r r fun a => win9_2.rect_emb_val_of_index_zero t a (h a).2.1 r)
    (fun r => read_blk_bn (win9_3.rect t).emb (fun _ => rfl) r r fun a => win9_3.rect_emb_val_of_index_zero t a (h a).2.2.1 r)
    (fun r => read_blk_bn (win9_4.rect t).emb (fun _ => rfl) r r fun a => win9_4.rect_emb_val_of_index_zero t a (h a).2.2.2 r)
  have e := win9_0.rect_emb_val t y a
  rw [h05 a] at e
  exact e.trans (win9_5.rect_emb_val t y a).symm

-- Row r of the output array lies in the block of point r / 10000.
theorem cover_bn9 (i : S50000x128.Idx) : ∃ t : Fin cfg9.N, (cfg9.win 5).flush t = true ∧ i ∈ ((cfg9.win 5).blk t).view.set := by
  have ht : (i 0).val / 10000 < cfg9.N := by rw [show cfg9.N = 5 from Gen.N_9]; have := idx2_lt0 i; omega
  obtain ⟨-, h50, h51, -⟩ := idx_bn9 ⟨_, ht⟩
  refine ⟨⟨_, ht⟩, Gen.flush9_5 _, ?_⟩
  show i ∈ ((View.whole (Pipeline.arrRef spec9 5)).slice (win9_5.rect ⟨_, ht⟩)).set
  rw [View.set_slice_whole, Rect.mem_set_unit]
  exact tile_bounds_bn (win9_5.index _) i h50 h51

theorem out_bn9 (c : Dev nD) : (Gen.dat9 V c).arrAt 5 cfg9.N =
    Spec.act (Spec.bn (V c (Pipeline.arrRef spec9 0))
      (fun d => (V c (Pipeline.arrRef spec9 1) : Spec.Mat 1 128) (ix2 0 d))
      (fun d => (V c (Pipeline.arrRef spec9 2) : Spec.Mat 1 128) (ix2 0 d))
      (fun d => (V c (Pipeline.arrRef spec9 3) : Spec.Mat 1 128) (ix2 0 d))
      (fun d => (V c (Pipeline.arrRef spec9 4) : Spec.Mat 1 128) (ix2 0 d))) := by
  refine (Gen.dat9 V c).arrAt_eq_of_cover 5 _ (fun t _ => ?_) cover_bn9
  show (cfg9.win 5).cut (grid9.coords t) ((Gen.dat9 V c).after 5 t) = _
  rw [Gen.after9_5]
  unfold Gen.out9_5
  rw [View.canon_unit_zero hz_bn]
  simp only [View.ld_unit_zero (S := S10000x128) hz_bn, View.ld_unit_zero (S := S1x128) hz_bn]
  funext j
  rw [View.read_apply]
  exact entry_bn9 V c t j

end Cert.KernelIdeal.Val

end
-- ==== Proof.KLayer4.lean ====
import proofs.«407097_j78262894068282_1_alg».proof.Proof.KFrame4
import proofs.«407097_j78262894068282_1_alg».proof.Proof.KHost8
import proofs.«407097_j78262894068282_1_alg».proof.Proof.KHost9
import proofs.«407097_j78262894068282_1_alg».proof.Proof.KMlp8
import proofs.«407097_j78262894068282_1_alg».proof.Proof.KBn9

set_option maxRecDepth 16384

noncomputable section

namespace Cert.KernelIdeal.Val

open Cert.KernelIdeal Cert.KernelIdeal.Gen
open Idealize.ShloMosaic Idealize.ShloMosaic.TcCoe Idealize.ShloMosaic.ValueIdx
open Cert

variable (m : (ℓ : Loc nD τ sig) → Buf (Elt Ideal) ℓ) (ρ : Dev nD → PrngReg)

-- Layer 4: the carried buffers stay carried, and the output buffer holds the layer applied to the input buffer.
theorem layer4 (c : Dev nD) (hC : Carried m c (Gen.W16 m ρ c)) :
    Carried m c (Gen.W20 m ρ c)
      ∧ Gen.W20 m ρ c (Proc.devRef .tc main_v174) = Spec.stepMS (inputs m c) 4 (Gen.W16 m ρ c (Proc.devRef .tc main_v140)) :=
  have hCc : Carried m c (Gen.W18 m ρ c) := (hC.of_frame m (W17_of m ρ c)).of_frame m (Gen.W18_of_ne m ρ c)
  ⟨(hCc.of_frame m (W19_of m ρ c)).of_frame m (Gen.W20_of_ne m ρ c),
   layer_of_segments m c 4 true rfl hC.args hCc.args (congrArg srcBOf hC.v1) (congrArg dstBOf hC.v3)
    (W17_of m ρ c main_v140 (by decide)) (host8_agg _) (host8_W1 _) (host8_W2 _) (host8_b1 _) (host8_b2 _)
    ((Gen.W18_arr m ρ c 6).trans (mlp8_arr6 _ c)) ((Gen.W18_arr m ρ c 7).trans (mlp8_arr7 _ c))
    ((Gen.W18_arr m ρ c 8).trans (mlp8_arr8 _ c))
    (host9_mu _) (host9_var _) (host9_gamma _) (host9_beta _) (W19_of m ρ c main_v161_0 (by decide))
    ((Gen.W20_arr m ρ c 5).trans (out_bn9 _ c))⟩

end Cert.KernelIdeal.Val

end
-- ==== Proof.KFrame5.lean ====
import proofs.«407097_j78262894068282_1_alg».proof.Proof.Gen.KernelIdeal.Frame
import proofs.«407097_j78262894068282_1_alg».proof.Proof.KFrameBase

set_option maxRecDepth 16384

noncomputable section

namespace Cert.KernelIdeal.Val

open Cert.KernelIdeal Cert.KernelIdeal.Gen
open Idealize.ShloMosaic Idealize.ShloMosaic.TcCoe

variable (m : (ℓ : Loc nD τ sig) → Buf (Elt Ideal) ℓ) (ρ : Dev nD → PrngReg)

abbrev hostW10 : List (Ref sig .tc) := [main_c_23, main_v175, main_v176, main_c_24, main_v177, main_v178, main_v179, main_v180, main_v181, main_cst_25, main_v182, main_v183, main_v184, main_v185, main_v186, main_v187, main_v188, main_v189, main_v190, main_v191, main_v192, main_v193, main_v194]
-- A buffer outside this list, which holds every buffer the host stretch writes, keeps its contents.
theorem W21_of (c : Dev nD) (r : Ref sig .tc) (h : r ∉ hostW10) :
    Gen.W21 m ρ c (Proc.devRef .tc r) = Gen.W20 m ρ c (Proc.devRef .tc r) :=
  StableHlo.after_of_writes_sub hostOps10 _ (by
    simp only [hostOps10, List.Forall]
    repeat' apply And.intro
    all_goals exact Finset.singleton_subset_iff.mpr (List.mem_toFinset.mpr (List.mem_map_of_mem (by decide)))) h

abbrev hostW11 : List (Ref sig .tc) := [main_cst_26, main_v196, main_v197, main_cst_27, main_v198, main_v199, main_v200, main_v201, main_v202, main_v203, main_v204, main_v205, main_v206, main_v207]
-- A buffer outside this list, which holds every buffer the host stretch writes, keeps its contents.
theorem W23_of (c : Dev nD) (r : Ref sig .tc) (h : r ∉ hostW11) :
    Gen.W23 m ρ c (Proc.devRef .tc r) = Gen.W22 m ρ c (Proc.devRef .tc r) :=
  StableHlo.after_of_writes_sub hostOps11 _ (by
    simp only [hostOps11, List.Forall]
    repeat' apply And.intro
    all_goals exact Finset.singleton_subset_iff.mpr (List.mem_toFinset.mpr (List.mem_map_of_mem (by decide)))) h

end Cert.KernelIdeal.Val

end
-- ==== Proof.KHost10.lean ====
import Idealize.ShloMosaic.Lib.StableHlo.Run
import proofs.«407097_j78262894068282_1_alg».proof.Proof.Gen.KernelIdeal.Launch
import proofs.«407097_j78262894068282_1_alg».proof.Proof.KHostDefs
import proofs.«407097_j78262894068282_1_alg».proof.Proof.KHostLib

set_option maxRecDepth 16384

noncomputable section

namespace Cert.KernelIdeal.Val

open Gen Idealize.ShloMosaic

variable (V : Valuation τ sig (Elt Ideal))

theorem host10_agg :
    (StableHlo.after (hostOps10 (F := Ideal)) V (Proc.devRef .tc main_v184) : Spec.Mat 50000 128)
      = Spec.aggOf (V (Proc.devRef .tc main_v174)) (srcBOf (V (Proc.devRef .tc main_v1))) (dstBOf (V (Proc.devRef .tc main_v3))) := by
  after_results_simp
  exact agg_eq

theorem host10_W1 :
    (StableHlo.after (hostOps10 (F := Ideal)) V (Proc.devRef .tc main_v186) : Spec.Mat 128 128)
      = Spec.sliceM (V (Proc.devRef .tc main_arg4)) (5 : Fin 8) := by
  after_results
  exact sliceM_eq 5

theorem host10_b1 :
    (StableHlo.after (hostOps10 (F := Ideal)) V (Proc.devRef .tc main_v193) : Spec.Mat 1 128)
      = fun j => Spec.sliceV (V (Proc.devRef .tc main_arg5)) (5 : Fin 8) (j 1) := by
  after_results
  exact sliceRow_eq 5

theorem host10_W2 :
    (StableHlo.after (hostOps10 (F := Ideal)) V (Proc.devRef .tc main_v190) : Spec.Mat 128 128)
      = Spec.sliceM (V (Proc.devRef .tc main_arg6)) (5 : Fin 8) := by
  after_results
  exact sliceM_eq 5

theorem host10_b2 :
    (StableHlo.after (hostOps10 (F := Ideal)) V (Proc.devRef .tc main_v194) : Spec.Mat 1 128)
      = fun j => Spec.sliceV (V (Proc.devRef .tc main_arg7)) (5 : Fin 8) (j 1) := by
  after_results
  exact sliceRow_eq 5

end Cert.KernelIdeal.Val

end
-- ==== Proof.KHost11.lean ====
import Idealize.ShloMosaic.Lib.StableHlo.Run
import proofs.«407097_j78262894068282_1_alg».proof.Proof.Gen.KernelIdeal.Launch
import proofs.«407097_j78262894068282_1_alg».proof.Proof.KHostLib

set_option maxRecDepth 16384

noncomputable section

namespace Cert.KernelIdeal.Val

open Gen Idealize.ShloMosaic

variable (V : Valuation τ sig (Elt Ideal))

theorem host11_mu :
    (StableHlo.after (hostOps11 (F := Ideal)) V (Proc.devRef .tc main_v197) : Spec.Mat 1 128)
      = fun j => Ideal.div ((V (Proc.devRef .tc main_v195_1) : Spec.Mat 1 128) j) Spec.nNodes := by
  after_results
  rfl

theorem host11_var :
    (StableHlo.after (hostOps11 (F := Ideal)) V (Proc.devRef .tc main_v201) : Spec.Mat 1 128)
      = fun j => Ideal.div ((V (Proc.devRef .tc main_v195_2) : Spec.Mat 1 128) j) Spec.nNodes
          - Ideal.div ((V (Proc.devRef .tc main_v195_1) : Spec.Mat 1 128) j) Spec.nNodes
            * Ideal.div ((V (Proc.devRef .tc main_v195_1) : Spec.Mat 1 128) j) Spec.nNodes := by
  after_results
  rfl

theorem host11_gamma :
    (StableHlo.after (hostOps11 (F := Ideal)) V (Proc.devRef .tc main_v206) : Spec.Mat 1 128)
      = fun j => Spec.sliceV (V (Proc.devRef .tc main_arg8)) (5 : Fin 8) (j 1) := by
  after_results
  exact sliceRow_eq 5

theorem host11_beta :
    (StableHlo.after (hostOps11 (F := Ideal)) V (Proc.devRef .tc main_v207) : Spec.Mat 1 128)
      = fun j => Spec.sliceV (V (Proc.devRef .tc main_arg9)) (5 : Fin 8) (j 1) := by
  after_results
  exact sliceRow_eq 5

end Cert.KernelIdeal.Val

end
-- ==== Proof.KMlp10Pieces.lean ====
import proofs.«407097_j78262894068282_1_alg».proof.Proof.Gen.KernelIdeal.Frame
import proofs.«407097_j78262894068282_1_alg».proof.Proof.KMlpDot
import Idealize.ShloMosaic.Lib.Pipeline.Value
import Idealize.ShloMosaic.Lib.Tactic

noncomputable section

namespace Cert.KernelIdeal.Val

open Idealize.ShloMosaic Idealize.ShloMosaic.TcCoe Idealize.SL.Sem
open Cert.KernelIdeal Cert.KernelIdeal.Gen

variable {F : FTy → Type} [FloatOps F]
variable (c : Dev nD) (i : grid10.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole)
  (x0 x1 : Vec F S10000x128 .f32) (x2 : Vec F S128x128 .f32) (x3 : Vec F S1x128 .f32) (x4 : Vec F S128x128 .f32) (x5 xo7 xo8 : Vec F S1x128 .f32)

-- What one run of the body leaves in its three output blocks: the tile's output, and each accumulator's old block (zero at the first tile) plus the tile's column sums.
theorem mlp10_out_A (hc0 : cond10_0 i) :
    (out10_A_6 c i arg1 harg1 arg2 harg2 arg3 harg3 arg4 harg4 arg5 harg5 arg6 harg6 arg7 harg7 arg8 harg8 arg9 harg9 hc0 x0 x1 x2 x3 x4 x5, out10_A_7 c i arg1 harg1 arg2 harg2 arg3 harg3 arg4 harg4 arg5 harg5 arg6 harg6 arg7 harg7 arg8 harg8 arg9 harg9 hc0 x0 x1 x2 x3 x4 x5, out10_A_8 c i arg1 harg1 arg2 harg2 arg3 harg3 arg4 harg4 arg5 harg5 arg6 harg6 arg7 harg7 arg8 harg8 arg9 harg9 hc0 x0 x1 x2 x3 x4 x5)
      = (k10_pay4 x0 x1 x2 x3 x4 x5, k10_pay5 x0 x1 x2 x3 x4 x5 (k10_pay2 (F := F)), k10_pay1 (k10_pay4 x0 x1 x2 x3 x4 x5) (k10_pay3 (F := F))) := by
  unfold out10_A_6 out10_A_7 out10_A_8
  refine congrArg₂ Prod.mk ?_ (congrArg₂ Prod.mk ?_ ?_)
  on_goal 1 => rw [View.read_writes_eq_canon _ _ _ (cover10_A_6 _ _ _ _ _ _ _ _ _ _ _ _ _ _ _ _ _ _ _ _ _ _ _ _ _ _ _)]
  on_goal 2 => rw [View.read_writes_eq_canon _ _ _ (cover10_A_7 _ _ _ _ _ _ _ _ _ _ _ _ _ _ _ _ _ _ _ _ _ _ _ _ _ _ _)]
  on_goal 3 => rw [View.read_writes_eq_canon _ _ _ (cover10_A_8 _ _ _ _ _ _ _ _ _ _ _ _ _ _ _ _ _ _ _ _ _ _ _ _ _ _ _)]
  all_goals
    unfold kernelRun10_A
    dsimp only
    sl_unfold_words
    first | rw [View.canon_unit_zero mlp_hz] | rw [View.canon_cons_unit_zero (S := S1x128) mlp_hz]
    simp only [View.readAt_eq_ld, harg1.read_unread, harg2.read_unread, harg3.read_unread, harg4.read_unread, harg5.read_unread,
      harg6.read_unread, harg8.read_unread, harg9.read_unread, View.ld_unit_zero (S := S10000x128) mlp_hz,
      View.ld_unit_zero (S := S128x128) mlp_hz, View.ld_unit_zero (S := S1x128) mlp_hz,
      View.readCov_unit_zero (S := S1x128) _ mlp_hz]

theorem mlp10_out_B (hc0 : ¬cond10_0 i) :
    (out10_B_6 c i arg1 harg1 arg2 harg2 arg3 harg3 arg4 harg4 arg5 harg5 arg6 harg6 arg7 harg7 arg8 harg8 arg9 harg9 hc0 x0 x1 x2 x3 x4 x5 xo7 xo8, out10_B_7 c i arg1 harg1 arg2 harg2 arg3 harg3 arg4 harg4 arg5 harg5 arg6 harg6 arg7 harg7 arg8 harg8 arg9 harg9 hc0 x0 x1 x2 x3 x4 x5 xo7 xo8, out10_B_8 c i arg1 harg1 arg2 harg2 arg3 harg3 arg4 harg4 arg5 harg5 arg6 harg6 arg7 harg7 arg8 harg8 arg9 harg9 hc0 x0 x1 x2 x3 x4 x5 xo7 xo8)
      = (k10_pay4 x0 x1 x2 x3 x4 x5, k10_pay5 x0 x1 x2 x3 x4 x5 xo7, k10_pay1 (k10_pay4 x0 x1 x2 x3 x4 x5) xo8) := by
  unfold out10_B_6 out10_B_7 out10_B_8
  refine congrArg₂ Prod.mk ?_ (congrArg₂ Prod.mk ?_ ?_)
  on_goal 1 => rw [View.read_writes_eq_canon _ _ _ (cover10_B_6 _ _ _ _ _ _ _ _ _ _ _ _ _ _ _ _ _ _ _ _ _ _ _ _ _ _ _ _ _)]
  on_goal 2 => rw [View.read_writes_eq_canon _ _ _ (cover10_B_7 _ _ _ _ _ _ _ _ _ _ _ _ _ _ _ _ _ _ _ _ _ _ _ _ _ _ _ _ _)]
  on_goal 3 => rw [View.read_writes_eq_canon _ _ _ (cover10_B_8 _ _ _ _ _ _ _ _ _ _ _ _ _ _ _ _ _ _ _ _ _ _ _ _ _ _ _ _ _)]
  all_goals
    unfold kernelRun10_B
    dsimp only
    sl_unfold_words
    first | rw [View.canon_unit_zero mlp_hz] | rw [View.canon_cons_unit_zero (S := S1x128) mlp_hz]
    simp only [View.readAt_eq_ld, harg1.read_unread, harg2.read_unread, harg3.read_unread, harg4.read_unread, harg5.read_unread,
      harg6.read_unread, harg8.read_unread, harg9.read_unread, View.ld_unit_zero (S := S10000x128) mlp_hz,
      View.ld_unit_zero (S := S128x128) mlp_hz, View.ld_unit_zero (S := S1x128) mlp_hz,
      View.readCov_unit_zero (S := S1x128) _ mlp_hz]

end Cert.KernelIdeal.Val

end
-- ==== Proof.KMlp10.lean ====
import proofs.«407097_j78262894068282_1_alg».proof.Proof.KMlpRun
import proofs.«407097_j78262894068282_1_alg».proof.Proof.KMlp10Pieces

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

-- The perceptron's output of the whole arrays found on entry.
abbrev mlp10_z (c : Dev nD) : Spec.Mat 50000 128 :=
  Spec.zOf (V c (Pipeline.arrRef spec10 0)) (V c (Pipeline.arrRef spec10 1)) (V c (Pipeline.arrRef spec10 2))
    (fun d => (V c (Pipeline.arrRef spec10 3) : Spec.Mat 1 128) (ix2 (0 : Fin 1) d)) (V c (Pipeline.arrRef spec10 4))
    (fun d => (V c (Pipeline.arrRef spec10 5) : Spec.Mat 1 128) (ix2 (0 : Fin 1) d))

-- The payloads of the body's three stores are the tile perceptron and two accumulator steps, the casts of a block to its own shape dropped.
theorem mlp10_pay4_eq (h a : Vec Ideal S10000x128 .f32) (W1 : Vec Ideal S128x128 .f32) (b1 : Vec Ideal S1x128 .f32) (W2 : Vec Ideal S128x128 .f32) (b2 : Vec Ideal S1x128 .f32) :
    k10_pay4 (F := Ideal) h a W1 b1 W2 b2 = mlpTile Gen.broadcasts_S1x128_S10000x128 h a W1 b1 W2 b2 := by
  unfold k10_pay4 mlpTile mlpPre
  simp only [shapeCast_self]
theorem mlp10_pay5_eq (h a : Vec Ideal S10000x128 .f32) (W1 : Vec Ideal S128x128 .f32) (b1 : Vec Ideal S1x128 .f32) (W2 : Vec Ideal S128x128 .f32) (b2 prev : Vec Ideal S1x128 .f32) :
    k10_pay5 (F := Ideal) h a W1 b1 W2 b2 prev = mlpAdd (k10_pay4 h a W1 b1 W2 b2) prev := by
  unfold k10_pay5 mlpAdd
  simp only [shapeCast_self]
theorem mlp10_pay1_eq (z : Vec Ideal S10000x128 .f32) (prev : Vec Ideal S1x128 .f32) : k10_pay1 (F := Ideal) z prev = mlpAdd (mulf z z) prev := by
  unfold k10_pay1 mlpAdd
  simp only [shapeCast_self]

-- The windows' block indices: the row-tiled arrays sit at block `(t, 0)`, the others at `(0, 0)`.
theorem mlp10_idxR : ∀ t : Fin cfg10.N, (win10_0.index t (0 : Fin 2) = t.val ∧ win10_0.index t (1 : Fin 2) = 0)
    ∧ (win10_1.index t (0 : Fin 2) = t.val ∧ win10_1.index t (1 : Fin 2) = 0) ∧ win10_6.index t (0 : Fin 2) = t.val ∧ win10_6.index t (1 : Fin 2) = 0 :=
  (by decide +kernel : ∀ t : Fin grid10.N, _)
theorem mlp10_idxW : ∀ (t : Fin cfg10.N) (a : Fin 2), win10_2.index t a = 0 ∧ win10_3.index t a = 0 ∧ win10_4.index t a = 0 ∧ win10_5.index t a = 0
    ∧ win10_7.index t a = 0 ∧ win10_8.index t a = 0 :=
  (by decide +kernel : ∀ (t : Fin grid10.N) (a : Fin 2), _)

-- Reading an array through tile `t`'s block: rows `10000 t ..` of a row-tiled array, all of any other.
theorem mlp10_rd0 (t : Fin cfg10.N) (G : Spec.Mat 50000 128) :
    ((cfg10.win 0).blk t).view.read (Elt Ideal) G = fun j => G (ix2 (mlpRow N_10 t (j 0)) (j 1)) := by
  funext y
  rw [View.read_apply]
  show G _ = G _
  refine congrArg G (funext fun a => Fin.ext ?_)
  match a with
  | ⟨0, _⟩ => show win10_0.index t 0 * 10000 + 1 * (y 0).val = 10000 * t.val + (y 0).val; rw [(mlp10_idxR t).1.1]; omega
  | ⟨1, _⟩ => show win10_0.index t 1 * 128 + 1 * (y 1).val = (y 1).val; rw [(mlp10_idxR t).1.2]; omega
theorem mlp10_rd1 (t : Fin cfg10.N) (G : Spec.Mat 50000 128) :
    ((cfg10.win 1).blk t).view.read (Elt Ideal) G = fun j => G (ix2 (mlpRow N_10 t (j 0)) (j 1)) := by
  funext y
  rw [View.read_apply]
  show G _ = G _
  refine congrArg G (funext fun a => Fin.ext ?_)
  match a with
  | ⟨0, _⟩ => show win10_1.index t 0 * 10000 + 1 * (y 0).val = 10000 * t.val + (y 0).val; rw [(mlp10_idxR t).2.1.1]; omega
  | ⟨1, _⟩ => show win10_1.index t 1 * 128 + 1 * (y 1).val = (y 1).val; rw [(mlp10_idxR t).2.1.2]; omega
theorem mlp10_rd6 (t : Fin cfg10.N) (G : Spec.Mat 50000 128) :
    ((cfg10.win 6).blk t).view.read (Elt Ideal) G = fun j => G (ix2 (mlpRow N_10 t (j 0)) (j 1)) := by
  funext y
  rw [View.read_apply]
  show G _ = G _
  refine congrArg G (funext fun a => Fin.ext ?_)
  match a with
  | ⟨0, _⟩ => show win10_6.index t 0 * 10000 + 1 * (y 0).val = 10000 * t.val + (y 0).val; rw [(mlp10_idxR t).2.2.1]; omega
  | ⟨1, _⟩ => show win10_6.index t 1 * 128 + 1 * (y 1).val = (y 1).val; rw [(mlp10_idxR t).2.2.2]; omega
theorem mlp10_rd2 (t : Fin cfg10.N) (G : Spec.Mat 128 128) : ((cfg10.win 2).blk t).view.read (Elt Ideal) G = G := by
  funext y
  rw [View.read_apply]
  show G _ = G y
  exact congrArg G (funext fun a => Fin.ext (win10_2.rect_emb_val_of_index_zero t a (mlp10_idxW t a).1 y))
theorem mlp10_rd3 (t : Fin cfg10.N) (G : Spec.Mat 1 128) : ((cfg10.win 3).blk t).view.read (Elt Ideal) G = G := by
  funext y
  rw [View.read_apply]
  show G _ = G y
  exact congrArg G (funext fun a => Fin.ext (win10_3.rect_emb_val_of_index_zero t a (mlp10_idxW t a).2.1 y))
theorem mlp10_rd4 (t : Fin cfg10.N) (G : Spec.Mat 128 128) : ((cfg10.win 4).blk t).view.read (Elt Ideal) G = G := by
  funext y
  rw [View.read_apply]
  show G _ = G y
  exact congrArg G (funext fun a => Fin.ext (win10_4.rect_emb_val_of_index_zero t a (mlp10_idxW t a).2.2.1 y))
theorem mlp10_rd5 (t : Fin cfg10.N) (G : Spec.Mat 1 128) : ((cfg10.win 5).blk t).view.read (Elt Ideal) G = G := by
  funext y
  rw [View.read_apply]
  show G _ = G y
  exact congrArg G (funext fun a => Fin.ext (win10_5.rect_emb_val_of_index_zero t a (mlp10_idxW t a).2.2.2.1 y))
theorem mlp10_rd7 (t : Fin cfg10.N) (G : Spec.Mat 1 128) : ((cfg10.win 7).blk t).view.read (Elt Ideal) G = G := by
  funext y
  rw [View.read_apply]
  show G _ = G y
  exact congrArg G (funext fun a => Fin.ext (win10_7.rect_emb_val_of_index_zero t a (mlp10_idxW t a).2.2.2.2.1 y))
theorem mlp10_rd8 (t : Fin cfg10.N) (G : Spec.Mat 1 128) : ((cfg10.win 8).blk t).view.read (Elt Ideal) G = G := by
  funext y
  rw [View.read_apply]
  show G _ = G y
  exact congrArg G (funext fun a => Fin.ext (win10_8.rect_emb_val_of_index_zero t a (mlp10_idxW t a).2.2.2.2.2 y))

-- What the run's tiles leave: the general statement at this region's blocks and stores.
theorem mlp10_run (c : Dev nD) : MlpOuts N_10 (mlp10_z V c) (outsAt10 V c) :=
  mlp_run N_10 (x0 := iblk10 V c 0) (x1 := iblk10 V c 1) (x2 := iblk10 V c 2) (x3 := iblk10 V c 3) (x4 := iblk10 V c 4) (x5 := iblk10 V c 5)
    (T := fun t => k10_pay4 (iblk10 V c 0 t) (iblk10 V c 1 t) (iblk10 V c 2 t) (iblk10 V c 3 t) (iblk10 V c 4 t) (iblk10 V c 5 t))
    (Z7 := k10_pay2 (F := Ideal)) (Z8 := k10_pay3 (F := Ideal)) (fun t => mlp10_pay4_eq ..)
    (fun t p k => congrFun (mlp10_rd0 t _) (ix2 p k)) (fun t p k => congrFun (mlp10_rd1 t _) (ix2 p k))
    (fun t => mlp10_rd2 t _) (fun t => mlp10_rd3 t _) (fun t => mlp10_rd4 t _) (fun t => mlp10_rd5 t _) (fun _ => rfl) (fun _ => rfl)
    (fun t h0 => ((outsAt10_A V c t h0).trans (mlp10_out_A ..)).trans (by rw [mlp10_pay5_eq, mlp10_pay1_eq]))
    (fun t h0 => ((outsAt10_B V c t h0).trans (mlp10_out_B ..)).trans (by rw [mlp10_pay5_eq, mlp10_pay1_eq]))

-- Row `r` lies in the block of tile `r / 10000`; the last tile's block is the whole of an accumulator's array.
theorem mlp10_cover6 (i : S50000x128.Idx) : ∃ t : Fin cfg10.N, (cfg10.win 6).flush t = true ∧ i ∈ ((cfg10.win 6).blk t).view.set := by
  have hN : cfg10.N = 5 := N_10
  have hi0 : (i 0).val < 50000 := (i 0).isLt
  have hi1 : (i 1).val < 128 := (i 1).isLt
  have hm : ∀ t : Fin cfg10.N, t.val = (i 0).val / 10000 → i ∈ ((cfg10.win 6).blk t).view.set := fun t ht => by
    show i ∈ ((View.whole (Pipeline.arrRef spec10 6)).slice (win10_6.rect t)).set
    rw [View.set_slice_whole, Rect.mem_set_unit]
    intro a
    match a with
    | ⟨0, _⟩ =>
      show win10_6.index t 0 * 10000 ≤ (i 0).val ∧ (i 0).val < win10_6.index t 0 * 10000 + 10000
      rw [(mlp10_idxR t).2.2.1]; omega
    | ⟨1, _⟩ =>
      show win10_6.index t 1 * 128 ≤ (i 1).val ∧ (i 1).val < win10_6.index t 1 * 128 + 128
      rw [(mlp10_idxR t).2.2.2]; omega
  exact ⟨⟨(i 0).val / 10000, by omega⟩, flush10_6 _, hm _ rfl⟩
theorem mlp10_cover7 (i : S1x128.Idx) : ∃ t : Fin cfg10.N, (cfg10.win 7).flush t = true ∧ i ∈ ((cfg10.win 7).blk t).view.set := by
  have hN : cfg10.N = 5 := N_10
  have hm : ∀ t : Fin cfg10.N, i ∈ ((cfg10.win 7).blk t).view.set := fun t => by
    show i ∈ ((View.whole (Pipeline.arrRef spec10 7)).slice (win10_7.rect t)).set
    rw [View.set_slice_whole, Rect.mem_set_unit]
    intro a
    show win10_7.index t a * S1x128.size a ≤ (i a).val ∧ (i a).val < win10_7.index t a * S1x128.size a + S1x128.size a
    rw [(mlp10_idxW t a).2.2.2.2.1, Nat.zero_mul, Nat.zero_add]
    exact ⟨Nat.zero_le _, (i a).isLt⟩
  exact ⟨⟨4, by omega⟩, (flush10_7 _).mpr rfl, hm _⟩
theorem mlp10_cover8 (i : S1x128.Idx) : ∃ t : Fin cfg10.N, (cfg10.win 8).flush t = true ∧ i ∈ ((cfg10.win 8).blk t).view.set := by
  have hN : cfg10.N = 5 := N_10
  have hm : ∀ t : Fin cfg10.N, i ∈ ((cfg10.win 8).blk t).view.set := fun t => by
    show i ∈ ((View.whole (Pipeline.arrRef spec10 8)).slice (win10_8.rect t)).set
    rw [View.set_slice_whole, Rect.mem_set_unit]
    intro a
    show win10_8.index t a * S1x128.size a ≤ (i a).val ∧ (i a).val < win10_8.index t a * S1x128.size a + S1x128.size a
    rw [(mlp10_idxW t a).2.2.2.2.2, Nat.zero_mul, Nat.zero_add]
    exact ⟨Nat.zero_le _, (i a).isLt⟩
  exact ⟨⟨4, by omega⟩, (flush10_8 _).mpr rfl, hm _⟩
-- The three arrays the kernel leaves: each tile writes back its rows of `z`, the last tile the two accumulators.
theorem mlp10_arr6 (c : Dev nD) : (dat10 V c).arrAt 6 cfg10.N = mlp10_z V c :=
  (dat10 V c).arrAt_eq_of_cover 6 _ (fun t _ => by
    show (cfg10.win 6).cut (grid10.coords t) ((dat10 V c).after 6 t) = _
    rw [after10_6, (mlp10_run V c).tile t]
    exact (mlp10_rd6 t _).symm) mlp10_cover6
theorem mlp10_arr7 (c : Dev nD) :
    (dat10 V c).arrAt 7 cfg10.N = fun j : S1x128.Idx => Spec.zero32 + Spec.colSum (mlp10_z V c) (j 1) :=
  (dat10 V c).arrAt_eq_of_cover 7 _ (fun t hf => by
    have hN : cfg10.N = 5 := N_10
    have h4 : t.val = 4 := by have := (flush10_7 t).mp hf; have := t.isLt; omega
    show (cfg10.win 7).cut (grid10.coords t) ((dat10 V c).after 7 t) = _
    rw [after10_7, (mlp10_run V c).sum t h4]
    exact (mlp10_rd7 t _).symm) mlp10_cover7
theorem mlp10_arr8 (c : Dev nD) :
    (dat10 V c).arrAt 8 cfg10.N = fun j : S1x128.Idx => Spec.zero32 + Spec.colSumSq (mlp10_z V c) (j 1) :=
  (dat10 V c).arrAt_eq_of_cover 8 _ (fun t hf => by
    have hN : cfg10.N = 5 := N_10
    have h4 : t.val = 4 := by have := (flush10_8 t).mp hf; have := t.isLt; omega
    show (cfg10.win 8).cut (grid10.coords t) ((dat10 V c).after 8 t) = _
    rw [after10_8, (mlp10_run V c).sq t h4]
    exact (mlp10_rd8 t _).symm) mlp10_cover8

end Cert.KernelIdeal.Val

end
-- ==== Proof.KBn11.lean ====
import proofs.«407097_j78262894068282_1_alg».proof.Proof.Gen.KernelIdeal.Frame
import proofs.«407097_j78262894068282_1_alg».proof.Proof.KBnMath

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

theorem idx_bn11 : ∀ t : Fin cfg11.N,
    (∀ a : Fin 2, win11_0.index t a = win11_5.index t a) ∧ win11_5.index t (0 : Fin 2) = t.val ∧ win11_5.index t (1 : Fin 2) = 0
    ∧ ∀ a : Fin 2, win11_1.index t a = 0 ∧ win11_2.index t a = 0 ∧ win11_3.index t a = 0 ∧ win11_4.index t a = 0 :=
  (by decide +kernel : ∀ t : Fin grid11.N, _)

variable (V : (c : Dev nD) → (b : Ref sig .tc) → Buf (Elt Ideal) ((c : Thread nD τ).loc b))

-- The z tile and the output block cover the same rows of their arrays, and each row vector is read whole.
theorem entry_bn11 (c : Dev nD) (t : Fin cfg11.N) (y : S10000x128.Idx) :
    Gen.k11_pay1 (Gen.iblk11 V c 0 t) (Gen.iblk11 V c 1 t) (Gen.iblk11 V c 2 t) (Gen.iblk11 V c 3 t) (Gen.iblk11 V c 4 t) y
      = bnActOf (V c (Pipeline.arrRef spec11 0)) (V c (Pipeline.arrRef spec11 1)) (V c (Pipeline.arrRef spec11 2))
          (V c (Pipeline.arrRef spec11 3)) (V c (Pipeline.arrRef spec11 4)) (((cfg11.win 5).blk t).view.emb y) := by
  obtain ⟨h05, -, h51, h⟩ := idx_bn11 t
  refine bnAct_entry (Fin.ext (win11_5.rect_emb_val_of_index_zero t (1 : Fin 2) h51 y).symm)
    (read_blk_bn (win11_0.rect t).emb (fun _ => rfl) y _ fun a => ?_)
    (fun r => read_blk_bn (win11_1.rect t).emb (fun _ => rfl) r r fun a => win11_1.rect_emb_val_of_index_zero t a (h a).1 r)
    (fun r => read_blk_bn (win11_2.rect t).emb (fun _ => rfl) r r fun a => win11_2.rect_emb_val_of_index_zero t a (h a).2.1 r)
    (fun r => read_blk_bn (win11_3.rect t).emb (fun _ => rfl) r r fun a => win11_3.rect_emb_val_of_index_zero t a (h a).2.2.1 r)
    (fun r => read_blk_bn (win11_4.rect t).emb (fun _ => rfl) r r fun a => win11_4.rect_emb_val_of_index_zero t a (h a).2.2.2 r)
  have e := win11_0.rect_emb_val t y a
  rw [h05 a] at e
  exact e.trans (win11_5.rect_emb_val t y a).symm

-- Row r of the output array lies in the block of point r / 10000.
theorem cover_bn11 (i : S50000x128.Idx) : ∃ t : Fin cfg11.N, (cfg11.win 5).flush t = true ∧ i ∈ ((cfg11.win 5).blk t).view.set := by
  have ht : (i 0).val / 10000 < cfg11.N := by rw [show cfg11.N = 5 from Gen.N_11]; have := idx2_lt0 i; omega
  obtain ⟨-, h50, h51, -⟩ := idx_bn11 ⟨_, ht⟩
  refine ⟨⟨_, ht⟩, Gen.flush11_5 _, ?_⟩
  show i ∈ ((View.whole (Pipeline.arrRef spec11 5)).slice (win11_5.rect ⟨_, ht⟩)).set
  rw [View.set_slice_whole, Rect.mem_set_unit]
  exact tile_bounds_bn (win11_5.index _) i h50 h51

theorem out_bn11 (c : Dev nD) : (Gen.dat11 V c).arrAt 5 cfg11.N =
    Spec.act (Spec.bn (V c (Pipeline.arrRef spec11 0))
      (fun d => (V c (Pipeline.arrRef spec11 1) : Spec.Mat 1 128) (ix2 0 d))
      (fun d => (V c (Pipeline.arrRef spec11 2) : Spec.Mat 1 128) (ix2 0 d))
      (fun d => (V c (Pipeline.arrRef spec11 3) : Spec.Mat 1 128) (ix2 0 d))
      (fun d => (V c (Pipeline.arrRef spec11 4) : Spec.Mat 1 128) (ix2 0 d))) := by
  refine (Gen.dat11 V c).arrAt_eq_of_cover 5 _ (fun t _ => ?_) cover_bn11
  show (cfg11.win 5).cut (grid11.coords t) ((Gen.dat11 V c).after 5 t) = _
  rw [Gen.after11_5]
  unfold Gen.out11_5
  rw [View.canon_unit_zero hz_bn]
  simp only [View.ld_unit_zero (S := S10000x128) hz_bn, View.ld_unit_zero (S := S1x128) hz_bn]
  funext j
  rw [View.read_apply]
  exact entry_bn11 V c t j

end Cert.KernelIdeal.Val

end
-- ==== Proof.KLayer5.lean ====
import proofs.«407097_j78262894068282_1_alg».proof.Proof.KFrame5
import proofs.«407097_j78262894068282_1_alg».proof.Proof.KHost10
import proofs.«407097_j78262894068282_1_alg».proof.Proof.KHost11
import proofs.«407097_j78262894068282_1_alg».proof.Proof.KMlp10
import proofs.«407097_j78262894068282_1_alg».proof.Proof.KBn11

set_option maxRecDepth 16384

noncomputable section

namespace Cert.KernelIdeal.Val

open Cert.KernelIdeal Cert.KernelIdeal.Gen
open Idealize.ShloMosaic Idealize.ShloMosaic.TcCoe Idealize.ShloMosaic.ValueIdx
open Cert

variable (m : (ℓ : Loc nD τ sig) → Buf (Elt Ideal) ℓ) (ρ : Dev nD → PrngReg)

-- Layer 5: the carried buffers stay carried, and the output buffer holds the layer applied to the input buffer.
theorem layer5 (c : Dev nD) (hC : Carried m c (Gen.W20 m ρ c)) :
    Carried m c (Gen.W24 m ρ c)
      ∧ Gen.W24 m ρ c (Proc.devRef .tc main_v208) = Spec.stepMS (inputs m c) 5 (Gen.W20 m ρ c (Proc.devRef .tc main_v174)) :=
  have hCc : Carried m c (Gen.W22 m ρ c) := (hC.of_frame m (W21_of m ρ c)).of_frame m (Gen.W22_of_ne m ρ c)
  ⟨(hCc.of_frame m (W23_of m ρ c)).of_frame m (Gen.W24_of_ne m ρ c),
   layer_of_segments m c 5 true rfl hC.args hCc.args (congrArg srcBOf hC.v1) (congrArg dstBOf hC.v3)
    (W21_of m ρ c main_v174 (by decide)) (host10_agg _) (host10_W1 _) (host10_W2 _) (host10_b1 _) (host10_b2 _)
    ((Gen.W22_arr m ρ c 6).trans (mlp10_arr6 _ c)) ((Gen.W22_arr m ρ c 7).trans (mlp10_arr7 _ c))
    ((Gen.W22_arr m ρ c 8).trans (mlp10_arr8 _ c))
    (host11_mu _) (host11_var _) (host11_gamma _) (host11_beta _) (W23_of m ρ c main_v195_0 (by decide))
    ((Gen.W24_arr m ρ c 5).trans (out_bn11 _ c))⟩

end Cert.KernelIdeal.Val

end
-- ==== Proof.KFrame6.lean ====
import proofs.«407097_j78262894068282_1_alg».proof.Proof.Gen.KernelIdeal.Frame
import proofs.«407097_j78262894068282_1_alg».proof.Proof.KFrameBase

set_option maxRecDepth 16384

noncomputable section

namespace Cert.KernelIdeal.Val

open Cert.KernelIdeal Cert.KernelIdeal.Gen
open Idealize.ShloMosaic Idealize.ShloMosaic.TcCoe

variable (m : (ℓ : Loc nD τ sig) → Buf (Elt Ideal) ℓ) (ρ : Dev nD → PrngReg)

abbrev hostW12 : List (Ref sig .tc) := [main_c_28, main_v209, main_v210, main_c_29, main_v211, main_v212, main_v213, main_v214, main_v215, main_cst_30, main_v216, main_v217, main_v218, main_v219, main_v220, main_v221, main_v222, main_v223, main_v224, main_v225, main_v226, main_v227, main_v228]
-- A buffer outside this list, which holds every buffer the host stretch writes, keeps its contents.
theorem W25_of (c : Dev nD) (r : Ref sig .tc) (h : r ∉ hostW12) :
    Gen.W25 m ρ c (Proc.devRef .tc r) = Gen.W24 m ρ c (Proc.devRef .tc r) :=
  StableHlo.after_of_writes_sub hostOps12 _ (by
    simp only [hostOps12, List.Forall]
    repeat' apply And.intro
    all_goals exact Finset.singleton_subset_iff.mpr (List.mem_toFinset.mpr (List.mem_map_of_mem (by decide)))) h

abbrev hostW13 : List (Ref sig .tc) := [main_cst_31, main_v230, main_v231, main_cst_32, main_v232, main_v233, main_v234, main_v235, main_v236, main_v237, main_v238, main_v239, main_v240, main_v241]
-- A buffer outside this list, which holds every buffer the host stretch writes, keeps its contents.
theorem W27_of (c : Dev nD) (r : Ref sig .tc) (h : r ∉ hostW13) :
    Gen.W27 m ρ c (Proc.devRef .tc r) = Gen.W26 m ρ c (Proc.devRef .tc r) :=
  StableHlo.after_of_writes_sub hostOps13 _ (by
    simp only [hostOps13, List.Forall]
    repeat' apply And.intro
    all_goals exact Finset.singleton_subset_iff.mpr (List.mem_toFinset.mpr (List.mem_map_of_mem (by decide)))) h

end Cert.KernelIdeal.Val

end
-- ==== Proof.KHost12.lean ====
import Idealize.ShloMosaic.Lib.StableHlo.Run
import proofs.«407097_j78262894068282_1_alg».proof.Proof.Gen.KernelIdeal.Launch
import proofs.«407097_j78262894068282_1_alg».proof.Proof.KHostDefs
import proofs.«407097_j78262894068282_1_alg».proof.Proof.KHostLib

set_option maxRecDepth 16384

noncomputable section

namespace Cert.KernelIdeal.Val

open Gen Idealize.ShloMosaic

variable (V : Valuation τ sig (Elt Ideal))

theorem host12_agg :
    (StableHlo.after (hostOps12 (F := Ideal)) V (Proc.devRef .tc main_v218) : Spec.Mat 50000 128)
      = Spec.aggOf (V (Proc.devRef .tc main_v208)) (srcBOf (V (Proc.devRef .tc main_v1))) (dstBOf (V (Proc.devRef .tc main_v3))) := by
  after_results_simp
  exact agg_eq

theorem host12_W1 :
    (StableHlo.after (hostOps12 (F := Ideal)) V (Proc.devRef .tc main_v220) : Spec.Mat 128 128)
      = Spec.sliceM (V (Proc.devRef .tc main_arg4)) (6 : Fin 8) := by
  after_results
  exact sliceM_eq 6

theorem host12_b1 :
    (StableHlo.after (hostOps12 (F := Ideal)) V (Proc.devRef .tc main_v227) : Spec.Mat 1 128)
      = fun j => Spec.sliceV (V (Proc.devRef .tc main_arg5)) (6 : Fin 8) (j 1) := by
  after_results
  exact sliceRow_eq 6

theorem host12_W2 :
    (StableHlo.after (hostOps12 (F := Ideal)) V (Proc.devRef .tc main_v224) : Spec.Mat 128 128)
      = Spec.sliceM (V (Proc.devRef .tc main_arg6)) (6 : Fin 8) := by
  after_results
  exact sliceM_eq 6

theorem host12_b2 :
    (StableHlo.after (hostOps12 (F := Ideal)) V (Proc.devRef .tc main_v228) : Spec.Mat 1 128)
      = fun j => Spec.sliceV (V (Proc.devRef .tc main_arg7)) (6 : Fin 8) (j 1) := by
  after_results
  exact sliceRow_eq 6

end Cert.KernelIdeal.Val

end
-- ==== Proof.KHost13.lean ====
import Idealize.ShloMosaic.Lib.StableHlo.Run
import proofs.«407097_j78262894068282_1_alg».proof.Proof.Gen.KernelIdeal.Launch
import proofs.«407097_j78262894068282_1_alg».proof.Proof.KHostLib

set_option maxRecDepth 16384

noncomputable section

namespace Cert.KernelIdeal.Val

open Gen Idealize.ShloMosaic

variable (V : Valuation τ sig (Elt Ideal))

theorem host13_mu :
    (StableHlo.after (hostOps13 (F := Ideal)) V (Proc.devRef .tc main_v231) : Spec.Mat 1 128)
      = fun j => Ideal.div ((V (Proc.devRef .tc main_v229_1) : Spec.Mat 1 128) j) Spec.nNodes := by
  after_results
  rfl

theorem host13_var :
    (StableHlo.after (hostOps13 (F := Ideal)) V (Proc.devRef .tc main_v235) : Spec.Mat 1 128)
      = fun j => Ideal.div ((V (Proc.devRef .tc main_v229_2) : Spec.Mat 1 128) j) Spec.nNodes
          - Ideal.div ((V (Proc.devRef .tc main_v229_1) : Spec.Mat 1 128) j) Spec.nNodes
            * Ideal.div ((V (Proc.devRef .tc main_v229_1) : Spec.Mat 1 128) j) Spec.nNodes := by
  after_results
  rfl

theorem host13_gamma :
    (StableHlo.after (hostOps13 (F := Ideal)) V (Proc.devRef .tc main_v240) : Spec.Mat 1 128)
      = fun j => Spec.sliceV (V (Proc.devRef .tc main_arg8)) (6 : Fin 8) (j 1) := by
  after_results
  exact sliceRow_eq 6

theorem host13_beta :
    (StableHlo.after (hostOps13 (F := Ideal)) V (Proc.devRef .tc main_v241) : Spec.Mat 1 128)
      = fun j => Spec.sliceV (V (Proc.devRef .tc main_arg9)) (6 : Fin 8) (j 1) := by
  after_results
  exact sliceRow_eq 6

end Cert.KernelIdeal.Val

end
-- ==== Proof.KMlp12Pieces.lean ====
import proofs.«407097_j78262894068282_1_alg».proof.Proof.Gen.KernelIdeal.Frame
import proofs.«407097_j78262894068282_1_alg».proof.Proof.KMlpDot
import Idealize.ShloMosaic.Lib.Pipeline.Value
import Idealize.ShloMosaic.Lib.Tactic

noncomputable section

namespace Cert.KernelIdeal.Val

open Idealize.ShloMosaic Idealize.ShloMosaic.TcCoe Idealize.SL.Sem
open Cert.KernelIdeal Cert.KernelIdeal.Gen

variable {F : FTy → Type} [FloatOps F]
variable (c : Dev nD) (i : grid12.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole)
  (x0 x1 : Vec F S10000x128 .f32) (x2 : Vec F S128x128 .f32) (x3 : Vec F S1x128 .f32) (x4 : Vec F S128x128 .f32) (x5 xo7 xo8 : Vec F S1x128 .f32)

-- What one run of the body leaves in its three output blocks: the tile's output, and each accumulator's old block (zero at the first tile) plus the tile's column sums.
theorem mlp12_out_A (hc0 : cond12_0 i) :
    (out12_A_6 c i arg1 harg1 arg2 harg2 arg3 harg3 arg4 harg4 arg5 harg5 arg6 harg6 arg7 harg7 arg8 harg8 arg9 harg9 hc0 x0 x1 x2 x3 x4 x5, out12_A_7 c i arg1 harg1 arg2 harg2 arg3 harg3 arg4 harg4 arg5 harg5 arg6 harg6 arg7 harg7 arg8 harg8 arg9 harg9 hc0 x0 x1 x2 x3 x4 x5, out12_A_8 c i arg1 harg1 arg2 harg2 arg3 harg3 arg4 harg4 arg5 harg5 arg6 harg6 arg7 harg7 arg8 harg8 arg9 harg9 hc0 x0 x1 x2 x3 x4 x5)
      = (k12_pay4 x0 x1 x2 x3 x4 x5, k12_pay5 x0 x1 x2 x3 x4 x5 (k12_pay2 (F := F)), k12_pay1 (k12_pay4 x0 x1 x2 x3 x4 x5) (k12_pay3 (F := F))) := by
  unfold out12_A_6 out12_A_7 out12_A_8
  refine congrArg₂ Prod.mk ?_ (congrArg₂ Prod.mk ?_ ?_)
  on_goal 1 => rw [View.read_writes_eq_canon _ _ _ (cover12_A_6 _ _ _ _ _ _ _ _ _ _ _ _ _ _ _ _ _ _ _ _ _ _ _ _ _ _ _)]
  on_goal 2 => rw [View.read_writes_eq_canon _ _ _ (cover12_A_7 _ _ _ _ _ _ _ _ _ _ _ _ _ _ _ _ _ _ _ _ _ _ _ _ _ _ _)]
  on_goal 3 => rw [View.read_writes_eq_canon _ _ _ (cover12_A_8 _ _ _ _ _ _ _ _ _ _ _ _ _ _ _ _ _ _ _ _ _ _ _ _ _ _ _)]
  all_goals
    unfold kernelRun12_A
    dsimp only
    sl_unfold_words
    first | rw [View.canon_unit_zero mlp_hz] | rw [View.canon_cons_unit_zero (S := S1x128) mlp_hz]
    simp only [View.readAt_eq_ld, harg1.read_unread, harg2.read_unread, harg3.read_unread, harg4.read_unread, harg5.read_unread,
      harg6.read_unread, harg8.read_unread, harg9.read_unread, View.ld_unit_zero (S := S10000x128) mlp_hz,
      View.ld_unit_zero (S := S128x128) mlp_hz, View.ld_unit_zero (S := S1x128) mlp_hz,
      View.readCov_unit_zero (S := S1x128) _ mlp_hz]

theorem mlp12_out_B (hc0 : ¬cond12_0 i) :
    (out12_B_6 c i arg1 harg1 arg2 harg2 arg3 harg3 arg4 harg4 arg5 harg5 arg6 harg6 arg7 harg7 arg8 harg8 arg9 harg9 hc0 x0 x1 x2 x3 x4 x5 xo7 xo8, out12_B_7 c i arg1 harg1 arg2 harg2 arg3 harg3 arg4 harg4 arg5 harg5 arg6 harg6 arg7 harg7 arg8 harg8 arg9 harg9 hc0 x0 x1 x2 x3 x4 x5 xo7 xo8, out12_B_8 c i arg1 harg1 arg2 harg2 arg3 harg3 arg4 harg4 arg5 harg5 arg6 harg6 arg7 harg7 arg8 harg8 arg9 harg9 hc0 x0 x1 x2 x3 x4 x5 xo7 xo8)
      = (k12_pay4 x0 x1 x2 x3 x4 x5, k12_pay5 x0 x1 x2 x3 x4 x5 xo7, k12_pay1 (k12_pay4 x0 x1 x2 x3 x4 x5) xo8) := by
  unfold out12_B_6 out12_B_7 out12_B_8
  refine congrArg₂ Prod.mk ?_ (congrArg₂ Prod.mk ?_ ?_)
  on_goal 1 => rw [View.read_writes_eq_canon _ _ _ (cover12_B_6 _ _ _ _ _ _ _ _ _ _ _ _ _ _ _ _ _ _ _ _ _ _ _ _ _ _ _ _ _)]
  on_goal 2 => rw [View.read_writes_eq_canon _ _ _ (cover12_B_7 _ _ _ _ _ _ _ _ _ _ _ _ _ _ _ _ _ _ _ _ _ _ _ _ _ _ _ _ _)]
  on_goal 3 => rw [View.read_writes_eq_canon _ _ _ (cover12_B_8 _ _ _ _ _ _ _ _ _ _ _ _ _ _ _ _ _ _ _ _ _ _ _ _ _ _ _ _ _)]
  all_goals
    unfold kernelRun12_B
    dsimp only
    sl_unfold_words
    first | rw [View.canon_unit_zero mlp_hz] | rw [View.canon_cons_unit_zero (S := S1x128) mlp_hz]
    simp only [View.readAt_eq_ld, harg1.read_unread, harg2.read_unread, harg3.read_unread, harg4.read_unread, harg5.read_unread,
      harg6.read_unread, harg8.read_unread, harg9.read_unread, View.ld_unit_zero (S := S10000x128) mlp_hz,
      View.ld_unit_zero (S := S128x128) mlp_hz, View.ld_unit_zero (S := S1x128) mlp_hz,
      View.readCov_unit_zero (S := S1x128) _ mlp_hz]

end Cert.KernelIdeal.Val

end
-- ==== Proof.KMlp12.lean ====
import proofs.«407097_j78262894068282_1_alg».proof.Proof.KMlpRun
import proofs.«407097_j78262894068282_1_alg».proof.Proof.KMlp12Pieces

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

-- The perceptron's output of the whole arrays found on entry.
abbrev mlp12_z (c : Dev nD) : Spec.Mat 50000 128 :=
  Spec.zOf (V c (Pipeline.arrRef spec12 0)) (V c (Pipeline.arrRef spec12 1)) (V c (Pipeline.arrRef spec12 2))
    (fun d => (V c (Pipeline.arrRef spec12 3) : Spec.Mat 1 128) (ix2 (0 : Fin 1) d)) (V c (Pipeline.arrRef spec12 4))
    (fun d => (V c (Pipeline.arrRef spec12 5) : Spec.Mat 1 128) (ix2 (0 : Fin 1) d))

-- The payloads of the body's three stores are the tile perceptron and two accumulator steps, the casts of a block to its own shape dropped.
theorem mlp12_pay4_eq (h a : Vec Ideal S10000x128 .f32) (W1 : Vec Ideal S128x128 .f32) (b1 : Vec Ideal S1x128 .f32) (W2 : Vec Ideal S128x128 .f32) (b2 : Vec Ideal S1x128 .f32) :
    k12_pay4 (F := Ideal) h a W1 b1 W2 b2 = mlpTile Gen.broadcasts_S1x128_S10000x128 h a W1 b1 W2 b2 := by
  unfold k12_pay4 mlpTile mlpPre
  simp only [shapeCast_self]
theorem mlp12_pay5_eq (h a : Vec Ideal S10000x128 .f32) (W1 : Vec Ideal S128x128 .f32) (b1 : Vec Ideal S1x128 .f32) (W2 : Vec Ideal S128x128 .f32) (b2 prev : Vec Ideal S1x128 .f32) :
    k12_pay5 (F := Ideal) h a W1 b1 W2 b2 prev = mlpAdd (k12_pay4 h a W1 b1 W2 b2) prev := by
  unfold k12_pay5 mlpAdd
  simp only [shapeCast_self]
theorem mlp12_pay1_eq (z : Vec Ideal S10000x128 .f32) (prev : Vec Ideal S1x128 .f32) : k12_pay1 (F := Ideal) z prev = mlpAdd (mulf z z) prev := by
  unfold k12_pay1 mlpAdd
  simp only [shapeCast_self]

-- The windows' block indices: the row-tiled arrays sit at block `(t, 0)`, the others at `(0, 0)`.
theorem mlp12_idxR : ∀ t : Fin cfg12.N, (win12_0.index t (0 : Fin 2) = t.val ∧ win12_0.index t (1 : Fin 2) = 0)
    ∧ (win12_1.index t (0 : Fin 2) = t.val ∧ win12_1.index t (1 : Fin 2) = 0) ∧ win12_6.index t (0 : Fin 2) = t.val ∧ win12_6.index t (1 : Fin 2) = 0 :=
  (by decide +kernel : ∀ t : Fin grid12.N, _)
theorem mlp12_idxW : ∀ (t : Fin cfg12.N) (a : Fin 2), win12_2.index t a = 0 ∧ win12_3.index t a = 0 ∧ win12_4.index t a = 0 ∧ win12_5.index t a = 0
    ∧ win12_7.index t a = 0 ∧ win12_8.index t a = 0 :=
  (by decide +kernel : ∀ (t : Fin grid12.N) (a : Fin 2), _)

-- Reading an array through tile `t`'s block: rows `10000 t ..` of a row-tiled array, all of any other.
theorem mlp12_rd0 (t : Fin cfg12.N) (G : Spec.Mat 50000 128) :
    ((cfg12.win 0).blk t).view.read (Elt Ideal) G = fun j => G (ix2 (mlpRow N_12 t (j 0)) (j 1)) := by
  funext y
  rw [View.read_apply]
  show G _ = G _
  refine congrArg G (funext fun a => Fin.ext ?_)
  match a with
  | ⟨0, _⟩ => show win12_0.index t 0 * 10000 + 1 * (y 0).val = 10000 * t.val + (y 0).val; rw [(mlp12_idxR t).1.1]; omega
  | ⟨1, _⟩ => show win12_0.index t 1 * 128 + 1 * (y 1).val = (y 1).val; rw [(mlp12_idxR t).1.2]; omega
theorem mlp12_rd1 (t : Fin cfg12.N) (G : Spec.Mat 50000 128) :
    ((cfg12.win 1).blk t).view.read (Elt Ideal) G = fun j => G (ix2 (mlpRow N_12 t (j 0)) (j 1)) := by
  funext y
  rw [View.read_apply]
  show G _ = G _
  refine congrArg G (funext fun a => Fin.ext ?_)
  match a with
  | ⟨0, _⟩ => show win12_1.index t 0 * 10000 + 1 * (y 0).val = 10000 * t.val + (y 0).val; rw [(mlp12_idxR t).2.1.1]; omega
  | ⟨1, _⟩ => show win12_1.index t 1 * 128 + 1 * (y 1).val = (y 1).val; rw [(mlp12_idxR t).2.1.2]; omega
theorem mlp12_rd6 (t : Fin cfg12.N) (G : Spec.Mat 50000 128) :
    ((cfg12.win 6).blk t).view.read (Elt Ideal) G = fun j => G (ix2 (mlpRow N_12 t (j 0)) (j 1)) := by
  funext y
  rw [View.read_apply]
  show G _ = G _
  refine congrArg G (funext fun a => Fin.ext ?_)
  match a with
  | ⟨0, _⟩ => show win12_6.index t 0 * 10000 + 1 * (y 0).val = 10000 * t.val + (y 0).val; rw [(mlp12_idxR t).2.2.1]; omega
  | ⟨1, _⟩ => show win12_6.index t 1 * 128 + 1 * (y 1).val = (y 1).val; rw [(mlp12_idxR t).2.2.2]; omega
theorem mlp12_rd2 (t : Fin cfg12.N) (G : Spec.Mat 128 128) : ((cfg12.win 2).blk t).view.read (Elt Ideal) G = G := by
  funext y
  rw [View.read_apply]
  show G _ = G y
  exact congrArg G (funext fun a => Fin.ext (win12_2.rect_emb_val_of_index_zero t a (mlp12_idxW t a).1 y))
theorem mlp12_rd3 (t : Fin cfg12.N) (G : Spec.Mat 1 128) : ((cfg12.win 3).blk t).view.read (Elt Ideal) G = G := by
  funext y
  rw [View.read_apply]
  show G _ = G y
  exact congrArg G (funext fun a => Fin.ext (win12_3.rect_emb_val_of_index_zero t a (mlp12_idxW t a).2.1 y))
theorem mlp12_rd4 (t : Fin cfg12.N) (G : Spec.Mat 128 128) : ((cfg12.win 4).blk t).view.read (Elt Ideal) G = G := by
  funext y
  rw [View.read_apply]
  show G _ = G y
  exact congrArg G (funext fun a => Fin.ext (win12_4.rect_emb_val_of_index_zero t a (mlp12_idxW t a).2.2.1 y))
theorem mlp12_rd5 (t : Fin cfg12.N) (G : Spec.Mat 1 128) : ((cfg12.win 5).blk t).view.read (Elt Ideal) G = G := by
  funext y
  rw [View.read_apply]
  show G _ = G y
  exact congrArg G (funext fun a => Fin.ext (win12_5.rect_emb_val_of_index_zero t a (mlp12_idxW t a).2.2.2.1 y))
theorem mlp12_rd7 (t : Fin cfg12.N) (G : Spec.Mat 1 128) : ((cfg12.win 7).blk t).view.read (Elt Ideal) G = G := by
  funext y
  rw [View.read_apply]
  show G _ = G y
  exact congrArg G (funext fun a => Fin.ext (win12_7.rect_emb_val_of_index_zero t a (mlp12_idxW t a).2.2.2.2.1 y))
theorem mlp12_rd8 (t : Fin cfg12.N) (G : Spec.Mat 1 128) : ((cfg12.win 8).blk t).view.read (Elt Ideal) G = G := by
  funext y
  rw [View.read_apply]
  show G _ = G y
  exact congrArg G (funext fun a => Fin.ext (win12_8.rect_emb_val_of_index_zero t a (mlp12_idxW t a).2.2.2.2.2 y))

-- What the run's tiles leave: the general statement at this region's blocks and stores.
theorem mlp12_run (c : Dev nD) : MlpOuts N_12 (mlp12_z V c) (outsAt12 V c) :=
  mlp_run N_12 (x0 := iblk12 V c 0) (x1 := iblk12 V c 1) (x2 := iblk12 V c 2) (x3 := iblk12 V c 3) (x4 := iblk12 V c 4) (x5 := iblk12 V c 5)
    (T := fun t => k12_pay4 (iblk12 V c 0 t) (iblk12 V c 1 t) (iblk12 V c 2 t) (iblk12 V c 3 t) (iblk12 V c 4 t) (iblk12 V c 5 t))
    (Z7 := k12_pay2 (F := Ideal)) (Z8 := k12_pay3 (F := Ideal)) (fun t => mlp12_pay4_eq ..)
    (fun t p k => congrFun (mlp12_rd0 t _) (ix2 p k)) (fun t p k => congrFun (mlp12_rd1 t _) (ix2 p k))
    (fun t => mlp12_rd2 t _) (fun t => mlp12_rd3 t _) (fun t => mlp12_rd4 t _) (fun t => mlp12_rd5 t _) (fun _ => rfl) (fun _ => rfl)
    (fun t h0 => ((outsAt12_A V c t h0).trans (mlp12_out_A ..)).trans (by rw [mlp12_pay5_eq, mlp12_pay1_eq]))
    (fun t h0 => ((outsAt12_B V c t h0).trans (mlp12_out_B ..)).trans (by rw [mlp12_pay5_eq, mlp12_pay1_eq]))

-- Row `r` lies in the block of tile `r / 10000`; the last tile's block is the whole of an accumulator's array.
theorem mlp12_cover6 (i : S50000x128.Idx) : ∃ t : Fin cfg12.N, (cfg12.win 6).flush t = true ∧ i ∈ ((cfg12.win 6).blk t).view.set := by
  have hN : cfg12.N = 5 := N_12
  have hi0 : (i 0).val < 50000 := (i 0).isLt
  have hi1 : (i 1).val < 128 := (i 1).isLt
  have hm : ∀ t : Fin cfg12.N, t.val = (i 0).val / 10000 → i ∈ ((cfg12.win 6).blk t).view.set := fun t ht => by
    show i ∈ ((View.whole (Pipeline.arrRef spec12 6)).slice (win12_6.rect t)).set
    rw [View.set_slice_whole, Rect.mem_set_unit]
    intro a
    match a with
    | ⟨0, _⟩ =>
      show win12_6.index t 0 * 10000 ≤ (i 0).val ∧ (i 0).val < win12_6.index t 0 * 10000 + 10000
      rw [(mlp12_idxR t).2.2.1]; omega
    | ⟨1, _⟩ =>
      show win12_6.index t 1 * 128 ≤ (i 1).val ∧ (i 1).val < win12_6.index t 1 * 128 + 128
      rw [(mlp12_idxR t).2.2.2]; omega
  exact ⟨⟨(i 0).val / 10000, by omega⟩, flush12_6 _, hm _ rfl⟩
theorem mlp12_cover7 (i : S1x128.Idx) : ∃ t : Fin cfg12.N, (cfg12.win 7).flush t = true ∧ i ∈ ((cfg12.win 7).blk t).view.set := by
  have hN : cfg12.N = 5 := N_12
  have hm : ∀ t : Fin cfg12.N, i ∈ ((cfg12.win 7).blk t).view.set := fun t => by
    show i ∈ ((View.whole (Pipeline.arrRef spec12 7)).slice (win12_7.rect t)).set
    rw [View.set_slice_whole, Rect.mem_set_unit]
    intro a
    show win12_7.index t a * S1x128.size a ≤ (i a).val ∧ (i a).val < win12_7.index t a * S1x128.size a + S1x128.size a
    rw [(mlp12_idxW t a).2.2.2.2.1, Nat.zero_mul, Nat.zero_add]
    exact ⟨Nat.zero_le _, (i a).isLt⟩
  exact ⟨⟨4, by omega⟩, (flush12_7 _).mpr rfl, hm _⟩
theorem mlp12_cover8 (i : S1x128.Idx) : ∃ t : Fin cfg12.N, (cfg12.win 8).flush t = true ∧ i ∈ ((cfg12.win 8).blk t).view.set := by
  have hN : cfg12.N = 5 := N_12
  have hm : ∀ t : Fin cfg12.N, i ∈ ((cfg12.win 8).blk t).view.set := fun t => by
    show i ∈ ((View.whole (Pipeline.arrRef spec12 8)).slice (win12_8.rect t)).set
    rw [View.set_slice_whole, Rect.mem_set_unit]
    intro a
    show win12_8.index t a * S1x128.size a ≤ (i a).val ∧ (i a).val < win12_8.index t a * S1x128.size a + S1x128.size a
    rw [(mlp12_idxW t a).2.2.2.2.2, Nat.zero_mul, Nat.zero_add]
    exact ⟨Nat.zero_le _, (i a).isLt⟩
  exact ⟨⟨4, by omega⟩, (flush12_8 _).mpr rfl, hm _⟩
-- The three arrays the kernel leaves: each tile writes back its rows of `z`, the last tile the two accumulators.
theorem mlp12_arr6 (c : Dev nD) : (dat12 V c).arrAt 6 cfg12.N = mlp12_z V c :=
  (dat12 V c).arrAt_eq_of_cover 6 _ (fun t _ => by
    show (cfg12.win 6).cut (grid12.coords t) ((dat12 V c).after 6 t) = _
    rw [after12_6, (mlp12_run V c).tile t]
    exact (mlp12_rd6 t _).symm) mlp12_cover6
theorem mlp12_arr7 (c : Dev nD) :
    (dat12 V c).arrAt 7 cfg12.N = fun j : S1x128.Idx => Spec.zero32 + Spec.colSum (mlp12_z V c) (j 1) :=
  (dat12 V c).arrAt_eq_of_cover 7 _ (fun t hf => by
    have hN : cfg12.N = 5 := N_12
    have h4 : t.val = 4 := by have := (flush12_7 t).mp hf; have := t.isLt; omega
    show (cfg12.win 7).cut (grid12.coords t) ((dat12 V c).after 7 t) = _
    rw [after12_7, (mlp12_run V c).sum t h4]
    exact (mlp12_rd7 t _).symm) mlp12_cover7
theorem mlp12_arr8 (c : Dev nD) :
    (dat12 V c).arrAt 8 cfg12.N = fun j : S1x128.Idx => Spec.zero32 + Spec.colSumSq (mlp12_z V c) (j 1) :=
  (dat12 V c).arrAt_eq_of_cover 8 _ (fun t hf => by
    have hN : cfg12.N = 5 := N_12
    have h4 : t.val = 4 := by have := (flush12_8 t).mp hf; have := t.isLt; omega
    show (cfg12.win 8).cut (grid12.coords t) ((dat12 V c).after 8 t) = _
    rw [after12_8, (mlp12_run V c).sq t h4]
    exact (mlp12_rd8 t _).symm) mlp12_cover8

end Cert.KernelIdeal.Val

end
-- ==== Proof.KBn13.lean ====
import proofs.«407097_j78262894068282_1_alg».proof.Proof.Gen.KernelIdeal.Frame
import proofs.«407097_j78262894068282_1_alg».proof.Proof.KBnMath

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

theorem idx_bn13 : ∀ t : Fin cfg13.N,
    (∀ a : Fin 2, win13_0.index t a = win13_5.index t a) ∧ win13_5.index t (0 : Fin 2) = t.val ∧ win13_5.index t (1 : Fin 2) = 0
    ∧ ∀ a : Fin 2, win13_1.index t a = 0 ∧ win13_2.index t a = 0 ∧ win13_3.index t a = 0 ∧ win13_4.index t a = 0 :=
  (by decide +kernel : ∀ t : Fin grid13.N, _)

variable (V : (c : Dev nD) → (b : Ref sig .tc) → Buf (Elt Ideal) ((c : Thread nD τ).loc b))

-- The z tile and the output block cover the same rows of their arrays, and each row vector is read whole.
theorem entry_bn13 (c : Dev nD) (t : Fin cfg13.N) (y : S10000x128.Idx) :
    Gen.k13_pay1 (Gen.iblk13 V c 0 t) (Gen.iblk13 V c 1 t) (Gen.iblk13 V c 2 t) (Gen.iblk13 V c 3 t) (Gen.iblk13 V c 4 t) y
      = bnActOf (V c (Pipeline.arrRef spec13 0)) (V c (Pipeline.arrRef spec13 1)) (V c (Pipeline.arrRef spec13 2))
          (V c (Pipeline.arrRef spec13 3)) (V c (Pipeline.arrRef spec13 4)) (((cfg13.win 5).blk t).view.emb y) := by
  obtain ⟨h05, -, h51, h⟩ := idx_bn13 t
  refine bnAct_entry (Fin.ext (win13_5.rect_emb_val_of_index_zero t (1 : Fin 2) h51 y).symm)
    (read_blk_bn (win13_0.rect t).emb (fun _ => rfl) y _ fun a => ?_)
    (fun r => read_blk_bn (win13_1.rect t).emb (fun _ => rfl) r r fun a => win13_1.rect_emb_val_of_index_zero t a (h a).1 r)
    (fun r => read_blk_bn (win13_2.rect t).emb (fun _ => rfl) r r fun a => win13_2.rect_emb_val_of_index_zero t a (h a).2.1 r)
    (fun r => read_blk_bn (win13_3.rect t).emb (fun _ => rfl) r r fun a => win13_3.rect_emb_val_of_index_zero t a (h a).2.2.1 r)
    (fun r => read_blk_bn (win13_4.rect t).emb (fun _ => rfl) r r fun a => win13_4.rect_emb_val_of_index_zero t a (h a).2.2.2 r)
  have e := win13_0.rect_emb_val t y a
  rw [h05 a] at e
  exact e.trans (win13_5.rect_emb_val t y a).symm

-- Row r of the output array lies in the block of point r / 10000.
theorem cover_bn13 (i : S50000x128.Idx) : ∃ t : Fin cfg13.N, (cfg13.win 5).flush t = true ∧ i ∈ ((cfg13.win 5).blk t).view.set := by
  have ht : (i 0).val / 10000 < cfg13.N := by rw [show cfg13.N = 5 from Gen.N_13]; have := idx2_lt0 i; omega
  obtain ⟨-, h50, h51, -⟩ := idx_bn13 ⟨_, ht⟩
  refine ⟨⟨_, ht⟩, Gen.flush13_5 _, ?_⟩
  show i ∈ ((View.whole (Pipeline.arrRef spec13 5)).slice (win13_5.rect ⟨_, ht⟩)).set
  rw [View.set_slice_whole, Rect.mem_set_unit]
  exact tile_bounds_bn (win13_5.index _) i h50 h51

theorem out_bn13 (c : Dev nD) : (Gen.dat13 V c).arrAt 5 cfg13.N =
    Spec.act (Spec.bn (V c (Pipeline.arrRef spec13 0))
      (fun d => (V c (Pipeline.arrRef spec13 1) : Spec.Mat 1 128) (ix2 0 d))
      (fun d => (V c (Pipeline.arrRef spec13 2) : Spec.Mat 1 128) (ix2 0 d))
      (fun d => (V c (Pipeline.arrRef spec13 3) : Spec.Mat 1 128) (ix2 0 d))
      (fun d => (V c (Pipeline.arrRef spec13 4) : Spec.Mat 1 128) (ix2 0 d))) := by
  refine (Gen.dat13 V c).arrAt_eq_of_cover 5 _ (fun t _ => ?_) cover_bn13
  show (cfg13.win 5).cut (grid13.coords t) ((Gen.dat13 V c).after 5 t) = _
  rw [Gen.after13_5]
  unfold Gen.out13_5
  rw [View.canon_unit_zero hz_bn]
  simp only [View.ld_unit_zero (S := S10000x128) hz_bn, View.ld_unit_zero (S := S1x128) hz_bn]
  funext j
  rw [View.read_apply]
  exact entry_bn13 V c t j

end Cert.KernelIdeal.Val

end
-- ==== Proof.KLayer6.lean ====
import proofs.«407097_j78262894068282_1_alg».proof.Proof.KFrame6
import proofs.«407097_j78262894068282_1_alg».proof.Proof.KHost12
import proofs.«407097_j78262894068282_1_alg».proof.Proof.KHost13
import proofs.«407097_j78262894068282_1_alg».proof.Proof.KMlp12
import proofs.«407097_j78262894068282_1_alg».proof.Proof.KBn13

set_option maxRecDepth 16384

noncomputable section

namespace Cert.KernelIdeal.Val

open Cert.KernelIdeal Cert.KernelIdeal.Gen
open Idealize.ShloMosaic Idealize.ShloMosaic.TcCoe Idealize.ShloMosaic.ValueIdx
open Cert

variable (m : (ℓ : Loc nD τ sig) → Buf (Elt Ideal) ℓ) (ρ : Dev nD → PrngReg)

-- Layer 6: the carried buffers stay carried, and the output buffer holds the layer applied to the input buffer.
theorem layer6 (c : Dev nD) (hC : Carried m c (Gen.W24 m ρ c)) :
    Carried m c (Gen.W28 m ρ c)
      ∧ Gen.W28 m ρ c (Proc.devRef .tc main_v242) = Spec.stepMS (inputs m c) 6 (Gen.W24 m ρ c (Proc.devRef .tc main_v208)) :=
  have hCc : Carried m c (Gen.W26 m ρ c) := (hC.of_frame m (W25_of m ρ c)).of_frame m (Gen.W26_of_ne m ρ c)
  ⟨(hCc.of_frame m (W27_of m ρ c)).of_frame m (Gen.W28_of_ne m ρ c),
   layer_of_segments m c 6 true rfl hC.args hCc.args (congrArg srcBOf hC.v1) (congrArg dstBOf hC.v3)
    (W25_of m ρ c main_v208 (by decide)) (host12_agg _) (host12_W1 _) (host12_W2 _) (host12_b1 _) (host12_b2 _)
    ((Gen.W26_arr m ρ c 6).trans (mlp12_arr6 _ c)) ((Gen.W26_arr m ρ c 7).trans (mlp12_arr7 _ c))
    ((Gen.W26_arr m ρ c 8).trans (mlp12_arr8 _ c))
    (host13_mu _) (host13_var _) (host13_gamma _) (host13_beta _) (W27_of m ρ c main_v229_0 (by decide))
    ((Gen.W28_arr m ρ c 5).trans (out_bn13 _ c))⟩

end Cert.KernelIdeal.Val

end
-- ==== Proof.KFrame7.lean ====
import proofs.«407097_j78262894068282_1_alg».proof.Proof.Gen.KernelIdeal.Frame
import proofs.«407097_j78262894068282_1_alg».proof.Proof.KFrameBase

set_option maxRecDepth 16384

noncomputable section

namespace Cert.KernelIdeal.Val

open Cert.KernelIdeal Cert.KernelIdeal.Gen
open Idealize.ShloMosaic Idealize.ShloMosaic.TcCoe

variable (m : (ℓ : Loc nD τ sig) → Buf (Elt Ideal) ℓ) (ρ : Dev nD → PrngReg)

abbrev hostW14 : List (Ref sig .tc) := [main_c_33, main_v243, main_v244, main_c_34, main_v245, main_v246, main_v247, main_v248, main_v249, main_cst_35, main_v250, main_v251, main_v252, main_v253, main_v254, main_v255, main_v256, main_v257, main_v258, main_v259, main_v260, main_v261, main_v262]
-- A buffer outside this list, which holds every buffer the host stretch writes, keeps its contents.
theorem W29_of (c : Dev nD) (r : Ref sig .tc) (h : r ∉ hostW14) :
    Gen.W29 m ρ c (Proc.devRef .tc r) = Gen.W28 m ρ c (Proc.devRef .tc r) :=
  StableHlo.after_of_writes_sub hostOps14 _ (by
    simp only [hostOps14, List.Forall]
    repeat' apply And.intro
    all_goals exact Finset.singleton_subset_iff.mpr (List.mem_toFinset.mpr (List.mem_map_of_mem (by decide)))) h

abbrev hostW15 : List (Ref sig .tc) := [main_cst_36, main_v264, main_v265, main_cst_37, main_v266, main_v267, main_v268, main_v269, main_v270, main_v271, main_v272, main_v273, main_v274, main_v275]
-- A buffer outside this list, which holds every buffer the host stretch writes, keeps its contents.
theorem W31_of (c : Dev nD) (r : Ref sig .tc) (h : r ∉ hostW15) :
    Gen.W31 m ρ c (Proc.devRef .tc r) = Gen.W30 m ρ c (Proc.devRef .tc r) :=
  StableHlo.after_of_writes_sub hostOps15 _ (by
    simp only [hostOps15, List.Forall]
    repeat' apply And.intro
    all_goals exact Finset.singleton_subset_iff.mpr (List.mem_toFinset.mpr (List.mem_map_of_mem (by decide)))) h

end Cert.KernelIdeal.Val

end
-- ==== Proof.KHost14.lean ====
import Idealize.ShloMosaic.Lib.StableHlo.Run
import proofs.«407097_j78262894068282_1_alg».proof.Proof.Gen.KernelIdeal.Launch
import proofs.«407097_j78262894068282_1_alg».proof.Proof.KHostDefs
import proofs.«407097_j78262894068282_1_alg».proof.Proof.KHostLib

set_option maxRecDepth 16384

noncomputable section

namespace Cert.KernelIdeal.Val

open Gen Idealize.ShloMosaic

variable (V : Valuation τ sig (Elt Ideal))

theorem host14_agg :
    (StableHlo.after (hostOps14 (F := Ideal)) V (Proc.devRef .tc main_v252) : Spec.Mat 50000 128)
      = Spec.aggOf (V (Proc.devRef .tc main_v242)) (srcBOf (V (Proc.devRef .tc main_v1))) (dstBOf (V (Proc.devRef .tc main_v3))) := by
  after_results_simp
  exact agg_eq

theorem host14_W1 :
    (StableHlo.after (hostOps14 (F := Ideal)) V (Proc.devRef .tc main_v254) : Spec.Mat 128 128)
      = Spec.sliceM (V (Proc.devRef .tc main_arg4)) (7 : Fin 8) := by
  after_results
  exact sliceM_eq 7

theorem host14_b1 :
    (StableHlo.after (hostOps14 (F := Ideal)) V (Proc.devRef .tc main_v261) : Spec.Mat 1 128)
      = fun j => Spec.sliceV (V (Proc.devRef .tc main_arg5)) (7 : Fin 8) (j 1) := by
  after_results
  exact sliceRow_eq 7

theorem host14_W2 :
    (StableHlo.after (hostOps14 (F := Ideal)) V (Proc.devRef .tc main_v258) : Spec.Mat 128 128)
      = Spec.sliceM (V (Proc.devRef .tc main_arg6)) (7 : Fin 8) := by
  after_results
  exact sliceM_eq 7

theorem host14_b2 :
    (StableHlo.after (hostOps14 (F := Ideal)) V (Proc.devRef .tc main_v262) : Spec.Mat 1 128)
      = fun j => Spec.sliceV (V (Proc.devRef .tc main_arg7)) (7 : Fin 8) (j 1) := by
  after_results
  exact sliceRow_eq 7

end Cert.KernelIdeal.Val

end
-- ==== Proof.KHost15.lean ====
import Idealize.ShloMosaic.Lib.StableHlo.Run
import proofs.«407097_j78262894068282_1_alg».proof.Proof.Gen.KernelIdeal.Launch
import proofs.«407097_j78262894068282_1_alg».proof.Proof.KHostLib

set_option maxRecDepth 16384

noncomputable section

namespace Cert.KernelIdeal.Val

open Gen Idealize.ShloMosaic

variable (V : Valuation τ sig (Elt Ideal))

theorem host15_mu :
    (StableHlo.after (hostOps15 (F := Ideal)) V (Proc.devRef .tc main_v265) : Spec.Mat 1 128)
      = fun j => Ideal.div ((V (Proc.devRef .tc main_v263_1) : Spec.Mat 1 128) j) Spec.nNodes := by
  after_results
  rfl

theorem host15_var :
    (StableHlo.after (hostOps15 (F := Ideal)) V (Proc.devRef .tc main_v269) : Spec.Mat 1 128)
      = fun j => Ideal.div ((V (Proc.devRef .tc main_v263_2) : Spec.Mat 1 128) j) Spec.nNodes
          - Ideal.div ((V (Proc.devRef .tc main_v263_1) : Spec.Mat 1 128) j) Spec.nNodes
            * Ideal.div ((V (Proc.devRef .tc main_v263_1) : Spec.Mat 1 128) j) Spec.nNodes := by
  after_results
  rfl

theorem host15_gamma :
    (StableHlo.after (hostOps15 (F := Ideal)) V (Proc.devRef .tc main_v274) : Spec.Mat 1 128)
      = fun j => Spec.sliceV (V (Proc.devRef .tc main_arg8)) (7 : Fin 8) (j 1) := by
  after_results
  exact sliceRow_eq 7

theorem host15_beta :
    (StableHlo.after (hostOps15 (F := Ideal)) V (Proc.devRef .tc main_v275) : Spec.Mat 1 128)
      = fun j => Spec.sliceV (V (Proc.devRef .tc main_arg9)) (7 : Fin 8) (j 1) := by
  after_results
  exact sliceRow_eq 7

end Cert.KernelIdeal.Val

end
-- ==== Proof.KMlp14Pieces.lean ====
import proofs.«407097_j78262894068282_1_alg».proof.Proof.Gen.KernelIdeal.Frame
import proofs.«407097_j78262894068282_1_alg».proof.Proof.KMlpDot
import Idealize.ShloMosaic.Lib.Pipeline.Value
import Idealize.ShloMosaic.Lib.Tactic

noncomputable section

namespace Cert.KernelIdeal.Val

open Idealize.ShloMosaic Idealize.ShloMosaic.TcCoe Idealize.SL.Sem
open Cert.KernelIdeal Cert.KernelIdeal.Gen

variable {F : FTy → Type} [FloatOps F]
variable (c : Dev nD) (i : grid14.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole)
  (x0 x1 : Vec F S10000x128 .f32) (x2 : Vec F S128x128 .f32) (x3 : Vec F S1x128 .f32) (x4 : Vec F S128x128 .f32) (x5 xo7 xo8 : Vec F S1x128 .f32)

-- What one run of the body leaves in its three output blocks: the tile's output, and each accumulator's old block (zero at the first tile) plus the tile's column sums.
theorem mlp14_out_A (hc0 : cond14_0 i) :
    (out14_A_6 c i arg1 harg1 arg2 harg2 arg3 harg3 arg4 harg4 arg5 harg5 arg6 harg6 arg7 harg7 arg8 harg8 arg9 harg9 hc0 x0 x1 x2 x3 x4 x5, out14_A_7 c i arg1 harg1 arg2 harg2 arg3 harg3 arg4 harg4 arg5 harg5 arg6 harg6 arg7 harg7 arg8 harg8 arg9 harg9 hc0 x0 x1 x2 x3 x4 x5, out14_A_8 c i arg1 harg1 arg2 harg2 arg3 harg3 arg4 harg4 arg5 harg5 arg6 harg6 arg7 harg7 arg8 harg8 arg9 harg9 hc0 x0 x1 x2 x3 x4 x5)
      = (k14_pay4 x0 x1 x2 x3 x4 x5, k14_pay5 x0 x1 x2 x3 x4 x5 (k14_pay2 (F := F)), k14_pay1 (k14_pay4 x0 x1 x2 x3 x4 x5) (k14_pay3 (F := F))) := by
  unfold out14_A_6 out14_A_7 out14_A_8
  refine congrArg₂ Prod.mk ?_ (congrArg₂ Prod.mk ?_ ?_)
  on_goal 1 => rw [View.read_writes_eq_canon _ _ _ (cover14_A_6 _ _ _ _ _ _ _ _ _ _ _ _ _ _ _ _ _ _ _ _ _ _ _ _ _ _ _)]
  on_goal 2 => rw [View.read_writes_eq_canon _ _ _ (cover14_A_7 _ _ _ _ _ _ _ _ _ _ _ _ _ _ _ _ _ _ _ _ _ _ _ _ _ _ _)]
  on_goal 3 => rw [View.read_writes_eq_canon _ _ _ (cover14_A_8 _ _ _ _ _ _ _ _ _ _ _ _ _ _ _ _ _ _ _ _ _ _ _ _ _ _ _)]
  all_goals
    unfold kernelRun14_A
    dsimp only
    sl_unfold_words
    first | rw [View.canon_unit_zero mlp_hz] | rw [View.canon_cons_unit_zero (S := S1x128) mlp_hz]
    simp only [View.readAt_eq_ld, harg1.read_unread, harg2.read_unread, harg3.read_unread, harg4.read_unread, harg5.read_unread,
      harg6.read_unread, harg8.read_unread, harg9.read_unread, View.ld_unit_zero (S := S10000x128) mlp_hz,
      View.ld_unit_zero (S := S128x128) mlp_hz, View.ld_unit_zero (S := S1x128) mlp_hz,
      View.readCov_unit_zero (S := S1x128) _ mlp_hz]

theorem mlp14_out_B (hc0 : ¬cond14_0 i) :
    (out14_B_6 c i arg1 harg1 arg2 harg2 arg3 harg3 arg4 harg4 arg5 harg5 arg6 harg6 arg7 harg7 arg8 harg8 arg9 harg9 hc0 x0 x1 x2 x3 x4 x5 xo7 xo8, out14_B_7 c i arg1 harg1 arg2 harg2 arg3 harg3 arg4 harg4 arg5 harg5 arg6 harg6 arg7 harg7 arg8 harg8 arg9 harg9 hc0 x0 x1 x2 x3 x4 x5 xo7 xo8, out14_B_8 c i arg1 harg1 arg2 harg2 arg3 harg3 arg4 harg4 arg5 harg5 arg6 harg6 arg7 harg7 arg8 harg8 arg9 harg9 hc0 x0 x1 x2 x3 x4 x5 xo7 xo8)
      = (k14_pay4 x0 x1 x2 x3 x4 x5, k14_pay5 x0 x1 x2 x3 x4 x5 xo7, k14_pay1 (k14_pay4 x0 x1 x2 x3 x4 x5) xo8) := by
  unfold out14_B_6 out14_B_7 out14_B_8
  refine congrArg₂ Prod.mk ?_ (congrArg₂ Prod.mk ?_ ?_)
  on_goal 1 => rw [View.read_writes_eq_canon _ _ _ (cover14_B_6 _ _ _ _ _ _ _ _ _ _ _ _ _ _ _ _ _ _ _ _ _ _ _ _ _ _ _ _ _)]
  on_goal 2 => rw [View.read_writes_eq_canon _ _ _ (cover14_B_7 _ _ _ _ _ _ _ _ _ _ _ _ _ _ _ _ _ _ _ _ _ _ _ _ _ _ _ _ _)]
  on_goal 3 => rw [View.read_writes_eq_canon _ _ _ (cover14_B_8 _ _ _ _ _ _ _ _ _ _ _ _ _ _ _ _ _ _ _ _ _ _ _ _ _ _ _ _ _)]
  all_goals
    unfold kernelRun14_B
    dsimp only
    sl_unfold_words
    first | rw [View.canon_unit_zero mlp_hz] | rw [View.canon_cons_unit_zero (S := S1x128) mlp_hz]
    simp only [View.readAt_eq_ld, harg1.read_unread, harg2.read_unread, harg3.read_unread, harg4.read_unread, harg5.read_unread,
      harg6.read_unread, harg8.read_unread, harg9.read_unread, View.ld_unit_zero (S := S10000x128) mlp_hz,
      View.ld_unit_zero (S := S128x128) mlp_hz, View.ld_unit_zero (S := S1x128) mlp_hz,
      View.readCov_unit_zero (S := S1x128) _ mlp_hz]

end Cert.KernelIdeal.Val

end
-- ==== Proof.KMlp14.lean ====
import proofs.«407097_j78262894068282_1_alg».proof.Proof.KMlpRun
import proofs.«407097_j78262894068282_1_alg».proof.Proof.KMlp14Pieces

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

-- The perceptron's output of the whole arrays found on entry.
abbrev mlp14_z (c : Dev nD) : Spec.Mat 50000 128 :=
  Spec.zOf (V c (Pipeline.arrRef spec14 0)) (V c (Pipeline.arrRef spec14 1)) (V c (Pipeline.arrRef spec14 2))
    (fun d => (V c (Pipeline.arrRef spec14 3) : Spec.Mat 1 128) (ix2 (0 : Fin 1) d)) (V c (Pipeline.arrRef spec14 4))
    (fun d => (V c (Pipeline.arrRef spec14 5) : Spec.Mat 1 128) (ix2 (0 : Fin 1) d))

-- The payloads of the body's three stores are the tile perceptron and two accumulator steps, the casts of a block to its own shape dropped.
theorem mlp14_pay4_eq (h a : Vec Ideal S10000x128 .f32) (W1 : Vec Ideal S128x128 .f32) (b1 : Vec Ideal S1x128 .f32) (W2 : Vec Ideal S128x128 .f32) (b2 : Vec Ideal S1x128 .f32) :
    k14_pay4 (F := Ideal) h a W1 b1 W2 b2 = mlpTile Gen.broadcasts_S1x128_S10000x128 h a W1 b1 W2 b2 := by
  unfold k14_pay4 mlpTile mlpPre
  simp only [shapeCast_self]
theorem mlp14_pay5_eq (h a : Vec Ideal S10000x128 .f32) (W1 : Vec Ideal S128x128 .f32) (b1 : Vec Ideal S1x128 .f32) (W2 : Vec Ideal S128x128 .f32) (b2 prev : Vec Ideal S1x128 .f32) :
    k14_pay5 (F := Ideal) h a W1 b1 W2 b2 prev = mlpAdd (k14_pay4 h a W1 b1 W2 b2) prev := by
  unfold k14_pay5 mlpAdd
  simp only [shapeCast_self]
theorem mlp14_pay1_eq (z : Vec Ideal S10000x128 .f32) (prev : Vec Ideal S1x128 .f32) : k14_pay1 (F := Ideal) z prev = mlpAdd (mulf z z) prev := by
  unfold k14_pay1 mlpAdd
  simp only [shapeCast_self]

-- The windows' block indices: the row-tiled arrays sit at block `(t, 0)`, the others at `(0, 0)`.
theorem mlp14_idxR : ∀ t : Fin cfg14.N, (win14_0.index t (0 : Fin 2) = t.val ∧ win14_0.index t (1 : Fin 2) = 0)
    ∧ (win14_1.index t (0 : Fin 2) = t.val ∧ win14_1.index t (1 : Fin 2) = 0) ∧ win14_6.index t (0 : Fin 2) = t.val ∧ win14_6.index t (1 : Fin 2) = 0 :=
  (by decide +kernel : ∀ t : Fin grid14.N, _)
theorem mlp14_idxW : ∀ (t : Fin cfg14.N) (a : Fin 2), win14_2.index t a = 0 ∧ win14_3.index t a = 0 ∧ win14_4.index t a = 0 ∧ win14_5.index t a = 0
    ∧ win14_7.index t a = 0 ∧ win14_8.index t a = 0 :=
  (by decide +kernel : ∀ (t : Fin grid14.N) (a : Fin 2), _)

-- Reading an array through tile `t`'s block: rows `10000 t ..` of a row-tiled array, all of any other.
theorem mlp14_rd0 (t : Fin cfg14.N) (G : Spec.Mat 50000 128) :
    ((cfg14.win 0).blk t).view.read (Elt Ideal) G = fun j => G (ix2 (mlpRow N_14 t (j 0)) (j 1)) := by
  funext y
  rw [View.read_apply]
  show G _ = G _
  refine congrArg G (funext fun a => Fin.ext ?_)
  match a with
  | ⟨0, _⟩ => show win14_0.index t 0 * 10000 + 1 * (y 0).val = 10000 * t.val + (y 0).val; rw [(mlp14_idxR t).1.1]; omega
  | ⟨1, _⟩ => show win14_0.index t 1 * 128 + 1 * (y 1).val = (y 1).val; rw [(mlp14_idxR t).1.2]; omega
theorem mlp14_rd1 (t : Fin cfg14.N) (G : Spec.Mat 50000 128) :
    ((cfg14.win 1).blk t).view.read (Elt Ideal) G = fun j => G (ix2 (mlpRow N_14 t (j 0)) (j 1)) := by
  funext y
  rw [View.read_apply]
  show G _ = G _
  refine congrArg G (funext fun a => Fin.ext ?_)
  match a with
  | ⟨0, _⟩ => show win14_1.index t 0 * 10000 + 1 * (y 0).val = 10000 * t.val + (y 0).val; rw [(mlp14_idxR t).2.1.1]; omega
  | ⟨1, _⟩ => show win14_1.index t 1 * 128 + 1 * (y 1).val = (y 1).val; rw [(mlp14_idxR t).2.1.2]; omega
theorem mlp14_rd6 (t : Fin cfg14.N) (G : Spec.Mat 50000 128) :
    ((cfg14.win 6).blk t).view.read (Elt Ideal) G = fun j => G (ix2 (mlpRow N_14 t (j 0)) (j 1)) := by
  funext y
  rw [View.read_apply]
  show G _ = G _
  refine congrArg G (funext fun a => Fin.ext ?_)
  match a with
  | ⟨0, _⟩ => show win14_6.index t 0 * 10000 + 1 * (y 0).val = 10000 * t.val + (y 0).val; rw [(mlp14_idxR t).2.2.1]; omega
  | ⟨1, _⟩ => show win14_6.index t 1 * 128 + 1 * (y 1).val = (y 1).val; rw [(mlp14_idxR t).2.2.2]; omega
theorem mlp14_rd2 (t : Fin cfg14.N) (G : Spec.Mat 128 128) : ((cfg14.win 2).blk t).view.read (Elt Ideal) G = G := by
  funext y
  rw [View.read_apply]
  show G _ = G y
  exact congrArg G (funext fun a => Fin.ext (win14_2.rect_emb_val_of_index_zero t a (mlp14_idxW t a).1 y))
theorem mlp14_rd3 (t : Fin cfg14.N) (G : Spec.Mat 1 128) : ((cfg14.win 3).blk t).view.read (Elt Ideal) G = G := by
  funext y
  rw [View.read_apply]
  show G _ = G y
  exact congrArg G (funext fun a => Fin.ext (win14_3.rect_emb_val_of_index_zero t a (mlp14_idxW t a).2.1 y))
theorem mlp14_rd4 (t : Fin cfg14.N) (G : Spec.Mat 128 128) : ((cfg14.win 4).blk t).view.read (Elt Ideal) G = G := by
  funext y
  rw [View.read_apply]
  show G _ = G y
  exact congrArg G (funext fun a => Fin.ext (win14_4.rect_emb_val_of_index_zero t a (mlp14_idxW t a).2.2.1 y))
theorem mlp14_rd5 (t : Fin cfg14.N) (G : Spec.Mat 1 128) : ((cfg14.win 5).blk t).view.read (Elt Ideal) G = G := by
  funext y
  rw [View.read_apply]
  show G _ = G y
  exact congrArg G (funext fun a => Fin.ext (win14_5.rect_emb_val_of_index_zero t a (mlp14_idxW t a).2.2.2.1 y))
theorem mlp14_rd7 (t : Fin cfg14.N) (G : Spec.Mat 1 128) : ((cfg14.win 7).blk t).view.read (Elt Ideal) G = G := by
  funext y
  rw [View.read_apply]
  show G _ = G y
  exact congrArg G (funext fun a => Fin.ext (win14_7.rect_emb_val_of_index_zero t a (mlp14_idxW t a).2.2.2.2.1 y))
theorem mlp14_rd8 (t : Fin cfg14.N) (G : Spec.Mat 1 128) : ((cfg14.win 8).blk t).view.read (Elt Ideal) G = G := by
  funext y
  rw [View.read_apply]
  show G _ = G y
  exact congrArg G (funext fun a => Fin.ext (win14_8.rect_emb_val_of_index_zero t a (mlp14_idxW t a).2.2.2.2.2 y))

-- What the run's tiles leave: the general statement at this region's blocks and stores.
theorem mlp14_run (c : Dev nD) : MlpOuts N_14 (mlp14_z V c) (outsAt14 V c) :=
  mlp_run N_14 (x0 := iblk14 V c 0) (x1 := iblk14 V c 1) (x2 := iblk14 V c 2) (x3 := iblk14 V c 3) (x4 := iblk14 V c 4) (x5 := iblk14 V c 5)
    (T := fun t => k14_pay4 (iblk14 V c 0 t) (iblk14 V c 1 t) (iblk14 V c 2 t) (iblk14 V c 3 t) (iblk14 V c 4 t) (iblk14 V c 5 t))
    (Z7 := k14_pay2 (F := Ideal)) (Z8 := k14_pay3 (F := Ideal)) (fun t => mlp14_pay4_eq ..)
    (fun t p k => congrFun (mlp14_rd0 t _) (ix2 p k)) (fun t p k => congrFun (mlp14_rd1 t _) (ix2 p k))
    (fun t => mlp14_rd2 t _) (fun t => mlp14_rd3 t _) (fun t => mlp14_rd4 t _) (fun t => mlp14_rd5 t _) (fun _ => rfl) (fun _ => rfl)
    (fun t h0 => ((outsAt14_A V c t h0).trans (mlp14_out_A ..)).trans (by rw [mlp14_pay5_eq, mlp14_pay1_eq]))
    (fun t h0 => ((outsAt14_B V c t h0).trans (mlp14_out_B ..)).trans (by rw [mlp14_pay5_eq, mlp14_pay1_eq]))

-- Row `r` lies in the block of tile `r / 10000`; the last tile's block is the whole of an accumulator's array.
theorem mlp14_cover6 (i : S50000x128.Idx) : ∃ t : Fin cfg14.N, (cfg14.win 6).flush t = true ∧ i ∈ ((cfg14.win 6).blk t).view.set := by
  have hN : cfg14.N = 5 := N_14
  have hi0 : (i 0).val < 50000 := (i 0).isLt
  have hi1 : (i 1).val < 128 := (i 1).isLt
  have hm : ∀ t : Fin cfg14.N, t.val = (i 0).val / 10000 → i ∈ ((cfg14.win 6).blk t).view.set := fun t ht => by
    show i ∈ ((View.whole (Pipeline.arrRef spec14 6)).slice (win14_6.rect t)).set
    rw [View.set_slice_whole, Rect.mem_set_unit]
    intro a
    match a with
    | ⟨0, _⟩ =>
      show win14_6.index t 0 * 10000 ≤ (i 0).val ∧ (i 0).val < win14_6.index t 0 * 10000 + 10000
      rw [(mlp14_idxR t).2.2.1]; omega
    | ⟨1, _⟩ =>
      show win14_6.index t 1 * 128 ≤ (i 1).val ∧ (i 1).val < win14_6.index t 1 * 128 + 128
      rw [(mlp14_idxR t).2.2.2]; omega
  exact ⟨⟨(i 0).val / 10000, by omega⟩, flush14_6 _, hm _ rfl⟩
theorem mlp14_cover7 (i : S1x128.Idx) : ∃ t : Fin cfg14.N, (cfg14.win 7).flush t = true ∧ i ∈ ((cfg14.win 7).blk t).view.set := by
  have hN : cfg14.N = 5 := N_14
  have hm : ∀ t : Fin cfg14.N, i ∈ ((cfg14.win 7).blk t).view.set := fun t => by
    show i ∈ ((View.whole (Pipeline.arrRef spec14 7)).slice (win14_7.rect t)).set
    rw [View.set_slice_whole, Rect.mem_set_unit]
    intro a
    show win14_7.index t a * S1x128.size a ≤ (i a).val ∧ (i a).val < win14_7.index t a * S1x128.size a + S1x128.size a
    rw [(mlp14_idxW t a).2.2.2.2.1, Nat.zero_mul, Nat.zero_add]
    exact ⟨Nat.zero_le _, (i a).isLt⟩
  exact ⟨⟨4, by omega⟩, (flush14_7 _).mpr rfl, hm _⟩
theorem mlp14_cover8 (i : S1x128.Idx) : ∃ t : Fin cfg14.N, (cfg14.win 8).flush t = true ∧ i ∈ ((cfg14.win 8).blk t).view.set := by
  have hN : cfg14.N = 5 := N_14
  have hm : ∀ t : Fin cfg14.N, i ∈ ((cfg14.win 8).blk t).view.set := fun t => by
    show i ∈ ((View.whole (Pipeline.arrRef spec14 8)).slice (win14_8.rect t)).set
    rw [View.set_slice_whole, Rect.mem_set_unit]
    intro a
    show win14_8.index t a * S1x128.size a ≤ (i a).val ∧ (i a).val < win14_8.index t a * S1x128.size a + S1x128.size a
    rw [(mlp14_idxW t a).2.2.2.2.2, Nat.zero_mul, Nat.zero_add]
    exact ⟨Nat.zero_le _, (i a).isLt⟩
  exact ⟨⟨4, by omega⟩, (flush14_8 _).mpr rfl, hm _⟩
-- The three arrays the kernel leaves: each tile writes back its rows of `z`, the last tile the two accumulators.
theorem mlp14_arr6 (c : Dev nD) : (dat14 V c).arrAt 6 cfg14.N = mlp14_z V c :=
  (dat14 V c).arrAt_eq_of_cover 6 _ (fun t _ => by
    show (cfg14.win 6).cut (grid14.coords t) ((dat14 V c).after 6 t) = _
    rw [after14_6, (mlp14_run V c).tile t]
    exact (mlp14_rd6 t _).symm) mlp14_cover6
theorem mlp14_arr7 (c : Dev nD) :
    (dat14 V c).arrAt 7 cfg14.N = fun j : S1x128.Idx => Spec.zero32 + Spec.colSum (mlp14_z V c) (j 1) :=
  (dat14 V c).arrAt_eq_of_cover 7 _ (fun t hf => by
    have hN : cfg14.N = 5 := N_14
    have h4 : t.val = 4 := by have := (flush14_7 t).mp hf; have := t.isLt; omega
    show (cfg14.win 7).cut (grid14.coords t) ((dat14 V c).after 7 t) = _
    rw [after14_7, (mlp14_run V c).sum t h4]
    exact (mlp14_rd7 t _).symm) mlp14_cover7
theorem mlp14_arr8 (c : Dev nD) :
    (dat14 V c).arrAt 8 cfg14.N = fun j : S1x128.Idx => Spec.zero32 + Spec.colSumSq (mlp14_z V c) (j 1) :=
  (dat14 V c).arrAt_eq_of_cover 8 _ (fun t hf => by
    have hN : cfg14.N = 5 := N_14
    have h4 : t.val = 4 := by have := (flush14_8 t).mp hf; have := t.isLt; omega
    show (cfg14.win 8).cut (grid14.coords t) ((dat14 V c).after 8 t) = _
    rw [after14_8, (mlp14_run V c).sq t h4]
    exact (mlp14_rd8 t _).symm) mlp14_cover8

end Cert.KernelIdeal.Val

end
-- ==== Proof.KBn15.lean ====
import proofs.«407097_j78262894068282_1_alg».proof.Proof.Gen.KernelIdeal.Frame
import proofs.«407097_j78262894068282_1_alg».proof.Proof.KBnMath

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

theorem idx_bn15 : ∀ t : Fin cfg15.N,
    (∀ a : Fin 2, win15_0.index t a = win15_5.index t a) ∧ win15_5.index t (0 : Fin 2) = t.val ∧ win15_5.index t (1 : Fin 2) = 0
    ∧ ∀ a : Fin 2, win15_1.index t a = 0 ∧ win15_2.index t a = 0 ∧ win15_3.index t a = 0 ∧ win15_4.index t a = 0 :=
  (by decide +kernel : ∀ t : Fin grid15.N, _)

variable (V : (c : Dev nD) → (b : Ref sig .tc) → Buf (Elt Ideal) ((c : Thread nD τ).loc b))

-- The z tile and the output block cover the same rows of their arrays, and each row vector is read whole.
theorem entry_bn15 (c : Dev nD) (t : Fin cfg15.N) (y : S10000x128.Idx) :
    Gen.k15_pay1 (Gen.iblk15 V c 0 t) (Gen.iblk15 V c 1 t) (Gen.iblk15 V c 2 t) (Gen.iblk15 V c 3 t) (Gen.iblk15 V c 4 t) y
      = bnOf (V c (Pipeline.arrRef spec15 0)) (V c (Pipeline.arrRef spec15 1)) (V c (Pipeline.arrRef spec15 2))
          (V c (Pipeline.arrRef spec15 3)) (V c (Pipeline.arrRef spec15 4)) (((cfg15.win 5).blk t).view.emb y) := by
  obtain ⟨h05, -, h51, h⟩ := idx_bn15 t
  refine bn_entry (Fin.ext (win15_5.rect_emb_val_of_index_zero t (1 : Fin 2) h51 y).symm)
    (read_blk_bn (win15_0.rect t).emb (fun _ => rfl) y _ fun a => ?_)
    (fun r => read_blk_bn (win15_1.rect t).emb (fun _ => rfl) r r fun a => win15_1.rect_emb_val_of_index_zero t a (h a).1 r)
    (fun r => read_blk_bn (win15_2.rect t).emb (fun _ => rfl) r r fun a => win15_2.rect_emb_val_of_index_zero t a (h a).2.1 r)
    (fun r => read_blk_bn (win15_3.rect t).emb (fun _ => rfl) r r fun a => win15_3.rect_emb_val_of_index_zero t a (h a).2.2.1 r)
    (fun r => read_blk_bn (win15_4.rect t).emb (fun _ => rfl) r r fun a => win15_4.rect_emb_val_of_index_zero t a (h a).2.2.2 r)
  have e := win15_0.rect_emb_val t y a
  rw [h05 a] at e
  exact e.trans (win15_5.rect_emb_val t y a).symm

-- Row r of the output array lies in the block of point r / 10000.
theorem cover_bn15 (i : S50000x128.Idx) : ∃ t : Fin cfg15.N, (cfg15.win 5).flush t = true ∧ i ∈ ((cfg15.win 5).blk t).view.set := by
  have ht : (i 0).val / 10000 < cfg15.N := by rw [show cfg15.N = 5 from Gen.N_15]; have := idx2_lt0 i; omega
  obtain ⟨-, h50, h51, -⟩ := idx_bn15 ⟨_, ht⟩
  refine ⟨⟨_, ht⟩, Gen.flush15_5 _, ?_⟩
  show i ∈ ((View.whole (Pipeline.arrRef spec15 5)).slice (win15_5.rect ⟨_, ht⟩)).set
  rw [View.set_slice_whole, Rect.mem_set_unit]
  exact tile_bounds_bn (win15_5.index _) i h50 h51

theorem out_bn15 (c : Dev nD) : (Gen.dat15 V c).arrAt 5 cfg15.N =
    Spec.bn (V c (Pipeline.arrRef spec15 0))
      (fun d => (V c (Pipeline.arrRef spec15 1) : Spec.Mat 1 128) (ix2 0 d))
      (fun d => (V c (Pipeline.arrRef spec15 2) : Spec.Mat 1 128) (ix2 0 d))
      (fun d => (V c (Pipeline.arrRef spec15 3) : Spec.Mat 1 128) (ix2 0 d))
      (fun d => (V c (Pipeline.arrRef spec15 4) : Spec.Mat 1 128) (ix2 0 d)) := by
  refine (Gen.dat15 V c).arrAt_eq_of_cover 5 _ (fun t _ => ?_) cover_bn15
  show (cfg15.win 5).cut (grid15.coords t) ((Gen.dat15 V c).after 5 t) = _
  rw [Gen.after15_5]
  unfold Gen.out15_5
  rw [View.canon_unit_zero hz_bn]
  simp only [View.ld_unit_zero (S := S10000x128) hz_bn, View.ld_unit_zero (S := S1x128) hz_bn]
  funext j
  rw [View.read_apply]
  exact entry_bn15 V c t j

end Cert.KernelIdeal.Val

end
-- ==== Proof.KLayer7.lean ====
import proofs.«407097_j78262894068282_1_alg».proof.Proof.KFrame7
import proofs.«407097_j78262894068282_1_alg».proof.Proof.KHost14
import proofs.«407097_j78262894068282_1_alg».proof.Proof.KHost15
import proofs.«407097_j78262894068282_1_alg».proof.Proof.KMlp14
import proofs.«407097_j78262894068282_1_alg».proof.Proof.KBn15

set_option maxRecDepth 16384

noncomputable section

namespace Cert.KernelIdeal.Val

open Cert.KernelIdeal Cert.KernelIdeal.Gen
open Idealize.ShloMosaic Idealize.ShloMosaic.TcCoe Idealize.ShloMosaic.ValueIdx
open Cert

variable (m : (ℓ : Loc nD τ sig) → Buf (Elt Ideal) ℓ) (ρ : Dev nD → PrngReg)

-- Layer 7: the carried buffers stay carried, and the output buffer holds the layer applied to the input buffer.
theorem layer7 (c : Dev nD) (hC : Carried m c (Gen.W28 m ρ c)) :
    Carried m c (Gen.W32 m ρ c)
      ∧ Gen.W32 m ρ c (Proc.devRef .tc main_v276) = Spec.stepMS (inputs m c) 7 (Gen.W28 m ρ c (Proc.devRef .tc main_v242)) :=
  have hCc : Carried m c (Gen.W30 m ρ c) := (hC.of_frame m (W29_of m ρ c)).of_frame m (Gen.W30_of_ne m ρ c)
  ⟨(hCc.of_frame m (W31_of m ρ c)).of_frame m (Gen.W32_of_ne m ρ c),
   layer_of_segments m c 7 false rfl hC.args hCc.args (congrArg srcBOf hC.v1) (congrArg dstBOf hC.v3)
    (W29_of m ρ c main_v242 (by decide)) (host14_agg _) (host14_W1 _) (host14_W2 _) (host14_b1 _) (host14_b2 _)
    ((Gen.W30_arr m ρ c 6).trans (mlp14_arr6 _ c)) ((Gen.W30_arr m ρ c 7).trans (mlp14_arr7 _ c))
    ((Gen.W30_arr m ρ c 8).trans (mlp14_arr8 _ c))
    (host15_mu _) (host15_var _) (host15_gamma _) (host15_beta _) (W31_of m ρ c main_v263_0 (by decide))
    ((Gen.W32_arr m ρ c 5).trans (out_bn15 _ c))⟩

end Cert.KernelIdeal.Val

end
-- ==== Proof.SpecTiles.lean ====
import proofs.«407097_j78262894068282_1_alg».proof.Proof.Spec
import Mathlib.Algebra.BigOperators.Fin
import Mathlib.Data.Fintype.BigOperators
import Mathlib.Data.EReal.Basic
import Mathlib.Data.EReal.Operations

noncomputable section

namespace Cert.Spec

open Idealize.ShloMosaic

def tile (t : Fin 5) (q : Fin 10000) : Fin 50000 :=
  ⟨10000 * t.val + q.val, by have := t.isLt; have := q.isLt; omega⟩

@[simp] theorem tile_val (t : Fin 5) (q : Fin 10000) : (tile t q).val = 10000 * t.val + q.val := rfl

def tileEquiv : Fin 5 × Fin 10000 ≃ Fin 50000 where
  toFun p := tile p.1 p.2
  invFun r := (⟨r.val / 10000, by have := r.isLt; omega⟩, ⟨r.val % 10000, by omega⟩)
  left_inv p := by
    obtain ⟨t, q⟩ := p
    have := t.isLt; have := q.isLt
    refine Prod.ext (Fin.ext ?_) (Fin.ext ?_)
    · show (10000 * t.val + q.val) / 10000 = t.val; omega
    · show (10000 * t.val + q.val) % 10000 = q.val; omega
  right_inv r := by
    refine Fin.ext ?_
    show 10000 * (r.val / 10000) + r.val % 10000 = r.val; omega

theorem sum_tiles {M : Type*} [AddCommMonoid M] (f : Fin 50000 → M) :
    ∑ r : Fin 50000, f r = ∑ t : Fin 5, ∑ q : Fin 10000, f (tile t q) := by
  rw [← Equiv.sum_comp tileEquiv f, Fintype.sum_prod_type]
  rfl

theorem fold_tiles_from {M : Type*} [AddCommMonoid M] (f : Fin 50000 → M) (a a0 a1 a2 a3 a4 : M)
    (h0 : a0 = a + ∑ q, f (tile 0 q)) (h1 : a1 = a0 + ∑ q, f (tile 1 q)) (h2 : a2 = a1 + ∑ q, f (tile 2 q))
    (h3 : a3 = a2 + ∑ q, f (tile 3 q)) (h4 : a4 = a3 + ∑ q, f (tile 4 q)) :
    a4 = a + ∑ r : Fin 50000, f r := by
  rw [h4, h3, h2, h1, h0, sum_tiles, Fin.sum_univ_five]
  simp only [add_assoc]

theorem fold_tiles (f : Fin 50000 → EReal) (a0 a1 a2 a3 a4 : EReal)
    (h0 : a0 = zero32 + ∑ q, f (tile 0 q)) (h1 : a1 = a0 + ∑ q, f (tile 1 q)) (h2 : a2 = a1 + ∑ q, f (tile 2 q))
    (h3 : a3 = a2 + ∑ q, f (tile 3 q)) (h4 : a4 = a3 + ∑ q, f (tile 4 q)) :
    a4 = zero32 + ∑ r : Fin 50000, f r :=
  fold_tiles_from f zero32 a0 a1 a2 a3 a4 h0 h1 h2 h3 h4

theorem sum_filter_onehot {ι : Type*} [Fintype ι] (p : ι → Prop) [DecidablePred p] (w : ι → EReal)
    (hw : ∀ r, w r = if p r then 1 else 0) (f : ι → EReal) :
    ∑ r, w r * f r = ∑ r ∈ Finset.univ.filter p, f r := by
  rw [Finset.sum_filter]
  refine Finset.sum_congr rfl fun r _ => ?_
  rw [hw r]
  split_ifs
  · exact one_mul _
  · exact zero_mul _

theorem sum_filter_onehot' {ι : Type*} [Fintype ι] (p : ι → Prop) [DecidablePred p] (w : ι → EReal)
    (hw : ∀ r, w r = if p r then 1 else 0) (f : ι → EReal) :
    ∑ r, f r * w r = ∑ r ∈ Finset.univ.filter p, f r := by
  rw [← sum_filter_onehot p w hw f]
  exact Finset.sum_congr rfl fun r _ => mul_comm _ _

theorem word_eq_ofNat_iff_toInt (b : BitVec 32) (k : Nat) (hk : k < 2147483648) :
    b = BitVec.ofNat 32 k ↔ b.toInt = (k : ℤ) := by
  have hb := b.isLt
  rw [BitVec.toInt_eq_toNat_cond, ← BitVec.toNat_inj, BitVec.toNat_ofNat]
  split_ifs <;> omega

theorem word_eq_graph_iff_toInt (b : BitVec 32) (g : Fin 64) :
    b = BitVec.ofNat 32 g.val ↔ b.toInt = (g.val : ℤ) :=
  word_eq_ofNat_iff_toInt b g.val (by have := g.isLt; omega)

end Cert.Spec

end
-- ==== Proof.KPoolPieces.lean ====
import proofs.«407097_j78262894068282_1_alg».proof.Proof.Gen.KernelIdeal.Frame
import Idealize.ShloMosaic.Lib.Pipeline.Value
import Idealize.ShloMosaic.Lib.Tactic

noncomputable section

namespace Cert.KernelIdeal.Val

open Idealize.ShloMosaic Idealize.ShloMosaic.TcCoe Idealize.SL.Sem
open Cert.KernelIdeal Cert.KernelIdeal.Gen

variable {F : FTy → Type} [FloatOps F]

theorem hz16 : (![0, 0] : Fin 2 → Nat) = fun _ => 0 := funext fun a => by fin_cases a <;> rfl

theorem assign_first (c : Dev nD) (i : grid16.Coords) (a1 : Memref sig .tc .vmem S10000x128 .f32) (h1 : a1.IsWhole)
    (a2 : Memref sig .tc .vmem S10000x128 .f32) (h2 : a2.IsWhole) (a3 : Memref sig .tc .vmem S10000x1 .i32) (h3 : a3.IsWhole)
    (a4 : Memref sig .tc .vmem S10000x128 .f32) (h4 : a4.IsWhole) (a5 : Memref sig .tc .vmem S64x128 .f32) (h5 : a5.IsWhole)
    (hc : cond16_0 i) (x0 x1 : Vec F S10000x128 .f32) (x2 : Vec F S10000x1 .i32) :
    out16_A_3 c i a1 h1 a2 h2 a3 h3 a4 h4 a5 h5 hc x0 x1 x2 = k16_pay2 x0 x1 := by
  unfold out16_A_3
  rw [View.read_writes_eq_canon _ _ _ (cover16_A_3 c i a1 h1 a2 h2 a3 h3 a4 h4 a5 h5 hc x0 x1 x2)]
  unfold kernelRun16_A
  dsimp only
  sl_unfold_words
  rw [View.canon_unit_zero hz16]
  simp only [View.readAt_eq_ld, h1.read_unread, h2.read_unread, h3.read_unread, View.ld_unit_zero (S := S10000x128) hz16,
    View.ld_unit_zero (S := S10000x1) hz16]

theorem assign_later (c : Dev nD) (i : grid16.Coords) (a1 : Memref sig .tc .vmem S10000x128 .f32) (h1 : a1.IsWhole)
    (a2 : Memref sig .tc .vmem S10000x128 .f32) (h2 : a2.IsWhole) (a3 : Memref sig .tc .vmem S10000x1 .i32) (h3 : a3.IsWhole)
    (a4 : Memref sig .tc .vmem S10000x128 .f32) (h4 : a4.IsWhole) (a5 : Memref sig .tc .vmem S64x128 .f32) (h5 : a5.IsWhole)
    (hc : ¬cond16_0 i) (x0 x1 : Vec F S10000x128 .f32) (x2 : Vec F S10000x1 .i32) (xo : Vec F S64x128 .f32) :
    out16_B_3 c i a1 h1 a2 h2 a3 h3 a4 h4 a5 h5 hc x0 x1 x2 xo = k16_pay2 x0 x1 := by
  unfold out16_B_3
  rw [View.read_writes_eq_canon _ _ _ (cover16_B_3 c i a1 h1 a2 h2 a3 h3 a4 h4 a5 h5 hc x0 x1 x2 xo)]
  unfold kernelRun16_B
  dsimp only
  sl_unfold_words
  rw [View.canon_unit_zero hz16]
  simp only [View.readAt_eq_ld, h1.read_unread, h2.read_unread, h3.read_unread, h5.read_unread,
    View.ld_unit_zero (S := S10000x128) hz16, View.ld_unit_zero (S := S10000x1) hz16, View.ld_unit_zero (S := S64x128) hz16]

theorem pool_first (c : Dev nD) (i : grid16.Coords) (a1 : Memref sig .tc .vmem S10000x128 .f32) (h1 : a1.IsWhole)
    (a2 : Memref sig .tc .vmem S10000x128 .f32) (h2 : a2.IsWhole) (a3 : Memref sig .tc .vmem S10000x1 .i32) (h3 : a3.IsWhole)
    (a4 : Memref sig .tc .vmem S10000x128 .f32) (h4 : a4.IsWhole) (a5 : Memref sig .tc .vmem S64x128 .f32) (h5 : a5.IsWhole)
    (hc : cond16_0 i) (x0 x1 : Vec F S10000x128 .f32) (x2 : Vec F S10000x1 .i32) :
    out16_A_4 c i a1 h1 a2 h2 a3 h3 a4 h4 a5 h5 hc x0 x1 x2 = k16_pay3 x0 x1 x2 (k16_pay1 (F := F)) := by
  unfold out16_A_4
  rw [View.read_writes_eq_canon _ _ _ (cover16_A_4 c i a1 h1 a2 h2 a3 h3 a4 h4 a5 h5 hc x0 x1 x2)]
  unfold kernelRun16_A
  dsimp only
  sl_unfold_words
  rw [View.canon_cons_unit_zero (S := S64x128) hz16, View.readCov_unit_zero (S := S64x128) _ hz16]
  simp only [View.readAt_eq_ld, h1.read_unread, h2.read_unread, h3.read_unread, View.ld_unit_zero (S := S10000x128) hz16,
    View.ld_unit_zero (S := S10000x1) hz16, View.readCov_unit_zero (S := S64x128) _ hz16]

theorem pool_later (c : Dev nD) (i : grid16.Coords) (a1 : Memref sig .tc .vmem S10000x128 .f32) (h1 : a1.IsWhole)
    (a2 : Memref sig .tc .vmem S10000x128 .f32) (h2 : a2.IsWhole) (a3 : Memref sig .tc .vmem S10000x1 .i32) (h3 : a3.IsWhole)
    (a4 : Memref sig .tc .vmem S10000x128 .f32) (h4 : a4.IsWhole) (a5 : Memref sig .tc .vmem S64x128 .f32) (h5 : a5.IsWhole)
    (hc : ¬cond16_0 i) (x0 x1 : Vec F S10000x128 .f32) (x2 : Vec F S10000x1 .i32) (xo : Vec F S64x128 .f32) :
    out16_B_4 c i a1 h1 a2 h2 a3 h3 a4 h4 a5 h5 hc x0 x1 x2 xo = k16_pay3 x0 x1 x2 xo := by
  unfold out16_B_4
  rw [View.read_writes_eq_canon _ _ _ (cover16_B_4 c i a1 h1 a2 h2 a3 h3 a4 h4 a5 h5 hc x0 x1 x2 xo)]
  unfold kernelRun16_B
  dsimp only
  sl_unfold_words
  rw [View.canon_unit_zero hz16]
  simp only [View.readAt_eq_ld, h1.read_unread, h2.read_unread, h3.read_unread, h5.read_unread,
    View.ld_unit_zero (S := S10000x128) hz16, View.ld_unit_zero (S := S10000x1) hz16, View.ld_unit_zero (S := S64x128) hz16]

end Cert.KernelIdeal.Val

end
-- ==== Proof.KPoolLayout.lean ====
import Idealize.ShloMosaic.Lib.ValueLayout
import Idealize.ShloMosaic.PureOps.Ideal.Laws
import Mathlib.Order.CompleteLattice.Finset
import Mathlib.Data.Finset.Lattice.Fold

noncomputable section

namespace Cert.KernelIdeal.Val.Layout

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem fold_max_bot_eq_sup {ι : Type} [DecidableEq ι] (s : Finset ι) (f : ι → EReal) : s.fold max ⊥ f = s.sup f := by
  induction s using Finset.induction_on with
  | empty => rfl
  | insert a s ha ih => rw [Finset.fold_insert ha, Finset.sup_insert, ih]

theorem ofBits_neg_inf : Ideal.ofBits .f32 0xFF800000#32 = ⊥ := by simp [Ideal.ofBits, Ideal.ieee]

theorem lift_row (h : (⟨2, ![10000, 128]⟩ : Shape).Reduces [1] ⟨1, ![10000]⟩) (r : Fin 10000) (k : Fin 128) :
    h.lift (ix1 r) k = ix2 r k :=
  funext fun a => match a with
    | ⟨0, _⟩ => Fin.ext rfl
    | ⟨1, _⟩ => Fin.ext rfl

theorem rowMax_reduce (src : FVec Ideal ⟨2, ![10000, 128]⟩ .f32) (h : (⟨2, ![10000, 128]⟩ : Shape).Reduces [1] ⟨1, ![10000]⟩)
    (hφ : FKind.Formats .f32) (hacc : (0xFF800000#32 : BitVec 32) = FKind.maximumf.neutral .f32 hφ) (r : Fin 10000) :
    multiReduction .maximumf [1] ⟨1, ![10000]⟩ src 0xFF800000#32 h hφ hacc (ix1 r)
      = Finset.univ.sup (fun k : Fin 128 => src (ix2 r k)) := by
  refine (Ideal.multiReduction_maximumf_single src 0xFF800000#32 h hφ hacc (ix1 r)).trans ?_
  show (Finset.univ : Finset (Fin 128)).fold max (Ideal.ofBits .f32 0xFF800000#32) (fun k : Fin 128 => src (h.lift (ix1 r) k)) = _
  rw [ofBits_neg_inf, fold_max_bot_eq_sup]
  exact congrArg (Finset.univ.sup) (funext fun k => congrArg src (lift_row h r k))

theorem rowSum_reduce (src : FVec Ideal ⟨2, ![10000, 128]⟩ .f32) (h : (⟨2, ![10000, 128]⟩ : Shape).Reduces [1] ⟨1, ![10000]⟩)
    (hφ : FKind.Formats .f32) (hacc : (0x00000000#32 : BitVec 32) = FKind.add.neutral .f32 hφ) (r : Fin 10000) :
    multiReduction .add [1] ⟨1, ![10000]⟩ src 0x00000000#32 h hφ hacc (ix1 r) = ∑ k : Fin 128, src (ix2 r k) := by
  refine (Ideal.multiReduction_add_single src 0x00000000#32 h hφ hacc (ix1 r)).trans ?_
  show ∑ k : Fin 128, src (h.lift (ix1 r) k) = _
  exact Finset.sum_congr rfl fun k _ => congrArg src (lift_row h r k)

end Cert.KernelIdeal.Val.Layout

end
-- ==== Proof.KPoolSoftmax.lean ====
import proofs.«407097_j78262894068282_1_alg».proof.Proof.Gen.KernelIdeal.Skeleton
import proofs.«407097_j78262894068282_1_alg».proof.Proof.KPoolLayout

noncomputable section

namespace Cert.KernelIdeal.Val

open Idealize.ShloMosaic Idealize.ShloMosaic.ValueIdx
open Cert.KernelIdeal Cert.KernelIdeal.Gen

def blockRowMax (l : FVec Ideal S10000x128 .f32) (r : Fin 10000) : EReal :=
  Finset.univ.sup (fun k : Fin 128 => l (ix2 r k))

def blockSoftmax (l : FVec Ideal S10000x128 .f32) (r : Fin 10000) (d : Fin 128) : EReal :=
  Ideal.div (Ideal.exp (l (ix2 r d) - blockRowMax l r)) (∑ k : Fin 128, Ideal.exp (l (ix2 r k) - blockRowMax l r))

theorem softmax_chain_apply (l : FVec Ideal S10000x128 .f32) (hR : S10000x128.Reduces [1] S10000)
    (hC : S10000.ShapeCasts S10000x1) (hB : S10000x1.Broadcasts S10000x128) (hφ : FKind.Formats .f32)
    (hmax : (0xFF800000#32 : BitVec 32) = FKind.maximumf.neutral .f32 hφ)
    (hadd : (0x00000000#32 : BitVec 32) = FKind.add.neutral .f32 hφ) (r : Fin 10000) (d : Fin 128) :
    divf
        (exp (subf l (broadcastTo S10000x128 (shapeCast S10000x1 (multiReduction .maximumf [1] S10000 l 0xFF800000#32 hR hφ hmax) hC) hB)))
        (broadcastTo S10000x128
          (shapeCast S10000x1
            (multiReduction .add [1] S10000
              (exp (subf l (broadcastTo S10000x128 (shapeCast S10000x1 (multiReduction .maximumf [1] S10000 l 0xFF800000#32 hR hφ hmax) hC) hB)))
              0x00000000#32 hR hφ hadd) hC) hB)
        (ix2 r d)
      = blockSoftmax l r d := by

  have hm : ∀ k : Fin 128,
      broadcastTo S10000x128 (shapeCast S10000x1 (multiReduction .maximumf [1] S10000 l 0xFF800000#32 hR hφ hmax) hC) hB (ix2 r k)
        = blockRowMax l r := fun k =>
    (Layout.broadcastTo_a1_ab_apply _ hB r k).trans
      ((Layout.shapeCast_a_a1_apply _ hC r (0 : Fin 1)).trans (Layout.rowMax_reduce l hR hφ hmax r))

  have he : ∀ k : Fin 128,
      exp (subf l (broadcastTo S10000x128 (shapeCast S10000x1 (multiReduction .maximumf [1] S10000 l 0xFF800000#32 hR hφ hmax) hC) hB)) (ix2 r k)
        = Ideal.exp (l (ix2 r k) - blockRowMax l r) := fun k =>
    congrArg (fun m => Ideal.exp (l (ix2 r k) - m)) (hm k)

  have hs :
      broadcastTo S10000x128
          (shapeCast S10000x1
            (multiReduction .add [1] S10000
              (exp (subf l (broadcastTo S10000x128 (shapeCast S10000x1 (multiReduction .maximumf [1] S10000 l 0xFF800000#32 hR hφ hmax) hC) hB)))
              0x00000000#32 hR hφ hadd) hC) hB (ix2 r d)
        = ∑ k : Fin 128, Ideal.exp (l (ix2 r k) - blockRowMax l r) :=
    (Layout.broadcastTo_a1_ab_apply _ hB r d).trans
      ((Layout.shapeCast_a_a1_apply _ hC r (0 : Fin 1)).trans
        ((Layout.rowSum_reduce _ hR hφ hadd r).trans (Finset.sum_congr rfl fun k _ => he k)))
  show Ideal.div _ _ = Ideal.div _ _
  exact congrArg₂ Ideal.div (he d) hs

theorem pay2_apply (x0 x1 : FVec Ideal S10000x128 .f32) (r : Fin 10000) (d : Fin 128) :
    k16_pay2 (F := Ideal) x0 x1 (ix2 r d) = blockSoftmax (fun j => x0 j + x1 j) r d := by
  unfold k16_pay2
  simp only [shapeCast_self]
  exact softmax_chain_apply (addf x0 x1) _ _ _ _ _ _ r d

end Cert.KernelIdeal.Val

end
-- ==== Proof.KPoolOnehot.lean ====
import proofs.«407097_j78262894068282_1_alg».proof.Proof.Gen.KernelIdeal.Skeleton
import proofs.«407097_j78262894068282_1_alg».proof.Proof.KPoolLayout

noncomputable section

namespace Cert.KernelIdeal.Val

open Idealize.ShloMosaic Idealize.ShloMosaic.ValueIdx
open Cert.KernelIdeal Cert.KernelIdeal.Gen

theorem onehot_word (b c : BitVec 32) :
    FloatOps.sitofp (F := Ideal) .f32 ((IntOp.cmpi .eq b c).setWidth 32) = if b = c then (1 : EReal) else 0 := by
  show (((((IntOp.cmpi .eq b c).setWidth 32).toInt : ℤ) : ℝ) : EReal) = _
  unfold IntOp.cmpi
  by_cases h : b = c
  · rw [if_pos h, show (b == c) = true from by simpa using h]
    have e : ((BitVec.ofBool true).setWidth 32).toInt = 1 := by decide
    rw [e]; simp
  · rw [if_neg h, show (b == c) = false from by simpa using h]
    have e : ((BitVec.ofBool false).setWidth 32).toInt = 0 := by decide
    rw [e]; simp

theorem lhs_pool_0 (i : S64x128.Idx) (q : dot_S10000x64_S10000x128_S64x128_0_0_1_1_n_n.contr.Idx) :
    (dot_S10000x64_S10000x128_S64x128_0_0_1_1_n_n.lhsIdx i q 0).val = (q ⟨0, by decide⟩).val :=
  dot_S10000x64_S10000x128_S64x128_0_0_1_1_n_n.lhsIdx_val_of_single rfl i q

theorem lhs_pool_1 (i : S64x128.Idx) (q : dot_S10000x64_S10000x128_S64x128_0_0_1_1_n_n.contr.Idx) :
    (dot_S10000x64_S10000x128_S64x128_0_0_1_1_n_n.lhsIdx i q 1).val = (i 0).val := by
  unfold DotDims.lhsIdx
  rw [dif_neg (show ¬(1 : Fin S10000x64.rank) ∈ dot_S10000x64_S10000x128_S64x128_0_0_1_1_n_n.lhsBatch by decide),
    dif_pos (show (1 : Fin S10000x64.rank) ∈ dot_S10000x64_S10000x128_S64x128_0_0_1_1_n_n.lhsNonContracting by decide)]
  rfl

theorem rhs_pool_0 (i : S64x128.Idx) (q : dot_S10000x64_S10000x128_S64x128_0_0_1_1_n_n.contr.Idx) :
    (dot_S10000x64_S10000x128_S64x128_0_0_1_1_n_n.rhsIdx i q 0).val = (q ⟨0, by decide⟩).val :=
  dot_S10000x64_S10000x128_S64x128_0_0_1_1_n_n.rhsIdx_val_of_single rfl i q

theorem rhs_pool_1 (i : S64x128.Idx) (q : dot_S10000x64_S10000x128_S64x128_0_0_1_1_n_n.contr.Idx) :
    (dot_S10000x64_S10000x128_S64x128_0_0_1_1_n_n.rhsIdx i q 1).val = (i 1).val := by
  unfold DotDims.rhsIdx
  rw [dif_neg (show ¬(1 : Fin S10000x128.rank) ∈ dot_S10000x64_S10000x128_S64x128_0_0_1_1_n_n.rhsBatch by decide),
    dif_pos (show (1 : Fin S10000x128.rank) ∈ dot_S10000x64_S10000x128_S64x128_0_0_1_1_n_n.rhsNonContracting by decide)]
  rfl

def member (b : IVec S10000x1 32) (r : Fin 10000) (g : Fin 64) : EReal :=
  if b (ix2 r (0 : Fin 1)) = BitVec.ofNat 32 g.val then 1 else 0

theorem pool_chain_apply (b : IVec S10000x1 32) (c : FVec Ideal S10000x128 .f32) (acc : FVec Ideal S64x128 .f32)
    (hI : S10000x64.Iotas .tc 32 [1]) (hB : S10000x1.Broadcasts S10000x64) (hw : 1 < 32) (g : Fin 64) (d : Fin 128) :
    addf acc
        (matmul dot_S10000x64_S10000x128_S64x128_0_0_1_1_n_n none
          (sitofp (F := Ideal) .f32 (extui 32 (cmpi .eq (broadcastTo S10000x64 b hB) (iota .tc S10000x64 32 [1] hI)) hw))
          c (constant (F := Ideal) S64x128 .f32 0x00000000#32))
        (ix2 g d)
      = acc (ix2 g d) + ∑ r : Fin 10000, member b r g * c (ix2 r d) := by
  show acc (ix2 g d) + FloatOps.matmul dot_S10000x64_S10000x128_S64x128_0_0_1_1_n_n none
      (sitofp (F := Ideal) .f32 (extui 32 (cmpi .eq (broadcastTo S10000x64 b hB) (iota .tc S10000x64 32 [1] hI)) hw))
      c (constant (F := Ideal) S64x128 .f32 0x00000000#32) (ix2 g d) = _
  refine congrArg (fun z => acc (ix2 g d) + z) ?_
  refine (Ideal.matmul_constant_zero_apply dot_S10000x64_S10000x128_S64x128_0_0_1_1_n_n none _ c (ix2 g d)).trans ?_
  rw [← Equiv.sum_comp (contrEquiv1 dot_S10000x64_S10000x128_S64x128_0_0_1_1_n_n 10000 rfl rfl).symm]
  refine Finset.sum_congr rfl fun k _ => ?_
  have hk := contrEquiv1_symm_val dot_S10000x64_S10000x128_S64x128_0_0_1_1_n_n 10000 rfl rfl k
  have el : dot_S10000x64_S10000x128_S64x128_0_0_1_1_n_n.lhsIdx (ix2 g d)
      ((contrEquiv1 dot_S10000x64_S10000x128_S64x128_0_0_1_1_n_n 10000 rfl rfl).symm k) = ix2 k g :=
    funext fun a => Fin.ext (by
      match a with
      | ⟨0, _⟩ => exact (lhs_pool_0 _ _).trans hk
      | ⟨1, _⟩ => exact lhs_pool_1 _ _)
  have er : dot_S10000x64_S10000x128_S64x128_0_0_1_1_n_n.rhsIdx (ix2 g d)
      ((contrEquiv1 dot_S10000x64_S10000x128_S64x128_0_0_1_1_n_n 10000 rfl rfl).symm k) = ix2 k d :=
    funext fun a => Fin.ext (by
      match a with
      | ⟨0, _⟩ => exact (rhs_pool_0 _ _).trans hk
      | ⟨1, _⟩ => exact rhs_pool_1 _ _)
  rw [el, er]
  refine congrArg (fun z => z * c (ix2 k d)) ?_
  show FloatOps.sitofp (F := Ideal) .f32
      ((IntOp.cmpi .eq (broadcastTo S10000x64 b hB (ix2 k g)) (iota .tc S10000x64 32 [1] hI (ix2 k g))).setWidth 32) = _
  rw [Layout.broadcastTo_a1_ab_apply b hB k g, iota_single_apply, onehot_word]
  rfl

theorem pay3_apply (x0 x1 : FVec Ideal S10000x128 .f32) (b : IVec S10000x1 32) (acc : FVec Ideal S64x128 .f32)
    (g : Fin 64) (d : Fin 128) :
    k16_pay3 (F := Ideal) x0 x1 b acc (ix2 g d)
      = acc (ix2 g d) + ∑ r : Fin 10000, member b r g * k16_pay2 (F := Ideal) x0 x1 (ix2 r d) := by
  unfold k16_pay3
  simp only [shapeCast_self]
  exact pool_chain_apply b (k16_pay2 (F := Ideal) x0 x1) acc _ _ _ g d

theorem pay1_apply (j : S64x128.Idx) : k16_pay1 (F := Ideal) j = Ideal.ofBits .f32 0x00000000#32 := rfl

end Cert.KernelIdeal.Val

end
-- ==== Proof.KPoolSpec.lean ====
import proofs.«407097_j78262894068282_1_alg».proof.Proof.Spec
import proofs.«407097_j78262894068282_1_alg».proof.Proof.SpecTiles
import proofs.«407097_j78262894068282_1_alg».proof.Proof.KPoolSoftmax

noncomputable section

namespace Cert.KernelIdeal.Val

open Idealize.ShloMosaic Idealize.ShloMosaic.ValueIdx
open Cert.KernelIdeal Cert.KernelIdeal.Gen

theorem blockSoftmax_eq_assign (hb gb : FVec Ideal S10000x128 .f32) (H G : Spec.Mat 50000 128)
    (q : Fin 10000) (r : Fin 50000) (d : Fin 128)
    (hl : ∀ k : Fin 128, hb (ix2 q k) + gb (ix2 q k) = H (ix2 r k) + G (ix2 r k)) :
    blockSoftmax (fun j => hb j + gb j) q d = Spec.assign H G (ix2 r d) := by
  unfold blockSoftmax blockRowMax
  simp only [hl]
  rfl

theorem contrib_sum_eq_poolOf (C : Spec.Mat 50000 128) (B : IVec S50000x1 32) (g : Fin 64) (d : Fin 128) :
    Spec.zero32 + ∑ r : Fin 50000, (if B (ix2 r (0 : Fin 1)) = BitVec.ofNat 32 g.val then (1 : EReal) else 0) * C (ix2 r d)
      = Spec.poolOf C B (ix2 g d) := by
  unfold Spec.poolOf
  refine congrArg (fun z => Spec.zero32 + z) ?_
  refine (Spec.sum_filter_onehot (fun r : Fin 50000 => B (ix2 r (0 : Fin 1)) = BitVec.ofNat 32 g.val)
    (fun r => if B (ix2 r (0 : Fin 1)) = BitVec.ofNat 32 g.val then 1 else 0) (fun _ => rfl)
    (fun r => C (ix2 r d))).trans ?_
  refine Finset.sum_congr (Finset.filter_congr fun r _ => ?_) fun _ _ => rfl
  exact Spec.word_eq_graph_iff_toInt (B (ix2 r (0 : Fin 1))) g

end Cert.KernelIdeal.Val

end
-- ==== Proof.KPoolPoints.lean ====
import proofs.«407097_j78262894068282_1_alg».proof.Proof.Gen.KernelIdeal.Frame
import proofs.«407097_j78262894068282_1_alg».proof.Proof.Spec
import proofs.«407097_j78262894068282_1_alg».proof.Proof.SpecTiles
import proofs.«407097_j78262894068282_1_alg».proof.Proof.KPoolPieces
import proofs.«407097_j78262894068282_1_alg».proof.Proof.KPoolSoftmax
import proofs.«407097_j78262894068282_1_alg».proof.Proof.KPoolOnehot
import proofs.«407097_j78262894068282_1_alg».proof.Proof.KPoolSpec

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

abbrev hArr (c : Dev nD) : FVec Ideal S50000x128 .f32 := V c (Pipeline.arrRef spec16 0)
abbrev gArr (c : Dev nD) : FVec Ideal S50000x128 .f32 := V c (Pipeline.arrRef spec16 1)
abbrev bArr (c : Dev nD) : IVec S50000x1 32 := V c (Pipeline.arrRef spec16 2)

abbrev hBlk (c : Dev nD) (t : Fin cfg16.N) : FVec Ideal S10000x128 .f32 := iblk16 V c 0 t
abbrev gBlk (c : Dev nD) (t : Fin cfg16.N) : FVec Ideal S10000x128 .f32 := iblk16 V c 1 t
abbrev bBlk (c : Dev nD) (t : Fin cfg16.N) : IVec S10000x1 32 := iblk16 V c 2 t

abbrev cArr (c : Dev nD) : Spec.Mat 50000 128 := Spec.assign (hArr V c) (gArr V c)

def pt (t : Fin cfg16.N) : Fin 5 := ⟨t.val, lt_of_lt_of_eq t.isLt N_16⟩

theorem idx16 : ∀ t : Fin cfg16.N,
    win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0
    ∧ win16_3.index t (0 : Fin 2) = t.val ∧ win16_3.index t (1 : Fin 2) = 0
    ∧ win16_4.index t (0 : Fin 2) = 0 ∧ win16_4.index t (1 : Fin 2) = 0 :=
  (by decide +kernel : ∀ t : Fin grid16.N, _)

theorem hBlk_apply (c : Dev nD) (t : Fin cfg16.N) (q : Fin 10000) (d : Fin 128) :
    hBlk V c t (ix2 q d) = hArr V c (ix2 (Spec.tile (pt t) q) d) := by
  obtain ⟨e00, e01, e10, e11, e20, e21, e30, e31, e40, e41⟩ := idx16 t
  show ((cfg16.win 0).blk t).view.read (Elt Ideal) (V c (Pipeline.arrRef spec16 0)) (ix2 q d) = _
  rw [View.read_apply]
  refine congrArg (V c (Pipeline.arrRef spec16 0)) (funext fun a => Fin.ext ?_)
  match a with
  | ⟨0, _⟩ => show win16_0.index t (0 : Fin 2) * 10000 + 1 * q.val = 10000 * t.val + q.val; rw [e00]; omega
  | ⟨1, _⟩ => show win16_0.index t (1 : Fin 2) * 128 + 1 * d.val = d.val; rw [e01]; omega

theorem gBlk_apply (c : Dev nD) (t : Fin cfg16.N) (q : Fin 10000) (d : Fin 128) :
    gBlk V c t (ix2 q d) = gArr V c (ix2 (Spec.tile (pt t) q) d) := by
  obtain ⟨e00, e01, e10, e11, e20, e21, e30, e31, e40, e41⟩ := idx16 t
  show ((cfg16.win 1).blk t).view.read (Elt Ideal) (V c (Pipeline.arrRef spec16 1)) (ix2 q d) = _
  rw [View.read_apply]
  refine congrArg (V c (Pipeline.arrRef spec16 1)) (funext fun a => Fin.ext ?_)
  match a with
  | ⟨0, _⟩ => show win16_1.index t (0 : Fin 2) * 10000 + 1 * q.val = 10000 * t.val + q.val; rw [e10]; omega
  | ⟨1, _⟩ => show win16_1.index t (1 : Fin 2) * 128 + 1 * d.val = d.val; rw [e11]; omega

theorem bBlk_apply (c : Dev nD) (t : Fin cfg16.N) (q : Fin 10000) (u : Fin 1) :
    bBlk V c t (ix2 q u) = bArr V c (ix2 (Spec.tile (pt t) q) u) := by
  obtain ⟨e00, e01, e10, e11, e20, e21, e30, e31, e40, e41⟩ := idx16 t
  show ((cfg16.win 2).blk t).view.read (Elt Ideal) (V c (Pipeline.arrRef spec16 2)) (ix2 q u) = _
  rw [View.read_apply]
  refine congrArg (V c (Pipeline.arrRef spec16 2)) (funext fun a => Fin.ext ?_)
  match a with
  | ⟨0, _⟩ => show win16_2.index t (0 : Fin 2) * 10000 + 1 * q.val = 10000 * t.val + q.val; rw [e20]; omega
  | ⟨1, _⟩ => show win16_2.index t (1 : Fin 2) * 1 + 1 * u.val = u.val; rw [e21]; omega

theorem assignAt (c : Dev nD) (t : Fin cfg16.N) :
    (outsAt16 V c t.val t.isLt).1 = k16_pay2 (F := Ideal) (hBlk V c t) (gBlk V c t) := by
  by_cases h0 : t.val % 5 = 0
  · rw [outsAt16_A V c t h0]; dsimp only
    exact assign_first (F := Ideal) c (grid16.coords t) (ms16_0 t) (hs16_0 t) (ms16_1 t) (hs16_1 t) (ms16_2 t) (hs16_2 t)
      (ms16_3 t) (hs16_3 t) (ms16_4 t) (hs16_4 t) ((hcond16_0 t).mpr h0) (iblk16 V c 0 t) (iblk16 V c 1 t) (iblk16 V c 2 t)
  · rw [outsAt16_B V c t h0]; dsimp only
    exact assign_later (F := Ideal) c (grid16.coords t) (ms16_0 t) (hs16_0 t) (ms16_1 t) (hs16_1 t) (ms16_2 t) (hs16_2 t)
      (ms16_3 t) (hs16_3 t) (ms16_4 t) (hs16_4 t) (fun h => h0 ((hcond16_0 t).mp h)) (iblk16 V c 0 t) (iblk16 V c 1 t) (iblk16 V c 2 t)
      (outsAt16 V c (t.val - 1) (Nat.lt_of_le_of_lt (Nat.sub_le _ _) t.isLt)).2

theorem poolAt_first (c : Dev nD) (t : Fin cfg16.N) (h0 : t.val % 5 = 0) :
    (outsAt16 V c t.val t.isLt).2
      = k16_pay3 (F := Ideal) (hBlk V c t) (gBlk V c t) (bBlk V c t) (k16_pay1 (F := Ideal)) := by
  rw [outsAt16_A V c t h0]; dsimp only
  exact pool_first (F := Ideal) c (grid16.coords t) (ms16_0 t) (hs16_0 t) (ms16_1 t) (hs16_1 t) (ms16_2 t) (hs16_2 t)
    (ms16_3 t) (hs16_3 t) (ms16_4 t) (hs16_4 t) ((hcond16_0 t).mpr h0) (iblk16 V c 0 t) (iblk16 V c 1 t) (iblk16 V c 2 t)

theorem poolAt_later (c : Dev nD) (t : Fin cfg16.N) (h0 : ¬t.val % 5 = 0) :
    (outsAt16 V c t.val t.isLt).2
      = k16_pay3 (F := Ideal) (hBlk V c t) (gBlk V c t) (bBlk V c t)
          (outsAt16 V c (t.val - 1) (Nat.lt_of_le_of_lt (Nat.sub_le _ _) t.isLt)).2 := by
  rw [outsAt16_B V c t h0]; dsimp only
  exact pool_later (F := Ideal) c (grid16.coords t) (ms16_0 t) (hs16_0 t) (ms16_1 t) (hs16_1 t) (ms16_2 t) (hs16_2 t)
    (ms16_3 t) (hs16_3 t) (ms16_4 t) (hs16_4 t) (fun h => h0 ((hcond16_0 t).mp h)) (iblk16 V c 0 t) (iblk16 V c 1 t) (iblk16 V c 2 t)
    (outsAt16 V c (t.val - 1) (Nat.lt_of_le_of_lt (Nat.sub_le _ _) t.isLt)).2

theorem assign_block (c : Dev nD) (t : Fin cfg16.N) (q : Fin 10000) (d : Fin 128) :
    k16_pay2 (F := Ideal) (hBlk V c t) (gBlk V c t) (ix2 q d) = cArr V c (ix2 (Spec.tile (pt t) q) d) := by
  refine (pay2_apply (hBlk V c t) (gBlk V c t) q d).trans ?_
  exact blockSoftmax_eq_assign (hBlk V c t) (gBlk V c t) (hArr V c) (gArr V c) q (Spec.tile (pt t) q) d fun k => by
    rw [hBlk_apply, gBlk_apply]

def contrib (c : Dev nD) (g : Fin 64) (d : Fin 128) (r : Fin 50000) : EReal :=
  (if bArr V c (ix2 r (0 : Fin 1)) = BitVec.ofNat 32 g.val then 1 else 0) * cArr V c (ix2 r d)

theorem pool_update (c : Dev nD) (t : Fin cfg16.N) (acc : FVec Ideal S64x128 .f32) (g : Fin 64) (d : Fin 128) :
    k16_pay3 (F := Ideal) (hBlk V c t) (gBlk V c t) (bBlk V c t) acc (ix2 g d)
      = acc (ix2 g d) + ∑ q : Fin 10000, contrib V c g d (Spec.tile (pt t) q) := by
  refine (pay3_apply (hBlk V c t) (gBlk V c t) (bBlk V c t) acc g d).trans ?_
  refine congrArg (fun z => acc (ix2 g d) + z) (Finset.sum_congr rfl fun q _ => ?_)
  unfold member contrib
  rw [bBlk_apply, assign_block]

abbrev poolAfter (c : Dev nD) (n : ℕ) (hn : n < cfg16.N) (g : Fin 64) (d : Fin 128) : EReal :=
  (outsAt16 V c n hn).2 (ix2 g d)

theorem lt16 {n : ℕ} (h : n < 5) : n < cfg16.N := lt_of_lt_of_eq h N_16.symm

theorem pool_total (c : Dev nD) (g : Fin 64) (d : Fin 128) :
    poolAfter V c 4 (lt16 (by decide)) g d = Spec.zero32 + ∑ r : Fin 50000, contrib V c g d r := by
  refine Spec.fold_tiles (contrib V c g d)
    (poolAfter V c 0 (lt16 (by decide)) g d) (poolAfter V c 1 (lt16 (by decide)) g d) (poolAfter V c 2 (lt16 (by decide)) g d)
    (poolAfter V c 3 (lt16 (by decide)) g d) (poolAfter V c 4 (lt16 (by decide)) g d) ?_ ?_ ?_ ?_ ?_
  · exact (congrFun (poolAt_first V c ⟨0, lt16 (by decide)⟩ rfl) (ix2 g d)).trans
      (pool_update V c ⟨0, lt16 (by decide)⟩ (k16_pay1 (F := Ideal)) g d)
  · exact (congrFun (poolAt_later V c ⟨1, lt16 (by decide)⟩ (by decide)) (ix2 g d)).trans
      (pool_update V c ⟨1, lt16 (by decide)⟩ (outsAt16 V c 0 (lt16 (by decide))).2 g d)
  · exact (congrFun (poolAt_later V c ⟨2, lt16 (by decide)⟩ (by decide)) (ix2 g d)).trans
      (pool_update V c ⟨2, lt16 (by decide)⟩ (outsAt16 V c 1 (lt16 (by decide))).2 g d)
  · exact (congrFun (poolAt_later V c ⟨3, lt16 (by decide)⟩ (by decide)) (ix2 g d)).trans
      (pool_update V c ⟨3, lt16 (by decide)⟩ (outsAt16 V c 2 (lt16 (by decide))).2 g d)
  · exact (congrFun (poolAt_later V c ⟨4, lt16 (by decide)⟩ (by decide)) (ix2 g d)).trans
      (pool_update V c ⟨4, lt16 (by decide)⟩ (outsAt16 V c 3 (lt16 (by decide))).2 g d)

theorem pool_final (c : Dev nD) :
    (outsAt16 V c 4 (lt16 (by decide))).2 = Spec.poolOf (cArr V c) (bArr V c) := by
  funext j
  obtain ⟨g, d, rfl⟩ : ∃ (g : Fin 64) (d : Fin 128), j = ix2 g d := ⟨j 0, j 1, eq_ix2 j⟩
  refine (pool_total V c g d).trans ?_
  exact contrib_sum_eq_poolOf (cArr V c) (bArr V c) g d

end Cert.KernelIdeal.Val

end
-- ==== Proof.KPool.lean ====
import proofs.«407097_j78262894068282_1_alg».proof.Proof.KPoolPoints
import Idealize.ShloMosaic.Lib.Pipeline.Value

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem pool_in0 (c : Dev nD) : (dat16 V c).arrAt 0 cfg16.N = V c (Pipeline.arrRef spec16 0) :=
  ((dat16 V c).arrAt_in 0 rfl _).trans (A_eq16 V c 0)
theorem pool_in1 (c : Dev nD) : (dat16 V c).arrAt 1 cfg16.N = V c (Pipeline.arrRef spec16 1) :=
  ((dat16 V c).arrAt_in 1 rfl _).trans (A_eq16 V c 1)
theorem pool_in2 (c : Dev nD) : (dat16 V c).arrAt 2 cfg16.N = V c (Pipeline.arrRef spec16 2) :=
  ((dat16 V c).arrAt_in 2 rfl _).trans (A_eq16 V c 2)

theorem assign_flushed (c : Dev nD) (t : Fin cfg16.N) (hf : (cfg16.win 3).flush t = true) :
    (dat16 V c).flushed 3 t = ((cfg16.win 3).blk t).view.read (Elt Ideal) (cArr V c) := by
  obtain ⟨e00, e01, e10, e11, e20, e21, e30, e31, e40, e41⟩ := idx16 t
  show (cfg16.win 3).cut (grid16.coords t) ((dat16 V c).after 3 t) = _
  rw [after16_3, assignAt V c t]
  funext j
  obtain ⟨q, d, rfl⟩ : ∃ (q : Fin 10000) (d : Fin 128), j = ix2 q d := ⟨j 0, j 1, eq_ix2 j⟩
  show k16_pay2 (F := Ideal) (hBlk V c t) (gBlk V c t) (ix2 q d) = cArr V c (((cfg16.win 3).blk t).view.emb (ix2 q d))
  rw [assign_block]
  refine congrArg (cArr V c) (funext fun a => Fin.ext ?_)
  match a with
  | ⟨0, _⟩ => show 10000 * t.val + q.val = win16_3.index t (0 : Fin 2) * 10000 + 1 * q.val; rw [e30]; omega
  | ⟨1, _⟩ => show d.val = win16_3.index t (1 : Fin 2) * 128 + 1 * d.val; rw [e31]; omega

theorem assign_mem_blk (t : Fin cfg16.N) (i : S50000x128.Idx) :
    i ∈ ((cfg16.win 3).blk t).view.set ↔ ∀ a : Fin 2, win16_3.index t a * S10000x128.size a ≤ (i a).val
      ∧ (i a).val < win16_3.index t a * S10000x128.size a + S10000x128.size a := by
  show i ∈ ((View.whole main_v277_0).slice (win16_3.rect t)).set ↔ _
  rw [View.set_slice_whole, Rect.mem_set_unit]
  exact Iff.rfl

theorem pool_assign (c : Dev nD) :
    (dat16 V c).arrAt 3 cfg16.N = Spec.assign (V c (Pipeline.arrRef spec16 0)) (V c (Pipeline.arrRef spec16 1)) :=
  (dat16 V c).arrAt_eq_of_cover 3 (cArr V c) (assign_flushed V c) fun i => by
    have hi0 : (i 0).val < 50000 := (i 0).isLt
    have hi1 : (i 1).val < 128 := (i 1).isLt
    have hlt : (i 0).val / 10000 < cfg16.N := lt16 (by omega)
    obtain ⟨-, -, -, -, -, -, e30, e31, -, -⟩ := idx16 ⟨(i 0).val / 10000, hlt⟩
    refine ⟨⟨(i 0).val / 10000, hlt⟩, flush16_3 _, ?_⟩
    rw [assign_mem_blk]
    intro a
    match a with
    | ⟨0, _⟩ =>
      show win16_3.index ⟨(i 0).val / 10000, hlt⟩ (0 : Fin 2) * 10000 ≤ (i 0).val
        ∧ (i 0).val < win16_3.index ⟨(i 0).val / 10000, hlt⟩ (0 : Fin 2) * 10000 + 10000
      rw [e30]; dsimp only; omega
    | ⟨1, _⟩ =>
      show win16_3.index ⟨(i 0).val / 10000, hlt⟩ (1 : Fin 2) * 128 ≤ (i 1).val
        ∧ (i 1).val < win16_3.index ⟨(i 0).val / 10000, hlt⟩ (1 : Fin 2) * 128 + 128
      rw [e31]; omega

theorem pool_last (c : Dev nD) (t : Fin cfg16.N) (h4 : t.val = 4) :
    (outsAt16 V c t.val t.isLt).2 = Spec.poolOf (cArr V c) (bArr V c) := by
  obtain rfl : t = ⟨4, lt16 (by decide)⟩ := Fin.ext h4
  exact pool_final V c

theorem pooled_flushed (c : Dev nD) (t : Fin cfg16.N) (hf : (cfg16.win 4).flush t = true) :
    (dat16 V c).flushed 4 t = ((cfg16.win 4).blk t).view.read (Elt Ideal) (Spec.poolOf (cArr V c) (bArr V c)) := by
  have hN : t.val < 5 := lt_of_lt_of_eq t.isLt N_16
  have h4 : t.val = 4 := by have := (flush16_4 t).mp hf; omega
  obtain ⟨e00, e01, e10, e11, e20, e21, e30, e31, e40, e41⟩ := idx16 t
  show (cfg16.win 4).cut (grid16.coords t) ((dat16 V c).after 4 t) = _
  rw [after16_4, pool_last V c t h4]
  funext j
  obtain ⟨g, d, rfl⟩ : ∃ (g : Fin 64) (d : Fin 128), j = ix2 g d := ⟨j 0, j 1, eq_ix2 j⟩
  show Spec.poolOf (cArr V c) (bArr V c) (ix2 g d)
    = Spec.poolOf (cArr V c) (bArr V c) (((cfg16.win 4).blk t).view.emb (ix2 g d))
  refine congrArg (Spec.poolOf (cArr V c) (bArr V c)) (funext fun a => Fin.ext ?_)
  match a with
  | ⟨0, _⟩ => show g.val = win16_4.index t (0 : Fin 2) * 64 + 1 * g.val; rw [e40]; omega
  | ⟨1, _⟩ => show d.val = win16_4.index t (1 : Fin 2) * 128 + 1 * d.val; rw [e41]; omega

theorem pooled_mem_blk (t : Fin cfg16.N) (i : S64x128.Idx) :
    i ∈ ((cfg16.win 4).blk t).view.set ↔ ∀ a : Fin 2, win16_4.index t a * S64x128.size a ≤ (i a).val
      ∧ (i a).val < win16_4.index t a * S64x128.size a + S64x128.size a := by
  show i ∈ ((View.whole main_v277_1).slice (win16_4.rect t)).set ↔ _
  rw [View.set_slice_whole, Rect.mem_set_unit]
  exact Iff.rfl

theorem pool_pooled (c : Dev nD) :
    (dat16 V c).arrAt 4 cfg16.N
      = Spec.poolOf (Spec.assign (V c (Pipeline.arrRef spec16 0)) (V c (Pipeline.arrRef spec16 1))) (V c (Pipeline.arrRef spec16 2)) :=
  (dat16 V c).arrAt_eq_of_cover 4 (Spec.poolOf (cArr V c) (bArr V c)) (pooled_flushed V c) fun i => by
    have hi0 : (i 0).val < 64 := (i 0).isLt
    have hi1 : (i 1).val < 128 := (i 1).isLt
    have hlt : 4 < cfg16.N := lt16 (by decide)
    obtain ⟨-, -, -, -, -, -, -, -, e40, e41⟩ := idx16 ⟨4, hlt⟩
    refine ⟨⟨4, hlt⟩, (flush16_4 _).mpr rfl, ?_⟩
    rw [pooled_mem_blk]
    intro a
    match a with
    | ⟨0, _⟩ =>
      show win16_4.index ⟨4, hlt⟩ (0 : Fin 2) * 64 ≤ (i 0).val ∧ (i 0).val < win16_4.index ⟨4, hlt⟩ (0 : Fin 2) * 64 + 64
      rw [e40]; omega
    | ⟨1, _⟩ =>
      show win16_4.index ⟨4, hlt⟩ (1 : Fin 2) * 128 ≤ (i 1).val ∧ (i 1).val < win16_4.index ⟨4, hlt⟩ (1 : Fin 2) * 128 + 128
      rw [e41]; omega

end Cert.KernelIdeal.Val

end
-- ==== Proof.KChain.lean ====
import proofs.«407097_j78262894068282_1_alg».proof.Proof.KLayer0
import proofs.«407097_j78262894068282_1_alg».proof.Proof.KLayer1
import proofs.«407097_j78262894068282_1_alg».proof.Proof.KLayer2
import proofs.«407097_j78262894068282_1_alg».proof.Proof.KLayer3
import proofs.«407097_j78262894068282_1_alg».proof.Proof.KLayer4
import proofs.«407097_j78262894068282_1_alg».proof.Proof.KLayer5
import proofs.«407097_j78262894068282_1_alg».proof.Proof.KLayer6
import proofs.«407097_j78262894068282_1_alg».proof.Proof.KLayer7
import proofs.«407097_j78262894068282_1_alg».proof.Proof.KPool

set_option maxRecDepth 16384

noncomputable section

namespace Cert.KernelIdeal.Val

open Cert.KernelIdeal Cert.KernelIdeal.Gen
open Idealize.ShloMosaic Idealize.ShloMosaic.TcCoe Idealize.ShloMosaic.ValueIdx
open Cert

variable (m : (ℓ : Loc nD τ sig) → Buf (Elt Ideal) ℓ) (ρ : Dev nD → PrngReg)

-- The eight layers one after the other: each finds the carried buffers as the one before left them.
theorem W32_net (c : Dev nD) :
    Carried m c (Gen.W32 m ρ c) ∧ Gen.W32 m ρ c (Proc.devRef .tc main_v276) = Spec.netMS (inputs m c) := by
  obtain ⟨h0, e0⟩ := layer0 m ρ c
  obtain ⟨h1, e1⟩ := layer1 m ρ c h0
  obtain ⟨h2, e2⟩ := layer2 m ρ c h1
  obtain ⟨h3, e3⟩ := layer3 m ρ c h2
  obtain ⟨h4, e4⟩ := layer4 m ρ c h3
  obtain ⟨h5, e5⟩ := layer5 m ρ c h4
  obtain ⟨h6, e6⟩ := layer6 m ρ c h5
  obtain ⟨h7, e7⟩ := layer7 m ρ c h6
  exact ⟨h7, by rw [e7, e6, e5, e4, e3, e2, e1, e0]; rfl⟩

-- The pooling launch's first output is the row softmax of the network's features plus the noise.
theorem W33_assign (c : Dev nD) :
    Gen.W33 m ρ c (Proc.devRef .tc main_v277_0)
      = Spec.assign (Spec.netMS (inputs m c)) (m ((c : Thread nD τ).loc main_arg3)) := by
  obtain ⟨hC, h⟩ := W32_net m ρ c
  have e : Gen.W33 m ρ c (Proc.devRef .tc main_v277_0)
      = Spec.assign (Gen.W32 m ρ c (Proc.devRef .tc main_v276)) (Gen.W32 m ρ c (Proc.devRef .tc main_arg3)) :=
    (Gen.W33_arr m ρ c 3).trans (pool_assign (Gen.V32 m ρ) c)
  rw [h, hC.args main_arg3 (by decide)] at e
  exact e

-- Its second output holds the per-graph sums of the first.
theorem W33_pool (c : Dev nD) :
    Gen.W33 m ρ c (Proc.devRef .tc main_v277_1)
      = Spec.poolOf (Spec.assign (Spec.netMS (inputs m c)) (m ((c : Thread nD τ).loc main_arg3)))
          (batchCol (m ((c : Thread nD τ).loc main_arg2))) := by
  obtain ⟨hC, h⟩ := W32_net m ρ c
  have e : Gen.W33 m ρ c (Proc.devRef .tc main_v277_1)
      = Spec.poolOf (Spec.assign (Gen.W32 m ρ c (Proc.devRef .tc main_v276)) (Gen.W32 m ρ c (Proc.devRef .tc main_arg3)))
          (Gen.W32 m ρ c (Proc.devRef .tc main_v4)) :=
    (Gen.W33_arr m ρ c 4).trans (pool_pooled (Gen.V32 m ρ) c)
  rw [h, hC.args main_arg3 (by decide), hC.v4] at e
  exact e

-- The head's four arguments are still as launched after the pooling launch, which has none of them among its arrays.
theorem W33_main_arg10 (c : Dev nD) :
    Gen.W33 m ρ c (Proc.devRef .tc main_arg10) = m ((c : Thread nD τ).loc main_arg10) :=
  (Gen.W33_of_ne m ρ c main_arg10 (by decide)).trans ((W32_net m ρ c).1.args main_arg10 (by decide))
theorem W33_main_arg11 (c : Dev nD) :
    Gen.W33 m ρ c (Proc.devRef .tc main_arg11) = m ((c : Thread nD τ).loc main_arg11) :=
  (Gen.W33_of_ne m ρ c main_arg11 (by decide)).trans ((W32_net m ρ c).1.args main_arg11 (by decide))
theorem W33_main_arg12 (c : Dev nD) :
    Gen.W33 m ρ c (Proc.devRef .tc main_arg12) = m ((c : Thread nD τ).loc main_arg12) :=
  (Gen.W33_of_ne m ρ c main_arg12 (by decide)).trans ((W32_net m ρ c).1.args main_arg12 (by decide))
theorem W33_main_arg13 (c : Dev nD) :
    Gen.W33 m ρ c (Proc.devRef .tc main_arg13) = m ((c : Thread nD τ).loc main_arg13) :=
  (Gen.W33_of_ne m ρ c main_arg13 (by decide)).trans ((W32_net m ρ c).1.args main_arg13 (by decide))

end Cert.KernelIdeal.Val

end
-- ==== Proof.RTailMath.lean ====
import Idealize.ShloMosaic.Lib.ValueIdx
import Idealize.ShloMosaic.Lib.IdealHost
import Idealize.ShloMosaic.Lib.Pipeline.Value
import Idealize.ShloMosaic.PureOps.Ideal.Laws
import proofs.«407097_j78262894068282_1_alg».proof.Proof.Spec

noncomputable section

namespace Cert.TailMath

open Idealize.ShloMosaic Idealize.ShloMosaic.ValueIdx

abbrev SN : Shape := ⟨2, ![50000, 128]⟩
abbrev SR : Shape := ⟨1, ![50000]⟩
abbrev SC : Shape := ⟨2, ![50000, 1]⟩
abbrev S0 : Shape := ⟨0, ![]⟩
abbrev SG : Shape := ⟨2, ![64, 128]⟩

theorem ofBits_neg_inf_f32 : Ideal.ofBits .f32 0xFF800000#32 = ⊥ := by
  simp [Ideal.ofBits, Ideal.ieee]

theorem hostExp_apply {s : Shape} (a : FVec Ideal s .f32) (i : s.Idx) : Host.exp a i = Ideal.exp (a i) := rfl

theorem colSpread_apply {α : Type} (hb1 : SR.BroadcastsInDim SC (![0] : Fin 1 → Fin SC.rank))
    (hb2 : SC.BroadcastsInDim SN (![0, 1] : Fin 2 → Fin SN.rank)) (v : SR.Idx → α) (r : Fin 50000) (k : Fin 128) :
    broadcastInDim SN ![0, 1] hb2 (broadcastInDim SC ![0] hb1 v) (ix2 r k) = v (ix1 r) := by
  rw [broadcastInDim_apply (![0, 1] : Fin 2 → Fin SN.rank) hb2 _ (ix2 r k) (ix2 r (0 : Fin 1))
    (fun a => by match a with | ⟨0, _⟩ => rfl | ⟨1, _⟩ => rfl)]
  exact broadcastInDim_apply (![0] : Fin 1 → Fin SC.rank) hb1 v (ix2 r (0 : Fin 1)) (ix1 r)
    (fun a => by match a with | ⟨0, _⟩ => rfl)

theorem lift_row (h : SN.Reduces [1] SR) (r : Fin 50000) (k : Fin 128) : h.lift (ix1 r) k = ix2 r k := by
  funext a
  refine Fin.ext ?_
  match a with
  | ⟨0, _⟩ => rfl
  | ⟨1, _⟩ => rfl

theorem rowMaxHost_apply (y : FVec Ideal SN .f32) (h' : SN.ReducesTo [1] SR) (hu : 0 < S0.numel)
    (hbS : S0.BroadcastsInDim SR (![] : Fin 0 → Fin SR.rank)) (r : Fin 50000) :
    maximumf (broadcastInDim SR ![] hbS (constant (F := Ideal) S0 .f32 0xFF800000#32))
        (Host.reduce FloatOps.maximumf y (constant (F := Ideal) S0 .f32 0xFF800000#32) h' hu) (ix1 r)
      = Spec.rowMax y r := by
  have h : SN.Reduces [1] SR := by decide
  rw [maximumf_apply, broadcastInDim_scalar_apply, constant_apply, ofBits_neg_inf_f32, bot_sup_eq,
    Host.reduce_eq_fold_single FloatOps.maximumf y _ h' h hu, constant_apply, ofBits_neg_inf_f32]
  have e : (y ∘ h.lift (ix1 r)) = fun k => y (ix2 r k) := funext fun k => congrArg y (lift_row h r k)
  rw [e]
  rfl

theorem rowSumHost_apply (y : FVec Ideal SN .f32) (h' : SN.ReducesTo [1] SR) (hu : 0 < S0.numel) (r : Fin 50000) :
    Host.reduceAdd y (constant (F := Ideal) S0 .f32 0x00000000#32) h' hu (ix1 r) = ∑ k : Fin 128, y (ix2 r k) := by
  have h : SN.Reduces [1] SR := by decide
  rw [hostReduceAdd_apply, Ideal.hostReduceAdd_single h' h, constant_apply, Ideal.ofBits_zero_f32, zero_add]
  exact Finset.sum_congr rfl fun k _ => congrArg y (lift_row h r k)

section Softmax
variable (h' : SN.ReducesTo [1] SR) (hu : 0 < S0.numel) (hbS : S0.BroadcastsInDim SR (![] : Fin 0 → Fin SR.rank))
  (hb1 : SR.BroadcastsInDim SC (![0] : Fin 1 → Fin SC.rank)) (hb2 : SC.BroadcastsInDim SN (![0, 1] : Fin 2 → Fin SN.rank))

-- The exponential of `y` less its row maxima (each taken once more against −∞) spread over the rows.
def expRows (y : FVec Ideal SN .f32) : FVec Ideal SN .f32 :=
  Host.exp (subf y (broadcastInDim SN ![0, 1] hb2 (broadcastInDim SC ![0] hb1
    (maximumf (broadcastInDim SR ![] hbS (constant (F := Ideal) S0 .f32 0xFF800000#32)) (Host.reduce FloatOps.maximumf y (constant (F := Ideal) S0 .f32 0xFF800000#32) h' hu)))))

-- Row maximum, difference, exponential, row sum, quotient: the row softmax of x + g.
theorem assign_chain (x g : FVec Ideal SN .f32) :
    Host.divf (expRows h' hu hbS hb1 hb2 (addf x g))
        (broadcastInDim SN ![0, 1] hb2 (broadcastInDim SC ![0] hb1
          (Host.reduceAdd (expRows h' hu hbS hb1 hb2 (addf x g)) (constant (F := Ideal) S0 .f32 0x00000000#32) h' hu)))
      = Spec.assign x g := by
  funext j
  obtain ⟨r, k, rfl⟩ : ∃ (r : Fin 50000) (k : Fin 128), j = ix2 r k := ⟨j 0, j 1, eq_ix2 j⟩
  have hexp : ∀ k' : Fin 128, expRows h' hu hbS hb1 hb2 (addf x g) (ix2 r k')
      = Ideal.exp ((x (ix2 r k') + g (ix2 r k')) - Spec.rowMax (fun i => x i + g i) r) := by
    intro k'
    unfold expRows
    rw [hostExp_apply, subf_apply, addf_apply, colSpread_apply, rowMaxHost_apply]
    rfl
  rw [hostDivf_apply, colSpread_apply, rowSumHost_apply, hexp k]
  simp only [hexp]
  rfl

end Softmax

-- The accumulating scatter of the rows into zero is the per-graph sum.
theorem pool_scatter (wf : ScatterDims.WF SG SC SN [1] [0] [0] 1)
    (hbG : S0.BroadcastsInDim SG (![] : Fin 0 → Fin SG.rank)) (idx : IVec SC 32) (c : FVec Ideal SN .f32) :
    Host.scatterAdd (LibGatherScatter.scatRowsDims 64 50000 128 wf)
        (broadcastInDim SG ![] hbG (constant (F := Ideal) S0 .f32 0x00000000#32)) idx c
      = Spec.poolOf c idx := by
  funext j
  obtain ⟨n, d, rfl⟩ : ∃ (n : Fin 64) (d : Fin 128), j = ix2 n d := ⟨j 0, j 1, eq_ix2 j⟩
  show Ideal.hostScatterAdd (LibGatherScatter.scatRowsDims 64 50000 128 wf) _ idx c (ix2 n d) = _
  rw [LibGatherScatter.scatterAdd_rows_apply, broadcastInDim_scalar_apply, constant_apply]
  rfl

def colOf (b : IVec SR 32) : IVec SC 32 := fun j => b (ix1 (⟨(j 0).val, idx2_lt0 j⟩ : Fin 50000))

theorem bcastCol_eq (hb : SR.BroadcastsInDim SC (![0] : Fin 1 → Fin SC.rank)) (b : IVec SR 32) :
    broadcastInDim SC ![0] hb b = colOf b := by
  funext j
  exact broadcastInDim_apply (![0] : Fin 1 → Fin SC.rank) hb b j (ix1 (⟨(j 0).val, idx2_lt0 j⟩ : Fin 50000))
    (fun a => by match a with | ⟨0, _⟩ => rfl)

-- Position r of the vector is position r * 1 + 0 of the column.
theorem castCol_eq (hc : SR.ShapeCasts SC) (b : IVec SR 32) : shapeCast SC b hc = colOf b := by
  funext j
  refine shapeCast_apply b hc j (ix1 (⟨(j 0).val, idx2_lt0 j⟩ : Fin 50000)) ?_
  rw [Shape.rowMajor_val_one, Shape.rowMajor_val_two]
  have h1 : (j 1).val < 1 := idx2_lt1 j
  show (j 0).val = (j 0).val * 1 + (j 1).val
  omega

abbrev S128x128 : Shape := ⟨2, ![128, 128]⟩
abbrev S128 : Shape := ⟨1, ![128]⟩
abbrev S1x128 : Shape := ⟨2, ![1, 128]⟩
abbrev S128x10 : Shape := ⟨2, ![128, 10]⟩
abbrev S10 : Shape := ⟨1, ![10]⟩
abbrev S1x10 : Shape := ⟨2, ![1, 10]⟩
abbrev SO : Shape := ⟨2, ![64, 10]⟩
abbrev S64 : Shape := ⟨1, ![64]⟩
abbrev S64x1 : Shape := ⟨2, ![64, 1]⟩

structure HeadFacts : Prop where
  wd1 : DotDims.WF SG S128x128 SG [1] [0] [0] [1] [] []
  wd2 : DotDims.WF SG S128x10 SO [1] [0] [0] [1] [] []
  b_128_1x128 : S128.BroadcastsInDim S1x128 (![1] : Fin 1 → Fin S1x128.rank)
  b_1x128_G : S1x128.BroadcastsInDim SG (![0, 1] : Fin 2 → Fin SG.rank)
  b_0_G : S0.BroadcastsInDim SG (![] : Fin 0 → Fin SG.rank)
  b_10_1x10 : S10.BroadcastsInDim S1x10 (![1] : Fin 1 → Fin S1x10.rank)
  b_1x10_O : S1x10.BroadcastsInDim SO (![0, 1] : Fin 2 → Fin SO.rank)
  r_O_64 : SO.ReducesTo [1] S64
  u0 : 0 < S0.numel
  b_0_64 : S0.BroadcastsInDim S64 (![] : Fin 0 → Fin S64.rank)
  b_64_64x1 : S64.BroadcastsInDim S64x1 (![0] : Fin 1 → Fin S64x1.rank)
  b_64x1_O : S64x1.BroadcastsInDim SO (![0, 1] : Fin 2 → Fin SO.rank)

-- Product, bias, leaky rectifier, product, bias, row softmax.
def headOf (hf : HeadFacts) (pooled : FVec Ideal SG .f32) (Wd1 : FVec Ideal S128x128 .f32) (bd1 : FVec Ideal S128 .f32)
    (Wd2 : FVec Ideal S128x10 .f32) (bd2 : FVec Ideal S10 .f32) : FVec Ideal SO .f32 :=
  let z1 : FVec Ideal SG .f32 :=
    addf (Host.dotGeneral (⟨[1], [0], [0], [1], [], [], hf.wd1⟩ : DotDims SG S128x128 SG) none pooled Wd1)
      (broadcastInDim SG ![0, 1] hf.b_1x128_G (broadcastInDim S1x128 ![1] hf.b_128_1x128 bd1))
  let a1 : FVec Ideal SG .f32 :=
    select (cmpf .oge z1 (broadcastInDim SG ![] hf.b_0_G (constant (F := Ideal) S0 .f32 0x00000000#32))) z1
      (mulf (broadcastInDim SG ![] hf.b_0_G (id (constant (F := Ideal) S0 .f32 0x3C23D70A#32))) z1)
  let z2 : FVec Ideal SO .f32 :=
    addf (Host.dotGeneral (⟨[1], [0], [0], [1], [], [], hf.wd2⟩ : DotDims SG S128x10 SO) none a1 Wd2)
      (broadcastInDim SO ![0, 1] hf.b_1x10_O (broadcastInDim S1x10 ![1] hf.b_10_1x10 bd2))
  let mx : FVec Ideal S64 .f32 :=
    maximumf (broadcastInDim S64 ![] hf.b_0_64 (constant (F := Ideal) S0 .f32 0xFF800000#32))
      (Host.reduce FloatOps.maximumf z2 (constant (F := Ideal) S0 .f32 0xFF800000#32) hf.r_O_64 hf.u0)
  let e : FVec Ideal SO .f32 :=
    Host.exp (subf z2 (broadcastInDim SO ![0, 1] hf.b_64x1_O (broadcastInDim S64x1 ![0] hf.b_64_64x1 mx)))
  let sm : FVec Ideal S64 .f32 := Host.reduceAdd e (constant (F := Ideal) S0 .f32 0x00000000#32) hf.r_O_64 hf.u0
  Host.divf e (broadcastInDim SO ![0, 1] hf.b_64x1_O (broadcastInDim S64x1 ![0] hf.b_64_64x1 sm))

end Cert.TailMath

end
-- ==== Proof.KTail.lean ====
import proofs.«407097_j78262894068282_1_alg».proof.Proof.Gen.KernelIdeal.Launch
import proofs.«407097_j78262894068282_1_alg».proof.Proof.RTailMath
import Idealize.ShloMosaic.Lib.StableHlo.Run

noncomputable section

namespace Cert.KernelIdeal.Val

open Cert.KernelIdeal Cert.KernelIdeal.Gen Idealize.ShloMosaic Idealize.ShloMosaic.TcCoe Idealize.SL.Sem Idealize.ShloMosaic.StableHlo

theorem headFactsK : Cert.TailMath.HeadFacts :=
  ⟨dot_S64x128_S128x128_S64x128_1_0_0_1_n_n_wf, dot_S64x128_S128x10_S64x10_1_0_0_1_n_n_wf, bcast_S128_S1x128_1,
    bcast_S1x128_S64x128_0_1, bcast_S_S64x128, bcast_S10_S1x10_1, bcast_S1x10_S64x10_0_1, reducesTo_S64x10_S64_d1, h_S_,
    bcast_S_S64, bcast_S64_S64x1_0, bcast_S64x1_S64x10_0_1⟩

def headK (pooled : FVec Ideal Cert.TailMath.SG .f32) (Wd1 : FVec Ideal Cert.TailMath.S128x128 .f32)
    (bd1 : FVec Ideal Cert.TailMath.S128 .f32) (Wd2 : FVec Ideal Cert.TailMath.S128x10 .f32)
    (bd2 : FVec Ideal Cert.TailMath.S10 .f32) : FVec Ideal Cert.TailMath.SO .f32 :=
  Cert.TailMath.headOf headFactsK pooled Wd1 bd1 Wd2 bd2

theorem ktail_head (V : Valuation τ sig (Elt Ideal)) :
    after (hostOps17_2 (F := Ideal)) (after (hostOps17_1 (F := Ideal)) (after (hostOps17 (F := Ideal)) V)) (Proc.devRef .tc main_v297)
      = headK (V (Proc.devRef .tc main_v277_1)) (V (Proc.devRef .tc main_arg10)) (V (Proc.devRef .tc main_arg11)) (V (Proc.devRef .tc main_arg12)) (V (Proc.devRef .tc main_arg13)) := by
  dsimp only [hostOps17, hostOps17_1, hostOps17_2]
  after_results_simp
  rfl

theorem ktail_keep_assign (V : Valuation τ sig (Elt Ideal)) :
    after (hostOps17_2 (F := Ideal)) (after (hostOps17_1 (F := Ideal)) (after (hostOps17 (F := Ideal)) V)) (Proc.devRef .tc main_v277_0)
      = V (Proc.devRef .tc main_v277_0) := by
  dsimp only [hostOps17, hostOps17_1, hostOps17_2]
  after_results_simp

end Cert.KernelIdeal.Val

end
-- ==== Proof.KValue.lean ====
import proofs.«407097_j78262894068282_1_alg».proof.Proof.KChain
import proofs.«407097_j78262894068282_1_alg».proof.Proof.KTail

set_option maxRecDepth 16384

noncomputable section

namespace Cert.KernelIdeal.Val

open Cert.KernelIdeal Cert.KernelIdeal.Gen
open Idealize.ShloMosaic Idealize.ShloMosaic.TcCoe
open Cert

variable (m : (ℓ : Loc nD τ sig) → Buf (Elt Ideal) ℓ) (ρ : Dev nD → PrngReg)

theorem W36_out (c : Dev nD) :
    Gen.W36 m ρ c (Proc.devRef .tc main_v297)
      = headK (Spec.poolOf (Spec.assign (Spec.netMS (inputs m c)) (m ((c : Thread nD τ).loc main_arg3)))
            (batchCol (m ((c : Thread nD τ).loc main_arg2))))
          (m ((c : Thread nD τ).loc main_arg10)) (m ((c : Thread nD τ).loc main_arg11))
          (m ((c : Thread nD τ).loc main_arg12)) (m ((c : Thread nD τ).loc main_arg13)) := by
  refine (ktail_head (Gen.W33 m ρ c)).trans ?_
  rw [W33_pool m ρ c, W33_main_arg10 m ρ c, W33_main_arg11 m ρ c, W33_main_arg12 m ρ c, W33_main_arg13 m ρ c]

theorem W36_assign (c : Dev nD) :
    Gen.W36 m ρ c (Proc.devRef .tc main_v277_0)
      = Spec.assign (Spec.netMS (inputs m c)) (m ((c : Thread nD τ).loc main_arg3)) :=
  (ktail_keep_assign (Gen.W33 m ρ c)).trans (W33_assign m ρ c)

end Cert.KernelIdeal.Val

end
-- ==== Proof.SpecEdges.lean ====
import proofs.«407097_j78262894068282_1_alg».proof.Proof.Spec

noncomputable section

namespace Cert.Spec

open Idealize.ShloMosaic

theorem slices_edges_src : (⟨2, ![2, 600000]⟩ : Shape).Slices ![0, 0] ⟨2, ![1, 600000]⟩ := by decide
theorem slices_edges_dst : (⟨2, ![2, 600000]⟩ : Shape).Slices ![1, 0] ⟨2, ![1, 600000]⟩ := by decide
theorem casts_edges_row : (⟨2, ![1, 600000]⟩ : Shape).ShapeCasts ⟨1, ![600000]⟩ := by decide

def srcVec (e : IVec ⟨2, ![2, 600000]⟩ 32) : IVec ⟨1, ![600000]⟩ 32 :=
  shapeCast ⟨1, ![600000]⟩ (extractStridedSlice ⟨2, ![1, 600000]⟩ ![0, 0] e slices_edges_src) casts_edges_row

def dstVec (e : IVec ⟨2, ![2, 600000]⟩ 32) : IVec ⟨1, ![600000]⟩ 32 :=
  shapeCast ⟨1, ![600000]⟩ (extractStridedSlice ⟨2, ![1, 600000]⟩ ![1, 0] e slices_edges_dst) casts_edges_row

end Cert.Spec

end
-- ==== Proof.RLayerAgg.lean ====
import Idealize.ShloMosaic.Lib.ValueIdx
import Idealize.ShloMosaic.Lib.IdealHost
import Idealize.ShloMosaic.Lib.ValueLayout
import Idealize.ShloMosaic.Lib.Pipeline.Value
import proofs.«407097_j78262894068282_1_alg».proof.Proof.Spec

noncomputable section

namespace Cert.ReferenceIdeal.Val

open Idealize.ShloMosaic Idealize.ShloMosaic.ValueIdx

theorem bcast_scalar_edges : (⟨0, ![]⟩ : Shape).BroadcastsInDim ⟨1, ![600000]⟩ (![] : Fin 0 → Fin 1) := by decide
theorem bcast_edges_col : (⟨1, ![600000]⟩ : Shape).BroadcastsInDim ⟨2, ![600000, 1]⟩ (![0] : Fin 1 → Fin 2) := by decide

-- A negative source word has the node count added; the words are then laid as a column.
def srcB (s1 : IVec ⟨1, ![600000]⟩ 32) : IVec ⟨2, ![600000, 1]⟩ 32 :=
  broadcastInDim ⟨2, ![600000, 1]⟩ ![0] bcast_edges_col
    (select (cmpi .slt s1 (broadcastInDim ⟨1, ![600000]⟩ ![] bcast_scalar_edges (constantI ⟨0, ![]⟩ 32 0#32)))
      (addi s1 (broadcastInDim ⟨1, ![600000]⟩ ![] bcast_scalar_edges (constantI ⟨0, ![]⟩ 32 50000#32))) s1)

def dstB (d1 : IVec ⟨1, ![600000]⟩ 32) : IVec ⟨2, ![600000, 1]⟩ 32 :=
  broadcastInDim ⟨2, ![600000, 1]⟩ ![0] bcast_edges_col d1

-- Entry (n, d): zero plus the sum, over the edges whose destination is n, of the source row's entry d.
theorem agg_eq
    (wfg : GatherDims.WF ⟨2, ![50000, 128]⟩ ⟨2, ![600000, 1]⟩ ⟨2, ![600000, 128]⟩ [1] [0] [] [0] [] 1 ![1, 128])
    (wfs : ScatterDims.WF ⟨2, ![50000, 128]⟩ ⟨2, ![600000, 1]⟩ ⟨2, ![600000, 128]⟩ [1] [0] [0] 1)
    (hz : (⟨0, ![]⟩ : Shape).BroadcastsInDim ⟨2, ![50000, 128]⟩ (![] : Fin 0 → Fin 2))
    (x : FVec Ideal ⟨2, ![50000, 128]⟩ .f32) (sB dB : IVec ⟨2, ![600000, 1]⟩ 32) :
    Host.scatterAdd (F := Ideal) (LibGatherScatter.scatRowsDims 50000 600000 128 wfs)
        (broadcastInDim ⟨2, ![50000, 128]⟩ ![] hz (constant (F := Ideal) ⟨0, ![]⟩ .f32 0x00000000#32))
        dB (Host.gather (LibGatherScatter.rowsDims 50000 600000 128 wfg) x sB)
      = Spec.aggOf x sB dB := by
  funext j
  obtain ⟨n, d, rfl⟩ : ∃ (n : Fin 50000) (d : Fin 128), j = ix2 n d := ⟨j 0, j 1, eq_ix2 j⟩
  refine (LibGatherScatter.scatterAdd_rows_apply wfs _ dB _ n d).trans ?_
  show _ = Spec.zero32 + ∑ e ∈ Finset.univ.filter (fun e : Fin 600000 => (dB (ix2 e (0 : Fin 1))).toInt = ((n.val : Nat) : ℤ)),
    x (ix2 (LibGatherScatter.clampRow 50000 (by decide) (sB (ix2 e (0 : Fin 1)))) d)
  refine congrArg₂ (· + ·) (broadcastInDim_scalar_apply hz _ (ix2 n d)) (Finset.sum_congr rfl fun e _ => ?_)
  exact LibGatherScatter.gather_rows_apply (by decide) wfg x sB e d

end Cert.ReferenceIdeal.Val

end
-- ==== Proof.ROps.Base.lean ====
import Idealize.ShloMosaic.Lib.StableHlo.Run

namespace Cert.ReferenceIdeal.Val

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem take_append_drop_append {α : Type _} (n : Nat) (l r : List α) : l.take n ++ (l.drop n ++ r) = l ++ r := by
  rw [← List.append_assoc, List.take_append_drop]

-- What running a line asks of it: references of `tcRefs` only, every result determined, and `W` the buffers written, in order.
structure Line (l : List (HloOp τ sig Val)) (W : List (Ref sig .tc)) : Prop where
  sub : l.Forall fun op => op.bufs ⊆ tcRefs τ sig
  fresh : l.map HloOp.fresh = l.map fun _ => ∅
  writes : l.map HloOp.writes = W.map fun y => {Proc.devRef .tc y}

namespace Line

variable {l l₁ l₂ : List (HloOp τ sig Val)} {W W₁ W₂ : List (Ref sig .tc)}

theorem append (h₁ : Line l₁ W₁) (h₂ : Line l₂ W₂) : Line (l₁ ++ l₂) (W₁ ++ W₂) :=
  ⟨List.forall_append.2 ⟨h₁.sub, h₂.sub⟩, by rw [List.map_append, List.map_append, h₁.fresh, h₂.fresh],
    by rw [List.map_append, List.map_append, h₁.writes, h₂.writes]⟩

-- An operation of the line writes one buffer of `W`, so a buffer outside `W` is never written.
theorem keep (h : Line l W) (V : Valuation τ sig Val) {r : Ref sig .tc} (hr : r ∉ W) :
    after l V (Proc.devRef .tc r) = V (Proc.devRef .tc r) :=
  after_of_forall_not_mem l V fun op hop hb => by
    obtain ⟨y, hy, he⟩ := List.mem_map.1 (h.writes ▸ List.mem_map_of_mem (f := HloOp.writes) hop)
    rw [← he, Finset.mem_singleton] at hb
    exact hr (Proc.devRef_injective _ hb ▸ hy)

end Line

end Cert.ReferenceIdeal.Val
-- ==== Proof.ROps.Pre.lean ====
import proofs.«407097_j78262894068282_1_alg».proof.ReferenceIdeal
import proofs.«407097_j78262894068282_1_alg».proof.Proof.Gen.ReferenceIdeal
import proofs.«407097_j78262894068282_1_alg».proof.Proof.ROps.Base

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev opsPre : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000 ]

abbrev opsPre_W : List (Ref sig .tc) :=
  [main_v0, main_v1, main_v2, main_v3]

theorem opsPre_line : Line (opsPre : List (HloOp τ sig (Elt F))) opsPre_W :=
  ⟨by simp only [List.Forall, unary_bufs_sub, reshape_bufs_sub, and_self], rfl, rfl⟩

theorem opsPre_keep (V : Valuation τ sig (Elt F)) (r : Ref sig .tc) (h : r ∉ opsPre_W) :
    after opsPre V (Proc.devRef .tc r) = V (Proc.devRef .tc r) :=
  opsPre_line.keep V h

end Cert.ReferenceIdeal.Val

end
-- ==== Proof.RChainBase.lean ====
import proofs.«407097_j78262894068282_1_alg».proof.Proof.Spec
import proofs.«407097_j78262894068282_1_alg».proof.Proof.SpecEdges
import proofs.«407097_j78262894068282_1_alg».proof.Proof.RLayerAgg
import proofs.«407097_j78262894068282_1_alg».proof.Proof.ROps.Pre

noncomputable section

namespace Cert.ReferenceIdeal.Val

open Cert.ReferenceIdeal Cert.ReferenceIdeal.Gen Idealize.ShloMosaic Idealize.ShloMosaic.TcCoe Idealize.SL.Sem Idealize.ShloMosaic.StableHlo

abbrev VI : Type := Valuation τ sig (Elt Ideal)

noncomputable def inputsOf (M : VI) : Spec.Inputs where
  x := M (Proc.devRef .tc main_arg0)
  srcB := srcB (Spec.srcVec (M (Proc.devRef .tc main_arg1)))
  dstB := dstB (Spec.dstVec (M (Proc.devRef .tc main_arg1)))
  W1s := M (Proc.devRef .tc main_arg4)
  b1s := M (Proc.devRef .tc main_arg5)
  W2s := M (Proc.devRef .tc main_arg6)
  b2s := M (Proc.devRef .tc main_arg7)
  gammas := M (Proc.devRef .tc main_arg8)
  betas := M (Proc.devRef .tc main_arg9)

-- The network's inputs read off the contents `V`, the edge columns from the two vectors of edge words.
noncomputable def inputsAt (V : VI) : Spec.Inputs :=
  ⟨V (Proc.devRef .tc main_arg0), srcB (V (Proc.devRef .tc main_v1)), dstB (V (Proc.devRef .tc main_v3)), V (Proc.devRef .tc main_arg4),
    V (Proc.devRef .tc main_arg5), V (Proc.devRef .tc main_arg6), V (Proc.devRef .tc main_arg7), V (Proc.devRef .tc main_arg8),
    V (Proc.devRef .tc main_arg9)⟩

-- The stretch `os` leaves at `out` layer `i` of the features at `inp`.
abbrev LayerOut (os : List (HloOp τ sig (Elt Ideal))) (inp out : VI → Spec.Mat 50000 128) (i : Fin 8) : Prop :=
  ∀ V : VI, out (after os V) = Spec.stepDev (inputsAt V) i (inp V)

theorem pre_v1 (M : VI) :
    after (opsPre (F := Ideal)) M (Proc.devRef .tc main_v1) = Spec.srcVec (M (Proc.devRef .tc main_arg1)) := by
  after_results
  rfl

theorem pre_v3 (M : VI) :
    after (opsPre (F := Ideal)) M (Proc.devRef .tc main_v3) = Spec.dstVec (M (Proc.devRef .tc main_arg1)) := by
  after_results
  rfl

-- The buffers the layers and the tail read and never write: the arguments and the two vectors of edge words.
abbrev kept : List (Ref sig .tc) :=
  [main_arg0, main_arg2, main_arg3, main_arg4, main_arg5, main_arg6, main_arg7, main_arg8, main_arg9,
    main_arg10, main_arg11, main_arg12, main_arg13, main_v1, main_v3]

def Keeps (V₀ V : VI) : Prop := ∀ r ∈ kept, V (Proc.devRef .tc r) = V₀ (Proc.devRef .tc r)

theorem Keeps.refl (V : VI) : Keeps V V := fun _ _ => rfl

-- A stretch that writes inside `W`, a list without kept buffers, passes the agreement on.
theorem Keeps.through {V₀ V : VI} (h : Keeps V₀ V) {os : List (HloOp τ sig (Elt Ideal))} {W : List (Ref sig .tc)}
    (keep : ∀ (V : VI) (r : Ref sig .tc), r ∉ W → after os V (Proc.devRef .tc r) = V (Proc.devRef .tc r))
    (hW : ∀ r ∈ kept, r ∉ W) : Keeps V₀ (StableHlo.after os V) :=
  fun r hr => (keep V r (hW r hr)).trans (h r hr)

section Pre
variable {M V : VI} (h : Keeps (after (opsPre (F := Ideal)) M) V)
include h

-- A kept buffer the first four operations do not write holds what the starting contents hold.
theorem Keeps.arg (r : Ref sig .tc) (hr : r ∈ kept ∧ r ∉ opsPre_W) : V (Proc.devRef .tc r) = M (Proc.devRef .tc r) :=
  (h r hr.1).trans (opsPre_keep M r hr.2)

-- What a stretch reads are the network's inputs: the first four operations cut the edge words out of the edge list.
theorem Keeps.inputs : inputsAt V = inputsOf M := by
  unfold inputsAt inputsOf
  rw [h.arg main_arg0 (by decide), h main_v1 (by decide), pre_v1, h main_v3 (by decide), pre_v3, h.arg main_arg4 (by decide),
    h.arg main_arg5 (by decide), h.arg main_arg6 (by decide), h.arg main_arg7 (by decide), h.arg main_arg8 (by decide),
    h.arg main_arg9 (by decide)]

-- One layer's stretch in terms of the starting contents.
theorem LayerOut.step {os : List (HloOp τ sig (Elt Ideal))} {inp out : VI → Spec.Mat 50000 128} {i : Fin 8}
    (L : LayerOut os inp out i) : out (StableHlo.after os V) = Spec.stepDev (inputsOf M) i (inp V) :=
  (L V).trans (congrArg (Spec.stepDev · i (inp V)) h.inputs)

end Pre

end Cert.ReferenceIdeal.Val

end
-- ==== Proof.ROps.L0.lean ====
import proofs.«407097_j78262894068282_1_alg».proof.ReferenceIdeal
import proofs.«407097_j78262894068282_1_alg».proof.Proof.Gen.ReferenceIdeal
import proofs.«407097_j78262894068282_1_alg».proof.Proof.ROps.Base

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev opsL0 : List (HloOp τ sig (Elt F)) :=
  [ StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)),
    StableHlo.unary main_arg4 main_v15 ((extractStridedSlice S1x128x128 ![0, 0, 0] · slices_S8x128x128_S1x128x128_0_0_0) : (⟨S8x128x128, .f32⟩ : BufTy).Contents (Elt F) → (⟨S1x128x128, .f32⟩ : BufTy).Contents (Elt F)),
    StableHlo.reshape main_v15 main_v16 rfl shapeCasts_S1x128x128_S128x128,
    StableHlo.binary main_v14 main_v16 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v18 ((extractStridedSlice S1x128 ![0, 0] · slices_S8x128_S1x128_0_0) : (⟨S8x128, .f32⟩ : BufTy).Contents (Elt F) → (⟨S1x128, .f32⟩ : BufTy).Contents (Elt F)),
    StableHlo.reshape main_v18 main_v19 rfl shapeCasts_S1x128_S128,
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S50000x128 ![0, 1] bcast_S1x128_S50000x128_0_1 : (⟨S1x128, .f32⟩ : BufTy).Contents (Elt F) → (⟨S50000x128, .f32⟩ : BufTy).Contents (Elt F)),
    StableHlo.binary main_v17 main_v21 main_v22 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x3C23D70A#32),
    StableHlo.nullary main_call0_cst (constant S_ .f32 0x00000000#32),
    StableHlo.unary main_call0_cst main_call0_v0 ((broadcastInDim S50000x128 ![] bcast_S_S50000x128) : (⟨S_, .f32⟩ : BufTy).Contents (Elt F) → (⟨S50000x128, .f32⟩ : BufTy).Contents (Elt F)),
    StableHlo.binary main_v22 main_call0_v0 main_call0_v1 ((cmpf .oge) : (⟨S50000x128, .f32⟩ : BufTy).Contents (Elt F) → (⟨S50000x128, .f32⟩ : BufTy).Contents (Elt F) → (⟨S50000x128, .i1⟩ : BufTy).Contents (Elt F)),
    StableHlo.unary main_cst_1 main_call0_v2 (id : (⟨S_, .f32⟩ : BufTy).Contents (Elt F) → (⟨S_, .f32⟩ : BufTy).Contents (Elt F)),
    StableHlo.unary main_call0_v2 main_call0_v3 ((broadcastInDim S50000x128 ![] bcast_S_S50000x128) : (⟨S_, .f32⟩ : BufTy).Contents (Elt F) → (⟨S50000x128, .f32⟩ : BufTy).Contents (Elt F)),
    StableHlo.binary main_call0_v3 main_v22 main_call0_v4 (mulf : (⟨S50000x128, .f32⟩ : BufTy).Contents (Elt F) → (⟨S50000x128, .f32⟩ : BufTy).Contents (Elt F) → (⟨S50000x128, .f32⟩ : BufTy).Contents (Elt F)),
    StableHlo.ternary main_call0_v1 main_v22 main_call0_v4 main_v23 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    StableHlo.unary main_arg6 main_v24 ((extractStridedSlice S1x128x128 ![0, 0, 0] · slices_S8x128x128_S1x128x128_0_0_0) : (⟨S8x128x128, .f32⟩ : BufTy).Contents (Elt F) → (⟨S1x128x128, .f32⟩ : BufTy).Contents (Elt F)),
    StableHlo.reshape main_v24 main_v25 rfl shapeCasts_S1x128x128_S128x128,
    StableHlo.binary main_v23 main_v25 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v27 ((extractStridedSlice S1x128 ![0, 0] · slices_S8x128_S1x128_0_0) : (⟨S8x128, .f32⟩ : BufTy).Contents (Elt F) → (⟨S1x128, .f32⟩ : BufTy).Contents (Elt F)),
    StableHlo.reshape main_v27 main_v28 rfl shapeCasts_S1x128_S128,
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S50000x128 ![0, 1] bcast_S1x128_S50000x128_0_1 : (⟨S1x128, .f32⟩ : BufTy).Contents (Elt F) → (⟨S50000x128, .f32⟩ : BufTy).Contents (Elt F)),
    StableHlo.binary main_v26 main_v30 main_v31 (addf : (⟨S50000x128, .f32⟩ : BufTy).Contents (Elt F) → (⟨S50000x128, .f32⟩ : BufTy).Contents (Elt F) → (⟨S50000x128, .f32⟩ : BufTy).Contents (Elt F)),
    StableHlo.nullary main_cst_2 (constant S_ .f32 0x00000000#32),
    StableHlo.binary main_v31 main_cst_2 main_v32 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_3 (constant S_ .f32 0x47435000#32),
    StableHlo.unary main_cst_3 main_v33 (broadcastInDim S128 ![] bcast_S_S128 : (⟨S_, .f32⟩ : BufTy).Contents (Elt F) → (⟨S128, .f32⟩ : BufTy).Contents (Elt F)),
    StableHlo.binary main_v32 main_v33 main_v34 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.nullary main_call1_cst (constant S_ .f32 0x00000000#32),
    StableHlo.binary main_v31 main_call1_cst main_call1_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call1_v0 main_call1_v1 ((broadcastInDim S1x128 ![1] bcast_S128_S1x128_1) : (⟨S128, .f32⟩ : BufTy).Contents (Elt F) → (⟨S1x128, .f32⟩ : BufTy).Contents (Elt F)),
    StableHlo.nullary main_call1_cst_0 (constant S_ .f32 0x47435000#32),
    StableHlo.unary main_call1_cst_0 main_call1_v2 ((broadcastInDim S1x128 ![] bcast_S_S1x128) : (⟨S_, .f32⟩ : BufTy).Contents (Elt F) → (⟨S1x128, .f32⟩ : BufTy).Contents (Elt F)),
    StableHlo.binary main_call1_v1 main_call1_v2 main_call1_v3 (Host.divf : (⟨S1x128, .f32⟩ : BufTy).Contents (Elt F) → (⟨S1x128, .f32⟩ : BufTy).Contents (Elt F) → (⟨S1x128, .f32⟩ : BufTy).Contents (Elt F)),
    StableHlo.unary main_call1_v3 main_call1_v4 ((broadcastInDim S50000x128 ![0, 1] bcast_S1x128_S50000x128_0_1) : (⟨S1x128, .f32⟩ : BufTy).Contents (Elt F) → (⟨S50000x128, .f32⟩ : BufTy).Contents (Elt F)),
    StableHlo.binary main_v31 main_call1_v4 main_call1_v5 (subf : (⟨S50000x128, .f32⟩ : BufTy).Contents (Elt F) → (⟨S50000x128, .f32⟩ : BufTy).Contents (Elt F) → (⟨S50000x128, .f32⟩ : BufTy).Contents (Elt F)),
    StableHlo.binary main_call1_v5 main_call1_v5 main_call1_v6 (mulf : (⟨S50000x128, .f32⟩ : BufTy).Contents (Elt F) → (⟨S50000x128, .f32⟩ : BufTy).Contents (Elt F) → (⟨S50000x128, .f32⟩ : BufTy).Contents (Elt F)),
    StableHlo.unary main_c_4 main_call1_v7 ((sitofp .f32) : (⟨S_, .i32⟩ : BufTy).Contents (Elt F) → (⟨S_, .f32⟩ : BufTy).Contents (Elt F)),
    StableHlo.nullary main_call1_cst_1 (constant S_ .f32 0x47435000#32),
    StableHlo.binary main_call1_cst_1 main_call1_v7 main_call1_v8 (subf : (⟨S_, .f32⟩ : BufTy).Contents (Elt F) → (⟨S_, .f32⟩ : BufTy).Contents (Elt F) → (⟨S_, .f32⟩ : BufTy).Contents (Elt F)),
    StableHlo.nullary main_call1_cst_2 (constant S_ .f32 0x00000000#32),
    StableHlo.binary main_call1_v6 main_call1_cst_2 main_call1_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call1_v8 main_call1_v10 ((broadcastInDim S128 ![] bcast_S_S128) : (⟨S_, .f32⟩ : BufTy).Contents (Elt F) → (⟨S128, .f32⟩ : BufTy).Contents (Elt F)),
    StableHlo.binary main_call1_v9 main_call1_v10 main_call1_v11 (Host.divf : (⟨S128, .f32⟩ : BufTy).Contents (Elt F) → (⟨S128, .f32⟩ : BufTy).Contents (Elt F) → (⟨S128, .f32⟩ : BufTy).Contents (Elt F)),
    StableHlo.nullary main_call1_cst_3 (constant S_ .f32 0x00000000#32),
    StableHlo.binary main_call1_v8 main_call1_cst_3 main_call1_v12 ((cmpf .ogt) : (⟨S_, .f32⟩ : BufTy).Contents (Elt F) → (⟨S_, .f32⟩ : BufTy).Contents (Elt F) → (⟨S_, .i1⟩ : BufTy).Contents (Elt F)),
    StableHlo.nullary main_call1_cst_4 (constant S_ .f32 0x7FC00000#32),
    StableHlo.unary main_call1_cst_4 main_call1_call0_v0 (id : (⟨S_, .f32⟩ : BufTy).Contents (Elt F) → (⟨S_, .f32⟩ : BufTy).Contents (Elt F)),
    StableHlo.unary main_call1_call0_v0 main_call1_call0_v1 ((broadcastInDim S128 ![] bcast_S_S128) : (⟨S_, .f32⟩ : BufTy).Contents (Elt F) → (⟨S128, .f32⟩ : BufTy).Contents (Elt F)),
    StableHlo.ternary main_call1_v12 main_call1_v11 main_call1_call0_v1 main_v35 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v34 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v37 main_v38 (subf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x3727C5AC#32),
    StableHlo.unary main_cst_5 main_v39 (broadcastInDim S128 ![] bcast_S_S128 : (⟨S_, .f32⟩ : BufTy).Contents (Elt F) → (⟨S128, .f32⟩ : BufTy).Contents (Elt F)),
    StableHlo.binary main_v35 main_v39 main_v40 (addf : (⟨S128, .f32⟩ : BufTy).Contents (Elt F) → (⟨S128, .f32⟩ : BufTy).Contents (Elt F) → (⟨S128, .f32⟩ : BufTy).Contents (Elt F)),
    StableHlo.unary main_v40 main_v41 (Host.rsqrt : (⟨S128, .f32⟩ : BufTy).Contents (Elt F) → (⟨S128, .f32⟩ : BufTy).Contents (Elt F)),
    StableHlo.unary main_v41 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v43 main_v44 (mulf : (⟨S50000x128, .f32⟩ : BufTy).Contents (Elt F) → (⟨S50000x128, .f32⟩ : BufTy).Contents (Elt F) → (⟨S50000x128, .f32⟩ : BufTy).Contents (Elt F)),
    StableHlo.unary main_arg8 main_v45 ((extractStridedSlice S1x128 ![0, 0] · slices_S8x128_S1x128_0_0) : (⟨S8x128, .f32⟩ : BufTy).Contents (Elt F) → (⟨S1x128, .f32⟩ : BufTy).Contents (Elt F)),
    StableHlo.reshape main_v45 main_v46 rfl shapeCasts_S1x128_S128,
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v48 main_v49 (mulf : (⟨S50000x128, .f32⟩ : BufTy).Contents (Elt F) → (⟨S50000x128, .f32⟩ : BufTy).Contents (Elt F) → (⟨S50000x128, .f32⟩ : BufTy).Contents (Elt F)),
    StableHlo.unary main_arg9 main_v50 ((extractStridedSlice S1x128 ![0, 0] · slices_S8x128_S1x128_0_0) : (⟨S8x128, .f32⟩ : BufTy).Contents (Elt F) → (⟨S1x128, .f32⟩ : BufTy).Contents (Elt F)),
    StableHlo.reshape main_v50 main_v51 rfl shapeCasts_S1x128_S128,
    StableHlo.unary main_v51 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v53 main_v54 (addf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x3C23D70A#32),
    StableHlo.nullary main_call2_cst (constant S_ .f32 0x00000000#32),
    StableHlo.unary main_call2_cst main_call2_v0 ((broadcastInDim S50000x128 ![] bcast_S_S50000x128) : (⟨S_, .f32⟩ : BufTy).Contents (Elt F) → (⟨S50000x128, .f32⟩ : BufTy).Contents (Elt F)),
    StableHlo.binary main_v54 main_call2_v0 main_call2_v1 ((cmpf .oge) : (⟨S50000x128, .f32⟩ : BufTy).Contents (Elt F) → (⟨S50000x128, .f32⟩ : BufTy).Contents (Elt F) → (⟨S50000x128, .i1⟩ : BufTy).Contents (Elt F)),
    StableHlo.unary main_cst_6 main_call2_v2 (id : (⟨S_, .f32⟩ : BufTy).Contents (Elt F) → (⟨S_, .f32⟩ : BufTy).Contents (Elt F)),
    StableHlo.unary main_call2_v2 main_call2_v3 ((broadcastInDim S50000x128 ![] bcast_S_S50000x128) : (⟨S_, .f32⟩ : BufTy).Contents (Elt F) → (⟨S50000x128, .f32⟩ : BufTy).Contents (Elt F)),
    StableHlo.binary main_call2_v3 main_v54 main_call2_v4 (mulf : (⟨S50000x128, .f32⟩ : BufTy).Contents (Elt F) → (⟨S50000x128, .f32⟩ : BufTy).Contents (Elt F) → (⟨S50000x128, .f32⟩ : BufTy).Contents (Elt F)),
    StableHlo.ternary main_call2_v1 main_v54 main_call2_v4 main_v55 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) ]

abbrev opsL0_W : List (Ref sig .tc) :=
  [main_c, main_v4, main_v5, main_c_0, main_v6, main_v7, main_v8, main_v9, main_v10, main_cst, main_v11, main_v12, main_v13, main_v14, main_v15, main_v16, main_v17, main_v18, main_v19, main_v20, main_v21, main_v22, main_cst_1, main_call0_cst, main_call0_v0, main_call0_v1, main_call0_v2, main_call0_v3, main_call0_v4, main_v23, main_v24, main_v25, main_v26, main_v27, main_v28, main_v29, main_v30, main_v31, main_cst_2, main_v32, main_cst_3, main_v33, main_v34, main_c_4, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v35, main_v36, main_v37, main_v38, main_cst_5, main_v39, main_v40, main_v41, main_v42, main_v43, main_v44, main_v45, main_v46, main_v47, main_v48, main_v49, main_v50, main_v51, main_v52, main_v53, main_v54, main_cst_6, main_call2_cst, main_call2_v0, main_call2_v1, main_call2_v2, main_call2_v3, main_call2_v4, main_v55]

theorem opsL0_line : Line (opsL0 : List (HloOp τ sig (Elt F))) opsL0_W :=
  ⟨by simp only [List.Forall, nullary_bufs_sub, unary_bufs_sub, binary_bufs_sub, ternary_bufs_sub, reshape_bufs_sub, and_self], rfl, rfl⟩

theorem opsL0_keep (V : Valuation τ sig (Elt F)) (r : Ref sig .tc) (h : r ∉ opsL0_W) :
    after opsL0 V (Proc.devRef .tc r) = V (Proc.devRef .tc r) :=
  opsL0_line.keep V h

end Cert.ReferenceIdeal.Val

end
-- ==== Proof.RLayerIdx.lean ====
import Idealize.ShloMosaic.Lib.ValueIdx
import Idealize.ShloMosaic.Lib.IdealHost
import Idealize.ShloMosaic.Lib.ValueLayout
import Idealize.ShloMosaic.Lib.Pipeline.Value
import proofs.«407097_j78262894068282_1_alg».proof.Proof.Spec

noncomputable section

namespace Cert.ReferenceIdeal.Val

open Idealize.ShloMosaic Idealize.ShloMosaic.ValueIdx

variable {α : Type}

theorem rowUnit_apply (h1 : (⟨1, ![128]⟩ : Shape).BroadcastsInDim ⟨2, ![1, 128]⟩ (![1] : Fin 1 → Fin 2))
    (v : (⟨1, ![128]⟩ : Shape).Idx → α) (u : Fin 1) (d : Fin 128) :
    broadcastInDim ⟨2, ![1, 128]⟩ ![1] h1 v (ix2 u d) = v (ix1 d) := by
  refine broadcastInDim_apply _ h1 v (ix2 u d) (ix1 d) ?_
  intro a
  match a with
  | ⟨0, _⟩ => rfl

theorem unitOver_apply (h2 : (⟨2, ![1, 128]⟩ : Shape).BroadcastsInDim ⟨2, ![50000, 128]⟩ (![0, 1] : Fin 2 → Fin 2))
    (v : (⟨2, ![1, 128]⟩ : Shape).Idx → α) (r : Fin 50000) (d : Fin 128) :
    broadcastInDim ⟨2, ![50000, 128]⟩ ![0, 1] h2 v (ix2 r d) = v (ix2 (0 : Fin 1) d) := by
  refine broadcastInDim_apply _ h2 v (ix2 r d) (ix2 (0 : Fin 1) d) ?_
  intro a
  match a with
  | ⟨0, _⟩ => rfl
  | ⟨1, _⟩ => rfl

-- A row of 128 entries laid over 50000 rows reads its entry d at (r, d).
theorem rowOver_apply (h1 : (⟨1, ![128]⟩ : Shape).BroadcastsInDim ⟨2, ![1, 128]⟩ (![1] : Fin 1 → Fin 2))
    (h2 : (⟨2, ![1, 128]⟩ : Shape).BroadcastsInDim ⟨2, ![50000, 128]⟩ (![0, 1] : Fin 2 → Fin 2))
    (v : (⟨1, ![128]⟩ : Shape).Idx → α) (r : Fin 50000) (d : Fin 128) :
    broadcastInDim ⟨2, ![50000, 128]⟩ ![0, 1] h2 (broadcastInDim ⟨2, ![1, 128]⟩ ![1] h1 v) (ix2 r d) = v (ix1 d) :=
  (unitOver_apply h2 _ r d).trans (rowUnit_apply h1 v 0 d)

-- Slice i of a stack of eight, reshaped, reads the stack at (i, a, b).
theorem stackM_apply (o : Nat) (i : Fin 8) (hi : i.val = o)
    (hs : (⟨3, ![8, 128, 128]⟩ : Shape).Slices ![o, 0, 0] ⟨3, ![1, 128, 128]⟩)
    (hc : (⟨3, ![1, 128, 128]⟩ : Shape).ShapeCasts ⟨2, ![128, 128]⟩)
    (W : (⟨3, ![8, 128, 128]⟩ : Shape).Idx → α) (a b : Fin 128) :
    shapeCast ⟨2, ![128, 128]⟩ (extractStridedSlice ⟨3, ![1, 128, 128]⟩ ![o, 0, 0] W hs) hc (ix2 a b) = W (ix3 i a b) := by
  refine (shapeCast_1ab_ab_apply _ hc a b).trans
    (extractStridedSlice_apply _ W hs (ix3 (0 : Fin 1) a b) (ix3 i a b) ?_)
  intro c
  match c with
  | ⟨0, _⟩ => show i.val = o + 0; omega
  | ⟨1, _⟩ => show a.val = 0 + a.val; omega
  | ⟨2, _⟩ => show b.val = 0 + b.val; omega

theorem stackM_eq (o : Nat) (i : Fin 8) (hi : i.val = o)
    (hs : (⟨3, ![8, 128, 128]⟩ : Shape).Slices ![o, 0, 0] ⟨3, ![1, 128, 128]⟩)
    (hc : (⟨3, ![1, 128, 128]⟩ : Shape).ShapeCasts ⟨2, ![128, 128]⟩)
    (W : (⟨3, ![8, 128, 128]⟩ : Shape).Idx → EReal) :
    shapeCast ⟨2, ![128, 128]⟩ (extractStridedSlice ⟨3, ![1, 128, 128]⟩ ![o, 0, 0] W hs) hc = Spec.sliceM W i := by
  funext j
  rw [eq_ix2 j]
  exact stackM_apply o i hi hs hc W (j 0) (j 1)

-- Row i of a stack of eight rows reads the stack at (i, d).
theorem stackV_apply (o : Nat) (i : Fin 8) (hi : i.val = o)
    (hs : (⟨2, ![8, 128]⟩ : Shape).Slices ![o, 0] ⟨2, ![1, 128]⟩)
    (hc : (⟨2, ![1, 128]⟩ : Shape).ShapeCasts ⟨1, ![128]⟩)
    (b : (⟨2, ![8, 128]⟩ : Shape).Idx → α) (d : Fin 128) :
    shapeCast ⟨1, ![128]⟩ (extractStridedSlice ⟨2, ![1, 128]⟩ ![o, 0] b hs) hc (ix1 d) = b (ix2 i d) :=
  (shapeCast_1a_a_apply _ hc d).trans (slice2_axis0_apply o b hs 0 d i hi)

theorem stackRow_eq (o : Nat) (i : Fin 8) (hi : i.val = o)
    (hs : (⟨2, ![8, 128]⟩ : Shape).Slices ![o, 0] ⟨2, ![1, 128]⟩)
    (hc : (⟨2, ![1, 128]⟩ : Shape).ShapeCasts ⟨1, ![128]⟩)
    (h1 : (⟨1, ![128]⟩ : Shape).BroadcastsInDim ⟨2, ![1, 128]⟩ (![1] : Fin 1 → Fin 2))
    (h2 : (⟨2, ![1, 128]⟩ : Shape).BroadcastsInDim ⟨2, ![50000, 128]⟩ (![0, 1] : Fin 2 → Fin 2))
    (b : (⟨2, ![8, 128]⟩ : Shape).Idx → EReal) :
    broadcastInDim ⟨2, ![50000, 128]⟩ ![0, 1] h2 (broadcastInDim ⟨2, ![1, 128]⟩ ![1] h1
      (shapeCast ⟨1, ![128]⟩ (extractStridedSlice ⟨2, ![1, 128]⟩ ![o, 0] b hs) hc))
      = fun j => Spec.sliceV b i (j 1) := by
  funext j
  rw [eq_ix2 j]
  exact (rowOver_apply h1 h2 _ (j 0) (j 1)).trans (stackV_apply o i hi hs hc b (j 1))

end Cert.ReferenceIdeal.Val

end
-- ==== Proof.RLayerMlp.lean ====
import Idealize.ShloMosaic.Lib.ValueIdx
import Idealize.ShloMosaic.Lib.IdealHost
import Idealize.ShloMosaic.Lib.ValueLayout
import Idealize.ShloMosaic.Lib.Pipeline.Value
import proofs.«407097_j78262894068282_1_alg».proof.Proof.Spec

noncomputable section

namespace Cert.ReferenceIdeal.Val

open Idealize.ShloMosaic Idealize.ShloMosaic.ValueIdx

abbrev dotD (wf : DotDims.WF ⟨2, ![50000, 128]⟩ ⟨2, ![128, 128]⟩ ⟨2, ![50000, 128]⟩ [1] [0] [0] [1] [] []) :
    DotDims ⟨2, ![50000, 128]⟩ ⟨2, ![128, 128]⟩ ⟨2, ![50000, 128]⟩ where
  lhsContracting := [1]
  rhsContracting := [0]
  lhsNonContracting := [0]
  rhsNonContracting := [1]
  lhsBatch := []
  rhsBatch := []
  wf := wf

section Dot
variable (wf : DotDims.WF ⟨2, ![50000, 128]⟩ ⟨2, ![128, 128]⟩ ⟨2, ![50000, 128]⟩ [1] [0] [0] [1] [] [])

-- Entry (a, b) of the product is the sum over k of l[a, k] * r[k, b].
theorem dot_apply (l : FVec Ideal ⟨2, ![50000, 128]⟩ .f32) (r : FVec Ideal ⟨2, ![128, 128]⟩ .f32) (a : Fin 50000) (b : Fin 128) :
    Host.dotGeneral (F := Ideal) (dotD wf) none l r (ix2 a b) = ∑ k : Fin 128, l (ix2 a k) * r (ix2 k b) := by
  show FloatOps.dotGeneral (dotD wf) none .single l r (ix2 a b) = _
  rw [Ideal.dotGeneral_apply, ← Equiv.sum_comp (contrEquiv1 (dotD wf) 128 rfl rfl).symm]
  refine Finset.sum_congr rfl fun k _ => ?_
  have hl : (dotD wf).lhsIdx (ix2 a b) ((contrEquiv1 (dotD wf) 128 rfl rfl).symm k) = ix2 a k := by
    funext c
    refine Fin.ext ?_
    match c with
    | ⟨0, _⟩ => rfl
    | ⟨1, _⟩ => exact ((dotD wf).lhsIdx_val_of_single rfl _ _).trans (contrEquiv1_symm_val (dotD wf) 128 rfl rfl k)
  have hr : (dotD wf).rhsIdx (ix2 a b) ((contrEquiv1 (dotD wf) 128 rfl rfl).symm k) = ix2 k b := by
    funext c
    refine Fin.ext ?_
    match c with
    | ⟨0, _⟩ => exact ((dotD wf).rhsIdx_val_of_single rfl _ _).trans (contrEquiv1_symm_val (dotD wf) 128 rfl rfl k)
    | ⟨1, _⟩ => rfl
  rw [hl, hr]

end Dot

-- The choice between p and slope * p on p ≥ 0 is the leaky rectifier at every entry.
theorem lrelu_eq (hz : (⟨0, ![]⟩ : Shape).BroadcastsInDim ⟨2, ![50000, 128]⟩ (![] : Fin 0 → Fin 2))
    (p : FVec Ideal ⟨2, ![50000, 128]⟩ .f32) :
    select (cmpf .oge p (broadcastInDim ⟨2, ![50000, 128]⟩ ![] hz (constant (F := Ideal) ⟨0, ![]⟩ .f32 0x00000000#32))) p
        (mulf (broadcastInDim ⟨2, ![50000, 128]⟩ ![] hz (id (constant (F := Ideal) ⟨0, ![]⟩ .f32 0x3C23D70A#32))) p)
      = fun j => Spec.lrelu (p j) := by
  funext j
  rfl

theorem hidden_eq (wf : DotDims.WF ⟨2, ![50000, 128]⟩ ⟨2, ![128, 128]⟩ ⟨2, ![50000, 128]⟩ [1] [0] [0] [1] [] [])
    (x agg : FVec Ideal ⟨2, ![50000, 128]⟩ .f32) (W1 : FVec Ideal ⟨2, ![128, 128]⟩ .f32) (b1 : Fin 128 → EReal) :
    (fun j => Spec.lrelu
        (addf (Host.dotGeneral (F := Ideal) (dotD wf) none (addf x agg) W1) (fun j => b1 (j 1)) j))
      = Spec.hidden x agg W1 b1 := by
  funext j
  obtain ⟨r, d, rfl⟩ : ∃ (r : Fin 50000) (d : Fin 128), j = ix2 r d := ⟨j 0, j 1, eq_ix2 j⟩
  show Spec.lrelu (Host.dotGeneral (F := Ideal) (dotD wf) none (addf x agg) W1 (ix2 r d) + b1 d) = _
  rw [dot_apply wf (addf x agg) W1 r d]
  rfl

theorem affine_eq (wf : DotDims.WF ⟨2, ![50000, 128]⟩ ⟨2, ![128, 128]⟩ ⟨2, ![50000, 128]⟩ [1] [0] [0] [1] [] [])
    (a : FVec Ideal ⟨2, ![50000, 128]⟩ .f32) (W2 : FVec Ideal ⟨2, ![128, 128]⟩ .f32) (b2 : Fin 128 → EReal) :
    addf (Host.dotGeneral (F := Ideal) (dotD wf) none a W2) (fun j => b2 (j 1)) = Spec.affine a W2 b2 := by
  funext j
  obtain ⟨r, d, rfl⟩ : ∃ (r : Fin 50000) (d : Fin 128), j = ix2 r d := ⟨j 0, j 1, eq_ix2 j⟩
  show Host.dotGeneral (F := Ideal) (dotD wf) none a W2 (ix2 r d) + b2 d = _
  rw [dot_apply wf a W2 r d]
  rfl

end Cert.ReferenceIdeal.Val

end
-- ==== Proof.RLayerStat.lean ====
import Idealize.ShloMosaic.Lib.ValueIdx
import Idealize.ShloMosaic.Lib.IdealHost
import Idealize.ShloMosaic.Lib.ValueLayout
import Idealize.ShloMosaic.Lib.Pipeline.Value
import proofs.«407097_j78262894068282_1_alg».proof.Proof.Spec
import proofs.«407097_j78262894068282_1_alg».proof.Proof.RLayerIdx

noncomputable section

namespace Cert.ReferenceIdeal.Val

open Idealize.ShloMosaic Idealize.ShloMosaic.ValueIdx

-- The divisor's word is the real number 50000.
theorem nNodes_eq : Spec.nNodes = ((50000 : ℝ) : EReal) := by
  unfold Spec.nNodes
  simp [Ideal.ofBits, Ideal.ieee, -EReal.coe_mul]; norm_num

theorem divisor_eq :
    FloatOps.subf (F := Ideal) (φ := .f32) (Ideal.ofBits .f32 0x47435000#32) (FloatOps.sitofp (F := Ideal) .f32 (0#32 : BitVec 32))
      = Spec.nNodes := by
  show Spec.nNodes - ((((0#32 : BitVec 32).toInt : ℤ) : ℝ) : EReal) = Spec.nNodes
  rw [show (0#32 : BitVec 32).toInt = 0 from rfl]
  simp

-- The divisor 50000 - 0 is positive, so the guarded branch is taken.
theorem guard_eq :
    FloatOps.cmpf (F := Ideal) (φ := .f32) .ogt
      (FloatOps.subf (F := Ideal) (φ := .f32) (Ideal.ofBits .f32 0x47435000#32) (FloatOps.sitofp (F := Ideal) .f32 (0#32 : BitVec 32)))
      (Ideal.ofBits .f32 0x00000000#32) = 1#1 := by
  rw [divisor_eq]
  show Ideal.cmp .ogt Spec.nNodes (Ideal.ofBits .f32 0x00000000#32) = 1#1
  rw [Ideal.ofBits_zero_f32, nNodes_eq]
  have h : (0 : EReal) < ((50000 : ℝ) : EReal) := by exact_mod_cast (by norm_num : (0 : ℝ) < 50000)
  unfold Ideal.cmp
  simp [h]

section Sum
variable (hr : (⟨2, ![50000, 128]⟩ : Shape).ReducesTo [0] ⟨1, ![128]⟩) (hu : 0 < (⟨0, ![]⟩ : Shape).numel)

-- The column sum from zero is the sum over the 50000 rows.
theorem colSum_apply (z : FVec Ideal ⟨2, ![50000, 128]⟩ .f32) (d : Fin 128) :
    Host.reduceAdd (F := Ideal) z (constant (F := Ideal) ⟨0, ![]⟩ .f32 0x00000000#32) hr hu (ix1 d) = Spec.colSum z d := by
  show Ideal.hostReduceAdd hr z (Ideal.ofBits .f32 0x00000000#32) (ix1 d) = _
  rw [Ideal.hostReduceAdd_single hr (by decide) z _ (ix1 d), Ideal.ofBits_zero_f32, zero_add]
  refine Finset.sum_congr rfl fun r _ => congrArg z ?_
  funext a
  refine Fin.ext ?_
  match a with
  | ⟨0, _⟩ => rfl
  | ⟨1, _⟩ => rfl

variable (hb : (⟨0, ![]⟩ : Shape).BroadcastsInDim ⟨1, ![128]⟩ (![] : Fin 0 → Fin 1))

theorem mean_eq (z : FVec Ideal ⟨2, ![50000, 128]⟩ .f32) :
    Host.divf (Host.reduceAdd (F := Ideal) z (constant (F := Ideal) ⟨0, ![]⟩ .f32 0x00000000#32) hr hu)
        (broadcastInDim ⟨1, ![128]⟩ ![] hb (constant (F := Ideal) ⟨0, ![]⟩ .f32 0x47435000#32))
      = fun j => Spec.mean z (j 0) := by
  funext j
  obtain ⟨d, rfl⟩ : ∃ d : Fin 128, j = ix1 d := ⟨j 0, eq_ix1 j⟩
  show Ideal.div (Host.reduceAdd (F := Ideal) z (constant (F := Ideal) ⟨0, ![]⟩ .f32 0x00000000#32) hr hu (ix1 d))
    (broadcastInDim ⟨1, ![128]⟩ ![] hb (constant (F := Ideal) ⟨0, ![]⟩ .f32 0x47435000#32) (ix1 d)) = _
  rw [colSum_apply hr hu z d, broadcastInDim_scalar_apply hb _ (ix1 d)]
  rfl

variable (h1 : (⟨1, ![128]⟩ : Shape).BroadcastsInDim ⟨2, ![1, 128]⟩ (![1] : Fin 1 → Fin 2))
  (h2 : (⟨2, ![1, 128]⟩ : Shape).BroadcastsInDim ⟨2, ![50000, 128]⟩ (![0, 1] : Fin 2 → Fin 2))
  (hb1 : (⟨0, ![]⟩ : Shape).BroadcastsInDim ⟨2, ![1, 128]⟩ (![] : Fin 0 → Fin 2))

-- The column means with their unit row axis kept, laid over the rows.
def meanRows (z : FVec Ideal ⟨2, ![50000, 128]⟩ .f32) : FVec Ideal ⟨2, ![50000, 128]⟩ .f32 :=
  broadcastInDim ⟨2, ![50000, 128]⟩ ![0, 1] h2
    (Host.divf (broadcastInDim ⟨2, ![1, 128]⟩ ![1] h1 (Host.reduceAdd (F := Ideal) z (constant (F := Ideal) ⟨0, ![]⟩ .f32 0x00000000#32) hr hu))
      (broadcastInDim ⟨2, ![1, 128]⟩ ![] hb1 (constant (F := Ideal) ⟨0, ![]⟩ .f32 0x47435000#32)))

theorem meanKeep_apply (z : FVec Ideal ⟨2, ![50000, 128]⟩ .f32) (r : Fin 50000) (d : Fin 128) :
    meanRows hr hu h1 h2 hb1 z (ix2 r d) = Spec.mean z d := by
  unfold meanRows
  rw [unitOver_apply h2 _ r d]
  show Ideal.div (broadcastInDim ⟨2, ![1, 128]⟩ ![1] h1
      (Host.reduceAdd (F := Ideal) z (constant (F := Ideal) ⟨0, ![]⟩ .f32 0x00000000#32) hr hu) (ix2 (0 : Fin 1) d))
    (broadcastInDim ⟨2, ![1, 128]⟩ ![] hb1 (constant (F := Ideal) ⟨0, ![]⟩ .f32 0x47435000#32) (ix2 (0 : Fin 1) d)) = _
  rw [rowUnit_apply h1 _ (0 : Fin 1) d, colSum_apply hr hu z d, broadcastInDim_scalar_apply hb1 _ (ix2 (0 : Fin 1) d)]
  rfl

-- The variance as the reference computes it: under the guard `50000 - 0 > 0`, the sum of squared deviations over `50000 - 0`.
def varRef (z : FVec Ideal ⟨2, ![50000, 128]⟩ .f32) : FVec Ideal ⟨1, ![128]⟩ .f32 :=
  select (broadcastInDim ⟨1, ![128]⟩ ![] hb (cmpf .ogt (subf (constant (F := Ideal) ⟨0, ![]⟩ .f32 0x47435000#32) (sitofp .f32 (constantI ⟨0, ![]⟩ 32 0#32))) (constant (F := Ideal) ⟨0, ![]⟩ .f32 0x00000000#32)))
    (Host.divf
      (Host.reduceAdd (F := Ideal) (mulf (subf z (meanRows hr hu h1 h2 hb1 z)) (subf z (meanRows hr hu h1 h2 hb1 z))) (constant (F := Ideal) ⟨0, ![]⟩ .f32 0x00000000#32) hr hu)
      (broadcastInDim ⟨1, ![128]⟩ ![] hb (subf (constant (F := Ideal) ⟨0, ![]⟩ .f32 0x47435000#32) (sitofp .f32 (constantI ⟨0, ![]⟩ 32 0#32)))))
    (broadcastInDim ⟨1, ![128]⟩ ![] hb (id (constant (F := Ideal) ⟨0, ![]⟩ .f32 0x7FC00000#32)))

-- Each entry is the sum of squared deviations from the column mean, divided by 50000.
theorem var_eq (z : FVec Ideal ⟨2, ![50000, 128]⟩ .f32) :
    varRef hr hu hb h1 h2 hb1 z = fun j => Spec.varDev z (j 0) := by
  unfold varRef
  funext j
  obtain ⟨d, rfl⟩ : ∃ d : Fin 128, j = ix1 d := ⟨j 0, eq_ix1 j⟩
  rw [select_apply, broadcastInDim_scalar_apply hb _ (ix1 d)]
  show Scalar.select (FloatOps.cmpf (F := Ideal) (φ := .f32) .ogt
      (FloatOps.subf (F := Ideal) (φ := .f32) (Ideal.ofBits .f32 0x47435000#32) (FloatOps.sitofp (F := Ideal) .f32 (0#32 : BitVec 32)))
      (Ideal.ofBits .f32 0x00000000#32)) _ _ = _
  rw [guard_eq, select_one, hostDivf_apply, colSum_apply hr hu _ d, broadcastInDim_scalar_apply hb _ (ix1 d)]
  show Ideal.div _ (FloatOps.subf (F := Ideal) (φ := .f32) (Ideal.ofBits .f32 0x47435000#32)
      (FloatOps.sitofp (F := Ideal) .f32 (0#32 : BitVec 32))) = _
  rw [divisor_eq]
  unfold Spec.varDev Spec.colSum
  refine congrArg (fun s => Ideal.div s Spec.nNodes) (Finset.sum_congr rfl fun r _ => ?_)
  show (z (ix2 r d) - _) * (z (ix2 r d) - _) = _
  rw [meanKeep_apply hr hu h1 h2 hb1 z r d]

end Sum

end Cert.ReferenceIdeal.Val

end
-- ==== Proof.RLayerBn.lean ====
import Idealize.ShloMosaic.Lib.ValueIdx
import Idealize.ShloMosaic.Lib.IdealHost
import Idealize.ShloMosaic.Lib.ValueLayout
import Idealize.ShloMosaic.Lib.Pipeline.Value
import proofs.«407097_j78262894068282_1_alg».proof.Proof.Spec
import proofs.«407097_j78262894068282_1_alg».proof.Proof.RLayerIdx

noncomputable section

namespace Cert.ReferenceIdeal.Val

open Idealize.ShloMosaic Idealize.ShloMosaic.ValueIdx

-- Entry by entry, (z - mean) * rsqrt(var + eps) * gamma + beta.
theorem bn_eq (h1 : (⟨1, ![128]⟩ : Shape).BroadcastsInDim ⟨2, ![1, 128]⟩ (![1] : Fin 1 → Fin 2))
    (h2 : (⟨2, ![1, 128]⟩ : Shape).BroadcastsInDim ⟨2, ![50000, 128]⟩ (![0, 1] : Fin 2 → Fin 2))
    (hb : (⟨0, ![]⟩ : Shape).BroadcastsInDim ⟨1, ![128]⟩ (![] : Fin 0 → Fin 1))
    (z : FVec Ideal ⟨2, ![50000, 128]⟩ .f32) (m v g b : Fin 128 → EReal) :
    addf (mulf (mulf
          (subf z (broadcastInDim ⟨2, ![50000, 128]⟩ ![0, 1] h2 (broadcastInDim ⟨2, ![1, 128]⟩ ![1] h1
            ((fun j => m (j 0)) : FVec Ideal ⟨1, ![128]⟩ .f32))))
          (broadcastInDim ⟨2, ![50000, 128]⟩ ![0, 1] h2 (broadcastInDim ⟨2, ![1, 128]⟩ ![1] h1
            (Host.rsqrt (addf ((fun j => v (j 0)) : FVec Ideal ⟨1, ![128]⟩ .f32)
              (broadcastInDim ⟨1, ![128]⟩ ![] hb (constant (F := Ideal) ⟨0, ![]⟩ .f32 0x3727C5AC#32)))))))
        ((fun j => g (j 1)) : FVec Ideal ⟨2, ![50000, 128]⟩ .f32))
      ((fun j => b (j 1)) : FVec Ideal ⟨2, ![50000, 128]⟩ .f32)
      = Spec.bn z m v g b := by
  funext j
  obtain ⟨r, d, rfl⟩ : ∃ (r : Fin 50000) (d : Fin 128), j = ix2 r d := ⟨j 0, j 1, eq_ix2 j⟩
  show (z (ix2 r d) - broadcastInDim ⟨2, ![50000, 128]⟩ ![0, 1] h2 (broadcastInDim ⟨2, ![1, 128]⟩ ![1] h1
        ((fun j => m (j 0)) : FVec Ideal ⟨1, ![128]⟩ .f32)) (ix2 r d))
      * broadcastInDim ⟨2, ![50000, 128]⟩ ![0, 1] h2 (broadcastInDim ⟨2, ![1, 128]⟩ ![1] h1
        (Host.rsqrt (addf ((fun j => v (j 0)) : FVec Ideal ⟨1, ![128]⟩ .f32)
          (broadcastInDim ⟨1, ![128]⟩ ![] hb (constant (F := Ideal) ⟨0, ![]⟩ .f32 0x3727C5AC#32))))) (ix2 r d)
      * g d + b d = _
  rw [rowOver_apply h1 h2 _ r d, rowOver_apply h1 h2 _ r d]
  rfl

end Cert.ReferenceIdeal.Val

end
-- ==== Proof.RLayerVal.lean ====
import Idealize.ShloMosaic.Lib.ValueIdx
import Idealize.ShloMosaic.Lib.IdealHost
import Idealize.ShloMosaic.Lib.ValueLayout
import Idealize.ShloMosaic.Lib.Pipeline.Value
import proofs.«407097_j78262894068282_1_alg».proof.Proof.Spec
import proofs.«407097_j78262894068282_1_alg».proof.Proof.RLayerIdx
import proofs.«407097_j78262894068282_1_alg».proof.Proof.RLayerAgg
import proofs.«407097_j78262894068282_1_alg».proof.Proof.RLayerMlp
import proofs.«407097_j78262894068282_1_alg».proof.Proof.RLayerStat
import proofs.«407097_j78262894068282_1_alg».proof.Proof.RLayerBn

noncomputable section

namespace Cert.ReferenceIdeal.Val

open Idealize.ShloMosaic Idealize.ShloMosaic.ValueIdx

section Layer

variable (o : Nat) (i : Fin 8)
  (wfg : GatherDims.WF ⟨2, ![50000, 128]⟩ ⟨2, ![600000, 1]⟩ ⟨2, ![600000, 128]⟩ [1] [0] [] [0] [] 1 ![1, 128])
  (wfs : ScatterDims.WF ⟨2, ![50000, 128]⟩ ⟨2, ![600000, 1]⟩ ⟨2, ![600000, 128]⟩ [1] [0] [0] 1)
  (wfd : DotDims.WF ⟨2, ![50000, 128]⟩ ⟨2, ![128, 128]⟩ ⟨2, ![50000, 128]⟩ [1] [0] [0] [1] [] [])
  (hzM : (⟨0, ![]⟩ : Shape).BroadcastsInDim ⟨2, ![50000, 128]⟩ (![] : Fin 0 → Fin 2))
  (hsM : (⟨3, ![8, 128, 128]⟩ : Shape).Slices ![o, 0, 0] ⟨3, ![1, 128, 128]⟩)
  (hcM : (⟨3, ![1, 128, 128]⟩ : Shape).ShapeCasts ⟨2, ![128, 128]⟩)
  (hsV : (⟨2, ![8, 128]⟩ : Shape).Slices ![o, 0] ⟨2, ![1, 128]⟩)
  (hcV : (⟨2, ![1, 128]⟩ : Shape).ShapeCasts ⟨1, ![128]⟩)
  (h1 : (⟨1, ![128]⟩ : Shape).BroadcastsInDim ⟨2, ![1, 128]⟩ (![1] : Fin 1 → Fin 2))
  (h2 : (⟨2, ![1, 128]⟩ : Shape).BroadcastsInDim ⟨2, ![50000, 128]⟩ (![0, 1] : Fin 2 → Fin 2))
  (hr : (⟨2, ![50000, 128]⟩ : Shape).ReducesTo [0] ⟨1, ![128]⟩) (hu : 0 < (⟨0, ![]⟩ : Shape).numel)
  (hb : (⟨0, ![]⟩ : Shape).BroadcastsInDim ⟨1, ![128]⟩ (![] : Fin 0 → Fin 1))
  (hb1 : (⟨0, ![]⟩ : Shape).BroadcastsInDim ⟨2, ![1, 128]⟩ (![] : Fin 0 → Fin 2))
  (x : FVec Ideal ⟨2, ![50000, 128]⟩ .f32) (sB dB : IVec ⟨2, ![600000, 1]⟩ 32)
  (W1s : FVec Ideal ⟨3, ![8, 128, 128]⟩ .f32) (b1s : FVec Ideal ⟨2, ![8, 128]⟩ .f32)
  (W2s : FVec Ideal ⟨3, ![8, 128, 128]⟩ .f32) (b2s : FVec Ideal ⟨2, ![8, 128]⟩ .f32)
  (gs bs : FVec Ideal ⟨2, ![8, 128]⟩ .f32)

-- The leaky rectifier as the reference spells it: a choice, on `p ≥ 0`, between `p` and the slope times `p`.
def lreluRef (p : FVec Ideal ⟨2, ![50000, 128]⟩ .f32) : FVec Ideal ⟨2, ![50000, 128]⟩ .f32 :=
  select (cmpf .oge p (broadcastInDim ⟨2, ![50000, 128]⟩ ![] hzM (constant (F := Ideal) ⟨0, ![]⟩ .f32 0x00000000#32))) p
    (mulf (broadcastInDim ⟨2, ![50000, 128]⟩ ![] hzM (id (constant (F := Ideal) ⟨0, ![]⟩ .f32 0x3C23D70A#32))) p)

def aggRef : FVec Ideal ⟨2, ![50000, 128]⟩ .f32 :=
  Host.scatterAdd (F := Ideal) (LibGatherScatter.scatRowsDims 50000 600000 128 wfs)
    (broadcastInDim ⟨2, ![50000, 128]⟩ ![] hzM (constant (F := Ideal) ⟨0, ![]⟩ .f32 0x00000000#32)) dB (Host.gather (LibGatherScatter.rowsDims 50000 600000 128 wfg) x sB)

def preHidRef : FVec Ideal ⟨2, ![50000, 128]⟩ .f32 :=
  addf (Host.dotGeneral (F := Ideal) (dotD wfd) none (addf x (aggRef wfg wfs hzM x sB dB)) (shapeCast ⟨2, ![128, 128]⟩ (extractStridedSlice ⟨3, ![1, 128, 128]⟩ ![o, 0, 0] W1s hsM) hcM))
    (broadcastInDim ⟨2, ![50000, 128]⟩ ![0, 1] h2 (broadcastInDim ⟨2, ![1, 128]⟩ ![1] h1
      (shapeCast ⟨1, ![128]⟩ (extractStridedSlice ⟨2, ![1, 128]⟩ ![o, 0] b1s hsV) hcV)))

def zRef : FVec Ideal ⟨2, ![50000, 128]⟩ .f32 :=
  addf (Host.dotGeneral (F := Ideal) (dotD wfd) none
      (lreluRef hzM (preHidRef o wfg wfs wfd hzM hsM hcM hsV hcV h1 h2 x sB dB W1s b1s))
      (shapeCast ⟨2, ![128, 128]⟩ (extractStridedSlice ⟨3, ![1, 128, 128]⟩ ![o, 0, 0] W2s hsM) hcM))
    (broadcastInDim ⟨2, ![50000, 128]⟩ ![0, 1] h2 (broadcastInDim ⟨2, ![1, 128]⟩ ![1] h1
      (shapeCast ⟨1, ![128]⟩ (extractStridedSlice ⟨2, ![1, 128]⟩ ![o, 0] b2s hsV) hcV)))

theorem zRef_eq (hi : i.val = o) :
    zRef o wfg wfs wfd hzM hsM hcM hsV hcV h1 h2 x sB dB W1s b1s W2s b2s
      = Spec.zOf x (Spec.aggOf x sB dB) (Spec.sliceM W1s i) (Spec.sliceV b1s i) (Spec.sliceM W2s i) (Spec.sliceV b2s i) := by
  unfold zRef lreluRef preHidRef aggRef
  rw [agg_eq wfg wfs hzM x sB dB, stackM_eq o i hi hsM hcM W1s, stackM_eq o i hi hsM hcM W2s,
    stackRow_eq o i hi hsV hcV h1 h2 b1s, stackRow_eq o i hi hsV hcV h1 h2 b2s,
    lrelu_eq hzM, hidden_eq wfd x (Spec.aggOf x sB dB) (Spec.sliceM W1s i) (Spec.sliceV b1s i),
    affine_eq wfd _ (Spec.sliceM W2s i) (Spec.sliceV b2s i)]
  rfl

def bnRef (z : FVec Ideal ⟨2, ![50000, 128]⟩ .f32) : FVec Ideal ⟨2, ![50000, 128]⟩ .f32 :=
  addf (mulf (mulf
        (subf z (broadcastInDim ⟨2, ![50000, 128]⟩ ![0, 1] h2 (broadcastInDim ⟨2, ![1, 128]⟩ ![1] h1
          (Host.divf (Host.reduceAdd (F := Ideal) z (constant (F := Ideal) ⟨0, ![]⟩ .f32 0x00000000#32) hr hu) (broadcastInDim ⟨1, ![128]⟩ ![] hb (constant (F := Ideal) ⟨0, ![]⟩ .f32 0x47435000#32))))))
        (broadcastInDim ⟨2, ![50000, 128]⟩ ![0, 1] h2 (broadcastInDim ⟨2, ![1, 128]⟩ ![1] h1
          (Host.rsqrt (addf (varRef hr hu hb h1 h2 hb1 z)
            (broadcastInDim ⟨1, ![128]⟩ ![] hb (constant (F := Ideal) ⟨0, ![]⟩ .f32 0x3727C5AC#32)))))))
      (broadcastInDim ⟨2, ![50000, 128]⟩ ![0, 1] h2 (broadcastInDim ⟨2, ![1, 128]⟩ ![1] h1
        (shapeCast ⟨1, ![128]⟩ (extractStridedSlice ⟨2, ![1, 128]⟩ ![o, 0] gs hsV) hcV))))
    (broadcastInDim ⟨2, ![50000, 128]⟩ ![0, 1] h2 (broadcastInDim ⟨2, ![1, 128]⟩ ![1] h1
      (shapeCast ⟨1, ![128]⟩ (extractStridedSlice ⟨2, ![1, 128]⟩ ![o, 0] bs hsV) hcV)))

theorem bnRef_eq (hi : i.val = o) (z : FVec Ideal ⟨2, ![50000, 128]⟩ .f32) :
    bnRef o hsV hcV h1 h2 hr hu hb hb1 gs bs z
      = Spec.bn z (Spec.mean z) (Spec.varDev z) (Spec.sliceV gs i) (Spec.sliceV bs i) := by
  unfold bnRef
  rw [mean_eq hr hu hb z, var_eq hr hu hb h1 h2 hb1 z,
    stackRow_eq o i hi hsV hcV h1 h2 gs, stackRow_eq o i hi hsV hcV h1 h2 bs]
  exact bn_eq h1 h2 hb z (Spec.mean z) (Spec.varDev z) (Spec.sliceV gs i) (Spec.sliceV bs i)

def layerPreRef : FVec Ideal ⟨2, ![50000, 128]⟩ .f32 :=
  bnRef o hsV hcV h1 h2 hr hu hb hb1 gs bs (zRef o wfg wfs wfd hzM hsM hcM hsV hcV h1 h2 x sB dB W1s b1s W2s b2s)

def layerActRef : FVec Ideal ⟨2, ![50000, 128]⟩ .f32 :=
  lreluRef hzM (layerPreRef o wfg wfs wfd hzM hsM hcM hsV hcV h1 h2 hr hu hb hb1 x sB dB W1s b1s W2s b2s gs bs)

theorem layerPreRef_eq (hi : i.val = o) :
    layerPreRef o wfg wfs wfd hzM hsM hcM hsV hcV h1 h2 hr hu hb hb1 x sB dB W1s b1s W2s b2s gs bs
      = Spec.layerDev false x (Spec.aggOf x sB dB) (Spec.sliceM W1s i) (Spec.sliceV b1s i) (Spec.sliceM W2s i)
          (Spec.sliceV b2s i) (Spec.sliceV gs i) (Spec.sliceV bs i) := by
  unfold layerPreRef
  rw [bnRef_eq o i hsV hcV h1 h2 hr hu hb hb1 gs bs hi, zRef_eq o i wfg wfs wfd hzM hsM hcM hsV hcV h1 h2 x sB dB W1s b1s W2s b2s hi]
  rfl

variable {wfg wfs wfd hzM hsM hcM hsV hcV h1 h2 hr hu hb hb1}

-- Over a record of inputs the reference's layer is the specification's step: rectified below the last index, plain at it.
theorem layerAct_step (I : Spec.Inputs) (h : FVec Ideal ⟨2, ![50000, 128]⟩ .f32) (hi : i.val = o) (h7 : decide (i.val < 7) = true) :
    layerActRef o wfg wfs wfd hzM hsM hcM hsV hcV h1 h2 hr hu hb hb1 h I.srcB I.dstB I.W1s I.b1s I.W2s I.b2s I.gammas I.betas = Spec.stepDev I i h := by
  unfold layerActRef lreluRef Spec.stepDev
  rw [h7, lrelu_eq hzM, layerPreRef_eq o i wfg wfs wfd hzM hsM hcM hsV hcV h1 h2 hr hu hb hb1 h _ _ _ _ _ _ _ _ hi]
  rfl

theorem layerPre_step (I : Spec.Inputs) (h : FVec Ideal ⟨2, ![50000, 128]⟩ .f32) (hi : i.val = o) (h7 : decide (i.val < 7) = false) :
    layerPreRef o wfg wfs wfd hzM hsM hcM hsV hcV h1 h2 hr hu hb hb1 h I.srcB I.dstB I.W1s I.b1s I.W2s I.b2s I.gammas I.betas = Spec.stepDev I i h := by
  unfold Spec.stepDev
  rw [h7]
  exact layerPreRef_eq o i wfg wfs wfd hzM hsM hcM hsV hcV h1 h2 hr hu hb hb1 h _ _ _ _ _ _ _ _ hi

end Layer

end Cert.ReferenceIdeal.Val

end
-- ==== Proof.RLayer0.lean ====
import proofs.«407097_j78262894068282_1_alg».proof.Proof.ROps.L0
import proofs.«407097_j78262894068282_1_alg».proof.Proof.RLayerVal
import proofs.«407097_j78262894068282_1_alg».proof.Proof.RChainBase

noncomputable section

namespace Cert.ReferenceIdeal.Val

open Cert.ReferenceIdeal Cert.ReferenceIdeal.Gen Idealize.ShloMosaic Idealize.ShloMosaic.TcCoe Idealize.SL.Sem Idealize.ShloMosaic.StableHlo

set_option maxHeartbeats 4000000 in
theorem layer0_out : LayerOut opsL0 (· (Proc.devRef .tc main_arg0)) (· (Proc.devRef .tc main_v55)) 0 := fun V => by
  after_results_simp
  exact layerAct_step 0 0 (inputsAt V) _ rfl rfl

end Cert.ReferenceIdeal.Val

end
-- ==== Proof.ROps.L1.lean ====
import proofs.«407097_j78262894068282_1_alg».proof.ReferenceIdeal
import proofs.«407097_j78262894068282_1_alg».proof.Proof.Gen.ReferenceIdeal
import proofs.«407097_j78262894068282_1_alg».proof.Proof.ROps.Base

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev opsL1 : List (HloOp τ sig (Elt F)) :=
  [ StableHlo.nullary main_c_7 (constantI S_ 32 0#32),
    StableHlo.unary main_c_7 main_v56 (broadcastInDim S600000 ![] bcast_S_S600000 : (⟨S_, .i32⟩ : BufTy).Contents (Elt F) → (⟨S600000, .i32⟩ : BufTy).Contents (Elt F)),
    StableHlo.binary main_v1 main_v56 main_v57 (cmpi .slt : (⟨S600000, .i32⟩ : BufTy).Contents (Elt F) → (⟨S600000, .i32⟩ : BufTy).Contents (Elt F) → (⟨S600000, .i1⟩ : BufTy).Contents (Elt F)),
    StableHlo.nullary main_c_8 (constantI S_ 32 50000#32),
    StableHlo.unary main_c_8 main_v58 (broadcastInDim S600000 ![] bcast_S_S600000 : (⟨S_, .i32⟩ : BufTy).Contents (Elt F) → (⟨S600000, .i32⟩ : BufTy).Contents (Elt F)),
    StableHlo.binary main_v1 main_v58 main_v59 (addi : (⟨S600000, .i32⟩ : BufTy).Contents (Elt F) → (⟨S600000, .i32⟩ : BufTy).Contents (Elt F) → (⟨S600000, .i32⟩ : BufTy).Contents (Elt F)),
    StableHlo.ternary main_v57 main_v59 main_v1 main_v60 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v60 main_v61 (broadcastInDim S600000x1 ![0] bcast_S600000_S600000x1_0 : (⟨S600000, .i32⟩ : BufTy).Contents (Elt F) → (⟨S600000x1, .i32⟩ : BufTy).Contents (Elt F)),
    StableHlo.binary main_v55 main_v61 main_v62 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_9 (constant S_ .f32 0x00000000#32),
    StableHlo.unary main_cst_9 main_v63 (broadcastInDim S50000x128 ![] bcast_S_S50000x128 : (⟨S_, .f32⟩ : BufTy).Contents (Elt F) → (⟨S50000x128, .f32⟩ : BufTy).Contents (Elt F)),
    StableHlo.unary main_v3 main_v64 (broadcastInDim S600000x1 ![0] bcast_S600000_S600000x1_0 : (⟨S600000, .i32⟩ : BufTy).Contents (Elt F) → (⟨S600000x1, .i32⟩ : BufTy).Contents (Elt F)),
    StableHlo.ternary main_v63 main_v64 main_v62 main_v65 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v55 main_v65 main_v66 (addf : (⟨S50000x128, .f32⟩ : BufTy).Contents (Elt F) → (⟨S50000x128, .f32⟩ : BufTy).Contents (Elt F) → (⟨S50000x128, .f32⟩ : BufTy).Contents (Elt F)),
    StableHlo.unary main_arg4 main_v67 ((extractStridedSlice S1x128x128 ![1, 0, 0] · slices_S8x128x128_S1x128x128_1_0_0) : (⟨S8x128x128, .f32⟩ : BufTy).Contents (Elt F) → (⟨S1x128x128, .f32⟩ : BufTy).Contents (Elt F)),
    StableHlo.reshape main_v67 main_v68 rfl shapeCasts_S1x128x128_S128x128,
    StableHlo.binary main_v66 main_v68 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v70 ((extractStridedSlice S1x128 ![1, 0] · slices_S8x128_S1x128_1_0) : (⟨S8x128, .f32⟩ : BufTy).Contents (Elt F) → (⟨S1x128, .f32⟩ : BufTy).Contents (Elt F)),
    StableHlo.reshape main_v70 main_v71 rfl shapeCasts_S1x128_S128,
    StableHlo.unary main_v71 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v73 main_v74 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3C23D70A#32),
    StableHlo.nullary main_call3_cst (constant S_ .f32 0x00000000#32),
    StableHlo.unary main_call3_cst main_call3_v0 ((broadcastInDim S50000x128 ![] bcast_S_S50000x128) : (⟨S_, .f32⟩ : BufTy).Contents (Elt F) → (⟨S50000x128, .f32⟩ : BufTy).Contents (Elt F)),
    StableHlo.binary main_v74 main_call3_v0 main_call3_v1 ((cmpf .oge) : (⟨S50000x128, .f32⟩ : BufTy).Contents (Elt F) → (⟨S50000x128, .f32⟩ : BufTy).Contents (Elt F) → (⟨S50000x128, .i1⟩ : BufTy).Contents (Elt F)),
    StableHlo.unary main_cst_10 main_call3_v2 (id : (⟨S_, .f32⟩ : BufTy).Contents (Elt F) → (⟨S_, .f32⟩ : BufTy).Contents (Elt F)),
    StableHlo.unary main_call3_v2 main_call3_v3 ((broadcastInDim S50000x128 ![] bcast_S_S50000x128) : (⟨S_, .f32⟩ : BufTy).Contents (Elt F) → (⟨S50000x128, .f32⟩ : BufTy).Contents (Elt F)),
    StableHlo.binary main_call3_v3 main_v74 main_call3_v4 (mulf : (⟨S50000x128, .f32⟩ : BufTy).Contents (Elt F) → (⟨S50000x128, .f32⟩ : BufTy).Contents (Elt F) → (⟨S50000x128, .f32⟩ : BufTy).Contents (Elt F)),
    StableHlo.ternary main_call3_v1 main_v74 main_call3_v4 main_v75 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    StableHlo.unary main_arg6 main_v76 ((extractStridedSlice S1x128x128 ![1, 0, 0] · slices_S8x128x128_S1x128x128_1_0_0) : (⟨S8x128x128, .f32⟩ : BufTy).Contents (Elt F) → (⟨S1x128x128, .f32⟩ : BufTy).Contents (Elt F)),
    StableHlo.reshape main_v76 main_v77 rfl shapeCasts_S1x128x128_S128x128,
    StableHlo.binary main_v75 main_v77 main_v78 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v79 ((extractStridedSlice S1x128 ![1, 0] · slices_S8x128_S1x128_1_0) : (⟨S8x128, .f32⟩ : BufTy).Contents (Elt F) → (⟨S1x128, .f32⟩ : BufTy).Contents (Elt F)),
    StableHlo.reshape main_v79 main_v80 rfl shapeCasts_S1x128_S128,
    StableHlo.unary main_v80 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v82 main_v83 (addf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x00000000#32),
    StableHlo.binary main_v83 main_cst_11 main_v84 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_12 (constant S_ .f32 0x47435000#32),
    StableHlo.unary main_cst_12 main_v85 (broadcastInDim S128 ![] bcast_S_S128 : (⟨S_, .f32⟩ : BufTy).Contents (Elt F) → (⟨S128, .f32⟩ : BufTy).Contents (Elt F)),
    StableHlo.binary main_v84 main_v85 main_v86 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    StableHlo.nullary main_call4_cst (constant S_ .f32 0x00000000#32),
    StableHlo.binary main_v83 main_call4_cst main_call4_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call4_v0 main_call4_v1 ((broadcastInDim S1x128 ![1] bcast_S128_S1x128_1) : (⟨S128, .f32⟩ : BufTy).Contents (Elt F) → (⟨S1x128, .f32⟩ : BufTy).Contents (Elt F)),
    StableHlo.nullary main_call4_cst_0 (constant S_ .f32 0x47435000#32),
    StableHlo.unary main_call4_cst_0 main_call4_v2 ((broadcastInDim S1x128 ![] bcast_S_S1x128) : (⟨S_, .f32⟩ : BufTy).Contents (Elt F) → (⟨S1x128, .f32⟩ : BufTy).Contents (Elt F)),
    StableHlo.binary main_call4_v1 main_call4_v2 main_call4_v3 (Host.divf : (⟨S1x128, .f32⟩ : BufTy).Contents (Elt F) → (⟨S1x128, .f32⟩ : BufTy).Contents (Elt F) → (⟨S1x128, .f32⟩ : BufTy).Contents (Elt F)),
    StableHlo.unary main_call4_v3 main_call4_v4 ((broadcastInDim S50000x128 ![0, 1] bcast_S1x128_S50000x128_0_1) : (⟨S1x128, .f32⟩ : BufTy).Contents (Elt F) → (⟨S50000x128, .f32⟩ : BufTy).Contents (Elt F)),
    StableHlo.binary main_v83 main_call4_v4 main_call4_v5 (subf : (⟨S50000x128, .f32⟩ : BufTy).Contents (Elt F) → (⟨S50000x128, .f32⟩ : BufTy).Contents (Elt F) → (⟨S50000x128, .f32⟩ : BufTy).Contents (Elt F)),
    StableHlo.binary main_call4_v5 main_call4_v5 main_call4_v6 (mulf : (⟨S50000x128, .f32⟩ : BufTy).Contents (Elt F) → (⟨S50000x128, .f32⟩ : BufTy).Contents (Elt F) → (⟨S50000x128, .f32⟩ : BufTy).Contents (Elt F)),
    StableHlo.unary main_c_13 main_call4_v7 ((sitofp .f32) : (⟨S_, .i32⟩ : BufTy).Contents (Elt F) → (⟨S_, .f32⟩ : BufTy).Contents (Elt F)),
    StableHlo.nullary main_call4_cst_1 (constant S_ .f32 0x47435000#32),
    StableHlo.binary main_call4_cst_1 main_call4_v7 main_call4_v8 (subf : (⟨S_, .f32⟩ : BufTy).Contents (Elt F) → (⟨S_, .f32⟩ : BufTy).Contents (Elt F) → (⟨S_, .f32⟩ : BufTy).Contents (Elt F)),
    StableHlo.nullary main_call4_cst_2 (constant S_ .f32 0x00000000#32),
    StableHlo.binary main_call4_v6 main_call4_cst_2 main_call4_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call4_v8 main_call4_v10 ((broadcastInDim S128 ![] bcast_S_S128) : (⟨S_, .f32⟩ : BufTy).Contents (Elt F) → (⟨S128, .f32⟩ : BufTy).Contents (Elt F)),
    StableHlo.binary main_call4_v9 main_call4_v10 main_call4_v11 (Host.divf : (⟨S128, .f32⟩ : BufTy).Contents (Elt F) → (⟨S128, .f32⟩ : BufTy).Contents (Elt F) → (⟨S128, .f32⟩ : BufTy).Contents (Elt F)),
    StableHlo.nullary main_call4_cst_3 (constant S_ .f32 0x00000000#32),
    StableHlo.binary main_call4_v8 main_call4_cst_3 main_call4_v12 ((cmpf .ogt) : (⟨S_, .f32⟩ : BufTy).Contents (Elt F) → (⟨S_, .f32⟩ : BufTy).Contents (Elt F) → (⟨S_, .i1⟩ : BufTy).Contents (Elt F)),
    StableHlo.nullary main_call4_cst_4 (constant S_ .f32 0x7FC00000#32),
    StableHlo.unary main_call4_cst_4 main_call4_call0_v0 (id : (⟨S_, .f32⟩ : BufTy).Contents (Elt F) → (⟨S_, .f32⟩ : BufTy).Contents (Elt F)),
    StableHlo.unary main_call4_call0_v0 main_call4_call0_v1 ((broadcastInDim S128 ![] bcast_S_S128) : (⟨S_, .f32⟩ : BufTy).Contents (Elt F) → (⟨S128, .f32⟩ : BufTy).Contents (Elt F)),
    StableHlo.ternary main_call4_v12 main_call4_v11 main_call4_call0_v1 main_v87 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v86 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v89 main_v90 (subf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3727C5AC#32),
    StableHlo.unary main_cst_14 main_v91 (broadcastInDim S128 ![] bcast_S_S128 : (⟨S_, .f32⟩ : BufTy).Contents (Elt F) → (⟨S128, .f32⟩ : BufTy).Contents (Elt F)),
    StableHlo.binary main_v87 main_v91 main_v92 (addf : (⟨S128, .f32⟩ : BufTy).Contents (Elt F) → (⟨S128, .f32⟩ : BufTy).Contents (Elt F) → (⟨S128, .f32⟩ : BufTy).Contents (Elt F)),
    StableHlo.unary main_v92 main_v93 (Host.rsqrt : (⟨S128, .f32⟩ : BufTy).Contents (Elt F) → (⟨S128, .f32⟩ : BufTy).Contents (Elt F)),
    StableHlo.unary main_v93 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),
    StableHlo.binary main_v90 main_v95 main_v96 (mulf : (⟨S50000x128, .f32⟩ : BufTy).Contents (Elt F) → (⟨S50000x128, .f32⟩ : BufTy).Contents (Elt F) → (⟨S50000x128, .f32⟩ : BufTy).Contents (Elt F)),
    StableHlo.unary main_arg8 main_v97 ((extractStridedSlice S1x128 ![1, 0] · slices_S8x128_S1x128_1_0) : (⟨S8x128, .f32⟩ : BufTy).Contents (Elt F) → (⟨S1x128, .f32⟩ : BufTy).Contents (Elt F)),
    StableHlo.reshape main_v97 main_v98 rfl shapeCasts_S1x128_S128,
    StableHlo.unary main_v98 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S50000x128 ![0, 1] bcast_S1x128_S50000x128_0_1 : (⟨S1x128, .f32⟩ : BufTy).Contents (Elt F) → (⟨S50000x128, .f32⟩ : BufTy).Contents (Elt F)),
    StableHlo.binary main_v96 main_v100 main_v101 (mulf : (⟨S50000x128, .f32⟩ : BufTy).Contents (Elt F) → (⟨S50000x128, .f32⟩ : BufTy).Contents (Elt F) → (⟨S50000x128, .f32⟩ : BufTy).Contents (Elt F)),
    StableHlo.unary main_arg9 main_v102 ((extractStridedSlice S1x128 ![1, 0] · slices_S8x128_S1x128_1_0) : (⟨S8x128, .f32⟩ : BufTy).Contents (Elt F) → (⟨S1x128, .f32⟩ : BufTy).Contents (Elt F)),
    StableHlo.reshape main_v102 main_v103 rfl shapeCasts_S1x128_S128,
    StableHlo.unary main_v103 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S50000x128 ![0, 1] bcast_S1x128_S50000x128_0_1 : (⟨S1x128, .f32⟩ : BufTy).Contents (Elt F) → (⟨S50000x128, .f32⟩ : BufTy).Contents (Elt F)),
    StableHlo.binary main_v101 main_v105 main_v106 (addf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3C23D70A#32),
    StableHlo.nullary main_call5_cst (constant S_ .f32 0x00000000#32),
    StableHlo.unary main_call5_cst main_call5_v0 ((broadcastInDim S50000x128 ![] bcast_S_S50000x128) : (⟨S_, .f32⟩ : BufTy).Contents (Elt F) → (⟨S50000x128, .f32⟩ : BufTy).Contents (Elt F)),
    StableHlo.binary main_v106 main_call5_v0 main_call5_v1 ((cmpf .oge) : (⟨S50000x128, .f32⟩ : BufTy).Contents (Elt F) → (⟨S50000x128, .f32⟩ : BufTy).Contents (Elt F) → (⟨S50000x128, .i1⟩ : BufTy).Contents (Elt F)),
    StableHlo.unary main_cst_15 main_call5_v2 (id : (⟨S_, .f32⟩ : BufTy).Contents (Elt F) → (⟨S_, .f32⟩ : BufTy).Contents (Elt F)),
    StableHlo.unary main_call5_v2 main_call5_v3 ((broadcastInDim S50000x128 ![] bcast_S_S50000x128) : (⟨S_, .f32⟩ : BufTy).Contents (Elt F) → (⟨S50000x128, .f32⟩ : BufTy).Contents (Elt F)),
    StableHlo.binary main_call5_v3 main_v106 main_call5_v4 (mulf : (⟨S50000x128, .f32⟩ : BufTy).Contents (Elt F) → (⟨S50000x128, .f32⟩ : BufTy).Contents (Elt F) → (⟨S50000x128, .f32⟩ : BufTy).Contents (Elt F)),
    StableHlo.ternary main_call5_v1 main_v106 main_call5_v4 main_v107 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) ]

abbrev opsL1_W : List (Ref sig .tc) :=
  [main_c_7, main_v56, main_v57, main_c_8, main_v58, main_v59, main_v60, main_v61, main_v62, main_cst_9, main_v63, main_v64, main_v65, main_v66, main_v67, main_v68, main_v69, main_v70, main_v71, main_v72, main_v73, main_v74, main_cst_10, main_call3_cst, main_call3_v0, main_call3_v1, main_call3_v2, main_call3_v3, main_call3_v4, main_v75, main_v76, main_v77, main_v78, main_v79, main_v80, main_v81, main_v82, main_v83, main_cst_11, main_v84, main_cst_12, main_v85, main_v86, main_c_13, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v87, main_v88, main_v89, main_v90, main_cst_14, main_v91, main_v92, main_v93, main_v94, main_v95, main_v96, main_v97, main_v98, main_v99, main_v100, main_v101, main_v102, main_v103, main_v104, main_v105, main_v106, main_cst_15, main_call5_cst, main_call5_v0, main_call5_v1, main_call5_v2, main_call5_v3, main_call5_v4, main_v107]

theorem opsL1_line : Line (opsL1 : List (HloOp τ sig (Elt F))) opsL1_W :=
  ⟨by simp only [List.Forall, nullary_bufs_sub, unary_bufs_sub, binary_bufs_sub, ternary_bufs_sub, reshape_bufs_sub, and_self], rfl, rfl⟩

theorem opsL1_keep (V : Valuation τ sig (Elt F)) (r : Ref sig .tc) (h : r ∉ opsL1_W) :
    after opsL1 V (Proc.devRef .tc r) = V (Proc.devRef .tc r) :=
  opsL1_line.keep V h

end Cert.ReferenceIdeal.Val

end
-- ==== Proof.RLayer1.lean ====
import proofs.«407097_j78262894068282_1_alg».proof.Proof.ROps.L1
import proofs.«407097_j78262894068282_1_alg».proof.Proof.RLayerVal
import proofs.«407097_j78262894068282_1_alg».proof.Proof.RChainBase

noncomputable section

namespace Cert.ReferenceIdeal.Val

open Cert.ReferenceIdeal Cert.ReferenceIdeal.Gen Idealize.ShloMosaic Idealize.ShloMosaic.TcCoe Idealize.SL.Sem Idealize.ShloMosaic.StableHlo

set_option maxHeartbeats 4000000 in
theorem layer1_out : LayerOut opsL1 (· (Proc.devRef .tc main_v55)) (· (Proc.devRef .tc main_v107)) 1 := fun V => by
  after_results_simp
  exact layerAct_step 1 1 (inputsAt V) _ rfl rfl

end Cert.ReferenceIdeal.Val

end
-- ==== Proof.ROps.L2.lean ====
import proofs.«407097_j78262894068282_1_alg».proof.ReferenceIdeal
import proofs.«407097_j78262894068282_1_alg».proof.Proof.Gen.ReferenceIdeal
import proofs.«407097_j78262894068282_1_alg».proof.Proof.ROps.Base

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev opsL2 : List (HloOp τ sig (Elt F)) :=
  [ StableHlo.nullary main_c_16 (constantI S_ 32 0#32),
    StableHlo.unary main_c_16 main_v108 (broadcastInDim S600000 ![] bcast_S_S600000 : (⟨S_, .i32⟩ : BufTy).Contents (Elt F) → (⟨S600000, .i32⟩ : BufTy).Contents (Elt F)),
    StableHlo.binary main_v1 main_v108 main_v109 (cmpi .slt : (⟨S600000, .i32⟩ : BufTy).Contents (Elt F) → (⟨S600000, .i32⟩ : BufTy).Contents (Elt F) → (⟨S600000, .i1⟩ : BufTy).Contents (Elt F)),
    StableHlo.nullary main_c_17 (constantI S_ 32 50000#32),
    StableHlo.unary main_c_17 main_v110 (broadcastInDim S600000 ![] bcast_S_S600000 : (⟨S_, .i32⟩ : BufTy).Contents (Elt F) → (⟨S600000, .i32⟩ : BufTy).Contents (Elt F)),
    StableHlo.binary main_v1 main_v110 main_v111 (addi : (⟨S600000, .i32⟩ : BufTy).Contents (Elt F) → (⟨S600000, .i32⟩ : BufTy).Contents (Elt F) → (⟨S600000, .i32⟩ : BufTy).Contents (Elt F)),
    StableHlo.ternary main_v109 main_v111 main_v1 main_v112 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v112 main_v113 (broadcastInDim S600000x1 ![0] bcast_S600000_S600000x1_0 : (⟨S600000, .i32⟩ : BufTy).Contents (Elt F) → (⟨S600000x1, .i32⟩ : BufTy).Contents (Elt F)),
    StableHlo.binary main_v107 main_v113 main_v114 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_18 (constant S_ .f32 0x00000000#32),
    StableHlo.unary main_cst_18 main_v115 (broadcastInDim S50000x128 ![] bcast_S_S50000x128 : (⟨S_, .f32⟩ : BufTy).Contents (Elt F) → (⟨S50000x128, .f32⟩ : BufTy).Contents (Elt F)),
    StableHlo.unary main_v3 main_v116 (broadcastInDim S600000x1 ![0] bcast_S600000_S600000x1_0 : (⟨S600000, .i32⟩ : BufTy).Contents (Elt F) → (⟨S600000x1, .i32⟩ : BufTy).Contents (Elt F)),
    StableHlo.ternary main_v115 main_v116 main_v114 main_v117 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v107 main_v117 main_v118 (addf : (⟨S50000x128, .f32⟩ : BufTy).Contents (Elt F) → (⟨S50000x128, .f32⟩ : BufTy).Contents (Elt F) → (⟨S50000x128, .f32⟩ : BufTy).Contents (Elt F)),
    StableHlo.unary main_arg4 main_v119 ((extractStridedSlice S1x128x128 ![2, 0, 0] · slices_S8x128x128_S1x128x128_2_0_0) : (⟨S8x128x128, .f32⟩ : BufTy).Contents (Elt F) → (⟨S1x128x128, .f32⟩ : BufTy).Contents (Elt F)),
    StableHlo.reshape main_v119 main_v120 rfl shapeCasts_S1x128x128_S128x128,
    StableHlo.binary main_v118 main_v120 main_v121 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v122 ((extractStridedSlice S1x128 ![2, 0] · slices_S8x128_S1x128_2_0) : (⟨S8x128, .f32⟩ : BufTy).Contents (Elt F) → (⟨S1x128, .f32⟩ : BufTy).Contents (Elt F)),
    StableHlo.reshape main_v122 main_v123 rfl shapeCasts_S1x128_S128,
    StableHlo.unary main_v123 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S50000x128 ![0, 1] bcast_S1x128_S50000x128_0_1 : (⟨S1x128, .f32⟩ : BufTy).Contents (Elt F) → (⟨S50000x128, .f32⟩ : BufTy).Contents (Elt F)),
    StableHlo.binary main_v121 main_v125 main_v126 (addf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3C23D70A#32),
    StableHlo.nullary main_call6_cst (constant S_ .f32 0x00000000#32),
    StableHlo.unary main_call6_cst main_call6_v0 ((broadcastInDim S50000x128 ![] bcast_S_S50000x128) : (⟨S_, .f32⟩ : BufTy).Contents (Elt F) → (⟨S50000x128, .f32⟩ : BufTy).Contents (Elt F)),
    StableHlo.binary main_v126 main_call6_v0 main_call6_v1 ((cmpf .oge) : (⟨S50000x128, .f32⟩ : BufTy).Contents (Elt F) → (⟨S50000x128, .f32⟩ : BufTy).Contents (Elt F) → (⟨S50000x128, .i1⟩ : BufTy).Contents (Elt F)),
    StableHlo.unary main_cst_19 main_call6_v2 (id : (⟨S_, .f32⟩ : BufTy).Contents (Elt F) → (⟨S_, .f32⟩ : BufTy).Contents (Elt F)),
    StableHlo.unary main_call6_v2 main_call6_v3 ((broadcastInDim S50000x128 ![] bcast_S_S50000x128) : (⟨S_, .f32⟩ : BufTy).Contents (Elt F) → (⟨S50000x128, .f32⟩ : BufTy).Contents (Elt F)),
    StableHlo.binary main_call6_v3 main_v126 main_call6_v4 (mulf : (⟨S50000x128, .f32⟩ : BufTy).Contents (Elt F) → (⟨S50000x128, .f32⟩ : BufTy).Contents (Elt F) → (⟨S50000x128, .f32⟩ : BufTy).Contents (Elt F)),
    StableHlo.ternary main_call6_v1 main_v126 main_call6_v4 main_v127 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    StableHlo.unary main_arg6 main_v128 ((extractStridedSlice S1x128x128 ![2, 0, 0] · slices_S8x128x128_S1x128x128_2_0_0) : (⟨S8x128x128, .f32⟩ : BufTy).Contents (Elt F) → (⟨S1x128x128, .f32⟩ : BufTy).Contents (Elt F)),
    StableHlo.reshape main_v128 main_v129 rfl shapeCasts_S1x128x128_S128x128,
    StableHlo.binary main_v127 main_v129 main_v130 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v131 ((extractStridedSlice S1x128 ![2, 0] · slices_S8x128_S1x128_2_0) : (⟨S8x128, .f32⟩ : BufTy).Contents (Elt F) → (⟨S1x128, .f32⟩ : BufTy).Contents (Elt F)),
    StableHlo.reshape main_v131 main_v132 rfl shapeCasts_S1x128_S128,
    StableHlo.unary main_v132 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S50000x128 ![0, 1] bcast_S1x128_S50000x128_0_1 : (⟨S1x128, .f32⟩ : BufTy).Contents (Elt F) → (⟨S50000x128, .f32⟩ : BufTy).Contents (Elt F)),
    StableHlo.binary main_v130 main_v134 main_v135 (addf : (⟨S50000x128, .f32⟩ : BufTy).Contents (Elt F) → (⟨S50000x128, .f32⟩ : BufTy).Contents (Elt F) → (⟨S50000x128, .f32⟩ : BufTy).Contents (Elt F)),
    StableHlo.nullary main_cst_20 (constant S_ .f32 0x00000000#32),
    StableHlo.binary main_v135 main_cst_20 main_v136 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_21 (constant S_ .f32 0x47435000#32),
    StableHlo.unary main_cst_21 main_v137 (broadcastInDim S128 ![] bcast_S_S128 : (⟨S_, .f32⟩ : BufTy).Contents (Elt F) → (⟨S128, .f32⟩ : BufTy).Contents (Elt F)),
    StableHlo.binary main_v136 main_v137 main_v138 (Host.divf : (⟨S128, .f32⟩ : BufTy).Contents (Elt F) → (⟨S128, .f32⟩ : BufTy).Contents (Elt F) → (⟨S128, .f32⟩ : BufTy).Contents (Elt F)),
    StableHlo.nullary main_c_22 (constantI S_ 32 0#32),
    StableHlo.nullary main_call7_cst (constant S_ .f32 0x00000000#32),
    StableHlo.binary main_v135 main_call7_cst main_call7_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call7_v0 main_call7_v1 ((broadcastInDim S1x128 ![1] bcast_S128_S1x128_1) : (⟨S128, .f32⟩ : BufTy).Contents (Elt F) → (⟨S1x128, .f32⟩ : BufTy).Contents (Elt F)),
    StableHlo.nullary main_call7_cst_0 (constant S_ .f32 0x47435000#32),
    StableHlo.unary main_call7_cst_0 main_call7_v2 ((broadcastInDim S1x128 ![] bcast_S_S1x128) : (⟨S_, .f32⟩ : BufTy).Contents (Elt F) → (⟨S1x128, .f32⟩ : BufTy).Contents (Elt F)),
    StableHlo.binary main_call7_v1 main_call7_v2 main_call7_v3 (Host.divf : (⟨S1x128, .f32⟩ : BufTy).Contents (Elt F) → (⟨S1x128, .f32⟩ : BufTy).Contents (Elt F) → (⟨S1x128, .f32⟩ : BufTy).Contents (Elt F)),
    StableHlo.unary main_call7_v3 main_call7_v4 ((broadcastInDim S50000x128 ![0, 1] bcast_S1x128_S50000x128_0_1) : (⟨S1x128, .f32⟩ : BufTy).Contents (Elt F) → (⟨S50000x128, .f32⟩ : BufTy).Contents (Elt F)),
    StableHlo.binary main_v135 main_call7_v4 main_call7_v5 (subf : (⟨S50000x128, .f32⟩ : BufTy).Contents (Elt F) → (⟨S50000x128, .f32⟩ : BufTy).Contents (Elt F) → (⟨S50000x128, .f32⟩ : BufTy).Contents (Elt F)),
    StableHlo.binary main_call7_v5 main_call7_v5 main_call7_v6 (mulf : (⟨S50000x128, .f32⟩ : BufTy).Contents (Elt F) → (⟨S50000x128, .f32⟩ : BufTy).Contents (Elt F) → (⟨S50000x128, .f32⟩ : BufTy).Contents (Elt F)),
    StableHlo.unary main_c_22 main_call7_v7 ((sitofp .f32) : (⟨S_, .i32⟩ : BufTy).Contents (Elt F) → (⟨S_, .f32⟩ : BufTy).Contents (Elt F)),
    StableHlo.nullary main_call7_cst_1 (constant S_ .f32 0x47435000#32),
    StableHlo.binary main_call7_cst_1 main_call7_v7 main_call7_v8 (subf : (⟨S_, .f32⟩ : BufTy).Contents (Elt F) → (⟨S_, .f32⟩ : BufTy).Contents (Elt F) → (⟨S_, .f32⟩ : BufTy).Contents (Elt F)),
    StableHlo.nullary main_call7_cst_2 (constant S_ .f32 0x00000000#32),
    StableHlo.binary main_call7_v6 main_call7_cst_2 main_call7_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call7_v8 main_call7_v10 ((broadcastInDim S128 ![] bcast_S_S128) : (⟨S_, .f32⟩ : BufTy).Contents (Elt F) → (⟨S128, .f32⟩ : BufTy).Contents (Elt F)),
    StableHlo.binary main_call7_v9 main_call7_v10 main_call7_v11 (Host.divf : (⟨S128, .f32⟩ : BufTy).Contents (Elt F) → (⟨S128, .f32⟩ : BufTy).Contents (Elt F) → (⟨S128, .f32⟩ : BufTy).Contents (Elt F)),
    StableHlo.nullary main_call7_cst_3 (constant S_ .f32 0x00000000#32),
    StableHlo.binary main_call7_v8 main_call7_cst_3 main_call7_v12 ((cmpf .ogt) : (⟨S_, .f32⟩ : BufTy).Contents (Elt F) → (⟨S_, .f32⟩ : BufTy).Contents (Elt F) → (⟨S_, .i1⟩ : BufTy).Contents (Elt F)),
    StableHlo.nullary main_call7_cst_4 (constant S_ .f32 0x7FC00000#32),
    StableHlo.unary main_call7_cst_4 main_call7_call0_v0 (id : (⟨S_, .f32⟩ : BufTy).Contents (Elt F) → (⟨S_, .f32⟩ : BufTy).Contents (Elt F)),
    StableHlo.unary main_call7_call0_v0 main_call7_call0_v1 ((broadcastInDim S128 ![] bcast_S_S128) : (⟨S_, .f32⟩ : BufTy).Contents (Elt F) → (⟨S128, .f32⟩ : BufTy).Contents (Elt F)),
    StableHlo.ternary main_call7_v12 main_call7_v11 main_call7_call0_v1 main_v139 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v138 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S50000x128 ![0, 1] bcast_S1x128_S50000x128_0_1 : (⟨S1x128, .f32⟩ : BufTy).Contents (Elt F) → (⟨S50000x128, .f32⟩ : BufTy).Contents (Elt F)),
    StableHlo.binary main_v135 main_v141 main_v142 (subf : (⟨S50000x128, .f32⟩ : BufTy).Contents (Elt F) → (⟨S50000x128, .f32⟩ : BufTy).Contents (Elt F) → (⟨S50000x128, .f32⟩ : BufTy).Contents (Elt F)),
    StableHlo.nullary main_cst_23 (constant S_ .f32 0x3727C5AC#32),
    StableHlo.unary main_cst_23 main_v143 (broadcastInDim S128 ![] bcast_S_S128 : (⟨S_, .f32⟩ : BufTy).Contents (Elt F) → (⟨S128, .f32⟩ : BufTy).Contents (Elt F)),
    StableHlo.binary main_v139 main_v143 main_v144 (addf : (⟨S128, .f32⟩ : BufTy).Contents (Elt F) → (⟨S128, .f32⟩ : BufTy).Contents (Elt F) → (⟨S128, .f32⟩ : BufTy).Contents (Elt F)),
    StableHlo.unary main_v144 main_v145 (Host.rsqrt : (⟨S128, .f32⟩ : BufTy).Contents (Elt F) → (⟨S128, .f32⟩ : BufTy).Contents (Elt F)),
    StableHlo.unary main_v145 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S50000x128 ![0, 1] bcast_S1x128_S50000x128_0_1 : (⟨S1x128, .f32⟩ : BufTy).Contents (Elt F) → (⟨S50000x128, .f32⟩ : BufTy).Contents (Elt F)),
    StableHlo.binary main_v142 main_v147 main_v148 (mulf : (⟨S50000x128, .f32⟩ : BufTy).Contents (Elt F) → (⟨S50000x128, .f32⟩ : BufTy).Contents (Elt F) → (⟨S50000x128, .f32⟩ : BufTy).Contents (Elt F)),
    StableHlo.unary main_arg8 main_v149 ((extractStridedSlice S1x128 ![2, 0] · slices_S8x128_S1x128_2_0) : (⟨S8x128, .f32⟩ : BufTy).Contents (Elt F) → (⟨S1x128, .f32⟩ : BufTy).Contents (Elt F)),
    StableHlo.reshape main_v149 main_v150 rfl shapeCasts_S1x128_S128,
    StableHlo.unary main_v150 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S50000x128 ![0, 1] bcast_S1x128_S50000x128_0_1 : (⟨S1x128, .f32⟩ : BufTy).Contents (Elt F) → (⟨S50000x128, .f32⟩ : BufTy).Contents (Elt F)),
    StableHlo.binary main_v148 main_v152 main_v153 (mulf : (⟨S50000x128, .f32⟩ : BufTy).Contents (Elt F) → (⟨S50000x128, .f32⟩ : BufTy).Contents (Elt F) → (⟨S50000x128, .f32⟩ : BufTy).Contents (Elt F)),
    StableHlo.unary main_arg9 main_v154 ((extractStridedSlice S1x128 ![2, 0] · slices_S8x128_S1x128_2_0) : (⟨S8x128, .f32⟩ : BufTy).Contents (Elt F) → (⟨S1x128, .f32⟩ : BufTy).Contents (Elt F)),
    StableHlo.reshape main_v154 main_v155 rfl shapeCasts_S1x128_S128,
    StableHlo.unary main_v155 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S50000x128 ![0, 1] bcast_S1x128_S50000x128_0_1 : (⟨S1x128, .f32⟩ : BufTy).Contents (Elt F) → (⟨S50000x128, .f32⟩ : BufTy).Contents (Elt F)),
    StableHlo.binary main_v153 main_v157 main_v158 (addf : (⟨S50000x128, .f32⟩ : BufTy).Contents (Elt F) → (⟨S50000x128, .f32⟩ : BufTy).Contents (Elt F) → (⟨S50000x128, .f32⟩ : BufTy).Contents (Elt F)),
    StableHlo.nullary main_cst_24 (constant S_ .f32 0x3C23D70A#32),
    StableHlo.nullary main_call8_cst (constant S_ .f32 0x00000000#32),
    StableHlo.unary main_call8_cst main_call8_v0 ((broadcastInDim S50000x128 ![] bcast_S_S50000x128) : (⟨S_, .f32⟩ : BufTy).Contents (Elt F) → (⟨S50000x128, .f32⟩ : BufTy).Contents (Elt F)),
    StableHlo.binary main_v158 main_call8_v0 main_call8_v1 ((cmpf .oge) : (⟨S50000x128, .f32⟩ : BufTy).Contents (Elt F) → (⟨S50000x128, .f32⟩ : BufTy).Contents (Elt F) → (⟨S50000x128, .i1⟩ : BufTy).Contents (Elt F)),
    StableHlo.unary main_cst_24 main_call8_v2 (id : (⟨S_, .f32⟩ : BufTy).Contents (Elt F) → (⟨S_, .f32⟩ : BufTy).Contents (Elt F)),
    StableHlo.unary main_call8_v2 main_call8_v3 ((broadcastInDim S50000x128 ![] bcast_S_S50000x128) : (⟨S_, .f32⟩ : BufTy).Contents (Elt F) → (⟨S50000x128, .f32⟩ : BufTy).Contents (Elt F)),
    StableHlo.binary main_call8_v3 main_v158 main_call8_v4 (mulf : (⟨S50000x128, .f32⟩ : BufTy).Contents (Elt F) → (⟨S50000x128, .f32⟩ : BufTy).Contents (Elt F) → (⟨S50000x128, .f32⟩ : BufTy).Contents (Elt F)),
    StableHlo.ternary main_call8_v1 main_v158 main_call8_v4 main_v159 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) ]

abbrev opsL2_W : List (Ref sig .tc) :=
  [main_c_16, main_v108, main_v109, main_c_17, main_v110, main_v111, main_v112, main_v113, main_v114, main_cst_18, main_v115, main_v116, main_v117, main_v118, main_v119, main_v120, main_v121, main_v122, main_v123, main_v124, main_v125, main_v126, main_cst_19, main_call6_cst, main_call6_v0, main_call6_v1, main_call6_v2, main_call6_v3, main_call6_v4, main_v127, main_v128, main_v129, main_v130, main_v131, main_v132, main_v133, main_v134, main_v135, main_cst_20, main_v136, main_cst_21, main_v137, main_v138, main_c_22, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v139, main_v140, main_v141, main_v142, main_cst_23, main_v143, main_v144, main_v145, main_v146, main_v147, main_v148, main_v149, main_v150, main_v151, main_v152, main_v153, main_v154, main_v155, main_v156, main_v157, main_v158, main_cst_24, main_call8_cst, main_call8_v0, main_call8_v1, main_call8_v2, main_call8_v3, main_call8_v4, main_v159]

theorem opsL2_line : Line (opsL2 : List (HloOp τ sig (Elt F))) opsL2_W :=
  ⟨by simp only [List.Forall, nullary_bufs_sub, unary_bufs_sub, binary_bufs_sub, ternary_bufs_sub, reshape_bufs_sub, and_self], rfl, rfl⟩

theorem opsL2_keep (V : Valuation τ sig (Elt F)) (r : Ref sig .tc) (h : r ∉ opsL2_W) :
    after opsL2 V (Proc.devRef .tc r) = V (Proc.devRef .tc r) :=
  opsL2_line.keep V h

end Cert.ReferenceIdeal.Val

end
-- ==== Proof.RLayer2.lean ====
import proofs.«407097_j78262894068282_1_alg».proof.Proof.ROps.L2
import proofs.«407097_j78262894068282_1_alg».proof.Proof.RLayerVal
import proofs.«407097_j78262894068282_1_alg».proof.Proof.RChainBase

noncomputable section

namespace Cert.ReferenceIdeal.Val

open Cert.ReferenceIdeal Cert.ReferenceIdeal.Gen Idealize.ShloMosaic Idealize.ShloMosaic.TcCoe Idealize.SL.Sem Idealize.ShloMosaic.StableHlo

set_option maxHeartbeats 4000000 in
theorem layer2_out : LayerOut opsL2 (· (Proc.devRef .tc main_v107)) (· (Proc.devRef .tc main_v159)) 2 := fun V => by
  after_results_simp
  exact layerAct_step 2 2 (inputsAt V) _ rfl rfl

end Cert.ReferenceIdeal.Val

end
-- ==== Proof.ROps.L3.lean ====
import proofs.«407097_j78262894068282_1_alg».proof.ReferenceIdeal
import proofs.«407097_j78262894068282_1_alg».proof.Proof.Gen.ReferenceIdeal
import proofs.«407097_j78262894068282_1_alg».proof.Proof.ROps.Base

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev opsL3 : List (HloOp τ sig (Elt F)) :=
  [ StableHlo.nullary main_c_25 (constantI S_ 32 0#32),
    StableHlo.unary main_c_25 main_v160 (broadcastInDim S600000 ![] bcast_S_S600000 : (⟨S_, .i32⟩ : BufTy).Contents (Elt F) → (⟨S600000, .i32⟩ : BufTy).Contents (Elt F)),
    StableHlo.binary main_v1 main_v160 main_v161 (cmpi .slt : (⟨S600000, .i32⟩ : BufTy).Contents (Elt F) → (⟨S600000, .i32⟩ : BufTy).Contents (Elt F) → (⟨S600000, .i1⟩ : BufTy).Contents (Elt F)),
    StableHlo.nullary main_c_26 (constantI S_ 32 50000#32),
    StableHlo.unary main_c_26 main_v162 (broadcastInDim S600000 ![] bcast_S_S600000 : (⟨S_, .i32⟩ : BufTy).Contents (Elt F) → (⟨S600000, .i32⟩ : BufTy).Contents (Elt F)),
    StableHlo.binary main_v1 main_v162 main_v163 (addi : (⟨S600000, .i32⟩ : BufTy).Contents (Elt F) → (⟨S600000, .i32⟩ : BufTy).Contents (Elt F) → (⟨S600000, .i32⟩ : BufTy).Contents (Elt F)),
    StableHlo.ternary main_v161 main_v163 main_v1 main_v164 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v164 main_v165 (broadcastInDim S600000x1 ![0] bcast_S600000_S600000x1_0 : (⟨S600000, .i32⟩ : BufTy).Contents (Elt F) → (⟨S600000x1, .i32⟩ : BufTy).Contents (Elt F)),
    StableHlo.binary main_v159 main_v165 main_v166 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_27 (constant S_ .f32 0x00000000#32),
    StableHlo.unary main_cst_27 main_v167 (broadcastInDim S50000x128 ![] bcast_S_S50000x128 : (⟨S_, .f32⟩ : BufTy).Contents (Elt F) → (⟨S50000x128, .f32⟩ : BufTy).Contents (Elt F)),
    StableHlo.unary main_v3 main_v168 (broadcastInDim S600000x1 ![0] bcast_S600000_S600000x1_0 : (⟨S600000, .i32⟩ : BufTy).Contents (Elt F) → (⟨S600000x1, .i32⟩ : BufTy).Contents (Elt F)),
    StableHlo.ternary main_v167 main_v168 main_v166 main_v169 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v159 main_v169 main_v170 (addf : (⟨S50000x128, .f32⟩ : BufTy).Contents (Elt F) → (⟨S50000x128, .f32⟩ : BufTy).Contents (Elt F) → (⟨S50000x128, .f32⟩ : BufTy).Contents (Elt F)),
    StableHlo.unary main_arg4 main_v171 ((extractStridedSlice S1x128x128 ![3, 0, 0] · slices_S8x128x128_S1x128x128_3_0_0) : (⟨S8x128x128, .f32⟩ : BufTy).Contents (Elt F) → (⟨S1x128x128, .f32⟩ : BufTy).Contents (Elt F)),
    StableHlo.reshape main_v171 main_v172 rfl shapeCasts_S1x128x128_S128x128,
    StableHlo.binary main_v170 main_v172 main_v173 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v174 ((extractStridedSlice S1x128 ![3, 0] · slices_S8x128_S1x128_3_0) : (⟨S8x128, .f32⟩ : BufTy).Contents (Elt F) → (⟨S1x128, .f32⟩ : BufTy).Contents (Elt F)),
    StableHlo.reshape main_v174 main_v175 rfl shapeCasts_S1x128_S128,
    StableHlo.unary main_v175 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S50000x128 ![0, 1] bcast_S1x128_S50000x128_0_1 : (⟨S1x128, .f32⟩ : BufTy).Contents (Elt F) → (⟨S50000x128, .f32⟩ : BufTy).Contents (Elt F)),
    StableHlo.binary main_v173 main_v177 main_v178 (addf : (⟨S50000x128, .f32⟩ : BufTy).Contents (Elt F) → (⟨S50000x128, .f32⟩ : BufTy).Contents (Elt F) → (⟨S50000x128, .f32⟩ : BufTy).Contents (Elt F)),
    StableHlo.nullary main_cst_28 (constant S_ .f32 0x3C23D70A#32),
    StableHlo.nullary main_call9_cst (constant S_ .f32 0x00000000#32),
    StableHlo.unary main_call9_cst main_call9_v0 ((broadcastInDim S50000x128 ![] bcast_S_S50000x128) : (⟨S_, .f32⟩ : BufTy).Contents (Elt F) → (⟨S50000x128, .f32⟩ : BufTy).Contents (Elt F)),
    StableHlo.binary main_v178 main_call9_v0 main_call9_v1 ((cmpf .oge) : (⟨S50000x128, .f32⟩ : BufTy).Contents (Elt F) → (⟨S50000x128, .f32⟩ : BufTy).Contents (Elt F) → (⟨S50000x128, .i1⟩ : BufTy).Contents (Elt F)),
    StableHlo.unary main_cst_28 main_call9_v2 (id : (⟨S_, .f32⟩ : BufTy).Contents (Elt F) → (⟨S_, .f32⟩ : BufTy).Contents (Elt F)),
    StableHlo.unary main_call9_v2 main_call9_v3 ((broadcastInDim S50000x128 ![] bcast_S_S50000x128) : (⟨S_, .f32⟩ : BufTy).Contents (Elt F) → (⟨S50000x128, .f32⟩ : BufTy).Contents (Elt F)),
    StableHlo.binary main_call9_v3 main_v178 main_call9_v4 (mulf : (⟨S50000x128, .f32⟩ : BufTy).Contents (Elt F) → (⟨S50000x128, .f32⟩ : BufTy).Contents (Elt F) → (⟨S50000x128, .f32⟩ : BufTy).Contents (Elt F)),
    StableHlo.ternary main_call9_v1 main_v178 main_call9_v4 main_v179 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    StableHlo.unary main_arg6 main_v180 ((extractStridedSlice S1x128x128 ![3, 0, 0] · slices_S8x128x128_S1x128x128_3_0_0) : (⟨S8x128x128, .f32⟩ : BufTy).Contents (Elt F) → (⟨S1x128x128, .f32⟩ : BufTy).Contents (Elt F)),
    StableHlo.reshape main_v180 main_v181 rfl shapeCasts_S1x128x128_S128x128,
    StableHlo.binary main_v179 main_v181 main_v182 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v183 ((extractStridedSlice S1x128 ![3, 0] · slices_S8x128_S1x128_3_0) : (⟨S8x128, .f32⟩ : BufTy).Contents (Elt F) → (⟨S1x128, .f32⟩ : BufTy).Contents (Elt F)),
    StableHlo.reshape main_v183 main_v184 rfl shapeCasts_S1x128_S128,
    StableHlo.unary main_v184 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S50000x128 ![0, 1] bcast_S1x128_S50000x128_0_1 : (⟨S1x128, .f32⟩ : BufTy).Contents (Elt F) → (⟨S50000x128, .f32⟩ : BufTy).Contents (Elt F)),
    StableHlo.binary main_v182 main_v186 main_v187 (addf : (⟨S50000x128, .f32⟩ : BufTy).Contents (Elt F) → (⟨S50000x128, .f32⟩ : BufTy).Contents (Elt F) → (⟨S50000x128, .f32⟩ : BufTy).Contents (Elt F)),
    StableHlo.nullary main_cst_29 (constant S_ .f32 0x00000000#32),
    StableHlo.binary main_v187 main_cst_29 main_v188 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_30 (constant S_ .f32 0x47435000#32),
    StableHlo.unary main_cst_30 main_v189 (broadcastInDim S128 ![] bcast_S_S128 : (⟨S_, .f32⟩ : BufTy).Contents (Elt F) → (⟨S128, .f32⟩ : BufTy).Contents (Elt F)),
    StableHlo.binary main_v188 main_v189 main_v190 (Host.divf : (⟨S128, .f32⟩ : BufTy).Contents (Elt F) → (⟨S128, .f32⟩ : BufTy).Contents (Elt F) → (⟨S128, .f32⟩ : BufTy).Contents (Elt F)),
    StableHlo.nullary main_c_31 (constantI S_ 32 0#32),
    StableHlo.nullary main_call10_cst (constant S_ .f32 0x00000000#32),
    StableHlo.binary main_v187 main_call10_cst main_call10_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call10_v0 main_call10_v1 ((broadcastInDim S1x128 ![1] bcast_S128_S1x128_1) : (⟨S128, .f32⟩ : BufTy).Contents (Elt F) → (⟨S1x128, .f32⟩ : BufTy).Contents (Elt F)),
    StableHlo.nullary main_call10_cst_0 (constant S_ .f32 0x47435000#32),
    StableHlo.unary main_call10_cst_0 main_call10_v2 ((broadcastInDim S1x128 ![] bcast_S_S1x128) : (⟨S_, .f32⟩ : BufTy).Contents (Elt F) → (⟨S1x128, .f32⟩ : BufTy).Contents (Elt F)),
    StableHlo.binary main_call10_v1 main_call10_v2 main_call10_v3 (Host.divf : (⟨S1x128, .f32⟩ : BufTy).Contents (Elt F) → (⟨S1x128, .f32⟩ : BufTy).Contents (Elt F) → (⟨S1x128, .f32⟩ : BufTy).Contents (Elt F)),
    StableHlo.unary main_call10_v3 main_call10_v4 ((broadcastInDim S50000x128 ![0, 1] bcast_S1x128_S50000x128_0_1) : (⟨S1x128, .f32⟩ : BufTy).Contents (Elt F) → (⟨S50000x128, .f32⟩ : BufTy).Contents (Elt F)),
    StableHlo.binary main_v187 main_call10_v4 main_call10_v5 (subf : (⟨S50000x128, .f32⟩ : BufTy).Contents (Elt F) → (⟨S50000x128, .f32⟩ : BufTy).Contents (Elt F) → (⟨S50000x128, .f32⟩ : BufTy).Contents (Elt F)),
    StableHlo.binary main_call10_v5 main_call10_v5 main_call10_v6 (mulf : (⟨S50000x128, .f32⟩ : BufTy).Contents (Elt F) → (⟨S50000x128, .f32⟩ : BufTy).Contents (Elt F) → (⟨S50000x128, .f32⟩ : BufTy).Contents (Elt F)),
    StableHlo.unary main_c_31 main_call10_v7 ((sitofp .f32) : (⟨S_, .i32⟩ : BufTy).Contents (Elt F) → (⟨S_, .f32⟩ : BufTy).Contents (Elt F)),
    StableHlo.nullary main_call10_cst_1 (constant S_ .f32 0x47435000#32),
    StableHlo.binary main_call10_cst_1 main_call10_v7 main_call10_v8 (subf : (⟨S_, .f32⟩ : BufTy).Contents (Elt F) → (⟨S_, .f32⟩ : BufTy).Contents (Elt F) → (⟨S_, .f32⟩ : BufTy).Contents (Elt F)),
    StableHlo.nullary main_call10_cst_2 (constant S_ .f32 0x00000000#32),
    StableHlo.binary main_call10_v6 main_call10_cst_2 main_call10_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call10_v8 main_call10_v10 ((broadcastInDim S128 ![] bcast_S_S128) : (⟨S_, .f32⟩ : BufTy).Contents (Elt F) → (⟨S128, .f32⟩ : BufTy).Contents (Elt F)),
    StableHlo.binary main_call10_v9 main_call10_v10 main_call10_v11 (Host.divf : (⟨S128, .f32⟩ : BufTy).Contents (Elt F) → (⟨S128, .f32⟩ : BufTy).Contents (Elt F) → (⟨S128, .f32⟩ : BufTy).Contents (Elt F)),
    StableHlo.nullary main_call10_cst_3 (constant S_ .f32 0x00000000#32),
    StableHlo.binary main_call10_v8 main_call10_cst_3 main_call10_v12 ((cmpf .ogt) : (⟨S_, .f32⟩ : BufTy).Contents (Elt F) → (⟨S_, .f32⟩ : BufTy).Contents (Elt F) → (⟨S_, .i1⟩ : BufTy).Contents (Elt F)),
    StableHlo.nullary main_call10_cst_4 (constant S_ .f32 0x7FC00000#32),
    StableHlo.unary main_call10_cst_4 main_call10_call0_v0 (id : (⟨S_, .f32⟩ : BufTy).Contents (Elt F) → (⟨S_, .f32⟩ : BufTy).Contents (Elt F)),
    StableHlo.unary main_call10_call0_v0 main_call10_call0_v1 ((broadcastInDim S128 ![] bcast_S_S128) : (⟨S_, .f32⟩ : BufTy).Contents (Elt F) → (⟨S128, .f32⟩ : BufTy).Contents (Elt F)),
    StableHlo.ternary main_call10_v12 main_call10_v11 main_call10_call0_v1 main_v191 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v190 main_v192 (broadcastInDim S1x128 ![1] bcast_S128_S1x128_1 : (⟨S128, .f32⟩ : BufTy).Contents (Elt F) → (⟨S1x128, .f32⟩ : BufTy).Contents (Elt F)),
    StableHlo.unary main_v192 main_v193 (broadcastInDim S50000x128 ![0, 1] bcast_S1x128_S50000x128_0_1 : (⟨S1x128, .f32⟩ : BufTy).Contents (Elt F) → (⟨S50000x128, .f32⟩ : BufTy).Contents (Elt F)),
    StableHlo.binary main_v187 main_v193 main_v194 (subf : (⟨S50000x128, .f32⟩ : BufTy).Contents (Elt F) → (⟨S50000x128, .f32⟩ : BufTy).Contents (Elt F) → (⟨S50000x128, .f32⟩ : BufTy).Contents (Elt F)),
    StableHlo.nullary main_cst_32 (constant S_ .f32 0x3727C5AC#32),
    StableHlo.unary main_cst_32 main_v195 (broadcastInDim S128 ![] bcast_S_S128 : (⟨S_, .f32⟩ : BufTy).Contents (Elt F) → (⟨S128, .f32⟩ : BufTy).Contents (Elt F)),
    StableHlo.binary main_v191 main_v195 main_v196 (addf : (⟨S128, .f32⟩ : BufTy).Contents (Elt F) → (⟨S128, .f32⟩ : BufTy).Contents (Elt F) → (⟨S128, .f32⟩ : BufTy).Contents (Elt F)),
    StableHlo.unary main_v196 main_v197 (Host.rsqrt : (⟨S128, .f32⟩ : BufTy).Contents (Elt F) → (⟨S128, .f32⟩ : BufTy).Contents (Elt F)),
    StableHlo.unary main_v197 main_v198 (broadcastInDim S1x128 ![1] bcast_S128_S1x128_1 : (⟨S128, .f32⟩ : BufTy).Contents (Elt F) → (⟨S1x128, .f32⟩ : BufTy).Contents (Elt F)),
    StableHlo.unary main_v198 main_v199 (broadcastInDim S50000x128 ![0, 1] bcast_S1x128_S50000x128_0_1 : (⟨S1x128, .f32⟩ : BufTy).Contents (Elt F) → (⟨S50000x128, .f32⟩ : BufTy).Contents (Elt F)),
    StableHlo.binary main_v194 main_v199 main_v200 (mulf : (⟨S50000x128, .f32⟩ : BufTy).Contents (Elt F) → (⟨S50000x128, .f32⟩ : BufTy).Contents (Elt F) → (⟨S50000x128, .f32⟩ : BufTy).Contents (Elt F)),
    StableHlo.unary main_arg8 main_v201 ((extractStridedSlice S1x128 ![3, 0] · slices_S8x128_S1x128_3_0) : (⟨S8x128, .f32⟩ : BufTy).Contents (Elt F) → (⟨S1x128, .f32⟩ : BufTy).Contents (Elt F)),
    StableHlo.reshape main_v201 main_v202 rfl shapeCasts_S1x128_S128,
    StableHlo.unary main_v202 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S50000x128 ![0, 1] bcast_S1x128_S50000x128_0_1 : (⟨S1x128, .f32⟩ : BufTy).Contents (Elt F) → (⟨S50000x128, .f32⟩ : BufTy).Contents (Elt F)),
    StableHlo.binary main_v200 main_v204 main_v205 (mulf : (⟨S50000x128, .f32⟩ : BufTy).Contents (Elt F) → (⟨S50000x128, .f32⟩ : BufTy).Contents (Elt F) → (⟨S50000x128, .f32⟩ : BufTy).Contents (Elt F)),
    StableHlo.unary main_arg9 main_v206 ((extractStridedSlice S1x128 ![3, 0] · slices_S8x128_S1x128_3_0) : (⟨S8x128, .f32⟩ : BufTy).Contents (Elt F) → (⟨S1x128, .f32⟩ : BufTy).Contents (Elt F)),
    StableHlo.reshape main_v206 main_v207 rfl shapeCasts_S1x128_S128,
    StableHlo.unary main_v207 main_v208 (broadcastInDim S1x128 ![1] bcast_S128_S1x128_1 : (⟨S128, .f32⟩ : BufTy).Contents (Elt F) → (⟨S1x128, .f32⟩ : BufTy).Contents (Elt F)),
    StableHlo.unary main_v208 main_v209 (broadcastInDim S50000x128 ![0, 1] bcast_S1x128_S50000x128_0_1 : (⟨S1x128, .f32⟩ : BufTy).Contents (Elt F) → (⟨S50000x128, .f32⟩ : BufTy).Contents (Elt F)),
    StableHlo.binary main_v205 main_v209 main_v210 (addf : (⟨S50000x128, .f32⟩ : BufTy).Contents (Elt F) → (⟨S50000x128, .f32⟩ : BufTy).Contents (Elt F) → (⟨S50000x128, .f32⟩ : BufTy).Contents (Elt F)),
    StableHlo.nullary main_cst_33 (constant S_ .f32 0x3C23D70A#32),
    StableHlo.nullary main_call11_cst (constant S_ .f32 0x00000000#32),
    StableHlo.unary main_call11_cst main_call11_v0 ((broadcastInDim S50000x128 ![] bcast_S_S50000x128) : (⟨S_, .f32⟩ : BufTy).Contents (Elt F) → (⟨S50000x128, .f32⟩ : BufTy).Contents (Elt F)),
    StableHlo.binary main_v210 main_call11_v0 main_call11_v1 ((cmpf .oge) : (⟨S50000x128, .f32⟩ : BufTy).Contents (Elt F) → (⟨S50000x128, .f32⟩ : BufTy).Contents (Elt F) → (⟨S50000x128, .i1⟩ : BufTy).Contents (Elt F)),
    StableHlo.unary main_cst_33 main_call11_v2 (id : (⟨S_, .f32⟩ : BufTy).Contents (Elt F) → (⟨S_, .f32⟩ : BufTy).Contents (Elt F)),
    StableHlo.unary main_call11_v2 main_call11_v3 ((broadcastInDim S50000x128 ![] bcast_S_S50000x128) : (⟨S_, .f32⟩ : BufTy).Contents (Elt F) → (⟨S50000x128, .f32⟩ : BufTy).Contents (Elt F)),
    StableHlo.binary main_call11_v3 main_v210 main_call11_v4 (mulf : (⟨S50000x128, .f32⟩ : BufTy).Contents (Elt F) → (⟨S50000x128, .f32⟩ : BufTy).Contents (Elt F) → (⟨S50000x128, .f32⟩ : BufTy).Contents (Elt F)),
    StableHlo.ternary main_call11_v1 main_v210 main_call11_v4 main_v211 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) ]

abbrev opsL3_W : List (Ref sig .tc) :=
  [main_c_25, main_v160, main_v161, main_c_26, main_v162, main_v163, main_v164, main_v165, main_v166, main_cst_27, main_v167, main_v168, main_v169, main_v170, main_v171, main_v172, main_v173, main_v174, main_v175, main_v176, main_v177, main_v178, main_cst_28, main_call9_cst, main_call9_v0, main_call9_v1, main_call9_v2, main_call9_v3, main_call9_v4, main_v179, main_v180, main_v181, main_v182, main_v183, main_v184, main_v185, main_v186, main_v187, main_cst_29, main_v188, main_cst_30, main_v189, main_v190, main_c_31, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v191, main_v192, main_v193, main_v194, main_cst_32, main_v195, main_v196, main_v197, main_v198, main_v199, main_v200, main_v201, main_v202, main_v203, main_v204, main_v205, main_v206, main_v207, main_v208, main_v209, main_v210, main_cst_33, main_call11_cst, main_call11_v0, main_call11_v1, main_call11_v2, main_call11_v3, main_call11_v4, main_v211]

theorem opsL3_line : Line (opsL3 : List (HloOp τ sig (Elt F))) opsL3_W :=
  ⟨by simp only [List.Forall, nullary_bufs_sub, unary_bufs_sub, binary_bufs_sub, ternary_bufs_sub, reshape_bufs_sub, and_self], rfl, rfl⟩

theorem opsL3_keep (V : Valuation τ sig (Elt F)) (r : Ref sig .tc) (h : r ∉ opsL3_W) :
    after opsL3 V (Proc.devRef .tc r) = V (Proc.devRef .tc r) :=
  opsL3_line.keep V h

end Cert.ReferenceIdeal.Val

end
-- ==== Proof.RLayer3.lean ====
import proofs.«407097_j78262894068282_1_alg».proof.Proof.ROps.L3
import proofs.«407097_j78262894068282_1_alg».proof.Proof.RLayerVal
import proofs.«407097_j78262894068282_1_alg».proof.Proof.RChainBase

noncomputable section

namespace Cert.ReferenceIdeal.Val

open Cert.ReferenceIdeal Cert.ReferenceIdeal.Gen Idealize.ShloMosaic Idealize.ShloMosaic.TcCoe Idealize.SL.Sem Idealize.ShloMosaic.StableHlo

set_option maxHeartbeats 4000000 in
theorem layer3_out : LayerOut opsL3 (· (Proc.devRef .tc main_v159)) (· (Proc.devRef .tc main_v211)) 3 := fun V => by
  after_results_simp
  exact layerAct_step 3 3 (inputsAt V) _ rfl rfl

end Cert.ReferenceIdeal.Val

end
-- ==== Proof.ROps.L4.lean ====
import proofs.«407097_j78262894068282_1_alg».proof.ReferenceIdeal
import proofs.«407097_j78262894068282_1_alg».proof.Proof.Gen.ReferenceIdeal
import proofs.«407097_j78262894068282_1_alg».proof.Proof.ROps.Base

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev opsL4 : List (HloOp τ sig (Elt F)) :=
  [ StableHlo.nullary main_c_34 (constantI S_ 32 0#32),
    StableHlo.unary main_c_34 main_v212 (broadcastInDim S600000 ![] bcast_S_S600000 : (⟨S_, .i32⟩ : BufTy).Contents (Elt F) → (⟨S600000, .i32⟩ : BufTy).Contents (Elt F)),
    StableHlo.binary main_v1 main_v212 main_v213 (cmpi .slt : (⟨S600000, .i32⟩ : BufTy).Contents (Elt F) → (⟨S600000, .i32⟩ : BufTy).Contents (Elt F) → (⟨S600000, .i1⟩ : BufTy).Contents (Elt F)),
    StableHlo.nullary main_c_35 (constantI S_ 32 50000#32),
    StableHlo.unary main_c_35 main_v214 (broadcastInDim S600000 ![] bcast_S_S600000 : (⟨S_, .i32⟩ : BufTy).Contents (Elt F) → (⟨S600000, .i32⟩ : BufTy).Contents (Elt F)),
    StableHlo.binary main_v1 main_v214 main_v215 (addi : (⟨S600000, .i32⟩ : BufTy).Contents (Elt F) → (⟨S600000, .i32⟩ : BufTy).Contents (Elt F) → (⟨S600000, .i32⟩ : BufTy).Contents (Elt F)),
    StableHlo.ternary main_v213 main_v215 main_v1 main_v216 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v216 main_v217 (broadcastInDim S600000x1 ![0] bcast_S600000_S600000x1_0 : (⟨S600000, .i32⟩ : BufTy).Contents (Elt F) → (⟨S600000x1, .i32⟩ : BufTy).Contents (Elt F)),
    StableHlo.binary main_v211 main_v217 main_v218 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_36 (constant S_ .f32 0x00000000#32),
    StableHlo.unary main_cst_36 main_v219 (broadcastInDim S50000x128 ![] bcast_S_S50000x128 : (⟨S_, .f32⟩ : BufTy).Contents (Elt F) → (⟨S50000x128, .f32⟩ : BufTy).Contents (Elt F)),
    StableHlo.unary main_v3 main_v220 (broadcastInDim S600000x1 ![0] bcast_S600000_S600000x1_0 : (⟨S600000, .i32⟩ : BufTy).Contents (Elt F) → (⟨S600000x1, .i32⟩ : BufTy).Contents (Elt F)),
    StableHlo.ternary main_v219 main_v220 main_v218 main_v221 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v211 main_v221 main_v222 (addf : (⟨S50000x128, .f32⟩ : BufTy).Contents (Elt F) → (⟨S50000x128, .f32⟩ : BufTy).Contents (Elt F) → (⟨S50000x128, .f32⟩ : BufTy).Contents (Elt F)),
    StableHlo.unary main_arg4 main_v223 ((extractStridedSlice S1x128x128 ![4, 0, 0] · slices_S8x128x128_S1x128x128_4_0_0) : (⟨S8x128x128, .f32⟩ : BufTy).Contents (Elt F) → (⟨S1x128x128, .f32⟩ : BufTy).Contents (Elt F)),
    StableHlo.reshape main_v223 main_v224 rfl shapeCasts_S1x128x128_S128x128,
    StableHlo.binary main_v222 main_v224 main_v225 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v226 ((extractStridedSlice S1x128 ![4, 0] · slices_S8x128_S1x128_4_0) : (⟨S8x128, .f32⟩ : BufTy).Contents (Elt F) → (⟨S1x128, .f32⟩ : BufTy).Contents (Elt F)),
    StableHlo.reshape main_v226 main_v227 rfl shapeCasts_S1x128_S128,
    StableHlo.unary main_v227 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S50000x128 ![0, 1] bcast_S1x128_S50000x128_0_1 : (⟨S1x128, .f32⟩ : BufTy).Contents (Elt F) → (⟨S50000x128, .f32⟩ : BufTy).Contents (Elt F)),
    StableHlo.binary main_v225 main_v229 main_v230 (addf : (⟨S50000x128, .f32⟩ : BufTy).Contents (Elt F) → (⟨S50000x128, .f32⟩ : BufTy).Contents (Elt F) → (⟨S50000x128, .f32⟩ : BufTy).Contents (Elt F)),
    StableHlo.nullary main_cst_37 (constant S_ .f32 0x3C23D70A#32),
    StableHlo.nullary main_call12_cst (constant S_ .f32 0x00000000#32),
    StableHlo.unary main_call12_cst main_call12_v0 ((broadcastInDim S50000x128 ![] bcast_S_S50000x128) : (⟨S_, .f32⟩ : BufTy).Contents (Elt F) → (⟨S50000x128, .f32⟩ : BufTy).Contents (Elt F)),
    StableHlo.binary main_v230 main_call12_v0 main_call12_v1 ((cmpf .oge) : (⟨S50000x128, .f32⟩ : BufTy).Contents (Elt F) → (⟨S50000x128, .f32⟩ : BufTy).Contents (Elt F) → (⟨S50000x128, .i1⟩ : BufTy).Contents (Elt F)),
    StableHlo.unary main_cst_37 main_call12_v2 (id : (⟨S_, .f32⟩ : BufTy).Contents (Elt F) → (⟨S_, .f32⟩ : BufTy).Contents (Elt F)),
    StableHlo.unary main_call12_v2 main_call12_v3 ((broadcastInDim S50000x128 ![] bcast_S_S50000x128) : (⟨S_, .f32⟩ : BufTy).Contents (Elt F) → (⟨S50000x128, .f32⟩ : BufTy).Contents (Elt F)),
    StableHlo.binary main_call12_v3 main_v230 main_call12_v4 (mulf : (⟨S50000x128, .f32⟩ : BufTy).Contents (Elt F) → (⟨S50000x128, .f32⟩ : BufTy).Contents (Elt F) → (⟨S50000x128, .f32⟩ : BufTy).Contents (Elt F)),
    StableHlo.ternary main_call12_v1 main_v230 main_call12_v4 main_v231 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    StableHlo.unary main_arg6 main_v232 ((extractStridedSlice S1x128x128 ![4, 0, 0] · slices_S8x128x128_S1x128x128_4_0_0) : (⟨S8x128x128, .f32⟩ : BufTy).Contents (Elt F) → (⟨S1x128x128, .f32⟩ : BufTy).Contents (Elt F)),
    StableHlo.reshape main_v232 main_v233 rfl shapeCasts_S1x128x128_S128x128,
    StableHlo.binary main_v231 main_v233 main_v234 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v235 ((extractStridedSlice S1x128 ![4, 0] · slices_S8x128_S1x128_4_0) : (⟨S8x128, .f32⟩ : BufTy).Contents (Elt F) → (⟨S1x128, .f32⟩ : BufTy).Contents (Elt F)),
    StableHlo.reshape main_v235 main_v236 rfl shapeCasts_S1x128_S128,
    StableHlo.unary main_v236 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S50000x128 ![0, 1] bcast_S1x128_S50000x128_0_1 : (⟨S1x128, .f32⟩ : BufTy).Contents (Elt F) → (⟨S50000x128, .f32⟩ : BufTy).Contents (Elt F)),
    StableHlo.binary main_v234 main_v238 main_v239 (addf : (⟨S50000x128, .f32⟩ : BufTy).Contents (Elt F) → (⟨S50000x128, .f32⟩ : BufTy).Contents (Elt F) → (⟨S50000x128, .f32⟩ : BufTy).Contents (Elt F)),
    StableHlo.nullary main_cst_38 (constant S_ .f32 0x00000000#32),
    StableHlo.binary main_v239 main_cst_38 main_v240 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_39 (constant S_ .f32 0x47435000#32),
    StableHlo.unary main_cst_39 main_v241 (broadcastInDim S128 ![] bcast_S_S128 : (⟨S_, .f32⟩ : BufTy).Contents (Elt F) → (⟨S128, .f32⟩ : BufTy).Contents (Elt F)),
    StableHlo.binary main_v240 main_v241 main_v242 (Host.divf : (⟨S128, .f32⟩ : BufTy).Contents (Elt F) → (⟨S128, .f32⟩ : BufTy).Contents (Elt F) → (⟨S128, .f32⟩ : BufTy).Contents (Elt F)),
    StableHlo.nullary main_c_40 (constantI S_ 32 0#32),
    StableHlo.nullary main_call13_cst (constant S_ .f32 0x00000000#32),
    StableHlo.binary main_v239 main_call13_cst main_call13_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call13_v0 main_call13_v1 ((broadcastInDim S1x128 ![1] bcast_S128_S1x128_1) : (⟨S128, .f32⟩ : BufTy).Contents (Elt F) → (⟨S1x128, .f32⟩ : BufTy).Contents (Elt F)),
    StableHlo.nullary main_call13_cst_0 (constant S_ .f32 0x47435000#32),
    StableHlo.unary main_call13_cst_0 main_call13_v2 ((broadcastInDim S1x128 ![] bcast_S_S1x128) : (⟨S_, .f32⟩ : BufTy).Contents (Elt F) → (⟨S1x128, .f32⟩ : BufTy).Contents (Elt F)),
    StableHlo.binary main_call13_v1 main_call13_v2 main_call13_v3 (Host.divf : (⟨S1x128, .f32⟩ : BufTy).Contents (Elt F) → (⟨S1x128, .f32⟩ : BufTy).Contents (Elt F) → (⟨S1x128, .f32⟩ : BufTy).Contents (Elt F)),
    StableHlo.unary main_call13_v3 main_call13_v4 ((broadcastInDim S50000x128 ![0, 1] bcast_S1x128_S50000x128_0_1) : (⟨S1x128, .f32⟩ : BufTy).Contents (Elt F) → (⟨S50000x128, .f32⟩ : BufTy).Contents (Elt F)),
    StableHlo.binary main_v239 main_call13_v4 main_call13_v5 (subf : (⟨S50000x128, .f32⟩ : BufTy).Contents (Elt F) → (⟨S50000x128, .f32⟩ : BufTy).Contents (Elt F) → (⟨S50000x128, .f32⟩ : BufTy).Contents (Elt F)),
    StableHlo.binary main_call13_v5 main_call13_v5 main_call13_v6 (mulf : (⟨S50000x128, .f32⟩ : BufTy).Contents (Elt F) → (⟨S50000x128, .f32⟩ : BufTy).Contents (Elt F) → (⟨S50000x128, .f32⟩ : BufTy).Contents (Elt F)),
    StableHlo.unary main_c_40 main_call13_v7 ((sitofp .f32) : (⟨S_, .i32⟩ : BufTy).Contents (Elt F) → (⟨S_, .f32⟩ : BufTy).Contents (Elt F)),
    StableHlo.nullary main_call13_cst_1 (constant S_ .f32 0x47435000#32),
    StableHlo.binary main_call13_cst_1 main_call13_v7 main_call13_v8 (subf : (⟨S_, .f32⟩ : BufTy).Contents (Elt F) → (⟨S_, .f32⟩ : BufTy).Contents (Elt F) → (⟨S_, .f32⟩ : BufTy).Contents (Elt F)),
    StableHlo.nullary main_call13_cst_2 (constant S_ .f32 0x00000000#32),
    StableHlo.binary main_call13_v6 main_call13_cst_2 main_call13_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call13_v8 main_call13_v10 ((broadcastInDim S128 ![] bcast_S_S128) : (⟨S_, .f32⟩ : BufTy).Contents (Elt F) → (⟨S128, .f32⟩ : BufTy).Contents (Elt F)),
    StableHlo.binary main_call13_v9 main_call13_v10 main_call13_v11 (Host.divf : (⟨S128, .f32⟩ : BufTy).Contents (Elt F) → (⟨S128, .f32⟩ : BufTy).Contents (Elt F) → (⟨S128, .f32⟩ : BufTy).Contents (Elt F)),
    StableHlo.nullary main_call13_cst_3 (constant S_ .f32 0x00000000#32),
    StableHlo.binary main_call13_v8 main_call13_cst_3 main_call13_v12 ((cmpf .ogt) : (⟨S_, .f32⟩ : BufTy).Contents (Elt F) → (⟨S_, .f32⟩ : BufTy).Contents (Elt F) → (⟨S_, .i1⟩ : BufTy).Contents (Elt F)),
    StableHlo.nullary main_call13_cst_4 (constant S_ .f32 0x7FC00000#32),
    StableHlo.unary main_call13_cst_4 main_call13_call0_v0 (id : (⟨S_, .f32⟩ : BufTy).Contents (Elt F) → (⟨S_, .f32⟩ : BufTy).Contents (Elt F)),
    StableHlo.unary main_call13_call0_v0 main_call13_call0_v1 ((broadcastInDim S128 ![] bcast_S_S128) : (⟨S_, .f32⟩ : BufTy).Contents (Elt F) → (⟨S128, .f32⟩ : BufTy).Contents (Elt F)),
    StableHlo.ternary main_call13_v12 main_call13_v11 main_call13_call0_v1 main_v243 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v242 main_v244 (broadcastInDim S1x128 ![1] bcast_S128_S1x128_1 : (⟨S128, .f32⟩ : BufTy).Contents (Elt F) → (⟨S1x128, .f32⟩ : BufTy).Contents (Elt F)),
    StableHlo.unary main_v244 main_v245 (broadcastInDim S50000x128 ![0, 1] bcast_S1x128_S50000x128_0_1 : (⟨S1x128, .f32⟩ : BufTy).Contents (Elt F) → (⟨S50000x128, .f32⟩ : BufTy).Contents (Elt F)),
    StableHlo.binary main_v239 main_v245 main_v246 (subf : (⟨S50000x128, .f32⟩ : BufTy).Contents (Elt F) → (⟨S50000x128, .f32⟩ : BufTy).Contents (Elt F) → (⟨S50000x128, .f32⟩ : BufTy).Contents (Elt F)),
    StableHlo.nullary main_cst_41 (constant S_ .f32 0x3727C5AC#32),
    StableHlo.unary main_cst_41 main_v247 (broadcastInDim S128 ![] bcast_S_S128 : (⟨S_, .f32⟩ : BufTy).Contents (Elt F) → (⟨S128, .f32⟩ : BufTy).Contents (Elt F)),
    StableHlo.binary main_v243 main_v247 main_v248 (addf : (⟨S128, .f32⟩ : BufTy).Contents (Elt F) → (⟨S128, .f32⟩ : BufTy).Contents (Elt F) → (⟨S128, .f32⟩ : BufTy).Contents (Elt F)),
    StableHlo.unary main_v248 main_v249 (Host.rsqrt : (⟨S128, .f32⟩ : BufTy).Contents (Elt F) → (⟨S128, .f32⟩ : BufTy).Contents (Elt F)),
    StableHlo.unary main_v249 main_v250 (broadcastInDim S1x128 ![1] bcast_S128_S1x128_1 : (⟨S128, .f32⟩ : BufTy).Contents (Elt F) → (⟨S1x128, .f32⟩ : BufTy).Contents (Elt F)),
    StableHlo.unary main_v250 main_v251 (broadcastInDim S50000x128 ![0, 1] bcast_S1x128_S50000x128_0_1 : (⟨S1x128, .f32⟩ : BufTy).Contents (Elt F) → (⟨S50000x128, .f32⟩ : BufTy).Contents (Elt F)),
    StableHlo.binary main_v246 main_v251 main_v252 (mulf : (⟨S50000x128, .f32⟩ : BufTy).Contents (Elt F) → (⟨S50000x128, .f32⟩ : BufTy).Contents (Elt F) → (⟨S50000x128, .f32⟩ : BufTy).Contents (Elt F)),
    StableHlo.unary main_arg8 main_v253 ((extractStridedSlice S1x128 ![4, 0] · slices_S8x128_S1x128_4_0) : (⟨S8x128, .f32⟩ : BufTy).Contents (Elt F) → (⟨S1x128, .f32⟩ : BufTy).Contents (Elt F)),
    StableHlo.reshape main_v253 main_v254 rfl shapeCasts_S1x128_S128,
    StableHlo.unary main_v254 main_v255 (broadcastInDim S1x128 ![1] bcast_S128_S1x128_1 : (⟨S128, .f32⟩ : BufTy).Contents (Elt F) → (⟨S1x128, .f32⟩ : BufTy).Contents (Elt F)),
    StableHlo.unary main_v255 main_v256 (broadcastInDim S50000x128 ![0, 1] bcast_S1x128_S50000x128_0_1 : (⟨S1x128, .f32⟩ : BufTy).Contents (Elt F) → (⟨S50000x128, .f32⟩ : BufTy).Contents (Elt F)),
    StableHlo.binary main_v252 main_v256 main_v257 (mulf : (⟨S50000x128, .f32⟩ : BufTy).Contents (Elt F) → (⟨S50000x128, .f32⟩ : BufTy).Contents (Elt F) → (⟨S50000x128, .f32⟩ : BufTy).Contents (Elt F)),
    StableHlo.unary main_arg9 main_v258 ((extractStridedSlice S1x128 ![4, 0] · slices_S8x128_S1x128_4_0) : (⟨S8x128, .f32⟩ : BufTy).Contents (Elt F) → (⟨S1x128, .f32⟩ : BufTy).Contents (Elt F)),
    StableHlo.reshape main_v258 main_v259 rfl shapeCasts_S1x128_S128,
    StableHlo.unary main_v259 main_v260 (broadcastInDim S1x128 ![1] bcast_S128_S1x128_1 : (⟨S128, .f32⟩ : BufTy).Contents (Elt F) → (⟨S1x128, .f32⟩ : BufTy).Contents (Elt F)),
    StableHlo.unary main_v260 main_v261 (broadcastInDim S50000x128 ![0, 1] bcast_S1x128_S50000x128_0_1 : (⟨S1x128, .f32⟩ : BufTy).Contents (Elt F) → (⟨S50000x128, .f32⟩ : BufTy).Contents (Elt F)),
    StableHlo.binary main_v257 main_v261 main_v262 (addf : (⟨S50000x128, .f32⟩ : BufTy).Contents (Elt F) → (⟨S50000x128, .f32⟩ : BufTy).Contents (Elt F) → (⟨S50000x128, .f32⟩ : BufTy).Contents (Elt F)),
    StableHlo.nullary main_cst_42 (constant S_ .f32 0x3C23D70A#32),
    StableHlo.nullary main_call14_cst (constant S_ .f32 0x00000000#32),
    StableHlo.unary main_call14_cst main_call14_v0 ((broadcastInDim S50000x128 ![] bcast_S_S50000x128) : (⟨S_, .f32⟩ : BufTy).Contents (Elt F) → (⟨S50000x128, .f32⟩ : BufTy).Contents (Elt F)),
    StableHlo.binary main_v262 main_call14_v0 main_call14_v1 ((cmpf .oge) : (⟨S50000x128, .f32⟩ : BufTy).Contents (Elt F) → (⟨S50000x128, .f32⟩ : BufTy).Contents (Elt F) → (⟨S50000x128, .i1⟩ : BufTy).Contents (Elt F)),
    StableHlo.unary main_cst_42 main_call14_v2 (id : (⟨S_, .f32⟩ : BufTy).Contents (Elt F) → (⟨S_, .f32⟩ : BufTy).Contents (Elt F)),
    StableHlo.unary main_call14_v2 main_call14_v3 ((broadcastInDim S50000x128 ![] bcast_S_S50000x128) : (⟨S_, .f32⟩ : BufTy).Contents (Elt F) → (⟨S50000x128, .f32⟩ : BufTy).Contents (Elt F)),
    StableHlo.binary main_call14_v3 main_v262 main_call14_v4 (mulf : (⟨S50000x128, .f32⟩ : BufTy).Contents (Elt F) → (⟨S50000x128, .f32⟩ : BufTy).Contents (Elt F) → (⟨S50000x128, .f32⟩ : BufTy).Contents (Elt F)),
    StableHlo.ternary main_call14_v1 main_v262 main_call14_v4 main_v263 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) ]

abbrev opsL4_W : List (Ref sig .tc) :=
  [main_c_34, main_v212, main_v213, main_c_35, main_v214, main_v215, main_v216, main_v217, main_v218, main_cst_36, main_v219, main_v220, main_v221, main_v222, main_v223, main_v224, main_v225, main_v226, main_v227, main_v228, main_v229, main_v230, main_cst_37, main_call12_cst, main_call12_v0, main_call12_v1, main_call12_v2, main_call12_v3, main_call12_v4, main_v231, main_v232, main_v233, main_v234, main_v235, main_v236, main_v237, main_v238, main_v239, main_cst_38, main_v240, main_cst_39, main_v241, main_v242, main_c_40, main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_v11, main_call13_cst_3, main_call13_v12, main_call13_cst_4, main_call13_call0_v0, main_call13_call0_v1, main_v243, main_v244, main_v245, main_v246, main_cst_41, main_v247, main_v248, main_v249, main_v250, main_v251, main_v252, main_v253, main_v254, main_v255, main_v256, main_v257, main_v258, main_v259, main_v260, main_v261, main_v262, main_cst_42, main_call14_cst, main_call14_v0, main_call14_v1, main_call14_v2, main_call14_v3, main_call14_v4, main_v263]

theorem opsL4_line : Line (opsL4 : List (HloOp τ sig (Elt F))) opsL4_W :=
  ⟨by simp only [List.Forall, nullary_bufs_sub, unary_bufs_sub, binary_bufs_sub, ternary_bufs_sub, reshape_bufs_sub, and_self], rfl, rfl⟩

theorem opsL4_keep (V : Valuation τ sig (Elt F)) (r : Ref sig .tc) (h : r ∉ opsL4_W) :
    after opsL4 V (Proc.devRef .tc r) = V (Proc.devRef .tc r) :=
  opsL4_line.keep V h

end Cert.ReferenceIdeal.Val

end
-- ==== Proof.RLayer4.lean ====
import proofs.«407097_j78262894068282_1_alg».proof.Proof.ROps.L4
import proofs.«407097_j78262894068282_1_alg».proof.Proof.RLayerVal
import proofs.«407097_j78262894068282_1_alg».proof.Proof.RChainBase

noncomputable section

namespace Cert.ReferenceIdeal.Val

open Cert.ReferenceIdeal Cert.ReferenceIdeal.Gen Idealize.ShloMosaic Idealize.ShloMosaic.TcCoe Idealize.SL.Sem Idealize.ShloMosaic.StableHlo

set_option maxHeartbeats 4000000 in
theorem layer4_out : LayerOut opsL4 (· (Proc.devRef .tc main_v211)) (· (Proc.devRef .tc main_v263)) 4 := fun V => by
  after_results_simp
  exact layerAct_step 4 4 (inputsAt V) _ rfl rfl

end Cert.ReferenceIdeal.Val

end
-- ==== Proof.ROps.L5.lean ====
import proofs.«407097_j78262894068282_1_alg».proof.ReferenceIdeal
import proofs.«407097_j78262894068282_1_alg».proof.Proof.Gen.ReferenceIdeal
import proofs.«407097_j78262894068282_1_alg».proof.Proof.ROps.Base

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev opsL5 : List (HloOp τ sig (Elt F)) :=
  [ StableHlo.nullary main_c_43 (constantI S_ 32 0#32),
    StableHlo.unary main_c_43 main_v264 (broadcastInDim S600000 ![] bcast_S_S600000 : (⟨S_, .i32⟩ : BufTy).Contents (Elt F) → (⟨S600000, .i32⟩ : BufTy).Contents (Elt F)),
    StableHlo.binary main_v1 main_v264 main_v265 (cmpi .slt : (⟨S600000, .i32⟩ : BufTy).Contents (Elt F) → (⟨S600000, .i32⟩ : BufTy).Contents (Elt F) → (⟨S600000, .i1⟩ : BufTy).Contents (Elt F)),
    StableHlo.nullary main_c_44 (constantI S_ 32 50000#32),
    StableHlo.unary main_c_44 main_v266 (broadcastInDim S600000 ![] bcast_S_S600000 : (⟨S_, .i32⟩ : BufTy).Contents (Elt F) → (⟨S600000, .i32⟩ : BufTy).Contents (Elt F)),
    StableHlo.binary main_v1 main_v266 main_v267 (addi : (⟨S600000, .i32⟩ : BufTy).Contents (Elt F) → (⟨S600000, .i32⟩ : BufTy).Contents (Elt F) → (⟨S600000, .i32⟩ : BufTy).Contents (Elt F)),
    StableHlo.ternary main_v265 main_v267 main_v1 main_v268 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v268 main_v269 (broadcastInDim S600000x1 ![0] bcast_S600000_S600000x1_0 : (⟨S600000, .i32⟩ : BufTy).Contents (Elt F) → (⟨S600000x1, .i32⟩ : BufTy).Contents (Elt F)),
    StableHlo.binary main_v263 main_v269 main_v270 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_45 (constant S_ .f32 0x00000000#32),
    StableHlo.unary main_cst_45 main_v271 (broadcastInDim S50000x128 ![] bcast_S_S50000x128 : (⟨S_, .f32⟩ : BufTy).Contents (Elt F) → (⟨S50000x128, .f32⟩ : BufTy).Contents (Elt F)),
    StableHlo.unary main_v3 main_v272 (broadcastInDim S600000x1 ![0] bcast_S600000_S600000x1_0 : (⟨S600000, .i32⟩ : BufTy).Contents (Elt F) → (⟨S600000x1, .i32⟩ : BufTy).Contents (Elt F)),
    StableHlo.ternary main_v271 main_v272 main_v270 main_v273 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v263 main_v273 main_v274 (addf : (⟨S50000x128, .f32⟩ : BufTy).Contents (Elt F) → (⟨S50000x128, .f32⟩ : BufTy).Contents (Elt F) → (⟨S50000x128, .f32⟩ : BufTy).Contents (Elt F)),
    StableHlo.unary main_arg4 main_v275 ((extractStridedSlice S1x128x128 ![5, 0, 0] · slices_S8x128x128_S1x128x128_5_0_0) : (⟨S8x128x128, .f32⟩ : BufTy).Contents (Elt F) → (⟨S1x128x128, .f32⟩ : BufTy).Contents (Elt F)),
    StableHlo.reshape main_v275 main_v276 rfl shapeCasts_S1x128x128_S128x128,
    StableHlo.binary main_v274 main_v276 main_v277 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v278 ((extractStridedSlice S1x128 ![5, 0] · slices_S8x128_S1x128_5_0) : (⟨S8x128, .f32⟩ : BufTy).Contents (Elt F) → (⟨S1x128, .f32⟩ : BufTy).Contents (Elt F)),
    StableHlo.reshape main_v278 main_v279 rfl shapeCasts_S1x128_S128,
    StableHlo.unary main_v279 main_v280 (broadcastInDim S1x128 ![1] bcast_S128_S1x128_1 : (⟨S128, .f32⟩ : BufTy).Contents (Elt F) → (⟨S1x128, .f32⟩ : BufTy).Contents (Elt F)),
    StableHlo.unary main_v280 main_v281 (broadcastInDim S50000x128 ![0, 1] bcast_S1x128_S50000x128_0_1 : (⟨S1x128, .f32⟩ : BufTy).Contents (Elt F) → (⟨S50000x128, .f32⟩ : BufTy).Contents (Elt F)),
    StableHlo.binary main_v277 main_v281 main_v282 (addf : (⟨S50000x128, .f32⟩ : BufTy).Contents (Elt F) → (⟨S50000x128, .f32⟩ : BufTy).Contents (Elt F) → (⟨S50000x128, .f32⟩ : BufTy).Contents (Elt F)),
    StableHlo.nullary main_cst_46 (constant S_ .f32 0x3C23D70A#32),
    StableHlo.nullary main_call15_cst (constant S_ .f32 0x00000000#32),
    StableHlo.unary main_call15_cst main_call15_v0 ((broadcastInDim S50000x128 ![] bcast_S_S50000x128) : (⟨S_, .f32⟩ : BufTy).Contents (Elt F) → (⟨S50000x128, .f32⟩ : BufTy).Contents (Elt F)),
    StableHlo.binary main_v282 main_call15_v0 main_call15_v1 ((cmpf .oge) : (⟨S50000x128, .f32⟩ : BufTy).Contents (Elt F) → (⟨S50000x128, .f32⟩ : BufTy).Contents (Elt F) → (⟨S50000x128, .i1⟩ : BufTy).Contents (Elt F)),
    StableHlo.unary main_cst_46 main_call15_v2 (id : (⟨S_, .f32⟩ : BufTy).Contents (Elt F) → (⟨S_, .f32⟩ : BufTy).Contents (Elt F)),
    StableHlo.unary main_call15_v2 main_call15_v3 ((broadcastInDim S50000x128 ![] bcast_S_S50000x128) : (⟨S_, .f32⟩ : BufTy).Contents (Elt F) → (⟨S50000x128, .f32⟩ : BufTy).Contents (Elt F)),
    StableHlo.binary main_call15_v3 main_v282 main_call15_v4 (mulf : (⟨S50000x128, .f32⟩ : BufTy).Contents (Elt F) → (⟨S50000x128, .f32⟩ : BufTy).Contents (Elt F) → (⟨S50000x128, .f32⟩ : BufTy).Contents (Elt F)),
    StableHlo.ternary main_call15_v1 main_v282 main_call15_v4 main_v283 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    StableHlo.unary main_arg6 main_v284 ((extractStridedSlice S1x128x128 ![5, 0, 0] · slices_S8x128x128_S1x128x128_5_0_0) : (⟨S8x128x128, .f32⟩ : BufTy).Contents (Elt F) → (⟨S1x128x128, .f32⟩ : BufTy).Contents (Elt F)),
    StableHlo.reshape main_v284 main_v285 rfl shapeCasts_S1x128x128_S128x128,
    StableHlo.binary main_v283 main_v285 main_v286 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v287 ((extractStridedSlice S1x128 ![5, 0] · slices_S8x128_S1x128_5_0) : (⟨S8x128, .f32⟩ : BufTy).Contents (Elt F) → (⟨S1x128, .f32⟩ : BufTy).Contents (Elt F)),
    StableHlo.reshape main_v287 main_v288 rfl shapeCasts_S1x128_S128,
    StableHlo.unary main_v288 main_v289 (broadcastInDim S1x128 ![1] bcast_S128_S1x128_1 : (⟨S128, .f32⟩ : BufTy).Contents (Elt F) → (⟨S1x128, .f32⟩ : BufTy).Contents (Elt F)),
    StableHlo.unary main_v289 main_v290 (broadcastInDim S50000x128 ![0, 1] bcast_S1x128_S50000x128_0_1 : (⟨S1x128, .f32⟩ : BufTy).Contents (Elt F) → (⟨S50000x128, .f32⟩ : BufTy).Contents (Elt F)),
    StableHlo.binary main_v286 main_v290 main_v291 (addf : (⟨S50000x128, .f32⟩ : BufTy).Contents (Elt F) → (⟨S50000x128, .f32⟩ : BufTy).Contents (Elt F) → (⟨S50000x128, .f32⟩ : BufTy).Contents (Elt F)),
    StableHlo.nullary main_cst_47 (constant S_ .f32 0x00000000#32),
    StableHlo.binary main_v291 main_cst_47 main_v292 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_48 (constant S_ .f32 0x47435000#32),
    StableHlo.unary main_cst_48 main_v293 (broadcastInDim S128 ![] bcast_S_S128 : (⟨S_, .f32⟩ : BufTy).Contents (Elt F) → (⟨S128, .f32⟩ : BufTy).Contents (Elt F)),
    StableHlo.binary main_v292 main_v293 main_v294 (Host.divf : (⟨S128, .f32⟩ : BufTy).Contents (Elt F) → (⟨S128, .f32⟩ : BufTy).Contents (Elt F) → (⟨S128, .f32⟩ : BufTy).Contents (Elt F)),
    StableHlo.nullary main_c_49 (constantI S_ 32 0#32),
    StableHlo.nullary main_call16_cst (constant S_ .f32 0x00000000#32),
    StableHlo.binary main_v291 main_call16_cst main_call16_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call16_v0 main_call16_v1 ((broadcastInDim S1x128 ![1] bcast_S128_S1x128_1) : (⟨S128, .f32⟩ : BufTy).Contents (Elt F) → (⟨S1x128, .f32⟩ : BufTy).Contents (Elt F)),
    StableHlo.nullary main_call16_cst_0 (constant S_ .f32 0x47435000#32),
    StableHlo.unary main_call16_cst_0 main_call16_v2 ((broadcastInDim S1x128 ![] bcast_S_S1x128) : (⟨S_, .f32⟩ : BufTy).Contents (Elt F) → (⟨S1x128, .f32⟩ : BufTy).Contents (Elt F)),
    StableHlo.binary main_call16_v1 main_call16_v2 main_call16_v3 (Host.divf : (⟨S1x128, .f32⟩ : BufTy).Contents (Elt F) → (⟨S1x128, .f32⟩ : BufTy).Contents (Elt F) → (⟨S1x128, .f32⟩ : BufTy).Contents (Elt F)),
    StableHlo.unary main_call16_v3 main_call16_v4 ((broadcastInDim S50000x128 ![0, 1] bcast_S1x128_S50000x128_0_1) : (⟨S1x128, .f32⟩ : BufTy).Contents (Elt F) → (⟨S50000x128, .f32⟩ : BufTy).Contents (Elt F)),
    StableHlo.binary main_v291 main_call16_v4 main_call16_v5 (subf : (⟨S50000x128, .f32⟩ : BufTy).Contents (Elt F) → (⟨S50000x128, .f32⟩ : BufTy).Contents (Elt F) → (⟨S50000x128, .f32⟩ : BufTy).Contents (Elt F)),
    StableHlo.binary main_call16_v5 main_call16_v5 main_call16_v6 (mulf : (⟨S50000x128, .f32⟩ : BufTy).Contents (Elt F) → (⟨S50000x128, .f32⟩ : BufTy).Contents (Elt F) → (⟨S50000x128, .f32⟩ : BufTy).Contents (Elt F)),
    StableHlo.unary main_c_49 main_call16_v7 ((sitofp .f32) : (⟨S_, .i32⟩ : BufTy).Contents (Elt F) → (⟨S_, .f32⟩ : BufTy).Contents (Elt F)),
    StableHlo.nullary main_call16_cst_1 (constant S_ .f32 0x47435000#32),
    StableHlo.binary main_call16_cst_1 main_call16_v7 main_call16_v8 (subf : (⟨S_, .f32⟩ : BufTy).Contents (Elt F) → (⟨S_, .f32⟩ : BufTy).Contents (Elt F) → (⟨S_, .f32⟩ : BufTy).Contents (Elt F)),
    StableHlo.nullary main_call16_cst_2 (constant S_ .f32 0x00000000#32),
    StableHlo.binary main_call16_v6 main_call16_cst_2 main_call16_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call16_v8 main_call16_v10 ((broadcastInDim S128 ![] bcast_S_S128) : (⟨S_, .f32⟩ : BufTy).Contents (Elt F) → (⟨S128, .f32⟩ : BufTy).Contents (Elt F)),
    StableHlo.binary main_call16_v9 main_call16_v10 main_call16_v11 (Host.divf : (⟨S128, .f32⟩ : BufTy).Contents (Elt F) → (⟨S128, .f32⟩ : BufTy).Contents (Elt F) → (⟨S128, .f32⟩ : BufTy).Contents (Elt F)),
    StableHlo.nullary main_call16_cst_3 (constant S_ .f32 0x00000000#32),
    StableHlo.binary main_call16_v8 main_call16_cst_3 main_call16_v12 ((cmpf .ogt) : (⟨S_, .f32⟩ : BufTy).Contents (Elt F) → (⟨S_, .f32⟩ : BufTy).Contents (Elt F) → (⟨S_, .i1⟩ : BufTy).Contents (Elt F)),
    StableHlo.nullary main_call16_cst_4 (constant S_ .f32 0x7FC00000#32),
    StableHlo.unary main_call16_cst_4 main_call16_call0_v0 (id : (⟨S_, .f32⟩ : BufTy).Contents (Elt F) → (⟨S_, .f32⟩ : BufTy).Contents (Elt F)),
    StableHlo.unary main_call16_call0_v0 main_call16_call0_v1 ((broadcastInDim S128 ![] bcast_S_S128) : (⟨S_, .f32⟩ : BufTy).Contents (Elt F) → (⟨S128, .f32⟩ : BufTy).Contents (Elt F)),
    StableHlo.ternary main_call16_v12 main_call16_v11 main_call16_call0_v1 main_v295 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v294 main_v296 (broadcastInDim S1x128 ![1] bcast_S128_S1x128_1 : (⟨S128, .f32⟩ : BufTy).Contents (Elt F) → (⟨S1x128, .f32⟩ : BufTy).Contents (Elt F)),
    StableHlo.unary main_v296 main_v297 (broadcastInDim S50000x128 ![0, 1] bcast_S1x128_S50000x128_0_1 : (⟨S1x128, .f32⟩ : BufTy).Contents (Elt F) → (⟨S50000x128, .f32⟩ : BufTy).Contents (Elt F)),
    StableHlo.binary main_v291 main_v297 main_v298 (subf : (⟨S50000x128, .f32⟩ : BufTy).Contents (Elt F) → (⟨S50000x128, .f32⟩ : BufTy).Contents (Elt F) → (⟨S50000x128, .f32⟩ : BufTy).Contents (Elt F)),
    StableHlo.nullary main_cst_50 (constant S_ .f32 0x3727C5AC#32),
    StableHlo.unary main_cst_50 main_v299 (broadcastInDim S128 ![] bcast_S_S128 : (⟨S_, .f32⟩ : BufTy).Contents (Elt F) → (⟨S128, .f32⟩ : BufTy).Contents (Elt F)),
    StableHlo.binary main_v295 main_v299 main_v300 (addf : (⟨S128, .f32⟩ : BufTy).Contents (Elt F) → (⟨S128, .f32⟩ : BufTy).Contents (Elt F) → (⟨S128, .f32⟩ : BufTy).Contents (Elt F)),
    StableHlo.unary main_v300 main_v301 (Host.rsqrt : (⟨S128, .f32⟩ : BufTy).Contents (Elt F) → (⟨S128, .f32⟩ : BufTy).Contents (Elt F)),
    StableHlo.unary main_v301 main_v302 (broadcastInDim S1x128 ![1] bcast_S128_S1x128_1 : (⟨S128, .f32⟩ : BufTy).Contents (Elt F) → (⟨S1x128, .f32⟩ : BufTy).Contents (Elt F)),
    StableHlo.unary main_v302 main_v303 (broadcastInDim S50000x128 ![0, 1] bcast_S1x128_S50000x128_0_1 : (⟨S1x128, .f32⟩ : BufTy).Contents (Elt F) → (⟨S50000x128, .f32⟩ : BufTy).Contents (Elt F)),
    StableHlo.binary main_v298 main_v303 main_v304 (mulf : (⟨S50000x128, .f32⟩ : BufTy).Contents (Elt F) → (⟨S50000x128, .f32⟩ : BufTy).Contents (Elt F) → (⟨S50000x128, .f32⟩ : BufTy).Contents (Elt F)),
    StableHlo.unary main_arg8 main_v305 ((extractStridedSlice S1x128 ![5, 0] · slices_S8x128_S1x128_5_0) : (⟨S8x128, .f32⟩ : BufTy).Contents (Elt F) → (⟨S1x128, .f32⟩ : BufTy).Contents (Elt F)),
    StableHlo.reshape main_v305 main_v306 rfl shapeCasts_S1x128_S128,
    StableHlo.unary main_v306 main_v307 (broadcastInDim S1x128 ![1] bcast_S128_S1x128_1 : (⟨S128, .f32⟩ : BufTy).Contents (Elt F) → (⟨S1x128, .f32⟩ : BufTy).Contents (Elt F)),
    StableHlo.unary main_v307 main_v308 (broadcastInDim S50000x128 ![0, 1] bcast_S1x128_S50000x128_0_1 : (⟨S1x128, .f32⟩ : BufTy).Contents (Elt F) → (⟨S50000x128, .f32⟩ : BufTy).Contents (Elt F)),
    StableHlo.binary main_v304 main_v308 main_v309 (mulf : (⟨S50000x128, .f32⟩ : BufTy).Contents (Elt F) → (⟨S50000x128, .f32⟩ : BufTy).Contents (Elt F) → (⟨S50000x128, .f32⟩ : BufTy).Contents (Elt F)),
    StableHlo.unary main_arg9 main_v310 ((extractStridedSlice S1x128 ![5, 0] · slices_S8x128_S1x128_5_0) : (⟨S8x128, .f32⟩ : BufTy).Contents (Elt F) → (⟨S1x128, .f32⟩ : BufTy).Contents (Elt F)),
    StableHlo.reshape main_v310 main_v311 rfl shapeCasts_S1x128_S128,
    StableHlo.unary main_v311 main_v312 (broadcastInDim S1x128 ![1] bcast_S128_S1x128_1 : (⟨S128, .f32⟩ : BufTy).Contents (Elt F) → (⟨S1x128, .f32⟩ : BufTy).Contents (Elt F)),
    StableHlo.unary main_v312 main_v313 (broadcastInDim S50000x128 ![0, 1] bcast_S1x128_S50000x128_0_1 : (⟨S1x128, .f32⟩ : BufTy).Contents (Elt F) → (⟨S50000x128, .f32⟩ : BufTy).Contents (Elt F)),
    StableHlo.binary main_v309 main_v313 main_v314 (addf : (⟨S50000x128, .f32⟩ : BufTy).Contents (Elt F) → (⟨S50000x128, .f32⟩ : BufTy).Contents (Elt F) → (⟨S50000x128, .f32⟩ : BufTy).Contents (Elt F)),
    StableHlo.nullary main_cst_51 (constant S_ .f32 0x3C23D70A#32),
    StableHlo.nullary main_call17_cst (constant S_ .f32 0x00000000#32),
    StableHlo.unary main_call17_cst main_call17_v0 ((broadcastInDim S50000x128 ![] bcast_S_S50000x128) : (⟨S_, .f32⟩ : BufTy).Contents (Elt F) → (⟨S50000x128, .f32⟩ : BufTy).Contents (Elt F)),
    StableHlo.binary main_v314 main_call17_v0 main_call17_v1 ((cmpf .oge) : (⟨S50000x128, .f32⟩ : BufTy).Contents (Elt F) → (⟨S50000x128, .f32⟩ : BufTy).Contents (Elt F) → (⟨S50000x128, .i1⟩ : BufTy).Contents (Elt F)),
    StableHlo.unary main_cst_51 main_call17_v2 (id : (⟨S_, .f32⟩ : BufTy).Contents (Elt F) → (⟨S_, .f32⟩ : BufTy).Contents (Elt F)),
    StableHlo.unary main_call17_v2 main_call17_v3 ((broadcastInDim S50000x128 ![] bcast_S_S50000x128) : (⟨S_, .f32⟩ : BufTy).Contents (Elt F) → (⟨S50000x128, .f32⟩ : BufTy).Contents (Elt F)),
    StableHlo.binary main_call17_v3 main_v314 main_call17_v4 (mulf : (⟨S50000x128, .f32⟩ : BufTy).Contents (Elt F) → (⟨S50000x128, .f32⟩ : BufTy).Contents (Elt F) → (⟨S50000x128, .f32⟩ : BufTy).Contents (Elt F)),
    StableHlo.ternary main_call17_v1 main_v314 main_call17_v4 main_v315 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) ]

abbrev opsL5_W : List (Ref sig .tc) :=
  [main_c_43, main_v264, main_v265, main_c_44, main_v266, main_v267, main_v268, main_v269, main_v270, main_cst_45, main_v271, main_v272, main_v273, main_v274, main_v275, main_v276, main_v277, main_v278, main_v279, main_v280, main_v281, main_v282, main_cst_46, main_call15_cst, main_call15_v0, main_call15_v1, main_call15_v2, main_call15_v3, main_call15_v4, main_v283, main_v284, main_v285, main_v286, main_v287, main_v288, main_v289, main_v290, main_v291, main_cst_47, main_v292, main_cst_48, main_v293, main_v294, main_c_49, main_call16_cst, main_call16_v0, main_call16_v1, main_call16_cst_0, main_call16_v2, main_call16_v3, main_call16_v4, main_call16_v5, main_call16_v6, main_call16_v7, main_call16_cst_1, main_call16_v8, main_call16_cst_2, main_call16_v9, main_call16_v10, main_call16_v11, main_call16_cst_3, main_call16_v12, main_call16_cst_4, main_call16_call0_v0, main_call16_call0_v1, main_v295, main_v296, main_v297, main_v298, main_cst_50, main_v299, main_v300, main_v301, main_v302, main_v303, main_v304, main_v305, main_v306, main_v307, main_v308, main_v309, main_v310, main_v311, main_v312, main_v313, main_v314, main_cst_51, main_call17_cst, main_call17_v0, main_call17_v1, main_call17_v2, main_call17_v3, main_call17_v4, main_v315]

theorem opsL5_line : Line (opsL5 : List (HloOp τ sig (Elt F))) opsL5_W :=
  ⟨by simp only [List.Forall, nullary_bufs_sub, unary_bufs_sub, binary_bufs_sub, ternary_bufs_sub, reshape_bufs_sub, and_self], rfl, rfl⟩

theorem opsL5_keep (V : Valuation τ sig (Elt F)) (r : Ref sig .tc) (h : r ∉ opsL5_W) :
    after opsL5 V (Proc.devRef .tc r) = V (Proc.devRef .tc r) :=
  opsL5_line.keep V h

end Cert.ReferenceIdeal.Val

end
-- ==== Proof.RLayer5.lean ====
import proofs.«407097_j78262894068282_1_alg».proof.Proof.ROps.L5
import proofs.«407097_j78262894068282_1_alg».proof.Proof.RLayerVal
import proofs.«407097_j78262894068282_1_alg».proof.Proof.RChainBase

noncomputable section

namespace Cert.ReferenceIdeal.Val

open Cert.ReferenceIdeal Cert.ReferenceIdeal.Gen Idealize.ShloMosaic Idealize.ShloMosaic.TcCoe Idealize.SL.Sem Idealize.ShloMosaic.StableHlo

set_option maxHeartbeats 4000000 in
theorem layer5_out : LayerOut opsL5 (· (Proc.devRef .tc main_v263)) (· (Proc.devRef .tc main_v315)) 5 := fun V => by
  after_results_simp
  exact layerAct_step 5 5 (inputsAt V) _ rfl rfl

end Cert.ReferenceIdeal.Val

end
-- ==== Proof.ROps.L6.lean ====
import proofs.«407097_j78262894068282_1_alg».proof.ReferenceIdeal
import proofs.«407097_j78262894068282_1_alg».proof.Proof.Gen.ReferenceIdeal
import proofs.«407097_j78262894068282_1_alg».proof.Proof.ROps.Base

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev opsL6 : List (HloOp τ sig (Elt F)) :=
  [ StableHlo.nullary main_c_52 (constantI S_ 32 0#32),
    StableHlo.unary main_c_52 main_v316 (broadcastInDim S600000 ![] bcast_S_S600000 : (⟨S_, .i32⟩ : BufTy).Contents (Elt F) → (⟨S600000, .i32⟩ : BufTy).Contents (Elt F)),
    StableHlo.binary main_v1 main_v316 main_v317 (cmpi .slt : (⟨S600000, .i32⟩ : BufTy).Contents (Elt F) → (⟨S600000, .i32⟩ : BufTy).Contents (Elt F) → (⟨S600000, .i1⟩ : BufTy).Contents (Elt F)),
    StableHlo.nullary main_c_53 (constantI S_ 32 50000#32),
    StableHlo.unary main_c_53 main_v318 (broadcastInDim S600000 ![] bcast_S_S600000 : (⟨S_, .i32⟩ : BufTy).Contents (Elt F) → (⟨S600000, .i32⟩ : BufTy).Contents (Elt F)),
    StableHlo.binary main_v1 main_v318 main_v319 (addi : (⟨S600000, .i32⟩ : BufTy).Contents (Elt F) → (⟨S600000, .i32⟩ : BufTy).Contents (Elt F) → (⟨S600000, .i32⟩ : BufTy).Contents (Elt F)),
    StableHlo.ternary main_v317 main_v319 main_v1 main_v320 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v320 main_v321 (broadcastInDim S600000x1 ![0] bcast_S600000_S600000x1_0 : (⟨S600000, .i32⟩ : BufTy).Contents (Elt F) → (⟨S600000x1, .i32⟩ : BufTy).Contents (Elt F)),
    StableHlo.binary main_v315 main_v321 main_v322 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_54 (constant S_ .f32 0x00000000#32),
    StableHlo.unary main_cst_54 main_v323 (broadcastInDim S50000x128 ![] bcast_S_S50000x128 : (⟨S_, .f32⟩ : BufTy).Contents (Elt F) → (⟨S50000x128, .f32⟩ : BufTy).Contents (Elt F)),
    StableHlo.unary main_v3 main_v324 (broadcastInDim S600000x1 ![0] bcast_S600000_S600000x1_0 : (⟨S600000, .i32⟩ : BufTy).Contents (Elt F) → (⟨S600000x1, .i32⟩ : BufTy).Contents (Elt F)),
    StableHlo.ternary main_v323 main_v324 main_v322 main_v325 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v315 main_v325 main_v326 (addf : (⟨S50000x128, .f32⟩ : BufTy).Contents (Elt F) → (⟨S50000x128, .f32⟩ : BufTy).Contents (Elt F) → (⟨S50000x128, .f32⟩ : BufTy).Contents (Elt F)),
    StableHlo.unary main_arg4 main_v327 ((extractStridedSlice S1x128x128 ![6, 0, 0] · slices_S8x128x128_S1x128x128_6_0_0) : (⟨S8x128x128, .f32⟩ : BufTy).Contents (Elt F) → (⟨S1x128x128, .f32⟩ : BufTy).Contents (Elt F)),
    StableHlo.reshape main_v327 main_v328 rfl shapeCasts_S1x128x128_S128x128,
    StableHlo.binary main_v326 main_v328 main_v329 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v330 ((extractStridedSlice S1x128 ![6, 0] · slices_S8x128_S1x128_6_0) : (⟨S8x128, .f32⟩ : BufTy).Contents (Elt F) → (⟨S1x128, .f32⟩ : BufTy).Contents (Elt F)),
    StableHlo.reshape main_v330 main_v331 rfl shapeCasts_S1x128_S128,
    StableHlo.unary main_v331 main_v332 (broadcastInDim S1x128 ![1] bcast_S128_S1x128_1 : (⟨S128, .f32⟩ : BufTy).Contents (Elt F) → (⟨S1x128, .f32⟩ : BufTy).Contents (Elt F)),
    StableHlo.unary main_v332 main_v333 (broadcastInDim S50000x128 ![0, 1] bcast_S1x128_S50000x128_0_1 : (⟨S1x128, .f32⟩ : BufTy).Contents (Elt F) → (⟨S50000x128, .f32⟩ : BufTy).Contents (Elt F)),
    StableHlo.binary main_v329 main_v333 main_v334 (addf : (⟨S50000x128, .f32⟩ : BufTy).Contents (Elt F) → (⟨S50000x128, .f32⟩ : BufTy).Contents (Elt F) → (⟨S50000x128, .f32⟩ : BufTy).Contents (Elt F)),
    StableHlo.nullary main_cst_55 (constant S_ .f32 0x3C23D70A#32),
    StableHlo.nullary main_call18_cst (constant S_ .f32 0x00000000#32),
    StableHlo.unary main_call18_cst main_call18_v0 ((broadcastInDim S50000x128 ![] bcast_S_S50000x128) : (⟨S_, .f32⟩ : BufTy).Contents (Elt F) → (⟨S50000x128, .f32⟩ : BufTy).Contents (Elt F)),
    StableHlo.binary main_v334 main_call18_v0 main_call18_v1 ((cmpf .oge) : (⟨S50000x128, .f32⟩ : BufTy).Contents (Elt F) → (⟨S50000x128, .f32⟩ : BufTy).Contents (Elt F) → (⟨S50000x128, .i1⟩ : BufTy).Contents (Elt F)),
    StableHlo.unary main_cst_55 main_call18_v2 (id : (⟨S_, .f32⟩ : BufTy).Contents (Elt F) → (⟨S_, .f32⟩ : BufTy).Contents (Elt F)),
    StableHlo.unary main_call18_v2 main_call18_v3 ((broadcastInDim S50000x128 ![] bcast_S_S50000x128) : (⟨S_, .f32⟩ : BufTy).Contents (Elt F) → (⟨S50000x128, .f32⟩ : BufTy).Contents (Elt F)),
    StableHlo.binary main_call18_v3 main_v334 main_call18_v4 (mulf : (⟨S50000x128, .f32⟩ : BufTy).Contents (Elt F) → (⟨S50000x128, .f32⟩ : BufTy).Contents (Elt F) → (⟨S50000x128, .f32⟩ : BufTy).Contents (Elt F)),
    StableHlo.ternary main_call18_v1 main_v334 main_call18_v4 main_v335 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    StableHlo.unary main_arg6 main_v336 ((extractStridedSlice S1x128x128 ![6, 0, 0] · slices_S8x128x128_S1x128x128_6_0_0) : (⟨S8x128x128, .f32⟩ : BufTy).Contents (Elt F) → (⟨S1x128x128, .f32⟩ : BufTy).Contents (Elt F)),
    StableHlo.reshape main_v336 main_v337 rfl shapeCasts_S1x128x128_S128x128,
    StableHlo.binary main_v335 main_v337 main_v338 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v339 ((extractStridedSlice S1x128 ![6, 0] · slices_S8x128_S1x128_6_0) : (⟨S8x128, .f32⟩ : BufTy).Contents (Elt F) → (⟨S1x128, .f32⟩ : BufTy).Contents (Elt F)),
    StableHlo.reshape main_v339 main_v340 rfl shapeCasts_S1x128_S128,
    StableHlo.unary main_v340 main_v341 (broadcastInDim S1x128 ![1] bcast_S128_S1x128_1 : (⟨S128, .f32⟩ : BufTy).Contents (Elt F) → (⟨S1x128, .f32⟩ : BufTy).Contents (Elt F)),
    StableHlo.unary main_v341 main_v342 (broadcastInDim S50000x128 ![0, 1] bcast_S1x128_S50000x128_0_1 : (⟨S1x128, .f32⟩ : BufTy).Contents (Elt F) → (⟨S50000x128, .f32⟩ : BufTy).Contents (Elt F)),
    StableHlo.binary main_v338 main_v342 main_v343 (addf : (⟨S50000x128, .f32⟩ : BufTy).Contents (Elt F) → (⟨S50000x128, .f32⟩ : BufTy).Contents (Elt F) → (⟨S50000x128, .f32⟩ : BufTy).Contents (Elt F)),
    StableHlo.nullary main_cst_56 (constant S_ .f32 0x00000000#32),
    StableHlo.binary main_v343 main_cst_56 main_v344 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_57 (constant S_ .f32 0x47435000#32),
    StableHlo.unary main_cst_57 main_v345 (broadcastInDim S128 ![] bcast_S_S128 : (⟨S_, .f32⟩ : BufTy).Contents (Elt F) → (⟨S128, .f32⟩ : BufTy).Contents (Elt F)),
    StableHlo.binary main_v344 main_v345 main_v346 (Host.divf : (⟨S128, .f32⟩ : BufTy).Contents (Elt F) → (⟨S128, .f32⟩ : BufTy).Contents (Elt F) → (⟨S128, .f32⟩ : BufTy).Contents (Elt F)),
    StableHlo.nullary main_c_58 (constantI S_ 32 0#32),
    StableHlo.nullary main_call19_cst (constant S_ .f32 0x00000000#32),
    StableHlo.binary main_v343 main_call19_cst main_call19_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call19_v0 main_call19_v1 ((broadcastInDim S1x128 ![1] bcast_S128_S1x128_1) : (⟨S128, .f32⟩ : BufTy).Contents (Elt F) → (⟨S1x128, .f32⟩ : BufTy).Contents (Elt F)),
    StableHlo.nullary main_call19_cst_0 (constant S_ .f32 0x47435000#32),
    StableHlo.unary main_call19_cst_0 main_call19_v2 ((broadcastInDim S1x128 ![] bcast_S_S1x128) : (⟨S_, .f32⟩ : BufTy).Contents (Elt F) → (⟨S1x128, .f32⟩ : BufTy).Contents (Elt F)),
    StableHlo.binary main_call19_v1 main_call19_v2 main_call19_v3 (Host.divf : (⟨S1x128, .f32⟩ : BufTy).Contents (Elt F) → (⟨S1x128, .f32⟩ : BufTy).Contents (Elt F) → (⟨S1x128, .f32⟩ : BufTy).Contents (Elt F)),
    StableHlo.unary main_call19_v3 main_call19_v4 ((broadcastInDim S50000x128 ![0, 1] bcast_S1x128_S50000x128_0_1) : (⟨S1x128, .f32⟩ : BufTy).Contents (Elt F) → (⟨S50000x128, .f32⟩ : BufTy).Contents (Elt F)),
    StableHlo.binary main_v343 main_call19_v4 main_call19_v5 (subf : (⟨S50000x128, .f32⟩ : BufTy).Contents (Elt F) → (⟨S50000x128, .f32⟩ : BufTy).Contents (Elt F) → (⟨S50000x128, .f32⟩ : BufTy).Contents (Elt F)),
    StableHlo.binary main_call19_v5 main_call19_v5 main_call19_v6 (mulf : (⟨S50000x128, .f32⟩ : BufTy).Contents (Elt F) → (⟨S50000x128, .f32⟩ : BufTy).Contents (Elt F) → (⟨S50000x128, .f32⟩ : BufTy).Contents (Elt F)),
    StableHlo.unary main_c_58 main_call19_v7 ((sitofp .f32) : (⟨S_, .i32⟩ : BufTy).Contents (Elt F) → (⟨S_, .f32⟩ : BufTy).Contents (Elt F)),
    StableHlo.nullary main_call19_cst_1 (constant S_ .f32 0x47435000#32),
    StableHlo.binary main_call19_cst_1 main_call19_v7 main_call19_v8 (subf : (⟨S_, .f32⟩ : BufTy).Contents (Elt F) → (⟨S_, .f32⟩ : BufTy).Contents (Elt F) → (⟨S_, .f32⟩ : BufTy).Contents (Elt F)),
    StableHlo.nullary main_call19_cst_2 (constant S_ .f32 0x00000000#32),
    StableHlo.binary main_call19_v6 main_call19_cst_2 main_call19_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call19_v8 main_call19_v10 ((broadcastInDim S128 ![] bcast_S_S128) : (⟨S_, .f32⟩ : BufTy).Contents (Elt F) → (⟨S128, .f32⟩ : BufTy).Contents (Elt F)),
    StableHlo.binary main_call19_v9 main_call19_v10 main_call19_v11 (Host.divf : (⟨S128, .f32⟩ : BufTy).Contents (Elt F) → (⟨S128, .f32⟩ : BufTy).Contents (Elt F) → (⟨S128, .f32⟩ : BufTy).Contents (Elt F)),
    StableHlo.nullary main_call19_cst_3 (constant S_ .f32 0x00000000#32),
    StableHlo.binary main_call19_v8 main_call19_cst_3 main_call19_v12 ((cmpf .ogt) : (⟨S_, .f32⟩ : BufTy).Contents (Elt F) → (⟨S_, .f32⟩ : BufTy).Contents (Elt F) → (⟨S_, .i1⟩ : BufTy).Contents (Elt F)),
    StableHlo.nullary main_call19_cst_4 (constant S_ .f32 0x7FC00000#32),
    StableHlo.unary main_call19_cst_4 main_call19_call0_v0 (id : (⟨S_, .f32⟩ : BufTy).Contents (Elt F) → (⟨S_, .f32⟩ : BufTy).Contents (Elt F)),
    StableHlo.unary main_call19_call0_v0 main_call19_call0_v1 ((broadcastInDim S128 ![] bcast_S_S128) : (⟨S_, .f32⟩ : BufTy).Contents (Elt F) → (⟨S128, .f32⟩ : BufTy).Contents (Elt F)),
    StableHlo.ternary main_call19_v12 main_call19_v11 main_call19_call0_v1 main_v347 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v346 main_v348 (broadcastInDim S1x128 ![1] bcast_S128_S1x128_1 : (⟨S128, .f32⟩ : BufTy).Contents (Elt F) → (⟨S1x128, .f32⟩ : BufTy).Contents (Elt F)),
    StableHlo.unary main_v348 main_v349 (broadcastInDim S50000x128 ![0, 1] bcast_S1x128_S50000x128_0_1 : (⟨S1x128, .f32⟩ : BufTy).Contents (Elt F) → (⟨S50000x128, .f32⟩ : BufTy).Contents (Elt F)),
    StableHlo.binary main_v343 main_v349 main_v350 (subf : (⟨S50000x128, .f32⟩ : BufTy).Contents (Elt F) → (⟨S50000x128, .f32⟩ : BufTy).Contents (Elt F) → (⟨S50000x128, .f32⟩ : BufTy).Contents (Elt F)),
    StableHlo.nullary main_cst_59 (constant S_ .f32 0x3727C5AC#32),
    StableHlo.unary main_cst_59 main_v351 (broadcastInDim S128 ![] bcast_S_S128 : (⟨S_, .f32⟩ : BufTy).Contents (Elt F) → (⟨S128, .f32⟩ : BufTy).Contents (Elt F)),
    StableHlo.binary main_v347 main_v351 main_v352 (addf : (⟨S128, .f32⟩ : BufTy).Contents (Elt F) → (⟨S128, .f32⟩ : BufTy).Contents (Elt F) → (⟨S128, .f32⟩ : BufTy).Contents (Elt F)),
    StableHlo.unary main_v352 main_v353 (Host.rsqrt : (⟨S128, .f32⟩ : BufTy).Contents (Elt F) → (⟨S128, .f32⟩ : BufTy).Contents (Elt F)),
    StableHlo.unary main_v353 main_v354 (broadcastInDim S1x128 ![1] bcast_S128_S1x128_1 : (⟨S128, .f32⟩ : BufTy).Contents (Elt F) → (⟨S1x128, .f32⟩ : BufTy).Contents (Elt F)),
    StableHlo.unary main_v354 main_v355 (broadcastInDim S50000x128 ![0, 1] bcast_S1x128_S50000x128_0_1 : (⟨S1x128, .f32⟩ : BufTy).Contents (Elt F) → (⟨S50000x128, .f32⟩ : BufTy).Contents (Elt F)),
    StableHlo.binary main_v350 main_v355 main_v356 (mulf : (⟨S50000x128, .f32⟩ : BufTy).Contents (Elt F) → (⟨S50000x128, .f32⟩ : BufTy).Contents (Elt F) → (⟨S50000x128, .f32⟩ : BufTy).Contents (Elt F)),
    StableHlo.unary main_arg8 main_v357 ((extractStridedSlice S1x128 ![6, 0] · slices_S8x128_S1x128_6_0) : (⟨S8x128, .f32⟩ : BufTy).Contents (Elt F) → (⟨S1x128, .f32⟩ : BufTy).Contents (Elt F)),
    StableHlo.reshape main_v357 main_v358 rfl shapeCasts_S1x128_S128,
    StableHlo.unary main_v358 main_v359 (broadcastInDim S1x128 ![1] bcast_S128_S1x128_1 : (⟨S128, .f32⟩ : BufTy).Contents (Elt F) → (⟨S1x128, .f32⟩ : BufTy).Contents (Elt F)),
    StableHlo.unary main_v359 main_v360 (broadcastInDim S50000x128 ![0, 1] bcast_S1x128_S50000x128_0_1 : (⟨S1x128, .f32⟩ : BufTy).Contents (Elt F) → (⟨S50000x128, .f32⟩ : BufTy).Contents (Elt F)),
    StableHlo.binary main_v356 main_v360 main_v361 (mulf : (⟨S50000x128, .f32⟩ : BufTy).Contents (Elt F) → (⟨S50000x128, .f32⟩ : BufTy).Contents (Elt F) → (⟨S50000x128, .f32⟩ : BufTy).Contents (Elt F)),
    StableHlo.unary main_arg9 main_v362 ((extractStridedSlice S1x128 ![6, 0] · slices_S8x128_S1x128_6_0) : (⟨S8x128, .f32⟩ : BufTy).Contents (Elt F) → (⟨S1x128, .f32⟩ : BufTy).Contents (Elt F)),
    StableHlo.reshape main_v362 main_v363 rfl shapeCasts_S1x128_S128,
    StableHlo.unary main_v363 main_v364 (broadcastInDim S1x128 ![1] bcast_S128_S1x128_1 : (⟨S128, .f32⟩ : BufTy).Contents (Elt F) → (⟨S1x128, .f32⟩ : BufTy).Contents (Elt F)),
    StableHlo.unary main_v364 main_v365 (broadcastInDim S50000x128 ![0, 1] bcast_S1x128_S50000x128_0_1 : (⟨S1x128, .f32⟩ : BufTy).Contents (Elt F) → (⟨S50000x128, .f32⟩ : BufTy).Contents (Elt F)),
    StableHlo.binary main_v361 main_v365 main_v366 (addf : (⟨S50000x128, .f32⟩ : BufTy).Contents (Elt F) → (⟨S50000x128, .f32⟩ : BufTy).Contents (Elt F) → (⟨S50000x128, .f32⟩ : BufTy).Contents (Elt F)),
    StableHlo.nullary main_cst_60 (constant S_ .f32 0x3C23D70A#32),
    StableHlo.nullary main_call20_cst (constant S_ .f32 0x00000000#32),
    StableHlo.unary main_call20_cst main_call20_v0 ((broadcastInDim S50000x128 ![] bcast_S_S50000x128) : (⟨S_, .f32⟩ : BufTy).Contents (Elt F) → (⟨S50000x128, .f32⟩ : BufTy).Contents (Elt F)),
    StableHlo.binary main_v366 main_call20_v0 main_call20_v1 ((cmpf .oge) : (⟨S50000x128, .f32⟩ : BufTy).Contents (Elt F) → (⟨S50000x128, .f32⟩ : BufTy).Contents (Elt F) → (⟨S50000x128, .i1⟩ : BufTy).Contents (Elt F)),
    StableHlo.unary main_cst_60 main_call20_v2 (id : (⟨S_, .f32⟩ : BufTy).Contents (Elt F) → (⟨S_, .f32⟩ : BufTy).Contents (Elt F)),
    StableHlo.unary main_call20_v2 main_call20_v3 ((broadcastInDim S50000x128 ![] bcast_S_S50000x128) : (⟨S_, .f32⟩ : BufTy).Contents (Elt F) → (⟨S50000x128, .f32⟩ : BufTy).Contents (Elt F)),
    StableHlo.binary main_call20_v3 main_v366 main_call20_v4 (mulf : (⟨S50000x128, .f32⟩ : BufTy).Contents (Elt F) → (⟨S50000x128, .f32⟩ : BufTy).Contents (Elt F) → (⟨S50000x128, .f32⟩ : BufTy).Contents (Elt F)),
    StableHlo.ternary main_call20_v1 main_v366 main_call20_v4 main_v367 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) ]

abbrev opsL6_W : List (Ref sig .tc) :=
  [main_c_52, main_v316, main_v317, main_c_53, main_v318, main_v319, main_v320, main_v321, main_v322, main_cst_54, main_v323, main_v324, main_v325, main_v326, main_v327, main_v328, main_v329, main_v330, main_v331, main_v332, main_v333, main_v334, main_cst_55, main_call18_cst, main_call18_v0, main_call18_v1, main_call18_v2, main_call18_v3, main_call18_v4, main_v335, main_v336, main_v337, main_v338, main_v339, main_v340, main_v341, main_v342, main_v343, main_cst_56, main_v344, main_cst_57, main_v345, main_v346, main_c_58, main_call19_cst, main_call19_v0, main_call19_v1, main_call19_cst_0, main_call19_v2, main_call19_v3, main_call19_v4, main_call19_v5, main_call19_v6, main_call19_v7, main_call19_cst_1, main_call19_v8, main_call19_cst_2, main_call19_v9, main_call19_v10, main_call19_v11, main_call19_cst_3, main_call19_v12, main_call19_cst_4, main_call19_call0_v0, main_call19_call0_v1, main_v347, main_v348, main_v349, main_v350, main_cst_59, main_v351, main_v352, main_v353, main_v354, main_v355, main_v356, main_v357, main_v358, main_v359, main_v360, main_v361, main_v362, main_v363, main_v364, main_v365, main_v366, main_cst_60, main_call20_cst, main_call20_v0, main_call20_v1, main_call20_v2, main_call20_v3, main_call20_v4, main_v367]

theorem opsL6_line : Line (opsL6 : List (HloOp τ sig (Elt F))) opsL6_W :=
  ⟨by simp only [List.Forall, nullary_bufs_sub, unary_bufs_sub, binary_bufs_sub, ternary_bufs_sub, reshape_bufs_sub, and_self], rfl, rfl⟩

theorem opsL6_keep (V : Valuation τ sig (Elt F)) (r : Ref sig .tc) (h : r ∉ opsL6_W) :
    after opsL6 V (Proc.devRef .tc r) = V (Proc.devRef .tc r) :=
  opsL6_line.keep V h

end Cert.ReferenceIdeal.Val

end
-- ==== Proof.RLayer6.lean ====
import proofs.«407097_j78262894068282_1_alg».proof.Proof.ROps.L6
import proofs.«407097_j78262894068282_1_alg».proof.Proof.RLayerVal
import proofs.«407097_j78262894068282_1_alg».proof.Proof.RChainBase

noncomputable section

namespace Cert.ReferenceIdeal.Val

open Cert.ReferenceIdeal Cert.ReferenceIdeal.Gen Idealize.ShloMosaic Idealize.ShloMosaic.TcCoe Idealize.SL.Sem Idealize.ShloMosaic.StableHlo

set_option maxHeartbeats 4000000 in
theorem layer6_out : LayerOut opsL6 (· (Proc.devRef .tc main_v315)) (· (Proc.devRef .tc main_v367)) 6 := fun V => by
  after_results_simp
  exact layerAct_step 6 6 (inputsAt V) _ rfl rfl

end Cert.ReferenceIdeal.Val

end
-- ==== Proof.ROps.L7.lean ====
import proofs.«407097_j78262894068282_1_alg».proof.ReferenceIdeal
import proofs.«407097_j78262894068282_1_alg».proof.Proof.Gen.ReferenceIdeal
import proofs.«407097_j78262894068282_1_alg».proof.Proof.ROps.Base

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev opsL7 : List (HloOp τ sig (Elt F)) :=
  [ StableHlo.nullary main_c_61 (constantI S_ 32 0#32),
    StableHlo.unary main_c_61 main_v368 (broadcastInDim S600000 ![] bcast_S_S600000 : (⟨S_, .i32⟩ : BufTy).Contents (Elt F) → (⟨S600000, .i32⟩ : BufTy).Contents (Elt F)),
    StableHlo.binary main_v1 main_v368 main_v369 (cmpi .slt : (⟨S600000, .i32⟩ : BufTy).Contents (Elt F) → (⟨S600000, .i32⟩ : BufTy).Contents (Elt F) → (⟨S600000, .i1⟩ : BufTy).Contents (Elt F)),
    StableHlo.nullary main_c_62 (constantI S_ 32 50000#32),
    StableHlo.unary main_c_62 main_v370 (broadcastInDim S600000 ![] bcast_S_S600000 : (⟨S_, .i32⟩ : BufTy).Contents (Elt F) → (⟨S600000, .i32⟩ : BufTy).Contents (Elt F)),
    StableHlo.binary main_v1 main_v370 main_v371 (addi : (⟨S600000, .i32⟩ : BufTy).Contents (Elt F) → (⟨S600000, .i32⟩ : BufTy).Contents (Elt F) → (⟨S600000, .i32⟩ : BufTy).Contents (Elt F)),
    StableHlo.ternary main_v369 main_v371 main_v1 main_v372 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v372 main_v373 (broadcastInDim S600000x1 ![0] bcast_S600000_S600000x1_0 : (⟨S600000, .i32⟩ : BufTy).Contents (Elt F) → (⟨S600000x1, .i32⟩ : BufTy).Contents (Elt F)),
    StableHlo.binary main_v367 main_v373 main_v374 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_63 (constant S_ .f32 0x00000000#32),
    StableHlo.unary main_cst_63 main_v375 (broadcastInDim S50000x128 ![] bcast_S_S50000x128 : (⟨S_, .f32⟩ : BufTy).Contents (Elt F) → (⟨S50000x128, .f32⟩ : BufTy).Contents (Elt F)),
    StableHlo.unary main_v3 main_v376 (broadcastInDim S600000x1 ![0] bcast_S600000_S600000x1_0 : (⟨S600000, .i32⟩ : BufTy).Contents (Elt F) → (⟨S600000x1, .i32⟩ : BufTy).Contents (Elt F)),
    StableHlo.ternary main_v375 main_v376 main_v374 main_v377 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v367 main_v377 main_v378 (addf : (⟨S50000x128, .f32⟩ : BufTy).Contents (Elt F) → (⟨S50000x128, .f32⟩ : BufTy).Contents (Elt F) → (⟨S50000x128, .f32⟩ : BufTy).Contents (Elt F)),
    StableHlo.unary main_arg4 main_v379 ((extractStridedSlice S1x128x128 ![7, 0, 0] · slices_S8x128x128_S1x128x128_7_0_0) : (⟨S8x128x128, .f32⟩ : BufTy).Contents (Elt F) → (⟨S1x128x128, .f32⟩ : BufTy).Contents (Elt F)),
    StableHlo.reshape main_v379 main_v380 rfl shapeCasts_S1x128x128_S128x128,
    StableHlo.binary main_v378 main_v380 main_v381 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v382 ((extractStridedSlice S1x128 ![7, 0] · slices_S8x128_S1x128_7_0) : (⟨S8x128, .f32⟩ : BufTy).Contents (Elt F) → (⟨S1x128, .f32⟩ : BufTy).Contents (Elt F)),
    StableHlo.reshape main_v382 main_v383 rfl shapeCasts_S1x128_S128,
    StableHlo.unary main_v383 main_v384 (broadcastInDim S1x128 ![1] bcast_S128_S1x128_1 : (⟨S128, .f32⟩ : BufTy).Contents (Elt F) → (⟨S1x128, .f32⟩ : BufTy).Contents (Elt F)),
    StableHlo.unary main_v384 main_v385 (broadcastInDim S50000x128 ![0, 1] bcast_S1x128_S50000x128_0_1 : (⟨S1x128, .f32⟩ : BufTy).Contents (Elt F) → (⟨S50000x128, .f32⟩ : BufTy).Contents (Elt F)),
    StableHlo.binary main_v381 main_v385 main_v386 (addf : (⟨S50000x128, .f32⟩ : BufTy).Contents (Elt F) → (⟨S50000x128, .f32⟩ : BufTy).Contents (Elt F) → (⟨S50000x128, .f32⟩ : BufTy).Contents (Elt F)),
    StableHlo.nullary main_cst_64 (constant S_ .f32 0x3C23D70A#32),
    StableHlo.nullary main_call21_cst (constant S_ .f32 0x00000000#32),
    StableHlo.unary main_call21_cst main_call21_v0 ((broadcastInDim S50000x128 ![] bcast_S_S50000x128) : (⟨S_, .f32⟩ : BufTy).Contents (Elt F) → (⟨S50000x128, .f32⟩ : BufTy).Contents (Elt F)),
    StableHlo.binary main_v386 main_call21_v0 main_call21_v1 ((cmpf .oge) : (⟨S50000x128, .f32⟩ : BufTy).Contents (Elt F) → (⟨S50000x128, .f32⟩ : BufTy).Contents (Elt F) → (⟨S50000x128, .i1⟩ : BufTy).Contents (Elt F)),
    StableHlo.unary main_cst_64 main_call21_v2 (id : (⟨S_, .f32⟩ : BufTy).Contents (Elt F) → (⟨S_, .f32⟩ : BufTy).Contents (Elt F)),
    StableHlo.unary main_call21_v2 main_call21_v3 ((broadcastInDim S50000x128 ![] bcast_S_S50000x128) : (⟨S_, .f32⟩ : BufTy).Contents (Elt F) → (⟨S50000x128, .f32⟩ : BufTy).Contents (Elt F)),
    StableHlo.binary main_call21_v3 main_v386 main_call21_v4 (mulf : (⟨S50000x128, .f32⟩ : BufTy).Contents (Elt F) → (⟨S50000x128, .f32⟩ : BufTy).Contents (Elt F) → (⟨S50000x128, .f32⟩ : BufTy).Contents (Elt F)),
    StableHlo.ternary main_call21_v1 main_v386 main_call21_v4 main_v387 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    StableHlo.unary main_arg6 main_v388 ((extractStridedSlice S1x128x128 ![7, 0, 0] · slices_S8x128x128_S1x128x128_7_0_0) : (⟨S8x128x128, .f32⟩ : BufTy).Contents (Elt F) → (⟨S1x128x128, .f32⟩ : BufTy).Contents (Elt F)),
    StableHlo.reshape main_v388 main_v389 rfl shapeCasts_S1x128x128_S128x128,
    StableHlo.binary main_v387 main_v389 main_v390 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v391 ((extractStridedSlice S1x128 ![7, 0] · slices_S8x128_S1x128_7_0) : (⟨S8x128, .f32⟩ : BufTy).Contents (Elt F) → (⟨S1x128, .f32⟩ : BufTy).Contents (Elt F)),
    StableHlo.reshape main_v391 main_v392 rfl shapeCasts_S1x128_S128,
    StableHlo.unary main_v392 main_v393 (broadcastInDim S1x128 ![1] bcast_S128_S1x128_1 : (⟨S128, .f32⟩ : BufTy).Contents (Elt F) → (⟨S1x128, .f32⟩ : BufTy).Contents (Elt F)),
    StableHlo.unary main_v393 main_v394 (broadcastInDim S50000x128 ![0, 1] bcast_S1x128_S50000x128_0_1 : (⟨S1x128, .f32⟩ : BufTy).Contents (Elt F) → (⟨S50000x128, .f32⟩ : BufTy).Contents (Elt F)),
    StableHlo.binary main_v390 main_v394 main_v395 (addf : (⟨S50000x128, .f32⟩ : BufTy).Contents (Elt F) → (⟨S50000x128, .f32⟩ : BufTy).Contents (Elt F) → (⟨S50000x128, .f32⟩ : BufTy).Contents (Elt F)),
    StableHlo.nullary main_cst_65 (constant S_ .f32 0x00000000#32),
    StableHlo.binary main_v395 main_cst_65 main_v396 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_66 (constant S_ .f32 0x47435000#32),
    StableHlo.unary main_cst_66 main_v397 (broadcastInDim S128 ![] bcast_S_S128 : (⟨S_, .f32⟩ : BufTy).Contents (Elt F) → (⟨S128, .f32⟩ : BufTy).Contents (Elt F)),
    StableHlo.binary main_v396 main_v397 main_v398 (Host.divf : (⟨S128, .f32⟩ : BufTy).Contents (Elt F) → (⟨S128, .f32⟩ : BufTy).Contents (Elt F) → (⟨S128, .f32⟩ : BufTy).Contents (Elt F)),
    StableHlo.nullary main_c_67 (constantI S_ 32 0#32),
    StableHlo.nullary main_call22_cst (constant S_ .f32 0x00000000#32),
    StableHlo.binary main_v395 main_call22_cst main_call22_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call22_v0 main_call22_v1 ((broadcastInDim S1x128 ![1] bcast_S128_S1x128_1) : (⟨S128, .f32⟩ : BufTy).Contents (Elt F) → (⟨S1x128, .f32⟩ : BufTy).Contents (Elt F)),
    StableHlo.nullary main_call22_cst_0 (constant S_ .f32 0x47435000#32),
    StableHlo.unary main_call22_cst_0 main_call22_v2 ((broadcastInDim S1x128 ![] bcast_S_S1x128) : (⟨S_, .f32⟩ : BufTy).Contents (Elt F) → (⟨S1x128, .f32⟩ : BufTy).Contents (Elt F)),
    StableHlo.binary main_call22_v1 main_call22_v2 main_call22_v3 (Host.divf : (⟨S1x128, .f32⟩ : BufTy).Contents (Elt F) → (⟨S1x128, .f32⟩ : BufTy).Contents (Elt F) → (⟨S1x128, .f32⟩ : BufTy).Contents (Elt F)),
    StableHlo.unary main_call22_v3 main_call22_v4 ((broadcastInDim S50000x128 ![0, 1] bcast_S1x128_S50000x128_0_1) : (⟨S1x128, .f32⟩ : BufTy).Contents (Elt F) → (⟨S50000x128, .f32⟩ : BufTy).Contents (Elt F)),
    StableHlo.binary main_v395 main_call22_v4 main_call22_v5 (subf : (⟨S50000x128, .f32⟩ : BufTy).Contents (Elt F) → (⟨S50000x128, .f32⟩ : BufTy).Contents (Elt F) → (⟨S50000x128, .f32⟩ : BufTy).Contents (Elt F)),
    StableHlo.binary main_call22_v5 main_call22_v5 main_call22_v6 (mulf : (⟨S50000x128, .f32⟩ : BufTy).Contents (Elt F) → (⟨S50000x128, .f32⟩ : BufTy).Contents (Elt F) → (⟨S50000x128, .f32⟩ : BufTy).Contents (Elt F)),
    StableHlo.unary main_c_67 main_call22_v7 ((sitofp .f32) : (⟨S_, .i32⟩ : BufTy).Contents (Elt F) → (⟨S_, .f32⟩ : BufTy).Contents (Elt F)),
    StableHlo.nullary main_call22_cst_1 (constant S_ .f32 0x47435000#32),
    StableHlo.binary main_call22_cst_1 main_call22_v7 main_call22_v8 (subf : (⟨S_, .f32⟩ : BufTy).Contents (Elt F) → (⟨S_, .f32⟩ : BufTy).Contents (Elt F) → (⟨S_, .f32⟩ : BufTy).Contents (Elt F)),
    StableHlo.nullary main_call22_cst_2 (constant S_ .f32 0x00000000#32),
    StableHlo.binary main_call22_v6 main_call22_cst_2 main_call22_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call22_v8 main_call22_v10 ((broadcastInDim S128 ![] bcast_S_S128) : (⟨S_, .f32⟩ : BufTy).Contents (Elt F) → (⟨S128, .f32⟩ : BufTy).Contents (Elt F)),
    StableHlo.binary main_call22_v9 main_call22_v10 main_call22_v11 (Host.divf : (⟨S128, .f32⟩ : BufTy).Contents (Elt F) → (⟨S128, .f32⟩ : BufTy).Contents (Elt F) → (⟨S128, .f32⟩ : BufTy).Contents (Elt F)),
    StableHlo.nullary main_call22_cst_3 (constant S_ .f32 0x00000000#32),
    StableHlo.binary main_call22_v8 main_call22_cst_3 main_call22_v12 ((cmpf .ogt) : (⟨S_, .f32⟩ : BufTy).Contents (Elt F) → (⟨S_, .f32⟩ : BufTy).Contents (Elt F) → (⟨S_, .i1⟩ : BufTy).Contents (Elt F)),
    StableHlo.nullary main_call22_cst_4 (constant S_ .f32 0x7FC00000#32),
    StableHlo.unary main_call22_cst_4 main_call22_call0_v0 (id : (⟨S_, .f32⟩ : BufTy).Contents (Elt F) → (⟨S_, .f32⟩ : BufTy).Contents (Elt F)),
    StableHlo.unary main_call22_call0_v0 main_call22_call0_v1 ((broadcastInDim S128 ![] bcast_S_S128) : (⟨S_, .f32⟩ : BufTy).Contents (Elt F) → (⟨S128, .f32⟩ : BufTy).Contents (Elt F)),
    StableHlo.ternary main_call22_v12 main_call22_v11 main_call22_call0_v1 main_v399 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v398 main_v400 (broadcastInDim S1x128 ![1] bcast_S128_S1x128_1 : (⟨S128, .f32⟩ : BufTy).Contents (Elt F) → (⟨S1x128, .f32⟩ : BufTy).Contents (Elt F)),
    StableHlo.unary main_v400 main_v401 (broadcastInDim S50000x128 ![0, 1] bcast_S1x128_S50000x128_0_1 : (⟨S1x128, .f32⟩ : BufTy).Contents (Elt F) → (⟨S50000x128, .f32⟩ : BufTy).Contents (Elt F)),
    StableHlo.binary main_v395 main_v401 main_v402 (subf : (⟨S50000x128, .f32⟩ : BufTy).Contents (Elt F) → (⟨S50000x128, .f32⟩ : BufTy).Contents (Elt F) → (⟨S50000x128, .f32⟩ : BufTy).Contents (Elt F)),
    StableHlo.nullary main_cst_68 (constant S_ .f32 0x3727C5AC#32),
    StableHlo.unary main_cst_68 main_v403 (broadcastInDim S128 ![] bcast_S_S128 : (⟨S_, .f32⟩ : BufTy).Contents (Elt F) → (⟨S128, .f32⟩ : BufTy).Contents (Elt F)),
    StableHlo.binary main_v399 main_v403 main_v404 (addf : (⟨S128, .f32⟩ : BufTy).Contents (Elt F) → (⟨S128, .f32⟩ : BufTy).Contents (Elt F) → (⟨S128, .f32⟩ : BufTy).Contents (Elt F)),
    StableHlo.unary main_v404 main_v405 (Host.rsqrt : (⟨S128, .f32⟩ : BufTy).Contents (Elt F) → (⟨S128, .f32⟩ : BufTy).Contents (Elt F)),
    StableHlo.unary main_v405 main_v406 (broadcastInDim S1x128 ![1] bcast_S128_S1x128_1 : (⟨S128, .f32⟩ : BufTy).Contents (Elt F) → (⟨S1x128, .f32⟩ : BufTy).Contents (Elt F)),
    StableHlo.unary main_v406 main_v407 (broadcastInDim S50000x128 ![0, 1] bcast_S1x128_S50000x128_0_1 : (⟨S1x128, .f32⟩ : BufTy).Contents (Elt F) → (⟨S50000x128, .f32⟩ : BufTy).Contents (Elt F)),
    StableHlo.binary main_v402 main_v407 main_v408 (mulf : (⟨S50000x128, .f32⟩ : BufTy).Contents (Elt F) → (⟨S50000x128, .f32⟩ : BufTy).Contents (Elt F) → (⟨S50000x128, .f32⟩ : BufTy).Contents (Elt F)),
    StableHlo.unary main_arg8 main_v409 ((extractStridedSlice S1x128 ![7, 0] · slices_S8x128_S1x128_7_0) : (⟨S8x128, .f32⟩ : BufTy).Contents (Elt F) → (⟨S1x128, .f32⟩ : BufTy).Contents (Elt F)),
    StableHlo.reshape main_v409 main_v410 rfl shapeCasts_S1x128_S128,
    StableHlo.unary main_v410 main_v411 (broadcastInDim S1x128 ![1] bcast_S128_S1x128_1 : (⟨S128, .f32⟩ : BufTy).Contents (Elt F) → (⟨S1x128, .f32⟩ : BufTy).Contents (Elt F)),
    StableHlo.unary main_v411 main_v412 (broadcastInDim S50000x128 ![0, 1] bcast_S1x128_S50000x128_0_1 : (⟨S1x128, .f32⟩ : BufTy).Contents (Elt F) → (⟨S50000x128, .f32⟩ : BufTy).Contents (Elt F)),
    StableHlo.binary main_v408 main_v412 main_v413 (mulf : (⟨S50000x128, .f32⟩ : BufTy).Contents (Elt F) → (⟨S50000x128, .f32⟩ : BufTy).Contents (Elt F) → (⟨S50000x128, .f32⟩ : BufTy).Contents (Elt F)),
    StableHlo.unary main_arg9 main_v414 ((extractStridedSlice S1x128 ![7, 0] · slices_S8x128_S1x128_7_0) : (⟨S8x128, .f32⟩ : BufTy).Contents (Elt F) → (⟨S1x128, .f32⟩ : BufTy).Contents (Elt F)),
    StableHlo.reshape main_v414 main_v415 rfl shapeCasts_S1x128_S128,
    StableHlo.unary main_v415 main_v416 (broadcastInDim S1x128 ![1] bcast_S128_S1x128_1 : (⟨S128, .f32⟩ : BufTy).Contents (Elt F) → (⟨S1x128, .f32⟩ : BufTy).Contents (Elt F)),
    StableHlo.unary main_v416 main_v417 (broadcastInDim S50000x128 ![0, 1] bcast_S1x128_S50000x128_0_1 : (⟨S1x128, .f32⟩ : BufTy).Contents (Elt F) → (⟨S50000x128, .f32⟩ : BufTy).Contents (Elt F)),
    StableHlo.binary main_v413 main_v417 main_v418 (addf : (⟨S50000x128, .f32⟩ : BufTy).Contents (Elt F) → (⟨S50000x128, .f32⟩ : BufTy).Contents (Elt F) → (⟨S50000x128, .f32⟩ : BufTy).Contents (Elt F)) ]

abbrev opsL7_W : List (Ref sig .tc) :=
  [main_c_61, main_v368, main_v369, main_c_62, main_v370, main_v371, main_v372, main_v373, main_v374, main_cst_63, main_v375, main_v376, main_v377, main_v378, main_v379, main_v380, main_v381, main_v382, main_v383, main_v384, main_v385, main_v386, main_cst_64, main_call21_cst, main_call21_v0, main_call21_v1, main_call21_v2, main_call21_v3, main_call21_v4, main_v387, main_v388, main_v389, main_v390, main_v391, main_v392, main_v393, main_v394, main_v395, main_cst_65, main_v396, main_cst_66, main_v397, main_v398, main_c_67, main_call22_cst, main_call22_v0, main_call22_v1, main_call22_cst_0, main_call22_v2, main_call22_v3, main_call22_v4, main_call22_v5, main_call22_v6, main_call22_v7, main_call22_cst_1, main_call22_v8, main_call22_cst_2, main_call22_v9, main_call22_v10, main_call22_v11, main_call22_cst_3, main_call22_v12, main_call22_cst_4, main_call22_call0_v0, main_call22_call0_v1, main_v399, main_v400, main_v401, main_v402, main_cst_68, main_v403, main_v404, main_v405, main_v406, main_v407, main_v408, main_v409, main_v410, main_v411, main_v412, main_v413, main_v414, main_v415, main_v416, main_v417, main_v418]

theorem opsL7_line : Line (opsL7 : List (HloOp τ sig (Elt F))) opsL7_W :=
  ⟨by simp only [List.Forall, nullary_bufs_sub, unary_bufs_sub, binary_bufs_sub, ternary_bufs_sub, reshape_bufs_sub, and_self], rfl, rfl⟩

theorem opsL7_keep (V : Valuation τ sig (Elt F)) (r : Ref sig .tc) (h : r ∉ opsL7_W) :
    after opsL7 V (Proc.devRef .tc r) = V (Proc.devRef .tc r) :=
  opsL7_line.keep V h

end Cert.ReferenceIdeal.Val

end
-- ==== Proof.RLayer7.lean ====
import proofs.«407097_j78262894068282_1_alg».proof.Proof.ROps.L7
import proofs.«407097_j78262894068282_1_alg».proof.Proof.RLayerVal
import proofs.«407097_j78262894068282_1_alg».proof.Proof.RChainBase

noncomputable section

namespace Cert.ReferenceIdeal.Val

open Cert.ReferenceIdeal Cert.ReferenceIdeal.Gen Idealize.ShloMosaic Idealize.ShloMosaic.TcCoe Idealize.SL.Sem Idealize.ShloMosaic.StableHlo

set_option maxHeartbeats 4000000 in
theorem layer7_out : LayerOut opsL7 (· (Proc.devRef .tc main_v367)) (· (Proc.devRef .tc main_v418)) 7 := fun V => by
  after_results_simp
  exact layerPre_step 7 7 (inputsAt V) _ rfl rfl

end Cert.ReferenceIdeal.Val

end
-- ==== Proof.ROps.Tail.lean ====
import proofs.«407097_j78262894068282_1_alg».proof.ReferenceIdeal
import proofs.«407097_j78262894068282_1_alg».proof.Proof.Gen.ReferenceIdeal
import proofs.«407097_j78262894068282_1_alg».proof.Proof.ROps.Base

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev opsTail : List (HloOp τ sig (Elt F)) :=
  [ StableHlo.binary main_v418 main_arg3 main_v419 (addf : (⟨S50000x128, .f32⟩ : BufTy).Contents (Elt F) → (⟨S50000x128, .f32⟩ : BufTy).Contents (Elt F) → (⟨S50000x128, .f32⟩ : BufTy).Contents (Elt F)),
    StableHlo.nullary main_cst_69 (constant S_ .f32 0xFF800000#32),
    StableHlo.binary main_v419 main_cst_69 main_v420 ((fun x v => Host.reduce FloatOps.maximumf x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.nullary main_cst_70 (constant S_ .f32 0xFF800000#32),
    StableHlo.unary main_cst_70 main_v421 (broadcastInDim S50000 ![] bcast_S_S50000 : (⟨S_, .f32⟩ : BufTy).Contents (Elt F) → (⟨S50000, .f32⟩ : BufTy).Contents (Elt F)),
    StableHlo.binary main_v421 main_v420 main_v422 (maximumf : (⟨S50000, .f32⟩ : BufTy).Contents (Elt F) → (⟨S50000, .f32⟩ : BufTy).Contents (Elt F) → (⟨S50000, .f32⟩ : BufTy).Contents (Elt F)),
    StableHlo.unary main_v422 main_v423 (broadcastInDim S50000x1 ![0] bcast_S50000_S50000x1_0 : (⟨S50000, .f32⟩ : BufTy).Contents (Elt F) → (⟨S50000x1, .f32⟩ : BufTy).Contents (Elt F)),
    StableHlo.unary main_v423 main_v424 (broadcastInDim S50000x128 ![0, 1] bcast_S50000x1_S50000x128_0_1 : (⟨S50000x1, .f32⟩ : BufTy).Contents (Elt F) → (⟨S50000x128, .f32⟩ : BufTy).Contents (Elt F)),
    StableHlo.binary main_v419 main_v424 main_v425 (subf : (⟨S50000x128, .f32⟩ : BufTy).Contents (Elt F) → (⟨S50000x128, .f32⟩ : BufTy).Contents (Elt F) → (⟨S50000x128, .f32⟩ : BufTy).Contents (Elt F)),
    StableHlo.unary main_v425 main_v426 (Host.exp : (⟨S50000x128, .f32⟩ : BufTy).Contents (Elt F) → (⟨S50000x128, .f32⟩ : BufTy).Contents (Elt F)),
    StableHlo.nullary main_cst_71 (constant S_ .f32 0x00000000#32),
    StableHlo.binary main_v426 main_cst_71 main_v427 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v427 main_v428 (broadcastInDim S50000x1 ![0] bcast_S50000_S50000x1_0 : (⟨S50000, .f32⟩ : BufTy).Contents (Elt F) → (⟨S50000x1, .f32⟩ : BufTy).Contents (Elt F)),
    StableHlo.unary main_v428 main_v429 (broadcastInDim S50000x128 ![0, 1] bcast_S50000x1_S50000x128_0_1 : (⟨S50000x1, .f32⟩ : BufTy).Contents (Elt F) → (⟨S50000x128, .f32⟩ : BufTy).Contents (Elt F)),
    StableHlo.binary main_v426 main_v429 main_v430 (Host.divf : (⟨S50000x128, .f32⟩ : BufTy).Contents (Elt F) → (⟨S50000x128, .f32⟩ : BufTy).Contents (Elt F) → (⟨S50000x128, .f32⟩ : BufTy).Contents (Elt F)),
    StableHlo.nullary main_cst_72 (constant S_ .f32 0x00000000#32),
    StableHlo.unary main_cst_72 main_v431 (broadcastInDim S64x128 ![] bcast_S_S64x128 : (⟨S_, .f32⟩ : BufTy).Contents (Elt F) → (⟨S64x128, .f32⟩ : BufTy).Contents (Elt F)),
    StableHlo.unary main_arg2 main_v432 (broadcastInDim S50000x1 ![0] bcast_S50000_S50000x1_0 : (⟨S50000, .i32⟩ : BufTy).Contents (Elt F) → (⟨S50000x1, .i32⟩ : BufTy).Contents (Elt F)),
    StableHlo.ternary main_v431 main_v432 main_v430 main_v433 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    StableHlo.binary main_v433 main_arg10 main_v434 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    StableHlo.unary main_arg11 main_v435 (broadcastInDim S1x128 ![1] bcast_S128_S1x128_1 : (⟨S128, .f32⟩ : BufTy).Contents (Elt F) → (⟨S1x128, .f32⟩ : BufTy).Contents (Elt F)),
    StableHlo.unary main_v435 main_v436 (broadcastInDim S64x128 ![0, 1] bcast_S1x128_S64x128_0_1 : (⟨S1x128, .f32⟩ : BufTy).Contents (Elt F) → (⟨S64x128, .f32⟩ : BufTy).Contents (Elt F)),
    StableHlo.binary main_v434 main_v436 main_v437 (addf : (⟨S64x128, .f32⟩ : BufTy).Contents (Elt F) → (⟨S64x128, .f32⟩ : BufTy).Contents (Elt F) → (⟨S64x128, .f32⟩ : BufTy).Contents (Elt F)),
    StableHlo.nullary main_cst_73 (constant S_ .f32 0x3C23D70A#32),
    StableHlo.nullary main_call23_cst (constant S_ .f32 0x00000000#32),
    StableHlo.unary main_call23_cst main_call23_v0 ((broadcastInDim S64x128 ![] bcast_S_S64x128) : (⟨S_, .f32⟩ : BufTy).Contents (Elt F) → (⟨S64x128, .f32⟩ : BufTy).Contents (Elt F)),
    StableHlo.binary main_v437 main_call23_v0 main_call23_v1 ((cmpf .oge) : (⟨S64x128, .f32⟩ : BufTy).Contents (Elt F) → (⟨S64x128, .f32⟩ : BufTy).Contents (Elt F) → (⟨S64x128, .i1⟩ : BufTy).Contents (Elt F)),
    StableHlo.unary main_cst_73 main_call23_v2 (id : (⟨S_, .f32⟩ : BufTy).Contents (Elt F) → (⟨S_, .f32⟩ : BufTy).Contents (Elt F)),
    StableHlo.unary main_call23_v2 main_call23_v3 ((broadcastInDim S64x128 ![] bcast_S_S64x128) : (⟨S_, .f32⟩ : BufTy).Contents (Elt F) → (⟨S64x128, .f32⟩ : BufTy).Contents (Elt F)),
    StableHlo.binary main_call23_v3 main_v437 main_call23_v4 (mulf : (⟨S64x128, .f32⟩ : BufTy).Contents (Elt F) → (⟨S64x128, .f32⟩ : BufTy).Contents (Elt F) → (⟨S64x128, .f32⟩ : BufTy).Contents (Elt F)),
    StableHlo.ternary main_call23_v1 main_v437 main_call23_v4 main_v438 (select : (⟨S64x128, .i1⟩ : BufTy).Contents (Elt F) → (⟨S64x128, .f32⟩ : BufTy).Contents (Elt F) → (⟨S64x128, .f32⟩ : BufTy).Contents (Elt F) → (⟨S64x128, .f32⟩ : BufTy).Contents (Elt F)),
    StableHlo.binary main_v438 main_arg12 main_v439 ((fun l r => Host.dotGeneral dot_S64x128_S128x10_S64x10_1_0_0_1_n_n none l r) : (⟨S64x128, .f32⟩ : BufTy).Contents (Elt F) → (⟨S128x10, .f32⟩ : BufTy).Contents (Elt F) → (⟨S64x10, .f32⟩ : BufTy).Contents (Elt F)),
    StableHlo.unary main_arg13 main_v440 (broadcastInDim S1x10 ![1] bcast_S10_S1x10_1 : (⟨S10, .f32⟩ : BufTy).Contents (Elt F) → (⟨S1x10, .f32⟩ : BufTy).Contents (Elt F)),
    StableHlo.unary main_v440 main_v441 (broadcastInDim S64x10 ![0, 1] bcast_S1x10_S64x10_0_1 : (⟨S1x10, .f32⟩ : BufTy).Contents (Elt F) → (⟨S64x10, .f32⟩ : BufTy).Contents (Elt F)),
    StableHlo.binary main_v439 main_v441 main_v442 (addf : (⟨S64x10, .f32⟩ : BufTy).Contents (Elt F) → (⟨S64x10, .f32⟩ : BufTy).Contents (Elt F) → (⟨S64x10, .f32⟩ : BufTy).Contents (Elt F)),
    StableHlo.nullary main_cst_74 (constant S_ .f32 0xFF800000#32),
    StableHlo.binary main_v442 main_cst_74 main_v443 ((fun x v => Host.reduce FloatOps.maximumf x v reducesTo_S64x10_S64_d1 h_S_) : (⟨S64x10, .f32⟩ : BufTy).Contents (Elt F) → (⟨S_, .f32⟩ : BufTy).Contents (Elt F) → (⟨S64, .f32⟩ : BufTy).Contents (Elt F)),
    StableHlo.nullary main_cst_75 (constant S_ .f32 0xFF800000#32),
    StableHlo.unary main_cst_75 main_v444 (broadcastInDim S64 ![] bcast_S_S64 : (⟨S_, .f32⟩ : BufTy).Contents (Elt F) → (⟨S64, .f32⟩ : BufTy).Contents (Elt F)),
    StableHlo.binary main_v444 main_v443 main_v445 (maximumf : (⟨S64, .f32⟩ : BufTy).Contents (Elt F) → (⟨S64, .f32⟩ : BufTy).Contents (Elt F) → (⟨S64, .f32⟩ : BufTy).Contents (Elt F)),
    StableHlo.unary main_v445 main_v446 (broadcastInDim S64x1 ![0] bcast_S64_S64x1_0 : (⟨S64, .f32⟩ : BufTy).Contents (Elt F) → (⟨S64x1, .f32⟩ : BufTy).Contents (Elt F)),
    StableHlo.unary main_v446 main_v447 (broadcastInDim S64x10 ![0, 1] bcast_S64x1_S64x10_0_1 : (⟨S64x1, .f32⟩ : BufTy).Contents (Elt F) → (⟨S64x10, .f32⟩ : BufTy).Contents (Elt F)),
    StableHlo.binary main_v442 main_v447 main_v448 (subf : (⟨S64x10, .f32⟩ : BufTy).Contents (Elt F) → (⟨S64x10, .f32⟩ : BufTy).Contents (Elt F) → (⟨S64x10, .f32⟩ : BufTy).Contents (Elt F)),
    StableHlo.unary main_v448 main_v449 (Host.exp : (⟨S64x10, .f32⟩ : BufTy).Contents (Elt F) → (⟨S64x10, .f32⟩ : BufTy).Contents (Elt F)),
    StableHlo.nullary main_cst_76 (constant S_ .f32 0x00000000#32),
    StableHlo.binary main_v449 main_cst_76 main_v450 ((fun x v => Host.reduceAdd x v reducesTo_S64x10_S64_d1 h_S_) : (⟨S64x10, .f32⟩ : BufTy).Contents (Elt F) → (⟨S_, .f32⟩ : BufTy).Contents (Elt F) → (⟨S64, .f32⟩ : BufTy).Contents (Elt F)),
    StableHlo.unary main_v450 main_v451 (broadcastInDim S64x1 ![0] bcast_S64_S64x1_0 : (⟨S64, .f32⟩ : BufTy).Contents (Elt F) → (⟨S64x1, .f32⟩ : BufTy).Contents (Elt F)),
    StableHlo.unary main_v451 main_v452 (broadcastInDim S64x10 ![0, 1] bcast_S64x1_S64x10_0_1 : (⟨S64x1, .f32⟩ : BufTy).Contents (Elt F) → (⟨S64x10, .f32⟩ : BufTy).Contents (Elt F)),
    StableHlo.binary main_v449 main_v452 main_v453 (Host.divf : (⟨S64x10, .f32⟩ : BufTy).Contents (Elt F) → (⟨S64x10, .f32⟩ : BufTy).Contents (Elt F) → (⟨S64x10, .f32⟩ : BufTy).Contents (Elt F)) ]

abbrev opsTail_W : List (Ref sig .tc) :=
  [main_v419, main_cst_69, main_v420, main_cst_70, main_v421, main_v422, main_v423, main_v424, main_v425, main_v426, main_cst_71, main_v427, main_v428, main_v429, main_v430, main_cst_72, main_v431, main_v432, main_v433, main_v434, main_v435, main_v436, main_v437, main_cst_73, main_call23_cst, main_call23_v0, main_call23_v1, main_call23_v2, main_call23_v3, main_call23_v4, main_v438, main_v439, main_v440, main_v441, main_v442, main_cst_74, main_v443, main_cst_75, main_v444, main_v445, main_v446, main_v447, main_v448, main_v449, main_cst_76, main_v450, main_v451, main_v452, main_v453]

theorem opsTail_line : Line (opsTail : List (HloOp τ sig (Elt F))) opsTail_W :=
  ⟨by simp only [List.Forall, nullary_bufs_sub, unary_bufs_sub, binary_bufs_sub, ternary_bufs_sub, and_self], rfl, rfl⟩

end Cert.ReferenceIdeal.Val

end
-- ==== Proof.ROps.lean ====
import proofs.«407097_j78262894068282_1_alg».proof.Proof.ROps.Pre
import proofs.«407097_j78262894068282_1_alg».proof.Proof.ROps.L0
import proofs.«407097_j78262894068282_1_alg».proof.Proof.ROps.L1
import proofs.«407097_j78262894068282_1_alg».proof.Proof.ROps.L2
import proofs.«407097_j78262894068282_1_alg».proof.Proof.ROps.L3
import proofs.«407097_j78262894068282_1_alg».proof.Proof.ROps.L4
import proofs.«407097_j78262894068282_1_alg».proof.Proof.ROps.L5
import proofs.«407097_j78262894068282_1_alg».proof.Proof.ROps.L6
import proofs.«407097_j78262894068282_1_alg».proof.Proof.ROps.L7
import proofs.«407097_j78262894068282_1_alg».proof.Proof.ROps.Tail

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  opsPre ++ opsL0 ++ opsL1 ++ opsL2 ++ opsL3 ++ opsL4 ++ opsL5 ++ opsL6 ++ opsL7 ++ opsTail

abbrev ops_W : List (Ref sig .tc) :=
  opsPre_W ++ opsL0_W ++ opsL1_W ++ opsL2_W ++ opsL3_W ++ opsL4_W ++ opsL5_W ++ opsL6_W ++ opsL7_W ++ opsTail_W

theorem ops_line : Line (ops : List (HloOp τ sig (Elt F))) ops_W :=
  ((((((((opsPre_line.append opsL0_line).append opsL1_line).append opsL2_line).append opsL3_line).append opsL4_line).append opsL5_line).append opsL6_line).append opsL7_line).append opsTail_line

end Cert.ReferenceIdeal.Val

end
-- ==== Proof.RRun.lean ====
import proofs.«407097_j78262894068282_1_alg».proof.Proof.ROps

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem part0_eq (c : Dev nD) : main_part0 (F := F) c = seq (opsPre ++ opsL0.take 83) := rfl

set_option maxRecDepth 8192 in
theorem part1_eq (c : Dev nD) : main_part1 (F := F) c = seq (opsL0.drop 83 ++ opsL1.take 82) := rfl

set_option maxRecDepth 8192 in
theorem part2_eq (c : Dev nD) : main_part2 (F := F) c = seq (opsL1.drop 82 ++ opsL2.take 81) := rfl

set_option maxRecDepth 8192 in
theorem part3_eq (c : Dev nD) : main_part3 (F := F) c = seq (opsL2.drop 81 ++ opsL3.take 80) := rfl

set_option maxRecDepth 8192 in
theorem part4_eq (c : Dev nD) : main_part4 (F := F) c = seq (opsL3.drop 80 ++ opsL4.take 79) := rfl

set_option maxRecDepth 8192 in
theorem part5_eq (c : Dev nD) : main_part5 (F := F) c = seq (opsL4.drop 79 ++ opsL5.take 78) := rfl

set_option maxRecDepth 8192 in
theorem part6_eq (c : Dev nD) : main_part6 (F := F) c = seq (opsL5.drop 78 ++ opsL6.take 77) := rfl

set_option maxRecDepth 8192 in
theorem part7_eq (c : Dev nD) : main_part7 (F := F) c = seq (opsL6.drop 77 ++ opsL7.take 76) := rfl

set_option maxRecDepth 8192 in
theorem part8_eq (c : Dev nD) : main_part8 (F := F) c = seq (opsL7.drop 76 ++ opsTail) := rfl

-- The nine pieces cut the same line at other places: glued back, each stretch's start meets its rest.
theorem main_eq (c : Dev nD) : main (F := F) c = seq ops := by
  simp only [main, part0_eq, part1_eq, part2_eq, part3_eq, part4_eq, part5_eq, part6_eq, part7_eq, part8_eq,
    ← seq_append, ops, List.append_assoc, take_append_drop_append]

theorem after_ops (V : Valuation τ sig (Elt F)) :
    after ops V = after opsTail (after opsL7 (after opsL6 (after opsL5 (after opsL4 (after opsL3 (after opsL2 (after opsL1
      (after opsL0 (after opsPre V))))))))) := by
  simp only [ops, after_append]

theorem ops_args (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8)
    ∧ after ops V (Proc.devRef .tc main_arg9) = V (Proc.devRef .tc main_arg9)
    ∧ after ops V (Proc.devRef .tc main_arg10) = V (Proc.devRef .tc main_arg10)
    ∧ after ops V (Proc.devRef .tc main_arg11) = V (Proc.devRef .tc main_arg11)
    ∧ after ops V (Proc.devRef .tc main_arg12) = V (Proc.devRef .tc main_arg12)
    ∧ after ops V (Proc.devRef .tc main_arg13) = V (Proc.devRef .tc main_arg13) :=
  ⟨ops_line.keep V (by decide), ops_line.keep V (by decide), ops_line.keep V (by decide), ops_line.keep V (by decide),
    ops_line.keep V (by decide), ops_line.keep V (by decide), ops_line.keep V (by decide), ops_line.keep V (by decide),
    ops_line.keep V (by decide), ops_line.keep V (by decide), ops_line.keep V (by decide), ops_line.keep V (by decide),
    ops_line.keep V (by decide), ops_line.keep V (by decide)⟩

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq (by decide) (by decide) defs main (fun _ => ops) main_eq (fun _ => ops_line.sub) m ρ
    (fun _ => List.map_inj_left.1 ops_line.fresh)

end Cert.ReferenceIdeal.Val

end
-- ==== Proof.RTailH.lean ====
import proofs.«407097_j78262894068282_1_alg».proof.Proof.RTailMath

noncomputable section

namespace Cert.ReferenceIdeal.Val

open Idealize.ShloMosaic

theorem headFactsR : Cert.TailMath.HeadFacts := by constructor <;> decide

def headR (pooled : FVec Ideal Cert.TailMath.SG .f32) (Wd1 : FVec Ideal Cert.TailMath.S128x128 .f32)
    (bd1 : FVec Ideal Cert.TailMath.S128 .f32) (Wd2 : FVec Ideal Cert.TailMath.S128x10 .f32)
    (bd2 : FVec Ideal Cert.TailMath.S10 .f32) : FVec Ideal Cert.TailMath.SO .f32 :=
  Cert.TailMath.headOf headFactsR pooled Wd1 bd1 Wd2 bd2

end Cert.ReferenceIdeal.Val

end
-- ==== Proof.RTail.lean ====
import proofs.«407097_j78262894068282_1_alg».proof.Proof.ROps.Tail
import proofs.«407097_j78262894068282_1_alg».proof.Proof.RTailH

noncomputable section

namespace Cert.ReferenceIdeal.Val

open Cert.ReferenceIdeal Cert.ReferenceIdeal.Gen Idealize.ShloMosaic Idealize.ShloMosaic.TcCoe Idealize.SL.Sem Idealize.ShloMosaic.StableHlo

variable (V : Valuation τ sig (Elt Ideal))

-- The operations after layer 7 leave the row softmax of its output plus the noise,
theorem tail_assign : after (opsTail (F := Ideal)) V (Proc.devRef .tc main_v430)
    = Cert.Spec.assign (V (Proc.devRef .tc main_v418)) (V (Proc.devRef .tc main_arg3)) := by
  after_results_simp
  exact Cert.TailMath.assign_chain _ _ _ _ _ _ _

-- and the head of that assignment's per-graph sums.
theorem tail_result : after (opsTail (F := Ideal)) V (Proc.devRef .tc main_v453)
    = headR (Cert.Spec.poolOf (Cert.Spec.assign (V (Proc.devRef .tc main_v418)) (V (Proc.devRef .tc main_arg3))) (Cert.TailMath.colOf (V (Proc.devRef .tc main_arg2))))
        (V (Proc.devRef .tc main_arg10)) (V (Proc.devRef .tc main_arg11)) (V (Proc.devRef .tc main_arg12)) (V (Proc.devRef .tc main_arg13)) := by
  after_results_simp
  exact congrArg (headR · (V (Proc.devRef .tc main_arg10)) (V (Proc.devRef .tc main_arg11)) (V (Proc.devRef .tc main_arg12)) (V (Proc.devRef .tc main_arg13)))
    ((Cert.TailMath.pool_scatter scatter_S64x128_S50000x1_S50000x128_1_0_0_1_wf bcast_S_S64x128 _ _).trans
      (congrArg₂ Cert.Spec.poolOf (Cert.TailMath.assign_chain _ _ _ _ _ _ _) (Cert.TailMath.bcastCol_eq bcast_S50000_S50000x1_0 _)))

end Cert.ReferenceIdeal.Val

end
-- ==== Proof.RChain.lean ====
import proofs.«407097_j78262894068282_1_alg».proof.Proof.RChainBase
import proofs.«407097_j78262894068282_1_alg».proof.Proof.RLayer0
import proofs.«407097_j78262894068282_1_alg».proof.Proof.RLayer1
import proofs.«407097_j78262894068282_1_alg».proof.Proof.RLayer2
import proofs.«407097_j78262894068282_1_alg».proof.Proof.RLayer3
import proofs.«407097_j78262894068282_1_alg».proof.Proof.RLayer4
import proofs.«407097_j78262894068282_1_alg».proof.Proof.RLayer5
import proofs.«407097_j78262894068282_1_alg».proof.Proof.RLayer6
import proofs.«407097_j78262894068282_1_alg».proof.Proof.RLayer7
import proofs.«407097_j78262894068282_1_alg».proof.Proof.RRun
import proofs.«407097_j78262894068282_1_alg».proof.Proof.RTail

noncomputable section

namespace Cert.ReferenceIdeal.Val

open Cert.ReferenceIdeal Cert.ReferenceIdeal.Gen Idealize.ShloMosaic Idealize.ShloMosaic.TcCoe Idealize.SL.Sem Idealize.ShloMosaic.StableHlo

variable (M : VI)

-- Through the eight layers' stretches the kept buffers stay as the first four operations left them, and the last output holds the network's features.
theorem chain : Keeps (after (opsPre (F := Ideal)) M) (after (opsL7 (F := Ideal)) (after (opsL6 (F := Ideal)) (after (opsL5 (F := Ideal)) (after (opsL4 (F := Ideal)) (after (opsL3 (F := Ideal)) (after (opsL2 (F := Ideal)) (after (opsL1 (F := Ideal)) (after (opsL0 (F := Ideal)) (after (opsPre (F := Ideal)) M)))))))))
    ∧ (after (opsL7 (F := Ideal)) (after (opsL6 (F := Ideal)) (after (opsL5 (F := Ideal)) (after (opsL4 (F := Ideal)) (after (opsL3 (F := Ideal)) (after (opsL2 (F := Ideal)) (after (opsL1 (F := Ideal)) (after (opsL0 (F := Ideal)) (after (opsPre (F := Ideal)) M))))))))) (Proc.devRef .tc main_v418) = Spec.netDev (inputsOf M) := by
  have k0 := Keeps.refl (after (opsPre (F := Ideal)) M)
  have k1 := k0.through opsL0_keep (by decide +kernel)
  have k2 := k1.through opsL1_keep (by decide +kernel)
  have k3 := k2.through opsL2_keep (by decide +kernel)
  have k4 := k3.through opsL3_keep (by decide +kernel)
  have k5 := k4.through opsL4_keep (by decide +kernel)
  have k6 := k5.through opsL5_keep (by decide +kernel)
  have k7 := k6.through opsL6_keep (by decide +kernel)
  have k8 := k7.through opsL7_keep (by decide +kernel)
  refine ⟨k8, ?_⟩
  rw [layer7_out.step k7, layer6_out.step k6, layer5_out.step k5, layer4_out.step k4, layer3_out.step k3, layer2_out.step k2,
    layer1_out.step k1, layer0_out.step k0, opsPre_keep M main_arg0 (by decide)]
  rfl

theorem ref_assign : after (ops (F := Ideal)) M (Proc.devRef .tc main_v430)
    = Spec.assign (Spec.netDev (inputsOf M)) (M (Proc.devRef .tc main_arg3)) := by
  obtain ⟨k, e⟩ := chain M
  rw [after_ops, tail_assign, e, k.arg main_arg3 (by decide)]

theorem ref_result : after (ops (F := Ideal)) M (Proc.devRef .tc main_v453)
    = headR (Spec.poolOf (Spec.assign (Spec.netDev (inputsOf M)) (M (Proc.devRef .tc main_arg3)))
          (Cert.TailMath.colOf (M (Proc.devRef .tc main_arg2))))
        (M (Proc.devRef .tc main_arg10)) (M (Proc.devRef .tc main_arg11)) (M (Proc.devRef .tc main_arg12)) (M (Proc.devRef .tc main_arg13)) := by
  obtain ⟨k, e⟩ := chain M
  rw [after_ops, tail_result, e, k.arg main_arg2 (by decide), k.arg main_arg3 (by decide),
    k.arg main_arg10 (by decide), k.arg main_arg11 (by decide), k.arg main_arg12 (by decide),
    k.arg main_arg13 (by decide)]

end Cert.ReferenceIdeal.Val

end
-- ==== Proof.RefValue.lean ====
import proofs.«407097_j78262894068282_1_alg».proof.Proof.RChain

noncomputable section

namespace Cert.ReferenceIdeal.Val

open Cert.ReferenceIdeal Cert.ReferenceIdeal.Gen Idealize.ShloMosaic Idealize.ShloMosaic.TcCoe Idealize.SL.Sem Idealize.ShloMosaic.StableHlo

theorem run_value (m : (ℓ : Loc nD τ sig) → Buf (Elt Ideal) ℓ) (ρ : Dev nD → PrngReg) :
    θ_run defs (onTc (τ := τ) (main (F := Ideal))) ⟨m, fun _ => 0, ρ⟩ fun r =>
      ∀ c : Dev nD,
        r.2.mem ((c.tc : Thread nD τ).loc main_v453)
          = headR (Spec.poolOf (Spec.assign (Spec.netDev (inputsOf (launchContents m c)))
                (launchContents m c (Proc.devRef .tc main_arg3)))
              (Cert.TailMath.colOf (launchContents m c (Proc.devRef .tc main_arg2))))
            (launchContents m c (Proc.devRef .tc main_arg10)) (launchContents m c (Proc.devRef .tc main_arg11))
            (launchContents m c (Proc.devRef .tc main_arg12)) (launchContents m c (Proc.devRef .tc main_arg13))
        ∧ r.2.mem ((c.tc : Thread nD τ).loc main_v430)
          = Spec.assign (Spec.netDev (inputsOf (launchContents m c))) (launchContents m c (Proc.devRef .tc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13) :=
  (θ_run defs _ _).mono (fun r h c => by
    obtain ⟨a0, a1, a2, a3, a4, a5, a6, a7, a8, a9, a10, a11, a12, a13⟩ := ops_args (launchContents m c)
    exact ⟨(h c _).trans (ref_result _), (h c _).trans (ref_assign _), (h c _).trans a0, (h c _).trans a1, (h c _).trans a2,
      (h c _).trans a3, (h c _).trans a4, (h c _).trans a5, (h c _).trans a6, (h c _).trans a7, (h c _).trans a8,
      (h c _).trans a9, (h c _).trans a10, (h c _).trans a11, (h c _).trans a12, (h c _).trans a13⟩) (run (F := Ideal) m ρ)

end Cert.ReferenceIdeal.Val

end
-- ==== Proof.Head.lean ====
import proofs.«407097_j78262894068282_1_alg».proof.Proof.RTailH
import proofs.«407097_j78262894068282_1_alg».proof.Proof.KTail

noncomputable section

namespace Cert.Head

theorem headK_eq_headR : Cert.KernelIdeal.Val.headK = Cert.ReferenceIdeal.Val.headR := rfl

end Cert.Head

end
-- ==== Proof.PreFinite.lean ====
import Idealize.ShloMosaic.Lib.ReduceAll
import Idealize.ShloMosaic.Lib.ValueIdx
import Idealize.ShloMosaic.PureOps.Ideal
import proofs.«407097_j78262894068282_1_alg».proof.Pre_finite_inputs
import proofs.«407097_j78262894068282_1_alg».proof.Proof.Gen.Pre_finite_inputs
import proofs.«407097_j78262894068282_1_alg».proof.Proof.Spec

namespace Cert.PreVal

open Idealize.ShloMosaic Idealize.ShloMosaic.ValueIdx Cert.Pre_finite_inputs

instance : Subsingleton S_.Idx := ⟨fun a b => funext fun d => d.elim0⟩

theorem inf32 : (Ideal.ofBits .f32 0x7F800000#32 : EReal) = ⊤ := by
  simp [Ideal.ofBits, Ideal.ieee]

theorem real_of_abs_lt_top (x : EReal) (h : max x (-x) < ⊤) : x ≠ ⊤ ∧ x ≠ ⊥ := by
  induction x using EReal.rec with
  | bot => simp at h
  | coe r => exact ⟨EReal.coe_ne_top r, EReal.coe_ne_bot r⟩
  | top => simp at h

theorem ofBool_eq_one {b : Bool} : BitVec.ofBool b = 1#1 ↔ b = true := by cases b <;> decide

theorem cmp_olt_eq_one (a b : EReal) : Ideal.cmp .olt a b = 1#1 ↔ a < b := by
  simp only [Ideal.cmp, ofBool_eq_one, decide_eq_true_eq]

theorem all_finite {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
        (constantI S_ 1 1#1) hr hu ix0 = 1#1) :
    ∀ j, x j ≠ ⊤ ∧ x j ≠ ⊥ := by
  intro j
  have h := Host.reduce_andi_all _ _ hr hu ix0 e j
  have h' : Ideal.cmp .olt (max (x j) (-(x j))) (Ideal.ofBits .f32 0x7F800000#32) = 1#1 := h
  rw [inf32, cmp_olt_eq_one] at h'
  exact real_of_abs_lt_top (x j) h'

structure Finite12
    (a0 : FVec Ideal S50000x128 .f32) (a3 : FVec Ideal S50000x128 .f32) (a4 : FVec Ideal S8x128x128 .f32)
    (a5 : FVec Ideal S8x128 .f32) (a6 : FVec Ideal S8x128x128 .f32) (a7 : FVec Ideal S8x128 .f32)
    (a8 : FVec Ideal S8x128 .f32) (a9 : FVec Ideal S8x128 .f32) (a10 : FVec Ideal S128x128 .f32)
    (a11 : FVec Ideal S128 .f32) (a12 : FVec Ideal S128x10 .f32) (a13 : FVec Ideal S10 .f32) : Prop where
  x : ∀ j, a0 j ≠ ⊤ ∧ a0 j ≠ ⊥
  g : ∀ j, a3 j ≠ ⊤ ∧ a3 j ≠ ⊥
  W1s : ∀ j, a4 j ≠ ⊤ ∧ a4 j ≠ ⊥
  b1s : ∀ j, a5 j ≠ ⊤ ∧ a5 j ≠ ⊥
  W2s : ∀ j, a6 j ≠ ⊤ ∧ a6 j ≠ ⊥
  b2s : ∀ j, a7 j ≠ ⊤ ∧ a7 j ≠ ⊥
  gammas : ∀ j, a8 j ≠ ⊤ ∧ a8 j ≠ ⊥
  betas : ∀ j, a9 j ≠ ⊤ ∧ a9 j ≠ ⊥
  Wd1 : ∀ j, a10 j ≠ ⊤ ∧ a10 j ≠ ⊥
  bd1 : ∀ j, a11 j ≠ ⊤ ∧ a11 j ≠ ⊥
  Wd2 : ∀ j, a12 j ≠ ⊤ ∧ a12 j ≠ ⊥
  bd2 : ∀ j, a13 j ≠ ⊤ ∧ a13 j ≠ ⊥

theorem finite_of_pre [Facts]
    (a0 : FVec Ideal S50000x128 .f32) (a1 : IVec S2x600000 32) (a2 : IVec S50000 32)
    (a3 : FVec Ideal S50000x128 .f32) (a4 : FVec Ideal S8x128x128 .f32)
    (a5 : FVec Ideal S8x128 .f32) (a6 : FVec Ideal S8x128x128 .f32) (a7 : FVec Ideal S8x128 .f32)
    (a8 : FVec Ideal S8x128 .f32) (a9 : FVec Ideal S8x128 .f32) (a10 : FVec Ideal S128x128 .f32)
    (a11 : FVec Ideal S128 .f32) (a12 : FVec Ideal S128x10 .f32) (a13 : FVec Ideal S10 .f32)
    (h : fn (F := Ideal) a0 a1 a2 a3 a4 a5 a6 a7 a8 a9 a10 a11 a12 a13 = (fun _ => 1#1)) :
    Finite12 a0 a3 a4 a5 a6 a7 a8 a9 a10 a11 a12 a13 := by
  have h0 := congrFun h ix0
  dsimp only [fn, fn_part1, fn_part2, fn_part3, andi] at h0
  simp only [IntOp.andi_eq_one] at h0
  obtain ⟨⟨⟨⟨⟨⟨⟨⟨⟨⟨⟨e0, e3⟩, e4⟩, e5⟩, e6⟩, e7⟩, e8⟩, e9⟩, e10⟩, e11⟩, e12⟩, e13⟩ := h0
  exact ⟨all_finite a0 _ _ _ e0, all_finite a3 _ _ _ e3, all_finite a4 _ _ _ e4, all_finite a5 _ _ _ e5,
    all_finite a6 _ _ _ e6, all_finite a7 _ _ _ e7, all_finite a8 _ _ _ e8, all_finite a9 _ _ _ e9,
    all_finite a10 _ _ _ e10, all_finite a11 _ _ _ e11, all_finite a12 _ _ _ e12, all_finite a13 _ _ _ e13⟩

end Cert.PreVal
-- ==== Proof.Bridge.lean ====
import Idealize.ShloMosaic.PureOps.ShapeOps
import Idealize.ShloMosaic.PureOps.Vector
import proofs.«407097_j78262894068282_1_alg».proof.Proof.Spec
import proofs.«407097_j78262894068282_1_alg».proof.Proof.SpecEdges
import proofs.«407097_j78262894068282_1_alg».proof.Proof.KHostDefs
import proofs.«407097_j78262894068282_1_alg».proof.Proof.RLayerAgg
import proofs.«407097_j78262894068282_1_alg».proof.Proof.RTailMath
import proofs.«407097_j78262894068282_1_alg».proof.Proof.PreFinite

noncomputable section

namespace Cert.Bridge

open Idealize.ShloMosaic Idealize.ShloMosaic.ValueIdx

abbrev S2xE : Shape := ⟨2, ![2, 600000]⟩

abbrev SE : Shape := ⟨1, ![600000]⟩

theorem srcVec_eq (a1 : IVec S2xE 32) : Cert.KernelIdeal.Val.srcVec a1 = Spec.srcVec a1 := rfl

theorem dstVec_eq (a1 : IVec S2xE 32) : Cert.KernelIdeal.Val.dstVec a1 = Spec.dstVec a1 := rfl

theorem srcB_eq (v : IVec SE 32) : Cert.KernelIdeal.Val.srcBOf v = Cert.ReferenceIdeal.Val.srcB v := rfl

theorem dstB_eq (v : IVec SE 32) : Cert.KernelIdeal.Val.dstBOf v = Cert.ReferenceIdeal.Val.dstB v := rfl

def inputsK (a0 : Spec.Mat 50000 128) (a1 : IVec S2xE 32) (a4 : (⟨3, ![8, 128, 128]⟩ : Shape).Idx → EReal)
    (a5 : Spec.Mat 8 128) (a6 : (⟨3, ![8, 128, 128]⟩ : Shape).Idx → EReal) (a7 a8 a9 : Spec.Mat 8 128) : Spec.Inputs where
  x := a0
  srcB := Cert.KernelIdeal.Val.srcBOf (Cert.KernelIdeal.Val.srcVec a1)
  dstB := Cert.KernelIdeal.Val.dstBOf (Cert.KernelIdeal.Val.dstVec a1)
  W1s := a4
  b1s := a5
  W2s := a6
  b2s := a7
  gammas := a8
  betas := a9

def inputsR (a0 : Spec.Mat 50000 128) (a1 : IVec S2xE 32) (a4 : (⟨3, ![8, 128, 128]⟩ : Shape).Idx → EReal)
    (a5 : Spec.Mat 8 128) (a6 : (⟨3, ![8, 128, 128]⟩ : Shape).Idx → EReal) (a7 a8 a9 : Spec.Mat 8 128) : Spec.Inputs where
  x := a0
  srcB := Cert.ReferenceIdeal.Val.srcB (Spec.srcVec a1)
  dstB := Cert.ReferenceIdeal.Val.dstB (Spec.dstVec a1)
  W1s := a4
  b1s := a5
  W2s := a6
  b2s := a7
  gammas := a8
  betas := a9

theorem inputs_eq (a0 : Spec.Mat 50000 128) (a1 : IVec S2xE 32) (a4 : (⟨3, ![8, 128, 128]⟩ : Shape).Idx → EReal)
    (a5 : Spec.Mat 8 128) (a6 : (⟨3, ![8, 128, 128]⟩ : Shape).Idx → EReal) (a7 a8 a9 : Spec.Mat 8 128) :
    inputsK a0 a1 a4 a5 a6 a7 a8 a9 = inputsR a0 a1 a4 a5 a6 a7 a8 a9 := rfl

theorem batchCol_eq (a2 : IVec ⟨1, ![50000]⟩ 32) : Cert.KernelIdeal.Val.batchCol a2 = Cert.TailMath.colOf a2 :=
  Cert.TailMath.castCol_eq (by decide) a2

theorem batchCol_eq_bcast (hb : Cert.TailMath.SR.BroadcastsInDim Cert.TailMath.SC (![0] : Fin 1 → Fin Cert.TailMath.SC.rank))
    (a2 : IVec ⟨1, ![50000]⟩ 32) :
    Cert.KernelIdeal.Val.batchCol a2 = broadcastInDim Cert.TailMath.SC ![0] hb a2 :=
  (batchCol_eq a2).trans (Cert.TailMath.bcastCol_eq hb a2).symm

theorem inputs_finite {a0 a3 : FVec Ideal ⟨2, ![50000, 128]⟩ .f32} {a4 : FVec Ideal ⟨3, ![8, 128, 128]⟩ .f32}
    {a5 : FVec Ideal ⟨2, ![8, 128]⟩ .f32} {a6 : FVec Ideal ⟨3, ![8, 128, 128]⟩ .f32} {a7 a8 a9 : FVec Ideal ⟨2, ![8, 128]⟩ .f32}
    {a10 : FVec Ideal ⟨2, ![128, 128]⟩ .f32} {a11 : FVec Ideal ⟨1, ![128]⟩ .f32} {a12 : FVec Ideal ⟨2, ![128, 10]⟩ .f32}
    {a13 : FVec Ideal ⟨1, ![10]⟩ .f32} (h : Cert.PreVal.Finite12 a0 a3 a4 a5 a6 a7 a8 a9 a10 a11 a12 a13)
    (a1 : IVec S2xE 32) : (inputsK a0 a1 a4 a5 a6 a7 a8 a9).Finite :=
  ⟨h.x, h.W1s, h.b1s, h.W2s, h.b2s, h.gammas, h.betas⟩

theorem inputs_finite_of_pre [Cert.Pre_finite_inputs.Facts]
    (a0 : FVec Ideal ⟨2, ![50000, 128]⟩ .f32) (a1 : IVec S2xE 32) (a2 : IVec ⟨1, ![50000]⟩ 32)
    (a3 : FVec Ideal ⟨2, ![50000, 128]⟩ .f32) (a4 : FVec Ideal ⟨3, ![8, 128, 128]⟩ .f32)
    (a5 : FVec Ideal ⟨2, ![8, 128]⟩ .f32) (a6 : FVec Ideal ⟨3, ![8, 128, 128]⟩ .f32) (a7 a8 a9 : FVec Ideal ⟨2, ![8, 128]⟩ .f32)
    (a10 : FVec Ideal ⟨2, ![128, 128]⟩ .f32) (a11 : FVec Ideal ⟨1, ![128]⟩ .f32) (a12 : FVec Ideal ⟨2, ![128, 10]⟩ .f32)
    (a13 : FVec Ideal ⟨1, ![10]⟩ .f32)
    (h : Cert.Pre_finite_inputs.fn (F := Ideal) a0 a1 a2 a3 a4 a5 a6 a7 a8 a9 a10 a11 a12 a13 = (fun _ => 1#1)) :
    (inputsK a0 a1 a4 a5 a6 a7 a8 a9).Finite :=
  inputs_finite (Cert.PreVal.finite_of_pre a0 a1 a2 a3 a4 a5 a6 a7 a8 a9 a10 a11 a12 a13 h) a1

theorem inputsR_finite_of_pre [Cert.Pre_finite_inputs.Facts]
    (a0 : FVec Ideal ⟨2, ![50000, 128]⟩ .f32) (a1 : IVec S2xE 32) (a2 : IVec ⟨1, ![50000]⟩ 32)
    (a3 : FVec Ideal ⟨2, ![50000, 128]⟩ .f32) (a4 : FVec Ideal ⟨3, ![8, 128, 128]⟩ .f32)
    (a5 : FVec Ideal ⟨2, ![8, 128]⟩ .f32) (a6 : FVec Ideal ⟨3, ![8, 128, 128]⟩ .f32) (a7 a8 a9 : FVec Ideal ⟨2, ![8, 128]⟩ .f32)
    (a10 : FVec Ideal ⟨2, ![128, 128]⟩ .f32) (a11 : FVec Ideal ⟨1, ![128]⟩ .f32) (a12 : FVec Ideal ⟨2, ![128, 10]⟩ .f32)
    (a13 : FVec Ideal ⟨1, ![10]⟩ .f32)
    (h : Cert.Pre_finite_inputs.fn (F := Ideal) a0 a1 a2 a3 a4 a5 a6 a7 a8 a9 a10 a11 a12 a13 = (fun _ => 1#1)) :
    (inputsR a0 a1 a4 a5 a6 a7 a8 a9).Finite :=
  inputs_eq a0 a1 a4 a5 a6 a7 a8 a9 ▸ inputs_finite_of_pre a0 a1 a2 a3 a4 a5 a6 a7 a8 a9 a10 a11 a12 a13 h

end Cert.Bridge

end
-- ==== Proof.SpecMathReal.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Ring.Finset
import Mathlib.Algebra.Order.BigOperators.Ring.Finset
import Mathlib.Tactic.NormNum
import Mathlib.Tactic.Ring
import Mathlib.Tactic.FieldSimp
import Mathlib.Tactic.Linarith
import Mathlib.Tactic.Positivity

noncomputable section

namespace Cert.Spec

open Idealize.ShloMosaic

abbrev IsReal (x : EReal) : Prop := x ≠ ⊤ ∧ x ≠ ⊥

theorem isReal_iff {x : EReal} : IsReal x ↔ ∃ r : ℝ, x = (r : EReal) := by
  constructor
  · rintro ⟨h1, h2⟩
    induction x using EReal.rec with
    | bot => exact absurd rfl h2
    | top => exact absurd rfl h1
    | coe r => exact ⟨r, rfl⟩
  · rintro ⟨r, rfl⟩
    exact ⟨EReal.coe_ne_top r, EReal.coe_ne_bot r⟩

theorem isReal_coe (r : ℝ) : IsReal (r : EReal) := ⟨EReal.coe_ne_top r, EReal.coe_ne_bot r⟩

theorem isReal_zero : IsReal (0 : EReal) := by
  rw [← EReal.coe_zero]; exact isReal_coe 0

theorem IsReal.add {x y : EReal} (hx : IsReal x) (hy : IsReal y) : IsReal (x + y) := by
  obtain ⟨a, rfl⟩ := isReal_iff.mp hx
  obtain ⟨b, rfl⟩ := isReal_iff.mp hy
  rw [← EReal.coe_add]; exact isReal_coe _

theorem IsReal.sub {x y : EReal} (hx : IsReal x) (hy : IsReal y) : IsReal (x - y) := by
  obtain ⟨a, rfl⟩ := isReal_iff.mp hx
  obtain ⟨b, rfl⟩ := isReal_iff.mp hy
  rw [← EReal.coe_sub]; exact isReal_coe _

theorem IsReal.mul {x y : EReal} (hx : IsReal x) (hy : IsReal y) : IsReal (x * y) := by
  obtain ⟨a, rfl⟩ := isReal_iff.mp hx
  obtain ⟨b, rfl⟩ := isReal_iff.mp hy
  rw [← EReal.coe_mul]; exact isReal_coe _

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem div_coe (x : EReal) (n : ℝ) (hn : n ≠ 0) : Ideal.div x (n : EReal) = x * ((n⁻¹ : ℝ) : EReal) := by
  unfold Ideal.div
  rw [if_neg (by exact_mod_cast hn), EReal.coe_inv]

theorem isReal_div {x : EReal} (hx : IsReal x) (n : ℝ) (hn : n ≠ 0) : IsReal (Ideal.div x (n : EReal)) := by
  rw [div_coe x n hn]; exact hx.mul (isReal_coe _)

theorem isReal_rsqrt (v e : ℝ) (hv : 0 ≤ v) (he : 0 < e) : IsReal (Ideal.rsqrt ((v : EReal) + (e : EReal))) := by
  rw [← EReal.coe_add, Ideal.rsqrt_coe, if_neg (by linarith), if_neg (by linarith)]
  exact isReal_coe _

theorem real_var_forms {ι : Type*} [Fintype ι] (f : ι → ℝ) (N : ℝ) (hN : (Fintype.card ι : ℝ) = N) (h0 : N ≠ 0) :
    (∑ i, f i * f i) * N⁻¹ - (∑ i, f i) * N⁻¹ * ((∑ i, f i) * N⁻¹)
      = (∑ i, (f i - (∑ i, f i) * N⁻¹) * (f i - (∑ i, f i) * N⁻¹)) * N⁻¹ := by
  generalize hS : ∑ i, f i = S
  have h1 : ∑ i, (f i - S * N⁻¹) * (f i - S * N⁻¹)
      = (∑ i, f i * f i) - 2 * (S * N⁻¹) * S + N * ((S * N⁻¹) * (S * N⁻¹)) := by
    have e : ∀ i, (f i - S * N⁻¹) * (f i - S * N⁻¹)
        = f i * f i - 2 * (S * N⁻¹) * f i + (S * N⁻¹) * (S * N⁻¹) := fun i => by ring
    simp only [e, Finset.sum_add_distrib, Finset.sum_sub_distrib, ← Finset.mul_sum, Finset.sum_const,
      Finset.card_univ, nsmul_eq_mul, hN, hS]
    ring
  rw [h1]
  field_simp
  ring

theorem var_forms {ι : Type*} [Fintype ι] (z : ι → EReal) (hz : ∀ i, IsReal (z i)) (N : ℝ)
    (hN : (Fintype.card ι : ℝ) = N) (h0 : N ≠ 0) :
    Ideal.div (∑ i, z i * z i) (N : EReal) - Ideal.div (∑ i, z i) (N : EReal) * Ideal.div (∑ i, z i) (N : EReal)
      = Ideal.div (∑ i, (z i - Ideal.div (∑ i, z i) (N : EReal)) * (z i - Ideal.div (∑ i, z i) (N : EReal))) (N : EReal) := by
  choose f hf using fun i => isReal_iff.mp (hz i)
  obtain rfl : z = fun i => ((f i : ℝ) : EReal) := funext hf
  simp only [div_coe _ N h0, ← EReal.coe_mul, coe_sum, ← EReal.coe_sub]
  exact congrArg _ (real_var_forms f N hN h0)

theorem varDev_real {ι : Type*} [Fintype ι] (z : ι → EReal) (hz : ∀ i, IsReal (z i)) (N : ℝ) (h0 : 0 < N) :
    ∃ v : ℝ, 0 ≤ v ∧
      Ideal.div (∑ i, (z i - Ideal.div (∑ i, z i) (N : EReal)) * (z i - Ideal.div (∑ i, z i) (N : EReal))) (N : EReal)
        = (v : EReal) := by
  choose f hf using fun i => isReal_iff.mp (hz i)
  obtain rfl : z = fun i => ((f i : ℝ) : EReal) := funext hf
  refine ⟨(∑ i, (f i - (∑ i, f i) * N⁻¹) * (f i - (∑ i, f i) * N⁻¹)) * N⁻¹, ?_, ?_⟩
  · exact mul_nonneg (Finset.sum_nonneg fun i _ => mul_self_nonneg _) (inv_nonneg.mpr h0.le)
  · simp only [div_coe _ N h0.ne', ← EReal.coe_mul, coe_sum, ← EReal.coe_sub]

end Cert.Spec

end
-- ==== Proof.SpecMathFin.lean ====
import proofs.«407097_j78262894068282_1_alg».proof.Proof.Spec
import proofs.«407097_j78262894068282_1_alg».proof.Proof.SpecMathReal

noncomputable section

namespace Cert.Spec

open Idealize.ShloMosaic Idealize.ShloMosaic.ValueIdx

theorem zero32_eq : zero32 = 0 := Ideal.ofBits_zero_f32

theorem nNodes_eq : nNodes = ((50000 : ℝ) : EReal) := by
  unfold nNodes
  simp [Ideal.ofBits, Ideal.ieee, -EReal.coe_mul]; norm_num

theorem slope_eq : ∃ s : ℝ, slope = (s : EReal) := by
  unfold slope
  simp [Ideal.ofBits, Ideal.ieee, -EReal.coe_mul]

theorem slope_isReal : IsReal slope := isReal_iff.mpr slope_eq

theorem bnEps_eq : ∃ e : ℝ, 0 < e ∧ bnEps = (e : EReal) := by
  unfold bnEps
  simp [Ideal.ofBits, Ideal.ieee, -EReal.coe_mul]

theorem lrelu_isReal {x : EReal} (hx : IsReal x) : IsReal (lrelu x) := by
  unfold lrelu Scalar.select
  split_ifs
  · exact hx
  · exact slope_isReal.mul hx

theorem hidden_fin {h agg : Mat 50000 128} {W1 : Mat 128 128} {b1 : Fin 128 → EReal}
    (hh : FinM h) (ha : FinM agg) (hW : FinM W1) (hb : FinF b1) : FinM (hidden h agg W1 b1) := by
  intro j
  show IsReal (lrelu _)
  exact lrelu_isReal (IsReal.add (isReal_sum _ _ fun k _ => IsReal.mul (IsReal.add (hh _) (ha _)) (hW _)) (hb _))

theorem affine_fin {a : Mat 50000 128} {W2 : Mat 128 128} {b2 : Fin 128 → EReal}
    (ha : FinM a) (hW : FinM W2) (hb : FinF b2) : FinM (affine a W2 b2) := by
  intro j
  show IsReal (_ + _)
  exact IsReal.add (isReal_sum _ _ fun k _ => IsReal.mul (ha _) (hW _)) (hb _)

theorem zOf_fin {h agg : Mat 50000 128} {W1 : Mat 128 128} {b1 : Fin 128 → EReal} {W2 : Mat 128 128} {b2 : Fin 128 → EReal}
    (hh : FinM h) (ha : FinM agg) (hW1 : FinM W1) (hb1 : FinF b1) (hW2 : FinM W2) (hb2 : FinF b2) :
    FinM (zOf h agg W1 b1 W2 b2) :=
  affine_fin (hidden_fin hh ha hW1 hb1) hW2 hb2

theorem aggOf_fin {h : Mat 50000 128} (hh : FinM h) (srcB dstB : IVec ⟨2, ![600000, 1]⟩ 32) :
    FinM (aggOf h srcB dstB) := by
  intro j
  show IsReal (zero32 + _)
  rw [zero32_eq]
  exact isReal_zero.add (isReal_sum _ _ fun e _ => hh _)

theorem poolOf_fin {c : Mat 50000 128} (hc : FinM c) (batchB : IVec ⟨2, ![50000, 1]⟩ 32) :
    FinM (poolOf c batchB) := by
  intro j
  show IsReal (zero32 + _)
  rw [zero32_eq]
  exact isReal_zero.add (isReal_sum _ _ fun r _ => hc _)

theorem colSum_isReal {z : Mat 50000 128} (hz : FinM z) (d : Fin 128) : IsReal (colSum z d) :=
  isReal_sum _ _ fun r _ => hz _

theorem colSumSq_isReal {z : Mat 50000 128} (hz : FinM z) (d : Fin 128) : IsReal (colSumSq z d) :=
  isReal_sum _ _ fun r _ => IsReal.mul (hz _) (hz _)

theorem mean_fin {z : Mat 50000 128} (hz : FinM z) : FinF (mean z) := by
  intro d
  show IsReal (Ideal.div (colSum z d) nNodes)
  rw [nNodes_eq]
  exact isReal_div (colSum_isReal hz d) _ (by norm_num)

theorem varMS_eq_varDev {z : Mat 50000 128} (hz : FinM z) : varMS z = varDev z := by
  funext d
  unfold varMS varDev mean colSum colSumSq
  rw [nNodes_eq]
  exact var_forms (fun r : Fin 50000 => z (ix2 r d)) (fun r => hz _) 50000 (by simp) (by norm_num)

theorem varDev_real_nonneg {z : Mat 50000 128} (hz : FinM z) (d : Fin 128) :
    ∃ v : ℝ, 0 ≤ v ∧ varDev z d = (v : EReal) := by
  unfold varDev mean colSum
  rw [nNodes_eq]
  exact varDev_real (fun r : Fin 50000 => z (ix2 r d)) (fun r => hz _) 50000 (by norm_num)

theorem varDev_fin {z : Mat 50000 128} (hz : FinM z) : FinF (varDev z) := by
  intro d
  obtain ⟨v, _, e⟩ := varDev_real_nonneg hz d
  rw [e]; exact isReal_coe v

theorem varMS_fin {z : Mat 50000 128} (hz : FinM z) : FinF (varMS z) := by
  rw [varMS_eq_varDev hz]; exact varDev_fin hz

theorem bn_fin {z : Mat 50000 128} {mu var gamma beta : Fin 128 → EReal} (hz : FinM z) (hmu : FinF mu)
    (hvar : ∀ d, ∃ v : ℝ, 0 ≤ v ∧ var d = (v : EReal)) (hg : FinF gamma) (hb : FinF beta) :
    FinM (bn z mu var gamma beta) := by
  intro j
  obtain ⟨v, hv, e⟩ := hvar (j 1)
  obtain ⟨ε, hε, e'⟩ := bnEps_eq
  show IsReal (((z j - mu (j 1)) * Ideal.rsqrt (var (j 1) + bnEps)) * gamma (j 1) + beta (j 1))
  rw [e, e']
  exact IsReal.add (IsReal.mul (IsReal.mul (IsReal.sub (hz j) (hmu _)) (isReal_rsqrt v ε hv hε)) (hg _)) (hb _)

theorem act_fin {x : Mat 50000 128} (hx : FinM x) : FinM (act x) := fun j => lrelu_isReal (hx j)

section Layer
variable {h agg : Mat 50000 128} {W1 : Mat 128 128} {b1 : Fin 128 → EReal} {W2 : Mat 128 128} {b2 : Fin 128 → EReal}
  {gamma beta : Fin 128 → EReal}

theorem layerMS_eq_layerDev (withAct : Bool) (hh : FinM h) (ha : FinM agg) (hW1 : FinM W1) (hb1 : FinF b1)
    (hW2 : FinM W2) (hb2 : FinF b2) :
    layerMS withAct h agg W1 b1 W2 b2 gamma beta = layerDev withAct h agg W1 b1 W2 b2 gamma beta := by
  dsimp only [layerMS, layerDev]
  rw [varMS_eq_varDev (zOf_fin hh ha hW1 hb1 hW2 hb2)]

theorem layerDev_fin (withAct : Bool) (hh : FinM h) (ha : FinM agg) (hW1 : FinM W1) (hb1 : FinF b1)
    (hW2 : FinM W2) (hb2 : FinF b2) (hg : FinF gamma) (hb : FinF beta) :
    FinM (layerDev withAct h agg W1 b1 W2 b2 gamma beta) := by
  have hz := zOf_fin hh ha hW1 hb1 hW2 hb2
  have hy := bn_fin hz (mean_fin hz) (varDev_real_nonneg hz) hg hb
  dsimp only [layerDev]
  cases withAct
  · simpa using hy
  · simpa using act_fin hy

theorem layerMS_fin (withAct : Bool) (hh : FinM h) (ha : FinM agg) (hW1 : FinM W1) (hb1 : FinF b1)
    (hW2 : FinM W2) (hb2 : FinF b2) (hg : FinF gamma) (hb : FinF beta) :
    FinM (layerMS withAct h agg W1 b1 W2 b2 gamma beta) := by
  rw [layerMS_eq_layerDev withAct hh ha hW1 hb1 hW2 hb2]
  exact layerDev_fin withAct hh ha hW1 hb1 hW2 hb2 hg hb

end Layer

end Cert.Spec

end
-- ==== Proof.SpecMath.lean ====
import proofs.«407097_j78262894068282_1_alg».proof.Proof.Spec
import proofs.«407097_j78262894068282_1_alg».proof.Proof.SpecMathFin

noncomputable section

namespace Cert.Spec

open Idealize.ShloMosaic Idealize.ShloMosaic.ValueIdx

theorem sliceM_fin {W : (⟨3, ![8, 128, 128]⟩ : Shape).Idx → EReal} (hW : ∀ j, W j ≠ ⊤ ∧ W j ≠ ⊥) (i : Fin 8) :
    FinM (sliceM W i) := fun _ => hW _

theorem sliceV_fin {b : Mat 8 128} (hb : FinM b) (i : Fin 8) : FinF (sliceV b i) := fun _ => hb _

theorem stepMS_eq_stepDev (I : Inputs) (hI : I.Finite) (i : Fin 8) {h : Mat 50000 128} (hh : FinM h) :
    stepMS I i h = stepDev I i h :=
  layerMS_eq_layerDev _ hh (aggOf_fin hh _ _) (sliceM_fin hI.W1s i) (sliceV_fin hI.b1s i) (sliceM_fin hI.W2s i)
    (sliceV_fin hI.b2s i)

theorem stepDev_fin (I : Inputs) (hI : I.Finite) (i : Fin 8) {h : Mat 50000 128} (hh : FinM h) :
    FinM (stepDev I i h) :=
  layerDev_fin _ hh (aggOf_fin hh _ _) (sliceM_fin hI.W1s i) (sliceV_fin hI.b1s i) (sliceM_fin hI.W2s i)
    (sliceV_fin hI.b2s i) (sliceV_fin hI.gammas i) (sliceV_fin hI.betas i)

theorem stepMS_fin (I : Inputs) (hI : I.Finite) (i : Fin 8) {h : Mat 50000 128} (hh : FinM h) :
    FinM (stepMS I i h) := by
  rw [stepMS_eq_stepDev I hI i hh]; exact stepDev_fin I hI i hh

theorem netDev_fin (I : Inputs) (hI : I.Finite) : FinM (netDev I) :=
  stepDev_fin I hI 7 (stepDev_fin I hI 6 (stepDev_fin I hI 5 (stepDev_fin I hI 4 (stepDev_fin I hI 3
    (stepDev_fin I hI 2 (stepDev_fin I hI 1 (stepDev_fin I hI 0 hI.x)))))))

theorem net_eq (I : Inputs) (hI : I.Finite) : netMS I = netDev I := by
  have f0 := stepDev_fin I hI 0 hI.x
  have f1 := stepDev_fin I hI 1 f0
  have f2 := stepDev_fin I hI 2 f1
  have f3 := stepDev_fin I hI 3 f2
  have f4 := stepDev_fin I hI 4 f3
  have f5 := stepDev_fin I hI 5 f4
  have f6 := stepDev_fin I hI 6 f5
  unfold netMS netDev
  rw [stepMS_eq_stepDev I hI 0 hI.x, stepMS_eq_stepDev I hI 1 f0, stepMS_eq_stepDev I hI 2 f1,
    stepMS_eq_stepDev I hI 3 f2, stepMS_eq_stepDev I hI 4 f3, stepMS_eq_stepDev I hI 5 f4,
    stepMS_eq_stepDev I hI 6 f5, stepMS_eq_stepDev I hI 7 f6]

theorem netMS_fin (I : Inputs) (hI : I.Finite) : FinM (netMS I) := by
  rw [net_eq I hI]; exact netDev_fin I hI

end Cert.Spec

end
-- ==== Proof.lean ====
import proofs.«407097_j78262894068282_1_alg».proof.Defs
import proofs.«407097_j78262894068282_1_alg».proof.Proof.Gen.Kernel
import proofs.«407097_j78262894068282_1_alg».proof.Proof.Gen.Kernel.Frame
import proofs.«407097_j78262894068282_1_alg».proof.Proof.Gen.KernelIdeal
import proofs.«407097_j78262894068282_1_alg».proof.Proof.Gen.KernelIdeal.Frame
import proofs.«407097_j78262894068282_1_alg».proof.Proof.Gen.ReferenceIdeal
import proofs.«407097_j78262894068282_1_alg».proof.Proof.Gen.Pre_finite_inputs
import proofs.«407097_j78262894068282_1_alg».proof.Proof.KRun
import proofs.«407097_j78262894068282_1_alg».proof.Proof.KValue
import proofs.«407097_j78262894068282_1_alg».proof.Proof.RefValue
import proofs.«407097_j78262894068282_1_alg».proof.Proof.Head
import proofs.«407097_j78262894068282_1_alg».proof.Proof.Bridge
import proofs.«407097_j78262894068282_1_alg».proof.Proof.SpecMath
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

-- Both sides are eight layers, a row softmax, per-graph sums and one head; on finite inputs the two forms of a column's variance agree.
theorem algebraic : Cert.algebraic_KernelIdeal_ReferenceIdeal := by
  intro m g m' g' hpre hagree
  refine ⟨fun c => Cert.KernelIdeal.Gen.W36 m g c (Proc.devRef .tc Cert.KernelIdeal.main_v297),
    fun c => Cert.KernelIdeal.Gen.W36 m g c (Proc.devRef .tc Cert.KernelIdeal.main_v277_0),
    Cert.KernelIdeal.GenP.run m g, ?_⟩
  refine (θ_run (Cert.ReferenceIdeal.defs (F := Ideal)) _ _).mono (fun r h c => ?_) (Cert.ReferenceIdeal.Val.run_value m' g')
  obtain ⟨hout, hassign, hargs⟩ := h c
  obtain ⟨e0, e1, e2, e3, e4, e5, e6, e7, e8, e9, e10, e11, e12, e13⟩ := hagree c
  have a0 : launchContents m' c (Proc.devRef .tc Cert.ReferenceIdeal.main_arg0) = m ((c.tc : Thread Cert.KernelIdeal.nD Cert.KernelIdeal.τ).loc Cert.KernelIdeal.main_arg0) := e0
  have a1 : launchContents m' c (Proc.devRef .tc Cert.ReferenceIdeal.main_arg1) = m ((c.tc : Thread Cert.KernelIdeal.nD Cert.KernelIdeal.τ).loc Cert.KernelIdeal.main_arg1) := e1
  have a2 : launchContents m' c (Proc.devRef .tc Cert.ReferenceIdeal.main_arg2) = m ((c.tc : Thread Cert.KernelIdeal.nD Cert.KernelIdeal.τ).loc Cert.KernelIdeal.main_arg2) := e2
  have a3 : launchContents m' c (Proc.devRef .tc Cert.ReferenceIdeal.main_arg3) = m ((c.tc : Thread Cert.KernelIdeal.nD Cert.KernelIdeal.τ).loc Cert.KernelIdeal.main_arg3) := e3
  have a4 : launchContents m' c (Proc.devRef .tc Cert.ReferenceIdeal.main_arg4) = m ((c.tc : Thread Cert.KernelIdeal.nD Cert.KernelIdeal.τ).loc Cert.KernelIdeal.main_arg4) := e4
  have a5 : launchContents m' c (Proc.devRef .tc Cert.ReferenceIdeal.main_arg5) = m ((c.tc : Thread Cert.KernelIdeal.nD Cert.KernelIdeal.τ).loc Cert.KernelIdeal.main_arg5) := e5
  have a6 : launchContents m' c (Proc.devRef .tc Cert.ReferenceIdeal.main_arg6) = m ((c.tc : Thread Cert.KernelIdeal.nD Cert.KernelIdeal.τ).loc Cert.KernelIdeal.main_arg6) := e6
  have a7 : launchContents m' c (Proc.devRef .tc Cert.ReferenceIdeal.main_arg7) = m ((c.tc : Thread Cert.KernelIdeal.nD Cert.KernelIdeal.τ).loc Cert.KernelIdeal.main_arg7) := e7
  have a8 : launchContents m' c (Proc.devRef .tc Cert.ReferenceIdeal.main_arg8) = m ((c.tc : Thread Cert.KernelIdeal.nD Cert.KernelIdeal.τ).loc Cert.KernelIdeal.main_arg8) := e8
  have a9 : launchContents m' c (Proc.devRef .tc Cert.ReferenceIdeal.main_arg9) = m ((c.tc : Thread Cert.KernelIdeal.nD Cert.KernelIdeal.τ).loc Cert.KernelIdeal.main_arg9) := e9
  have a10 : launchContents m' c (Proc.devRef .tc Cert.ReferenceIdeal.main_arg10) = m ((c.tc : Thread Cert.KernelIdeal.nD Cert.KernelIdeal.τ).loc Cert.KernelIdeal.main_arg10) := e10
  have a11 : launchContents m' c (Proc.devRef .tc Cert.ReferenceIdeal.main_arg11) = m ((c.tc : Thread Cert.KernelIdeal.nD Cert.KernelIdeal.τ).loc Cert.KernelIdeal.main_arg11) := e11
  have a12 : launchContents m' c (Proc.devRef .tc Cert.ReferenceIdeal.main_arg12) = m ((c.tc : Thread Cert.KernelIdeal.nD Cert.KernelIdeal.τ).loc Cert.KernelIdeal.main_arg12) := e12
  have a13 : launchContents m' c (Proc.devRef .tc Cert.ReferenceIdeal.main_arg13) = m ((c.tc : Thread Cert.KernelIdeal.nD Cert.KernelIdeal.τ).loc Cert.KernelIdeal.main_arg13) := e13

  have hI : Cert.ReferenceIdeal.Val.inputsOf (launchContents m' c) = Cert.KernelIdeal.Val.inputs m c := by
    show Cert.Bridge.inputsR (launchContents m' c (Proc.devRef .tc Cert.ReferenceIdeal.main_arg0)) (launchContents m' c (Proc.devRef .tc Cert.ReferenceIdeal.main_arg1)) (launchContents m' c (Proc.devRef .tc Cert.ReferenceIdeal.main_arg4))
        (launchContents m' c (Proc.devRef .tc Cert.ReferenceIdeal.main_arg5)) (launchContents m' c (Proc.devRef .tc Cert.ReferenceIdeal.main_arg6)) (launchContents m' c (Proc.devRef .tc Cert.ReferenceIdeal.main_arg7))
        (launchContents m' c (Proc.devRef .tc Cert.ReferenceIdeal.main_arg8)) (launchContents m' c (Proc.devRef .tc Cert.ReferenceIdeal.main_arg9)) = _
    rw [a0, a1, a4, a5, a6, a7, a8, a9]
    exact (Cert.Bridge.inputs_eq _ _ _ _ _ _ _ _).symm

  have hfin : (Cert.KernelIdeal.Val.inputs m c).Finite :=
    Cert.Bridge.inputs_finite_of_pre _ _ _ _ _ _ _ _ _ _ _ _ _ _ (hpre c)
  have hnet : Cert.Spec.netDev (Cert.ReferenceIdeal.Val.inputsOf (launchContents m' c))
      = Cert.Spec.netMS (Cert.KernelIdeal.Val.inputs m c) := by
    rw [hI]; exact (Cert.Spec.net_eq _ hfin).symm
  refine ⟨?_, ?_, hargs⟩
  · refine hout.trans ?_
    show _ = Cert.KernelIdeal.Gen.W36 m g c (Proc.devRef .tc Cert.KernelIdeal.main_v297)
    rw [Cert.KernelIdeal.Val.W36_out m g c, hnet, a2, a3, a10, a11, a12, a13, Cert.Bridge.batchCol_eq,
      Cert.Head.headK_eq_headR]
  · refine hassign.trans ?_
    show _ = Cert.KernelIdeal.Gen.W36 m g c (Proc.devRef .tc Cert.KernelIdeal.main_v277_0)
    rw [Cert.KernelIdeal.Val.W36_assign m g c, hnet, a3]

-- The three frames, the empty ledger and the equivalence, in the statement's order.
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run (Cert.ReferenceIdeal.defs (F := Ideal)) _ _).mono (fun _ h c => (h c).2.2)
      (Cert.ReferenceIdeal.Val.run_value m ρ),
    trivial,
    algebraic⟩

end Cert.Proof

end
